-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v168)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1599454 : Shape := ⟨2, ![2, 1599454]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_v28 : IVec S_ 1) (main_v33 : IVec S50000 1) : IVec S_ 1 :=
  let main_c_12 : IVec S_ 1 := constantI S_ 1 1#1
  let main_v34 : IVec S_ 1 := (fun x v => Host.reduce IntOp.andi x v reducesTo_S50000_S_d0 h_S_) main_v33 main_c_12
  let main_v35 : IVec S_ 1 := andi main_v28 main_v34
  main_v35

def fn_part1 {F : FTy → Type} [FloatOps F] (main_arg2 : IVec S50000 32) (main_arg6 : FVec F S3x128 .f32) (main_arg7 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_c_10 : IVec S_ 32 := constantI S_ 32 0#32
  let main_v29 : IVec S50000 32 := broadcastInDim S50000 ![] bcast_S_S50000 main_c_10
  let main_v30 : IVec S50000 1 := cmpi .sge main_arg2 main_v29
  let main_c_11 : IVec S_ 32 := constantI S_ 32 64#32
  let main_v31 : IVec S50000 32 := broadcastInDim S50000 ![] bcast_S_S50000 main_c_11
  let main_v32 : IVec S50000 1 := cmpi .slt main_arg2 main_v31
  let main_v33 : IVec S50000 1 := andi main_v30 main_v32
  fn_part2 (F := F) main_v28 main_v33

def fn {F : FTy → Type} [FloatOps F] (main_arg0 : FVec F S50000x128 .f32) (main_arg1 : IVec S2x1599454 32) (main_arg2 : IVec S50000 32) (main_arg3 : FVec F S3x128x128 .f32) (main_arg4 : FVec F S3x128 .f32) (main_arg5 : FVec F S3x128 .f32) (main_arg6 : FVec F S3x128 .f32) (main_arg7 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg2 main_arg6 main_arg7 main_v13 main_v16
-- ==== Kernel.lean ====
abbrev S50000x128 : Shape := ⟨2, ![50000, 128]⟩
abbrev S2x1599454 : Shape := ⟨2, ![2, 1599454]⟩
abbrev S50000 : Shape := ⟨1, ![50000]⟩
abbrev S3x128x128 : Shape := ⟨3, ![3, 128, 128]⟩
abbrev S3x128 : Shape := ⟨2, ![3, 128]⟩
abbrev S1x1599454 : Shape := ⟨2, ![1, 1599454]⟩
abbrev S1599454 : Shape := ⟨1, ![1599454]⟩
abbrev S1649454 : Shape := ⟨1, ![1649454]⟩
abbrev S_ : Shape := ⟨0, ![]⟩
abbrev S1649454x1 : Shape := ⟨2, ![1649454, 1]⟩
abbrev S50000x1 : Shape := ⟨2, ![50000, 1]⟩
abbrev S64 : Shape := ⟨1, ![64]⟩
abbrev S64x1 : Shape := ⟨2, ![64, 1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2000x128 : Shape := ⟨2, ![2000, 128]⟩
abbrev S2000x1 : Shape := ⟨2, ![2000, 1]⟩
abbrev S1649454x128 : Shape := ⟨2, ![1649454, 128]⟩
abbrev S64x128 : Shape := ⟨2, ![64, 128]⟩
abbrev S128x256 : Shape := ⟨2, ![128, 256]⟩
abbrev S2000x256 : Shape := ⟨2, ![2000, 256]⟩

abbrev nBuf : Space → Nat
  | .hbm => 213
  | .vmem => 105
  | .smem => 0
  | _ => 0

abbrev hbmTy0_0 (i : Nat) : BufTy := match i % 128 with
  | 0 => ⟨S50000x128, .f32⟩
  | 1 => ⟨S2x1599454, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S1x1599454, .i32⟩
  | 9 => ⟨S1599454, .i32⟩
  | 10 => ⟨S1x1599454, .i32⟩
  | 11 => ⟨S1599454, .i32⟩
  | 12 => ⟨S50000, .i32⟩
  | 13 => ⟨S1649454, .i32⟩
  | 14 => ⟨S1649454, .i32⟩
  | 15 => ⟨S_, .f32⟩
  | 16 => ⟨S1649454, .f32⟩
  | 17 => ⟨S_, .f32⟩
  | 18 => ⟨S50000, .f32⟩
  | 19 => ⟨S1649454x1, .i32⟩
  | 20 => ⟨S50000, .f32⟩
  | 21 => ⟨S_, .f32⟩
  | 22 => ⟨S50000, .f32⟩
  | 23 => ⟨S50000, .i1⟩
  | 24 => ⟨S_, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S_, .f32⟩
  | 31 => ⟨S50000, .f32⟩
  | 32 => ⟨S_, .f32⟩
  | 33 => ⟨S64, .f32⟩
  | 34 => ⟨S50000x1, .i32⟩
  | 35 => ⟨S64, .f32⟩
  | 36 => ⟨S_, .f32⟩
  | 37 => ⟨S64, .f32⟩
  | 38 => ⟨S64, .f32⟩
  | 39 => ⟨S64x1, .f32⟩
  | 40 => ⟨S50000x1, .i32⟩
  | 41 => ⟨S1x128, .f32⟩
  | 42 => ⟨S128, .f32⟩
  | 43 => ⟨S1x128, .f32⟩
  | 44 => ⟨S1x128x128, .f32⟩
  | 45 => ⟨S128x128, .f32⟩
  | 46 => ⟨S50000x128, .bf16⟩
  | 47 => ⟨S_, .i32⟩
  | 48 => ⟨S1649454, .i32⟩
  | 49 => ⟨S1649454, .i1⟩
  | 50 => ⟨S_, .i32⟩
  | 51 => ⟨S1649454, .i32⟩
  | 52 => ⟨S1649454, .i32⟩
  | 53 => ⟨S1649454, .i32⟩
  | 54 => ⟨S1649454x1, .i32⟩
  | 55 => ⟨S1649454x128, .bf16⟩
  | 56 => ⟨S1649454x128, .f32⟩
  | 57 => ⟨S_, .f32⟩
  | 58 => ⟨S50000x128, .f32⟩
  | 59 => ⟨S1649454x1, .i32⟩
  | 60 => ⟨S50000x128, .f32⟩
  | 61 => ⟨S128x128, .f32⟩
  | 62 => ⟨S128x128, .f32⟩
  | 63 => ⟨S64x128, .f32⟩
  | 64 => ⟨S64x128, .f32⟩
  | 65 => ⟨S64x128, .f32⟩
  | 66 => ⟨S1x128, .f32⟩
  | 67 => ⟨S128, .f32⟩
  | 68 => ⟨S64x128, .f32⟩
  | 69 => ⟨S64x128, .f32⟩
  | 70 => ⟨S64x128, .f32⟩
  | 71 => ⟨S_, .f32⟩
  | 72 => ⟨S128, .f32⟩
  | 73 => ⟨S128, .f32⟩
  | 74 => ⟨S128, .f32⟩
  | 75 => ⟨S1x128, .f32⟩
  | 76 => ⟨S64x128, .f32⟩
  | 77 => ⟨S64x128, .f32⟩
  | 78 => ⟨S64x128, .f32⟩
  | 79 => ⟨S64x128, .f32⟩
  | 80 => ⟨S_, .i32⟩
  | 81 => ⟨S_, .f32⟩
  | 82 => ⟨S128x128, .f32⟩
  | 83 => ⟨S_, .i32⟩
  | 84 => ⟨S_, .f32⟩
  | 85 => ⟨S128x128, .f32⟩
  | 86 => ⟨S128x256, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S50000x128, .f32⟩
  | 97 => ⟨S1x128, .f32⟩
  | 98 => ⟨S128, .f32⟩
  | 99 => ⟨S1x128, .f32⟩
  | 100 => ⟨S1x128x128, .f32⟩
  | 101 => ⟨S128x128, .f32⟩
  | 102 => ⟨S50000x128, .bf16⟩
  | 103 => ⟨S_, .i32⟩
  | 104 => ⟨S1649454, .i32⟩
  | 105 => ⟨S1649454, .i1⟩
  | 106 => ⟨S_, .i32⟩
  | 107 => ⟨S1649454, .i32⟩
  | 108 => ⟨S1649454, .i32⟩
  | 109 => ⟨S1649454, .i32⟩
  | 110 => ⟨S1649454x1, .i32⟩
  | 111 => ⟨S1649454x128, .bf16⟩
  | 112 => ⟨S1649454x128, .f32⟩
  | 113 => ⟨S_, .f32⟩
  | 114 => ⟨S50000x128, .f32⟩
  | 115 => ⟨S1649454x1, .i32⟩
  | 116 => ⟨S50000x128, .f32⟩
  | 117 => ⟨S128x128, .f32⟩
  | 118 => ⟨S128x128, .f32⟩
  | 119 => ⟨S64x128, .f32⟩
  | 120 => ⟨S64x128, .f32⟩
  | 121 => ⟨S64x128, .f32⟩
  | 122 => ⟨S1x128, .f32⟩
  | 123 => ⟨S128, .f32⟩
  | 124 => ⟨S64x128, .f32⟩
  | 125 => ⟨S64x128, .f32⟩
  | 126 => ⟨S64x128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S64x128, .f32⟩
  | 5 => ⟨S64x128, .f32⟩
  | 6 => ⟨S64x128, .f32⟩
  | 7 => ⟨S64x128, .f32⟩
  | 8 => ⟨S_, .i32⟩
  | 9 => ⟨S_, .f32⟩
  | 10 => ⟨S128x128, .f32⟩
  | 11 => ⟨S_, .i32⟩
  | 12 => ⟨S_, .f32⟩
  | 13 => ⟨S128x128, .f32⟩
  | 14 => ⟨S128x256, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S50000x128, .f32⟩
  | 25 => ⟨S1x128, .f32⟩
  | 26 => ⟨S128, .f32⟩
  | 27 => ⟨S1x128, .f32⟩
  | 28 => ⟨S1x128x128, .f32⟩
  | 29 => ⟨S128x128, .f32⟩
  | 30 => ⟨S50000x128, .bf16⟩
  | 31 => ⟨S_, .i32⟩
  | 32 => ⟨S1649454, .i32⟩
  | 33 => ⟨S1649454, .i1⟩
  | 34 => ⟨S_, .i32⟩
  | 35 => ⟨S1649454, .i32⟩
  | 36 => ⟨S1649454, .i32⟩
  | 37 => ⟨S1649454, .i32⟩
  | 38 => ⟨S1649454x1, .i32⟩
  | 39 => ⟨S1649454x128, .bf16⟩
  | 40 => ⟨S1649454x128, .f32⟩
  | 41 => ⟨S_, .f32⟩
  | 42 => ⟨S50000x128, .f32⟩
  | 43 => ⟨S1649454x1, .i32⟩
  | 44 => ⟨S50000x128, .f32⟩
  | 45 => ⟨S128x128, .f32⟩
  | 46 => ⟨S128x128, .f32⟩
  | 47 => ⟨S64x128, .f32⟩
  | 48 => ⟨S64x128, .f32⟩
  | 49 => ⟨S64x128, .f32⟩
  | 50 => ⟨S1x128, .f32⟩
  | 51 => ⟨S128, .f32⟩
  | 52 => ⟨S64x128, .f32⟩
  | 53 => ⟨S64x128, .f32⟩
  | 54 => ⟨S64x128, .f32⟩
  | 55 => ⟨S_, .f32⟩
  | 56 => ⟨S128, .f32⟩
  | 57 => ⟨S128, .f32⟩
  | 58 => ⟨S128, .f32⟩
  | 59 => ⟨S1x128, .f32⟩
  | 60 => ⟨S64x128, .f32⟩
  | 61 => ⟨S64x128, .f32⟩
  | 62 => ⟨S64x128, .f32⟩
  | 63 => ⟨S64x128, .f32⟩
  | 64 => ⟨S_, .i32⟩
  | 65 => ⟨S_, .f32⟩
  | 66 => ⟨S128x128, .f32⟩
  | 67 => ⟨S_, .i32⟩
  | 68 => ⟨S_, .f32⟩
  | 69 => ⟨S128x128, .f32⟩
  | 70 => ⟨S128x256, .f32⟩
  | 71 => ⟨S1x128, .f32⟩
  | 72 => ⟨S128, .f32⟩
  | 73 => ⟨S1x128, .f32⟩
  | 74 => ⟨S1x128, .f32⟩
  | 75 => ⟨S128, .f32⟩
  | 76 => ⟨S1x128, .f32⟩
  | 77 => ⟨S1x128, .f32⟩
  | 78 => ⟨S128, .f32⟩
  | 79 => ⟨S1x128, .f32⟩
  | 80 => ⟨S50000x128, .f32⟩
  | 81 => ⟨S128x128, .f32⟩
  | 82 => ⟨S64x128, .f32⟩
  | 83 => ⟨S64x128, .f32⟩
  | 84 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .i32⟩
  | .local _ .vmem, ⟨10, _⟩ => ⟨S2000x1, .i32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .i32⟩
  | .local _ .vmem, ⟨23, _⟩ => ⟨S2000x1, .i32⟩
  | .local _ .vmem, ⟨24, _⟩ => ⟨S2000x1, .f32⟩
  | .local _ .vmem, ⟨25, _⟩ => ⟨S2000x1, .f32⟩
  | .local _ .vmem, ⟨26, _⟩ => ⟨S1x128, .f32⟩
  | .local _ .vmem, ⟨27, _⟩ => ⟨S128x256, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128x128, .f32⟩
  | .local _ .vmem, ⟨36, _⟩ => ⟨S2000x1, .f32⟩
  | .local _ .vmem, ⟨37, _⟩ => ⟨S2000x1, .f32⟩
  | .local _ .vmem, ⟨38, _⟩ => ⟨S2000x128, .bf16⟩
  | .local _ .vmem, ⟨39, _⟩ => ⟨S2000x128, .bf16⟩
  | .local _ .vmem, ⟨40, _⟩ => ⟨S2000x128, .f32⟩
  | .local _ .vmem, ⟨41, _⟩ => ⟨S2000x128, .f32⟩
  | .local _ .vmem, ⟨42, _⟩ => ⟨S2000x1, .i32⟩
  | .local _ .vmem, ⟨43, _⟩ => ⟨S2000x1, .i32⟩
  | .local _ .vmem, ⟨44, _⟩ => ⟨S2000x1, .f32⟩
  | .local _ .vmem, ⟨45, _⟩ => ⟨S2000x1, .f32⟩
  | .local _ .vmem, ⟨46, _⟩ => ⟨S1x128, .f32⟩
  | .local _ .vmem, ⟨47, _⟩ => ⟨S128x128, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x1, .i32⟩
  | .local _ .vmem, ⟨56, _⟩ => ⟨S2000x1, .i32⟩
  | .local _ .vmem, ⟨57, _⟩ => ⟨S2000x1, .f32⟩
  | .local _ .vmem, ⟨58, _⟩ => ⟨S2000x1, .f32⟩
  | .local _ .vmem, ⟨59, _⟩ => ⟨S1x128, .f32⟩
  | .local _ .vmem, ⟨60, _⟩ => ⟨S128x256, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S128x128, .f32⟩
  | .local _ .vmem, ⟨69, _⟩ => ⟨S2000x1, .f32⟩
  | .local _ .vmem, ⟨70, _⟩ => ⟨S2000x1, .f32⟩
  | .local _ .vmem, ⟨71, _⟩ => ⟨S2000x128, .bf16⟩
  | .local _ .vmem, ⟨72, _⟩ => ⟨S2000x128, .bf16⟩
  | .local _ .vmem, ⟨73, _⟩ => ⟨S2000x128, .f32⟩
  | .local _ .vmem, ⟨74, _⟩ => ⟨S2000x128, .f32⟩
  | .local _ .vmem, ⟨75, _⟩ => ⟨S2000x1, .i32⟩
  | .local _ .vmem, ⟨76, _⟩ => ⟨S2000x1, .i32⟩
  | .local _ .vmem, ⟨77, _⟩ => ⟨S2000x1, .f32⟩
  | .local _ .vmem, ⟨78, _⟩ => ⟨S2000x1, .f32⟩
  | .local _ .vmem, ⟨79, _⟩ => ⟨S1x128, .f32⟩
  | .local _ .vmem, ⟨80, _⟩ => ⟨S128x128, .f32⟩
  | .local _ .vmem, ⟨81, _⟩ => ⟨S128x128, .f32⟩
  | .local _ .vmem, ⟨82, _⟩ => ⟨S128x128, .f32⟩
  | .local _ .vmem, ⟨83, _⟩ => ⟨S128x128, .f32⟩
  | .local _ .vmem, ⟨84, _⟩ => ⟨S2000x128, .f32⟩
  | .local _ .vmem, ⟨85, _⟩ => ⟨S2000x128, .f32⟩
  | .local _ .vmem, ⟨86, _⟩ => ⟨S2000x128, .f32⟩
  | .local _ .vmem, ⟨87, _⟩ => ⟨S2000x128, .f32⟩
  | .local _ .vmem, ⟨88, _⟩ => ⟨S2000x1, .i32⟩
  | .local _ .vmem, ⟨89, _⟩ => ⟨S2000x1, .i32⟩
  | .local _ .vmem, ⟨90, _⟩ => ⟨S2000x1, .f32⟩
  | .local _ .vmem, ⟨91, _⟩ => ⟨S2000x1, .f32⟩
  | .local _ .vmem, ⟨92, _⟩ => ⟨S1x128, .f32⟩
  | .local _ .vmem, ⟨93, _⟩ => ⟨S128x256, .f32⟩
  | .local _ .vmem, ⟨94, _⟩ => ⟨S1x128, .f32⟩
  | .local _ .vmem, ⟨95, _⟩ => ⟨S1x128, .f32⟩
  | .local _ .vmem, ⟨96, _⟩ => ⟨S1x128, .f32⟩
  | .local _ .vmem, ⟨97, _⟩ => ⟨S2000x128, .f32⟩
  | .local _ .vmem, ⟨98, _⟩ => ⟨S2000x128, .f32⟩
  | .local _ .vmem, ⟨99, _⟩ => ⟨S2000x128, .f32⟩
  | .local _ .vmem, ⟨100, _⟩ => ⟨S2000x128, .f32⟩
  | .local _ .vmem, ⟨101, _⟩ => ⟨S2000x1, .i32⟩
  | .local _ .vmem, ⟨102, _⟩ => ⟨S2000x1, .i32⟩
  | .local _ .vmem, ⟨103, _⟩ => ⟨S128x128, .f32⟩
  | .local _ .vmem, ⟨104, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41_0 : Ref sig .tc := ⟨.hbm, 61, rfl⟩
abbrev main_v41_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_call1_v0 : Ref sig .tc := ⟨.hbm, 81, rfl⟩
abbrev main_v58 : Ref sig .tc := ⟨.hbm, 82, rfl⟩
abbrev main_c_10 : Ref sig .tc := ⟨.hbm, 83, rfl⟩
abbrev main_call2_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_11 : Ref sig .tc := ⟨.hbm, 103, rfl⟩
abbrev main_v77 : Ref sig .tc := ⟨.hbm, 104, rfl⟩
abbrev main_v78 : Ref sig .tc := ⟨.hbm, 105, rfl⟩
abbrev main_c_12 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88_0 : Ref sig .tc := ⟨.hbm, 117, rfl⟩
abbrev main_v88_1 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_14 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_15 : Ref sig .tc := ⟨.hbm, 136, rfl⟩
abbrev main_call3_v0 : Ref sig .tc := ⟨.hbm, 137, rfl⟩
abbrev main_v105 : Ref sig .tc := ⟨.hbm, 138, rfl⟩
abbrev main_c_16 : Ref sig .tc := ⟨.hbm, 139, rfl⟩
abbrev main_call4_v0 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_17 : Ref sig .tc := ⟨.hbm, 159, rfl⟩
abbrev main_v124 : Ref sig .tc := ⟨.hbm, 160, rfl⟩
abbrev main_v125 : Ref sig .tc := ⟨.hbm, 161, rfl⟩
abbrev main_c_18 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_19 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135_0 : Ref sig .tc := ⟨.hbm, 173, rfl⟩
abbrev main_v135_1 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_20 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_c_21 : Ref sig .tc := ⟨.hbm, 192, rfl⟩
abbrev main_call5_v0 : Ref sig .tc := ⟨.hbm, 193, rfl⟩
abbrev main_v152 : Ref sig .tc := ⟨.hbm, 194, rfl⟩
abbrev main_c_22 : Ref sig .tc := ⟨.hbm, 195, rfl⟩
abbrev main_call6_v0 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg9_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_scratch0 : Ref sig .tc := ⟨.vmem, 49, rfl⟩
abbrev cc4_scratch1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg3_1 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg7_0 : Ref sig .tc := ⟨.vmem, 62, rfl⟩
abbrev cc5_stg8_0 : Ref sig .tc := ⟨.vmem, 63, rfl⟩
abbrev cc5_stg9_0 : Ref sig .tc := ⟨.vmem, 64, rfl⟩
abbrev cc5_stg9_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg2_1 : Ref sig .tc := ⟨.vmem, 70, rfl⟩
abbrev cc6_stg3_0 : Ref sig .tc := ⟨.vmem, 71, rfl⟩
abbrev cc6_stg3_1 : Ref sig .tc := ⟨.vmem, 72, rfl⟩
abbrev cc7_stg0_0 : Ref sig .tc := ⟨.vmem, 73, rfl⟩
abbrev cc7_stg0_1 : Ref sig .tc := ⟨.vmem, 74, rfl⟩
abbrev cc7_stg1_0 : Ref sig .tc := ⟨.vmem, 75, rfl⟩
abbrev cc7_stg1_1 : Ref sig .tc := ⟨.vmem, 76, rfl⟩
abbrev cc7_stg2_0 : Ref sig .tc := ⟨.vmem, 77, rfl⟩
abbrev cc7_stg2_1 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg5_0 : Ref sig .tc := ⟨.vmem, 81, rfl⟩
abbrev cc7_scratch0 : Ref sig .tc := ⟨.vmem, 82, rfl⟩
abbrev cc7_scratch1 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg1_1 : Ref sig .tc := ⟨.vmem, 87, rfl⟩
abbrev cc8_stg2_0 : Ref sig .tc := ⟨.vmem, 88, rfl⟩
abbrev cc8_stg2_1 : Ref sig .tc := ⟨.vmem, 89, rfl⟩
abbrev cc8_stg3_0 : Ref sig .tc := ⟨.vmem, 90, rfl⟩
abbrev cc8_stg3_1 : Ref sig .tc := ⟨.vmem, 91, rfl⟩
abbrev cc8_stg4_0 : Ref sig .tc := ⟨.vmem, 92, rfl⟩
abbrev cc8_stg5_0 : Ref sig .tc := ⟨.vmem, 93, rfl⟩
abbrev cc8_stg6_0 : Ref sig .tc := ⟨.vmem, 94, rfl⟩
abbrev cc8_stg7_0 : Ref sig .tc := ⟨.vmem, 95, rfl⟩
abbrev cc8_stg8_0 : Ref sig .tc := ⟨.vmem, 96, rfl⟩
abbrev cc8_stg9_0 : Ref sig .tc := ⟨.vmem, 97, rfl⟩
abbrev cc8_stg9_1 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg1_1 : Ref sig .tc := ⟨.vmem, 102, rfl⟩
abbrev cc9_stg2_0 : Ref sig .tc := ⟨.vmem, 103, rfl⟩
abbrev cc9_scratch0 : Ref sig .tc := ⟨.vmem, 104, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem9_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem2_1 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem3_1 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem8_0 : DmaSem sig := 59
abbrev cc5_sem9_0 : DmaSem sig := 60
abbrev cc5_sem9_1 : DmaSem sig := 61
abbrev cc6_sem0_0 : DmaSem sig := 62
abbrev cc6_sem0_1 : DmaSem sig := 63
abbrev cc6_sem1_0 : DmaSem sig := 64
abbrev cc6_sem2_0 : DmaSem sig := 65
abbrev cc6_sem2_1 : DmaSem sig := 66
abbrev cc6_sem3_0 : DmaSem sig := 67
abbrev cc6_sem3_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem2_1 : DmaSem sig := 74
abbrev cc7_sem3_0 : DmaSem sig := 75
abbrev cc7_sem4_0 : DmaSem sig := 76
abbrev cc7_sem5_0 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem2_1 : DmaSem sig := 83
abbrev cc8_sem3_0 : DmaSem sig := 84
abbrev cc8_sem3_1 : DmaSem sig := 85
abbrev cc8_sem4_0 : DmaSem sig := 86
abbrev cc8_sem5_0 : DmaSem sig := 87
abbrev cc8_sem6_0 : DmaSem sig := 88
abbrev cc8_sem7_0 : DmaSem sig := 89
abbrev cc8_sem8_0 : DmaSem sig := 90
abbrev cc8_sem9_0 : DmaSem sig := 91
abbrev cc8_sem9_1 : DmaSem sig := 92
abbrev cc9_sem0_0 : DmaSem sig := 93
abbrev cc9_sem0_1 : DmaSem sig := 94
abbrev cc9_sem1_0 : DmaSem sig := 95
abbrev cc9_sem1_1 : DmaSem sig := 96
abbrev cc9_sem2_0 : DmaSem sig := 97

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_17 : BitVec 32 := 0#32
  let v35 : BitVec 1 := Scalar.cmpi .ne v34 c0_i32_17
  v35

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_17 : BitVec 32 := 0#32
  let v35 : BitVec 1 := Scalar.cmpi .ne v34 c0_i32_17
  v35

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v33 : BitVec 1 := Scalar.cmpi .eq arg0 c24_i32
  let v34 : BitVec 32 := Scalar.extui v33
  let c0_i32_17 : BitVec 32 := 0#32
  let v35 : BitVec 1 := Scalar.cmpi .ne v34 c0_i32_17
  v35

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x1 .i32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S2000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![25], ![false]⟩

def k9_cond2 (i : grid9.Coords) : BitVec 1 :=
  let arg0 : BitVec 32 := BitVec.ofNat 32 (i 0).val
  let c24_i32 : BitVec 32 := 24#32
  let v18 : BitVec 1 := Scalar.cmpi .eq arg0 c24_i32
  let v19 : BitVec 32 := Scalar.extui v18
  let c0_i32_8 : BitVec 32 := 0#32
  let v20 : BitVec 1 := Scalar.cmpi .ne v19 c0_i32_8
  v20

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

class Facts₀ : Prop where
  slices_S2x1599454_S1x1599454_0_0 : S2x1599454.Slices ![0, 0] S1x1599454
  shapeCasts_S1x1599454_S1599454 : S1x1599454.ShapeCasts S1599454
  slices_S2x1599454_S1x1599454_1_0 : S2x1599454.Slices ![1, 0] S1x1599454
  concatenates_S1599454_S50000_S1649454_d0 : Shape.Concatenates [S1599454, S50000] S1649454 0
  bcast_S_S1649454 : S_.BroadcastsInDim S1649454 (![] : Fin 0 → Fin S1649454.rank)
  bcast_S_S50000 : S_.BroadcastsInDim S50000 (![] : Fin 0 → Fin S50000.rank)
  bcast_S1649454_S1649454x1_0 : S1649454.BroadcastsInDim S1649454x1 (![0] : Fin 1 → Fin S1649454x1.rank)
  shapeCasts_S50000_S50000x1 : S50000.ShapeCasts S50000x1
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  iota_S2000x128_d1_w32 : S2000x128.Iotas .tc 32 [1]
  natLt_1_32 : 1 < 32
  slices_S128x128_S64x128_0_0 : S128x128.Slices ![0, 0] S64x128
  bcast_S64x1_S64x128_0_1 : S64x1.BroadcastsInDim S64x128 (![0, 1] : Fin 2 → Fin S64x128.rank)
  bcast_S_S128 : S_.BroadcastsInDim S128 (![] : Fin 0 → Fin S128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  pads_S64x128_S128x128_0640_000 : S64x128.Pads (![0, 0] : Fin 2 → Nat) ![64, 0] ![0, 0] S128x128
  h_S_ : 0 < S_.numel
  concatenates_S128x128_S128x128_S128x256_d1 : Shape.Concatenates [S128x128, S128x128] S128x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S2000x256_o0_0_S2000x128 : S2000x256.Slices ![0, 0] S2000x128
  slices_S2000x256_o0_128_S2000x128 : S2000x256.Slices ![0, 128] S2000x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  scatter_S50000_S1649454x1_S1649454_n_0_0_1_wf : ScatterDims.WF S50000 S1649454x1 S1649454 [] [0] [0] 1
  scatter_S64_S50000x1_S50000_n_0_0_1_wf : ScatterDims.WF S64 S50000x1 S50000 [] [0] [0] 1
  dot_S2000x128_S128x128_S2000x128_1_0_0_1_n_n_wf : DotDims.WF S2000x128 S128x128 S2000x128 [1] [0] [0] [1] [] []
  gather_S50000x128_S1649454x1_S1649454x128_1_0_n_n_0_1_1128_wf : GatherDims.WF S50000x128 S1649454x1 S1649454x128 [1] [0] [] [0] [] 1 ![1, 128]
  scatter_S50000x128_S1649454x1_S1649454x128_1_0_0_1_wf : ScatterDims.WF S50000x128 S1649454x1 S1649454x128 [1] [0] [0] 1
  dot_S2000x128_S2000x128_S128x128_0_0_1_1_n_n_wf : DotDims.WF S2000x128 S2000x128 S128x128 [0] [0] [1] [1] [] []
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .i32 = 32 ∨ (Rect.block (s := S50000x1) S2000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .i32 = 32 ∨ (Rect.block (s := S50000x1) S2000x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .bf16 = 32 ∨ (Rect.block (s := S50000x128) S2000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .i32 = 32 ∨ (Rect.block (s := S50000x1) S2000x1.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .i32 = 32 ∨ (Rect.block (s := S50000x1) S2000x1.size (cc5_transform_2 i) (hinb5_2 i)).WholeWords (EltTy.packing .i32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S50000x1.size a
  hwx5_3 : ∀ i : grid5.Coords, EltTy.bits .f32 = 32 ∨ (Rect.block (s := S50000x1) S2000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x256.size a ≤ S128x256.size a
  hwx5_5 : ∀ i : grid5.Coords, EltTy.bits .f32 = 32 ∨ (Rect.block (s := S128x256) S128x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x128.size a ≤ S50000x128.size a
  hwx5_9 : ∀ i : grid5.Coords, EltTy.bits .f32 = 32 ∨ (Rect.block (s := S50000x128) S2000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .bf16 = 32 ∨ (Rect.block (s := S50000x128) S2000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .i32 = 32 ∨ (Rect.block (s := S50000x1) S2000x1.size (cc7_transform_1 i) (hinb7_1 i)).WholeWords (EltTy.packing .i32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S50000x1.size a
  hwx8_2 : ∀ i : grid8.Coords, EltTy.bits .i32 = 32 ∨ (Rect.block (s := S50000x1) S2000x1.size (cc8_transform_2 i) (hinb8_2 i)).WholeWords (EltTy.packing .i32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x1.size a ≤ S50000x1.size a
  hwx8_3 : ∀ i : grid8.Coords, EltTy.bits .f32 = 32 ∨ (Rect.block (s := S50000x1) S2000x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x256.size a ≤ S128x256.size a
  hwx8_5 : ∀ i : grid8.Coords, EltTy.bits .f32 = 32 ∨ (Rect.block (s := S128x256) S128x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S2000x128.size a ≤ S50000x128.size a
  hwx8_9 : ∀ i : grid8.Coords, EltTy.bits .f32 = 32 ∨ (Rect.block (s := S50000x128) S2000x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S50000x1.size a
  hwx9_1 : ∀ i : grid9.Coords, EltTy.bits .i32 = 32 ∨ (Rect.block (s := S50000x1) S2000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)

variable [Facts₀]

def scatter_S50000_S1649454x1_S1649454_n_0_0_1 : ScatterDims S50000 S1649454x1 S1649454 where
  updateWindowDims := []
  insertedWindowDims := [0]
  scatterDimsToOperandDims := [0]
  indexVectorDim := 1
  wf := scatter_S50000_S1649454x1_S1649454_n_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1649454x1_S1649454x128_1_0_n_n_0_1_1128 : GatherDims S50000x128 S1649454x1 S1649454x128 where
  offsetDims := [1]
  collapsedSliceDims := [0]
  operandBatchingDims := []
  startIndicesBatchingDims := []
  startIndexMap := [0]
  indexVectorDim := 1
  sliceSizes := ![1, 128]
  wf := gather_S50000x128_S1649454x1_S1649454x128_1_0_n_n_0_1_1128_wf
def scatter_S50000x128_S1649454x1_S1649454x128_1_0_0_1 : ScatterDims S50000x128 S1649454x1 S1649454x128 where
  updateWindowDims := [1]
  insertedWindowDims := [0]
  scatterDimsToOperandDims := [0]
  indexVectorDim := 1
  wf := scatter_S50000x128_S1649454x1_S1649454x128_1_0_0_1_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41_0) S128x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41_1) S128x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v69) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v70) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v70) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v76) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v87) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88_0) S128x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88_1) S128x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v87) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v23) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v15) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v73) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v107) S128x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v110) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v113) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v116) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v117) S2000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v117) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v122) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v15) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v123) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v134) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v23) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v15) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v120) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135_0) S128x128.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v135_1) S128x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun i => !(k7_cond2 i == 1#1) | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v134) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v117) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v23) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v15) S2000x1.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v120) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v154) S128x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v157) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v160) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v163) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v164) S2000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v164) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v23) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v165) S128x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1599454 : Shape := ⟨2, ![2, 1599454]⟩
abbrev S50000 : Shape := ⟨1, ![50000]⟩
abbrev S3x128x128 : Shape := ⟨3, ![3, 128, 128]⟩
abbrev S3x128 : Shape := ⟨2, ![3, 128]⟩
abbrev S1x1599454 : Shape := ⟨2, ![1, 1599454]⟩
abbrev S1599454 : Shape := ⟨1, ![1599454]⟩
abbrev S1649454 : Shape := ⟨1, ![1649454]⟩
abbrev S_ : Shape := ⟨0, ![]⟩
abbrev S1649454x1 : Shape := ⟨2, ![1649454, 1]⟩
abbrev S64 : Shape := ⟨1, ![64]⟩
abbrev S50000x1 : Shape := ⟨2, ![50000, 1]⟩
abbrev S64x1 : Shape := ⟨2, ![64, 1]⟩
abbrev S1x128x128 : Shape := ⟨3, ![1, 128, 128]⟩
abbrev S128x128 : Shape := ⟨2, ![128, 128]⟩
abbrev S1649454x128 : Shape := ⟨2, ![1649454, 128]⟩
abbrev S1x128 : Shape := ⟨2, ![1, 128]⟩
abbrev S128 : Shape := ⟨1, ![128]⟩
abbrev S64x128 : Shape := ⟨2, ![64, 128]⟩

abbrev nBuf : Space → Nat
  | .hbm => 302
  | .vmem => 0
  | .smem => 0
  | _ => 0

abbrev hbmTy0_0 (i : Nat) : BufTy := match i % 128 with
  | 0 => ⟨S50000x128, .f32⟩
  | 1 => ⟨S2x1599454, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S1x1599454, .i32⟩
  | 9 => ⟨S1599454, .i32⟩
  | 10 => ⟨S1x1599454, .i32⟩
  | 11 => ⟨S1599454, .i32⟩
  | 12 => ⟨S50000, .i32⟩
  | 13 => ⟨S1649454, .i32⟩
  | 14 => ⟨S1649454, .i32⟩
  | 15 => ⟨S_, .f32⟩
  | 16 => ⟨S1649454, .f32⟩
  | 17 => ⟨S_, .f32⟩
  | 18 => ⟨S50000, .f32⟩
  | 19 => ⟨S1649454x1, .i32⟩
  | 20 => ⟨S50000, .f32⟩
  | 21 => ⟨S_, .f32⟩
  | 22 => ⟨S50000, .f32⟩
  | 23 => ⟨S50000, .i1⟩
  | 24 => ⟨S_, .f32⟩
  | 25 => ⟨S_, .f32⟩
  | 26 => ⟨S50000, .f32⟩
  | 27 => ⟨S50000, .f32⟩
  | 28 => ⟨S50000, .f32⟩
  | 29 => ⟨S_, .i32⟩
  | 30 => ⟨S1649454, .i32⟩
  | 31 => ⟨S1649454, .i1⟩
  | 32 => ⟨S_, .i32⟩
  | 33 => ⟨S1649454, .i32⟩
  | 34 => ⟨S1649454, .i32⟩
  | 35 => ⟨S1649454, .i32⟩
  | 36 => ⟨S1649454x1, .i32⟩
  | 37 => ⟨S1649454, .f32⟩
  | 38 => ⟨S_, .i32⟩
  | 39 => ⟨S1649454, .i32⟩
  | 40 => ⟨S1649454, .i1⟩
  | 41 => ⟨S_, .i32⟩
  | 42 => ⟨S1649454, .i32⟩
  | 43 => ⟨S1649454, .i32⟩
  | 44 => ⟨S1649454, .i32⟩
  | 45 => ⟨S1649454x1, .i32⟩
  | 46 => ⟨S1649454, .f32⟩
  | 47 => ⟨S1649454, .f32⟩
  | 48 => ⟨S1649454x1, .f32⟩
  | 49 => ⟨S_, .f32⟩
  | 50 => ⟨S50000, .f32⟩
  | 51 => ⟨S_, .f32⟩
  | 52 => ⟨S64, .f32⟩
  | 53 => ⟨S50000x1, .i32⟩
  | 54 => ⟨S64, .f32⟩
  | 55 => ⟨S_, .f32⟩
  | 56 => ⟨S64, .f32⟩
  | 57 => ⟨S64, .f32⟩
  | 58 => ⟨S64x1, .f32⟩
  | 59 => ⟨S1x128x128, .f32⟩
  | 60 => ⟨S128x128, .f32⟩
  | 61 => ⟨S50000x128, .f32⟩
  | 62 => ⟨S_, .i32⟩
  | 63 => ⟨S1649454, .i32⟩
  | 64 => ⟨S1649454, .i1⟩
  | 65 => ⟨S_, .i32⟩
  | 66 => ⟨S1649454, .i32⟩
  | 67 => ⟨S1649454, .i32⟩
  | 68 => ⟨S1649454, .i32⟩
  | 69 => ⟨S1649454x1, .i32⟩
  | 70 => ⟨S1649454x128, .f32⟩
  | 71 => ⟨S1649454x128, .f32⟩
  | 72 => ⟨S1649454x128, .f32⟩
  | 73 => ⟨S_, .f32⟩
  | 74 => ⟨S50000x128, .f32⟩
  | 75 => ⟨S1649454x1, .i32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S64x128, .f32⟩
  | 84 => ⟨S50000x1, .i32⟩
  | 85 => ⟨S64x128, .f32⟩
  | 86 => ⟨S64x128, .f32⟩
  | 87 => ⟨S64x128, .f32⟩
  | 88 => ⟨S1x128, .f32⟩
  | 89 => ⟨S128, .f32⟩
  | 90 => ⟨S_, .i32⟩
  | 91 => ⟨S50000, .i32⟩
  | 92 => ⟨S50000, .i1⟩
  | 93 => ⟨S_, .i32⟩
  | 94 => ⟨S50000, .i32⟩
  | 95 => ⟨S50000, .i32⟩
  | 96 => ⟨S50000, .i32⟩
  | 97 => ⟨S50000x1, .i32⟩
  | 98 => ⟨S50000x128, .f32⟩
  | 99 => ⟨S1x128, .f32⟩
  | 100 => ⟨S50000x128, .f32⟩
  | 101 => ⟨S50000x128, .f32⟩
  | 102 => ⟨S50000x128, .f32⟩
  | 103 => ⟨S50000x128, .f32⟩
  | 104 => ⟨S_, .f32⟩
  | 105 => ⟨S64x128, .f32⟩
  | 106 => ⟨S50000x1, .i32⟩
  | 107 => ⟨S64x128, .f32⟩
  | 108 => ⟨S64x128, .f32⟩
  | 109 => ⟨S64x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S64x128, .f32⟩
  | 117 => ⟨S64x128, .f32⟩
  | 118 => ⟨S64x128, .f32⟩
  | 119 => ⟨S_, .i32⟩
  | 120 => ⟨S50000, .i32⟩
  | 121 => ⟨S50000, .i1⟩
  | 122 => ⟨S_, .i32⟩
  | 123 => ⟨S50000, .i32⟩
  | 124 => ⟨S50000, .i32⟩
  | 125 => ⟨S50000, .i32⟩
  | 126 => ⟨S50000x1, .i32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S1x128x128, .f32⟩
  | 11 => ⟨S128x128, .f32⟩
  | 12 => ⟨S50000x128, .f32⟩
  | 13 => ⟨S_, .i32⟩
  | 14 => ⟨S1649454, .i32⟩
  | 15 => ⟨S1649454, .i1⟩
  | 16 => ⟨S_, .i32⟩
  | 17 => ⟨S1649454, .i32⟩
  | 18 => ⟨S1649454, .i32⟩
  | 19 => ⟨S1649454, .i32⟩
  | 20 => ⟨S1649454x1, .i32⟩
  | 21 => ⟨S1649454x128, .f32⟩
  | 22 => ⟨S1649454x128, .f32⟩
  | 23 => ⟨S1649454x128, .f32⟩
  | 24 => ⟨S_, .f32⟩
  | 25 => ⟨S50000x128, .f32⟩
  | 26 => ⟨S1649454x1, .i32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S64x128, .f32⟩
  | 35 => ⟨S50000x1, .i32⟩
  | 36 => ⟨S64x128, .f32⟩
  | 37 => ⟨S64x128, .f32⟩
  | 38 => ⟨S64x128, .f32⟩
  | 39 => ⟨S1x128, .f32⟩
  | 40 => ⟨S128, .f32⟩
  | 41 => ⟨S_, .i32⟩
  | 42 => ⟨S50000, .i32⟩
  | 43 => ⟨S50000, .i1⟩
  | 44 => ⟨S_, .i32⟩
  | 45 => ⟨S50000, .i32⟩
  | 46 => ⟨S50000, .i32⟩
  | 47 => ⟨S50000, .i32⟩
  | 48 => ⟨S50000x1, .i32⟩
  | 49 => ⟨S50000x128, .f32⟩
  | 50 => ⟨S1x128, .f32⟩
  | 51 => ⟨S50000x128, .f32⟩
  | 52 => ⟨S50000x128, .f32⟩
  | 53 => ⟨S50000x128, .f32⟩
  | 54 => ⟨S50000x128, .f32⟩
  | 55 => ⟨S_, .f32⟩
  | 56 => ⟨S64x128, .f32⟩
  | 57 => ⟨S50000x1, .i32⟩
  | 58 => ⟨S64x128, .f32⟩
  | 59 => ⟨S64x128, .f32⟩
  | 60 => ⟨S64x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S64x128, .f32⟩
  | 68 => ⟨S64x128, .f32⟩
  | 69 => ⟨S64x128, .f32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S50000x128, .f32⟩
  | 79 => ⟨S50000x128, .f32⟩
  | 80 => ⟨S1x128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S_, .i32⟩
  | 93 => ⟨S1649454, .i32⟩
  | 94 => ⟨S1649454, .i1⟩
  | 95 => ⟨S_, .i32⟩
  | 96 => ⟨S1649454, .i32⟩
  | 97 => ⟨S1649454, .i32⟩
  | 98 => ⟨S1649454, .i32⟩
  | 99 => ⟨S1649454x1, .i32⟩
  | 100 => ⟨S1649454x128, .f32⟩
  | 101 => ⟨S1649454x128, .f32⟩
  | 102 => ⟨S1649454x128, .f32⟩
  | 103 => ⟨S_, .f32⟩
  | 104 => ⟨S50000x128, .f32⟩
  | 105 => ⟨S1649454x1, .i32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S_, .f32⟩
  | 113 => ⟨S64x128, .f32⟩
  | 114 => ⟨S50000x1, .i32⟩
  | 115 => ⟨S64x128, .f32⟩
  | 116 => ⟨S64x128, .f32⟩
  | 117 => ⟨S64x128, .f32⟩
  | 118 => ⟨S1x128, .f32⟩
  | 119 => ⟨S128, .f32⟩
  | 120 => ⟨S_, .i32⟩
  | 121 => ⟨S50000, .i32⟩
  | 122 => ⟨S50000, .i1⟩
  | 123 => ⟨S_, .i32⟩
  | 124 => ⟨S50000, .i32⟩
  | 125 => ⟨S50000, .i32⟩
  | 126 => ⟨S50000, .i32⟩
  | 127 => ⟨S50000x1, .i32⟩
  | _ => ⟨S50000x128, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S50000x128, .f32⟩
  | 5 => ⟨S50000x128, .f32⟩
  | 6 => ⟨S_, .f32⟩
  | 7 => ⟨S64x128, .f32⟩
  | 8 => ⟨S50000x1, .i32⟩
  | 9 => ⟨S64x128, .f32⟩
  | 10 => ⟨S64x128, .f32⟩
  | 11 => ⟨S64x128, .f32⟩
  | 12 => ⟨S1x128, .f32⟩
  | 13 => ⟨S128, .f32⟩
  | 14 => ⟨S1x128, .f32⟩
  | 15 => ⟨S50000x128, .f32⟩
  | 16 => ⟨S50000x128, .f32⟩
  | 17 => ⟨S_, .f32⟩
  | 18 => ⟨S64x128, .f32⟩
  | 19 => ⟨S64x128, .f32⟩
  | 20 => ⟨S64x128, .f32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S_, .f32⟩
  | 41 => ⟨S64x128, .f32⟩
  | 42 => ⟨S50000x1, .i32⟩
  | 43 => ⟨S64x128, .f32⟩
  | 44 => ⟨S64x128, .f32⟩
  | 45 => ⟨S64x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_17 : Ref sig .tc := ⟨.hbm, 119, rfl⟩
abbrev main_v90 : Ref sig .tc := ⟨.hbm, 120, rfl⟩
abbrev main_v91 : Ref sig .tc := ⟨.hbm, 121, rfl⟩
abbrev main_c_18 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_call1_cst : Ref sig .tc := ⟨.hbm, 134, rfl⟩
abbrev main_call1_v0 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_c_19 : Ref sig .tc := ⟨.hbm, 141, rfl⟩
abbrev main_v108 : Ref sig .tc := ⟨.hbm, 142, rfl⟩
abbrev main_v109 : Ref sig .tc := ⟨.hbm, 143, rfl⟩
abbrev main_c_20 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_21 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_22 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_c_23 : Ref sig .tc := ⟨.hbm, 169, rfl⟩
abbrev main_v132 : Ref sig .tc := ⟨.hbm, 170, rfl⟩
abbrev main_v133 : Ref sig .tc := ⟨.hbm, 171, rfl⟩
abbrev main_c_24 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_25 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_26 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_c_27 : Ref sig .tc := ⟨.hbm, 198, rfl⟩
abbrev main_v157 : Ref sig .tc := ⟨.hbm, 199, rfl⟩
abbrev main_v158 : Ref sig .tc := ⟨.hbm, 200, rfl⟩
abbrev main_c_28 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_call2_cst : Ref sig .tc := ⟨.hbm, 213, rfl⟩
abbrev main_call2_v0 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_c_29 : Ref sig .tc := ⟨.hbm, 220, rfl⟩
abbrev main_v175 : Ref sig .tc := ⟨.hbm, 221, rfl⟩
abbrev main_v176 : Ref sig .tc := ⟨.hbm, 222, rfl⟩
abbrev main_c_30 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_cst_31 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_cst_32 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_c_33 : Ref sig .tc := ⟨.hbm, 248, rfl⟩
abbrev main_v199 : Ref sig .tc := ⟨.hbm, 249, rfl⟩
abbrev main_v200 : Ref sig .tc := ⟨.hbm, 250, rfl⟩
abbrev main_c_34 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_cst_35 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_36 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_c_37 : Ref sig .tc := ⟨.hbm, 277, rfl⟩
abbrev main_v224 : Ref sig .tc := ⟨.hbm, 278, rfl⟩
abbrev main_v225 : Ref sig .tc := ⟨.hbm, 279, rfl⟩
abbrev main_c_38 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_call3_cst : Ref sig .tc := ⟨.hbm, 292, rfl⟩
abbrev main_call3_v0 : Ref sig .tc := ⟨.hbm, 293, rfl⟩
abbrev main_v237 : Ref sig .tc := ⟨.hbm, 294, rfl⟩
abbrev main_v238 : Ref sig .tc := ⟨.hbm, 295, rfl⟩
abbrev main_cst_39 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩

abbrev nD : Nat := 1
abbrev τ : Topo := Topo.v7x

variable {F : FTy → Type} [FloatOps F]

class Facts₀ : Prop where
  slices_S2x1599454_S1x1599454_0_0 : S2x1599454.Slices ![0, 0] S1x1599454
  shapeCasts_S1x1599454_S1599454 : S1x1599454.ShapeCasts S1599454
  slices_S2x1599454_S1x1599454_1_0 : S2x1599454.Slices ![1, 0] S1x1599454
  concatenates_S1599454_S50000_S1649454_d0 : Shape.Concatenates [S1599454, S50000] S1649454 0
  bcast_S_S1649454 : S_.BroadcastsInDim S1649454 (![] : Fin 0 → Fin S1649454.rank)
  bcast_S_S50000 : S_.BroadcastsInDim S50000 (![] : Fin 0 → Fin S50000.rank)
  bcast_S1649454_S1649454x1_0 : S1649454.BroadcastsInDim S1649454x1 (![0] : Fin 1 → Fin S1649454x1.rank)
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  slices_S3x128x128_S1x128x128_0_0_0 : S3x128x128.Slices ![0, 0, 0] S1x128x128
  shapeCasts_S1x128x128_S128x128 : S1x128x128.ShapeCasts S128x128
  bcast_S1649454x1_S1649454x128_0_1 : S1649454x1.BroadcastsInDim S1649454x128 (![0, 1] : Fin 2 → Fin S1649454x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S50000_S1649454x1_S1649454_n_0_0_1_wf : ScatterDims.WF S50000 S1649454x1 S1649454 [] [0] [0] 1
  gather_S50000_S1649454x1_S1649454_n_0_n_n_0_1_1_wf : GatherDims.WF S50000 S1649454x1 S1649454 [] [0] [] [0] [] 1 ![1]
  scatter_S64_S50000x1_S50000_n_0_0_1_wf : ScatterDims.WF S64 S50000x1 S50000 [] [0] [0] 1
  dot_S50000x128_S128x128_S50000x128_1_0_0_1_n_n_wf : DotDims.WF S50000x128 S128x128 S50000x128 [1] [0] [0] [1] [] []
  gather_S50000x128_S1649454x1_S1649454x128_1_0_n_n_0_1_1128_wf : GatherDims.WF S50000x128 S1649454x1 S1649454x128 [1] [0] [] [0] [] 1 ![1, 128]
  scatter_S50000x128_S1649454x1_S1649454x128_1_0_0_1_wf : ScatterDims.WF S50000x128 S1649454x1 S1649454x128 [1] [0] [0] 1
  scatter_S64x128_S50000x1_S50000x128_1_0_0_1_wf : ScatterDims.WF S64x128 S50000x1 S50000x128 [1] [0] [0] 1
  gather_S64x128_S50000x1_S50000x128_1_0_n_n_0_1_1128_wf : GatherDims.WF S64x128 S50000x1 S50000x128 [1] [0] [] [0] [] 1 ![1, 128]

variable [Facts₀]

def scatter_S50000_S1649454x1_S1649454_n_0_0_1 : ScatterDims S50000 S1649454x1 S1649454 where
  updateWindowDims := []
  insertedWindowDims := [0]
  scatterDimsToOperandDims := [0]
  indexVectorDim := 1
  wf := scatter_S50000_S1649454x1_S1649454_n_0_0_1_wf
def gather_S50000_S1649454x1_S1649454_n_0_n_n_0_1_1 : GatherDims S50000 S1649454x1 S1649454 where
  offsetDims := []
  collapsedSliceDims := [0]
  operandBatchingDims := []
  startIndicesBatchingDims := []
  startIndexMap := [0]
  indexVectorDim := 1
  sliceSizes := ![1]
  wf := gather_S50000_S1649454x1_S1649454_n_0_n_n_0_1_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1649454x1_S1649454x128_1_0_n_n_0_1_1128 : GatherDims S50000x128 S1649454x1 S1649454x128 where
  offsetDims := [1]
  collapsedSliceDims := [0]
  operandBatchingDims := []
  startIndicesBatchingDims := []
  startIndexMap := [0]
  indexVectorDim := 1
  sliceSizes := ![1, 128]
  wf := gather_S50000x128_S1649454x1_S1649454x128_1_0_n_n_0_1_1128_wf
def scatter_S50000x128_S1649454x1_S1649454x128_1_0_0_1 : ScatterDims S50000x128 S1649454x1 S1649454x128 where
  updateWindowDims := [1]
  insertedWindowDims := [0]
  scatterDimsToOperandDims := [0]
  indexVectorDim := 1
  wf := scatter_S50000x128_S1649454x1_S1649454x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf

class Facts : Prop extends Facts₀ where

variable [Facts]
-- ==== Proof.Hand.Common.lean ====
import proofs.«419822_j14680198218267_2_alg».proof.Proof.Gen.KernelIdeal.Launch
import proofs.«419822_j14680198218267_2_alg».proof.Proof.Gen.KernelIdeal.Skeleton
import proofs.«419822_j14680198218267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 10) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Hand.Body0.lean ====
import proofs.«419822_j14680198218267_2_alg».proof.Proof.Hand.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x1 := Rect.unit (s := S2000x1) ![0, 0] S2000x1.size inb_S2000x1_S2000x1_0_0

def out0_3 (x0 : Vec F S2000x128 .f32) (x1 : Vec F S128x128 .f32) (x2 : Vec F S2000x1 .f32) : Vec F S2000x128 .bf16 :=
  View.canon [⟨r0_0, k0_pay1 (View.ld x0 r0_0) (View.ld x1 r0_1) (View.ld x2 r0_2)⟩]

theorem cover0_3 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

set_option maxHeartbeats 1000000 in

theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Hand.Body1.lean ====
import proofs.«419822_j14680198218267_2_alg».proof.Proof.Hand.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

abbrev cond1_1 (i : grid1.Coords) : Prop := k1_cond2 i = 1#1

theorem hcond1_1 : ∀ t : Fin cfg1.N, cond1_1 (grid1.coords t) ↔ t.val % 25 = 24 :=
  (by decide +kernel : ∀ t : Fin grid1.N, cond1_1 (grid1.coords t) ↔ t.val % 25 = 24)

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

theorem cover1_3 (p0 : Vec F S128x128 .f32) (y : S128x128.Idx) :
    ∃ pc ∈ ([⟨r1_3, p0⟩] : List (View.Piece (Elt F) S128x128 .f32)), y ∈ pc.1.set :=
  View.cover_of_tiled [⟨r1_3, p0⟩] S128x128.size (by rfl) y

theorem mem1_3 (y : S128x128.Idx) : y ∈ r1_3.set := by
  obtain ⟨pc, hm, hy⟩ := View.cover_of_tiled (Val := fun _ => Unit) (e := .f32) [⟨r1_3, fun _ => ()⟩] S128x128.size (by rfl) y
  rw [List.mem_singleton] at hm; subst hm; exact hy

theorem read_writes_head1 {sp : Space} (v : View sig .tc sp S128x128 .f32) (f : v.ty.Contents (Elt F))
    (w : r1_3.shape.Idx → Elt F .f32) (L : List (View.Piece (Elt F) S128x128 .f32)) :
    v.read (Elt F) (v.writes (Elt F) f (⟨r1_3, w⟩ :: L)) = View.canon [⟨r1_3, w⟩] :=
  funext fun y => by
    obtain ⟨x, rfl⟩ := r1_3.exists_idx_of_mem (mem1_3 y)
    exact (View.read_writes_cons_emb v f r1_3 w L x).trans (View.canon_cons_emb r1_3 w [] x).symm

def zero1_0 : Vec F S128x128 .f32 := View.canon [⟨r1_3, k1_pay1 (F := F)⟩]
def zero1_1 : Vec F S128x128 .f32 := View.canon [⟨r1_3, k1_pay2 (F := F)⟩]

def step1_0 (x0 : Vec F S2000x128 .f32) (x1 : Vec F S2000x1 .i32) (x2 : Vec F S2000x1 .f32) (x3 : Vec F S1x128 .f32) (s : Vec F S128x128 .f32) : Vec F S128x128 .f32 :=
  View.canon [⟨r1_3, k1_pay5 (View.ld x0 r1_0) (View.ld x2 r1_1) (View.ld x3 r1_2) (View.ld x1 r1_1) (View.ld s r1_3)⟩]

def step1_1 (x0 : Vec F S2000x128 .f32) (x1 : Vec F S2000x1 .i32) (x2 : Vec F S2000x1 .f32) (x3 : Vec F S1x128 .f32) (s : Vec F S128x128 .f32) : Vec F S128x128 .f32 :=
  View.canon [⟨r1_3, k1_pay6 (View.ld x0 r1_0) (View.ld x2 r1_1) (View.ld x3 r1_2) (View.ld x1 r1_1) (View.ld s r1_3)⟩]

theorem ldZero1_0 {sp : Space} (v : View sig .tc sp S128x128 .f32) :
    v.readCov [⟨r1_3, k1_pay1 (F := F)⟩] r1_3.toLoadRect = View.ld (zero1_0 (F := F)) r1_3 :=
  View.readCov_eq_canon_ld v _ r1_3 (cover1_3 _)
theorem ldZero1_1 {sp : Space} (v : View sig .tc sp S128x128 .f32) :
    v.readCov [⟨r1_3, k1_pay2 (F := F)⟩] r1_3.toLoadRect = View.ld (zero1_1 (F := F)) r1_3 :=
  View.readCov_eq_canon_ld v _ r1_3 (cover1_3 _)

set_option maxHeartbeats 1000000 in

theorem sound_kernel1_A (c : Dev nD) (E : Set ℕ) (i : grid1.Coords) (hc0 : cond1_0 i) (hc1 : ¬cond1_1 i)
    (arg1 : Memref sig .tc .vmem S2000x128 .f32) (harg1 : arg1.IsWhole) (arg2 : Memref sig .tc .vmem S2000x1 .i32) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole)
    (x0 : Vec F S2000x128 .f32) (x1 : Vec F S2000x1 .i32) (x2 : Vec F S2000x1 .f32) (x3 : Vec F S1x128 .f32) (y4 y5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5
            ∗ owns (c : Thread nD τ) arg7 fullShare (step1_0 x0 x1 x2 x3 zero1_0) ∗ owns (c : Thread nD τ) arg8 fullShare (step1_1 x0 x1 x2 x3 zero1_1)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_head1 _ _ _ _).trans ?_
    rw [ldZero1_0]; rfl
  iexists _; isplitr
  swap; · iexact H7
  ipureintro
  refine (read_writes_head1 _ _ _ _).trans ?_
  rw [ldZero1_1]; rfl

set_option maxHeartbeats 1000000 in

theorem sound_kernel1_B (c : Dev nD) (E : Set ℕ) (i : grid1.Coords) (hc0 : ¬cond1_0 i) (hc1 : ¬cond1_1 i)
    (arg1 : Memref sig .tc .vmem S2000x128 .f32) (harg1 : arg1.IsWhole) (arg2 : Memref sig .tc .vmem S2000x1 .i32) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole)
    (x0 : Vec F S2000x128 .f32) (x1 : Vec F S2000x1 .i32) (x2 : Vec F S2000x1 .f32) (x3 : Vec F S1x128 .f32) (y4 y5 s0 s1 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5
            ∗ owns (c : Thread nD τ) arg7 fullShare (step1_0 x0 x1 x2 x3 s0) ∗ owns (c : Thread nD τ) arg8 fullShare (step1_1 x0 x1 x2 x3 s1)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_3 _)
  iexists _; isplitr
  swap; · iexact H7
  ipureintro
  exact View.read_writes_eq_canon _ _ _ (cover1_3 _)

set_option maxHeartbeats 1000000 in

theorem sound_kernel1_C (c : Dev nD) (E : Set ℕ) (i : grid1.Coords) (hc0 : ¬cond1_0 i) (hc1 : cond1_1 i)
    (arg1 : Memref sig .tc .vmem S2000x128 .f32) (harg1 : arg1.IsWhole) (arg2 : Memref sig .tc .vmem S2000x1 .i32) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole)
    (x0 : Vec F S2000x128 .f32) (x1 : Vec F S2000x1 .i32) (x2 : Vec F S2000x1 .f32) (x3 : Vec F S1x128 .f32) (s0 s1 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (step1_0 x0 x1 x2 x3 s0) ∗ owns (c : Thread nD τ) arg6 fullShare (step1_1 x0 x1 x2 x3 s1)
            ∗ owns (c : Thread nD τ) arg7 fullShare (step1_0 x0 x1 x2 x3 s0) ∗ owns (c : Thread nD τ) arg8 fullShare (step1_1 x0 x1 x2 x3 s1)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf0 hf1 hf2 hf3 hf6 hf7
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_3 _)).trans ?_
    rw [View.readCov_cons_toLoadRect]; rfl
  isplitl [H5]
  · iexists _; isplitr
    swap; · iexact H5
    ipureintro
    refine (View.read_writes_eq_canon _ _ _ (cover1_3 _)).trans ?_
    rw [View.readCov_cons_toLoadRect]; rfl
  isplitl [H6]
  · iexists _; isplitr
    swap; · iexact H6
    ipureintro
    exact View.read_writes_eq_canon _ _ _ (cover1_3 _)
  iexists _; isplitr
  swap; · iexact H7
  ipureintro
  exact View.read_writes_eq_canon _ _ _ (cover1_3 _)

def sc1 (c : Dev nD) : (n : ℕ) → n < cfg1.N → Vec F S128x128 .f32 × Vec F S128x128 .f32
  | 0, hn => (step1_0 (iblk1 V c 0 ⟨0, hn⟩) (iblk1 V c 1 ⟨0, hn⟩) (iblk1 V c 2 ⟨0, hn⟩) (iblk1 V c 3 ⟨0, hn⟩) zero1_0, step1_1 (iblk1 V c 0 ⟨0, hn⟩) (iblk1 V c 1 ⟨0, hn⟩) (iblk1 V c 2 ⟨0, hn⟩) (iblk1 V c 3 ⟨0, hn⟩) zero1_1)
  | n + 1, hn =>
    (step1_0 (iblk1 V c 0 ⟨n + 1, hn⟩) (iblk1 V c 1 ⟨n + 1, hn⟩) (iblk1 V c 2 ⟨n + 1, hn⟩) (iblk1 V c 3 ⟨n + 1, hn⟩) (sc1 c n (Nat.lt_of_succ_lt hn)).1,
     step1_1 (iblk1 V c 0 ⟨n + 1, hn⟩) (iblk1 V c 1 ⟨n + 1, hn⟩) (iblk1 V c 2 ⟨n + 1, hn⟩) (iblk1 V c 3 ⟨n + 1, hn⟩) (sc1 c n (Nat.lt_of_succ_lt hn)).2)

theorem sc1_zero (c : Dev nD) (t : Fin cfg1.N) (h0 : t.val % 25 = 0) :
    sc1 V c t.val t.isLt = (step1_0 (iblk1 V c 0 t) (iblk1 V c 1 t) (iblk1 V c 2 t) (iblk1 V c 3 t) zero1_0, step1_1 (iblk1 V c 0 t) (iblk1 V c 1 t) (iblk1 V c 2 t) (iblk1 V c 3 t) zero1_1) := by
  have hN : t.val < 25 := lt_of_lt_of_eq t.isLt (show cfg1.N = 25 from N_1)
  obtain ⟨n, hn⟩ := t
  cases n with
  | zero => rfl
  | succ n => exfalso; dsimp only at h0 hN; omega

theorem sc1_pos (c : Dev nD) (t : Fin cfg1.N) (h0 : ¬t.val % 25 = 0) :
    sc1 V c t.val t.isLt
      = (step1_0 (iblk1 V c 0 t) (iblk1 V c 1 t) (iblk1 V c 2 t) (iblk1 V c 3 t) (sc1 V c (t.val - 1) (Nat.lt_of_le_of_lt (Nat.sub_le _ _) t.isLt)).1,
         step1_1 (iblk1 V c 0 t) (iblk1 V c 1 t) (iblk1 V c 2 t) (iblk1 V c 3 t) (sc1 V c (t.val - 1) (Nat.lt_of_le_of_lt (Nat.sub_le _ _) t.isLt)).2) := by
  obtain ⟨n, hn⟩ := t
  cases n with
  | zero => exact absurd (Nat.zero_mod _) h0
  | succ n => rfl

abbrev scM1_0 : Memref sig .tc .vmem S128x128 .f32 := Memref.whole cc1_scratch0
abbrev scM1_1 : Memref sig .tc .vmem S128x128 .f32 := Memref.whole cc1_scratch1

def PhiS1 (c : Dev nD) : (n : ℕ) → n ≤ cfg1.N → sProp 𝕄
  | 0, _ => iprop(Pipeline.scopedRestBut (Ix := Unit) (Name := ℕ) (U := UR sig nD τ) (Lvl := ℕ) (Val := Elt F) spec1 c [cc1_scratch0, cc1_scratch1]
      ∗ (∃ r, prngReg c r)
      ∗ (∃ d, owns (c : Thread nD τ) scM1_0 fullShare d) ∗ (∃ d, owns (c : Thread nD τ) scM1_1 fullShare d))
  | n + 1, hn => iprop(Pipeline.scopedRestBut (Ix := Unit) (Name := ℕ) (U := UR sig nD τ) (Lvl := ℕ) (Val := Elt F) spec1 c [cc1_scratch0, cc1_scratch1]
      ∗ (∃ r, prngReg c r)
      ∗ owns (c : Thread nD τ) scM1_0 fullShare (sc1 V c n hn).1 ∗ owns (c : Thread nD τ) scM1_1 fullShare (sc1 V c n hn).2)

theorem PhiS1_zero (c : Dev nD) (n : ℕ) (h : n ≤ cfg1.N) (hz : n = 0) : PhiS1 V c n h = PhiS1 V c 0 (Nat.zero_le _) := by
  subst hz; rfl

theorem PhiS1_pos (c : Dev nD) (n : ℕ) (h : n ≤ cfg1.N) (hz : n ≠ 0) : PhiS1 V c n h = PhiS1 V c (n - 1 + 1) (by omega) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (sc1 V c t.val t.isLt).1
    | ⟨5, _⟩ => (sc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (sc1 V c t.val t.isLt).1 := by dsimp only [dat1]
theorem after1_5 (c : Dev nD) (t : Fin cfg1.N) : (dat1 V c).after 5 t = (sc1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl]
  simp only [PhiS1]
  have hN : t.val < 25 := lt_of_lt_of_eq t.isLt (show cfg1.N = 25 from N_1)
  rw [show (dat1 V c).leavesExact 0 t = owns (c : Thread nD τ) (st1_0 t) fullShare (iblk1 V c 0 t) from rfl]
  rw [show (dat1 V c).leavesExact 1 t = owns (c : Thread nD τ) (st1_1 t) fullShare (iblk1 V c 1 t) from rfl]
  rw [show (dat1 V c).leavesExact 2 t = owns (c : Thread nD τ) (st1_2 t) fullShare (iblk1 V c 2 t) from rfl]
  rw [show (dat1 V c).leavesExact 3 t = owns (c : Thread nD τ) (st1_3 t) fullShare (iblk1 V c 3 t) from rfl]
  by_cases h0 : t.val % 25 = 0
  · by_cases h1 : t.val % 25 = 24
    · exfalso; omega
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [sc1_zero V c t h0]
      rw [PhiS1_castSucc V c t, PhiS1_zero V c _ _ (by omega)]
      simp only [PhiS1]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0) (fun h => h1 ((hcond1_1 t).mp h)) _ _ _ _ _ _ _ _ _ _ _ _ _ _ _ _
        (iblk1 V c 0 t) (iblk1 V c 1 t) (iblk1 V c 2 t) (iblk1 V c 3 t) _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5
  · by_cases h1 : t.val % 25 = 24
    · rw [show (dat1 V c).leavesExact 4 t = owns (c : Thread nD τ) (st1_4 t) fullShare ((dat1 V c).after 4 t) from by
        unfold Dat.leavesExact; rw [liveAt1_4 t ((hcond1_1 t).mpr h1)], after1_4]
      rw [show (dat1 V c).leavesExact 5 t = owns (c : Thread nD τ) (st1_5 t) fullShare ((dat1 V c).after 5 t) from by
        unfold Dat.leavesExact; rw [liveAt1_5 t ((hcond1_1 t).mpr h1)], after1_5]
      rw [sc1_pos V c t h0]
      rw [PhiS1_castSucc V c t, PhiS1_pos V c _ _ (by omega)]
      simp only [PhiS1]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_C c Set.univ (grid1.coords t) (fun h => h0 ((hcond1_0 t).mp h)) ((hcond1_1 t).mpr h1) _ _ _ _ _ _ _ _ _ _ _ _ _ _ _ _
        (iblk1 V c 0 t) (iblk1 V c 1 t) (iblk1 V c 2 t) (iblk1 V c 3 t) _ _ _)
      iframe H0 H1 H2 H3 HS0 HS1
      isplitl [H4]; · iexists _; iexact H4
      isplitl [H5]; · iexists _; iexact H5
      iintro ⟨H0, H1, H2, H3, H4, H5, HS0, HS1⟩
      iframe
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [sc1_pos V c t h0]
      rw [PhiS1_castSucc V c t, PhiS1_pos V c _ _ (by omega)]
      simp only [PhiS1]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_B c Set.univ (grid1.coords t) (fun h => h0 ((hcond1_0 t).mp h)) (fun h => h1 ((hcond1_1 t).mp h)) _ _ _ _ _ _ _ _ _ _ _ _ _ _ _ _
        (iblk1 V c 0 t) (iblk1 V c 1 t) (iblk1 V c 2 t) (iblk1 V c 3 t) _ _ _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, scopedRest1_split]
  simp only [PhiS1]
  simp only [scM1_0, scM1_1, owns_whole]
  iintro ⟨Hg, ⟨HS0, HS1⟩, HR⟩
  iframe

theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), scopedRest1_split]
  simp only [PhiS1]
  simp only [scM1_0, scM1_1, owns_whole]
  iintro ⟨HR, Hg, HS0, HS1⟩
  iframe HR Hg
  isplitl [HS0]; · iexists _; iexact HS0
  iexists _; iexact HS1

end Region1

end Cert.KernelIdeal.Hand

end
-- ==== Proof.Hand.Body2.lean ====
import proofs.«419822_j14680198218267_2_alg».proof.Proof.Hand.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_2 : Rect S1x128 := Rect.unit (s := S1x128) ![0, 0] S1x128.size inb_S1x128_S1x128_0_0
abbrev r2_3 : Rect S128x256 := Rect.unit (s := S128x256) ![0, 0] S128x256.size inb_S128x256_S128x256_0_0

def out2_9 (x0 : Vec F S2000x128 .f32) (x1 : Vec F S2000x128 .f32) (x2 : Vec F S2000x1 .i32) (x3 : Vec F S2000x1 .f32) (x4 : Vec F S1x128 .f32) (x5 : Vec F S128x256 .f32) (x6 : Vec F S1x128 .f32) (x7 : Vec F S1x128 .f32) (x8 : Vec F S1x128 .f32) : Vec F S2000x128 .f32 :=
  View.canon [⟨r2_0, k2_pay1 (View.ld x1 r2_0)
    (k2_pay2 (View.ld x0 r2_0) (View.ld x3 r2_1) (View.ld x4 r2_2) (View.ld x2 r2_1) (View.ld x5 r2_3) (View.ld x6 r2_2) (View.ld x7 r2_2))
    (k2_pay3 (View.ld x8 r2_2))⟩]

theorem cover2_9 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S2000x1 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x1 .i32) (x3 : Vec F S2000x1 .f32) (x4 : Vec F S1x128 .f32) (x5 : Vec F S128x256 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__norm_kernel i arg1 harg1 arg2 harg2 arg3 harg3 arg4 harg4 arg5 harg5 arg6 harg6 arg7 harg7 arg8 harg8 arg9 harg9 arg10 harg10) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d
theorem before2_7 (c : Dev nD) (t : Fin cfg2.N) (d) : (dat2 V c).before 7 t d = iblk2 V c 7 t :=
  (dat2 V c).before_in_eq_fetched 7 rfl (fun _ => rfl) (fun _ _ _ => rfl) (fun _ => rfl) t d
theorem before2_8 (c : Dev nD) (t : Fin cfg2.N) (d) : (dat2 V c).before 8 t d = iblk2 V c 8 t :=
  (dat2 V c).before_in_eq_fetched 8 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  iintro ⟨H0, H1, H2, H3, H4, H5, H6, H7, H8, H9⟩
  iframe

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Hand.Body3.lean ====
import proofs.«419822_j14680198218267_2_alg».proof.Proof.Hand.Body0
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- a cast to the same shape is the identity, so the two payloads agree
theorem k3_pay1_eq : k3_pay1 (F := F) = k0_pay1 := by
  funext v0 v2 v6; unfold k3_pay1 k0_pay1; simp only [shapeCast_self]

-- the two kernel functions are the same loads and store around their payloads
theorem cc3_eq : cc3__matmul_kernel (F := F) = cc0__matmul_kernel (F := F) := by
  funext i a1 h1 a2 h2 a3 h3 a4 h4
  rw [cc3__matmul_kernel_eq_skeleton, cc0__matmul_kernel_eq_skeleton]
  unfold cc3__matmul_kernel_skel cc0__matmul_kernel_skel
  rw [k3_pay1_eq]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out0_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out0_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

-- the body is the base's kernel function at other arguments, so the base's triple applies
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [cc3_eq, show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel0 c Set.univ _ _ _ _ _ _ _ _ _ (iblk3 V c 0 t) (iblk3 V c 1 t) (iblk3 V c 2 t) _)
  iframe H0 H1 H2
  isplitl [H3]; · iexists _; iexact H3
  iintro ⟨H0, H1, H2, H3⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Hand.Body4.lean ====
import proofs.«419822_j14680198218267_2_alg».proof.Proof.Hand.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

-- This layer's kernel is the first layer's: the two functions have one body.
theorem cc4_eq_cc1 : cc4__stats_kernel (F := F) = cc1__stats_kernel := rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := cond1_0 i
theorem hcond4_0 : ∀ t : Fin cfg4.N, cond4_0 (grid4.coords t) ↔ t.val % 25 = 0 :=
  (by decide +kernel : ∀ t : Fin grid4.N, cond4_0 (grid4.coords t) ↔ t.val % 25 = 0)
abbrev cond4_1 (i : grid4.Coords) : Prop := k4_cond2 i = 1#1
theorem hcond4_1 : ∀ t : Fin cfg4.N, cond4_1 (grid4.coords t) ↔ t.val % 25 = 24 :=
  (by decide +kernel : ∀ t : Fin grid4.N, cond4_1 (grid4.coords t) ↔ t.val % 25 = 24)

theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

def zero4_0 : Vec F S128x128 .f32 := View.canon [⟨r1_3, k4_pay1 (F := F)⟩]
def zero4_1 : Vec F S128x128 .f32 := View.canon [⟨r1_3, k4_pay2 (F := F)⟩]

def step4_0 (x0 : Vec F S2000x128 .f32) (x1 : Vec F S2000x1 .i32) (x2 : Vec F S2000x1 .f32) (x3 : Vec F S1x128 .f32) (s : Vec F S128x128 .f32) : Vec F S128x128 .f32 :=
  View.canon [⟨r1_3, k4_pay5 (View.ld x0 r1_0) (View.ld x2 r1_1) (View.ld x3 r1_2) (View.ld x1 r1_1) (View.ld s r1_3)⟩]
def step4_1 (x0 : Vec F S2000x128 .f32) (x1 : Vec F S2000x1 .i32) (x2 : Vec F S2000x1 .f32) (x3 : Vec F S1x128 .f32) (s : Vec F S128x128 .f32) : Vec F S128x128 .f32 :=
  View.canon [⟨r1_3, k4_pay6 (View.ld x0 r1_0) (View.ld x2 r1_1) (View.ld x3 r1_2) (View.ld x1 r1_1) (View.ld s r1_3)⟩]

def sc4 (c : Dev nD) : (n : ℕ) → n < cfg4.N → Vec F S128x128 .f32 × Vec F S128x128 .f32
  | 0, hn => (step4_0 (iblk4 V c 0 ⟨0, hn⟩) (iblk4 V c 1 ⟨0, hn⟩) (iblk4 V c 2 ⟨0, hn⟩) (iblk4 V c 3 ⟨0, hn⟩) zero4_0, step4_1 (iblk4 V c 0 ⟨0, hn⟩) (iblk4 V c 1 ⟨0, hn⟩) (iblk4 V c 2 ⟨0, hn⟩) (iblk4 V c 3 ⟨0, hn⟩) zero4_1)
  | n + 1, hn =>
    (step4_0 (iblk4 V c 0 ⟨n + 1, hn⟩) (iblk4 V c 1 ⟨n + 1, hn⟩) (iblk4 V c 2 ⟨n + 1, hn⟩) (iblk4 V c 3 ⟨n + 1, hn⟩) (sc4 c n (Nat.lt_of_succ_lt hn)).1,
     step4_1 (iblk4 V c 0 ⟨n + 1, hn⟩) (iblk4 V c 1 ⟨n + 1, hn⟩) (iblk4 V c 2 ⟨n + 1, hn⟩) (iblk4 V c 3 ⟨n + 1, hn⟩) (sc4 c n (Nat.lt_of_succ_lt hn)).2)

-- Stated over the first layer's fill and step, which this layer's are (the payloads have one body).
theorem sc4_zero (c : Dev nD) (t : Fin cfg4.N) (h0 : t.val % 25 = 0) :
    sc4 V c t.val t.isLt = (step1_0 (iblk4 V c 0 t) (iblk4 V c 1 t) (iblk4 V c 2 t) (iblk4 V c 3 t) zero1_0, step1_1 (iblk4 V c 0 t) (iblk4 V c 1 t) (iblk4 V c 2 t) (iblk4 V c 3 t) zero1_1) := by
  have hN : t.val < 25 := lt_of_lt_of_eq t.isLt (show cfg4.N = 25 from N_4)
  obtain ⟨n, hn⟩ := t
  cases n with
  | zero => rfl
  | succ n => exfalso; dsimp only at h0 hN; omega

theorem sc4_pos (c : Dev nD) (t : Fin cfg4.N) (h0 : ¬t.val % 25 = 0) :
    sc4 V c t.val t.isLt
      = (step1_0 (iblk4 V c 0 t) (iblk4 V c 1 t) (iblk4 V c 2 t) (iblk4 V c 3 t) (sc4 V c (t.val - 1) (Nat.lt_of_le_of_lt (Nat.sub_le _ _) t.isLt)).1,
         step1_1 (iblk4 V c 0 t) (iblk4 V c 1 t) (iblk4 V c 2 t) (iblk4 V c 3 t) (sc4 V c (t.val - 1) (Nat.lt_of_le_of_lt (Nat.sub_le _ _) t.isLt)).2) := by
  obtain ⟨n, hn⟩ := t
  cases n with
  | zero => exact absurd (Nat.zero_mod _) h0
  | succ n => rfl

abbrev scM4_0 : Memref sig .tc .vmem S128x128 .f32 := Memref.whole cc4_scratch0
abbrev scM4_1 : Memref sig .tc .vmem S128x128 .f32 := Memref.whole cc4_scratch1

def PhiS4 (c : Dev nD) : (n : ℕ) → n ≤ cfg4.N → sProp 𝕄
  | 0, _ => iprop(Pipeline.scopedRestBut (Ix := Unit) (Name := ℕ) (U := UR sig nD τ) (Lvl := ℕ) (Val := Elt F) spec4 c [cc4_scratch0, cc4_scratch1]
      ∗ (∃ r, prngReg c r)
      ∗ (∃ d, owns (c : Thread nD τ) scM4_0 fullShare d) ∗ (∃ d, owns (c : Thread nD τ) scM4_1 fullShare d))
  | n + 1, hn => iprop(Pipeline.scopedRestBut (Ix := Unit) (Name := ℕ) (U := UR sig nD τ) (Lvl := ℕ) (Val := Elt F) spec4 c [cc4_scratch0, cc4_scratch1]
      ∗ (∃ r, prngReg c r)
      ∗ owns (c : Thread nD τ) scM4_0 fullShare (sc4 V c n hn).1 ∗ owns (c : Thread nD τ) scM4_1 fullShare (sc4 V c n hn).2)

theorem PhiS4_zero (c : Dev nD) (n : ℕ) (h : n ≤ cfg4.N) (hz : n = 0) : PhiS4 V c n h = PhiS4 V c 0 (Nat.zero_le _) := by
  subst hz; rfl

theorem PhiS4_pos (c : Dev nD) (n : ℕ) (h : n ≤ cfg4.N) (hz : n ≠ 0) : PhiS4 V c n h = PhiS4 V c (n - 1 + 1) (by omega) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (sc4 V c t.val t.isLt).1
    | ⟨5, _⟩ => (sc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (sc4 V c t.val t.isLt).1 := by dsimp only [dat4]
theorem after4_5 (c : Dev nD) (t : Fin cfg4.N) : (dat4 V c).after 5 t = (sc4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4000000 in
-- The first layer's three triples, at this layer's memrefs and blocks.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq_cc1]
  simp only [before4_0, before4_1, before4_2, before4_3]
  rw [show (dat4 V c).owesAt () t.succ = (dat4 V c).owesAt () t.castSucc from rfl]
  rw [show (dat4 V c).Φ t.succ = PhiS4 V c (t.val + 1) t.isLt from rfl]
  simp only [PhiS4]
  have hN : t.val < 25 := lt_of_lt_of_eq t.isLt (show cfg4.N = 25 from N_4)
  rw [show (dat4 V c).leavesExact 0 t = owns (c : Thread nD τ) (st4_0 t) fullShare (iblk4 V c 0 t) from rfl]
  rw [show (dat4 V c).leavesExact 1 t = owns (c : Thread nD τ) (st4_1 t) fullShare (iblk4 V c 1 t) from rfl]
  rw [show (dat4 V c).leavesExact 2 t = owns (c : Thread nD τ) (st4_2 t) fullShare (iblk4 V c 2 t) from rfl]
  rw [show (dat4 V c).leavesExact 3 t = owns (c : Thread nD τ) (st4_3 t) fullShare (iblk4 V c 3 t) from rfl]
  by_cases h0 : t.val % 25 = 0
  · by_cases h1 : t.val % 25 = 24
    · exfalso; omega
    · rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [sc4_zero V c t h0]
      rw [PhiS4_castSucc V c t, PhiS4_zero V c _ _ (by omega)]
      simp only [PhiS4]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_A c Set.univ (grid4.coords t) ((hcond4_0 t).mpr h0) (fun h => h1 ((hcond4_1 t).mp h)) _ _ _ _ _ _ _ _ _ _ _ _ _ _ _ _
        (iblk4 V c 0 t) (iblk4 V c 1 t) (iblk4 V c 2 t) (iblk4 V c 3 t) _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5
  · by_cases h1 : t.val % 25 = 24
    · rw [show (dat4 V c).leavesExact 4 t = owns (c : Thread nD τ) (st4_4 t) fullShare ((dat4 V c).after 4 t) from by
        unfold Dat.leavesExact; rw [liveAt4_4 t ((hcond4_1 t).mpr h1)], after4_4]
      rw [show (dat4 V c).leavesExact 5 t = owns (c : Thread nD τ) (st4_5 t) fullShare ((dat4 V c).after 5 t) from by
        unfold Dat.leavesExact; rw [liveAt4_5 t ((hcond4_1 t).mpr h1)], after4_5]
      rw [sc4_pos V c t h0]
      rw [PhiS4_castSucc V c t, PhiS4_pos V c _ _ (by omega)]
      simp only [PhiS4]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_C c Set.univ (grid4.coords t) (fun h => h0 ((hcond4_0 t).mp h)) ((hcond4_1 t).mpr h1) _ _ _ _ _ _ _ _ _ _ _ _ _ _ _ _
        (iblk4 V c 0 t) (iblk4 V c 1 t) (iblk4 V c 2 t) (iblk4 V c 3 t) _ _ _)
      iframe H0 H1 H2 H3 HS0 HS1
      isplitl [H4]; · iexists _; iexact H4
      isplitl [H5]; · iexists _; iexact H5
      iintro ⟨H0, H1, H2, H3, H4, H5, HS0, HS1⟩
      iframe
    · rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [sc4_pos V c t h0]
      rw [PhiS4_castSucc V c t, PhiS4_pos V c _ _ (by omega)]
      simp only [PhiS4]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_B c Set.univ (grid4.coords t) (fun h => h0 ((hcond4_0 t).mp h)) (fun h => h1 ((hcond4_1 t).mp h)) _ _ _ _ _ _ _ _ _ _ _ _ _ _ _ _
        (iblk4 V c 0 t) (iblk4 V c 1 t) (iblk4 V c 2 t) (iblk4 V c 3 t) _ _ _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5

theorem body_obligation4 (c : Dev nD) : BodyObligation (dat4 (F := F) V c) (defs₀ (F := F)) Variants.none () Set.univ := fun t => by
  rw [bigSep_W1, bigSep_W1]
  exact sound_body4 V c t

theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, scopedRest4_split]
  simp only [PhiS4]
  simp only [scM4_0, scM4_1, owns_whole]
  iintro ⟨Hg, ⟨HS0, HS1⟩, HR⟩
  iframe

theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 25 := N_4; omega), scopedRest4_split]
  simp only [PhiS4]
  simp only [scM4_0, scM4_1, owns_whole]
  iintro ⟨HR, Hg, HS0, HS1⟩
  iframe HR Hg
  isplitl [HS0]; · iexists _; iexact HS0
  iexists _; iexact HS1

end Region4

end Cert.KernelIdeal.Hand

end
-- ==== Proof.Hand.Body5.lean ====
import proofs.«419822_j14680198218267_2_alg».proof.Proof.Hand.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_9 (x0 : Vec F S2000x128 .f32) (x1 : Vec F S2000x128 .f32) (x2 : Vec F S2000x1 .i32) (x3 : Vec F S2000x1 .f32) (x4 : Vec F S1x128 .f32) (x5 : Vec F S128x256 .f32) (x6 : Vec F S1x128 .f32) (x7 : Vec F S1x128 .f32) (x8 : Vec F S1x128 .f32) : Vec F S2000x128 .f32 :=
  View.canon [⟨r2_0, k5_pay1 (k5_pay2 (View.ld x1 r2_0)) (k5_pay3 (View.ld x8 r2_2))
    (k5_pay4 (View.ld x0 r2_0) (View.ld x3 r2_1) (View.ld x4 r2_2) (View.ld x2 r2_1) (View.ld x5 r2_3) (View.ld x6 r2_2) (View.ld x7 r2_2))⟩]

set_option maxHeartbeats 1000000 in
theorem sound_kernel5 (c : Dev nD) (E : Set ℕ) (i : grid5.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S2000x1 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x1 .i32) (x3 : Vec F S2000x1 .f32) (x4 : Vec F S1x128 .f32) (x5 : Vec F S128x256 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__norm_kernel i arg1 harg1 arg2 harg2 arg3 harg3 arg4 harg4 arg5 harg5 arg6 harg6 arg7 harg7 arg8 harg8 arg9 harg9 arg10 harg10) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d
theorem before5_6 (c : Dev nD) (t : Fin cfg5.N) (d) : (dat5 V c).before 6 t d = iblk5 V c 6 t :=
  (dat5 V c).before_in_eq_fetched 6 rfl (fun _ => rfl) (fun _ _ _ => rfl) (fun _ => rfl) t d
theorem before5_7 (c : Dev nD) (t : Fin cfg5.N) (d) : (dat5 V c).before 7 t d = iblk5 V c 7 t :=
  (dat5 V c).before_in_eq_fetched 7 rfl (fun _ => rfl) (fun _ _ _ => rfl) (fun _ => rfl) t d
theorem before5_8 (c : Dev nD) (t : Fin cfg5.N) (d) : (dat5 V c).before 8 t d = iblk5 V c 8 t :=
  (dat5 V c).before_in_eq_fetched 8 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  iframe H0 H1 H2 H3 H4 H5 H6 H7 H8
  isplitl [H9]; · iexists _; iexact H9
  iintro ⟨H0, H1, H2, H3, H4, H5, H6, H7, H8, H9⟩
  iframe

theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.Hand.Body6.lean ====
import proofs.«419822_j14680198218267_2_alg».proof.Proof.Hand.Body3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- this kernel function is region 3's under another name
theorem cc6_eq : cc6__matmul_kernel (F := F) = cc0__matmul_kernel (F := F) :=
  (rfl : cc6__matmul_kernel (F := F) = cc3__matmul_kernel).trans cc3_eq

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out0_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out0_3 (iblk6 V c 0 t) (iblk6 V c 1 t) (iblk6 V c 2 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

-- the body is the base's kernel function at other arguments, so the base's triple applies
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [cc6_eq, show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel0 c Set.univ _ _ _ _ _ _ _ _ _ (iblk6 V c 0 t) (iblk6 V c 1 t) (iblk6 V c 2 t) _)
  iframe H0 H1 H2
  isplitl [H3]; · iexists _; iexact H3
  iintro ⟨H0, H1, H2, H3⟩
  iframe

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Hand.Body7.lean ====
import proofs.«419822_j14680198218267_2_alg».proof.Proof.Hand.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

-- This layer's kernel is the first layer's: the two functions have one body.
theorem cc7_eq_cc1 : cc7__stats_kernel (F := F) = cc1__stats_kernel := rfl

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := cond1_0 i
theorem hcond7_0 : ∀ t : Fin cfg7.N, cond7_0 (grid7.coords t) ↔ t.val % 25 = 0 :=
  (by decide +kernel : ∀ t : Fin grid7.N, cond7_0 (grid7.coords t) ↔ t.val % 25 = 0)
abbrev cond7_1 (i : grid7.Coords) : Prop := k7_cond2 i = 1#1
theorem hcond7_1 : ∀ t : Fin cfg7.N, cond7_1 (grid7.coords t) ↔ t.val % 25 = 24 :=
  (by decide +kernel : ∀ t : Fin grid7.N, cond7_1 (grid7.coords t) ↔ t.val % 25 = 24)

theorem idleAt7_4 : ∀ t : Fin cfg7.N, ¬cond7_1 (grid7.coords t) → cfg7.idle 4 (grid7.coords t) = true := by decide +kernel
theorem noFlush7_4 : ∀ t : Fin cfg7.N, ¬cond7_1 (grid7.coords t) → (cfg7.win 4).flush t = false := by decide +kernel
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem liveAt7_4 : ∀ t : Fin cfg7.N, cond7_1 (grid7.coords t) → cfg7.idle 4 (grid7.coords t) = false := by decide +kernel
theorem liveAt7_5 : ∀ t : Fin cfg7.N, cond7_1 (grid7.coords t) → cfg7.idle 5 (grid7.coords t) = false := by decide +kernel

def zero7_0 : Vec F S128x128 .f32 := View.canon [⟨r1_3, k7_pay1 (F := F)⟩]
def zero7_1 : Vec F S128x128 .f32 := View.canon [⟨r1_3, k7_pay2 (F := F)⟩]

def step7_0 (x0 : Vec F S2000x128 .f32) (x1 : Vec F S2000x1 .i32) (x2 : Vec F S2000x1 .f32) (x3 : Vec F S1x128 .f32) (s : Vec F S128x128 .f32) : Vec F S128x128 .f32 :=
  View.canon [⟨r1_3, k7_pay5 (View.ld x0 r1_0) (View.ld x2 r1_1) (View.ld x3 r1_2) (View.ld x1 r1_1) (View.ld s r1_3)⟩]
def step7_1 (x0 : Vec F S2000x128 .f32) (x1 : Vec F S2000x1 .i32) (x2 : Vec F S2000x1 .f32) (x3 : Vec F S1x128 .f32) (s : Vec F S128x128 .f32) : Vec F S128x128 .f32 :=
  View.canon [⟨r1_3, k7_pay6 (View.ld x0 r1_0) (View.ld x2 r1_1) (View.ld x3 r1_2) (View.ld x1 r1_1) (View.ld s r1_3)⟩]

def sc7 (c : Dev nD) : (n : ℕ) → n < cfg7.N → Vec F S128x128 .f32 × Vec F S128x128 .f32
  | 0, hn => (step7_0 (iblk7 V c 0 ⟨0, hn⟩) (iblk7 V c 1 ⟨0, hn⟩) (iblk7 V c 2 ⟨0, hn⟩) (iblk7 V c 3 ⟨0, hn⟩) zero7_0, step7_1 (iblk7 V c 0 ⟨0, hn⟩) (iblk7 V c 1 ⟨0, hn⟩) (iblk7 V c 2 ⟨0, hn⟩) (iblk7 V c 3 ⟨0, hn⟩) zero7_1)
  | n + 1, hn =>
    (step7_0 (iblk7 V c 0 ⟨n + 1, hn⟩) (iblk7 V c 1 ⟨n + 1, hn⟩) (iblk7 V c 2 ⟨n + 1, hn⟩) (iblk7 V c 3 ⟨n + 1, hn⟩) (sc7 c n (Nat.lt_of_succ_lt hn)).1,
     step7_1 (iblk7 V c 0 ⟨n + 1, hn⟩) (iblk7 V c 1 ⟨n + 1, hn⟩) (iblk7 V c 2 ⟨n + 1, hn⟩) (iblk7 V c 3 ⟨n + 1, hn⟩) (sc7 c n (Nat.lt_of_succ_lt hn)).2)

-- Stated over the first layer's fill and step, which this layer's are (the payloads have one body).
theorem sc7_zero (c : Dev nD) (t : Fin cfg7.N) (h0 : t.val % 25 = 0) :
    sc7 V c t.val t.isLt = (step1_0 (iblk7 V c 0 t) (iblk7 V c 1 t) (iblk7 V c 2 t) (iblk7 V c 3 t) zero1_0, step1_1 (iblk7 V c 0 t) (iblk7 V c 1 t) (iblk7 V c 2 t) (iblk7 V c 3 t) zero1_1) := by
  have hN : t.val < 25 := lt_of_lt_of_eq t.isLt (show cfg7.N = 25 from N_7)
  obtain ⟨n, hn⟩ := t
  cases n with
  | zero => rfl
  | succ n => exfalso; dsimp only at h0 hN; omega

theorem sc7_pos (c : Dev nD) (t : Fin cfg7.N) (h0 : ¬t.val % 25 = 0) :
    sc7 V c t.val t.isLt
      = (step1_0 (iblk7 V c 0 t) (iblk7 V c 1 t) (iblk7 V c 2 t) (iblk7 V c 3 t) (sc7 V c (t.val - 1) (Nat.lt_of_le_of_lt (Nat.sub_le _ _) t.isLt)).1,
         step1_1 (iblk7 V c 0 t) (iblk7 V c 1 t) (iblk7 V c 2 t) (iblk7 V c 3 t) (sc7 V c (t.val - 1) (Nat.lt_of_le_of_lt (Nat.sub_le _ _) t.isLt)).2) := by
  obtain ⟨n, hn⟩ := t
  cases n with
  | zero => exact absurd (Nat.zero_mod _) h0
  | succ n => rfl

abbrev scM7_0 : Memref sig .tc .vmem S128x128 .f32 := Memref.whole cc7_scratch0
abbrev scM7_1 : Memref sig .tc .vmem S128x128 .f32 := Memref.whole cc7_scratch1

def PhiS7 (c : Dev nD) : (n : ℕ) → n ≤ cfg7.N → sProp 𝕄
  | 0, _ => iprop(Pipeline.scopedRestBut (Ix := Unit) (Name := ℕ) (U := UR sig nD τ) (Lvl := ℕ) (Val := Elt F) spec7 c [cc7_scratch0, cc7_scratch1]
      ∗ (∃ r, prngReg c r)
      ∗ (∃ d, owns (c : Thread nD τ) scM7_0 fullShare d) ∗ (∃ d, owns (c : Thread nD τ) scM7_1 fullShare d))
  | n + 1, hn => iprop(Pipeline.scopedRestBut (Ix := Unit) (Name := ℕ) (U := UR sig nD τ) (Lvl := ℕ) (Val := Elt F) spec7 c [cc7_scratch0, cc7_scratch1]
      ∗ (∃ r, prngReg c r)
      ∗ owns (c : Thread nD τ) scM7_0 fullShare (sc7 V c n hn).1 ∗ owns (c : Thread nD τ) scM7_1 fullShare (sc7 V c n hn).2)

theorem PhiS7_zero (c : Dev nD) (n : ℕ) (h : n ≤ cfg7.N) (hz : n = 0) : PhiS7 V c n h = PhiS7 V c 0 (Nat.zero_le _) := by
  subst hz; rfl

theorem PhiS7_pos (c : Dev nD) (n : ℕ) (h : n ≤ cfg7.N) (hz : n ≠ 0) : PhiS7 V c n h = PhiS7 V c (n - 1 + 1) (by omega) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (sc7 V c t.val t.isLt).1
    | ⟨5, _⟩ => (sc7 V c t.val t.isLt).2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (sc7 V c t.val t.isLt).1 := by dsimp only [dat7]
theorem after7_5 (c : Dev nD) (t : Fin cfg7.N) : (dat7 V c).after 5 t = (sc7 V c t.val t.isLt).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4000000 in
-- The first layer's three triples, at this layer's memrefs and blocks.
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7_eq_cc1]
  simp only [before7_0, before7_1, before7_2, before7_3]
  rw [show (dat7 V c).owesAt () t.succ = (dat7 V c).owesAt () t.castSucc from rfl]
  rw [show (dat7 V c).Φ t.succ = PhiS7 V c (t.val + 1) t.isLt from rfl]
  simp only [PhiS7]
  have hN : t.val < 25 := lt_of_lt_of_eq t.isLt (show cfg7.N = 25 from N_7)
  rw [show (dat7 V c).leavesExact 0 t = owns (c : Thread nD τ) (st7_0 t) fullShare (iblk7 V c 0 t) from rfl]
  rw [show (dat7 V c).leavesExact 1 t = owns (c : Thread nD τ) (st7_1 t) fullShare (iblk7 V c 1 t) from rfl]
  rw [show (dat7 V c).leavesExact 2 t = owns (c : Thread nD τ) (st7_2 t) fullShare (iblk7 V c 2 t) from rfl]
  rw [show (dat7 V c).leavesExact 3 t = owns (c : Thread nD τ) (st7_3 t) fullShare (iblk7 V c 3 t) from rfl]
  by_cases h0 : t.val % 25 = 0
  · by_cases h1 : t.val % 25 = 24
    · exfalso; omega
    · rw [Dat.leavesExact_idle (dat7 V c) 4 t (idleAt7_4 t (fun h => h1 ((hcond7_1 t).mp h))) (noFlush7_4 t (fun h => h1 ((hcond7_1 t).mp h)))]
      rw [Dat.leavesExact_idle (dat7 V c) 5 t (idleAt7_5 t (fun h => h1 ((hcond7_1 t).mp h))) (noFlush7_5 t (fun h => h1 ((hcond7_1 t).mp h)))]
      rw [sc7_zero V c t h0]
      rw [PhiS7_castSucc V c t, PhiS7_zero V c _ _ (by omega)]
      simp only [PhiS7]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_A c Set.univ (grid7.coords t) ((hcond7_0 t).mpr h0) (fun h => h1 ((hcond7_1 t).mp h)) _ _ _ _ _ _ _ _ _ _ _ _ _ _ _ _
        (iblk7 V c 0 t) (iblk7 V c 1 t) (iblk7 V c 2 t) (iblk7 V c 3 t) _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5
  · by_cases h1 : t.val % 25 = 24
    · rw [show (dat7 V c).leavesExact 4 t = owns (c : Thread nD τ) (st7_4 t) fullShare ((dat7 V c).after 4 t) from by
        unfold Dat.leavesExact; rw [liveAt7_4 t ((hcond7_1 t).mpr h1)], after7_4]
      rw [show (dat7 V c).leavesExact 5 t = owns (c : Thread nD τ) (st7_5 t) fullShare ((dat7 V c).after 5 t) from by
        unfold Dat.leavesExact; rw [liveAt7_5 t ((hcond7_1 t).mpr h1)], after7_5]
      rw [sc7_pos V c t h0]
      rw [PhiS7_castSucc V c t, PhiS7_pos V c _ _ (by omega)]
      simp only [PhiS7]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_C c Set.univ (grid7.coords t) (fun h => h0 ((hcond7_0 t).mp h)) ((hcond7_1 t).mpr h1) _ _ _ _ _ _ _ _ _ _ _ _ _ _ _ _
        (iblk7 V c 0 t) (iblk7 V c 1 t) (iblk7 V c 2 t) (iblk7 V c 3 t) _ _ _)
      iframe H0 H1 H2 H3 HS0 HS1
      isplitl [H4]; · iexists _; iexact H4
      isplitl [H5]; · iexists _; iexact H5
      iintro ⟨H0, H1, H2, H3, H4, H5, HS0, HS1⟩
      iframe
    · rw [Dat.leavesExact_idle (dat7 V c) 4 t (idleAt7_4 t (fun h => h1 ((hcond7_1 t).mp h))) (noFlush7_4 t (fun h => h1 ((hcond7_1 t).mp h)))]
      rw [Dat.leavesExact_idle (dat7 V c) 5 t (idleAt7_5 t (fun h => h1 ((hcond7_1 t).mp h))) (noFlush7_5 t (fun h => h1 ((hcond7_1 t).mp h)))]
      rw [sc7_pos V c t h0]
      rw [PhiS7_castSucc V c t, PhiS7_pos V c _ _ (by omega)]
      simp only [PhiS7]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_B c Set.univ (grid7.coords t) (fun h => h0 ((hcond7_0 t).mp h)) (fun h => h1 ((hcond7_1 t).mp h)) _ _ _ _ _ _ _ _ _ _ _ _ _ _ _ _
        (iblk7 V c 0 t) (iblk7 V c 1 t) (iblk7 V c 2 t) (iblk7 V c 3 t) _ _ _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5

theorem body_obligation7 (c : Dev nD) : BodyObligation (dat7 (F := F) V c) (defs₀ (F := F)) Variants.none () Set.univ := fun t => by
  rw [bigSep_W1, bigSep_W1]
  exact sound_body7 V c t

theorem hin7 (c : Dev nD) : iprop((∃ r, prngReg c r) ∗ Pipeline.scopedRest (Ix := Unit) (Name := ℕ) (U := UR sig nD τ) (Lvl := ℕ) (Val := Elt F) spec7 c) ⊢ (dat7 V c).Φ 0 := by
  rw [show (dat7 V c).Φ 0 = PhiS7 V c 0 (Nat.zero_le _) from rfl, scopedRest7_split]
  simp only [PhiS7]
  simp only [scM7_0, scM7_1, owns_whole]
  iintro ⟨Hg, ⟨HS0, HS1⟩, HR⟩
  iframe

theorem hout7 (c : Dev nD) : (dat7 V c).Φ (Fin.last cfg7.N) ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 25 := N_7; omega), scopedRest7_split]
  simp only [PhiS7]
  simp only [scM7_0, scM7_1, owns_whole]
  iintro ⟨HR, Hg, HS0, HS1⟩
  iframe HR Hg
  isplitl [HS0]; · iexists _; iexact HS0
  iexists _; iexact HS1

end Region7

end Cert.KernelIdeal.Hand

end
-- ==== Proof.Hand.Body8.lean ====
import proofs.«419822_j14680198218267_2_alg».proof.Proof.Hand.Body5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

-- The third layer's kernel is the second's, term for term.
theorem cc8_eq : cc8__norm_kernel (F := F) = cc5__norm_kernel (F := F) := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out5_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out5_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d
theorem before8_4 (c : Dev nD) (t : Fin cfg8.N) (d) : (dat8 V c).before 4 t d = iblk8 V c 4 t :=
  (dat8 V c).before_in_eq_fetched 4 rfl (fun _ => rfl) (fun _ _ _ => rfl) (fun _ => rfl) t d
theorem before8_5 (c : Dev nD) (t : Fin cfg8.N) (d) : (dat8 V c).before 5 t d = iblk8 V c 5 t :=
  (dat8 V c).before_in_eq_fetched 5 rfl (fun _ => rfl) (fun _ _ _ => rfl) (fun _ => rfl) t d
theorem before8_6 (c : Dev nD) (t : Fin cfg8.N) (d) : (dat8 V c).before 6 t d = iblk8 V c 6 t :=
  (dat8 V c).before_in_eq_fetched 6 rfl (fun _ => rfl) (fun _ _ _ => rfl) (fun _ => rfl) t d
theorem before8_7 (c : Dev nD) (t : Fin cfg8.N) (d) : (dat8 V c).before 7 t d = iblk8 V c 7 t :=
  (dat8 V c).before_in_eq_fetched 7 rfl (fun _ => rfl) (fun _ _ _ => rfl) (fun _ => rfl) t d
theorem before8_8 (c : Dev nD) (t : Fin cfg8.N) (d) : (dat8 V c).before 8 t d = iblk8 V c 8 t :=
  (dat8 V c).before_in_eq_fetched 8 rfl (fun _ => rfl) (fun _ _ _ => rfl) (fun _ => rfl) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8_eq]
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid8.coords t) _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  iframe H0 H1 H2 H3 H4 H5 H6 H7 H8
  isplitl [H9]; · iexists _; iexact H9
  iintro ⟨H0, H1, H2, H3, H4, H5, H6, H7, H8, H9⟩
  iframe

theorem body_obligation8 (c : Dev nD) : BodyObligation (dat8 (F := F) V c) (defs₀ (F := F)) Variants.none () Set.univ := fun t => by
  rw [bigSep_W8, bigSep_W8]
  exact sound_body8 V c t

end Region8

end Cert.KernelIdeal.Hand

end
-- ==== Proof.Hand.Body9.lean ====
import proofs.«419822_j14680198218267_2_alg».proof.Proof.Hand.Common
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev cond9_0 (i : grid9.Coords) : Prop := (Scalar.cmpi .ne (Scalar.extui (Scalar.cmpi .eq (BitVec.ofNat 32 (i 0).val) 0#32)) 0#32) = 1#1

theorem hcond9_0 : ∀ t : Fin cfg9.N, cond9_0 (grid9.coords t) ↔ t.val % 25 = 0 :=
  (by decide +kernel : ∀ t : Fin grid9.N, cond9_0 (grid9.coords t) ↔ t.val % 25 = 0)

abbrev cond9_1 (i : grid9.Coords) : Prop := k9_cond2 i = 1#1

theorem hcond9_1 : ∀ t : Fin cfg9.N, cond9_1 (grid9.coords t) ↔ t.val % 25 = 24 :=
  (by decide +kernel : ∀ t : Fin grid9.N, cond9_1 (grid9.coords t) ↔ t.val % 25 = 24)

theorem liveAt9_0 : ∀ t : Fin cfg9.N, cfg9.idle 0 (grid9.coords t) = false := by decide +kernel
theorem liveAt9_1 : ∀ t : Fin cfg9.N, cfg9.idle 1 (grid9.coords t) = false := by decide +kernel

theorem idleAt9_2 : ∀ t : Fin cfg9.N, ¬cond9_1 (grid9.coords t) → cfg9.idle 2 (grid9.coords t) = true := by decide +kernel

theorem noFlush9_2 : ∀ t : Fin cfg9.N, ¬cond9_1 (grid9.coords t) → (cfg9.win 2).flush t = false := by decide +kernel

theorem liveAt9_2 : ∀ t : Fin cfg9.N, cond9_1 (grid9.coords t) → cfg9.idle 2 (grid9.coords t) = false := by decide +kernel

theorem hz9 : (![0, 0] : Fin 2 → ℕ) = fun _ => 0 := by funext a; fin_cases a <;> rfl

def sc9 (c : Dev nD) : (n : ℕ) → n < cfg9.N → Vec F S128x128 .f32
  | 0, hn => k9_pay2 (iblk9 V c 0 ⟨0, hn⟩) (iblk9 V c 1 ⟨0, hn⟩) (k9_pay1 (F := F))
  | n + 1, hn => k9_pay2 (iblk9 V c 0 ⟨n + 1, hn⟩) (iblk9 V c 1 ⟨n + 1, hn⟩) (sc9 c n (Nat.lt_of_succ_lt hn))

theorem sc9_zero (c : Dev nD) (t : Fin cfg9.N) (h0 : t.val = 0) :
    sc9 V c t.val t.isLt = k9_pay2 (iblk9 V c 0 t) (iblk9 V c 1 t) (k9_pay1 (F := F)) := by
  obtain ⟨n, hn⟩ := t
  cases n with
  | zero => rfl
  | succ n => exact absurd h0 (Nat.succ_ne_zero n)

theorem sc9_pos (c : Dev nD) (t : Fin cfg9.N) (h0 : t.val ≠ 0) :
    sc9 V c t.val t.isLt = k9_pay2 (iblk9 V c 0 t) (iblk9 V c 1 t) (sc9 V c (t.val - 1) (Nat.lt_of_le_of_lt (Nat.sub_le _ _) t.isLt)) := by
  obtain ⟨n, hn⟩ := t
  cases n with
  | zero => exact absurd rfl h0
  | succ n => rfl

abbrev scM9_0 : Memref sig .tc .vmem S128x128 .f32 := Memref.whole cc9_scratch0

def PhiS9 (c : Dev nD) : (n : ℕ) → n ≤ cfg9.N → sProp 𝕄
  | 0, _ => iprop(Pipeline.scopedRestBut (Ix := Unit) (Name := ℕ) (U := UR sig nD τ) (Lvl := ℕ) (Val := Elt F) spec9 c [cc9_scratch0]
      ∗ (∃ r, prngReg c r) ∗ (∃ d, owns (c : Thread nD τ) scM9_0 fullShare d))
  | n + 1, hn => iprop(Pipeline.scopedRestBut (Ix := Unit) (Name := ℕ) (U := UR sig nD τ) (Lvl := ℕ) (Val := Elt F) spec9 c [cc9_scratch0]
      ∗ (∃ r, prngReg c r) ∗ owns (c : Thread nD τ) scM9_0 fullShare (sc9 V c n hn))

theorem PhiS9_zero (c : Dev nD) (n : ℕ) (h : n ≤ cfg9.N) (hz : n = 0) :
    PhiS9 V c n h = iprop(Pipeline.scopedRestBut (Ix := Unit) (Name := ℕ) (U := UR sig nD τ) (Lvl := ℕ) (Val := Elt F) spec9 c [cc9_scratch0]
      ∗ (∃ r, prngReg c r) ∗ (∃ d, owns (c : Thread nD τ) scM9_0 fullShare d)) := by
  subst hz; rfl

theorem PhiS9_succ (c : Dev nD) (n : ℕ) (hn : n < cfg9.N) :
    PhiS9 V c (n + 1) hn = iprop(Pipeline.scopedRestBut (Ix := Unit) (Name := ℕ) (U := UR sig nD τ) (Lvl := ℕ) (Val := Elt F) spec9 c [cc9_scratch0]
      ∗ (∃ r, prngReg c r) ∗ owns (c : Thread nD τ) scM9_0 fullShare (sc9 V c n hn)) := rfl

theorem PhiS9_pos (c : Dev nD) (n : ℕ) (h : n ≤ cfg9.N) (hz : n ≠ 0) :
    PhiS9 V c n h = iprop(Pipeline.scopedRestBut (Ix := Unit) (Name := ℕ) (U := UR sig nD τ) (Lvl := ℕ) (Val := Elt F) spec9 c [cc9_scratch0]
      ∗ (∃ r, prngReg c r) ∗ owns (c : Thread nD τ) scM9_0 fullShare (sc9 V c (n - 1) (by omega))) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => sc9 V c t.val t.isLt
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]

theorem after9_2 (c : Dev nD) (t : Fin cfg9.N) : (dat9 V c).after 2 t = sc9 V c t.val t.isLt := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl

theorem hin9 (c : Dev nD) : iprop((∃ r, prngReg c r) ∗ Pipeline.scopedRest (Ix := Unit) (Name := ℕ) (U := UR sig nD τ) (Lvl := ℕ) (Val := Elt F) spec9 c) ⊢ (dat9 V c).Φ 0 := by
  rw [show (dat9 V c).Φ 0 = PhiS9 V c 0 (Nat.zero_le _) from rfl, PhiS9_zero V c 0 _ rfl, scopedRest9_split]
  iintro ⟨Hg, ⟨%f, HS⟩, HR⟩
  iframe HR Hg
  iexists f; rw [owns_whole]; iexact HS

theorem hout9 (c : Dev nD) : (dat9 V c).Φ (Fin.last cfg9.N) ⊢ iprop((∃ r, prngReg c r) ∗ Pipeline.scopedRest (Ix := Unit) (Name := ℕ) (U := UR sig nD τ) (Lvl := ℕ) (Val := Elt F) spec9 c) := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 25 := N_9; omega), scopedRest9_split, owns_whole]
  iintro ⟨HR, Hg, HS⟩
  iframe Hg HR
  iexists _; iexact HS

set_option maxHeartbeats 1000000 in

theorem kernelRun9_A (c : Dev nD) (i : grid9.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole)
    (hc0 : cond9_0 i) (hc1 : ¬cond9_1 i)
    (x0 : Vec F S2000x128 .f32) (x1 : Vec F S2000x1 .i32) (xi2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k9_pay2 x0 x1 (k9_pay1 (F := F)))) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [View.read_writes_eq_canon _ _ _ (fun y => ⟨_, List.mem_cons_self, View.mem_set_unit_zero hz9 inb_S128x128_S128x128_0_0 y⟩),
    View.canon_cons_unit_zero (S := S128x128) hz9]
  simp only [View.readAt_eq_ld, hf0, hf1, View.ld_unit_zero (S := S2000x128) hz9, View.ld_unit_zero (S := S2000x1) hz9,
    View.readCov_unit_zero (S := S128x128) _ hz9]

set_option maxHeartbeats 1000000 in

theorem kernelRun9_B (c : Dev nD) (i : grid9.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole)
    (hc0 : ¬cond9_0 i) (hc1 : ¬cond9_1 i)
    (x0 : Vec F S2000x128 .f32) (x1 : Vec F S2000x1 .i32) (xi2 : Vec F S128x128 .f32) (xs : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare xs
        ∗ (iprop(owns (c : Thread nD τ) arg1 fullShare x0 ∗ owns (c : Thread nD τ) arg2 fullShare x1 ∗ owns (c : Thread nD τ) arg3 fullShare xi2
            ∗ owns (c : Thread nD τ) arg4 fullShare (k9_pay2 x0 x1 xs)) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [View.read_writes_eq_canon _ _ _ (fun y => ⟨_, List.mem_cons_self, View.mem_set_unit_zero hz9 inb_S128x128_S128x128_0_0 y⟩),
    View.canon_cons_unit_zero (S := S128x128) hz9]
  simp only [View.readAt_eq_ld, hf0, hf1, hfs, View.ld_unit_zero (S := S2000x128) hz9, View.ld_unit_zero (S := S2000x1) hz9,
    View.ld_unit_zero (S := S128x128) hz9]

set_option maxHeartbeats 1000000 in

theorem kernelRun9_C (c : Dev nD) (i : grid9.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole)
    (hc0 : ¬cond9_0 i) (hc1 : cond9_1 i)
    (x0 : Vec F S2000x128 .f32) (x1 : Vec F S2000x1 .i32) (xs : Vec F S128x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1 ∗ owns (c : Thread nD τ) arg3 fullShare (k9_pay2 x0 x1 xs)
            ∗ owns (c : Thread nD τ) arg4 fullShare (k9_pay2 x0 x1 xs)) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [View.read_writes_eq_canon _ _ _ (fun y => ⟨_, List.mem_cons_self, View.mem_set_unit_zero hz9 inb_S128x128_S128x128_0_0 y⟩),
      View.canon_cons_unit_zero (S := S128x128) hz9]
    simp only [View.readAt_eq_ld, hf0, hf1, hfs, View.ld_unit_zero (S := S2000x128) hz9, View.ld_unit_zero (S := S2000x1) hz9,
      View.ld_unit_zero (S := S128x128) hz9, View.readCov_unit_zero (S := S128x128) _ hz9]
  iexists _; isplitr
  swap; · iexact HS
  ipureintro
  sl_unfold_run_names
  rw [View.read_writes_eq_canon _ _ _ (fun y => ⟨_, List.mem_cons_self, View.mem_set_unit_zero hz9 inb_S128x128_S128x128_0_0 y⟩),
    View.canon_cons_unit_zero (S := S128x128) hz9]
  simp only [View.readAt_eq_ld, hf0, hf1, hfs, View.ld_unit_zero (S := S2000x128) hz9, View.ld_unit_zero (S := S2000x1) hz9,
    View.ld_unit_zero (S := S128x128) hz9]

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4800000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 25 := lt_of_lt_of_eq t.isLt (show cfg9.N = 25 from N_9)
  rw [show (dat9 V c).leavesExact 0 t = owns (c : Thread nD τ) (st9_0 t) fullShare ((dat9 V c).after 0 t) from by
    unfold Dat.leavesExact; rw [liveAt9_0 t], after9_0]
  rw [show (dat9 V c).leavesExact 1 t = owns (c : Thread nD τ) (st9_1 t) fullShare ((dat9 V c).after 1 t) from by
    unfold Dat.leavesExact; rw [liveAt9_1 t], after9_1]
  by_cases h0 : t.val % 25 = 0
  · have hz : t.val = 0 := by omega
    have h1 : ¬t.val % 25 = 24 := by omega
    rw [Dat.leavesExact_idle (dat9 V c) 2 t (idleAt9_2 t (fun h => h1 ((hcond9_1 t).mp h))) (noFlush9_2 t (fun h => h1 ((hcond9_1 t).mp h)))]
    rw [sc9_zero V c t hz, PhiS9_castSucc V c t, PhiS9_zero V c _ _ hz]
    iintro ⟨⟨HR, Hg, HS⟩, Ho, ⟨%d0, H0⟩, ⟨%d1, H1⟩, ⟨%d2, H2⟩⟩
    iapply (kernelRun9_A c (grid9.coords t) _ _ _ _ _ _ _ _ ((hcond9_0 t).mpr h0) (fun h => h1 ((hcond9_1 t).mp h)) (iblk9 V c 0 t) (iblk9 V c 1 t) _ Set.univ _)
    iframe H0 H1
    isplitl [H2]; · iexact H2
    isplitl [HS]; · iexact HS
    iintro ⟨H0, H1, H2, HS⟩
    iframe HR Hg HS Ho H0 H1
    iexists _; iexact H2
  · have hz : t.val ≠ 0 := fun h => h0 (by rw [h])
    by_cases h1 : t.val % 25 = 24
    · rw [show (dat9 V c).leavesExact 2 t = owns (c : Thread nD τ) (st9_2 t) fullShare ((dat9 V c).after 2 t) from by
        unfold Dat.leavesExact; rw [liveAt9_2 t ((hcond9_1 t).mpr h1)], after9_2]
      rw [sc9_pos V c t hz, PhiS9_castSucc V c t, PhiS9_pos V c _ _ hz]
      iintro ⟨⟨HR, Hg, HS⟩, Ho, ⟨%d0, H0⟩, ⟨%d1, H1⟩, ⟨%d2, H2⟩⟩
      iapply (kernelRun9_C c (grid9.coords t) _ _ _ _ _ _ _ _ (fun h => h0 ((hcond9_0 t).mp h)) ((hcond9_1 t).mpr h1) (iblk9 V c 0 t) (iblk9 V c 1 t) _ Set.univ _)
      iframe H0 H1
      isplitl [H2]; · iexists _; iexact H2
      isplitl [HS]; · iexact HS
      iintro ⟨H0, H1, H2, HS⟩
      iframe
    · rw [Dat.leavesExact_idle (dat9 V c) 2 t (idleAt9_2 t (fun h => h1 ((hcond9_1 t).mp h))) (noFlush9_2 t (fun h => h1 ((hcond9_1 t).mp h)))]
      rw [sc9_pos V c t hz, PhiS9_castSucc V c t, PhiS9_pos V c _ _ hz]
      iintro ⟨⟨HR, Hg, HS⟩, Ho, ⟨%d0, H0⟩, ⟨%d1, H1⟩, ⟨%d2, H2⟩⟩
      iapply (kernelRun9_B c (grid9.coords t) _ _ _ _ _ _ _ _ (fun h => h0 ((hcond9_0 t).mp h)) (fun h => h1 ((hcond9_1 t).mp h)) (iblk9 V c 0 t) (iblk9 V c 1 t) _ _ Set.univ _)
      iframe H0 H1
      isplitl [H2]; · iexact H2
      isplitl [HS]; · iexact HS
      iintro ⟨H0, H1, H2, HS⟩
      iframe HR Hg HS Ho H0 H1
      iexists _; iexact H2

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.Hand.Bodies.lean ====
import proofs.«419822_j14680198218267_2_alg».proof.Proof.Hand.Body0
import proofs.«419822_j14680198218267_2_alg».proof.Proof.Hand.Body1
import proofs.«419822_j14680198218267_2_alg».proof.Proof.Hand.Body2
import proofs.«419822_j14680198218267_2_alg».proof.Proof.Hand.Body3
import proofs.«419822_j14680198218267_2_alg».proof.Proof.Hand.Body4
import proofs.«419822_j14680198218267_2_alg».proof.Proof.Hand.Body5
import proofs.«419822_j14680198218267_2_alg».proof.Proof.Hand.Body6
import proofs.«419822_j14680198218267_2_alg».proof.Proof.Hand.Body7
import proofs.«419822_j14680198218267_2_alg».proof.Proof.Hand.Body8
import proofs.«419822_j14680198218267_2_alg».proof.Proof.Hand.Body9
-- ==== Proof.Hand.HostWrites.lean ====
import proofs.«419822_j14680198218267_2_alg».proof.Proof.Gen.KernelIdeal.Launch
import Idealize.ShloMosaic.Lib.Pipeline.Frame
import Idealize.ShloMosaic.Lib.Pipeline.Regions

set_option maxRecDepth 1784

noncomputable section

namespace Cert.KernelIdeal.GenP

open Cert.KernelIdeal Cert.KernelIdeal.Gen
open Idealize.ShloMosaic Idealize.ShloMosaic.TcCoe

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_cst, main_v7, main_cst_0, main_v8, main_v9, main_v10, main_cst_1, main_v11, main_v12, main_cst_2]
theorem hostOps0_writes : (hostOps0 : List (HloOp τ sig (Elt F))).Forall fun op => op.writes ⊆ (hostOps0_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_2_fresh : (hostOps0_2 : List (HloOp τ sig (Elt F))).Forall fun op => op.fresh = ∅ := by
  simp only [List.Forall]; repeat' constructor
abbrev hostOps0_2_W : List (Ref sig .tc) := [main_v14, main_v15, main_cst_3, main_v16, main_cst_4, main_v17, main_v18, main_v19, main_cst_5, main_v20, main_v21, main_v22, main_v23, main_v24, main_v25, main_v26, main_v27, main_v28]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_c, main_v30, main_v31, main_c_6, main_v32, main_v33, main_v34, main_v35, main_v36, main_v37, main_cst_7, main_v38, main_v39, main_v40]
theorem hostOps1_writes : (hostOps1 : List (HloOp τ sig (Elt F))).Forall fun op => op.writes ⊆ (hostOps1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_v42, main_v43, main_v44, main_v45, main_v46, main_v47, main_v48, main_v49, main_cst_8, main_v50, main_v51, main_v52, main_v53, main_v54, main_v55, main_v56, main_v57, main_c_9]
theorem hostOps2_writes : (hostOps2 : List (HloOp τ sig (Elt F))).Forall fun op => op.writes ⊆ (hostOps2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_1_fresh : (hostOps2_1 : List (HloOp τ sig (Elt F))).Forall fun op => op.fresh = ∅ := by
  simp only [List.Forall]; repeat' constructor
abbrev hostOps2_1_W : List (Ref sig .tc) := [main_call1_v0, main_v58]
theorem hostOps2_1_writes : (hostOps2_1 : List (HloOp τ sig (Elt F))).Forall fun op => op.writes ⊆ (hostOps2_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_2_fresh : (hostOps2_2 : List (HloOp τ sig (Elt F))).Forall fun op => op.fresh = ∅ := by
  simp only [List.Forall]; repeat' constructor
abbrev hostOps2_2_W : List (Ref sig .tc) := [main_c_10]
theorem hostOps2_2_writes : (hostOps2_2 : List (HloOp τ sig (Elt F))).Forall fun op => op.writes ⊆ (hostOps2_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_3_fresh : (hostOps2_3 : List (HloOp τ sig (Elt F))).Forall fun op => op.fresh = ∅ := by
  simp only [List.Forall]; repeat' constructor
abbrev hostOps2_3_W : List (Ref sig .tc) := [main_call2_v0, main_v59]
theorem hostOps2_3_writes : (hostOps2_3 : List (HloOp τ sig (Elt F))).Forall fun op => op.writes ⊆ (hostOps2_3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_4_fresh : (hostOps2_4 : List (HloOp τ sig (Elt F))).Forall fun op => op.fresh = ∅ := by
  simp only [List.Forall]; repeat' constructor
abbrev hostOps2_4_W : List (Ref sig .tc) := [main_v60, main_v61, main_v62, main_v63, main_v64, main_v65, main_v66, main_v67, main_v68, main_v69]
theorem hostOps2_4_writes : (hostOps2_4 : List (HloOp τ sig (Elt F))).Forall fun op => op.writes ⊆ (hostOps2_4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps3_fresh : (hostOps3 : List (HloOp τ sig (Elt F))).Forall fun op => op.fresh = ∅ := by
  simp only [List.Forall]; repeat' constructor
abbrev hostOps3_W : List (Ref sig .tc) := [main_v71, main_v72, main_v73, main_v74, main_v75]
theorem hostOps3_writes : (hostOps3 : List (HloOp τ sig (Elt F))).Forall fun op => op.writes ⊆ (hostOps3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps4_fresh : (hostOps4 : List (HloOp τ sig (Elt F))).Forall fun op => op.fresh = ∅ := by
  simp only [List.Forall]; repeat' constructor
abbrev hostOps4_W : List (Ref sig .tc) := [main_c_11, main_v77, main_v78, main_c_12, main_v79, main_v80, main_v81, main_v82, main_v83, main_v84, main_cst_13, main_v85, main_v86, main_v87]
theorem hostOps4_writes : (hostOps4 : List (HloOp τ sig (Elt F))).Forall fun op => op.writes ⊆ (hostOps4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_fresh : (hostOps5 : List (HloOp τ sig (Elt F))).Forall fun op => op.fresh = ∅ := by
  simp only [List.Forall]; repeat' constructor
abbrev hostOps5_W : List (Ref sig .tc) := [main_v89, main_v90, main_v91, main_v92, main_v93, main_v94, main_v95, main_v96, main_cst_14, main_v97, main_v98, main_v99, main_v100, main_v101, main_v102, main_v103, main_v104, main_c_15]
theorem hostOps5_writes : (hostOps5 : List (HloOp τ sig (Elt F))).Forall fun op => op.writes ⊆ (hostOps5_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_1_fresh : (hostOps5_1 : List (HloOp τ sig (Elt F))).Forall fun op => op.fresh = ∅ := by
  simp only [List.Forall]; repeat' constructor
abbrev hostOps5_1_W : List (Ref sig .tc) := [main_call3_v0, main_v105]
theorem hostOps5_1_writes : (hostOps5_1 : List (HloOp τ sig (Elt F))).Forall fun op => op.writes ⊆ (hostOps5_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_2_fresh : (hostOps5_2 : List (HloOp τ sig (Elt F))).Forall fun op => op.fresh = ∅ := by
  simp only [List.Forall]; repeat' constructor
abbrev hostOps5_2_W : List (Ref sig .tc) := [main_c_16]
theorem hostOps5_2_writes : (hostOps5_2 : List (HloOp τ sig (Elt F))).Forall fun op => op.writes ⊆ (hostOps5_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_3_fresh : (hostOps5_3 : List (HloOp τ sig (Elt F))).Forall fun op => op.fresh = ∅ := by
  simp only [List.Forall]; repeat' constructor
abbrev hostOps5_3_W : List (Ref sig .tc) := [main_call4_v0, main_v106]
theorem hostOps5_3_writes : (hostOps5_3 : List (HloOp τ sig (Elt F))).Forall fun op => op.writes ⊆ (hostOps5_3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_4_fresh : (hostOps5_4 : List (HloOp τ sig (Elt F))).Forall fun op => op.fresh = ∅ := by
  simp only [List.Forall]; repeat' constructor
abbrev hostOps5_4_W : List (Ref sig .tc) := [main_v107, main_v108, main_v109, main_v110, main_v111, main_v112, main_v113, main_v114, main_v115, main_v116]
theorem hostOps5_4_writes : (hostOps5_4 : List (HloOp τ sig (Elt F))).Forall fun op => op.writes ⊆ (hostOps5_4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps6_fresh : (hostOps6 : List (HloOp τ sig (Elt F))).Forall fun op => op.fresh = ∅ := by
  simp only [List.Forall]; repeat' constructor
abbrev hostOps6_W : List (Ref sig .tc) := [main_v118, main_v119, main_v120, main_v121, main_v122]
theorem hostOps6_writes : (hostOps6 : List (HloOp τ sig (Elt F))).Forall fun op => op.writes ⊆ (hostOps6_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps7_fresh : (hostOps7 : List (HloOp τ sig (Elt F))).Forall fun op => op.fresh = ∅ := by
  simp only [List.Forall]; repeat' constructor
abbrev hostOps7_W : List (Ref sig .tc) := [main_c_17, main_v124, main_v125, main_c_18, main_v126, main_v127, main_v128, main_v129, main_v130, main_v131, main_cst_19, main_v132, main_v133, main_v134]
theorem hostOps7_writes : (hostOps7 : List (HloOp τ sig (Elt F))).Forall fun op => op.writes ⊆ (hostOps7_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_fresh : (hostOps8 : List (HloOp τ sig (Elt F))).Forall fun op => op.fresh = ∅ := by
  simp only [List.Forall]; repeat' constructor
abbrev hostOps8_W : List (Ref sig .tc) := [main_v136, main_v137, main_v138, main_v139, main_v140, main_v141, main_v142, main_v143, main_cst_20, main_v144, main_v145, main_v146, main_v147, main_v148, main_v149, main_v150, main_v151, main_c_21]
theorem hostOps8_writes : (hostOps8 : List (HloOp τ sig (Elt F))).Forall fun op => op.writes ⊆ (hostOps8_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_1_fresh : (hostOps8_1 : List (HloOp τ sig (Elt F))).Forall fun op => op.fresh = ∅ := by
  simp only [List.Forall]; repeat' constructor
abbrev hostOps8_1_W : List (Ref sig .tc) := [main_call5_v0, main_v152]
theorem hostOps8_1_writes : (hostOps8_1 : List (HloOp τ sig (Elt F))).Forall fun op => op.writes ⊆ (hostOps8_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_2_fresh : (hostOps8_2 : List (HloOp τ sig (Elt F))).Forall fun op => op.fresh = ∅ := by
  simp only [List.Forall]; repeat' constructor
abbrev hostOps8_2_W : List (Ref sig .tc) := [main_c_22]
theorem hostOps8_2_writes : (hostOps8_2 : List (HloOp τ sig (Elt F))).Forall fun op => op.writes ⊆ (hostOps8_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_3_fresh : (hostOps8_3 : List (HloOp τ sig (Elt F))).Forall fun op => op.fresh = ∅ := by
  simp only [List.Forall]; repeat' constructor
abbrev hostOps8_3_W : List (Ref sig .tc) := [main_call6_v0, main_v153]
theorem hostOps8_3_writes : (hostOps8_3 : List (HloOp τ sig (Elt F))).Forall fun op => op.writes ⊆ (hostOps8_3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_4_fresh : (hostOps8_4 : List (HloOp τ sig (Elt F))).Forall fun op => op.fresh = ∅ := by
  simp only [List.Forall]; repeat' constructor
abbrev hostOps8_4_W : List (Ref sig .tc) := [main_v154, main_v155, main_v156, main_v157, main_v158, main_v159, main_v160, main_v161, main_v162, main_v163]
theorem hostOps8_4_writes : (hostOps8_4 : List (HloOp τ sig (Elt F))).Forall fun op => op.writes ⊆ (hostOps8_4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps10_fresh : (hostOps10 : List (HloOp τ sig (Elt F))).Forall fun op => op.fresh = ∅ := by
  simp only [List.Forall]; repeat' constructor
abbrev hostOps10_W : List (Ref sig .tc) := [main_v166, main_v167, main_v168]
theorem hostOps10_writes : (hostOps10 : List (HloOp τ sig (Elt F))).Forall fun op => op.writes ⊆ (hostOps10_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.KernelIdeal.GenP

end
-- ==== Proof.Hand.Chain.lean ====
import proofs.«419822_j14680198218267_2_alg».proof.Proof.Hand.Bodies
import proofs.«419822_j14680198218267_2_alg».proof.Proof.Hand.HostWrites

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem ne_of_not_mem_image {α β : Type} [Fintype α] [DecidableEq β] {f : α → β} {b : β} (hb : b ∉ Finset.univ.image f) (w : α) : f w ≠ b :=
  fun e => hb (Finset.mem_image.mpr ⟨w, Finset.mem_univ _, e⟩)

abbrev W0 : Dev nD → Valuation τ sig (Elt F) := fun c b => m (c, b)
abbrev W1 : Dev nD → Valuation τ sig (Elt F) := fun c => StableHlo.after hostOps0 (W0 m c)
theorem W1_keep (c : Dev nD) (r : Ref sig .tc) (h : r ∉ GenP.hostOps0_W) : W1 m c r = W0 m c r :=
  StableHlo.after_of_writes_sub hostOps0 _ GenP.hostOps0_writes h
abbrev W2 : Dev nD → Valuation τ sig (Elt F) := fun c => StableHlo.after hostOps0_1 (W1 m c)
theorem W2_keep (c : Dev nD) (r : Ref sig .tc) (h : r ∉ GenP.hostOps0_1_W) : W2 m c r = W1 m c r :=
  StableHlo.after_of_writes_sub hostOps0_1 _ GenP.hostOps0_1_writes h
abbrev W3 : Dev nD → Valuation τ sig (Elt F) := fun c => StableHlo.after hostOps0_2 (W2 m c)
theorem W3_keep (c : Dev nD) (r : Ref sig .tc) (h : r ∉ GenP.hostOps0_2_W) : W3 m c r = W2 m c r :=
  StableHlo.after_of_writes_sub hostOps0_2 _ GenP.hostOps0_2_writes h
abbrev V3 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b (ne_of_not_mem_image hb)
abbrev W5 : Dev nD → Valuation τ sig (Elt F) := fun c => StableHlo.after hostOps1 (W4 m c)
theorem W5_keep (c : Dev nD) (r : Ref sig .tc) (h : r ∉ GenP.hostOps1_W) : W5 m c r = W4 m c r :=
  StableHlo.after_of_writes_sub hostOps1 _ GenP.hostOps1_writes h
abbrev V5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b (ne_of_not_mem_image hb)
abbrev W7 : Dev nD → Valuation τ sig (Elt F) := fun c => StableHlo.after hostOps2 (W6 m c)
theorem W7_keep (c : Dev nD) (r : Ref sig .tc) (h : r ∉ GenP.hostOps2_W) : W7 m c r = W6 m c r :=
  StableHlo.after_of_writes_sub hostOps2 _ GenP.hostOps2_writes h
abbrev W8 : Dev nD → Valuation τ sig (Elt F) := fun c => StableHlo.after hostOps2_1 (W7 m c)
theorem W8_keep (c : Dev nD) (r : Ref sig .tc) (h : r ∉ GenP.hostOps2_1_W) : W8 m c r = W7 m c r :=
  StableHlo.after_of_writes_sub hostOps2_1 _ GenP.hostOps2_1_writes h
abbrev W9 : Dev nD → Valuation τ sig (Elt F) := fun c => StableHlo.after hostOps2_2 (W8 m c)
theorem W9_keep (c : Dev nD) (r : Ref sig .tc) (h : r ∉ GenP.hostOps2_2_W) : W9 m c r = W8 m c r :=
  StableHlo.after_of_writes_sub hostOps2_2 _ GenP.hostOps2_2_writes h
abbrev W10 : Dev nD → Valuation τ sig (Elt F) := fun c => StableHlo.after hostOps2_3 (W9 m c)
theorem W10_keep (c : Dev nD) (r : Ref sig .tc) (h : r ∉ GenP.hostOps2_3_W) : W10 m c r = W9 m c r :=
  StableHlo.after_of_writes_sub hostOps2_3 _ GenP.hostOps2_3_writes h
abbrev W11 : Dev nD → Valuation τ sig (Elt F) := fun c => StableHlo.after hostOps2_4 (W10 m c)
theorem W11_keep (c : Dev nD) (r : Ref sig .tc) (h : r ∉ GenP.hostOps2_4_W) : W11 m c r = W10 m c r :=
  StableHlo.after_of_writes_sub hostOps2_4 _ GenP.hostOps2_4_writes h
abbrev V11 : (c : Dev nD) → (b : Ref sig .tc) → Buf (Elt F) ((c : Thread nD τ).loc b) := fun c b => W11 m c b
def W12 (c : Dev nD) : Valuation τ sig (Elt F) :=
  Pipeline.withArrays spec2 c (W11 m c) fun w => (dat2 (V11 m) c).arrAt w cfg2.N
theorem W12_arr (c : Dev nD) (w : Fin cfg2.W) :
    W12 m c (Proc.devRef .tc (Pipeline.arrRef spec2 w)) = (dat2 (V11 m) c).arrAt w cfg2.N :=
  Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) :=
  Pipeline.withArrays_of_ne spec2 c _ _ b hb
abbrev V12 : (c : Dev nD) → (b : Ref sig .tc) → Buf (Elt F) ((c : Thread nD τ).loc b) := fun c b => W12 m c b
theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b (ne_of_not_mem_image hb)
abbrev W13 : Dev nD → Valuation τ sig (Elt F) := fun c => StableHlo.after hostOps3 (W12 m c)
theorem W13_keep (c : Dev nD) (r : Ref sig .tc) (h : r ∉ GenP.hostOps3_W) : W13 m c r = W12 m c r :=
  StableHlo.after_of_writes_sub hostOps3 _ GenP.hostOps3_writes h
abbrev V13 : (c : Dev nD) → (b : Ref sig .tc) → Buf (Elt F) ((c : Thread nD τ).loc b) := fun c b => W13 m c b
def W14 (c : Dev nD) : Valuation τ sig (Elt F) :=
  Pipeline.withArrays spec3 c (W13 m c) fun w => (dat3 (V13 m) c).arrAt w cfg3.N
theorem W14_arr (c : Dev nD) (w : Fin cfg3.W) :
    W14 m c (Proc.devRef .tc (Pipeline.arrRef spec3 w)) = (dat3 (V13 m) c).arrAt w cfg3.N :=
  Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) :=
  Pipeline.withArrays_of_ne spec3 c _ _ b hb
abbrev V14 : (c : Dev nD) → (b : Ref sig .tc) → Buf (Elt F) ((c : Thread nD τ).loc b) := fun c b => W14 m c b
theorem hF3 (c : Dev nD) (w : Fin cfg3.W) : (dat3 (V13 m) c).arrAt w cfg3.N = V14 m c (Pipeline.arrRef spec3 w) :=
  (W14_arr m c w).symm
theorem hrest3 (c : Dev nD) : ∀ b, b ∉ Finset.univ.image (Pipeline.arrRef spec3) → V14 m c b = V13 m c b :=
  fun b hb => W14_of_ne m c b (ne_of_not_mem_image hb)
abbrev W15 : Dev nD → Valuation τ sig (Elt F) := fun c => StableHlo.after hostOps4 (W14 m c)
theorem W15_keep (c : Dev nD) (r : Ref sig .tc) (h : r ∉ GenP.hostOps4_W) : W15 m c r = W14 m c r :=
  StableHlo.after_of_writes_sub hostOps4 _ GenP.hostOps4_writes h
abbrev V15 : (c : Dev nD) → (b : Ref sig .tc) → Buf (Elt F) ((c : Thread nD τ).loc b) := fun c b => W15 m c b
def W16 (c : Dev nD) : Valuation τ sig (Elt F) :=
  Pipeline.withArrays spec4 c (W15 m c) fun w => (dat4 (V15 m) c).arrAt w cfg4.N
theorem W16_arr (c : Dev nD) (w : Fin cfg4.W) :
    W16 m c (Proc.devRef .tc (Pipeline.arrRef spec4 w)) = (dat4 (V15 m) c).arrAt w cfg4.N :=
  Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) :=
  Pipeline.withArrays_of_ne spec4 c _ _ b hb
abbrev V16 : (c : Dev nD) → (b : Ref sig .tc) → Buf (Elt F) ((c : Thread nD τ).loc b) := fun c b => W16 m c b
theorem hF4 (c : Dev nD) (w : Fin cfg4.W) : (dat4 (V15 m) c).arrAt w cfg4.N = V16 m c (Pipeline.arrRef spec4 w) :=
  (W16_arr m c w).symm
theorem hrest4 (c : Dev nD) : ∀ b, b ∉ Finset.univ.image (Pipeline.arrRef spec4) → V16 m c b = V15 m c b :=
  fun b hb => W16_of_ne m c b (ne_of_not_mem_image hb)
abbrev W17 : Dev nD → Valuation τ sig (Elt F) := fun c => StableHlo.after hostOps5 (W16 m c)
theorem W17_keep (c : Dev nD) (r : Ref sig .tc) (h : r ∉ GenP.hostOps5_W) : W17 m c r = W16 m c r :=
  StableHlo.after_of_writes_sub hostOps5 _ GenP.hostOps5_writes h
abbrev W18 : Dev nD → Valuation τ sig (Elt F) := fun c => StableHlo.after hostOps5_1 (W17 m c)
theorem W18_keep (c : Dev nD) (r : Ref sig .tc) (h : r ∉ GenP.hostOps5_1_W) : W18 m c r = W17 m c r :=
  StableHlo.after_of_writes_sub hostOps5_1 _ GenP.hostOps5_1_writes h
abbrev W19 : Dev nD → Valuation τ sig (Elt F) := fun c => StableHlo.after hostOps5_2 (W18 m c)
theorem W19_keep (c : Dev nD) (r : Ref sig .tc) (h : r ∉ GenP.hostOps5_2_W) : W19 m c r = W18 m c r :=
  StableHlo.after_of_writes_sub hostOps5_2 _ GenP.hostOps5_2_writes h
abbrev W20 : Dev nD → Valuation τ sig (Elt F) := fun c => StableHlo.after hostOps5_3 (W19 m c)
theorem W20_keep (c : Dev nD) (r : Ref sig .tc) (h : r ∉ GenP.hostOps5_3_W) : W20 m c r = W19 m c r :=
  StableHlo.after_of_writes_sub hostOps5_3 _ GenP.hostOps5_3_writes h
abbrev W21 : Dev nD → Valuation τ sig (Elt F) := fun c => StableHlo.after hostOps5_4 (W20 m c)
theorem W21_keep (c : Dev nD) (r : Ref sig .tc) (h : r ∉ GenP.hostOps5_4_W) : W21 m c r = W20 m c r :=
  StableHlo.after_of_writes_sub hostOps5_4 _ GenP.hostOps5_4_writes h
abbrev V21 : (c : Dev nD) → (b : Ref sig .tc) → Buf (Elt F) ((c : Thread nD τ).loc b) := fun c b => W21 m c b
def W22 (c : Dev nD) : Valuation τ sig (Elt F) :=
  Pipeline.withArrays spec5 c (W21 m c) fun w => (dat5 (V21 m) c).arrAt w cfg5.N
theorem W22_arr (c : Dev nD) (w : Fin cfg5.W) :
    W22 m c (Proc.devRef .tc (Pipeline.arrRef spec5 w)) = (dat5 (V21 m) c).arrAt w cfg5.N :=
  Pipeline.withArrays_arr spec5 launch5.win.arr_inj c _ _ w
theorem W22_of_ne (c : Dev nD) (b : Ref sig .tc) (hb : ∀ w, Pipeline.arrRef spec5 w ≠ b) :
    W22 m c (Proc.devRef .tc b) = W21 m c (Proc.devRef .tc b) :=
  Pipeline.withArrays_of_ne spec5 c _ _ b hb
abbrev V22 : (c : Dev nD) → (b : Ref sig .tc) → Buf (Elt F) ((c : Thread nD τ).loc b) := fun c b => W22 m c b
theorem hF5 (c : Dev nD) (w : Fin cfg5.W) : (dat5 (V21 m) c).arrAt w cfg5.N = V22 m c (Pipeline.arrRef spec5 w) :=
  (W22_arr m c w).symm
theorem hrest5 (c : Dev nD) : ∀ b, b ∉ Finset.univ.image (Pipeline.arrRef spec5) → V22 m c b = V21 m c b :=
  fun b hb => W22_of_ne m c b (ne_of_not_mem_image hb)
abbrev W23 : Dev nD → Valuation τ sig (Elt F) := fun c => StableHlo.after hostOps6 (W22 m c)
theorem W23_keep (c : Dev nD) (r : Ref sig .tc) (h : r ∉ GenP.hostOps6_W) : W23 m c r = W22 m c r :=
  StableHlo.after_of_writes_sub hostOps6 _ GenP.hostOps6_writes h
abbrev V23 : (c : Dev nD) → (b : Ref sig .tc) → Buf (Elt F) ((c : Thread nD τ).loc b) := fun c b => W23 m c b
def W24 (c : Dev nD) : Valuation τ sig (Elt F) :=
  Pipeline.withArrays spec6 c (W23 m c) fun w => (dat6 (V23 m) c).arrAt w cfg6.N
theorem W24_arr (c : Dev nD) (w : Fin cfg6.W) :
    W24 m c (Proc.devRef .tc (Pipeline.arrRef spec6 w)) = (dat6 (V23 m) c).arrAt w cfg6.N :=
  Pipeline.withArrays_arr spec6 launch6.win.arr_inj c _ _ w
theorem W24_of_ne (c : Dev nD) (b : Ref sig .tc) (hb : ∀ w, Pipeline.arrRef spec6 w ≠ b) :
    W24 m c (Proc.devRef .tc b) = W23 m c (Proc.devRef .tc b) :=
  Pipeline.withArrays_of_ne spec6 c _ _ b hb
abbrev V24 : (c : Dev nD) → (b : Ref sig .tc) → Buf (Elt F) ((c : Thread nD τ).loc b) := fun c b => W24 m c b
theorem hF6 (c : Dev nD) (w : Fin cfg6.W) : (dat6 (V23 m) c).arrAt w cfg6.N = V24 m c (Pipeline.arrRef spec6 w) :=
  (W24_arr m c w).symm
theorem hrest6 (c : Dev nD) : ∀ b, b ∉ Finset.univ.image (Pipeline.arrRef spec6) → V24 m c b = V23 m c b :=
  fun b hb => W24_of_ne m c b (ne_of_not_mem_image hb)
abbrev W25 : Dev nD → Valuation τ sig (Elt F) := fun c => StableHlo.after hostOps7 (W24 m c)
theorem W25_keep (c : Dev nD) (r : Ref sig .tc) (h : r ∉ GenP.hostOps7_W) : W25 m c r = W24 m c r :=
  StableHlo.after_of_writes_sub hostOps7 _ GenP.hostOps7_writes h
abbrev V25 : (c : Dev nD) → (b : Ref sig .tc) → Buf (Elt F) ((c : Thread nD τ).loc b) := fun c b => W25 m c b
def W26 (c : Dev nD) : Valuation τ sig (Elt F) :=
  Pipeline.withArrays spec7 c (W25 m c) fun w => (dat7 (V25 m) c).arrAt w cfg7.N
theorem W26_arr (c : Dev nD) (w : Fin cfg7.W) :
    W26 m c (Proc.devRef .tc (Pipeline.arrRef spec7 w)) = (dat7 (V25 m) c).arrAt w cfg7.N :=
  Pipeline.withArrays_arr spec7 launch7.win.arr_inj c _ _ w
theorem W26_of_ne (c : Dev nD) (b : Ref sig .tc) (hb : ∀ w, Pipeline.arrRef spec7 w ≠ b) :
    W26 m c (Proc.devRef .tc b) = W25 m c (Proc.devRef .tc b) :=
  Pipeline.withArrays_of_ne spec7 c _ _ b hb
abbrev V26 : (c : Dev nD) → (b : Ref sig .tc) → Buf (Elt F) ((c : Thread nD τ).loc b) := fun c b => W26 m c b
theorem hF7 (c : Dev nD) (w : Fin cfg7.W) : (dat7 (V25 m) c).arrAt w cfg7.N = V26 m c (Pipeline.arrRef spec7 w) :=
  (W26_arr m c w).symm
theorem hrest7 (c : Dev nD) : ∀ b, b ∉ Finset.univ.image (Pipeline.arrRef spec7) → V26 m c b = V25 m c b :=
  fun b hb => W26_of_ne m c b (ne_of_not_mem_image hb)
abbrev W27 : Dev nD → Valuation τ sig (Elt F) := fun c => StableHlo.after hostOps8 (W26 m c)
theorem W27_keep (c : Dev nD) (r : Ref sig .tc) (h : r ∉ GenP.hostOps8_W) : W27 m c r = W26 m c r :=
  StableHlo.after_of_writes_sub hostOps8 _ GenP.hostOps8_writes h
abbrev W28 : Dev nD → Valuation τ sig (Elt F) := fun c => StableHlo.after hostOps8_1 (W27 m c)
theorem W28_keep (c : Dev nD) (r : Ref sig .tc) (h : r ∉ GenP.hostOps8_1_W) : W28 m c r = W27 m c r :=
  StableHlo.after_of_writes_sub hostOps8_1 _ GenP.hostOps8_1_writes h
abbrev W29 : Dev nD → Valuation τ sig (Elt F) := fun c => StableHlo.after hostOps8_2 (W28 m c)
theorem W29_keep (c : Dev nD) (r : Ref sig .tc) (h : r ∉ GenP.hostOps8_2_W) : W29 m c r = W28 m c r :=
  StableHlo.after_of_writes_sub hostOps8_2 _ GenP.hostOps8_2_writes h
abbrev W30 : Dev nD → Valuation τ sig (Elt F) := fun c => StableHlo.after hostOps8_3 (W29 m c)
theorem W30_keep (c : Dev nD) (r : Ref sig .tc) (h : r ∉ GenP.hostOps8_3_W) : W30 m c r = W29 m c r :=
  StableHlo.after_of_writes_sub hostOps8_3 _ GenP.hostOps8_3_writes h
abbrev W31 : Dev nD → Valuation τ sig (Elt F) := fun c => StableHlo.after hostOps8_4 (W30 m c)
theorem W31_keep (c : Dev nD) (r : Ref sig .tc) (h : r ∉ GenP.hostOps8_4_W) : W31 m c r = W30 m c r :=
  StableHlo.after_of_writes_sub hostOps8_4 _ GenP.hostOps8_4_writes h
abbrev V31 : (c : Dev nD) → (b : Ref sig .tc) → Buf (Elt F) ((c : Thread nD τ).loc b) := fun c b => W31 m c b
def W32 (c : Dev nD) : Valuation τ sig (Elt F) :=
  Pipeline.withArrays spec8 c (W31 m c) fun w => (dat8 (V31 m) c).arrAt w cfg8.N
theorem W32_arr (c : Dev nD) (w : Fin cfg8.W) :
    W32 m c (Proc.devRef .tc (Pipeline.arrRef spec8 w)) = (dat8 (V31 m) c).arrAt w cfg8.N :=
  Pipeline.withArrays_arr spec8 launch8.win.arr_inj c _ _ w
theorem W32_of_ne (c : Dev nD) (b : Ref sig .tc) (hb : ∀ w, Pipeline.arrRef spec8 w ≠ b) :
    W32 m c (Proc.devRef .tc b) = W31 m c (Proc.devRef .tc b) :=
  Pipeline.withArrays_of_ne spec8 c _ _ b hb
abbrev V32 : (c : Dev nD) → (b : Ref sig .tc) → Buf (Elt F) ((c : Thread nD τ).loc b) := fun c b => W32 m c b
theorem hF8 (c : Dev nD) (w : Fin cfg8.W) : (dat8 (V31 m) c).arrAt w cfg8.N = V32 m c (Pipeline.arrRef spec8 w) :=
  (W32_arr m c w).symm
theorem hrest8 (c : Dev nD) : ∀ b, b ∉ Finset.univ.image (Pipeline.arrRef spec8) → V32 m c b = V31 m c b :=
  fun b hb => W32_of_ne m c b (ne_of_not_mem_image hb)
def W33 (c : Dev nD) : Valuation τ sig (Elt F) :=
  Pipeline.withArrays spec9 c (W32 m c) fun w => (dat9 (V32 m) c).arrAt w cfg9.N
theorem W33_arr (c : Dev nD) (w : Fin cfg9.W) :
    W33 m c (Proc.devRef .tc (Pipeline.arrRef spec9 w)) = (dat9 (V32 m) c).arrAt w cfg9.N :=
  Pipeline.withArrays_arr spec9 launch9.win.arr_inj c _ _ w
theorem W33_of_ne (c : Dev nD) (b : Ref sig .tc) (hb : ∀ w, Pipeline.arrRef spec9 w ≠ b) :
    W33 m c (Proc.devRef .tc b) = W32 m c (Proc.devRef .tc b) :=
  Pipeline.withArrays_of_ne spec9 c _ _ b hb
abbrev V33 : (c : Dev nD) → (b : Ref sig .tc) → Buf (Elt F) ((c : Thread nD τ).loc b) := fun c b => W33 m c b
theorem hF9 (c : Dev nD) (w : Fin cfg9.W) : (dat9 (V32 m) c).arrAt w cfg9.N = V33 m c (Pipeline.arrRef spec9 w) :=
  (W33_arr m c w).symm
theorem hrest9 (c : Dev nD) : ∀ b, b ∉ Finset.univ.image (Pipeline.arrRef spec9) → V33 m c b = V32 m c b :=
  fun b hb => W33_of_ne m c b (ne_of_not_mem_image hb)
abbrev W34 : Dev nD → Valuation τ sig (Elt F) := fun c => StableHlo.after hostOps10 (W33 m c)
theorem W34_keep (c : Dev nD) (r : Ref sig .tc) (h : r ∉ GenP.hostOps10_W) : W34 m c r = W33 m c r :=
  StableHlo.after_of_writes_sub hostOps10 _ GenP.hostOps10_writes h

def pdats : (p : Fin 10) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V11 m) c
  | ⟨3, _⟩ => fun c => dat3 (V13 m) c
  | ⟨4, _⟩ => fun c => dat4 (V15 m) c
  | ⟨5, _⟩ => fun c => dat5 (V21 m) c
  | ⟨6, _⟩ => fun c => dat6 (V23 m) c
  | ⟨7, _⟩ => fun c => dat7 (V25 m) c
  | ⟨8, _⟩ => fun c => dat8 (V31 m) c
  | ⟨9, _⟩ => fun c => dat9 (V32 m) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W34 m c) ∗ ∃ r, prngReg c r)

end Cert.KernelIdeal.Hand

end
-- ==== Proof.Hand.RegLib.lean ====
import proofs.«419822_j14680198218267_2_alg».proof.Proof.Hand.Chain

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F] (m : (ℓ : Loc nD τ sig) → Buf (Elt F) ℓ)

-- For any p the held valuation Wb splits as p's arrays and the rest, and joins back at any Wa that has the final arrays and agrees with Wb off them.
def regOf (p : Fin 10) (lf : Pipeline.LaunchFacts (nD := nD) (τ := τ) cfgs p)
    (hbody : ∀ c, Pipeline.BodyObligationLoose (pdats m p c) (defs₀ (F := F)) 𝒱₀ () Set.univ)
    (howed : ∀ c t, (pdats m p c).owed t = 0) (hrec : ∀ c t, (pdats m p c).recorded t = Set.univ)
    (hq : ∀ c w, (pdats m p c).q w = fullShare)
    (Wb Wa : Dev nD → Valuation τ sig (Elt F))
    (hA : ∀ c w, (pdats m p c).A w = Wb c (Pipeline.arrRef (cfgs p).spec w))
    (hF : ∀ c w, (pdats m p c).arrAt w (cfgs p).N = Wa c (Pipeline.arrRef (cfgs p).spec w))
    (hrest : ∀ c, ∀ b, b ∉ Finset.univ.image (Pipeline.arrRef (cfgs p).spec) → Wa c b = Wb c b)
    (hΦi : ∀ c, iprop((∃ r, prngReg c r) ∗ Pipeline.scopedRest (cfgs p).spec c) ⊢ (pdats m p c).Φ 0)
    (hΦo : ∀ c, (pdats m p c).Φ (Fin.last (cfgs p).N) ⊢ iprop((∃ r, prngReg c r) ∗ Pipeline.scopedRest (cfgs p).spec c)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wb c) ∗ R c)
  post c := iprop(StableHlo.held (c : Thread nD τ) (Pipeline.ucRefs τ sig) (Wa c) ∗ R c)
  X c := iprop(∃ r, prngReg c r)
  Y c := iprop(∃ r, prngReg c r)
  Z c := Pipeline.unscopedRest (cfgs p).spec c fun b => Wb c b
  hentry c := by
    rw [Pipeline.ownSems0_none]
    unfold Pipeline.Dat.owesAt Pipeline.owesWithin
    rw [howed c]
    have hsplit := Pipeline.arrays_of_unscopedBufs (p := p) (pcfgs (F := F)) adm (pdats m) lf.win lf.arr_whole c
      ((pdats m p c).share_full (hq c)) (fun b => Wb c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    icases HO with ⟨%W, HO⟩; iexists W; iframe HO
    ipureintro; exact fun _ _ => Or.inl (by rw [hrec c]; exact Set.mem_univ _)
  hin c := by
    refine .trans ?_ (hΦi c)
    iintro ⟨Hp, -, Hr⟩
    iframe
  hout c := by
    rw [Pipeline.ownSems0_none]
    refine (hΦo c).trans ?_
    iintro ⟨Hp, Hr⟩
    iframe; iempintro
  hexit c := by
    unfold Pipeline.Dat.owesAt Pipeline.owesWithin
    rw [howed c]
    have hjoin := Pipeline.unscopedBufs_of_arrays (p := p) (pcfgs (F := F)) adm lf.win lf.arr_whole c (pdats m) ((pdats m p c).share_full (hq c))
      (fun b => Wb c b) (fun b => Wa c b) ((pdats m p c).arrAt · (cfgs p).N) (hF c) (hrest c)
    rw [Pipeline.unscopedBufs_held] at hjoin
    iintro ⟨Ha, HO, HY, Hrest⟩
    imodintro
    isplitl [Ha Hrest]
    · iapply hjoin; iframe
    isplitl [HY]; · iexact HY
    icases HO with ⟨%W, -, HO⟩; iexists W; iexact HO

end Cert.KernelIdeal.Hand

end
-- ==== Proof.Hand.Reg0.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg0 : Pipeline.RegionSeg (pcfgs (F := F)) adm (pdats m) () defs₀ 𝒱₀ L lv 0 :=
  regOf m 0 launch0 (fun c => (body_obligation0 (V3 m) c).loose) (fun _ _ => rfl) (fun _ _ => rfl) (fun _ _ => rfl)
    (W3 m) (W4 m) (fun _ _ => rfl) (hF0 m) (hrest0 m) (fun _ => sep_symm) fun _ => sep_symm

end Cert.KernelIdeal.Hand

end
-- ==== Proof.Hand.Reg1.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg1 : Pipeline.RegionSeg (pcfgs (F := F)) adm (pdats m) () defs₀ 𝒱₀ L lv 1 :=
  regOf m 1 launch1 (fun c => (body_obligation1 (V5 m) c).loose) (fun _ _ => rfl) (fun _ _ => rfl) (fun _ _ => rfl)
    (W5 m) (W6 m) (fun _ _ => rfl) (hF1 m) (hrest1 m) (hin1 (V5 m)) (hout1 (V5 m))

end Cert.KernelIdeal.Hand

end
-- ==== Proof.Hand.Reg2.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg2 : Pipeline.RegionSeg (pcfgs (F := F)) adm (pdats m) () defs₀ 𝒱₀ L lv 2 :=
  regOf m 2 launch2 (fun c => (body_obligation2 (V11 m) c).loose) (fun _ _ => rfl) (fun _ _ => rfl) (fun _ _ => rfl)
    (W11 m) (W12 m) (fun _ _ => rfl) (hF2 m) (hrest2 m) (fun _ => sep_symm) fun _ => sep_symm

end Cert.KernelIdeal.Hand

end
-- ==== Proof.Hand.Reg3.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg3 : Pipeline.RegionSeg (pcfgs (F := F)) adm (pdats m) () defs₀ 𝒱₀ L lv 3 :=
  regOf m 3 launch3 (fun c => (body_obligation3 (V13 m) c).loose) (fun _ _ => rfl) (fun _ _ => rfl) (fun _ _ => rfl)
    (W13 m) (W14 m) (fun _ _ => rfl) (hF3 m) (hrest3 m) (fun _ => sep_symm) fun _ => sep_symm

end Cert.KernelIdeal.Hand

end
-- ==== Proof.Hand.Reg4.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg4 : Pipeline.RegionSeg (pcfgs (F := F)) adm (pdats m) () defs₀ 𝒱₀ L lv 4 :=
  regOf m 4 launch4 (fun c => (body_obligation4 (V15 m) c).loose) (fun _ _ => rfl) (fun _ _ => rfl) (fun _ _ => rfl)
    (W15 m) (W16 m) (fun _ _ => rfl) (hF4 m) (hrest4 m) (hin4 (V15 m)) (hout4 (V15 m))

end Cert.KernelIdeal.Hand

end
-- ==== Proof.Hand.Reg5.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg5 : Pipeline.RegionSeg (pcfgs (F := F)) adm (pdats m) () defs₀ 𝒱₀ L lv 5 :=
  regOf m 5 launch5 (fun c => (body_obligation5 (V21 m) c).loose) (fun _ _ => rfl) (fun _ _ => rfl) (fun _ _ => rfl)
    (W21 m) (W22 m) (fun _ _ => rfl) (hF5 m) (hrest5 m) (fun _ => sep_symm) fun _ => sep_symm

end Cert.KernelIdeal.Hand

end
-- ==== Proof.Hand.Reg6.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg6 : Pipeline.RegionSeg (pcfgs (F := F)) adm (pdats m) () defs₀ 𝒱₀ L lv 6 :=
  regOf m 6 launch6 (fun c => (body_obligation6 (V23 m) c).loose) (fun _ _ => rfl) (fun _ _ => rfl) (fun _ _ => rfl)
    (W23 m) (W24 m) (fun _ _ => rfl) (hF6 m) (hrest6 m) (fun _ => sep_symm) fun _ => sep_symm

end Cert.KernelIdeal.Hand

end
-- ==== Proof.Hand.Reg7.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg7 : Pipeline.RegionSeg (pcfgs (F := F)) adm (pdats m) () defs₀ 𝒱₀ L lv 7 :=
  regOf m 7 launch7 (fun c => (body_obligation7 (V25 m) c).loose) (fun _ _ => rfl) (fun _ _ => rfl) (fun _ _ => rfl)
    (W25 m) (W26 m) (fun _ _ => rfl) (hF7 m) (hrest7 m) (hin7 (V25 m)) (hout7 (V25 m))

end Cert.KernelIdeal.Hand

end
-- ==== Proof.Hand.Reg8.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg8 : Pipeline.RegionSeg (pcfgs (F := F)) adm (pdats m) () defs₀ 𝒱₀ L lv 8 :=
  regOf m 8 launch8 (fun c => (body_obligation8 (V31 m) c).loose) (fun _ _ => rfl) (fun _ _ => rfl) (fun _ _ => rfl)
    (W31 m) (W32 m) (fun _ _ => rfl) (hF8 m) (hrest8 m) (fun _ => sep_symm) fun _ => sep_symm

end Cert.KernelIdeal.Hand

end
-- ==== Proof.Hand.Reg9.lean ====
import proofs.«419822_j14680198218267_2_alg».proof.Proof.Hand.RegLib

noncomputable section

namespace Cert.KernelIdeal.Hand

open Cert.KernelIdeal Cert.KernelIdeal.Gen Idealize.ShloMosaic Idealize.SL.BI.Laws

variable {F : FTy → Type} [FloatOps F] (m : (ℓ : Loc nD τ sig) → Buf (Elt F) ℓ)

def reg9 : Pipeline.RegionSeg (pcfgs (F := F)) adm (pdats m) () defs₀ 𝒱₀ L lv 9 :=
  regOf m 9 launch9 (fun c => (body_obligation9 (V32 m) c).loose) (fun _ _ => rfl) (fun _ _ => rfl) (fun _ _ => rfl)
    (W32 m) (W33 m) (fun _ _ => rfl) (hF9 m) (hrest9 m) (hin9 (V32 m)) (hout9 (V32 m))

end Cert.KernelIdeal.Hand

end
-- ==== Proof.Hand.Run.lean ====
import proofs.«419822_j14680198218267_2_alg».proof.Proof.Hand.Reg0
import proofs.«419822_j14680198218267_2_alg».proof.Proof.Hand.Reg1
import proofs.«419822_j14680198218267_2_alg».proof.Proof.Hand.Reg2
import proofs.«419822_j14680198218267_2_alg».proof.Proof.Hand.Reg3
import proofs.«419822_j14680198218267_2_alg».proof.Proof.Hand.Reg4
import proofs.«419822_j14680198218267_2_alg».proof.Proof.Hand.Reg5
import proofs.«419822_j14680198218267_2_alg».proof.Proof.Hand.Reg6
import proofs.«419822_j14680198218267_2_alg».proof.Proof.Hand.Reg7
import proofs.«419822_j14680198218267_2_alg».proof.Proof.Hand.Reg8
import proofs.«419822_j14680198218267_2_alg».proof.Proof.Hand.Reg9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev segs : List (Pipeline.Seg (pcfgs (F := F)) adm (pdats m) () defs₀ 𝒱₀ L lv) :=
  [ .host (hseg hostOps0 hostOps0_sub GenP.hostOps0_fresh (W0 m)),
    .host (hseg hostOps0_1 hostOps0_1_sub GenP.hostOps0_1_fresh (W1 m)),
    .host (hseg hostOps0_2 hostOps0_2_sub GenP.hostOps0_2_fresh (W2 m)),
    .region (reg0 m),
    .host (hseg hostOps1 hostOps1_sub GenP.hostOps1_fresh (W4 m)),
    .region (reg1 m),
    .host (hseg hostOps2 hostOps2_sub GenP.hostOps2_fresh (W6 m)),
    .host (hseg hostOps2_1 hostOps2_1_sub GenP.hostOps2_1_fresh (W7 m)),
    .host (hseg hostOps2_2 hostOps2_2_sub GenP.hostOps2_2_fresh (W8 m)),
    .host (hseg hostOps2_3 hostOps2_3_sub GenP.hostOps2_3_fresh (W9 m)),
    .host (hseg hostOps2_4 hostOps2_4_sub GenP.hostOps2_4_fresh (W10 m)),
    .region (reg2 m),
    .host (hseg hostOps3 hostOps3_sub GenP.hostOps3_fresh (W12 m)),
    .region (reg3 m),
    .host (hseg hostOps4 hostOps4_sub GenP.hostOps4_fresh (W14 m)),
    .region (reg4 m),
    .host (hseg hostOps5 hostOps5_sub GenP.hostOps5_fresh (W16 m)),
    .host (hseg hostOps5_1 hostOps5_1_sub GenP.hostOps5_1_fresh (W17 m)),
    .host (hseg hostOps5_2 hostOps5_2_sub GenP.hostOps5_2_fresh (W18 m)),
    .host (hseg hostOps5_3 hostOps5_3_sub GenP.hostOps5_3_fresh (W19 m)),
    .host (hseg hostOps5_4 hostOps5_4_sub GenP.hostOps5_4_fresh (W20 m)),
    .region (reg5 m),
    .host (hseg hostOps6 hostOps6_sub GenP.hostOps6_fresh (W22 m)),
    .region (reg6 m),
    .host (hseg hostOps7 hostOps7_sub GenP.hostOps7_fresh (W24 m)),
    .region (reg7 m),
    .host (hseg hostOps8 hostOps8_sub GenP.hostOps8_fresh (W26 m)),
    .host (hseg hostOps8_1 hostOps8_1_sub GenP.hostOps8_1_fresh (W27 m)),
    .host (hseg hostOps8_2 hostOps8_2_sub GenP.hostOps8_2_fresh (W28 m)),
    .host (hseg hostOps8_3 hostOps8_3_sub GenP.hostOps8_3_fresh (W29 m)),
    .host (hseg hostOps8_4 hostOps8_4_sub GenP.hostOps8_4_fresh (W30 m)),
    .region (reg8 m),
    .region (reg9 m),
    .host (hseg hostOps10 hostOps10_sub GenP.hostOps10_fresh (W33 m)) ]

theorem main_run (c : Dev nD) : main (F := F) c = Pipeline.Seg.run (segs m) := (main_chain c).trans (by chain_rfl)

set_option backward.isDefEq.respectTransparency.types false in
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W34 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m c) ∗ R c)) (Tₙ := Tₙ m)
    (hch := by
      repeat refine ⟨fun _ => .rfl, ?_⟩
      exact fun _ => sep_assoc.2)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m c b)
    (hfin := fun c s' => by
      iintro ⟨⟨Hh, -⟩, HSI⟩
      unfold StableHlo.held
      imodintro
      iapply (pointsTo_read_all (Pipeline.ucRefs τ sig) (fun b => (((c : Thread nD τ)).1, b)) (W34 m c) s')
      iframe)
    (hQ := fun s h c => h c)

end Cert.KernelIdeal.Hand

end
-- ==== Proof.Hand.Args.lean ====
import proofs.«419822_j14680198218267_2_alg».proof.Proof.Hand.Chain

noncomputable section

namespace Cert.KernelIdeal.Hand

open Cert.KernelIdeal Cert.KernelIdeal.Gen
open Idealize.ShloMosaic Idealize.ShloMosaic.TcCoe Idealize.SL.Sem

variable {F : FTy → Type} [FloatOps F]

-- B agrees with A at every reference that quiet accepts.
structure Kept (A B : Dev nD → Valuation τ sig (Elt F)) where
  quiet : Ref sig .tc → Bool
  keep : ∀ c (b : Ref sig .tc), quiet b = true → B c b = A c b

namespace Kept

variable {A B C : Dev nD → Valuation τ sig (Elt F)}

-- Agreement composes: a reference accepted by both holds at the end what it held at the start.
def trans (h : Kept A B) (k : Kept B C) : Kept A C :=
  ⟨fun b => h.quiet b && k.quiet b, fun c b hb =>
    (k.keep c b (Bool.and_eq_true_iff.mp hb).2).trans (h.keep c b (Bool.and_eq_true_iff.mp hb).1)⟩

-- After a stretch of host operations every reference outside its write list holds what it held before.
def host {S : List (Ref sig .tc)} (hs : ∀ c (r : Ref sig .tc), r ∉ S → B c r = A c r) : Kept A B :=
  ⟨fun b => decide (b ∉ S), fun c b hb => hs c b (of_decide_eq_true hb)⟩

-- After a kernel region every reference that is not one of its output arrays holds what it held before.
def region {W : ℕ} (ar : Fin W → Ref sig .tc) (out : Fin W → Bool)
    (hin : ∀ c w, out w = false → B c (ar w) = A c (ar w))
    (hne : ∀ c (b : Ref sig .tc), (∀ w, ar w ≠ b) → B c b = A c b) : Kept A B :=
  ⟨fun b => decide (∀ w, ar w = b → out w = false), fun c b hb => by
    have hq : ∀ w, ar w = b → out w = false := of_decide_eq_true hb
    by_cases h : ∃ w, ar w = b
    · obtain ⟨w, rfl⟩ := h
      exact hin c w (hq w rfl)
    · exact hne c b fun w e => h ⟨w, e⟩⟩

end Kept

variable (m : (ℓ : Loc nD τ sig) → Buf (Elt F) ℓ)

def item1 : Kept (W0 m) (W1 m) := .host (W1_keep m)
def item2 : Kept (W1 m) (W2 m) := .host (W2_keep m)
def item3 : Kept (W2 m) (W3 m) := .host (W3_keep m)
def item4 : Kept (W3 m) (W4 m) :=
  .region (Pipeline.arrRef spec0) (fun w => (cfg0.win w).isOut)
    (fun c w h => (W4_arr m c w).trans ((dat0 (V3 m) c).arrAt_in w h _)) (W4_of_ne m)
def item5 : Kept (W4 m) (W5 m) := .host (W5_keep m)
def item6 : Kept (W5 m) (W6 m) :=
  .region (Pipeline.arrRef spec1) (fun w => (cfg1.win w).isOut)
    (fun c w h => (W6_arr m c w).trans ((dat1 (V5 m) c).arrAt_in w h _)) (W6_of_ne m)
def item7 : Kept (W6 m) (W7 m) := .host (W7_keep m)
def item8 : Kept (W7 m) (W8 m) := .host (W8_keep m)
def item9 : Kept (W8 m) (W9 m) := .host (W9_keep m)
def item10 : Kept (W9 m) (W10 m) := .host (W10_keep m)
def item11 : Kept (W10 m) (W11 m) := .host (W11_keep m)
def item12 : Kept (W11 m) (W12 m) :=
  .region (Pipeline.arrRef spec2) (fun w => (cfg2.win w).isOut)
    (fun c w h => (W12_arr m c w).trans ((dat2 (V11 m) c).arrAt_in w h _)) (W12_of_ne m)
def item13 : Kept (W12 m) (W13 m) := .host (W13_keep m)
def item14 : Kept (W13 m) (W14 m) :=
  .region (Pipeline.arrRef spec3) (fun w => (cfg3.win w).isOut)
    (fun c w h => (W14_arr m c w).trans ((dat3 (V13 m) c).arrAt_in w h _)) (W14_of_ne m)
def item15 : Kept (W14 m) (W15 m) := .host (W15_keep m)
def item16 : Kept (W15 m) (W16 m) :=
  .region (Pipeline.arrRef spec4) (fun w => (cfg4.win w).isOut)
    (fun c w h => (W16_arr m c w).trans ((dat4 (V15 m) c).arrAt_in w h _)) (W16_of_ne m)
def item17 : Kept (W16 m) (W17 m) := .host (W17_keep m)
def item18 : Kept (W17 m) (W18 m) := .host (W18_keep m)
def item19 : Kept (W18 m) (W19 m) := .host (W19_keep m)
def item20 : Kept (W19 m) (W20 m) := .host (W20_keep m)
def item21 : Kept (W20 m) (W21 m) := .host (W21_keep m)
def item22 : Kept (W21 m) (W22 m) :=
  .region (Pipeline.arrRef spec5) (fun w => (cfg5.win w).isOut)
    (fun c w h => (W22_arr m c w).trans ((dat5 (V21 m) c).arrAt_in w h _)) (W22_of_ne m)
def item23 : Kept (W22 m) (W23 m) := .host (W23_keep m)
def item24 : Kept (W23 m) (W24 m) :=
  .region (Pipeline.arrRef spec6) (fun w => (cfg6.win w).isOut)
    (fun c w h => (W24_arr m c w).trans ((dat6 (V23 m) c).arrAt_in w h _)) (W24_of_ne m)
def item25 : Kept (W24 m) (W25 m) := .host (W25_keep m)
def item26 : Kept (W25 m) (W26 m) :=
  .region (Pipeline.arrRef spec7) (fun w => (cfg7.win w).isOut)
    (fun c w h => (W26_arr m c w).trans ((dat7 (V25 m) c).arrAt_in w h _)) (W26_of_ne m)
def item27 : Kept (W26 m) (W27 m) := .host (W27_keep m)
def item28 : Kept (W27 m) (W28 m) := .host (W28_keep m)
def item29 : Kept (W28 m) (W29 m) := .host (W29_keep m)
def item30 : Kept (W29 m) (W30 m) := .host (W30_keep m)
def item31 : Kept (W30 m) (W31 m) := .host (W31_keep m)
def item32 : Kept (W31 m) (W32 m) :=
  .region (Pipeline.arrRef spec8) (fun w => (cfg8.win w).isOut)
    (fun c w h => (W32_arr m c w).trans ((dat8 (V31 m) c).arrAt_in w h _)) (W32_of_ne m)
def item33 : Kept (W32 m) (W33 m) :=
  .region (Pipeline.arrRef spec9) (fun w => (cfg9.win w).isOut)
    (fun c w h => (W33_arr m c w).trans ((dat9 (V32 m) c).arrAt_in w h _)) (W33_of_ne m)
def item34 : Kept (W33 m) (W34 m) := .host (W34_keep m)

def upto2 : Kept (W0 m) (W2 m) := (item1 m).trans (item2 m)
def upto6 : Kept (W0 m) (W6 m) := ((((upto2 m).trans (item3 m)).trans (item4 m)).trans (item5 m)).trans (item6 m)
def upto10 : Kept (W0 m) (W10 m) := ((((upto6 m).trans (item7 m)).trans (item8 m)).trans (item9 m)).trans (item10 m)
def upto12 : Kept (W0 m) (W12 m) := ((upto10 m).trans (item11 m)).trans (item12 m)
def upto16 : Kept (W0 m) (W16 m) := ((((upto12 m).trans (item13 m)).trans (item14 m)).trans (item15 m)).trans (item16 m)
def upto20 : Kept (W0 m) (W20 m) := ((((upto16 m).trans (item17 m)).trans (item18 m)).trans (item19 m)).trans (item20 m)
def upto22 : Kept (W0 m) (W22 m) := ((upto20 m).trans (item21 m)).trans (item22 m)
def upto26 : Kept (W0 m) (W26 m) := ((((upto22 m).trans (item23 m)).trans (item24 m)).trans (item25 m)).trans (item26 m)
def upto30 : Kept (W0 m) (W30 m) := ((((upto26 m).trans (item27 m)).trans (item28 m)).trans (item29 m)).trans (item30 m)
def upto34 : Kept (W0 m) (W34 m) := ((((upto30 m).trans (item31 m)).trans (item32 m)).trans (item33 m)).trans (item34 m)

theorem W34_main_arg0 (c : Dev nD) : W34 m c (Proc.devRef .tc main_arg0) = m ((c : Thread nD τ).loc main_arg0) :=
  (upto34 m).keep c main_arg0 rfl
theorem W34_main_arg1 (c : Dev nD) : W34 m c (Proc.devRef .tc main_arg1) = m ((c : Thread nD τ).loc main_arg1) :=
  (upto34 m).keep c main_arg1 rfl
theorem W34_main_arg2 (c : Dev nD) : W34 m c (Proc.devRef .tc main_arg2) = m ((c : Thread nD τ).loc main_arg2) :=
  (upto34 m).keep c main_arg2 rfl
theorem W34_main_arg3 (c : Dev nD) : W34 m c (Proc.devRef .tc main_arg3) = m ((c : Thread nD τ).loc main_arg3) :=
  (upto34 m).keep c main_arg3 rfl
theorem W34_main_arg4 (c : Dev nD) : W34 m c (Proc.devRef .tc main_arg4) = m ((c : Thread nD τ).loc main_arg4) :=
  (upto34 m).keep c main_arg4 rfl
theorem W34_main_arg5 (c : Dev nD) : W34 m c (Proc.devRef .tc main_arg5) = m ((c : Thread nD τ).loc main_arg5) :=
  (upto34 m).keep c main_arg5 rfl
theorem W34_main_arg6 (c : Dev nD) : W34 m c (Proc.devRef .tc main_arg6) = m ((c : Thread nD τ).loc main_arg6) :=
  (upto34 m).keep c main_arg6 rfl
theorem W34_main_arg7 (c : Dev nD) : W34 m c (Proc.devRef .tc main_arg7) = m ((c : Thread nD τ).loc main_arg7) :=
  (upto34 m).keep c main_arg7 rfl

end Cert.KernelIdeal.Hand

end
-- ==== Proof.Hand.Frame.lean ====
import proofs.«419822_j14680198218267_2_alg».proof.Proof.Hand.Run
import proofs.«419822_j14680198218267_2_alg».proof.Proof.Hand.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_result (ρ : Dev nD → PrngReg) : θ_run defs (onTc (τ := τ) (main (F := F))) ⟨m, fun _ => 0, ρ⟩ (fun r => ∀ c : Dev nD,
      r.2.mem ((c.tc : Thread nD τ).loc main_v168) = W34 m c (Proc.devRef .tc main_v168)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v168 (by decide)),
    (h c _ (mem_uc main_arg0 (by decide))).trans (W34_main_arg0 m c),
    (h c _ (mem_uc main_arg1 (by decide))).trans (W34_main_arg1 m c),
    (h c _ (mem_uc main_arg2 (by decide))).trans (W34_main_arg2 m c),
    (h c _ (mem_uc main_arg3 (by decide))).trans (W34_main_arg3 m c),
    (h c _ (mem_uc main_arg4 (by decide))).trans (W34_main_arg4 m c),
    (h c _ (mem_uc main_arg5 (by decide))).trans (W34_main_arg5 m c),
    (h c _ (mem_uc main_arg6 (by decide))).trans (W34_main_arg6 m c),
    (h c _ (mem_uc main_arg7 (by decide))).trans (W34_main_arg7 m c)⟩) (run m ρ)

end Cert.KernelIdeal.Hand

end
-- ==== Proof.HandB.Common.lean ====
import proofs.«419822_j14680198218267_2_alg».proof.Proof.Gen.Kernel.Launch
import proofs.«419822_j14680198218267_2_alg».proof.Proof.Gen.Kernel.Skeleton
import proofs.«419822_j14680198218267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev adm : (p : Fin 10) → (pcfgs (F := F) p).Adm := fun p => (cfgs p).toPCfg_adm
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.HandB.Body0.lean ====
import proofs.«419822_j14680198218267_2_alg».proof.Proof.HandB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x1 := Rect.unit (s := S2000x1) ![0, 0] S2000x1.size inb_S2000x1_S2000x1_0_0

def out0_3 (x0 : Vec F S2000x128 .f32) (x1 : Vec F S128x128 .f32) (x2 : Vec F S2000x1 .f32) : Vec F S2000x128 .bf16 :=
  View.canon [⟨r0_0, k0_pay1 (View.ld x0 r0_0) (View.ld x1 r0_1) (View.ld x2 r0_2)⟩]

theorem cover0_3 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

set_option maxHeartbeats 1000000 in

theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.HandB.Body1.lean ====
import proofs.«419822_j14680198218267_2_alg».proof.Proof.HandB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 25 = 0 :=
  (by decide +kernel : ∀ t : Fin grid1.N, cond1_0 (grid1.coords t) ↔ t.val % 25 = 0)

abbrev cond1_1 (i : grid1.Coords) : Prop := k1_cond2 i = 1#1

theorem hcond1_1 : ∀ t : Fin cfg1.N, cond1_1 (grid1.coords t) ↔ t.val % 25 = 24 :=
  (by decide +kernel : ∀ t : Fin grid1.N, cond1_1 (grid1.coords t) ↔ t.val % 25 = 24)

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

theorem cover1_3 (p0 : Vec F S128x128 .f32) (y : S128x128.Idx) :
    ∃ pc ∈ ([⟨r1_3, p0⟩] : List (View.Piece (Elt F) S128x128 .f32)), y ∈ pc.1.set :=
  View.cover_of_tiled [⟨r1_3, p0⟩] S128x128.size (by rfl) y

theorem mem1_3 (y : S128x128.Idx) : y ∈ r1_3.set := by
  obtain ⟨pc, hm, hy⟩ := View.cover_of_tiled (Val := fun _ => Unit) (e := .f32) [⟨r1_3, fun _ => ()⟩] S128x128.size (by rfl) y
  rw [List.mem_singleton] at hm; subst hm; exact hy

theorem read_writes_head1 {sp : Space} (v : View sig .tc sp S128x128 .f32) (f : v.ty.Contents (Elt F))
    (w : r1_3.shape.Idx → Elt F .f32) (L : List (View.Piece (Elt F) S128x128 .f32)) :
    v.read (Elt F) (v.writes (Elt F) f (⟨r1_3, w⟩ :: L)) = View.canon [⟨r1_3, w⟩] :=
  funext fun y => by
    obtain ⟨x, rfl⟩ := r1_3.exists_idx_of_mem (mem1_3 y)
    exact (View.read_writes_cons_emb v f r1_3 w L x).trans (View.canon_cons_emb r1_3 w [] x).symm

def zero1_0 : Vec F S128x128 .f32 := View.canon [⟨r1_3, k1_pay1 (F := F)⟩]
def zero1_1 : Vec F S128x128 .f32 := View.canon [⟨r1_3, k1_pay2 (F := F)⟩]

def step1_0 (x0 : Vec F S2000x128 .f32) (x1 : Vec F S2000x1 .i32) (x2 : Vec F S2000x1 .f32) (x3 : Vec F S1x128 .f32) (s : Vec F S128x128 .f32) : Vec F S128x128 .f32 :=
  View.canon [⟨r1_3, k1_pay5 (View.ld x0 r1_0) (View.ld x2 r1_1) (View.ld x3 r1_2) (View.ld x1 r1_1) (View.ld s r1_3)⟩]

def step1_1 (x0 : Vec F S2000x128 .f32) (x1 : Vec F S2000x1 .i32) (x2 : Vec F S2000x1 .f32) (x3 : Vec F S1x128 .f32) (s : Vec F S128x128 .f32) : Vec F S128x128 .f32 :=
  View.canon [⟨r1_3, k1_pay6 (View.ld x0 r1_0) (View.ld x2 r1_1) (View.ld x3 r1_2) (View.ld x1 r1_1) (View.ld s r1_3)⟩]

theorem ldZero1_0 {sp : Space} (v : View sig .tc sp S128x128 .f32) :
    v.readCov [⟨r1_3, k1_pay1 (F := F)⟩] r1_3.toLoadRect = View.ld (zero1_0 (F := F)) r1_3 :=
  View.readCov_eq_canon_ld v _ r1_3 (cover1_3 _)
theorem ldZero1_1 {sp : Space} (v : View sig .tc sp S128x128 .f32) :
    v.readCov [⟨r1_3, k1_pay2 (F := F)⟩] r1_3.toLoadRect = View.ld (zero1_1 (F := F)) r1_3 :=
  View.readCov_eq_canon_ld v _ r1_3 (cover1_3 _)

set_option maxHeartbeats 1000000 in

theorem sound_kernel1_A (c : Dev nD) (E : Set ℕ) (i : grid1.Coords) (hc0 : cond1_0 i) (hc1 : ¬cond1_1 i)
    (arg1 : Memref sig .tc .vmem S2000x128 .f32) (harg1 : arg1.IsWhole) (arg2 : Memref sig .tc .vmem S2000x1 .i32) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole)
    (x0 : Vec F S2000x128 .f32) (x1 : Vec F S2000x1 .i32) (x2 : Vec F S2000x1 .f32) (x3 : Vec F S1x128 .f32) (y4 y5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5
            ∗ owns (c : Thread nD τ) arg7 fullShare (step1_0 x0 x1 x2 x3 zero1_0) ∗ owns (c : Thread nD τ) arg8 fullShare (step1_1 x0 x1 x2 x3 zero1_1)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_head1 _ _ _ _).trans ?_
    rw [ldZero1_0]; rfl
  iexists _; isplitr
  swap; · iexact H7
  ipureintro
  refine (read_writes_head1 _ _ _ _).trans ?_
  rw [ldZero1_1]; rfl

set_option maxHeartbeats 1000000 in

theorem sound_kernel1_B (c : Dev nD) (E : Set ℕ) (i : grid1.Coords) (hc0 : ¬cond1_0 i) (hc1 : ¬cond1_1 i)
    (arg1 : Memref sig .tc .vmem S2000x128 .f32) (harg1 : arg1.IsWhole) (arg2 : Memref sig .tc .vmem S2000x1 .i32) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole)
    (x0 : Vec F S2000x128 .f32) (x1 : Vec F S2000x1 .i32) (x2 : Vec F S2000x1 .f32) (x3 : Vec F S1x128 .f32) (y4 y5 s0 s1 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5
            ∗ owns (c : Thread nD τ) arg7 fullShare (step1_0 x0 x1 x2 x3 s0) ∗ owns (c : Thread nD τ) arg8 fullShare (step1_1 x0 x1 x2 x3 s1)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_3 _)
  iexists _; isplitr
  swap; · iexact H7
  ipureintro
  exact View.read_writes_eq_canon _ _ _ (cover1_3 _)

set_option maxHeartbeats 1000000 in

theorem sound_kernel1_C (c : Dev nD) (E : Set ℕ) (i : grid1.Coords) (hc0 : ¬cond1_0 i) (hc1 : cond1_1 i)
    (arg1 : Memref sig .tc .vmem S2000x128 .f32) (harg1 : arg1.IsWhole) (arg2 : Memref sig .tc .vmem S2000x1 .i32) (harg2 : arg2.IsWhole) (arg3 : Memref sig .tc .vmem S2000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole)
    (x0 : Vec F S2000x128 .f32) (x1 : Vec F S2000x1 .i32) (x2 : Vec F S2000x1 .f32) (x3 : Vec F S1x128 .f32) (s0 s1 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (step1_0 x0 x1 x2 x3 s0) ∗ owns (c : Thread nD τ) arg6 fullShare (step1_1 x0 x1 x2 x3 s1)
            ∗ owns (c : Thread nD τ) arg7 fullShare (step1_0 x0 x1 x2 x3 s0) ∗ owns (c : Thread nD τ) arg8 fullShare (step1_1 x0 x1 x2 x3 s1)) -∗ K ⟨⟩))
      ⊢ wp frame (wpE (defs₀ (F := F)) Variants.none c none) E (cc1__stats_kernel i arg1 harg1 arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf0 hf1 hf2 hf3 hf6 hf7
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_3 _)).trans ?_
    rw [View.readCov_cons_toLoadRect]; rfl
  isplitl [H5]
  · iexists _; isplitr
    swap; · iexact H5
    ipureintro
    refine (View.read_writes_eq_canon _ _ _ (cover1_3 _)).trans ?_
    rw [View.readCov_cons_toLoadRect]; rfl
  isplitl [H6]
  · iexists _; isplitr
    swap; · iexact H6
    ipureintro
    exact View.read_writes_eq_canon _ _ _ (cover1_3 _)
  iexists _; isplitr
  swap; · iexact H7
  ipureintro
  exact View.read_writes_eq_canon _ _ _ (cover1_3 _)

def sc1 (c : Dev nD) : (n : ℕ) → n < cfg1.N → Vec F S128x128 .f32 × Vec F S128x128 .f32
  | 0, hn => (step1_0 (iblk1 V c 0 ⟨0, hn⟩) (iblk1 V c 1 ⟨0, hn⟩) (iblk1 V c 2 ⟨0, hn⟩) (iblk1 V c 3 ⟨0, hn⟩) zero1_0, step1_1 (iblk1 V c 0 ⟨0, hn⟩) (iblk1 V c 1 ⟨0, hn⟩) (iblk1 V c 2 ⟨0, hn⟩) (iblk1 V c 3 ⟨0, hn⟩) zero1_1)
  | n + 1, hn =>
    (step1_0 (iblk1 V c 0 ⟨n + 1, hn⟩) (iblk1 V c 1 ⟨n + 1, hn⟩) (iblk1 V c 2 ⟨n + 1, hn⟩) (iblk1 V c 3 ⟨n + 1, hn⟩) (sc1 c n (Nat.lt_of_succ_lt hn)).1,
     step1_1 (iblk1 V c 0 ⟨n + 1, hn⟩) (iblk1 V c 1 ⟨n + 1, hn⟩) (iblk1 V c 2 ⟨n + 1, hn⟩) (iblk1 V c 3 ⟨n + 1, hn⟩) (sc1 c n (Nat.lt_of_succ_lt hn)).2)

theorem sc1_zero (c : Dev nD) (t : Fin cfg1.N) (h0 : t.val % 25 = 0) :
    sc1 V c t.val t.isLt = (step1_0 (iblk1 V c 0 t) (iblk1 V c 1 t) (iblk1 V c 2 t) (iblk1 V c 3 t) zero1_0, step1_1 (iblk1 V c 0 t) (iblk1 V c 1 t) (iblk1 V c 2 t) (iblk1 V c 3 t) zero1_1) := by
  have hN : t.val < 25 := lt_of_lt_of_eq t.isLt (show cfg1.N = 25 from N_1)
  obtain ⟨n, hn⟩ := t
  cases n with
  | zero => rfl
  | succ n => exfalso; dsimp only at h0 hN; omega

theorem sc1_pos (c : Dev nD) (t : Fin cfg1.N) (h0 : ¬t.val % 25 = 0) :
    sc1 V c t.val t.isLt
      = (step1_0 (iblk1 V c 0 t) (iblk1 V c 1 t) (iblk1 V c 2 t) (iblk1 V c 3 t) (sc1 V c (t.val - 1) (Nat.lt_of_le_of_lt (Nat.sub_le _ _) t.isLt)).1,
         step1_1 (iblk1 V c 0 t) (iblk1 V c 1 t) (iblk1 V c 2 t) (iblk1 V c 3 t) (sc1 V c (t.val - 1) (Nat.lt_of_le_of_lt (Nat.sub_le _ _) t.isLt)).2) := by
  obtain ⟨n, hn⟩ := t
  cases n with
  | zero => exact absurd (Nat.zero_mod _) h0
  | succ n => rfl

abbrev scM1_0 : Memref sig .tc .vmem S128x128 .f32 := Memref.whole cc1_scratch0
abbrev scM1_1 : Memref sig .tc .vmem S128x128 .f32 := Memref.whole cc1_scratch1

def PhiS1 (c : Dev nD) : (n : ℕ) → n ≤ cfg1.N → sProp 𝕄
  | 0, _ => iprop(Pipeline.scopedRestBut (Ix := Unit) (Name := ℕ) (U := UR sig nD τ) (Lvl := ℕ) (Val := Elt F) spec1 c [cc1_scratch0, cc1_scratch1]
      ∗ (∃ r, prngReg c r)
      ∗ (∃ d, owns (c : Thread nD τ) scM1_0 fullShare d) ∗ (∃ d, owns (c : Thread nD τ) scM1_1 fullShare d))
  | n + 1, hn => iprop(Pipeline.scopedRestBut (Ix := Unit) (Name := ℕ) (U := UR sig nD τ) (Lvl := ℕ) (Val := Elt F) spec1 c [cc1_scratch0, cc1_scratch1]
      ∗ (∃ r, prngReg c r)
      ∗ owns (c : Thread nD τ) scM1_0 fullShare (sc1 V c n hn).1 ∗ owns (c : Thread nD τ) scM1_1 fullShare (sc1 V c n hn).2)

theorem PhiS1_zero (c : Dev nD) (n : ℕ) (h : n ≤ cfg1.N) (hz : n = 0) : PhiS1 V c n h = PhiS1 V c 0 (Nat.zero_le _) := by
  subst hz; rfl

theorem PhiS1_pos (c : Dev nD) (n : ℕ) (h : n ≤ cfg1.N) (hz : n ≠ 0) : PhiS1 V c n h = PhiS1 V c (n - 1 + 1) (by omega) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (sc1 V c t.val t.isLt).1
    | ⟨5, _⟩ => (sc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (sc1 V c t.val t.isLt).1 := by dsimp only [dat1]
theorem after1_5 (c : Dev nD) (t : Fin cfg1.N) : (dat1 V c).after 5 t = (sc1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl]
  simp only [PhiS1]
  have hN : t.val < 25 := lt_of_lt_of_eq t.isLt (show cfg1.N = 25 from N_1)
  rw [show (dat1 V c).leavesExact 0 t = owns (c : Thread nD τ) (st1_0 t) fullShare (iblk1 V c 0 t) from rfl]
  rw [show (dat1 V c).leavesExact 1 t = owns (c : Thread nD τ) (st1_1 t) fullShare (iblk1 V c 1 t) from rfl]
  rw [show (dat1 V c).leavesExact 2 t = owns (c : Thread nD τ) (st1_2 t) fullShare (iblk1 V c 2 t) from rfl]
  rw [show (dat1 V c).leavesExact 3 t = owns (c : Thread nD τ) (st1_3 t) fullShare (iblk1 V c 3 t) from rfl]
  by_cases h0 : t.val % 25 = 0
  · by_cases h1 : t.val % 25 = 24
    · exfalso; omega
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [sc1_zero V c t h0]
      rw [PhiS1_castSucc V c t, PhiS1_zero V c _ _ (by omega)]
      simp only [PhiS1]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_A c Set.univ (grid1.coords t) ((hcond1_0 t).mpr h0) (fun h => h1 ((hcond1_1 t).mp h)) _ _ _ _ _ _ _ _ _ _ _ _ _ _ _ _
        (iblk1 V c 0 t) (iblk1 V c 1 t) (iblk1 V c 2 t) (iblk1 V c 3 t) _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5
  · by_cases h1 : t.val % 25 = 24
    · rw [show (dat1 V c).leavesExact 4 t = owns (c : Thread nD τ) (st1_4 t) fullShare ((dat1 V c).after 4 t) from by
        unfold Dat.leavesExact; rw [liveAt1_4 t ((hcond1_1 t).mpr h1)], after1_4]
      rw [show (dat1 V c).leavesExact 5 t = owns (c : Thread nD τ) (st1_5 t) fullShare ((dat1 V c).after 5 t) from by
        unfold Dat.leavesExact; rw [liveAt1_5 t ((hcond1_1 t).mpr h1)], after1_5]
      rw [sc1_pos V c t h0]
      rw [PhiS1_castSucc V c t, PhiS1_pos V c _ _ (by omega)]
      simp only [PhiS1]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_C c Set.univ (grid1.coords t) (fun h => h0 ((hcond1_0 t).mp h)) ((hcond1_1 t).mpr h1) _ _ _ _ _ _ _ _ _ _ _ _ _ _ _ _
        (iblk1 V c 0 t) (iblk1 V c 1 t) (iblk1 V c 2 t) (iblk1 V c 3 t) _ _ _)
      iframe H0 H1 H2 H3 HS0 HS1
      isplitl [H4]; · iexists _; iexact H4
      isplitl [H5]; · iexists _; iexact H5
      iintro ⟨H0, H1, H2, H3, H4, H5, HS0, HS1⟩
      iframe
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [sc1_pos V c t h0]
      rw [PhiS1_castSucc V c t, PhiS1_pos V c _ _ (by omega)]
      simp only [PhiS1]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_B c Set.univ (grid1.coords t) (fun h => h0 ((hcond1_0 t).mp h)) (fun h => h1 ((hcond1_1 t).mp h)) _ _ _ _ _ _ _ _ _ _ _ _ _ _ _ _
        (iblk1 V c 0 t) (iblk1 V c 1 t) (iblk1 V c 2 t) (iblk1 V c 3 t) _ _ _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS1 V c 0 (Nat.zero_le _) from rfl, scopedRest1_split]
  simp only [PhiS1]
  simp only [scM1_0, scM1_1, owns_whole]
  iintro ⟨Hg, ⟨HS0, HS1⟩, HR⟩
  iframe

theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), scopedRest1_split]
  simp only [PhiS1]
  simp only [scM1_0, scM1_1, owns_whole]
  iintro ⟨HR, Hg, HS0, HS1⟩
  iframe HR Hg
  isplitl [HS0]; · iexists _; iexact HS0
  iexists _; iexact HS1

end Region1

end Cert.Kernel.Hand

end
-- ==== Proof.HandB.Body2.lean ====
import proofs.«419822_j14680198218267_2_alg».proof.Proof.HandB.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S2000x1 := Rect.unit (s := S2000x1) ![0, 0] S2000x1.size inb_S2000x1_S2000x1_0_0
abbrev r2_2 : Rect S1x128 := Rect.unit (s := S1x128) ![0, 0] S1x128.size inb_S1x128_S1x128_0_0
abbrev r2_3 : Rect S128x256 := Rect.unit (s := S128x256) ![0, 0] S128x256.size inb_S128x256_S128x256_0_0

def out2_9 (x0 : Vec F S2000x128 .f32) (x1 : Vec F S2000x128 .f32) (x2 : Vec F S2000x1 .i32) (x3 : Vec F S2000x1 .f32) (x4 : Vec F S1x128 .f32) (x5 : Vec F S128x256 .f32) (x6 : Vec F S1x128 .f32) (x7 : Vec F S1x128 .f32) (x8 : Vec F S1x128 .f32) : Vec F S2000x128 .f32 :=
  View.canon [⟨r2_0, k2_pay1 (View.ld x1 r2_0)
    (k2_pay2 (View.ld x0 r2_0) (View.ld x3 r2_1) (View.ld x4 r2_2) (View.ld x2 r2_1) (View.ld x5 r2_3) (View.ld x6 r2_2) (View.ld x7 r2_2))
    (k2_pay3 (View.ld x8 r2_2))⟩]

theorem cover2_9 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S2000x1 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x1 .i32) (x3 : Vec F S2000x1 .f32) (x4 : Vec F S1x128 .f32) (x5 : Vec F S128x256 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__norm_kernel i arg1 harg1 arg2 harg2 arg3 harg3 arg4 harg4 arg5 harg5 arg6 harg6 arg7 harg7 arg8 harg8 arg9 harg9 arg10 harg10) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d
theorem before2_7 (c : Dev nD) (t : Fin cfg2.N) (d) : (dat2 V c).before 7 t d = iblk2 V c 7 t :=
  (dat2 V c).before_in_eq_fetched 7 rfl (fun _ => rfl) (fun _ _ _ => rfl) (fun _ => rfl) t d
theorem before2_8 (c : Dev nD) (t : Fin cfg2.N) (d) : (dat2 V c).before 8 t d = iblk2 V c 8 t :=
  (dat2 V c).before_in_eq_fetched 8 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  iframe H0 H1 H2 H3 H4 H5 H6 H7 H8
  isplitl [H9]; · iexists _; iexact H9
  iintro ⟨H0, H1, H2, H3, H4, H5, H6, H7, H8, H9⟩
  iframe

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.HandB.Body3.lean ====
import proofs.«419822_j14680198218267_2_alg».proof.Proof.HandB.Body0
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- a cast to the same shape is the identity, so the two payloads agree
theorem k3_pay1_eq : k3_pay1 (F := F) = k0_pay1 := by
  funext v0 v2 v6; unfold k3_pay1 k0_pay1; simp only [shapeCast_self]

-- the two kernel functions are the same loads and store around their payloads
theorem cc3_eq : cc3__matmul_kernel (F := F) = cc0__matmul_kernel (F := F) := by
  funext i a1 h1 a2 h2 a3 h3 a4 h4
  rw [cc3__matmul_kernel_eq_skeleton, cc0__matmul_kernel_eq_skeleton]
  unfold cc3__matmul_kernel_skel cc0__matmul_kernel_skel
  rw [k3_pay1_eq]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out0_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out0_3 (iblk3 V c 0 t) (iblk3 V c 1 t) (iblk3 V c 2 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

-- the body is the base's kernel function at other arguments, so the base's triple applies
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [cc3_eq, show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel0 c Set.univ _ _ _ _ _ _ _ _ _ (iblk3 V c 0 t) (iblk3 V c 1 t) (iblk3 V c 2 t) _)
  iframe H0 H1 H2
  isplitl [H3]; · iexists _; iexact H3
  iintro ⟨H0, H1, H2, H3⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.HandB.Body4.lean ====
import proofs.«419822_j14680198218267_2_alg».proof.Proof.HandB.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

-- This layer's kernel is the first layer's: the two functions have one body.
theorem cc4_eq_cc1 : cc4__stats_kernel (F := F) = cc1__stats_kernel := rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := cond1_0 i
theorem hcond4_0 : ∀ t : Fin cfg4.N, cond4_0 (grid4.coords t) ↔ t.val % 25 = 0 :=
  (by decide +kernel : ∀ t : Fin grid4.N, cond4_0 (grid4.coords t) ↔ t.val % 25 = 0)
abbrev cond4_1 (i : grid4.Coords) : Prop := k4_cond2 i = 1#1
theorem hcond4_1 : ∀ t : Fin cfg4.N, cond4_1 (grid4.coords t) ↔ t.val % 25 = 24 :=
  (by decide +kernel : ∀ t : Fin grid4.N, cond4_1 (grid4.coords t) ↔ t.val % 25 = 24)

theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem liveAt4_4 : ∀ t : Fin cfg4.N, cond4_1 (grid4.coords t) → cfg4.idle 4 (grid4.coords t) = false := by decide +kernel
theorem liveAt4_5 : ∀ t : Fin cfg4.N, cond4_1 (grid4.coords t) → cfg4.idle 5 (grid4.coords t) = false := by decide +kernel

def zero4_0 : Vec F S128x128 .f32 := View.canon [⟨r1_3, k4_pay1 (F := F)⟩]
def zero4_1 : Vec F S128x128 .f32 := View.canon [⟨r1_3, k4_pay2 (F := F)⟩]

def step4_0 (x0 : Vec F S2000x128 .f32) (x1 : Vec F S2000x1 .i32) (x2 : Vec F S2000x1 .f32) (x3 : Vec F S1x128 .f32) (s : Vec F S128x128 .f32) : Vec F S128x128 .f32 :=
  View.canon [⟨r1_3, k4_pay5 (View.ld x0 r1_0) (View.ld x2 r1_1) (View.ld x3 r1_2) (View.ld x1 r1_1) (View.ld s r1_3)⟩]
def step4_1 (x0 : Vec F S2000x128 .f32) (x1 : Vec F S2000x1 .i32) (x2 : Vec F S2000x1 .f32) (x3 : Vec F S1x128 .f32) (s : Vec F S128x128 .f32) : Vec F S128x128 .f32 :=
  View.canon [⟨r1_3, k4_pay6 (View.ld x0 r1_0) (View.ld x2 r1_1) (View.ld x3 r1_2) (View.ld x1 r1_1) (View.ld s r1_3)⟩]

def sc4 (c : Dev nD) : (n : ℕ) → n < cfg4.N → Vec F S128x128 .f32 × Vec F S128x128 .f32
  | 0, hn => (step4_0 (iblk4 V c 0 ⟨0, hn⟩) (iblk4 V c 1 ⟨0, hn⟩) (iblk4 V c 2 ⟨0, hn⟩) (iblk4 V c 3 ⟨0, hn⟩) zero4_0, step4_1 (iblk4 V c 0 ⟨0, hn⟩) (iblk4 V c 1 ⟨0, hn⟩) (iblk4 V c 2 ⟨0, hn⟩) (iblk4 V c 3 ⟨0, hn⟩) zero4_1)
  | n + 1, hn =>
    (step4_0 (iblk4 V c 0 ⟨n + 1, hn⟩) (iblk4 V c 1 ⟨n + 1, hn⟩) (iblk4 V c 2 ⟨n + 1, hn⟩) (iblk4 V c 3 ⟨n + 1, hn⟩) (sc4 c n (Nat.lt_of_succ_lt hn)).1,
     step4_1 (iblk4 V c 0 ⟨n + 1, hn⟩) (iblk4 V c 1 ⟨n + 1, hn⟩) (iblk4 V c 2 ⟨n + 1, hn⟩) (iblk4 V c 3 ⟨n + 1, hn⟩) (sc4 c n (Nat.lt_of_succ_lt hn)).2)

-- Stated over the first layer's fill and step, which this layer's are (the payloads have one body).
theorem sc4_zero (c : Dev nD) (t : Fin cfg4.N) (h0 : t.val % 25 = 0) :
    sc4 V c t.val t.isLt = (step1_0 (iblk4 V c 0 t) (iblk4 V c 1 t) (iblk4 V c 2 t) (iblk4 V c 3 t) zero1_0, step1_1 (iblk4 V c 0 t) (iblk4 V c 1 t) (iblk4 V c 2 t) (iblk4 V c 3 t) zero1_1) := by
  have hN : t.val < 25 := lt_of_lt_of_eq t.isLt (show cfg4.N = 25 from N_4)
  obtain ⟨n, hn⟩ := t
  cases n with
  | zero => rfl
  | succ n => exfalso; dsimp only at h0 hN; omega

theorem sc4_pos (c : Dev nD) (t : Fin cfg4.N) (h0 : ¬t.val % 25 = 0) :
    sc4 V c t.val t.isLt
      = (step1_0 (iblk4 V c 0 t) (iblk4 V c 1 t) (iblk4 V c 2 t) (iblk4 V c 3 t) (sc4 V c (t.val - 1) (Nat.lt_of_le_of_lt (Nat.sub_le _ _) t.isLt)).1,
         step1_1 (iblk4 V c 0 t) (iblk4 V c 1 t) (iblk4 V c 2 t) (iblk4 V c 3 t) (sc4 V c (t.val - 1) (Nat.lt_of_le_of_lt (Nat.sub_le _ _) t.isLt)).2) := by
  obtain ⟨n, hn⟩ := t
  cases n with
  | zero => exact absurd (Nat.zero_mod _) h0
  | succ n => rfl

abbrev scM4_0 : Memref sig .tc .vmem S128x128 .f32 := Memref.whole cc4_scratch0
abbrev scM4_1 : Memref sig .tc .vmem S128x128 .f32 := Memref.whole cc4_scratch1

def PhiS4 (c : Dev nD) : (n : ℕ) → n ≤ cfg4.N → sProp 𝕄
  | 0, _ => iprop(Pipeline.scopedRestBut (Ix := Unit) (Name := ℕ) (U := UR sig nD τ) (Lvl := ℕ) (Val := Elt F) spec4 c [cc4_scratch0, cc4_scratch1]
      ∗ (∃ r, prngReg c r)
      ∗ (∃ d, owns (c : Thread nD τ) scM4_0 fullShare d) ∗ (∃ d, owns (c : Thread nD τ) scM4_1 fullShare d))
  | n + 1, hn => iprop(Pipeline.scopedRestBut (Ix := Unit) (Name := ℕ) (U := UR sig nD τ) (Lvl := ℕ) (Val := Elt F) spec4 c [cc4_scratch0, cc4_scratch1]
      ∗ (∃ r, prngReg c r)
      ∗ owns (c : Thread nD τ) scM4_0 fullShare (sc4 V c n hn).1 ∗ owns (c : Thread nD τ) scM4_1 fullShare (sc4 V c n hn).2)

theorem PhiS4_zero (c : Dev nD) (n : ℕ) (h : n ≤ cfg4.N) (hz : n = 0) : PhiS4 V c n h = PhiS4 V c 0 (Nat.zero_le _) := by
  subst hz; rfl

theorem PhiS4_pos (c : Dev nD) (n : ℕ) (h : n ≤ cfg4.N) (hz : n ≠ 0) : PhiS4 V c n h = PhiS4 V c (n - 1 + 1) (by omega) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (sc4 V c t.val t.isLt).1
    | ⟨5, _⟩ => (sc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (sc4 V c t.val t.isLt).1 := by dsimp only [dat4]
theorem after4_5 (c : Dev nD) (t : Fin cfg4.N) : (dat4 V c).after 5 t = (sc4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4000000 in
-- The first layer's three triples, at this layer's memrefs and blocks.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq_cc1]
  simp only [before4_0, before4_1, before4_2, before4_3]
  rw [show (dat4 V c).owesAt () t.succ = (dat4 V c).owesAt () t.castSucc from rfl]
  rw [show (dat4 V c).Φ t.succ = PhiS4 V c (t.val + 1) t.isLt from rfl]
  simp only [PhiS4]
  have hN : t.val < 25 := lt_of_lt_of_eq t.isLt (show cfg4.N = 25 from N_4)
  rw [show (dat4 V c).leavesExact 0 t = owns (c : Thread nD τ) (st4_0 t) fullShare (iblk4 V c 0 t) from rfl]
  rw [show (dat4 V c).leavesExact 1 t = owns (c : Thread nD τ) (st4_1 t) fullShare (iblk4 V c 1 t) from rfl]
  rw [show (dat4 V c).leavesExact 2 t = owns (c : Thread nD τ) (st4_2 t) fullShare (iblk4 V c 2 t) from rfl]
  rw [show (dat4 V c).leavesExact 3 t = owns (c : Thread nD τ) (st4_3 t) fullShare (iblk4 V c 3 t) from rfl]
  by_cases h0 : t.val % 25 = 0
  · by_cases h1 : t.val % 25 = 24
    · exfalso; omega
    · rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [sc4_zero V c t h0]
      rw [PhiS4_castSucc V c t, PhiS4_zero V c _ _ (by omega)]
      simp only [PhiS4]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_A c Set.univ (grid4.coords t) ((hcond4_0 t).mpr h0) (fun h => h1 ((hcond4_1 t).mp h)) _ _ _ _ _ _ _ _ _ _ _ _ _ _ _ _
        (iblk4 V c 0 t) (iblk4 V c 1 t) (iblk4 V c 2 t) (iblk4 V c 3 t) _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5
  · by_cases h1 : t.val % 25 = 24
    · rw [show (dat4 V c).leavesExact 4 t = owns (c : Thread nD τ) (st4_4 t) fullShare ((dat4 V c).after 4 t) from by
        unfold Dat.leavesExact; rw [liveAt4_4 t ((hcond4_1 t).mpr h1)], after4_4]
      rw [show (dat4 V c).leavesExact 5 t = owns (c : Thread nD τ) (st4_5 t) fullShare ((dat4 V c).after 5 t) from by
        unfold Dat.leavesExact; rw [liveAt4_5 t ((hcond4_1 t).mpr h1)], after4_5]
      rw [sc4_pos V c t h0]
      rw [PhiS4_castSucc V c t, PhiS4_pos V c _ _ (by omega)]
      simp only [PhiS4]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_C c Set.univ (grid4.coords t) (fun h => h0 ((hcond4_0 t).mp h)) ((hcond4_1 t).mpr h1) _ _ _ _ _ _ _ _ _ _ _ _ _ _ _ _
        (iblk4 V c 0 t) (iblk4 V c 1 t) (iblk4 V c 2 t) (iblk4 V c 3 t) _ _ _)
      iframe H0 H1 H2 H3 HS0 HS1
      isplitl [H4]; · iexists _; iexact H4
      isplitl [H5]; · iexists _; iexact H5
      iintro ⟨H0, H1, H2, H3, H4, H5, HS0, HS1⟩
      iframe
    · rw [Dat.leavesExact_idle (dat4 V c) 4 t (idleAt4_4 t (fun h => h1 ((hcond4_1 t).mp h))) (noFlush4_4 t (fun h => h1 ((hcond4_1 t).mp h)))]
      rw [Dat.leavesExact_idle (dat4 V c) 5 t (idleAt4_5 t (fun h => h1 ((hcond4_1 t).mp h))) (noFlush4_5 t (fun h => h1 ((hcond4_1 t).mp h)))]
      rw [sc4_pos V c t h0]
      rw [PhiS4_castSucc V c t, PhiS4_pos V c _ _ (by omega)]
      simp only [PhiS4]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_B c Set.univ (grid4.coords t) (fun h => h0 ((hcond4_0 t).mp h)) (fun h => h1 ((hcond4_1 t).mp h)) _ _ _ _ _ _ _ _ _ _ _ _ _ _ _ _
        (iblk4 V c 0 t) (iblk4 V c 1 t) (iblk4 V c 2 t) (iblk4 V c 3 t) _ _ _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5

theorem body_obligation4 (c : Dev nD) : BodyObligation (dat4 (F := F) V c) (defs₀ (F := F)) Variants.none () Set.univ := fun t => by
  rw [bigSep_W1, bigSep_W1]
  exact sound_body4 V c t

theorem hin4 (c : Dev nD) : iprop((∃ r, prngReg c r) ∗ Pipeline.scopedRest (Ix := Unit) (Name := ℕ) (U := UR sig nD τ) (Lvl := ℕ) (Val := Elt F) spec4 c) ⊢ (dat4 V c).Φ 0 := by
  rw [show (dat4 V c).Φ 0 = PhiS4 V c 0 (Nat.zero_le _) from rfl, scopedRest4_split]
  simp only [PhiS4]
  simp only [scM4_0, scM4_1, owns_whole]
  iintro ⟨Hg, ⟨HS0, HS1⟩, HR⟩
  iframe

theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 25 := N_4; omega), scopedRest4_split]
  simp only [PhiS4]
  simp only [scM4_0, scM4_1, owns_whole]
  iintro ⟨HR, Hg, HS0, HS1⟩
  iframe HR Hg
  isplitl [HS0]; · iexists _; iexact HS0
  iexists _; iexact HS1

end Region4

end Cert.Kernel.Hand

end
-- ==== Proof.HandB.Body5.lean ====
import proofs.«419822_j14680198218267_2_alg».proof.Proof.HandB.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_9 (x0 : Vec F S2000x128 .f32) (x1 : Vec F S2000x128 .f32) (x2 : Vec F S2000x1 .i32) (x3 : Vec F S2000x1 .f32) (x4 : Vec F S1x128 .f32) (x5 : Vec F S128x256 .f32) (x6 : Vec F S1x128 .f32) (x7 : Vec F S1x128 .f32) (x8 : Vec F S1x128 .f32) : Vec F S2000x128 .f32 :=
  View.canon [⟨r2_0, k5_pay1 (k5_pay2 (View.ld x1 r2_0)) (k5_pay3 (View.ld x8 r2_2))
    (k5_pay4 (View.ld x0 r2_0) (View.ld x3 r2_1) (View.ld x4 r2_2) (View.ld x2 r2_1) (View.ld x5 r2_3) (View.ld x6 r2_2) (View.ld x7 r2_2))⟩]

set_option maxHeartbeats 1000000 in
theorem sound_kernel5 (c : Dev nD) (E : Set ℕ) (i : grid5.Coords) (arg1 : Memref sig .tc .vmem S2000x128 .f32) (harg1 : arg1.IsWhole) (arg2 : Memref sig .tc .vmem S2000x128 .f32) (harg2 : arg2.IsWhole) (arg3 : Memref sig .tc .vmem S2000x1 .i32) (harg3 : arg3.IsWhole) (arg4 : Memref sig .tc .vmem S2000x1 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2000x128 .f32) (harg10 : arg10.IsWhole)
    (x0 : Vec F S2000x128 .f32) (x1 : Vec F S2000x128 .f32) (x2 : Vec F S2000x1 .i32) (x3 : Vec F S2000x1 .f32) (x4 : Vec F S1x128 .f32) (x5 : Vec F S128x256 .f32) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__norm_kernel i arg1 harg1 arg2 harg2 arg3 harg3 arg4 harg4 arg5 harg5 arg6 harg6 arg7 harg7 arg8 harg8 arg9 harg9 arg10 harg10) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d
theorem before5_4 (c : Dev nD) (t : Fin cfg5.N) (d) : (dat5 V c).before 4 t d = iblk5 V c 4 t :=
  (dat5 V c).before_in_eq_fetched 4 rfl (fun _ => rfl) (fun _ _ _ => rfl) (fun _ => rfl) t d
theorem before5_5 (c : Dev nD) (t : Fin cfg5.N) (d) : (dat5 V c).before 5 t d = iblk5 V c 5 t :=
  (dat5 V c).before_in_eq_fetched 5 rfl (fun _ => rfl) (fun _ _ _ => rfl) (fun _ => rfl) t d
theorem before5_6 (c : Dev nD) (t : Fin cfg5.N) (d) : (dat5 V c).before 6 t d = iblk5 V c 6 t :=
  (dat5 V c).before_in_eq_fetched 6 rfl (fun _ => rfl) (fun _ _ _ => rfl) (fun _ => rfl) t d
theorem before5_7 (c : Dev nD) (t : Fin cfg5.N) (d) : (dat5 V c).before 7 t d = iblk5 V c 7 t :=
  (dat5 V c).before_in_eq_fetched 7 rfl (fun _ => rfl) (fun _ _ _ => rfl) (fun _ => rfl) t d
theorem before5_8 (c : Dev nD) (t : Fin cfg5.N) (d) : (dat5 V c).before 8 t d = iblk5 V c 8 t :=
  (dat5 V c).before_in_eq_fetched 8 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  iframe H0 H1 H2 H3 H4 H5 H6 H7 H8
  isplitl [H9]; · iexists _; iexact H9
  iintro ⟨H0, H1, H2, H3, H4, H5, H6, H7, H8, H9⟩
  iframe

theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.HandB.Body6.lean ====
import proofs.«419822_j14680198218267_2_alg».proof.Proof.HandB.Body3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- this kernel function is region 3's under another name
theorem cc6_eq : cc6__matmul_kernel (F := F) = cc0__matmul_kernel (F := F) :=
  (rfl : cc6__matmul_kernel (F := F) = cc3__matmul_kernel).trans cc3_eq

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out0_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out0_3 (iblk6 V c 0 t) (iblk6 V c 1 t) (iblk6 V c 2 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

-- the body is the base's kernel function at other arguments, so the base's triple applies
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [cc6_eq, show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel0 c Set.univ _ _ _ _ _ _ _ _ _ (iblk6 V c 0 t) (iblk6 V c 1 t) (iblk6 V c 2 t) _)
  iframe H0 H1 H2
  isplitl [H3]; · iexists _; iexact H3
  iintro ⟨H0, H1, H2, H3⟩
  iframe

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.HandB.Body7.lean ====
import proofs.«419822_j14680198218267_2_alg».proof.Proof.HandB.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

-- This layer's kernel is the first layer's: the two functions have one body.
theorem cc7_eq_cc1 : cc7__stats_kernel (F := F) = cc1__stats_kernel := rfl

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev cond7_0 (i : grid7.Coords) : Prop := cond1_0 i
theorem hcond7_0 : ∀ t : Fin cfg7.N, cond7_0 (grid7.coords t) ↔ t.val % 25 = 0 :=
  (by decide +kernel : ∀ t : Fin grid7.N, cond7_0 (grid7.coords t) ↔ t.val % 25 = 0)
abbrev cond7_1 (i : grid7.Coords) : Prop := k7_cond2 i = 1#1
theorem hcond7_1 : ∀ t : Fin cfg7.N, cond7_1 (grid7.coords t) ↔ t.val % 25 = 24 :=
  (by decide +kernel : ∀ t : Fin grid7.N, cond7_1 (grid7.coords t) ↔ t.val % 25 = 24)

theorem idleAt7_4 : ∀ t : Fin cfg7.N, ¬cond7_1 (grid7.coords t) → cfg7.idle 4 (grid7.coords t) = true := by decide +kernel
theorem noFlush7_4 : ∀ t : Fin cfg7.N, ¬cond7_1 (grid7.coords t) → (cfg7.win 4).flush t = false := by decide +kernel
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem liveAt7_4 : ∀ t : Fin cfg7.N, cond7_1 (grid7.coords t) → cfg7.idle 4 (grid7.coords t) = false := by decide +kernel
theorem liveAt7_5 : ∀ t : Fin cfg7.N, cond7_1 (grid7.coords t) → cfg7.idle 5 (grid7.coords t) = false := by decide +kernel

def zero7_0 : Vec F S128x128 .f32 := View.canon [⟨r1_3, k7_pay1 (F := F)⟩]
def zero7_1 : Vec F S128x128 .f32 := View.canon [⟨r1_3, k7_pay2 (F := F)⟩]

def step7_0 (x0 : Vec F S2000x128 .f32) (x1 : Vec F S2000x1 .i32) (x2 : Vec F S2000x1 .f32) (x3 : Vec F S1x128 .f32) (s : Vec F S128x128 .f32) : Vec F S128x128 .f32 :=
  View.canon [⟨r1_3, k7_pay5 (View.ld x0 r1_0) (View.ld x2 r1_1) (View.ld x3 r1_2) (View.ld x1 r1_1) (View.ld s r1_3)⟩]
def step7_1 (x0 : Vec F S2000x128 .f32) (x1 : Vec F S2000x1 .i32) (x2 : Vec F S2000x1 .f32) (x3 : Vec F S1x128 .f32) (s : Vec F S128x128 .f32) : Vec F S128x128 .f32 :=
  View.canon [⟨r1_3, k7_pay6 (View.ld x0 r1_0) (View.ld x2 r1_1) (View.ld x3 r1_2) (View.ld x1 r1_1) (View.ld s r1_3)⟩]

def sc7 (c : Dev nD) : (n : ℕ) → n < cfg7.N → Vec F S128x128 .f32 × Vec F S128x128 .f32
  | 0, hn => (step7_0 (iblk7 V c 0 ⟨0, hn⟩) (iblk7 V c 1 ⟨0, hn⟩) (iblk7 V c 2 ⟨0, hn⟩) (iblk7 V c 3 ⟨0, hn⟩) zero7_0, step7_1 (iblk7 V c 0 ⟨0, hn⟩) (iblk7 V c 1 ⟨0, hn⟩) (iblk7 V c 2 ⟨0, hn⟩) (iblk7 V c 3 ⟨0, hn⟩) zero7_1)
  | n + 1, hn =>
    (step7_0 (iblk7 V c 0 ⟨n + 1, hn⟩) (iblk7 V c 1 ⟨n + 1, hn⟩) (iblk7 V c 2 ⟨n + 1, hn⟩) (iblk7 V c 3 ⟨n + 1, hn⟩) (sc7 c n (Nat.lt_of_succ_lt hn)).1,
     step7_1 (iblk7 V c 0 ⟨n + 1, hn⟩) (iblk7 V c 1 ⟨n + 1, hn⟩) (iblk7 V c 2 ⟨n + 1, hn⟩) (iblk7 V c 3 ⟨n + 1, hn⟩) (sc7 c n (Nat.lt_of_succ_lt hn)).2)

-- Stated over the first layer's fill and step, which this layer's are (the payloads have one body).
theorem sc7_zero (c : Dev nD) (t : Fin cfg7.N) (h0 : t.val % 25 = 0) :
    sc7 V c t.val t.isLt = (step1_0 (iblk7 V c 0 t) (iblk7 V c 1 t) (iblk7 V c 2 t) (iblk7 V c 3 t) zero1_0, step1_1 (iblk7 V c 0 t) (iblk7 V c 1 t) (iblk7 V c 2 t) (iblk7 V c 3 t) zero1_1) := by
  have hN : t.val < 25 := lt_of_lt_of_eq t.isLt (show cfg7.N = 25 from N_7)
  obtain ⟨n, hn⟩ := t
  cases n with
  | zero => rfl
  | succ n => exfalso; dsimp only at h0 hN; omega

theorem sc7_pos (c : Dev nD) (t : Fin cfg7.N) (h0 : ¬t.val % 25 = 0) :
    sc7 V c t.val t.isLt
      = (step1_0 (iblk7 V c 0 t) (iblk7 V c 1 t) (iblk7 V c 2 t) (iblk7 V c 3 t) (sc7 V c (t.val - 1) (Nat.lt_of_le_of_lt (Nat.sub_le _ _) t.isLt)).1,
         step1_1 (iblk7 V c 0 t) (iblk7 V c 1 t) (iblk7 V c 2 t) (iblk7 V c 3 t) (sc7 V c (t.val - 1) (Nat.lt_of_le_of_lt (Nat.sub_le _ _) t.isLt)).2) := by
  obtain ⟨n, hn⟩ := t
  cases n with
  | zero => exact absurd (Nat.zero_mod _) h0
  | succ n => rfl

abbrev scM7_0 : Memref sig .tc .vmem S128x128 .f32 := Memref.whole cc7_scratch0
abbrev scM7_1 : Memref sig .tc .vmem S128x128 .f32 := Memref.whole cc7_scratch1

def PhiS7 (c : Dev nD) : (n : ℕ) → n ≤ cfg7.N → sProp 𝕄
  | 0, _ => iprop(Pipeline.scopedRestBut (Ix := Unit) (Name := ℕ) (U := UR sig nD τ) (Lvl := ℕ) (Val := Elt F) spec7 c [cc7_scratch0, cc7_scratch1]
      ∗ (∃ r, prngReg c r)
      ∗ (∃ d, owns (c : Thread nD τ) scM7_0 fullShare d) ∗ (∃ d, owns (c : Thread nD τ) scM7_1 fullShare d))
  | n + 1, hn => iprop(Pipeline.scopedRestBut (Ix := Unit) (Name := ℕ) (U := UR sig nD τ) (Lvl := ℕ) (Val := Elt F) spec7 c [cc7_scratch0, cc7_scratch1]
      ∗ (∃ r, prngReg c r)
      ∗ owns (c : Thread nD τ) scM7_0 fullShare (sc7 V c n hn).1 ∗ owns (c : Thread nD τ) scM7_1 fullShare (sc7 V c n hn).2)

theorem PhiS7_zero (c : Dev nD) (n : ℕ) (h : n ≤ cfg7.N) (hz : n = 0) : PhiS7 V c n h = PhiS7 V c 0 (Nat.zero_le _) := by
  subst hz; rfl

theorem PhiS7_pos (c : Dev nD) (n : ℕ) (h : n ≤ cfg7.N) (hz : n ≠ 0) : PhiS7 V c n h = PhiS7 V c (n - 1 + 1) (by omega) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (sc7 V c t.val t.isLt).1
    | ⟨5, _⟩ => (sc7 V c t.val t.isLt).2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (sc7 V c t.val t.isLt).1 := by dsimp only [dat7]
theorem after7_5 (c : Dev nD) (t : Fin cfg7.N) : (dat7 V c).after 5 t = (sc7 V c t.val t.isLt).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl
theorem before7_3 (c : Dev nD) (t : Fin cfg7.N) (d) : (dat7 V c).before 3 t d = iblk7 V c 3 t :=
  ((dat7 V c).before_in_eq_fetched 3 rfl (fun _ => rfl) (fun _ _ _ => rfl) (fun _ => rfl) t d).trans rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4000000 in
-- The first layer's three triples, at this layer's memrefs and blocks.
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7_eq_cc1]
  simp only [before7_0, before7_1, before7_2, before7_3]
  rw [show (dat7 V c).owesAt () t.succ = (dat7 V c).owesAt () t.castSucc from rfl]
  rw [show (dat7 V c).Φ t.succ = PhiS7 V c (t.val + 1) t.isLt from rfl]
  simp only [PhiS7]
  have hN : t.val < 25 := lt_of_lt_of_eq t.isLt (show cfg7.N = 25 from N_7)
  rw [show (dat7 V c).leavesExact 0 t = owns (c : Thread nD τ) (st7_0 t) fullShare (iblk7 V c 0 t) from rfl]
  rw [show (dat7 V c).leavesExact 1 t = owns (c : Thread nD τ) (st7_1 t) fullShare (iblk7 V c 1 t) from rfl]
  rw [show (dat7 V c).leavesExact 2 t = owns (c : Thread nD τ) (st7_2 t) fullShare (iblk7 V c 2 t) from rfl]
  rw [show (dat7 V c).leavesExact 3 t = owns (c : Thread nD τ) (st7_3 t) fullShare (iblk7 V c 3 t) from rfl]
  by_cases h0 : t.val % 25 = 0
  · by_cases h1 : t.val % 25 = 24
    · exfalso; omega
    · rw [Dat.leavesExact_idle (dat7 V c) 4 t (idleAt7_4 t (fun h => h1 ((hcond7_1 t).mp h))) (noFlush7_4 t (fun h => h1 ((hcond7_1 t).mp h)))]
      rw [Dat.leavesExact_idle (dat7 V c) 5 t (idleAt7_5 t (fun h => h1 ((hcond7_1 t).mp h))) (noFlush7_5 t (fun h => h1 ((hcond7_1 t).mp h)))]
      rw [sc7_zero V c t h0]
      rw [PhiS7_castSucc V c t, PhiS7_zero V c _ _ (by omega)]
      simp only [PhiS7]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_A c Set.univ (grid7.coords t) ((hcond7_0 t).mpr h0) (fun h => h1 ((hcond7_1 t).mp h)) _ _ _ _ _ _ _ _ _ _ _ _ _ _ _ _
        (iblk7 V c 0 t) (iblk7 V c 1 t) (iblk7 V c 2 t) (iblk7 V c 3 t) _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5
  · by_cases h1 : t.val % 25 = 24
    · rw [show (dat7 V c).leavesExact 4 t = owns (c : Thread nD τ) (st7_4 t) fullShare ((dat7 V c).after 4 t) from by
        unfold Dat.leavesExact; rw [liveAt7_4 t ((hcond7_1 t).mpr h1)], after7_4]
      rw [show (dat7 V c).leavesExact 5 t = owns (c : Thread nD τ) (st7_5 t) fullShare ((dat7 V c).after 5 t) from by
        unfold Dat.leavesExact; rw [liveAt7_5 t ((hcond7_1 t).mpr h1)], after7_5]
      rw [sc7_pos V c t h0]
      rw [PhiS7_castSucc V c t, PhiS7_pos V c _ _ (by omega)]
      simp only [PhiS7]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_C c Set.univ (grid7.coords t) (fun h => h0 ((hcond7_0 t).mp h)) ((hcond7_1 t).mpr h1) _ _ _ _ _ _ _ _ _ _ _ _ _ _ _ _
        (iblk7 V c 0 t) (iblk7 V c 1 t) (iblk7 V c 2 t) (iblk7 V c 3 t) _ _ _)
      iframe H0 H1 H2 H3 HS0 HS1
      isplitl [H4]; · iexists _; iexact H4
      isplitl [H5]; · iexists _; iexact H5
      iintro ⟨H0, H1, H2, H3, H4, H5, HS0, HS1⟩
      iframe
    · rw [Dat.leavesExact_idle (dat7 V c) 4 t (idleAt7_4 t (fun h => h1 ((hcond7_1 t).mp h))) (noFlush7_4 t (fun h => h1 ((hcond7_1 t).mp h)))]
      rw [Dat.leavesExact_idle (dat7 V c) 5 t (idleAt7_5 t (fun h => h1 ((hcond7_1 t).mp h))) (noFlush7_5 t (fun h => h1 ((hcond7_1 t).mp h)))]
      rw [sc7_pos V c t h0]
      rw [PhiS7_castSucc V c t, PhiS7_pos V c _ _ (by omega)]
      simp only [PhiS7]
      iintro ⟨⟨HR, Hg, HS0, HS1⟩, Ho, ⟨%d0, H0⟩, ⟨%d1, H1⟩, ⟨%d2, H2⟩, ⟨%d3, H3⟩, ⟨%d4, H4⟩, ⟨%d5, H5⟩⟩
      iapply (sound_kernel1_B c Set.univ (grid7.coords t) (fun h => h0 ((hcond7_0 t).mp h)) (fun h => h1 ((hcond7_1 t).mp h)) _ _ _ _ _ _ _ _ _ _ _ _ _ _ _ _
        (iblk7 V c 0 t) (iblk7 V c 1 t) (iblk7 V c 2 t) (iblk7 V c 3 t) _ _ _ _ _)
      iframe H0 H1 H2 H3 H4 H5 HS0 HS1
      iintro ⟨H0, H1, H2, H3, H4, H5, HS0, HS1⟩
      iframe HR Hg HS0 HS1 Ho H0 H1 H2 H3
      isplitl [H4]; · iexists _; iexact H4
      iexists _; iexact H5

theorem body_obligation7 (c : Dev nD) : BodyObligation (dat7 (F := F) V c) (defs₀ (F := F)) Variants.none () Set.univ := fun t => by
  rw [bigSep_W1, bigSep_W1]
  exact sound_body7 V c t

theorem hin7 (c : Dev nD) : iprop((∃ r, prngReg c r) ∗ Pipeline.scopedRest (Ix := Unit) (Name := ℕ) (U := UR sig nD τ) (Lvl := ℕ) (Val := Elt F) spec7 c) ⊢ (dat7 V c).Φ 0 := by
  rw [show (dat7 V c).Φ 0 = PhiS7 V c 0 (Nat.zero_le _) from rfl, scopedRest7_split]
  simp only [PhiS7]
  simp only [scM7_0, scM7_1, owns_whole]
  iintro ⟨Hg, ⟨HS0, HS1⟩, HR⟩
  iframe

theorem hout7 (c : Dev nD) : (dat7 V c).Φ (Fin.last cfg7.N) ⊢ iprop((∃ r, prngReg c r) ∗ Pipeline.scopedRest (Ix := Unit) (Name := ℕ) (U := UR sig nD τ) (Lvl := ℕ) (Val := Elt F) spec7 c) := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 25 := N_7; omega), scopedRest7_split]
  simp only [PhiS7]
  simp only [scM7_0, scM7_1, owns_whole]
  iintro ⟨HR, Hg, HS0, HS1⟩
  iframe HR Hg
  isplitl [HS0]; · iexists _; iexact HS0
  iexists _; iexact HS1

end Region7

end Cert.Kernel.Hand

end
-- ==== Proof.HandB.Body8.lean ====
import proofs.«419822_j14680198218267_2_alg».proof.Proof.HandB.Body5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region8

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

-- The third layer's kernel is the second's, term for term.
theorem cc8_eq : cc8__norm_kernel (F := F) = cc5__norm_kernel (F := F) := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out5_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out5_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

theorem before8_0 (c : Dev nD) (t : Fin cfg8.N) (d) : (dat8 V c).before 0 t d = iblk8 V c 0 t :=
  (dat8 V c).before_in_eq_fetched 0 rfl (fun _ => rfl) (fun _ _ _ => rfl) (fun _ => rfl) t d
theorem before8_1 (c : Dev nD) (t : Fin cfg8.N) (d) : (dat8 V c).before 1 t d = iblk8 V c 1 t :=
  (dat8 V c).before_in_eq_fetched 1 rfl (fun _ => rfl) (fun _ _ _ => rfl) (fun _ => rfl) t d
theorem before8_2 (c : Dev nD) (t : Fin cfg8.N) (d) : (dat8 V c).before 2 t d = iblk8 V c 2 t :=
  (dat8 V c).before_in_eq_fetched 2 rfl (fun _ => rfl) (fun _ _ _ => rfl) (fun _ => rfl) t d
theorem before8_3 (c : Dev nD) (t : Fin cfg8.N) (d) : (dat8 V c).before 3 t d = iblk8 V c 3 t :=
  (dat8 V c).before_in_eq_fetched 3 rfl (fun _ => rfl) (fun _ _ _ => rfl) (fun _ => rfl) t d
theorem before8_4 (c : Dev nD) (t : Fin cfg8.N) (d) : (dat8 V c).before 4 t d = iblk8 V c 4 t :=
  (dat8 V c).before_in_eq_fetched 4 rfl (fun _ => rfl) (fun _ _ _ => rfl) (fun _ => rfl) t d
theorem before8_5 (c : Dev nD) (t : Fin cfg8.N) (d) : (dat8 V c).before 5 t d = iblk8 V c 5 t :=
  (dat8 V c).before_in_eq_fetched 5 rfl (fun _ => rfl) (fun _ _ _ => rfl) (fun _ => rfl) t d
theorem before8_6 (c : Dev nD) (t : Fin cfg8.N) (d) : (dat8 V c).before 6 t d = iblk8 V c 6 t :=
  (dat8 V c).before_in_eq_fetched 6 rfl (fun _ => rfl) (fun _ _ _ => rfl) (fun _ => rfl) t d
theorem before8_7 (c : Dev nD) (t : Fin cfg8.N) (d) : (dat8 V c).before 7 t d = iblk8 V c 7 t :=
  (dat8 V c).before_in_eq_fetched 7 rfl (fun _ => rfl) (fun _ _ _ => rfl) (fun _ => rfl) t d
theorem before8_8 (c : Dev nD) (t : Fin cfg8.N) (d) : (dat8 V c).before 8 t d = iblk8 V c 8 t :=
  (dat8 V c).before_in_eq_fetched 8 rfl (fun _ => rfl) (fun _ _ _ => rfl) (fun _ => rfl) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8_eq]
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid8.coords t) _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  iframe H0 H1 H2 H3 H4 H5 H6 H7 H8
  isplitl [H9]; · iexists _; iexact H9
  iintro ⟨H0, H1, H2, H3, H4, H5, H6, H7, H8, H9⟩
  iframe

theorem body_obligation8 (c : Dev nD) : BodyObligation (dat8 (F := F) V c) (defs₀ (F := F)) Variants.none () Set.univ := fun t => by
  rw [bigSep_W8, bigSep_W8]
  exact sound_body8 V c t

end Region8

end Cert.Kernel.Hand

end
-- ==== Proof.HandB.Body9.lean ====
import proofs.«419822_j14680198218267_2_alg».proof.Proof.HandB.Common
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev cond9_0 (i : grid9.Coords) : Prop := (Scalar.cmpi .ne (Scalar.extui (Scalar.cmpi .eq (BitVec.ofNat 32 (i 0).val) 0#32)) 0#32) = 1#1

theorem hcond9_0 : ∀ t : Fin cfg9.N, cond9_0 (grid9.coords t) ↔ t.val % 25 = 0 :=
  (by decide +kernel : ∀ t : Fin grid9.N, cond9_0 (grid9.coords t) ↔ t.val % 25 = 0)

abbrev cond9_1 (i : grid9.Coords) : Prop := k9_cond2 i = 1#1

theorem hcond9_1 : ∀ t : Fin cfg9.N, cond9_1 (grid9.coords t) ↔ t.val % 25 = 24 :=
  (by decide +kernel : ∀ t : Fin grid9.N, cond9_1 (grid9.coords t) ↔ t.val % 25 = 24)

theorem liveAt9_0 : ∀ t : Fin cfg9.N, cfg9.idle 0 (grid9.coords t) = false := by decide +kernel
theorem liveAt9_1 : ∀ t : Fin cfg9.N, cfg9.idle 1 (grid9.coords t) = false := by decide +kernel

theorem idleAt9_2 : ∀ t : Fin cfg9.N, ¬cond9_1 (grid9.coords t) → cfg9.idle 2 (grid9.coords t) = true := by decide +kernel

theorem noFlush9_2 : ∀ t : Fin cfg9.N, ¬cond9_1 (grid9.coords t) → (cfg9.win 2).flush t = false := by decide +kernel

theorem liveAt9_2 : ∀ t : Fin cfg9.N, cond9_1 (grid9.coords t) → cfg9.idle 2 (grid9.coords t) = false := by decide +kernel

theorem hz9 : (![0, 0] : Fin 2 → ℕ) = fun _ => 0 := by funext a; fin_cases a <;> rfl

def sc9 (c : Dev nD) : (n : ℕ) → n < cfg9.N → Vec F S128x128 .f32
  | 0, hn => k9_pay2 (iblk9 V c 0 ⟨0, hn⟩) (iblk9 V c 1 ⟨0, hn⟩) (k9_pay1 (F := F))
  | n + 1, hn => k9_pay2 (iblk9 V c 0 ⟨n + 1, hn⟩) (iblk9 V c 1 ⟨n + 1, hn⟩) (sc9 c n (Nat.lt_of_succ_lt hn))

theorem sc9_zero (c : Dev nD) (t : Fin cfg9.N) (h0 : t.val = 0) :
    sc9 V c t.val t.isLt = k9_pay2 (iblk9 V c 0 t) (iblk9 V c 1 t) (k9_pay1 (F := F)) := by
  obtain ⟨n, hn⟩ := t
  cases n with
  | zero => rfl
  | succ n => exact absurd h0 (Nat.succ_ne_zero n)

theorem sc9_pos (c : Dev nD) (t : Fin cfg9.N) (h0 : t.val ≠ 0) :
    sc9 V c t.val t.isLt = k9_pay2 (iblk9 V c 0 t) (iblk9 V c 1 t) (sc9 V c (t.val - 1) (Nat.lt_of_le_of_lt (Nat.sub_le _ _) t.isLt)) := by
  obtain ⟨n, hn⟩ := t
  cases n with
  | zero => exact absurd rfl h0
  | succ n => rfl

abbrev scM9_0 : Memref sig .tc .vmem S128x128 .f32 := Memref.whole cc9_scratch0

def PhiS9 (c : Dev nD) : (n : ℕ) → n ≤ cfg9.N → sProp 𝕄
  | 0, _ => iprop(Pipeline.scopedRestBut (Ix := Unit) (Name := ℕ) (U := UR sig nD τ) (Lvl := ℕ) (Val := Elt F) spec9 c [cc9_scratch0]
      ∗ (∃ r, prngReg c r) ∗ (∃ d, owns (c : Thread nD τ) scM9_0 fullShare d))
  | n + 1, hn => iprop(Pipeline.scopedRestBut (Ix := Unit) (Name := ℕ) (U := UR sig nD τ) (Lvl := ℕ) (Val := Elt F) spec9 c [cc9_scratch0]
      ∗ (∃ r, prngReg c r) ∗ owns (c : Thread nD τ) scM9_0 fullShare (sc9 V c n hn))

theorem PhiS9_zero (c : Dev nD) (n : ℕ) (h : n ≤ cfg9.N) (hz : n = 0) :
    PhiS9 V c n h = iprop(Pipeline.scopedRestBut (Ix := Unit) (Name := ℕ) (U := UR sig nD τ) (Lvl := ℕ) (Val := Elt F) spec9 c [cc9_scratch0]
      ∗ (∃ r, prngReg c r) ∗ (∃ d, owns (c : Thread nD τ) scM9_0 fullShare d)) := by
  subst hz; rfl

theorem PhiS9_succ (c : Dev nD) (n : ℕ) (hn : n < cfg9.N) :
    PhiS9 V c (n + 1) hn = iprop(Pipeline.scopedRestBut (Ix := Unit) (Name := ℕ) (U := UR sig nD τ) (Lvl := ℕ) (Val := Elt F) spec9 c [cc9_scratch0]
      ∗ (∃ r, prngReg c r) ∗ owns (c : Thread nD τ) scM9_0 fullShare (sc9 V c n hn)) := rfl

theorem PhiS9_pos (c : Dev nD) (n : ℕ) (h : n ≤ cfg9.N) (hz : n ≠ 0) :
    PhiS9 V c n h = iprop(Pipeline.scopedRestBut (Ix := Unit) (Name := ℕ) (U := UR sig nD τ) (Lvl := ℕ) (Val := Elt F) spec9 c [cc9_scratch0]
      ∗ (∃ r, prngReg c r) ∗ owns (c : Thread nD τ) scM9_0 fullShare (sc9 V c (n - 1) (by omega))) := by
  cases n with
  | zero => exact absurd rfl hz
  | succ n => rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => sc9 V c t.val t.isLt
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]

theorem after9_2 (c : Dev nD) (t : Fin cfg9.N) : (dat9 V c).after 2 t = sc9 V c t.val t.isLt := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl

theorem hin9 (c : Dev nD) : iprop((∃ r, prngReg c r) ∗ Pipeline.scopedRest (Ix := Unit) (Name := ℕ) (U := UR sig nD τ) (Lvl := ℕ) (Val := Elt F) spec9 c) ⊢ (dat9 V c).Φ 0 := by
  rw [show (dat9 V c).Φ 0 = PhiS9 V c 0 (Nat.zero_le _) from rfl, PhiS9_zero V c 0 _ rfl, scopedRest9_split]
  iintro ⟨Hg, ⟨%f, HS⟩, HR⟩
  iframe HR Hg
  iexists f; rw [owns_whole]; iexact HS

theorem hout9 (c : Dev nD) : (dat9 V c).Φ (Fin.last cfg9.N) ⊢ iprop((∃ r, prngReg c r) ∗ Pipeline.scopedRest (Ix := Unit) (Name := ℕ) (U := UR sig nD τ) (Lvl := ℕ) (Val := Elt F) spec9 c) := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 25 := N_9; omega), scopedRest9_split, owns_whole]
  iintro ⟨HR, Hg, HS⟩
  iframe Hg HR
  iexists _; iexact HS

set_option maxHeartbeats 1000000 in

theorem kernelRun9_A (c : Dev nD) (i : grid9.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole)
    (hc0 : cond9_0 i) (hc1 : ¬cond9_1 i)
    (x0 : Vec F S2000x128 .f32) (x1 : Vec F S2000x1 .i32) (xi2 : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k9_pay2 x0 x1 (k9_pay1 (F := F)))) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [View.read_writes_eq_canon _ _ _ (fun y => ⟨_, List.mem_cons_self, View.mem_set_unit_zero hz9 inb_S128x128_S128x128_0_0 y⟩),
    View.canon_cons_unit_zero (S := S128x128) hz9]
  simp only [View.readAt_eq_ld, hf0, hf1, View.ld_unit_zero (S := S2000x128) hz9, View.ld_unit_zero (S := S2000x1) hz9,
    View.readCov_unit_zero (S := S128x128) _ hz9]

set_option maxHeartbeats 1000000 in

theorem kernelRun9_B (c : Dev nD) (i : grid9.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole)
    (hc0 : ¬cond9_0 i) (hc1 : ¬cond9_1 i)
    (x0 : Vec F S2000x128 .f32) (x1 : Vec F S2000x1 .i32) (xi2 : Vec F S128x128 .f32) (xs : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare xs
        ∗ (iprop(owns (c : Thread nD τ) arg1 fullShare x0 ∗ owns (c : Thread nD τ) arg2 fullShare x1 ∗ owns (c : Thread nD τ) arg3 fullShare xi2
            ∗ owns (c : Thread nD τ) arg4 fullShare (k9_pay2 x0 x1 xs)) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [View.read_writes_eq_canon _ _ _ (fun y => ⟨_, List.mem_cons_self, View.mem_set_unit_zero hz9 inb_S128x128_S128x128_0_0 y⟩),
    View.canon_cons_unit_zero (S := S128x128) hz9]
  simp only [View.readAt_eq_ld, hf0, hf1, hfs, View.ld_unit_zero (S := S2000x128) hz9, View.ld_unit_zero (S := S2000x1) hz9,
    View.ld_unit_zero (S := S128x128) hz9]

set_option maxHeartbeats 1000000 in

theorem kernelRun9_C (c : Dev nD) (i : grid9.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S128x128 .f32) (harg4 : arg4.IsWhole)
    (hc0 : ¬cond9_0 i) (hc1 : cond9_1 i)
    (x0 : Vec F S2000x128 .f32) (x1 : Vec F S2000x1 .i32) (xs : Vec F S128x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1 ∗ owns (c : Thread nD τ) arg3 fullShare (k9_pay2 x0 x1 xs)
            ∗ owns (c : Thread nD τ) arg4 fullShare (k9_pay2 x0 x1 xs)) -∗ K ⟨⟩))
      ⊢ wp frame (wpE (defs₀ (F := F)) Variants.none c none) E (cc9__pool_kernel i arg1 harg1 arg2 harg2 arg3 harg3 arg4 harg4) K := by
  simp only [cc9__pool_kernel_eq_skeleton]; unfold cc9__pool_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [View.read_writes_eq_canon _ _ _ (fun y => ⟨_, List.mem_cons_self, View.mem_set_unit_zero hz9 inb_S128x128_S128x128_0_0 y⟩),
      View.canon_cons_unit_zero (S := S128x128) hz9]
    simp only [View.readAt_eq_ld, hf0, hf1, hfs, View.ld_unit_zero (S := S2000x128) hz9, View.ld_unit_zero (S := S2000x1) hz9,
      View.ld_unit_zero (S := S128x128) hz9, View.readCov_unit_zero (S := S128x128) _ hz9]
  iexists _; isplitr
  swap; · iexact HS
  ipureintro
  sl_unfold_run_names
  rw [View.read_writes_eq_canon _ _ _ (fun y => ⟨_, List.mem_cons_self, View.mem_set_unit_zero hz9 inb_S128x128_S128x128_0_0 y⟩),
    View.canon_cons_unit_zero (S := S128x128) hz9]
  simp only [View.readAt_eq_ld, hf0, hf1, hfs, View.ld_unit_zero (S := S2000x128) hz9, View.ld_unit_zero (S := S2000x1) hz9,
    View.ld_unit_zero (S := S128x128) hz9]

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4800000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 25 := lt_of_lt_of_eq t.isLt (show cfg9.N = 25 from N_9)
  rw [show (dat9 V c).leavesExact 0 t = owns (c : Thread nD τ) (st9_0 t) fullShare ((dat9 V c).after 0 t) from by
    unfold Dat.leavesExact; rw [liveAt9_0 t], after9_0]
  rw [show (dat9 V c).leavesExact 1 t = owns (c : Thread nD τ) (st9_1 t) fullShare ((dat9 V c).after 1 t) from by
    unfold Dat.leavesExact; rw [liveAt9_1 t], after9_1]
  by_cases h0 : t.val % 25 = 0
  · have hz : t.val = 0 := by omega
    have h1 : ¬t.val % 25 = 24 := by omega
    rw [Dat.leavesExact_idle (dat9 V c) 2 t (idleAt9_2 t (fun h => h1 ((hcond9_1 t).mp h))) (noFlush9_2 t (fun h => h1 ((hcond9_1 t).mp h)))]
    rw [sc9_zero V c t hz, PhiS9_castSucc V c t, PhiS9_zero V c _ _ hz]
    iintro ⟨⟨HR, Hg, HS⟩, Ho, ⟨%d0, H0⟩, ⟨%d1, H1⟩, ⟨%d2, H2⟩⟩
    iapply (kernelRun9_A c (grid9.coords t) _ _ _ _ _ _ _ _ ((hcond9_0 t).mpr h0) (fun h => h1 ((hcond9_1 t).mp h)) (iblk9 V c 0 t) (iblk9 V c 1 t) _ Set.univ _)
    iframe H0 H1
    isplitl [H2]; · iexact H2
    isplitl [HS]; · iexact HS
    iintro ⟨H0, H1, H2, HS⟩
    iframe HR Hg HS Ho H0 H1
    iexists _; iexact H2
  · have hz : t.val ≠ 0 := fun h => h0 (by rw [h])
    by_cases h1 : t.val % 25 = 24
    · rw [show (dat9 V c).leavesExact 2 t = owns (c : Thread nD τ) (st9_2 t) fullShare ((dat9 V c).after 2 t) from by
        unfold Dat.leavesExact; rw [liveAt9_2 t ((hcond9_1 t).mpr h1)], after9_2]
      rw [sc9_pos V c t hz, PhiS9_castSucc V c t, PhiS9_pos V c _ _ hz]
      iintro ⟨⟨HR, Hg, HS⟩, Ho, ⟨%d0, H0⟩, ⟨%d1, H1⟩, ⟨%d2, H2⟩⟩
      iapply (kernelRun9_C c (grid9.coords t) _ _ _ _ _ _ _ _ (fun h => h0 ((hcond9_0 t).mp h)) ((hcond9_1 t).mpr h1) (iblk9 V c 0 t) (iblk9 V c 1 t) _ Set.univ _)
      iframe H0 H1
      isplitl [H2]; · iexists _; iexact H2
      isplitl [HS]; · iexact HS
      iintro ⟨H0, H1, H2, HS⟩
      iframe
    · rw [Dat.leavesExact_idle (dat9 V c) 2 t (idleAt9_2 t (fun h => h1 ((hcond9_1 t).mp h))) (noFlush9_2 t (fun h => h1 ((hcond9_1 t).mp h)))]
      rw [sc9_pos V c t hz, PhiS9_castSucc V c t, PhiS9_pos V c _ _ hz]
      iintro ⟨⟨HR, Hg, HS⟩, Ho, ⟨%d0, H0⟩, ⟨%d1, H1⟩, ⟨%d2, H2⟩⟩
      iapply (kernelRun9_B c (grid9.coords t) _ _ _ _ _ _ _ _ (fun h => h0 ((hcond9_0 t).mp h)) (fun h => h1 ((hcond9_1 t).mp h)) (iblk9 V c 0 t) (iblk9 V c 1 t) _ _ Set.univ _)
      iframe H0 H1
      isplitl [H2]; · iexact H2
      isplitl [HS]; · iexact HS
      iintro ⟨H0, H1, H2, HS⟩
      iframe HR Hg HS Ho H0 H1
      iexists _; iexact H2

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.HandB.Bodies.lean ====
import proofs.«419822_j14680198218267_2_alg».proof.Proof.HandB.Body0
import proofs.«419822_j14680198218267_2_alg».proof.Proof.HandB.Body1
import proofs.«419822_j14680198218267_2_alg».proof.Proof.HandB.Body2
import proofs.«419822_j14680198218267_2_alg».proof.Proof.HandB.Body3
import proofs.«419822_j14680198218267_2_alg».proof.Proof.HandB.Body4
import proofs.«419822_j14680198218267_2_alg».proof.Proof.HandB.Body5
import proofs.«419822_j14680198218267_2_alg».proof.Proof.HandB.Body6
import proofs.«419822_j14680198218267_2_alg».proof.Proof.HandB.Body7
import proofs.«419822_j14680198218267_2_alg».proof.Proof.HandB.Body8
import proofs.«419822_j14680198218267_2_alg».proof.Proof.HandB.Body9
-- ==== Proof.HandB.HostWrites.lean ====
import proofs.«419822_j14680198218267_2_alg».proof.Proof.Gen.Kernel.Launch
import Idealize.ShloMosaic.Lib.Pipeline.Frame
import Idealize.ShloMosaic.Lib.Pipeline.Regions

set_option maxRecDepth 1784

noncomputable section

namespace Cert.Kernel.GenP

open Cert.Kernel Cert.Kernel.Gen
open Idealize.ShloMosaic Idealize.ShloMosaic.TcCoe

variable {F : FTy → Type} [FloatOps F]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_cst, main_v7, main_cst_0, main_v8, main_v9, main_v10, main_cst_1, main_v11, main_v12, main_cst_2]
theorem hostOps0_writes : (hostOps0 : List (HloOp τ sig (Elt F))).Forall fun op => op.writes ⊆ (hostOps0_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v13]
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps0_2_fresh : (hostOps0_2 : List (HloOp τ sig (Elt F))).Forall fun op => op.fresh = ∅ := by
  simp only [List.Forall]; repeat' constructor
abbrev hostOps0_2_W : List (Ref sig .tc) := [main_v14, main_v15, main_cst_3, main_v16, main_cst_4, main_v17, main_v18, main_v19, main_cst_5, main_v20, main_v21, main_v22, main_v23, main_v24, main_v25, main_v26, main_v27, main_v28]
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_c, main_v30, main_v31, main_c_6, main_v32, main_v33, main_v34, main_v35, main_v36, main_v37, main_cst_7, main_v38, main_v39, main_v40]
theorem hostOps1_writes : (hostOps1 : List (HloOp τ sig (Elt F))).Forall fun op => op.writes ⊆ (hostOps1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_v42, main_v43, main_v44, main_v45, main_v46, main_v47, main_v48, main_v49, main_cst_8, main_v50, main_v51, main_v52, main_v53, main_v54, main_v55, main_v56, main_v57, main_c_9]
theorem hostOps2_writes : (hostOps2 : List (HloOp τ sig (Elt F))).Forall fun op => op.writes ⊆ (hostOps2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_1_fresh : (hostOps2_1 : List (HloOp τ sig (Elt F))).Forall fun op => op.fresh = ∅ := by
  simp only [List.Forall]; repeat' constructor
abbrev hostOps2_1_W : List (Ref sig .tc) := [main_call1_v0, main_v58]
theorem hostOps2_1_writes : (hostOps2_1 : List (HloOp τ sig (Elt F))).Forall fun op => op.writes ⊆ (hostOps2_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_2_fresh : (hostOps2_2 : List (HloOp τ sig (Elt F))).Forall fun op => op.fresh = ∅ := by
  simp only [List.Forall]; repeat' constructor
abbrev hostOps2_2_W : List (Ref sig .tc) := [main_c_10]
theorem hostOps2_2_writes : (hostOps2_2 : List (HloOp τ sig (Elt F))).Forall fun op => op.writes ⊆ (hostOps2_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_3_fresh : (hostOps2_3 : List (HloOp τ sig (Elt F))).Forall fun op => op.fresh = ∅ := by
  simp only [List.Forall]; repeat' constructor
abbrev hostOps2_3_W : List (Ref sig .tc) := [main_call2_v0, main_v59]
theorem hostOps2_3_writes : (hostOps2_3 : List (HloOp τ sig (Elt F))).Forall fun op => op.writes ⊆ (hostOps2_3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps2_4_fresh : (hostOps2_4 : List (HloOp τ sig (Elt F))).Forall fun op => op.fresh = ∅ := by
  simp only [List.Forall]; repeat' constructor
abbrev hostOps2_4_W : List (Ref sig .tc) := [main_v60, main_v61, main_v62, main_v63, main_v64, main_v65, main_v66, main_v67, main_v68, main_v69]
theorem hostOps2_4_writes : (hostOps2_4 : List (HloOp τ sig (Elt F))).Forall fun op => op.writes ⊆ (hostOps2_4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps3_fresh : (hostOps3 : List (HloOp τ sig (Elt F))).Forall fun op => op.fresh = ∅ := by
  simp only [List.Forall]; repeat' constructor
abbrev hostOps3_W : List (Ref sig .tc) := [main_v71, main_v72, main_v73, main_v74, main_v75]
theorem hostOps3_writes : (hostOps3 : List (HloOp τ sig (Elt F))).Forall fun op => op.writes ⊆ (hostOps3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps4_fresh : (hostOps4 : List (HloOp τ sig (Elt F))).Forall fun op => op.fresh = ∅ := by
  simp only [List.Forall]; repeat' constructor
abbrev hostOps4_W : List (Ref sig .tc) := [main_c_11, main_v77, main_v78, main_c_12, main_v79, main_v80, main_v81, main_v82, main_v83, main_v84, main_cst_13, main_v85, main_v86, main_v87]
theorem hostOps4_writes : (hostOps4 : List (HloOp τ sig (Elt F))).Forall fun op => op.writes ⊆ (hostOps4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_fresh : (hostOps5 : List (HloOp τ sig (Elt F))).Forall fun op => op.fresh = ∅ := by
  simp only [List.Forall]; repeat' constructor
abbrev hostOps5_W : List (Ref sig .tc) := [main_v89, main_v90, main_v91, main_v92, main_v93, main_v94, main_v95, main_v96, main_cst_14, main_v97, main_v98, main_v99, main_v100, main_v101, main_v102, main_v103, main_v104, main_c_15]
theorem hostOps5_writes : (hostOps5 : List (HloOp τ sig (Elt F))).Forall fun op => op.writes ⊆ (hostOps5_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_1_fresh : (hostOps5_1 : List (HloOp τ sig (Elt F))).Forall fun op => op.fresh = ∅ := by
  simp only [List.Forall]; repeat' constructor
abbrev hostOps5_1_W : List (Ref sig .tc) := [main_call3_v0, main_v105]
theorem hostOps5_1_writes : (hostOps5_1 : List (HloOp τ sig (Elt F))).Forall fun op => op.writes ⊆ (hostOps5_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_2_fresh : (hostOps5_2 : List (HloOp τ sig (Elt F))).Forall fun op => op.fresh = ∅ := by
  simp only [List.Forall]; repeat' constructor
abbrev hostOps5_2_W : List (Ref sig .tc) := [main_c_16]
theorem hostOps5_2_writes : (hostOps5_2 : List (HloOp τ sig (Elt F))).Forall fun op => op.writes ⊆ (hostOps5_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_3_fresh : (hostOps5_3 : List (HloOp τ sig (Elt F))).Forall fun op => op.fresh = ∅ := by
  simp only [List.Forall]; repeat' constructor
abbrev hostOps5_3_W : List (Ref sig .tc) := [main_call4_v0, main_v106]
theorem hostOps5_3_writes : (hostOps5_3 : List (HloOp τ sig (Elt F))).Forall fun op => op.writes ⊆ (hostOps5_3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps5_4_fresh : (hostOps5_4 : List (HloOp τ sig (Elt F))).Forall fun op => op.fresh = ∅ := by
  simp only [List.Forall]; repeat' constructor
abbrev hostOps5_4_W : List (Ref sig .tc) := [main_v107, main_v108, main_v109, main_v110, main_v111, main_v112, main_v113, main_v114, main_v115, main_v116]
theorem hostOps5_4_writes : (hostOps5_4 : List (HloOp τ sig (Elt F))).Forall fun op => op.writes ⊆ (hostOps5_4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps6_fresh : (hostOps6 : List (HloOp τ sig (Elt F))).Forall fun op => op.fresh = ∅ := by
  simp only [List.Forall]; repeat' constructor
abbrev hostOps6_W : List (Ref sig .tc) := [main_v118, main_v119, main_v120, main_v121, main_v122]
theorem hostOps6_writes : (hostOps6 : List (HloOp τ sig (Elt F))).Forall fun op => op.writes ⊆ (hostOps6_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps7_fresh : (hostOps7 : List (HloOp τ sig (Elt F))).Forall fun op => op.fresh = ∅ := by
  simp only [List.Forall]; repeat' constructor
abbrev hostOps7_W : List (Ref sig .tc) := [main_c_17, main_v124, main_v125, main_c_18, main_v126, main_v127, main_v128, main_v129, main_v130, main_v131, main_cst_19, main_v132, main_v133, main_v134]
theorem hostOps7_writes : (hostOps7 : List (HloOp τ sig (Elt F))).Forall fun op => op.writes ⊆ (hostOps7_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_fresh : (hostOps8 : List (HloOp τ sig (Elt F))).Forall fun op => op.fresh = ∅ := by
  simp only [List.Forall]; repeat' constructor
abbrev hostOps8_W : List (Ref sig .tc) := [main_v136, main_v137, main_v138, main_v139, main_v140, main_v141, main_v142, main_v143, main_cst_20, main_v144, main_v145, main_v146, main_v147, main_v148, main_v149, main_v150, main_v151, main_c_21]
theorem hostOps8_writes : (hostOps8 : List (HloOp τ sig (Elt F))).Forall fun op => op.writes ⊆ (hostOps8_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_1_fresh : (hostOps8_1 : List (HloOp τ sig (Elt F))).Forall fun op => op.fresh = ∅ := by
  simp only [List.Forall]; repeat' constructor
abbrev hostOps8_1_W : List (Ref sig .tc) := [main_call5_v0, main_v152]
theorem hostOps8_1_writes : (hostOps8_1 : List (HloOp τ sig (Elt F))).Forall fun op => op.writes ⊆ (hostOps8_1_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_2_fresh : (hostOps8_2 : List (HloOp τ sig (Elt F))).Forall fun op => op.fresh = ∅ := by
  simp only [List.Forall]; repeat' constructor
abbrev hostOps8_2_W : List (Ref sig .tc) := [main_c_22]
theorem hostOps8_2_writes : (hostOps8_2 : List (HloOp τ sig (Elt F))).Forall fun op => op.writes ⊆ (hostOps8_2_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_3_fresh : (hostOps8_3 : List (HloOp τ sig (Elt F))).Forall fun op => op.fresh = ∅ := by
  simp only [List.Forall]; repeat' constructor
abbrev hostOps8_3_W : List (Ref sig .tc) := [main_call6_v0, main_v153]
theorem hostOps8_3_writes : (hostOps8_3 : List (HloOp τ sig (Elt F))).Forall fun op => op.writes ⊆ (hostOps8_3_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps8_4_fresh : (hostOps8_4 : List (HloOp τ sig (Elt F))).Forall fun op => op.fresh = ∅ := by
  simp only [List.Forall]; repeat' constructor
abbrev hostOps8_4_W : List (Ref sig .tc) := [main_v154, main_v155, main_v156, main_v157, main_v158, main_v159, main_v160, main_v161, main_v162, main_v163]
theorem hostOps8_4_writes : (hostOps8_4 : List (HloOp τ sig (Elt F))).Forall fun op => op.writes ⊆ (hostOps8_4_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hostOps10_fresh : (hostOps10 : List (HloOp τ sig (Elt F))).Forall fun op => op.fresh = ∅ := by
  simp only [List.Forall]; repeat' constructor
abbrev hostOps10_W : List (Ref sig .tc) := [main_v166, main_v167, main_v168]
theorem hostOps10_writes : (hostOps10 : List (HloOp τ sig (Elt F))).Forall fun op => op.writes ⊆ (hostOps10_W.map (Proc.devRef (τ := τ) .tc)).toFinset := by
  simp only [List.Forall]; repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.Kernel.GenP

end
-- ==== Proof.HandB.Chain.lean ====
import proofs.«419822_j14680198218267_2_alg».proof.Proof.HandB.Bodies
import proofs.«419822_j14680198218267_2_alg».proof.Proof.HandB.HostWrites

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem ne_of_not_mem_image {α β : Type} [Fintype α] [DecidableEq β] {f : α → β} {b : β} (hb : b ∉ Finset.univ.image f) (w : α) : f w ≠ b :=
  fun e => hb (Finset.mem_image.mpr ⟨w, Finset.mem_univ _, e⟩)

abbrev W0 : Dev nD → Valuation τ sig (Elt F) := fun c b => m (c, b)
abbrev W1 : Dev nD → Valuation τ sig (Elt F) := fun c => StableHlo.after hostOps0 (W0 m c)
theorem W1_keep (c : Dev nD) (r : Ref sig .tc) (h : r ∉ GenP.hostOps0_W) : W1 m c r = W0 m c r :=
  StableHlo.after_of_writes_sub hostOps0 _ GenP.hostOps0_writes h
abbrev W2 : Dev nD → Valuation τ sig (Elt F) := fun c => StableHlo.after hostOps0_1 (W1 m c)
theorem W2_keep (c : Dev nD) (r : Ref sig .tc) (h : r ∉ GenP.hostOps0_1_W) : W2 m c r = W1 m c r :=
  StableHlo.after_of_writes_sub hostOps0_1 _ GenP.hostOps0_1_writes h
abbrev W3 : Dev nD → Valuation τ sig (Elt F) := fun c => StableHlo.after hostOps0_2 (W2 m c)
theorem W3_keep (c : Dev nD) (r : Ref sig .tc) (h : r ∉ GenP.hostOps0_2_W) : W3 m c r = W2 m c r :=
  StableHlo.after_of_writes_sub hostOps0_2 _ GenP.hostOps0_2_writes h
abbrev V3 : (c : Dev nD) → (b : Ref sig .tc) → Buf (Elt F) ((c : Thread nD τ).loc b) := fun c b => W3 m c b
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b (ne_of_not_mem_image hb)
abbrev W5 : Dev nD → Valuation τ sig (Elt F) := fun c => StableHlo.after hostOps1 (W4 m c)
theorem W5_keep (c : Dev nD) (r : Ref sig .tc) (h : r ∉ GenP.hostOps1_W) : W5 m c r = W4 m c r :=
  StableHlo.after_of_writes_sub hostOps1 _ GenP.hostOps1_writes h
abbrev V5 : (c : Dev nD) → (b : Ref sig .tc) → Buf (Elt F) ((c : Thread nD τ).loc b) := fun c b => W5 m c b
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N :=
  Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) :=
  Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b (ne_of_not_mem_image hb)
abbrev W7 : Dev nD → Valuation τ sig (Elt F) := fun c => StableHlo.after hostOps2 (W6 m c)
theorem W7_keep (c : Dev nD) (r : Ref sig .tc) (h : r ∉ GenP.hostOps2_W) : W7 m c r = W6 m c r :=
  StableHlo.after_of_writes_sub hostOps2 _ GenP.hostOps2_writes h
abbrev W8 : Dev nD → Valuation τ sig (Elt F) := fun c => StableHlo.after hostOps2_1 (W7 m c)
theorem W8_keep (c : Dev nD) (r : Ref sig .tc) (h : r ∉ GenP.hostOps2_1_W) : W8 m c r = W7 m c r :=
  StableHlo.after_of_writes_sub hostOps2_1 _ GenP.hostOps2_1_writes h
abbrev W9 : Dev nD → Valuation τ sig (Elt F) := fun c => StableHlo.after hostOps2_2 (W8 m c)
theorem W9_keep (c : Dev nD) (r : Ref sig .tc) (h : r ∉ GenP.hostOps2_2_W) : W9 m c r = W8 m c r :=
  StableHlo.after_of_writes_sub hostOps2_2 _ GenP.hostOps2_2_writes h
abbrev W10 : Dev nD → Valuation τ sig (Elt F) := fun c => StableHlo.after hostOps2_3 (W9 m c)
theorem W10_keep (c : Dev nD) (r : Ref sig .tc) (h : r ∉ GenP.hostOps2_3_W) : W10 m c r = W9 m c r :=
  StableHlo.after_of_writes_sub hostOps2_3 _ GenP.hostOps2_3_writes h
abbrev W11 : Dev nD → Valuation τ sig (Elt F) := fun c => StableHlo.after hostOps2_4 (W10 m c)
theorem W11_keep (c : Dev nD) (r : Ref sig .tc) (h : r ∉ GenP.hostOps2_4_W) : W11 m c r = W10 m c r :=
  StableHlo.after_of_writes_sub hostOps2_4 _ GenP.hostOps2_4_writes h
abbrev V11 : (c : Dev nD) → (b : Ref sig .tc) → Buf (Elt F) ((c : Thread nD τ).loc b) := fun c b => W11 m c b
def W12 (c : Dev nD) : Valuation τ sig (Elt F) :=
  Pipeline.withArrays spec2 c (W11 m c) fun w => (dat2 (V11 m) c).arrAt w cfg2.N
theorem W12_arr (c : Dev nD) (w : Fin cfg2.W) :
    W12 m c (Proc.devRef .tc (Pipeline.arrRef spec2 w)) = (dat2 (V11 m) c).arrAt w cfg2.N :=
  Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) :=
  Pipeline.withArrays_of_ne spec2 c _ _ b hb
abbrev V12 : (c : Dev nD) → (b : Ref sig .tc) → Buf (Elt F) ((c : Thread nD τ).loc b) := fun c b => W12 m c b
theorem hF2 (c : Dev nD) (w : Fin cfg2.W) : (dat2 (V11 m) c).arrAt w cfg2.N = V12 m c (Pipeline.arrRef spec2 w) :=
  (W12_arr m c w).symm
theorem hrest2 (c : Dev nD) : ∀ b, b ∉ Finset.univ.image (Pipeline.arrRef spec2) → V12 m c b = V11 m c b :=
  fun b hb => W12_of_ne m c b (ne_of_not_mem_image hb)
abbrev W13 : Dev nD → Valuation τ sig (Elt F) := fun c => StableHlo.after hostOps3 (W12 m c)
theorem W13_keep (c : Dev nD) (r : Ref sig .tc) (h : r ∉ GenP.hostOps3_W) : W13 m c r = W12 m c r :=
  StableHlo.after_of_writes_sub hostOps3 _ GenP.hostOps3_writes h
abbrev V13 : (c : Dev nD) → (b : Ref sig .tc) → Buf (Elt F) ((c : Thread nD τ).loc b) := fun c b => W13 m c b
def W14 (c : Dev nD) : Valuation τ sig (Elt F) :=
  Pipeline.withArrays spec3 c (W13 m c) fun w => (dat3 (V13 m) c).arrAt w cfg3.N
theorem W14_arr (c : Dev nD) (w : Fin cfg3.W) :
    W14 m c (Proc.devRef .tc (Pipeline.arrRef spec3 w)) = (dat3 (V13 m) c).arrAt w cfg3.N :=
  Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) :=
  Pipeline.withArrays_of_ne spec3 c _ _ b hb
abbrev V14 : (c : Dev nD) → (b : Ref sig .tc) → Buf (Elt F) ((c : Thread nD τ).loc b) := fun c b => W14 m c b
theorem hF3 (c : Dev nD) (w : Fin cfg3.W) : (dat3 (V13 m) c).arrAt w cfg3.N = V14 m c (Pipeline.arrRef spec3 w) :=
  (W14_arr m c w).symm
theorem hrest3 (c : Dev nD) : ∀ b, b ∉ Finset.univ.image (Pipeline.arrRef spec3) → V14 m c b = V13 m c b :=
  fun b hb => W14_of_ne m c b (ne_of_not_mem_image hb)
abbrev W15 : Dev nD → Valuation τ sig (Elt F) := fun c => StableHlo.after hostOps4 (W14 m c)
theorem W15_keep (c : Dev nD) (r : Ref sig .tc) (h : r ∉ GenP.hostOps4_W) : W15 m c r = W14 m c r :=
  StableHlo.after_of_writes_sub hostOps4 _ GenP.hostOps4_writes h
abbrev V15 : (c : Dev nD) → (b : Ref sig .tc) → Buf (Elt F) ((c : Thread nD τ).loc b) := fun c b => W15 m c b
def W16 (c : Dev nD) : Valuation τ sig (Elt F) :=
  Pipeline.withArrays spec4 c (W15 m c) fun w => (dat4 (V15 m) c).arrAt w cfg4.N
theorem W16_arr (c : Dev nD) (w : Fin cfg4.W) :
    W16 m c (Proc.devRef .tc (Pipeline.arrRef spec4 w)) = (dat4 (V15 m) c).arrAt w cfg4.N :=
  Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) :=
  Pipeline.withArrays_of_ne spec4 c _ _ b hb
abbrev V16 : (c : Dev nD) → (b : Ref sig .tc) → Buf (Elt F) ((c : Thread nD τ).loc b) := fun c b => W16 m c b
theorem hF4 (c : Dev nD) (w : Fin cfg4.W) : (dat4 (V15 m) c).arrAt w cfg4.N = V16 m c (Pipeline.arrRef spec4 w) :=
  (W16_arr m c w).symm
theorem hrest4 (c : Dev nD) : ∀ b, b ∉ Finset.univ.image (Pipeline.arrRef spec4) → V16 m c b = V15 m c b :=
  fun b hb => W16_of_ne m c b (ne_of_not_mem_image hb)
abbrev W17 : Dev nD → Valuation τ sig (Elt F) := fun c => StableHlo.after hostOps5 (W16 m c)
theorem W17_keep (c : Dev nD) (r : Ref sig .tc) (h : r ∉ GenP.hostOps5_W) : W17 m c r = W16 m c r :=
  StableHlo.after_of_writes_sub hostOps5 _ GenP.hostOps5_writes h
abbrev W18 : Dev nD → Valuation τ sig (Elt F) := fun c => StableHlo.after hostOps5_1 (W17 m c)
theorem W18_keep (c : Dev nD) (r : Ref sig .tc) (h : r ∉ GenP.hostOps5_1_W) : W18 m c r = W17 m c r :=
  StableHlo.after_of_writes_sub hostOps5_1 _ GenP.hostOps5_1_writes h
abbrev W19 : Dev nD → Valuation τ sig (Elt F) := fun c => StableHlo.after hostOps5_2 (W18 m c)
theorem W19_keep (c : Dev nD) (r : Ref sig .tc) (h : r ∉ GenP.hostOps5_2_W) : W19 m c r = W18 m c r :=
  StableHlo.after_of_writes_sub hostOps5_2 _ GenP.hostOps5_2_writes h
abbrev W20 : Dev nD → Valuation τ sig (Elt F) := fun c => StableHlo.after hostOps5_3 (W19 m c)
theorem W20_keep (c : Dev nD) (r : Ref sig .tc) (h : r ∉ GenP.hostOps5_3_W) : W20 m c r = W19 m c r :=
  StableHlo.after_of_writes_sub hostOps5_3 _ GenP.hostOps5_3_writes h
abbrev W21 : Dev nD → Valuation τ sig (Elt F) := fun c => StableHlo.after hostOps5_4 (W20 m c)
theorem W21_keep (c : Dev nD) (r : Ref sig .tc) (h : r ∉ GenP.hostOps5_4_W) : W21 m c r = W20 m c r :=
  StableHlo.after_of_writes_sub hostOps5_4 _ GenP.hostOps5_4_writes h
abbrev V21 : (c : Dev nD) → (b : Ref sig .tc) → Buf (Elt F) ((c : Thread nD τ).loc b) := fun c b => W21 m c b
def W22 (c : Dev nD) : Valuation τ sig (Elt F) :=
  Pipeline.withArrays spec5 c (W21 m c) fun w => (dat5 (V21 m) c).arrAt w cfg5.N
theorem W22_arr (c : Dev nD) (w : Fin cfg5.W) :
    W22 m c (Proc.devRef .tc (Pipeline.arrRef spec5 w)) = (dat5 (V21 m) c).arrAt w cfg5.N :=
  Pipeline.withArrays_arr spec5 launch5.win.arr_inj c _ _ w
theorem W22_of_ne (c : Dev nD) (b : Ref sig .tc) (hb : ∀ w, Pipeline.arrRef spec5 w ≠ b) :
    W22 m c (Proc.devRef .tc b) = W21 m c (Proc.devRef .tc b) :=
  Pipeline.withArrays_of_ne spec5 c _ _ b hb
abbrev V22 : (c : Dev nD) → (b : Ref sig .tc) → Buf (Elt F) ((c : Thread nD τ).loc b) := fun c b => W22 m c b
theorem hF5 (c : Dev nD) (w : Fin cfg5.W) : (dat5 (V21 m) c).arrAt w cfg5.N = V22 m c (Pipeline.arrRef spec5 w) :=
  (W22_arr m c w).symm
theorem hrest5 (c : Dev nD) : ∀ b, b ∉ Finset.univ.image (Pipeline.arrRef spec5) → V22 m c b = V21 m c b :=
  fun b hb => W22_of_ne m c b (ne_of_not_mem_image hb)
abbrev W23 : Dev nD → Valuation τ sig (Elt F) := fun c => StableHlo.after hostOps6 (W22 m c)
theorem W23_keep (c : Dev nD) (r : Ref sig .tc) (h : r ∉ GenP.hostOps6_W) : W23 m c r = W22 m c r :=
  StableHlo.after_of_writes_sub hostOps6 _ GenP.hostOps6_writes h
abbrev V23 : (c : Dev nD) → (b : Ref sig .tc) → Buf (Elt F) ((c : Thread nD τ).loc b) := fun c b => W23 m c b
def W24 (c : Dev nD) : Valuation τ sig (Elt F) :=
  Pipeline.withArrays spec6 c (W23 m c) fun w => (dat6 (V23 m) c).arrAt w cfg6.N
theorem W24_arr (c : Dev nD) (w : Fin cfg6.W) :
    W24 m c (Proc.devRef .tc (Pipeline.arrRef spec6 w)) = (dat6 (V23 m) c).arrAt w cfg6.N :=
  Pipeline.withArrays_arr spec6 launch6.win.arr_inj c _ _ w
theorem W24_of_ne (c : Dev nD) (b : Ref sig .tc) (hb : ∀ w, Pipeline.arrRef spec6 w ≠ b) :
    W24 m c (Proc.devRef .tc b) = W23 m c (Proc.devRef .tc b) :=
  Pipeline.withArrays_of_ne spec6 c _ _ b hb
abbrev V24 : (c : Dev nD) → (b : Ref sig .tc) → Buf (Elt F) ((c : Thread nD τ).loc b) := fun c b => W24 m c b
theorem hF6 (c : Dev nD) (w : Fin cfg6.W) : (dat6 (V23 m) c).arrAt w cfg6.N = V24 m c (Pipeline.arrRef spec6 w) :=
  (W24_arr m c w).symm
theorem hrest6 (c : Dev nD) : ∀ b, b ∉ Finset.univ.image (Pipeline.arrRef spec6) → V24 m c b = V23 m c b :=
  fun b hb => W24_of_ne m c b (ne_of_not_mem_image hb)
abbrev W25 : Dev nD → Valuation τ sig (Elt F) := fun c => StableHlo.after hostOps7 (W24 m c)
theorem W25_keep (c : Dev nD) (r : Ref sig .tc) (h : r ∉ GenP.hostOps7_W) : W25 m c r = W24 m c r :=
  StableHlo.after_of_writes_sub hostOps7 _ GenP.hostOps7_writes h
abbrev V25 : (c : Dev nD) → (b : Ref sig .tc) → Buf (Elt F) ((c : Thread nD τ).loc b) := fun c b => W25 m c b
def W26 (c : Dev nD) : Valuation τ sig (Elt F) :=
  Pipeline.withArrays spec7 c (W25 m c) fun w => (dat7 (V25 m) c).arrAt w cfg7.N
theorem W26_arr (c : Dev nD) (w : Fin cfg7.W) :
    W26 m c (Proc.devRef .tc (Pipeline.arrRef spec7 w)) = (dat7 (V25 m) c).arrAt w cfg7.N :=
  Pipeline.withArrays_arr spec7 launch7.win.arr_inj c _ _ w
theorem W26_of_ne (c : Dev nD) (b : Ref sig .tc) (hb : ∀ w, Pipeline.arrRef spec7 w ≠ b) :
    W26 m c (Proc.devRef .tc b) = W25 m c (Proc.devRef .tc b) :=
  Pipeline.withArrays_of_ne spec7 c _ _ b hb
abbrev V26 : (c : Dev nD) → (b : Ref sig .tc) → Buf (Elt F) ((c : Thread nD τ).loc b) := fun c b => W26 m c b
theorem hF7 (c : Dev nD) (w : Fin cfg7.W) : (dat7 (V25 m) c).arrAt w cfg7.N = V26 m c (Pipeline.arrRef spec7 w) :=
  (W26_arr m c w).symm
theorem hrest7 (c : Dev nD) : ∀ b, b ∉ Finset.univ.image (Pipeline.arrRef spec7) → V26 m c b = V25 m c b :=
  fun b hb => W26_of_ne m c b (ne_of_not_mem_image hb)
abbrev W27 : Dev nD → Valuation τ sig (Elt F) := fun c => StableHlo.after hostOps8 (W26 m c)
theorem W27_keep (c : Dev nD) (r : Ref sig .tc) (h : r ∉ GenP.hostOps8_W) : W27 m c r = W26 m c r :=
  StableHlo.after_of_writes_sub hostOps8 _ GenP.hostOps8_writes h
abbrev W28 : Dev nD → Valuation τ sig (Elt F) := fun c => StableHlo.after hostOps8_1 (W27 m c)
theorem W28_keep (c : Dev nD) (r : Ref sig .tc) (h : r ∉ GenP.hostOps8_1_W) : W28 m c r = W27 m c r :=
  StableHlo.after_of_writes_sub hostOps8_1 _ GenP.hostOps8_1_writes h
abbrev W29 : Dev nD → Valuation τ sig (Elt F) := fun c => StableHlo.after hostOps8_2 (W28 m c)
theorem W29_keep (c : Dev nD) (r : Ref sig .tc) (h : r ∉ GenP.hostOps8_2_W) : W29 m c r = W28 m c r :=
  StableHlo.after_of_writes_sub hostOps8_2 _ GenP.hostOps8_2_writes h
abbrev W30 : Dev nD → Valuation τ sig (Elt F) := fun c => StableHlo.after hostOps8_3 (W29 m c)
theorem W30_keep (c : Dev nD) (r : Ref sig .tc) (h : r ∉ GenP.hostOps8_3_W) : W30 m c r = W29 m c r :=
  StableHlo.after_of_writes_sub hostOps8_3 _ GenP.hostOps8_3_writes h
abbrev W31 : Dev nD → Valuation τ sig (Elt F) := fun c => StableHlo.after hostOps8_4 (W30 m c)
theorem W31_keep (c : Dev nD) (r : Ref sig .tc) (h : r ∉ GenP.hostOps8_4_W) : W31 m c r = W30 m c r :=
  StableHlo.after_of_writes_sub hostOps8_4 _ GenP.hostOps8_4_writes h
abbrev V31 : (c : Dev nD) → (b : Ref sig .tc) → Buf (Elt F) ((c : Thread nD τ).loc b) := fun c b => W31 m c b
def W32 (c : Dev nD) : Valuation τ sig (Elt F) :=
  Pipeline.withArrays spec8 c (W31 m c) fun w => (dat8 (V31 m) c).arrAt w cfg8.N
theorem W32_arr (c : Dev nD) (w : Fin cfg8.W) :
    W32 m c (Proc.devRef .tc (Pipeline.arrRef spec8 w)) = (dat8 (V31 m) c).arrAt w cfg8.N :=
  Pipeline.withArrays_arr spec8 launch8.win.arr_inj c _ _ w
theorem W32_of_ne (c : Dev nD) (b : Ref sig .tc) (hb : ∀ w, Pipeline.arrRef spec8 w ≠ b) :
    W32 m c (Proc.devRef .tc b) = W31 m c (Proc.devRef .tc b) :=
  Pipeline.withArrays_of_ne spec8 c _ _ b hb
abbrev V32 : (c : Dev nD) → (b : Ref sig .tc) → Buf (Elt F) ((c : Thread nD τ).loc b) := fun c b => W32 m c b
theorem hF8 (c : Dev nD) (w : Fin cfg8.W) : (dat8 (V31 m) c).arrAt w cfg8.N = V32 m c (Pipeline.arrRef spec8 w) :=
  (W32_arr m c w).symm
theorem hrest8 (c : Dev nD) : ∀ b, b ∉ Finset.univ.image (Pipeline.arrRef spec8) → V32 m c b = V31 m c b :=
  fun b hb => W32_of_ne m c b (ne_of_not_mem_image hb)
def W33 (c : Dev nD) : Valuation τ sig (Elt F) :=
  Pipeline.withArrays spec9 c (W32 m c) fun w => (dat9 (V32 m) c).arrAt w cfg9.N
theorem W33_arr (c : Dev nD) (w : Fin cfg9.W) :
    W33 m c (Proc.devRef .tc (Pipeline.arrRef spec9 w)) = (dat9 (V32 m) c).arrAt w cfg9.N :=
  Pipeline.withArrays_arr spec9 launch9.win.arr_inj c _ _ w
theorem W33_of_ne (c : Dev nD) (b : Ref sig .tc) (hb : ∀ w, Pipeline.arrRef spec9 w ≠ b) :
    W33 m c (Proc.devRef .tc b) = W32 m c (Proc.devRef .tc b) :=
  Pipeline.withArrays_of_ne spec9 c _ _ b hb
abbrev V33 : (c : Dev nD) → (b : Ref sig .tc) → Buf (Elt F) ((c : Thread nD τ).loc b) := fun c b => W33 m c b
theorem hF9 (c : Dev nD) (w : Fin cfg9.W) : (dat9 (V32 m) c).arrAt w cfg9.N = V33 m c (Pipeline.arrRef spec9 w) :=
  (W33_arr m c w).symm
theorem hrest9 (c : Dev nD) : ∀ b, b ∉ Finset.univ.image (Pipeline.arrRef spec9) → V33 m c b = V32 m c b :=
  fun b hb => W33_of_ne m c b (ne_of_not_mem_image hb)
abbrev W34 : Dev nD → Valuation τ sig (Elt F) := fun c => StableHlo.after hostOps10 (W33 m c)
theorem W34_keep (c : Dev nD) (r : Ref sig .tc) (h : r ∉ GenP.hostOps10_W) : W34 m c r = W33 m c r :=
  StableHlo.after_of_writes_sub hostOps10 _ GenP.hostOps10_writes h

def pdats : (p : Fin 10) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V11 m) c
  | ⟨3, _⟩ => fun c => dat3 (V13 m) c
  | ⟨4, _⟩ => fun c => dat4 (V15 m) c
  | ⟨5, _⟩ => fun c => dat5 (V21 m) c
  | ⟨6, _⟩ => fun c => dat6 (V23 m) c
  | ⟨7, _⟩ => fun c => dat7 (V25 m) c
  | ⟨8, _⟩ => fun c => dat8 (V31 m) c
  | ⟨9, _⟩ => fun c => dat9 (V32 m) c

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W34 m c) ∗ ∃ r, prngReg c r)

end Cert.Kernel.Hand

end
-- ==== Proof.HandB.RegLib.lean ====
import proofs.«419822_j14680198218267_2_alg».proof.Proof.HandB.Chain

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F] (m : (ℓ : Loc nD τ sig) → Buf (Elt F) ℓ)

-- For any p the held valuation Wb splits as p's arrays and the rest, and joins back at any Wa that has the final arrays and agrees with Wb off them.
def regOf (p : Fin 10) (lf : Pipeline.LaunchFacts (nD := nD) (τ := τ) cfgs p)
    (hbody : ∀ c, Pipeline.BodyObligationLoose (pdats m p c) (defs₀ (F := F)) 𝒱₀ () Set.univ)
    (howed : ∀ c t, (pdats m p c).owed t = 0) (hrec : ∀ c t, (pdats m p c).recorded t = Set.univ)
    (hq : ∀ c w, (pdats m p c).q w = fullShare)
    (Wb Wa : Dev nD → Valuation τ sig (Elt F))
    (hA : ∀ c w, (pdats m p c).A w = Wb c (Pipeline.arrRef (cfgs p).spec w))
    (hF : ∀ c w, (pdats m p c).arrAt w (cfgs p).N = Wa c (Pipeline.arrRef (cfgs p).spec w))
    (hrest : ∀ c, ∀ b, b ∉ Finset.univ.image (Pipeline.arrRef (cfgs p).spec) → Wa c b = Wb c b)
    (hΦi : ∀ c, iprop((∃ r, prngReg c r) ∗ Pipeline.scopedRest (cfgs p).spec c) ⊢ (pdats m p c).Φ 0)
    (hΦo : ∀ c, (pdats m p c).Φ (Fin.last (cfgs p).N) ⊢ iprop((∃ r, prngReg c r) ∗ Pipeline.scopedRest (cfgs p).spec c)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wb c) ∗ R c)
  post c := iprop(StableHlo.held (c : Thread nD τ) (Pipeline.ucRefs τ sig) (Wa c) ∗ R c)
  X c := iprop(∃ r, prngReg c r)
  Y c := iprop(∃ r, prngReg c r)
  Z c := Pipeline.unscopedRest (cfgs p).spec c fun b => Wb c b
  hentry c := by
    rw [Pipeline.ownSems0_none]
    unfold Pipeline.Dat.owesAt Pipeline.owesWithin
    rw [howed c]
    have hsplit := Pipeline.arrays_of_unscopedBufs (p := p) (pcfgs (F := F)) adm (pdats m) lf.win lf.arr_whole c
      ((pdats m p c).share_full (hq c)) (fun b => Wb c b) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    icases HO with ⟨%W, HO⟩; iexists W; iframe HO
    ipureintro; exact fun _ _ => Or.inl (by rw [hrec c]; exact Set.mem_univ _)
  hin c := by
    refine .trans ?_ (hΦi c)
    iintro ⟨Hp, -, Hr⟩
    iframe
  hout c := by
    rw [Pipeline.ownSems0_none]
    refine (hΦo c).trans ?_
    iintro ⟨Hp, Hr⟩
    iframe; iempintro
  hexit c := by
    unfold Pipeline.Dat.owesAt Pipeline.owesWithin
    rw [howed c]
    have hjoin := Pipeline.unscopedBufs_of_arrays (p := p) (pcfgs (F := F)) adm lf.win lf.arr_whole c (pdats m) ((pdats m p c).share_full (hq c))
      (fun b => Wb c b) (fun b => Wa c b) ((pdats m p c).arrAt · (cfgs p).N) (hF c) (hrest c)
    rw [Pipeline.unscopedBufs_held] at hjoin
    iintro ⟨Ha, HO, HY, Hrest⟩
    imodintro
    isplitl [Ha Hrest]
    · iapply hjoin; iframe
    isplitl [HY]; · iexact HY
    icases HO with ⟨%W, -, HO⟩; iexists W; iexact HO

end Cert.Kernel.Hand

end
-- ==== Proof.HandB.Reg0.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg0 : Pipeline.RegionSeg (pcfgs (F := F)) adm (pdats m) () defs₀ 𝒱₀ L lv 0 :=
  regOf m 0 launch0 (fun c => (body_obligation0 (V3 m) c).loose) (fun _ _ => rfl) (fun _ _ => rfl) (fun _ _ => rfl)
    (W3 m) (W4 m) (fun _ _ => rfl) (hF0 m) (hrest0 m) (fun _ => sep_symm) fun _ => sep_symm

end Cert.Kernel.Hand

end
-- ==== Proof.HandB.Reg1.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg1 : Pipeline.RegionSeg (pcfgs (F := F)) adm (pdats m) () defs₀ 𝒱₀ L lv 1 :=
  regOf m 1 launch1 (fun c => (body_obligation1 (V5 m) c).loose) (fun _ _ => rfl) (fun _ _ => rfl) (fun _ _ => rfl)
    (W5 m) (W6 m) (fun _ _ => rfl) (hF1 m) (hrest1 m) (hin1 (V5 m)) (hout1 (V5 m))

end Cert.Kernel.Hand

end
-- ==== Proof.HandB.Reg2.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg2 : Pipeline.RegionSeg (pcfgs (F := F)) adm (pdats m) () defs₀ 𝒱₀ L lv 2 :=
  regOf m 2 launch2 (fun c => (body_obligation2 (V11 m) c).loose) (fun _ _ => rfl) (fun _ _ => rfl) (fun _ _ => rfl)
    (W11 m) (W12 m) (fun _ _ => rfl) (hF2 m) (hrest2 m) (fun _ => sep_symm) fun _ => sep_symm

end Cert.Kernel.Hand

end
-- ==== Proof.HandB.Reg3.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg3 : Pipeline.RegionSeg (pcfgs (F := F)) adm (pdats m) () defs₀ 𝒱₀ L lv 3 :=
  regOf m 3 launch3 (fun c => (body_obligation3 (V13 m) c).loose) (fun _ _ => rfl) (fun _ _ => rfl) (fun _ _ => rfl)
    (W13 m) (W14 m) (fun _ _ => rfl) (hF3 m) (hrest3 m) (fun _ => sep_symm) fun _ => sep_symm

end Cert.Kernel.Hand

end
-- ==== Proof.HandB.Reg4.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg4 : Pipeline.RegionSeg (pcfgs (F := F)) adm (pdats m) () defs₀ 𝒱₀ L lv 4 :=
  regOf m 4 launch4 (fun c => (body_obligation4 (V15 m) c).loose) (fun _ _ => rfl) (fun _ _ => rfl) (fun _ _ => rfl)
    (W15 m) (W16 m) (fun _ _ => rfl) (hF4 m) (hrest4 m) (hin4 (V15 m)) (hout4 (V15 m))

end Cert.Kernel.Hand

end
-- ==== Proof.HandB.Reg5.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg5 : Pipeline.RegionSeg (pcfgs (F := F)) adm (pdats m) () defs₀ 𝒱₀ L lv 5 :=
  regOf m 5 launch5 (fun c => (body_obligation5 (V21 m) c).loose) (fun _ _ => rfl) (fun _ _ => rfl) (fun _ _ => rfl)
    (W21 m) (W22 m) (fun _ _ => rfl) (hF5 m) (hrest5 m) (fun _ => sep_symm) fun _ => sep_symm

end Cert.Kernel.Hand

end
-- ==== Proof.HandB.Reg6.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg6 : Pipeline.RegionSeg (pcfgs (F := F)) adm (pdats m) () defs₀ 𝒱₀ L lv 6 :=
  regOf m 6 launch6 (fun c => (body_obligation6 (V23 m) c).loose) (fun _ _ => rfl) (fun _ _ => rfl) (fun _ _ => rfl)
    (W23 m) (W24 m) (fun _ _ => rfl) (hF6 m) (hrest6 m) (fun _ => sep_symm) fun _ => sep_symm

end Cert.Kernel.Hand

end
-- ==== Proof.HandB.Reg7.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg7 : Pipeline.RegionSeg (pcfgs (F := F)) adm (pdats m) () defs₀ 𝒱₀ L lv 7 :=
  regOf m 7 launch7 (fun c => (body_obligation7 (V25 m) c).loose) (fun _ _ => rfl) (fun _ _ => rfl) (fun _ _ => rfl)
    (W25 m) (W26 m) (fun _ _ => rfl) (hF7 m) (hrest7 m) (hin7 (V25 m)) (hout7 (V25 m))

end Cert.Kernel.Hand

end
-- ==== Proof.HandB.Reg8.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg8 : Pipeline.RegionSeg (pcfgs (F := F)) adm (pdats m) () defs₀ 𝒱₀ L lv 8 :=
  regOf m 8 launch8 (fun c => (body_obligation8 (V31 m) c).loose) (fun _ _ => rfl) (fun _ _ => rfl) (fun _ _ => rfl)
    (W31 m) (W32 m) (fun _ _ => rfl) (hF8 m) (hrest8 m) (fun _ => sep_symm) fun _ => sep_symm

end Cert.Kernel.Hand

end
-- ==== Proof.HandB.Reg9.lean ====
import proofs.«419822_j14680198218267_2_alg».proof.Proof.HandB.RegLib

noncomputable section

namespace Cert.Kernel.Hand

open Cert.Kernel Cert.Kernel.Gen Idealize.ShloMosaic Idealize.SL.BI.Laws

variable {F : FTy → Type} [FloatOps F] (m : (ℓ : Loc nD τ sig) → Buf (Elt F) ℓ)

def reg9 : Pipeline.RegionSeg (pcfgs (F := F)) adm (pdats m) () defs₀ 𝒱₀ L lv 9 :=
  regOf m 9 launch9 (fun c => (body_obligation9 (V32 m) c).loose) (fun _ _ => rfl) (fun _ _ => rfl) (fun _ _ => rfl)
    (W32 m) (W33 m) (fun _ _ => rfl) (hF9 m) (hrest9 m) (hin9 (V32 m)) (hout9 (V32 m))

end Cert.Kernel.Hand

end
-- ==== Proof.HandB.Run.lean ====
import proofs.«419822_j14680198218267_2_alg».proof.Proof.HandB.Reg0
import proofs.«419822_j14680198218267_2_alg».proof.Proof.HandB.Reg1
import proofs.«419822_j14680198218267_2_alg».proof.Proof.HandB.Reg2
import proofs.«419822_j14680198218267_2_alg».proof.Proof.HandB.Reg3
import proofs.«419822_j14680198218267_2_alg».proof.Proof.HandB.Reg4
import proofs.«419822_j14680198218267_2_alg».proof.Proof.HandB.Reg5
import proofs.«419822_j14680198218267_2_alg».proof.Proof.HandB.Reg6
import proofs.«419822_j14680198218267_2_alg».proof.Proof.HandB.Reg7
import proofs.«419822_j14680198218267_2_alg».proof.Proof.HandB.Reg8
import proofs.«419822_j14680198218267_2_alg».proof.Proof.HandB.Reg9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev segs : List (Pipeline.Seg (pcfgs (F := F)) adm (pdats m) () defs₀ 𝒱₀ L lv) :=
  [ .host (hseg hostOps0 hostOps0_sub GenP.hostOps0_fresh (W0 m)),
    .host (hseg hostOps0_1 hostOps0_1_sub GenP.hostOps0_1_fresh (W1 m)),
    .host (hseg hostOps0_2 hostOps0_2_sub GenP.hostOps0_2_fresh (W2 m)),
    .region (reg0 m),
    .host (hseg hostOps1 hostOps1_sub GenP.hostOps1_fresh (W4 m)),
    .region (reg1 m),
    .host (hseg hostOps2 hostOps2_sub GenP.hostOps2_fresh (W6 m)),
    .host (hseg hostOps2_1 hostOps2_1_sub GenP.hostOps2_1_fresh (W7 m)),
    .host (hseg hostOps2_2 hostOps2_2_sub GenP.hostOps2_2_fresh (W8 m)),
    .host (hseg hostOps2_3 hostOps2_3_sub GenP.hostOps2_3_fresh (W9 m)),
    .host (hseg hostOps2_4 hostOps2_4_sub GenP.hostOps2_4_fresh (W10 m)),
    .region (reg2 m),
    .host (hseg hostOps3 hostOps3_sub GenP.hostOps3_fresh (W12 m)),
    .region (reg3 m),
    .host (hseg hostOps4 hostOps4_sub GenP.hostOps4_fresh (W14 m)),
    .region (reg4 m),
    .host (hseg hostOps5 hostOps5_sub GenP.hostOps5_fresh (W16 m)),
    .host (hseg hostOps5_1 hostOps5_1_sub GenP.hostOps5_1_fresh (W17 m)),
    .host (hseg hostOps5_2 hostOps5_2_sub GenP.hostOps5_2_fresh (W18 m)),
    .host (hseg hostOps5_3 hostOps5_3_sub GenP.hostOps5_3_fresh (W19 m)),
    .host (hseg hostOps5_4 hostOps5_4_sub GenP.hostOps5_4_fresh (W20 m)),
    .region (reg5 m),
    .host (hseg hostOps6 hostOps6_sub GenP.hostOps6_fresh (W22 m)),
    .region (reg6 m),
    .host (hseg hostOps7 hostOps7_sub GenP.hostOps7_fresh (W24 m)),
    .region (reg7 m),
    .host (hseg hostOps8 hostOps8_sub GenP.hostOps8_fresh (W26 m)),
    .host (hseg hostOps8_1 hostOps8_1_sub GenP.hostOps8_1_fresh (W27 m)),
    .host (hseg hostOps8_2 hostOps8_2_sub GenP.hostOps8_2_fresh (W28 m)),
    .host (hseg hostOps8_3 hostOps8_3_sub GenP.hostOps8_3_fresh (W29 m)),
    .host (hseg hostOps8_4 hostOps8_4_sub GenP.hostOps8_4_fresh (W30 m)),
    .region (reg8 m),
    .region (reg9 m),
    .host (hseg hostOps10 hostOps10_sub GenP.hostOps10_fresh (W33 m)) ]

theorem main_run (c : Dev nD) : main (F := F) c = Pipeline.Seg.run (segs m) := (main_chain c).trans (by chain_rfl)

set_option backward.isDefEq.respectTransparency.types false in
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W34 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]; iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m c) ∗ R c)) (Tₙ := Tₙ m)
    (hch := by
      repeat refine ⟨fun _ => .rfl, ?_⟩
      exact fun _ => sep_assoc.2)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m c b)
    (hfin := fun c s' => by
      iintro ⟨⟨Hh, -⟩, HSI⟩
      unfold StableHlo.held
      imodintro
      iapply (pointsTo_read_all (Pipeline.ucRefs τ sig) (fun b => (((c : Thread nD τ)).1, b)) (W34 m c) s')
      iframe)
    (hQ := fun s h c => h c)

end Cert.Kernel.Hand

end
-- ==== Proof.HandB.Args.lean ====
import proofs.«419822_j14680198218267_2_alg».proof.Proof.HandB.Chain

noncomputable section

namespace Cert.Kernel.Hand

open Cert.Kernel Cert.Kernel.Gen
open Idealize.ShloMosaic Idealize.ShloMosaic.TcCoe Idealize.SL.Sem

variable {F : FTy → Type} [FloatOps F]

-- B agrees with A at every reference that quiet accepts.
structure Kept (A B : Dev nD → Valuation τ sig (Elt F)) where
  quiet : Ref sig .tc → Bool
  keep : ∀ c (b : Ref sig .tc), quiet b = true → B c b = A c b

namespace Kept

variable {A B C : Dev nD → Valuation τ sig (Elt F)}

-- Agreement composes: a reference accepted by both holds at the end what it held at the start.
def trans (h : Kept A B) (k : Kept B C) : Kept A C :=
  ⟨fun b => h.quiet b && k.quiet b, fun c b hb =>
    (k.keep c b (Bool.and_eq_true_iff.mp hb).2).trans (h.keep c b (Bool.and_eq_true_iff.mp hb).1)⟩

-- After a stretch of host operations every reference outside its write list holds what it held before.
def host {S : List (Ref sig .tc)} (hs : ∀ c (r : Ref sig .tc), r ∉ S → B c r = A c r) : Kept A B :=
  ⟨fun b => decide (b ∉ S), fun c b hb => hs c b (of_decide_eq_true hb)⟩

-- After a kernel region every reference that is not one of its output arrays holds what it held before.
def region {W : ℕ} (ar : Fin W → Ref sig .tc) (out : Fin W → Bool)
    (hin : ∀ c w, out w = false → B c (ar w) = A c (ar w))
    (hne : ∀ c (b : Ref sig .tc), (∀ w, ar w ≠ b) → B c b = A c b) : Kept A B :=
  ⟨fun b => decide (∀ w, ar w = b → out w = false), fun c b hb => by
    have hq : ∀ w, ar w = b → out w = false := of_decide_eq_true hb
    by_cases h : ∃ w, ar w = b
    · obtain ⟨w, rfl⟩ := h
      exact hin c w (hq w rfl)
    · exact hne c b fun w e => h ⟨w, e⟩⟩

end Kept

variable (m : (ℓ : Loc nD τ sig) → Buf (Elt F) ℓ)

def item1 : Kept (W0 m) (W1 m) := .host (W1_keep m)
def item2 : Kept (W1 m) (W2 m) := .host (W2_keep m)
def item3 : Kept (W2 m) (W3 m) := .host (W3_keep m)
def item4 : Kept (W3 m) (W4 m) :=
  .region (Pipeline.arrRef spec0) (fun w => (cfg0.win w).isOut)
    (fun c w h => (W4_arr m c w).trans ((dat0 (V3 m) c).arrAt_in w h _)) (W4_of_ne m)
def item5 : Kept (W4 m) (W5 m) := .host (W5_keep m)
def item6 : Kept (W5 m) (W6 m) :=
  .region (Pipeline.arrRef spec1) (fun w => (cfg1.win w).isOut)
    (fun c w h => (W6_arr m c w).trans ((dat1 (V5 m) c).arrAt_in w h _)) (W6_of_ne m)
def item7 : Kept (W6 m) (W7 m) := .host (W7_keep m)
def item8 : Kept (W7 m) (W8 m) := .host (W8_keep m)
def item9 : Kept (W8 m) (W9 m) := .host (W9_keep m)
def item10 : Kept (W9 m) (W10 m) := .host (W10_keep m)
def item11 : Kept (W10 m) (W11 m) := .host (W11_keep m)
def item12 : Kept (W11 m) (W12 m) :=
  .region (Pipeline.arrRef spec2) (fun w => (cfg2.win w).isOut)
    (fun c w h => (W12_arr m c w).trans ((dat2 (V11 m) c).arrAt_in w h _)) (W12_of_ne m)
def item13 : Kept (W12 m) (W13 m) := .host (W13_keep m)
def item14 : Kept (W13 m) (W14 m) :=
  .region (Pipeline.arrRef spec3) (fun w => (cfg3.win w).isOut)
    (fun c w h => (W14_arr m c w).trans ((dat3 (V13 m) c).arrAt_in w h _)) (W14_of_ne m)
def item15 : Kept (W14 m) (W15 m) := .host (W15_keep m)
def item16 : Kept (W15 m) (W16 m) :=
  .region (Pipeline.arrRef spec4) (fun w => (cfg4.win w).isOut)
    (fun c w h => (W16_arr m c w).trans ((dat4 (V15 m) c).arrAt_in w h _)) (W16_of_ne m)
def item17 : Kept (W16 m) (W17 m) := .host (W17_keep m)
def item18 : Kept (W17 m) (W18 m) := .host (W18_keep m)
def item19 : Kept (W18 m) (W19 m) := .host (W19_keep m)
def item20 : Kept (W19 m) (W20 m) := .host (W20_keep m)
def item21 : Kept (W20 m) (W21 m) := .host (W21_keep m)
def item22 : Kept (W21 m) (W22 m) :=
  .region (Pipeline.arrRef spec5) (fun w => (cfg5.win w).isOut)
    (fun c w h => (W22_arr m c w).trans ((dat5 (V21 m) c).arrAt_in w h _)) (W22_of_ne m)
def item23 : Kept (W22 m) (W23 m) := .host (W23_keep m)
def item24 : Kept (W23 m) (W24 m) :=
  .region (Pipeline.arrRef spec6) (fun w => (cfg6.win w).isOut)
    (fun c w h => (W24_arr m c w).trans ((dat6 (V23 m) c).arrAt_in w h _)) (W24_of_ne m)
def item25 : Kept (W24 m) (W25 m) := .host (W25_keep m)
def item26 : Kept (W25 m) (W26 m) :=
  .region (Pipeline.arrRef spec7) (fun w => (cfg7.win w).isOut)
    (fun c w h => (W26_arr m c w).trans ((dat7 (V25 m) c).arrAt_in w h _)) (W26_of_ne m)
def item27 : Kept (W26 m) (W27 m) := .host (W27_keep m)
def item28 : Kept (W27 m) (W28 m) := .host (W28_keep m)
def item29 : Kept (W28 m) (W29 m) := .host (W29_keep m)
def item30 : Kept (W29 m) (W30 m) := .host (W30_keep m)
def item31 : Kept (W30 m) (W31 m) := .host (W31_keep m)
def item32 : Kept (W31 m) (W32 m) :=
  .region (Pipeline.arrRef spec8) (fun w => (cfg8.win w).isOut)
    (fun c w h => (W32_arr m c w).trans ((dat8 (V31 m) c).arrAt_in w h _)) (W32_of_ne m)
def item33 : Kept (W32 m) (W33 m) :=
  .region (Pipeline.arrRef spec9) (fun w => (cfg9.win w).isOut)
    (fun c w h => (W33_arr m c w).trans ((dat9 (V32 m) c).arrAt_in w h _)) (W33_of_ne m)
def item34 : Kept (W33 m) (W34 m) := .host (W34_keep m)

def upto2 : Kept (W0 m) (W2 m) := (item1 m).trans (item2 m)
def upto6 : Kept (W0 m) (W6 m) := ((((upto2 m).trans (item3 m)).trans (item4 m)).trans (item5 m)).trans (item6 m)
def upto10 : Kept (W0 m) (W10 m) := ((((upto6 m).trans (item7 m)).trans (item8 m)).trans (item9 m)).trans (item10 m)
def upto12 : Kept (W0 m) (W12 m) := ((upto10 m).trans (item11 m)).trans (item12 m)
def upto16 : Kept (W0 m) (W16 m) := ((((upto12 m).trans (item13 m)).trans (item14 m)).trans (item15 m)).trans (item16 m)
def upto20 : Kept (W0 m) (W20 m) := ((((upto16 m).trans (item17 m)).trans (item18 m)).trans (item19 m)).trans (item20 m)
def upto22 : Kept (W0 m) (W22 m) := ((upto20 m).trans (item21 m)).trans (item22 m)
def upto26 : Kept (W0 m) (W26 m) := ((((upto22 m).trans (item23 m)).trans (item24 m)).trans (item25 m)).trans (item26 m)
def upto30 : Kept (W0 m) (W30 m) := ((((upto26 m).trans (item27 m)).trans (item28 m)).trans (item29 m)).trans (item30 m)
def upto34 : Kept (W0 m) (W34 m) := ((((upto30 m).trans (item31 m)).trans (item32 m)).trans (item33 m)).trans (item34 m)

theorem W34_main_arg0 (c : Dev nD) : W34 m c (Proc.devRef .tc main_arg0) = m ((c : Thread nD τ).loc main_arg0) :=
  (upto34 m).keep c main_arg0 rfl
theorem W34_main_arg1 (c : Dev nD) : W34 m c (Proc.devRef .tc main_arg1) = m ((c : Thread nD τ).loc main_arg1) :=
  (upto34 m).keep c main_arg1 rfl
theorem W34_main_arg2 (c : Dev nD) : W34 m c (Proc.devRef .tc main_arg2) = m ((c : Thread nD τ).loc main_arg2) :=
  (upto34 m).keep c main_arg2 rfl
theorem W34_main_arg3 (c : Dev nD) : W34 m c (Proc.devRef .tc main_arg3) = m ((c : Thread nD τ).loc main_arg3) :=
  (upto34 m).keep c main_arg3 rfl
theorem W34_main_arg4 (c : Dev nD) : W34 m c (Proc.devRef .tc main_arg4) = m ((c : Thread nD τ).loc main_arg4) :=
  (upto34 m).keep c main_arg4 rfl
theorem W34_main_arg5 (c : Dev nD) : W34 m c (Proc.devRef .tc main_arg5) = m ((c : Thread nD τ).loc main_arg5) :=
  (upto34 m).keep c main_arg5 rfl
theorem W34_main_arg6 (c : Dev nD) : W34 m c (Proc.devRef .tc main_arg6) = m ((c : Thread nD τ).loc main_arg6) :=
  (upto34 m).keep c main_arg6 rfl
theorem W34_main_arg7 (c : Dev nD) : W34 m c (Proc.devRef .tc main_arg7) = m ((c : Thread nD τ).loc main_arg7) :=
  (upto34 m).keep c main_arg7 rfl

end Cert.Kernel.Hand

end
-- ==== Proof.HandB.Frame.lean ====
import proofs.«419822_j14680198218267_2_alg».proof.Proof.HandB.Run
import proofs.«419822_j14680198218267_2_alg».proof.Proof.HandB.Args

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem run_result (ρ : Dev nD → PrngReg) : θ_run defs (onTc (τ := τ) (main (F := F))) ⟨m, fun _ => 0, ρ⟩ (fun r => ∀ c : Dev nD,
      r.2.mem ((c.tc : Thread nD τ).loc main_v168) = W34 m c (Proc.devRef .tc main_v168)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v168 (by decide)),
    (h c _ (mem_uc main_arg0 (by decide))).trans (W34_main_arg0 m c),
    (h c _ (mem_uc main_arg1 (by decide))).trans (W34_main_arg1 m c),
    (h c _ (mem_uc main_arg2 (by decide))).trans (W34_main_arg2 m c),
    (h c _ (mem_uc main_arg3 (by decide))).trans (W34_main_arg3 m c),
    (h c _ (mem_uc main_arg4 (by decide))).trans (W34_main_arg4 m c),
    (h c _ (mem_uc main_arg5 (by decide))).trans (W34_main_arg5 m c),
    (h c _ (mem_uc main_arg6 (by decide))).trans (W34_main_arg6 m c),
    (h c _ (mem_uc main_arg7 (by decide))).trans (W34_main_arg7 m c)⟩) (run m ρ)

end Cert.Kernel.Hand

end
-- ==== Proof.LibGatherScatter.lean ====
import Idealize.ShloMosaic.Lib.ValueIdx
import Idealize.ShloMosaic.Lib.StableHlo.Predicate
import Idealize.ShloMosaic.PureOps.Contract

noncomputable section

namespace Cert.LibGS

open Idealize.ShloMosaic Idealize.ShloMosaic.ValueIdx
open scoped BigOperators

def wrapRow (R : ℕ) (w : BitVec 32) : BitVec 32 := if w.toInt < 0 then w + BitVec.ofNat 32 R else w

def clampRow (R : ℕ) (hR : 0 < R) (w : BitVec 32) : Fin R := ⟨min w.toInt.toNat (R - 1), by omega⟩

def landRow (R : ℕ) (w : BitVec 32) : Option (Fin R) :=
  if h : 0 ≤ w.toInt ∧ w.toInt < R then some ⟨w.toInt.toNat, by omega⟩ else none

theorem wrapRow_eq_select (R : ℕ) (w : BitVec 32) :
    Scalar.select (IntOp.cmpi .slt w 0#32) (IntOp.addi w (BitVec.ofNat 32 R)) w = wrapRow R w := by
  unfold Scalar.select IntOp.cmpi IntOp.addi wrapRow
  by_cases h : w.toInt < 0
  · have hs : w.slt 0#32 = true := by simp [BitVec.slt, h]
    simp [hs, h]
  · have hs : w.slt 0#32 = false := by simp [BitVec.slt, h]
    simp [hs, h]

theorem landRow_eq_some_iff {R : ℕ} (w : BitVec 32) (n : Fin R) : landRow R w = some n ↔ w.toInt = (n.val : ℤ) := by
  have hn := n.isLt
  unfold landRow
  split
  · rename_i h
    simp only [Option.some.injEq]
    constructor
    · intro e; rw [← e]; show w.toInt = ((w.toInt.toNat : ℕ) : ℤ); omega
    · intro e; apply Fin.ext; show w.toInt.toNat = n.val; omega
  · rename_i h
    constructor
    · intro e; cases e
    · intro e; exfalso; apply h; omega

theorem land_wrap_clamp {R : ℕ} (hR : 0 < R) (hR' : R < 2^31) (w : BitVec 32) (n : Fin R) :
    landRow R w = some n → clampRow R hR (wrapRow R w) = n := by
  intro h
  have hw := (landRow_eq_some_iff w n).1 h
  have hn := n.isLt
  have h0 : ¬ w.toInt < 0 := by omega
  apply Fin.ext
  show min (wrapRow R w).toInt.toNat (R - 1) = n.val
  unfold wrapRow
  rw [if_neg h0]
  omega

theorem ofFin_eq_ix1 {n : ℕ} (p : Fin n) : Shape.Idx.ofFin p = ix1 p := by
  funext a
  obtain rfl : a = 0 := Subsingleton.elim _ _
  exact Fin.ext rfl

theorem ixP_eq_ix2 {n : ℕ} (p : Fin n) : StableHlo.Predicate.ixP p = ix2 p (0 : Fin 1) := by
  funext a
  match a with
  | ⟨0, _⟩ => rfl
  | ⟨1, _⟩ => rfl

theorem fin2_cases : ∀ a : Fin 2, a = 0 ∨ a = 1 := by decide

theorem gather_vec {α : Type} {R n : ℕ} (d : GatherDims ⟨1, ![R]⟩ ⟨2, ![n, 1]⟩ ⟨1, ![n]⟩)
    (hcoll : d.collapsedSliceDims = [0]) (hob : d.operandBatchingDims = [])
    (hsim : d.startIndexMap = [0]) (hivd : d.indexVectorDim = 1) (hR : 0 < R)
    (x : (⟨1, ![R]⟩ : Shape).Idx → α) (idx : IVec ⟨2, ![n, 1]⟩ 32) (e : Fin n) :
    Host.gather d x idx (ix1 e) = x (ix1 (clampRow R hR (idx (ix2 e 0)))) := by
  have h := StableHlo.Predicate.gather_take d hcoll hob hsim hivd x idx e hR
  simp only [ofFin_eq_ix1, ixP_eq_ix2] at h
  exact h

theorem gather_row {α : Type} {R C n : ℕ} (d : GatherDims ⟨2, ![R, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![n, 1]⟩ 32) (e : Fin n) (k : Fin C) :
    Host.gather d x idx (ix2 e k) = x (ix2 (clampRow R hR (idx (ix2 e 0))) k) := by
  obtain ⟨od, cd, ob, sb, sm, iv, ss, wf⟩ := d
  dsimp only at hoff hcoll hob hsim hivd
  subst hoff hcoll hob hsim hivd
  have hsl : ss 0 = 1 := wf.2.2.2.2.2.2.2.2.2.2.2.1 0 (List.mem_singleton.mpr rfl)
  have hm0 : (0 : Fin 2) ∈ ([0] : List (Fin 2)) := List.mem_singleton.mpr rfl
  have hm1 : (1 : Fin 2) ∉ ([0] : List (Fin 2)) := by decide
  unfold Host.gather
  congr 1
  funext a
  refine Fin.ext ?_
  rcases fin2_cases a with rfl | rfl
  · show GatherDims.start _ (ix2 e k) idx 0 + GatherDims.batchCoord _ (ix2 e k) 0 + GatherDims.offCoord _ (ix2 e k) 0
      = min (idx (ix2 e 0)).toInt.toNat (R - 1)
    rw [GatherDims.batchCoord_eq_zero _ _ _ List.not_mem_nil,
      GatherDims.offCoord_eq_zero _ _ _ (fun h => ((GatherDims.mem_sKept _ _).mp h).1 hm0)]
    simp only [Nat.add_zero]
    unfold GatherDims.start
    rw [dif_pos hm0]
    show min (idx _).toInt.toNat (R - ss 0) = min (idx (ix2 e 0)).toInt.toNat (R - 1)
    rw [hsl]
    refine congrArg (fun j => min (idx j).toInt.toNat (R - 1)) ?_
    funext b
    refine Fin.ext ?_
    rcases fin2_cases b with rfl | rfl
    · rfl
    · rfl
  · show GatherDims.start _ (ix2 e k) idx 1 + GatherDims.batchCoord _ (ix2 e k) 1 + GatherDims.offCoord _ (ix2 e k) 1
      = k.val
    rw [GatherDims.batchCoord_eq_zero _ _ _ List.not_mem_nil]
    unfold GatherDims.start
    rw [dif_neg hm1]
    unfold GatherDims.offCoord
    rw [dif_pos ((GatherDims.mem_sKept _ _).2 ⟨hm1, List.not_mem_nil⟩)]
    simp only [Nat.zero_add, Nat.add_zero]
    rfl

theorem resultIdx_row {R C n : ℕ} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ 32) (e : Fin n) (k : Fin C) :
    d.resultIdx? (ix2 e k) idx = (landRow R (idx (ix2 e 0))).map (fun r => ix2 r k) := by
  obtain ⟨uw, iw, sd, iv, wf⟩ := d
  dsimp only at huw hiw hsd hivd
  subst huw hiw hsd hivd
  have hm0 : (0 : Fin 2) ∈ ([0] : List (Fin 2)) := List.mem_singleton.mpr rfl
  have hm1 : (1 : Fin 2) ∉ ([0] : List (Fin 2)) := by decide
  generalize hd : (⟨[1], [0], [0], 1, wf⟩ : ScatterDims ⟨2, ![R, C]⟩ ⟨2, ![n, 1]⟩ ⟨2, ![n, C]⟩) = d
  have hs0 : d.start (ix2 e k) idx 0 = (idx (ix2 e 0)).toInt := by
    subst hd
    unfold ScatterDims.start
    rw [dif_pos hm0]
    refine congrArg (fun j => (idx j).toInt) ?_
    funext b
    refine Fin.ext ?_
    rcases fin2_cases b with rfl | rfl
    · rfl
    · rfl
  have hs1 : d.start (ix2 e k) idx 1 = 0 := by
    subst hd
    unfold ScatterDims.start
    rw [dif_neg hm1]
  have hw0 : d.window (ix2 e k) 0 = 0 := by
    subst hd
    unfold ScatterDims.window
    rw [dif_neg (by simp [ScatterDims.sKept, Shape.kept])]
  have hw1 : d.window (ix2 e k) 1 = k.val := by
    subst hd
    unfold ScatterDims.window
    rw [dif_pos (by simp [ScatterDims.sKept, Shape.kept])]
    rfl
  unfold ScatterDims.resultIdx? landRow
  by_cases h : 0 ≤ (idx (ix2 e 0)).toInt ∧ (idx (ix2 e 0)).toInt < R
  · have hall : ∀ a : Fin 2, 0 ≤ d.start (ix2 e k) idx a + d.window (ix2 e k) a ∧
        d.start (ix2 e k) idx a + d.window (ix2 e k) a < (![R, C] a : ℕ) := by
      intro a
      rcases fin2_cases a with rfl | rfl
      · rw [hs0, hw0]; simpa using h
      · rw [hs1, hw1]; simp
    rw [dif_pos h, dif_pos hall]
    simp only [Option.map_some]
    congr 1
    funext a
    refine Fin.ext ?_
    rcases fin2_cases a with rfl | rfl
    · show (d.start (ix2 e k) idx 0 + d.window (ix2 e k) 0).toNat = (idx (ix2 e 0)).toInt.toNat
      rw [hs0, hw0]; simp
    · show (d.start (ix2 e k) idx 1 + d.window (ix2 e k) 1).toNat = k.val
      rw [hs1, hw1]; simp
  · rw [dif_neg h, dif_neg (fun hall => h (by have := hall 0; rw [hs0, hw0] at this; simpa using this))]
    rfl

theorem scatterAdd_row {φ : FTy} {R C n : ℕ} (d : ScatterDims ⟨2, ![R, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : FVec Ideal ⟨2, ![R, C]⟩ φ) (idx : IVec ⟨2, ![n, 1]⟩ 32) (upd : FVec Ideal ⟨2, ![n, C]⟩ φ) (r : Fin R) (k : Fin C) :
    Host.scatterAdd (F := Ideal) d x idx upd (ix2 r k)
      = x (ix2 r k) + ∑ e ∈ Finset.univ.filter (fun e : Fin n => landRow R (idx (ix2 e 0)) = some r), upd (ix2 e k) := by
  have hmem : ∀ j : (⟨2, ![n, C]⟩ : Shape).Idx, d.resultIdx? j idx = some (ix2 r k) ↔
      landRow R (idx (ix2 (j 0) 0)) = some r ∧ j 1 = k := by
    intro j
    obtain ⟨a, b, rfl⟩ : ∃ (a : Fin n) (b : Fin C), j = ix2 a b := ⟨j 0, j 1, eq_ix2 j⟩
    rw [resultIdx_row d huw hiw hsd hivd idx a b]
    show Option.map (fun r => ix2 r b) (landRow R (idx (ix2 a 0))) = some (ix2 r k) ↔
      landRow R (idx (ix2 a 0)) = some r ∧ b = k
    cases landRow R (idx (ix2 a 0)) with
    | none => simp
    | some r' =>
      simp only [Option.map_some, Option.some.injEq]
      constructor
      · intro h
        exact ⟨congrFun h 0, congrFun h 1⟩
      · rintro ⟨rfl, rfl⟩; rfl
  show Ideal.hostScatterAdd d x idx upd (ix2 r k) = _
  unfold Ideal.hostScatterAdd
  congr 1
  refine Finset.sum_bij' (fun j _ => (j 0 : Fin n)) (fun e _ => ix2 e k) ?_ ?_ ?_ ?_ ?_
  · intro j hj
    exact Finset.mem_filter.2 ⟨Finset.mem_univ _, ((hmem j).1 (Finset.mem_filter.1 hj).2).1⟩
  · intro e he
    exact Finset.mem_filter.2 ⟨Finset.mem_univ _, (hmem (ix2 e k)).2 ⟨(Finset.mem_filter.1 he).2, rfl⟩⟩
  · intro j hj
    have hk : j 1 = k := ((hmem j).1 (Finset.mem_filter.1 hj).2).2
    rw [← hk]
    exact (eq_ix2 j).symm
  · intro e he
    rfl
  · intro j hj
    have hk : j 1 = k := ((hmem j).1 (Finset.mem_filter.1 hj).2).2
    rw [← hk]
    exact congrArg upd (eq_ix2 j)

theorem resultIdx_vec {R n : ℕ} (d : ScatterDims ⟨1, ![R]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ 32) (e : Fin n) :
    d.resultIdx? (ix1 e) idx = (landRow R (idx (ix2 e 0))).map (fun r => ix1 r) := by
  obtain ⟨uw, iw, sd, iv, wf⟩ := d
  dsimp only at huw hiw hsd hivd
  subst huw hiw hsd hivd
  have hm0 : (0 : Fin 1) ∈ ([0] : List (Fin 1)) := List.mem_singleton.mpr rfl
  generalize hd : (⟨[], [0], [0], 1, wf⟩ : ScatterDims ⟨1, ![R]⟩ ⟨2, ![n, 1]⟩ ⟨1, ![n]⟩) = d
  have hs0 : d.start (ix1 e) idx 0 = (idx (ix2 e 0)).toInt := by
    subst hd
    unfold ScatterDims.start
    rw [dif_pos hm0]
    refine congrArg (fun j => (idx j).toInt) ?_
    funext b
    refine Fin.ext ?_
    rcases fin2_cases b with rfl | rfl
    · rfl
    · rfl
  have hw0 : d.window (ix1 e) 0 = 0 := by
    subst hd
    unfold ScatterDims.window
    rw [dif_neg (by simp [ScatterDims.sKept, Shape.kept])]
  unfold ScatterDims.resultIdx? landRow
  by_cases h : 0 ≤ (idx (ix2 e 0)).toInt ∧ (idx (ix2 e 0)).toInt < R
  · have hall : ∀ a : Fin 1, 0 ≤ d.start (ix1 e) idx a + d.window (ix1 e) a ∧
        d.start (ix1 e) idx a + d.window (ix1 e) a < (![R] a : ℕ) := by
      intro a
      obtain rfl : a = 0 := Subsingleton.elim _ _
      rw [hs0, hw0]; simpa using h
    rw [dif_pos h, dif_pos hall]
    simp only [Option.map_some]
    congr 1
    funext a
    refine Fin.ext ?_
    obtain rfl : a = 0 := Subsingleton.elim _ _
    show (d.start (ix1 e) idx 0 + d.window (ix1 e) 0).toNat = (idx (ix2 e 0)).toInt.toNat
    rw [hs0, hw0]; simp
  · rw [dif_neg h, dif_neg (fun hall => h (by have := hall 0; rw [hs0, hw0] at this; simpa using this))]
    rfl

theorem scatterAdd_vec {φ : FTy} {R n : ℕ} (d : ScatterDims ⟨1, ![R]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![R]⟩ φ) (idx : IVec ⟨2, ![n, 1]⟩ 32) (upd : FVec Ideal ⟨1, ![n]⟩ φ) (r : Fin R) :
    Host.scatterAdd (F := Ideal) d x idx upd (ix1 r)
      = x (ix1 r) + ∑ e ∈ Finset.univ.filter (fun e : Fin n => landRow R (idx (ix2 e 0)) = some r), upd (ix1 e) := by
  have hmem : ∀ j : (⟨1, ![n]⟩ : Shape).Idx, d.resultIdx? j idx = some (ix1 r) ↔
      landRow R (idx (ix2 (j 0) 0)) = some r := by
    intro j
    obtain ⟨a, rfl⟩ : ∃ (a : Fin n), j = ix1 a := ⟨j 0, eq_ix1 j⟩
    rw [resultIdx_vec d huw hiw hsd hivd idx a]
    show Option.map (fun r => ix1 r) (landRow R (idx (ix2 a 0))) = some (ix1 r) ↔ landRow R (idx (ix2 a 0)) = some r
    cases landRow R (idx (ix2 a 0)) with
    | none => simp
    | some r' =>
      simp only [Option.map_some, Option.some.injEq]
      constructor
      · intro h
        exact congrFun h 0
      · rintro rfl; rfl
  show Ideal.hostScatterAdd d x idx upd (ix1 r) = _
  unfold Ideal.hostScatterAdd
  congr 1
  refine Finset.sum_bij' (fun j _ => (j 0 : Fin n)) (fun e _ => ix1 e) ?_ ?_ ?_ ?_ ?_
  · intro j hj
    exact Finset.mem_filter.2 ⟨Finset.mem_univ _, (hmem j).1 (Finset.mem_filter.1 hj).2⟩
  · intro e he
    exact Finset.mem_filter.2 ⟨Finset.mem_univ _, (hmem (ix1 e)).2 (Finset.mem_filter.1 he).2⟩
  · intro j hj
    exact (eq_ix1 j).symm
  · intro e he
    rfl
  · intro j hj
    exact congrArg upd (eq_ix1 j)

end Cert.LibGS

end
-- ==== Proof.Math.Spec.lean ====
import Idealize.ShloMosaic.PureOps.Ideal

noncomputable section

namespace Cert.GcnSpec

open Idealize.ShloMosaic
open scoped BigOperators

structure Graph (N G E : Type) where
  src : E → N
  tgtC : E → N
  tgt : E → Option N
  bt : N → G
  tgt_eq : ∀ e v, tgt e = some v → tgtC e = v

variable {N D G E : Type} [Fintype N] [Fintype D] [Fintype G] [Fintype E] [DecidableEq N] [DecidableEq G]

structure Params (D : Type) where
  W : D → D → EReal
  b : D → EReal
  γ : D → EReal
  β : D → EReal
  α : D → EReal

variable (gr : Graph N G E)

def deg (n : N) : EReal := ∑ _e ∈ Finset.univ.filter (fun e => gr.tgt e = some n), (1 : EReal)

def dinv (n : N) : EReal := Ideal.rsqrt (if 0 < deg gr n then deg gr n else 1)

def cnt (g : G) : EReal := max (∑ _n ∈ Finset.univ.filter (fun n => gr.bt n = g), (1 : EReal)) 1

def lin (W : D → D → EReal) (x : N → D → EReal) (n : N) (k : D) : EReal := ∑ j, x n j * W j k

def segSum (f : N → D → EReal) (g : G) (k : D) : EReal := ∑ n ∈ Finset.univ.filter (fun n => gr.bt n = g), f n k

def segMean (f : N → D → EReal) (g : G) (k : D) : EReal := Ideal.div (segSum gr f g k) (cnt gr g)

def aggR (p : Params D) (x : N → D → EReal) (n : N) (k : D) : EReal :=
  (∑ e ∈ Finset.univ.filter (fun e => gr.tgt e = some n), lin p.W x (gr.src e) k * (dinv gr (gr.src e) * dinv gr (gr.tgtC e))) + p.b k

def aggK (p : Params D) (x : N → D → EReal) (n : N) (k : D) : EReal :=
  (∑ e ∈ Finset.univ.filter (fun e => gr.tgt e = some n), lin p.W x (gr.src e) k * dinv gr (gr.src e)) * dinv gr n + p.b k

def centred (p : Params D) (a : N → D → EReal) (n : N) (k : D) : EReal := a n k - p.α k * segMean gr a (gr.bt n) k

def varR (p : Params D) (a : N → D → EReal) (g : G) (k : D) : EReal :=
  segMean gr (fun n k => centred gr p a n k * centred gr p a n k) g k

def varK (two : EReal) (p : Params D) (a : N → D → EReal) (g : G) (k : D) : EReal :=
  segMean gr (fun n k => a n k * a n k) g k - p.α k * (two - p.α k) * segMean gr a g k * segMean gr a g k

def finish (eps : EReal) (p : Params D) (a : N → D → EReal) (v : G → D → EReal) (x : N → D → EReal) (n : N) (k : D) : EReal :=
  max (p.γ k * centred gr p a n k * Ideal.rsqrt (v (gr.bt n) k + eps) + p.β k) 0 + x n k

def layerR (eps : EReal) (p : Params D) (x : N → D → EReal) : N → D → EReal :=
  finish gr eps p (aggR gr p x) (varR gr p (aggR gr p x)) x

def layerK (eps two : EReal) (p : Params D) (x : N → D → EReal) : N → D → EReal :=
  finish gr eps p (aggK gr p x) (varK gr two p (aggK gr p x)) x

def resultR (eps : EReal) (p0 p1 p2 : Params D) (x : N → D → EReal) : G → D → EReal :=
  segMean gr (layerR gr eps p2 (layerR gr eps p1 (layerR gr eps p0 x)))

def resultK (eps two : EReal) (p0 p1 p2 : Params D) (x : N → D → EReal) : G → D → EReal :=
  segMean gr (layerK gr eps two p2 (layerK gr eps two p1 (layerK gr eps two p0 x)))

def Fin2 {A B : Type} (f : A → B → EReal) : Prop := ∀ a b, ∃ r : ℝ, f a b = (r : EReal)
def Fin1 {A : Type} (f : A → EReal) : Prop := ∀ a, ∃ r : ℝ, f a = (r : EReal)

structure Params.Finite (p : Params D) : Prop where
  W : Fin2 p.W
  b : Fin1 p.b
  γ : Fin1 p.γ
  β : Fin1 p.β
  α : Fin1 p.α

end Cert.GcnSpec

end
-- ==== Proof.Hand.GraphOf.lean ====
import proofs.«419822_j14680198218267_2_alg».proof.Proof.LibGatherScatter
import proofs.«419822_j14680198218267_2_alg».proof.Proof.Math.Spec
import Idealize.ShloMosaic.Lib.Pipeline.Value
import Idealize.ShloMosaic.Lib.ValueLayout
import Idealize.ShloMosaic.Lib.IdealHost

noncomputable section

namespace Cert.GcnSpec

open Idealize.ShloMosaic Idealize.ShloMosaic.ValueIdx Cert.LibGS

def graphOf (sv tv : IVec ⟨1, ![1649454]⟩ 32) (bv : IVec ⟨1, ![50000]⟩ 32)
    (hb : ∀ n : Fin 50000, 0 ≤ (bv (ix1 n)).toInt ∧ (bv (ix1 n)).toInt < 64) : Graph (Fin 50000) (Fin 64) (Fin 1649454) where
  src e := clampRow 50000 (by omega) (wrapRow 50000 (sv (ix1 e)))
  tgtC e := clampRow 50000 (by omega) (wrapRow 50000 (tv (ix1 e)))
  tgt e := landRow 50000 (tv (ix1 e))
  bt n := ⟨(bv (ix1 n)).toInt.toNat, by have := hb n; omega⟩
  tgt_eq e v h := land_wrap_clamp (by omega) (by omega) _ _ h

section Facts
variable (sv tv : IVec ⟨1, ![1649454]⟩ 32) (bv : IVec ⟨1, ![50000]⟩ 32)
  (hb : ∀ n : Fin 50000, 0 ≤ (bv (ix1 n)).toInt ∧ (bv (ix1 n)).toInt < 64)

theorem graphOf_land_bt (n : Fin 50000) : landRow 64 (bv (ix1 n)) = some ((graphOf sv tv bv hb).bt n) := by
  rw [landRow_eq_some_iff]
  show (bv (ix1 n)).toInt = (((bv (ix1 n)).toInt.toNat : ℕ) : ℤ)
  have := hb n
  omega

theorem graphOf_clamp_bt (n : Fin 50000) :
    clampRow 64 (by omega) (wrapRow 64 (bv (ix1 n))) = (graphOf sv tv bv hb).bt n :=
  land_wrap_clamp (by omega) (by omega) _ _ (graphOf_land_bt sv tv bv hb n)

end Facts

def rowOf (c : Fin 2) (ei : IVec ⟨2, ![2, 1599454]⟩ 32) : IVec ⟨1, ![1649454]⟩ 32 := fun j =>
  if h : (j 0).val < 1599454 then ei (ix2 c (⟨(j 0).val, h⟩ : Fin 1599454)) else BitVec.ofNat 32 ((j 0).val - 1599454)

def svOf (ei : IVec ⟨2, ![2, 1599454]⟩ 32) : IVec ⟨1, ![1649454]⟩ 32 := rowOf 0 ei

def tvOf (ei : IVec ⟨2, ![2, 1599454]⟩ 32) : IVec ⟨1, ![1649454]⟩ 32 := rowOf 1 ei

theorem slice_row_flat_apply (c : Fin 2) (ei : IVec ⟨2, ![2, 1599454]⟩ 32)
    (hsl : (⟨2, ![2, 1599454]⟩ : Shape).Slices ![c.val, 0] ⟨2, ![1, 1599454]⟩)
    (hsc : (⟨2, ![1, 1599454]⟩ : Shape).ShapeCasts ⟨1, ![1599454]⟩) (i : Fin 1599454) :
    shapeCast ⟨1, ![1599454]⟩ (extractStridedSlice ⟨2, ![1, 1599454]⟩ ![c.val, 0] ei hsl) hsc (ix1 i) = ei (ix2 c i) := by
  rw [shapeCast_1a_a_apply]
  refine extractStridedSlice_apply _ ei hsl _ _ (fun a => ?_)
  rcases fin2_cases a with rfl | rfl
  · show c.val = c.val + 0
    rfl
  · show i.val = 0 + i.val
    rw [Nat.zero_add]

theorem concat_iota_apply (a : IVec ⟨1, ![1599454]⟩ 32)
    (hcat : Shape.Concatenates [⟨1, ![1599454]⟩, ⟨1, ![50000]⟩] ⟨1, ![1649454]⟩ 0) (e : Fin 1649454) :
    concatenate ⟨1, ![1649454]⟩ 0 [⟨⟨1, ![1599454]⟩, a⟩, ⟨⟨1, ![50000]⟩, iotaInDim ⟨1, ![50000]⟩ 32 0⟩] hcat (ix1 e)
      = if h : e.val < 1599454 then a (ix1 (⟨e.val, h⟩ : Fin 1599454)) else BitVec.ofNat 32 (e.val - 1599454) := by
  have he := e.isLt
  by_cases h : e.val < 1599454
  · rw [dif_pos h]
    exact concatenate_pair_apply_left (t := ⟨1, ![1649454]⟩) (s₁ := ⟨1, ![1599454]⟩) (s₂ := ⟨1, ![50000]⟩) (0 : Fin 1) _ _ hcat
      (ix1 e) rfl (ix1 (⟨e.val, h⟩ : Fin 1599454)) (fun b => by obtain rfl : b = 0 := Subsingleton.elim _ _; rfl)
  · rw [dif_neg h]
    have h2 : e.val - 1599454 < 50000 := by omega
    rw [concatenate_pair_apply_right (t := ⟨1, ![1649454]⟩) (s₁ := ⟨1, ![1599454]⟩) (s₂ := ⟨1, ![50000]⟩) (0 : Fin 1) _ _ hcat
      (ix1 e) rfl rfl (ix1 (⟨e.val - 1599454, h2⟩ : Fin 50000))
      (fun b hb => absurd (Subsingleton.elim _ _) hb)
      (by show e.val - 1599454 + 1599454 = e.val; omega)]
    rfl

-- Row c of the pair list followed by the node numbers is rowOf c, entry by entry.
theorem concat_row_eq_rowOf (c : Fin 2) (ei : IVec ⟨2, ![2, 1599454]⟩ 32)
    (hsl : (⟨2, ![2, 1599454]⟩ : Shape).Slices ![c.val, 0] ⟨2, ![1, 1599454]⟩)
    (hsc : (⟨2, ![1, 1599454]⟩ : Shape).ShapeCasts ⟨1, ![1599454]⟩)
    (hcat : Shape.Concatenates [⟨1, ![1599454]⟩, ⟨1, ![50000]⟩] ⟨1, ![1649454]⟩ 0) :
    concatenate ⟨1, ![1649454]⟩ 0
        [⟨⟨1, ![1599454]⟩, shapeCast ⟨1, ![1599454]⟩ (extractStridedSlice ⟨2, ![1, 1599454]⟩ ![c.val, 0] ei hsl) hsc⟩,
         ⟨⟨1, ![50000]⟩, iotaInDim ⟨1, ![50000]⟩ 32 0⟩] hcat = rowOf c ei := by
  funext j
  obtain ⟨e, rfl⟩ : ∃ e : Fin 1649454, j = ix1 e := ⟨j 0, eq_ix1 j⟩
  rw [concat_iota_apply _ hcat e]
  show _ = if h : e.val < 1599454 then ei (ix2 c (⟨e.val, h⟩ : Fin 1599454)) else BitVec.ofNat 32 (e.val - 1599454)
  by_cases h : e.val < 1599454
  · rw [dif_pos h, dif_pos h]
    exact slice_row_flat_apply c ei hsl hsc _
  · rw [dif_neg h, dif_neg h]

theorem concat_row0_eq_svOf (ei : IVec ⟨2, ![2, 1599454]⟩ 32)
    (hsl : (⟨2, ![2, 1599454]⟩ : Shape).Slices ![0, 0] ⟨2, ![1, 1599454]⟩)
    (hsc : (⟨2, ![1, 1599454]⟩ : Shape).ShapeCasts ⟨1, ![1599454]⟩)
    (hcat : Shape.Concatenates [⟨1, ![1599454]⟩, ⟨1, ![50000]⟩] ⟨1, ![1649454]⟩ 0) :
    concatenate ⟨1, ![1649454]⟩ 0
        [⟨⟨1, ![1599454]⟩, shapeCast ⟨1, ![1599454]⟩ (extractStridedSlice ⟨2, ![1, 1599454]⟩ ![0, 0] ei hsl) hsc⟩,
         ⟨⟨1, ![50000]⟩, iotaInDim ⟨1, ![50000]⟩ 32 0⟩] hcat = svOf ei :=
  concat_row_eq_rowOf 0 ei hsl hsc hcat

theorem concat_row1_eq_tvOf (ei : IVec ⟨2, ![2, 1599454]⟩ 32)
    (hsl : (⟨2, ![2, 1599454]⟩ : Shape).Slices ![1, 0] ⟨2, ![1, 1599454]⟩)
    (hsc : (⟨2, ![1, 1599454]⟩ : Shape).ShapeCasts ⟨1, ![1599454]⟩)
    (hcat : Shape.Concatenates [⟨1, ![1599454]⟩, ⟨1, ![50000]⟩] ⟨1, ![1649454]⟩ 0) :
    concatenate ⟨1, ![1649454]⟩ 0
        [⟨⟨1, ![1599454]⟩, shapeCast ⟨1, ![1599454]⟩ (extractStridedSlice ⟨2, ![1, 1599454]⟩ ![1, 0] ei hsl) hsc⟩,
         ⟨⟨1, ![50000]⟩, iotaInDim ⟨1, ![50000]⟩ 32 0⟩] hcat = tvOf ei :=
  concat_row_eq_rowOf 1 ei hsl hsc hcat

end Cert.GcnSpec

end
-- ==== Proof.Hand.Val9a.lean ====
import proofs.«419822_j14680198218267_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.SL.Sem Idealize.ShloMosaic.ValueIdx
open Cert.KernelIdeal Cert.KernelIdeal.Gen

def oneHot (b : BitVec 32) (g : ℕ) : EReal := if b = BitVec.ofNat 32 g then 1 else 0

theorem oneHot_mul (b : BitVec 32) (g : ℕ) (y : EReal) :
    oneHot b g * y = if b = BitVec.ofNat 32 g then y else 0 := by
  unfold oneHot
  split_ifs
  · exact one_mul y
  · exact zero_mul y

theorem lhs_pool_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q
theorem lhs_pool_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
theorem rhs_pool_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q
theorem rhs_pool_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

theorem pool_matmul_apply (a b : FVec Ideal S2000x128 .f32) (g k : Fin 128) :
    matmul dot_S2000x128_S2000x128_S128x128_0_0_1_1_n_n (some .fp32) a b (constant (F := Ideal) S128x128 .f32 0x00000000#32) (ix2 g k)
      = ∑ r : Fin 2000, a (ix2 r g) * b (ix2 r k) := by
  simp only [matmul]
  rw [Ideal.matmul_constant_zero_apply, ← Equiv.sum_comp (ValueIdx.contrEquiv1 dot_S2000x128_S2000x128_S128x128_0_0_1_1_n_n 2000 rfl rfl).symm]
  refine Finset.sum_congr rfl fun r _ => ?_
  have hk := ValueIdx.contrEquiv1_symm_val dot_S2000x128_S2000x128_S128x128_0_0_1_1_n_n 2000 rfl rfl r
  have el : dot_S2000x128_S2000x128_S128x128_0_0_1_1_n_n.lhsIdx (ix2 g k) ((ValueIdx.contrEquiv1 dot_S2000x128_S2000x128_S128x128_0_0_1_1_n_n 2000 rfl rfl).symm r) = ix2 r g := funext fun a => Fin.ext (by
    match a with
    | ⟨0, _⟩ => exact (lhs_pool_0 _ _).trans hk
    | ⟨1, _⟩ => exact lhs_pool_1 _ _)
  have er : dot_S2000x128_S2000x128_S128x128_0_0_1_1_n_n.rhsIdx (ix2 g k) ((ValueIdx.contrEquiv1 dot_S2000x128_S2000x128_S128x128_0_0_1_1_n_n 2000 rfl rfl).symm r) = ix2 r k := funext fun a => Fin.ext (by
    match a with
    | ⟨0, _⟩ => exact (rhs_pool_0 _ _).trans hk
    | ⟨1, _⟩ => exact rhs_pool_1 _ _)
  rw [el, er]

theorem sitofp_extui_cmpi_eq (x : BitVec 32) (g : ℕ) :
    (FloatOps.sitofp (F := Ideal) .f32 ((IntOp.cmpi .eq x (BitVec.ofNat 32 g)).setWidth 32) : EReal) = oneHot x g := by
  unfold oneHot
  by_cases h : x = BitVec.ofNat 32 g
  · rw [if_pos h, (IntOp.cmpi_eq).mpr h]
    show ((((1#1 : BitVec 1).setWidth 32).toInt : ℝ) : EReal) = 1
    norm_num
  · rw [if_neg h, ValueIdx.eq_zero_of_ne_one (fun h1 => h ((IntOp.cmpi_eq).mp h1))]
    show ((((0#1 : BitVec 1).setWidth 32).toInt : ℝ) : EReal) = 0
    norm_num

theorem k9_pay1_apply (j : S128x128.Idx) : (k9_pay1 (F := Ideal)) j = (0 : EReal) := by
  unfold k9_pay1
  rw [shapeCast_self]
  exact Ideal.ofBits_zero_f32

theorem k9_pay2_apply (v3 : FVec Ideal S2000x128 .f32) (v5 : IVec S2000x1 32) (v13 : FVec Ideal S128x128 .f32)
    (g k : Fin 128) :
    k9_pay2 (F := Ideal) v3 v5 v13 (ix2 g k)
      = (v13 (ix2 g k) : EReal) + ∑ r : Fin 2000, oneHot (v5 (ix2 r 0)) g.val * v3 (ix2 r k) := by
  unfold k9_pay2
  rw [shapeCast_self, shapeCast_self, shapeCast_self, addf_apply, pool_matmul_apply]
  refine congrArg (v13 (ix2 g k) + ·) (Finset.sum_congr rfl fun r _ => ?_)
  refine congrArg (· * v3 (ix2 r k)) ?_
  rw [sitofp_apply, extui_apply]
  show FloatOps.sitofp (F := Ideal) .f32 ((IntOp.cmpi .eq (broadcastTo S2000x128 v5 broadcasts_S2000x1_S2000x128 (ix2 r g)) (iota .tc S2000x128 32 [1] iota_S2000x128_d1_w32 (ix2 r g))).setWidth 32) = _
  rw [iota_single_apply, broadcastTo_apply v5 broadcasts_S2000x1_S2000x128 (ix2 r g) (ix2 r 0) (by
    intro a
    match a with
    | ⟨0, _⟩ => rfl
    | ⟨1, _⟩ => rfl)]
  exact sitofp_extui_cmpi_eq _ _

def tileRow (t : Fin 25) (r : Fin 2000) : Fin 50000 := ⟨2000 * t.val + r.val, by have := t.isLt; have := r.isLt; omega⟩

theorem tileRow_val (t : Fin 25) (r : Fin 2000) : (tileRow t r).val = 2000 * t.val + r.val := rfl

theorem sum_tiles {M : Type*} [AddCommMonoid M] (f : Fin 50000 → M) :
    ∑ t : Fin 25, ∑ r : Fin 2000, f (tileRow t r) = ∑ n : Fin 50000, f n := by
  have e : ∀ p : Fin 25 × Fin 2000, tileRow p.1 p.2 = (finProdFinEquiv : Fin 25 × Fin 2000 ≃ Fin (25 * 2000)) p := fun p =>
    Fin.ext (by rw [tileRow_val]; simp only [finProdFinEquiv, Equiv.coe_fn_mk]; omega)
  rw [← Fintype.sum_prod_type (f := fun p : Fin 25 × Fin 2000 => f (tileRow p.1 p.2))]
  simp only [e]
  exact Equiv.sum_comp (finProdFinEquiv : Fin 25 × Fin 2000 ≃ Fin (25 * 2000)) f

def tilePool (x : S50000x128.Idx → EReal) (b : S50000x1.Idx → BitVec 32) (t : Fin 25) (g k : Fin 128) : EReal :=
  ∑ r : Fin 2000, oneHot (b (ix2 (tileRow t r) 0)) g.val * x (ix2 (tileRow t r) k)

theorem sum_tilePool (x : S50000x128.Idx → EReal) (b : S50000x1.Idx → BitVec 32) (g k : Fin 128) :
    ∑ t : Fin 25, tilePool x b t g k
      = ∑ n ∈ Finset.univ.filter (fun n : Fin 50000 => b (ix2 n 0) = BitVec.ofNat 32 g.val), x (ix2 n k) := by
  unfold tilePool
  rw [sum_tiles (fun n => oneHot (b (ix2 n 0)) g.val * x (ix2 n k)), Finset.sum_filter]
  exact Finset.sum_congr rfl fun n _ => oneHot_mul _ _ _

def poolUpTo (x : S50000x128.Idx → EReal) (b : S50000x1.Idx → BitVec 32) (n : ℕ) (g k : Fin 128) : EReal :=
  ∑ t ∈ Finset.univ.filter (fun t : Fin 25 => t.val ≤ n), tilePool x b t g k

theorem poolUpTo_zero (x : S50000x128.Idx → EReal) (b : S50000x1.Idx → BitVec 32) (g k : Fin 128) :
    poolUpTo x b 0 g k = tilePool x b 0 g k := by
  unfold poolUpTo
  rw [show Finset.univ.filter (fun t : Fin 25 => t.val ≤ 0) = {0} from by
    ext t; simp only [Finset.mem_filter, Finset.mem_univ, true_and, Finset.mem_singleton, Fin.ext_iff]; exact Nat.le_zero]
  exact Finset.sum_singleton _ _

theorem poolUpTo_succ (x : S50000x128.Idx → EReal) (b : S50000x1.Idx → BitVec 32) (n : ℕ) (h : n + 1 < 25) (g k : Fin 128) :
    poolUpTo x b (n + 1) g k = poolUpTo x b n g k + tilePool x b ⟨n + 1, h⟩ g k := by
  unfold poolUpTo
  rw [show Finset.univ.filter (fun t : Fin 25 => t.val ≤ n + 1) = insert (⟨n + 1, h⟩ : Fin 25) (Finset.univ.filter (fun t : Fin 25 => t.val ≤ n)) from by
    ext t; simp only [Finset.mem_filter, Finset.mem_univ, true_and, Finset.mem_insert, Fin.ext_iff]; omega]
  rw [Finset.sum_insert (by simp only [Finset.mem_filter, Finset.mem_univ, true_and]; omega), add_comm]

theorem poolUpTo_last (x : S50000x128.Idx → EReal) (b : S50000x1.Idx → BitVec 32) (g k : Fin 128) :
    poolUpTo x b 24 g k
      = ∑ n ∈ Finset.univ.filter (fun n : Fin 50000 => b (ix2 n 0) = BitVec.ofNat 32 g.val), x (ix2 n k) := by
  rw [← sum_tilePool]
  unfold poolUpTo
  rw [show Finset.univ.filter (fun t : Fin 25 => t.val ≤ 24) = Finset.univ from by
    ext t; simp only [Finset.mem_filter, Finset.mem_univ, true_and, iff_true]; have := t.isLt; omega]

end Cert.KernelIdeal.Hand

end
-- ==== Proof.Hand.Val9b.lean ====
import proofs.«419822_j14680198218267_2_alg».proof.Proof.Hand.Common
import proofs.«419822_j14680198218267_2_alg».proof.Proof.Hand.Val9a

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

def tileOf (t : Fin cfg9.N) : Fin 25 := Fin.cast N_9 t

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0 :=
  (by decide +kernel : ∀ t : Fin grid9.N, _)

theorem blk9_0_read (c : Dev nD) (X : Buf (Elt Ideal) ((c : Thread nD τ).loc (Pipeline.arrRef spec9 0)))
    (t : Fin cfg9.N) (r : Fin 2000) (k : Fin 128) :
    ((cfg9.win 0).blk t).view.read (Elt Ideal) X (ix2 r k) = X (ix2 (tileRow (tileOf t) r) k) := by
  obtain ⟨e0, e1, -, -, -, -⟩ := idx_facts9 t
  rw [View.read_apply]
  show X (((cfg9.win 0).blk t).view.emb (ix2 r k)) = X _
  refine congrArg X (funext fun a => Fin.ext ?_)
  match a with
  | ⟨0, _⟩ => show win9_0.index t (0 : Fin 2) * 2000 + 1 * r.val = 2000 * t.val + r.val; rw [e0]; omega
  | ⟨1, _⟩ => show win9_0.index t (1 : Fin 2) * 128 + 1 * k.val = k.val; rw [e1]; omega

theorem blk9_1_read (c : Dev nD) (X : Buf (Elt Ideal) ((c : Thread nD τ).loc (Pipeline.arrRef spec9 1)))
    (t : Fin cfg9.N) (r : Fin 2000) :
    ((cfg9.win 1).blk t).view.read (Elt Ideal) X (ix2 r 0) = X (ix2 (tileRow (tileOf t) r) 0) := by
  obtain ⟨-, -, e0, e1, -, -⟩ := idx_facts9 t
  rw [View.read_apply]
  show X (((cfg9.win 1).blk t).view.emb (ix2 r 0)) = X _
  refine congrArg X (funext fun a => Fin.ext ?_)
  match a with
  | ⟨0, _⟩ => show win9_1.index t (0 : Fin 2) * 2000 + 1 * r.val = 2000 * t.val + r.val; rw [e0]; omega
  | ⟨1, _⟩ => show win9_1.index t (1 : Fin 2) * 1 + 1 * 0 = 0; rw [e1]

end Cert.KernelIdeal.Hand

end
-- ==== Proof.Hand.Val9.lean ====
import proofs.«419822_j14680198218267_2_alg».proof.Proof.Hand.Body9
import proofs.«419822_j14680198218267_2_alg».proof.Proof.Hand.Val9a
import proofs.«419822_j14680198218267_2_alg».proof.Proof.Hand.Val9b

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

abbrev x9 (c : Dev nD) : S50000x128.Idx → EReal := V c (Pipeline.arrRef spec9 0)

abbrev batch9 (c : Dev nD) : S50000x1.Idx → BitVec 32 := V c (Pipeline.arrRef spec9 1)

theorem tile9 (c : Dev nD) (t : Fin cfg9.N) (g k : Fin 128) :
    ∑ r : Fin 2000, oneHot ((iblk9 V c 1 t : Vec Ideal S2000x1 .i32) (ix2 r 0)) g.val * (iblk9 V c 0 t : Vec Ideal S2000x128 .f32) (ix2 r k)
      = tilePool (x9 V c) (batch9 V c) (tileOf t) g k := by
  unfold tilePool iblk9
  refine Finset.sum_congr rfl fun r _ => ?_
  rw [blk9_0_read, blk9_1_read]

theorem sc9_apply (c : Dev nD) : ∀ (n : ℕ) (h : n < cfg9.N) (g k : Fin 128),
    sc9 V c n h (ix2 g k) = poolUpTo (x9 V c) (batch9 V c) n g k
  | 0, h, g, k => by
    show k9_pay2 (iblk9 V c 0 ⟨0, h⟩) (iblk9 V c 1 ⟨0, h⟩) (k9_pay1 (F := Ideal)) (ix2 g k) = _
    rw [k9_pay2_apply, k9_pay1_apply, zero_add, tile9, poolUpTo_zero]
    rfl
  | n + 1, h, g, k => by
    have hN : cfg9.N = 25 := N_9
    show k9_pay2 (iblk9 V c 0 ⟨n + 1, h⟩) (iblk9 V c 1 ⟨n + 1, h⟩) (sc9 V c n (Nat.lt_of_succ_lt h)) (ix2 g k) = _
    rw [k9_pay2_apply, sc9_apply c n, tile9, poolUpTo_succ _ _ n (by omega)]
    rfl

def t24 : Fin cfg9.N := ⟨24, by rw [show cfg9.N = 25 from N_9]; decide⟩

def pooled9 (c : Dev nD) : S128x128.Idx → EReal := fun i => poolUpTo (x9 V c) (batch9 V c) 24 (i 0) (i 1)

theorem flushed9_2 (c : Dev nD) (t : Fin cfg9.N) (hf : (cfg9.win 2).flush t = true) :
    (dat9 V c).flushed 2 t = ((cfg9.win 2).blk t).view.read (Elt Ideal) (pooled9 V c) := by
  have hN : cfg9.N = 25 := N_9
  have h24 : t.val = 24 := by have := (flush9_2 t).mp hf; have := t.isLt; omega
  obtain rfl : t = t24 := Fin.ext h24
  obtain ⟨-, -, -, -, e0, e1⟩ := idx_facts9 t24
  show (cfg9.win 2).cut (grid9.coords t24) ((dat9 V c).after 2 t24) = _
  rw [after9_2]
  funext j
  obtain ⟨g, k, rfl⟩ : ∃ (g k : Fin 128), j = ix2 g k := ⟨j 0, j 1, eq_ix2 j⟩
  show sc9 V c t24.val t24.isLt (ix2 g k) = pooled9 V c (((cfg9.win 2).blk t24).view.emb (ix2 g k))
  have hemb : ((cfg9.win 2).blk t24).view.emb (ix2 g k) = (ix2 g k : S128x128.Idx) := by
    funext a; apply Fin.ext
    match a with
    | ⟨0, _⟩ => show win9_2.index t24 (0 : Fin 2) * 128 + 1 * g.val = g.val; rw [e0]; omega
    | ⟨1, _⟩ => show win9_2.index t24 (1 : Fin 2) * 128 + 1 * k.val = k.val; rw [e1]; omega
  rw [hemb]
  exact sc9_apply V c t24.val t24.isLt g k

theorem mem_blk9_2 (t : Fin cfg9.N) (i : S128x128.Idx) :
    i ∈ ((cfg9.win 2).blk t).view.set ↔ ∀ a : Fin 2, win9_2.index t a * S128x128.size a ≤ (i a).val ∧ (i a).val < win9_2.index t a * S128x128.size a + S128x128.size a := by
  show i ∈ ((View.whole main_v165).slice (win9_2.rect t)).set ↔ _
  rw [View.set_slice_whole, Rect.mem_set_unit]
  exact Iff.rfl

theorem arr9_out (c : Dev nD) (g k : Fin 128) :
    (dat9 V c).arrAt 2 cfg9.N (ix2 g k)
      = ∑ n ∈ Finset.univ.filter (fun n : Fin 50000 => batch9 V c (ix2 n 0) = BitVec.ofNat 32 g.val), x9 V c (ix2 n k) := by
  have hfin : (dat9 V c).arrAt 2 cfg9.N = pooled9 V c :=
    (dat9 V c).arrAt_eq_of_cover 2 (pooled9 V c) (flushed9_2 V c) fun i =>
      ⟨t24, (flush9_2 t24).mpr rfl, by
        obtain ⟨-, -, -, -, e0, e1⟩ := idx_facts9 t24
        rw [mem_blk9_2]
        intro a
        have h0 : (i 0 : Nat) < 128 := (i 0).isLt
        have h1 : (i 1 : Nat) < 128 := (i 1).isLt
        match a with
        | ⟨0, _⟩ => show win9_2.index t24 (0 : Fin 2) * 128 ≤ (i 0).val ∧ (i 0).val < win9_2.index t24 (0 : Fin 2) * 128 + 128; rw [e0]; omega
        | ⟨1, _⟩ => show win9_2.index t24 (1 : Fin 2) * 128 ≤ (i 1).val ∧ (i 1).val < win9_2.index t24 (1 : Fin 2) * 128 + 128; rw [e1]; omega⟩
  rw [hfin]
  exact poolUpTo_last (x9 V c) (batch9 V c) g k

end Cert.KernelIdeal.Hand

end
-- ==== Proof.Hand.KPreKeepV.lean ====
import proofs.«419822_j14680198218267_2_alg».proof.Proof.Hand.Args
import Idealize.ShloMosaic.PureOps.Ideal

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

def from3to13 : Kept (W3 m) (W13 m) := (((((((((item4 m).trans (item5 m)).trans (item6 m)).trans (item7 m)).trans (item8 m)).trans (item9 m)).trans (item10 m)).trans (item11 m)).trans (item12 m)).trans (item13 m)
def from3to23 : Kept (W3 m) (W23 m) := ((((((((((from3to13 m).trans (item14 m)).trans (item15 m)).trans (item16 m)).trans (item17 m)).trans (item18 m)).trans (item19 m)).trans (item20 m)).trans (item21 m)).trans (item22 m)).trans (item23 m)
def from3to32 : Kept (W3 m) (W32 m) := (((((((((from3to23 m).trans (item24 m)).trans (item25 m)).trans (item26 m)).trans (item27 m)).trans (item28 m)).trans (item29 m)).trans (item30 m)).trans (item31 m)).trans (item32 m)
def from3to33 : Kept (W3 m) (W33 m) := (from3to32 m).trans (item33 m)

theorem keep_v5_W13 : W13 m c main_v5 = W3 m c main_v5 := (from3to13 m).keep c main_v5 rfl
theorem keep_v6_W13 : W13 m c main_v6 = W3 m c main_v6 := (from3to13 m).keep c main_v6 rfl
theorem keep_v15_W13 : W13 m c main_v15 = W3 m c main_v15 := (from3to13 m).keep c main_v15 rfl
theorem keep_v22_W13 : W13 m c main_v22 = W3 m c main_v22 := (from3to13 m).keep c main_v22 rfl
theorem keep_v23_W13 : W13 m c main_v23 = W3 m c main_v23 := (from3to13 m).keep c main_v23 rfl
theorem keep_v5_W23 : W23 m c main_v5 = W3 m c main_v5 := (from3to23 m).keep c main_v5 rfl
theorem keep_v6_W23 : W23 m c main_v6 = W3 m c main_v6 := (from3to23 m).keep c main_v6 rfl
theorem keep_v15_W23 : W23 m c main_v15 = W3 m c main_v15 := (from3to23 m).keep c main_v15 rfl
theorem keep_v22_W23 : W23 m c main_v22 = W3 m c main_v22 := (from3to23 m).keep c main_v22 rfl
theorem keep_v23_W23 : W23 m c main_v23 = W3 m c main_v23 := (from3to23 m).keep c main_v23 rfl
theorem keep_v23_W32 : W32 m c main_v23 = W3 m c main_v23 := (from3to32 m).keep c main_v23 rfl
theorem keep_v22_W33 : W33 m c main_v22 = W3 m c main_v22 := (from3to33 m).keep c main_v22 rfl

end Cert.KernelIdeal.Hand

end
-- ==== Proof.Hand.KPreKeepA.lean ====
import proofs.«419822_j14680198218267_2_alg».proof.Proof.Hand.Args
import Idealize.ShloMosaic.PureOps.Ideal

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

theorem keep_arg3_W2 : W2 m c main_arg3 = W0 m c main_arg3 := (upto2 m).keep c main_arg3 rfl
theorem keep_arg4_W2 : W2 m c main_arg4 = W0 m c main_arg4 := (upto2 m).keep c main_arg4 rfl
theorem keep_arg7_W6 : W6 m c main_arg7 = W0 m c main_arg7 := (upto6 m).keep c main_arg7 rfl
theorem keep_arg5_W10 : W10 m c main_arg5 = W0 m c main_arg5 := (upto10 m).keep c main_arg5 rfl
theorem keep_arg6_W10 : W10 m c main_arg6 = W0 m c main_arg6 := (upto10 m).keep c main_arg6 rfl
theorem keep_arg7_W10 : W10 m c main_arg7 = W0 m c main_arg7 := (upto10 m).keep c main_arg7 rfl
theorem keep_arg3_W12 : W12 m c main_arg3 = W0 m c main_arg3 := (upto12 m).keep c main_arg3 rfl
theorem keep_arg4_W12 : W12 m c main_arg4 = W0 m c main_arg4 := (upto12 m).keep c main_arg4 rfl
theorem keep_arg7_W16 : W16 m c main_arg7 = W0 m c main_arg7 := (upto16 m).keep c main_arg7 rfl
theorem keep_arg5_W20 : W20 m c main_arg5 = W0 m c main_arg5 := (upto20 m).keep c main_arg5 rfl
theorem keep_arg6_W20 : W20 m c main_arg6 = W0 m c main_arg6 := (upto20 m).keep c main_arg6 rfl
theorem keep_arg7_W20 : W20 m c main_arg7 = W0 m c main_arg7 := (upto20 m).keep c main_arg7 rfl
theorem keep_arg3_W22 : W22 m c main_arg3 = W0 m c main_arg3 := (upto22 m).keep c main_arg3 rfl
theorem keep_arg4_W22 : W22 m c main_arg4 = W0 m c main_arg4 := (upto22 m).keep c main_arg4 rfl
theorem keep_arg7_W26 : W26 m c main_arg7 = W0 m c main_arg7 := (upto26 m).keep c main_arg7 rfl
theorem keep_arg5_W30 : W30 m c main_arg5 = W0 m c main_arg5 := (upto30 m).keep c main_arg5 rfl
theorem keep_arg6_W30 : W30 m c main_arg6 = W0 m c main_arg6 := (upto30 m).keep c main_arg6 rfl
theorem keep_arg7_W30 : W30 m c main_arg7 = W0 m c main_arg7 := (upto30 m).keep c main_arg7 rfl

end Cert.KernelIdeal.Hand

end
-- ==== Proof.Hand.KPre.lean ====
import proofs.«419822_j14680198218267_2_alg».proof.Proof.Hand.Chain
import proofs.«419822_j14680198218267_2_alg».proof.Proof.Hand.GraphOf
import proofs.«419822_j14680198218267_2_alg».proof.Proof.Hand.KPreKeepV
import proofs.«419822_j14680198218267_2_alg».proof.Proof.Hand.KPreKeepA
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo
open Cert.LibGS
open scoped BigOperators

variable (m : (ℓ : Loc nD τ sig) → Buf (Elt Ideal) ℓ) (c : Dev nD)

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

theorem bcast_col_apply {α : Type} {a : ℕ} (ha : a ≠ 1) (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun b => by
    obtain rfl : b = 0 := Subsingleton.elim _ _
    show i.val = if a = 1 then 0 else i.val
    rw [if_neg ha])

-- Scattering ones onto zeros counts, for each row, the indices that land on it.
theorem count_term_apply {R n : ℕ} (hn : n ≠ 1) (d : ScatterDims ⟨1, ![R]⟩ ⟨2, ![n, 1]⟩ ⟨1, ![n]⟩)
    (huw : d.updateWindowDims = []) (hiw : d.insertedWindowDims = [0]) (hsd : d.scatterDimsToOperandDims = [0])
    (hivd : d.indexVectorDim = 1)
    (h0 : (⟨0, ![]⟩ : Shape).BroadcastsInDim ⟨1, ![R]⟩ ![]) (h1 : (⟨0, ![]⟩ : Shape).BroadcastsInDim ⟨1, ![n]⟩ ![])
    (hc : (⟨1, ![n]⟩ : Shape).BroadcastsInDim ⟨2, ![n, 1]⟩ ![0])
    (v : IVec ⟨1, ![n]⟩ 32) (r : Fin R) :
    Host.scatterAdd (F := Ideal) d
        (broadcastInDim ⟨1, ![R]⟩ ![] h0 (constant (F := Ideal) ⟨0, ![]⟩ .f32 0x00000000#32))
        (broadcastInDim ⟨2, ![n, 1]⟩ ![0] hc v)
        (broadcastInDim ⟨1, ![n]⟩ ![] h1 (constant (F := Ideal) ⟨0, ![]⟩ .f32 0x3F800000#32)) (ix1 r)
      = ∑ _e ∈ Finset.univ.filter (fun e : Fin n => landRow R (v (ix1 e)) = some r), (1 : EReal) := by
  rw [scatterAdd_vec d huw hiw hsd hivd]
  have z : broadcastInDim ⟨1, ![R]⟩ ![] h0 (constant (F := Ideal) ⟨0, ![]⟩ .f32 0x00000000#32) (ix1 r) = 0 := by
    rw [broadcastInDim_scalar_apply, constant_apply, Ideal.ofBits_zero_f32]
  have o : ∀ e : Fin n,
      broadcastInDim ⟨1, ![n]⟩ ![] h1 (constant (F := Ideal) ⟨0, ![]⟩ .f32 0x3F800000#32) (ix1 e) = 1 := fun e => by
    rw [broadcastInDim_scalar_apply, constant_apply, Ideal.ofBits_one_f32]
  rw [z, zero_add]
  exact Finset.sum_congr (Finset.filter_congr fun e _ => by rw [bcast_col_apply hn v hc e 0]) (fun e _ => o e)

abbrev eiK : IVec S2x1599454 32 := W0 m c main_arg1

abbrev bvK : IVec S50000 32 := W0 m c main_arg2

theorem W1_v5 : (W1 m c main_v5 : IVec S1649454 32) = Cert.GcnSpec.svOf (eiK m c) := by
  show StableHlo.after hostOps0 (W0 m c) (Proc.devRef .tc main_v5) = _
  after_results
  exact Cert.GcnSpec.concat_row0_eq_svOf _ _ _ _

theorem W1_v6 : (W1 m c main_v6 : IVec S1649454 32) = Cert.GcnSpec.tvOf (eiK m c) := by
  show StableHlo.after hostOps0 (W0 m c) (Proc.devRef .tc main_v6) = _
  after_results
  exact Cert.GcnSpec.concat_row1_eq_tvOf _ _ _ _

theorem sv_eq : (W3 m c main_v5 : IVec S1649454 32) = Cert.GcnSpec.svOf (eiK m c) :=
  (W3_keep m c main_v5 (by decide)).trans ((W2_keep m c main_v5 (by decide)).trans (W1_v5 m c))

theorem tv_eq : (W3 m c main_v6 : IVec S1649454 32) = Cert.GcnSpec.tvOf (eiK m c) :=
  (W3_keep m c main_v6 (by decide)).trans ((W2_keep m c main_v6 (by decide)).trans (W1_v6 m c))

def grK (hb : ∀ n : Fin 50000, 0 ≤ (bvK m c (ix1 n)).toInt ∧ (bvK m c (ix1 n)).toInt < 64) :
    Cert.GcnSpec.Graph (Fin 50000) (Fin 64) (Fin 1649454) :=
  Cert.GcnSpec.graphOf (W3 m c main_v5) (W3 m c main_v6) (bvK m c) hb

abbrev degK (n : Fin 50000) : EReal :=
  ∑ _e ∈ Finset.univ.filter (fun e : Fin 1649454 => landRow 50000 (Cert.GcnSpec.tvOf (eiK m c) (ix1 e)) = some n), (1 : EReal)

abbrev v6K : IVec S1649454 32 := W1 m c main_v6

abbrev v10K : S50000.Idx → Ideal .f32 := W1 m c main_v10

abbrev v12K : IVec S50000 1 := W1 m c main_v12

abbrev cst2K : S_.Idx → Ideal .f32 := W1 m c main_cst_2

abbrev v13K : S50000.Idx → Ideal .f32 := W2 m c main_v13

theorem W1_v10_fun : v10K m c
    = Host.scatterAdd (F := Ideal) scatter_S50000_S1649454x1_S1649454_n_0_0_1
        (broadcastInDim S50000 ![] bcast_S_S50000 (constant (F := Ideal) S_ .f32 0x00000000#32))
        (broadcastInDim S1649454x1 ![0] bcast_S1649454_S1649454x1_0 (v6K m c))
        (broadcastInDim S1649454 ![] bcast_S_S1649454 (constant (F := Ideal) S_ .f32 0x3F800000#32)) := by
  dsimp only [v10K, v6K, W1]
  after_results <;> rfl

theorem W1_v10 (n : Fin 50000) : v10K m c (ix1 n) = degK m c n := by
  rw [W1_v10_fun]
  show _ = ∑ _e ∈ Finset.univ.filter (fun e : Fin 1649454 => landRow 50000 (Cert.GcnSpec.tvOf (eiK m c) (ix1 e)) = some n), (1 : EReal)
  rw [← W1_v6 m c]
  exact count_term_apply (by decide : (1649454 : ℕ) ≠ 1) _ rfl rfl rfl rfl _ _ _ _ n

theorem W1_v12 : v12K m c
    = cmpf (F := Ideal) (s := S50000) (φ := .f32) .ogt (v10K m c)
        (broadcastInDim S50000 ![] bcast_S_S50000 (constant (F := Ideal) S_ .f32 0x00000000#32)) := by
  dsimp only [v12K, v10K, W1]
  after_results <;> rfl

theorem W1_cst2 : cst2K m c = constant (F := Ideal) S_ .f32 0x3F800000#32 := by
  dsimp only [cst2K, W1]
  after_results <;> rfl

theorem W2_v13 : v13K m c
    = select (s := S50000) (α := Ideal .f32) (v12K m c) (v10K m c) (broadcastInDim S50000 ![] bcast_S_S50000 (cst2K m c)) := by
  dsimp only [v13K, v12K, v10K, cst2K, W2]
  generalize W1 m c = V
  after_results <;> rfl

theorem W3_v15 : (W3 m c main_v15 : S50000x1.Idx → Ideal .f32)
    = shapeCast (s := S50000) (α := Ideal .f32) S50000x1 (Host.rsqrt (F := Ideal) (s := S50000) (φ := .f32) (v13K m c))
        shapeCasts_S50000_S50000x1 := by
  dsimp only [v13K, W3]
  generalize W2 m c = V
  after_results <;> rfl

theorem select_ogt_zero (x y : EReal) :
    Scalar.select (FloatOps.cmpf (F := Ideal) (φ := .f32) .ogt x 0) x y = if 0 < x then x else y := by
  show (if BitVec.ofBool (decide (0 < x)) = 1 then x else y) = _
  by_cases h : 0 < x
  · rw [if_pos h, decide_eq_true h]; rfl
  · rw [if_neg h, decide_eq_false h]; rfl

theorem hostRsqrt_apply {s : Shape} {φ : FTy} (x : FVec Ideal s φ) (i : s.Idx) :
    Host.rsqrt (F := Ideal) x i = Ideal.rsqrt (x i) := rfl

section GraphRows
variable (hb : ∀ n : Fin 50000, 0 ≤ (bvK m c (ix1 n)).toInt ∧ (bvK m c (ix1 n)).toInt < 64)

theorem grK_tgt (e : Fin 1649454) :
    (grK m c hb).tgt e = landRow 50000 (Cert.GcnSpec.tvOf (eiK m c) (ix1 e)) := by
  unfold grK Cert.GcnSpec.graphOf
  dsimp only
  rw [tv_eq]

theorem grK_land_bt (n : Fin 50000) : landRow 64 (bvK m c (ix1 n)) = some ((grK m c hb).bt n) :=
  Cert.GcnSpec.graphOf_land_bt _ _ _ hb n

theorem deg_grK (n : Fin 50000) : Cert.GcnSpec.deg (grK m c hb) n = degK m c n := by
  unfold Cert.GcnSpec.deg
  exact Finset.sum_congr (Finset.filter_congr fun e _ => by rw [grK_tgt]) (fun _ _ => rfl)

theorem dinv_col (n : Fin 50000) :
    (W3 m c main_v15 : S50000x1.Idx → Ideal .f32) (ix2 n 0) = Cert.GcnSpec.dinv (grK m c hb) n := by
  unfold Cert.GcnSpec.dinv
  rw [deg_grK, W3_v15, shapeCast_a_a1_apply, hostRsqrt_apply, W2_v13, select_apply, W1_v12, cmpf_apply, W1_v10, W1_cst2,
    broadcastInDim_scalar_apply, broadcastInDim_scalar_apply, constant_apply, constant_apply, Ideal.ofBits_zero_f32,
    Ideal.ofBits_one_f32, select_ogt_zero]

end GraphRows

abbrev arg2W2 : IVec S50000 32 := W2 m c main_arg2

theorem arg2W2_eq : arg2W2 m c = bvK m c :=
  (W2_keep m c main_arg2 (by decide)).trans (W1_keep m c main_arg2 (by decide))

theorem W3_v22 : (W3 m c main_v22 : S64x1.Idx → Ideal .f32)
    = broadcastInDim (s := S64) (α := Ideal .f32) S64x1 ![0] bcast_S64_S64x1_0
        (maximumf (F := Ideal) (s := S64) (φ := .f32)
          (Host.scatterAdd (F := Ideal) scatter_S64_S50000x1_S50000_n_0_0_1
            (broadcastInDim S64 ![] bcast_S_S64 (constant (F := Ideal) S_ .f32 0x00000000#32))
            (broadcastInDim S50000x1 ![0] bcast_S50000_S50000x1_0 (arg2W2 m c))
            (broadcastInDim S50000 ![] bcast_S_S50000 (constant (F := Ideal) S_ .f32 0x3F800000#32)))
          (broadcastInDim S64 ![] bcast_S_S64 (constant (F := Ideal) S_ .f32 0x3F800000#32))) := by
  dsimp only [arg2W2, W3]
  generalize W2 m c = V
  after_results <;> rfl

theorem cnt_col (hb : ∀ n : Fin 50000, 0 ≤ (bvK m c (ix1 n)).toInt ∧ (bvK m c (ix1 n)).toInt < 64) (g : Fin 64) :
    (W3 m c main_v22 : S64x1.Idx → Ideal .f32) (ix2 g 0) = Cert.GcnSpec.cnt (grK m c hb) g := by
  unfold Cert.GcnSpec.cnt
  rw [W3_v22, bcast_col_apply (by decide : (64 : ℕ) ≠ 1), maximumf_apply, count_term_apply (by decide : (50000 : ℕ) ≠ 1) _ rfl rfl rfl rfl,
    broadcastInDim_scalar_apply, constant_apply, Ideal.ofBits_one_f32, arg2W2_eq]
  refine congrArg (fun s => max s (1 : EReal)) ?_
  exact Finset.sum_congr (Finset.filter_congr fun n _ => by rw [grK_land_bt m c hb n]; exact Option.some_inj) (fun _ _ => rfl)

theorem W3_v23 : (W3 m c main_v23 : IVec S50000x1 32)
    = shapeCast (s := S50000) (α := BitVec 32) S50000x1 (arg2W2 m c) shapeCasts_S50000_S50000x1 := by
  dsimp only [arg2W2, W3]
  generalize W2 m c = V
  after_results <;> rfl

theorem batch_col (n : Fin 50000) : (W3 m c main_v23 : IVec S50000x1 32) (ix2 n 0) = bvK m c (ix1 n) := by
  rw [W3_v23, shapeCast_a_a1_apply, arg2W2_eq]

end Cert.KernelIdeal.Hand

end
-- ==== Proof.Hand.Val0a.lean ====
import proofs.«419822_j14680198218267_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem
open scoped BigOperators

theorem mm0_lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem mm0_lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem mm0_rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem mm0_rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem mm0_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ j : Fin 128, a (ix2 p j) * b (ix2 j q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact mm0_lhs_row _ _
    | ⟨1, _⟩ => exact (mm0_lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (mm0_rhs_row _ _).trans hk
    | ⟨1, _⟩ => exact mm0_rhs_col _ _)
  rw [el, er]

theorem col0_apply (d : FVec Ideal S2000x1 .f32) (p : Fin 2000) (q : Fin 128) :
    broadcastTo S2000x128 d broadcasts_S2000x1_S2000x128 (ix2 p q) = d (ix2 p (0 : Fin 1)) :=
  broadcastTo_apply d broadcasts_S2000x1_S2000x128 (ix2 p q) (ix2 p (0 : Fin 1)) (fun a => by
    match a with
    | ⟨0, _⟩ => rfl
    | ⟨1, _⟩ => rfl)

theorem k0_pay1_apply (v0 : FVec Ideal S2000x128 .f32) (v2 : FVec Ideal S128x128 .f32) (v6 : FVec Ideal S2000x1 .f32)
    (p : Fin 2000) (q : Fin 128) :
    k0_pay1 (F := Ideal) v0 v2 v6 (ix2 p q) = (∑ j : Fin 128, v0 (ix2 p j) * v2 (ix2 j q)) * v6 (ix2 p (0 : Fin 1)) := by
  unfold k0_pay1
  simp only [shapeCast_self]
  rw [truncf_apply, mulf_apply, col0_apply, mm0_apply]
  rfl

end Cert.KernelIdeal.Hand

end
-- ==== Proof.Hand.Val0.lean ====
import proofs.«419822_j14680198218267_2_alg».proof.Proof.Hand.Body0
import proofs.«419822_j14680198218267_2_alg».proof.Proof.Hand.Val0a

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem zero0_off : (![0, 0] : Fin 2 → Nat) = fun _ => 0 := funext fun a => by fin_cases a <;> rfl

abbrev ent0_0 (c : Dev nD) : S50000x128.Idx → Ideal .f32 := V c (Pipeline.arrRef spec0 0)

abbrev ent0_1 (c : Dev nD) : S128x128.Idx → Ideal .f32 := V c (Pipeline.arrRef spec0 1)

abbrev ent0_2 (c : Dev nD) : S50000x1.Idx → Ideal .f32 := V c (Pipeline.arrRef spec0 2)

def G0 (X : S50000x128.Idx → Ideal .f32) (Wm : S128x128.Idx → Ideal .f32) (Dv : S50000x1.Idx → Ideal .f32) :
    S50000x128.Idx → Ideal .bf16 :=
  fun i => (∑ j : Fin 128, X (ix2 (i 0) j) * Wm (ix2 j (i 1))) * Dv (ix2 (i 0) (0 : Fin 1))

theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem iblk0_0_at (c : Dev nD) (t : Fin cfg0.N) (p : Fin 2000) (q j : Fin 128) :
    iblk0 V c 0 t (ix2 p j) = ent0_0 V c (ix2 ((((cfg0.win 3).blk t).view.emb (ix2 p q)) 0) j) := by
  obtain ⟨e00, e01, -, -, -, -, e30, -⟩ := idx0_facts t
  show V c (Pipeline.arrRef spec0 0) (((cfg0.win 0).blk t).view.emb (ix2 p j)) = V c (Pipeline.arrRef spec0 0) _
  refine congrArg (V c (Pipeline.arrRef spec0 0)) (funext fun a => Fin.ext ?_)
  match a with
  | ⟨0, _⟩ => show win0_0.index t (0 : Fin 2) * 2000 + 1 * p.val = win0_3.index t (0 : Fin 2) * 2000 + 1 * p.val; omega
  | ⟨1, _⟩ => show win0_0.index t (1 : Fin 2) * 128 + 1 * j.val = j.val; omega

theorem iblk0_1_at (c : Dev nD) (t : Fin cfg0.N) (p : Fin 2000) (q j : Fin 128) :
    iblk0 V c 1 t (ix2 j q) = ent0_1 V c (ix2 j ((((cfg0.win 3).blk t).view.emb (ix2 p q)) 1)) := by
  obtain ⟨-, -, e10, e11, -, -, -, e31⟩ := idx0_facts t
  show V c (Pipeline.arrRef spec0 1) (((cfg0.win 1).blk t).view.emb (ix2 j q)) = V c (Pipeline.arrRef spec0 1) _
  refine congrArg (V c (Pipeline.arrRef spec0 1)) (funext fun a => Fin.ext ?_)
  match a with
  | ⟨0, _⟩ => show win0_1.index t (0 : Fin 2) * 128 + 1 * j.val = j.val; omega
  | ⟨1, _⟩ => show win0_1.index t (1 : Fin 2) * 128 + 1 * q.val = win0_3.index t (1 : Fin 2) * 128 + 1 * q.val; omega

theorem iblk0_2_at (c : Dev nD) (t : Fin cfg0.N) (p : Fin 2000) (q : Fin 128) :
    iblk0 V c 2 t (ix2 p (0 : Fin 1)) = ent0_2 V c (ix2 ((((cfg0.win 3).blk t).view.emb (ix2 p q)) 0) (0 : Fin 1)) := by
  obtain ⟨-, -, -, -, e20, e21, e30, -⟩ := idx0_facts t
  show V c (Pipeline.arrRef spec0 2) (((cfg0.win 2).blk t).view.emb (ix2 p (0 : Fin 1))) = V c (Pipeline.arrRef spec0 2) _
  refine congrArg (V c (Pipeline.arrRef spec0 2)) (funext fun a => Fin.ext ?_)
  match a with
  | ⟨0, _⟩ => show win0_2.index t (0 : Fin 2) * 2000 + 1 * p.val = win0_3.index t (0 : Fin 2) * 2000 + 1 * p.val; omega
  | ⟨1, _⟩ => show win0_2.index t (1 : Fin 2) * 1 + 1 * 0 = 0; omega

theorem blk0_3_flushed (c : Dev nD) (t : Fin cfg0.N) :
    (dat0 V c).flushed 3 t = ((cfg0.win 3).blk t).view.read (Elt Ideal)
      (G0 (ent0_0 V c) (ent0_1 V c) (ent0_2 V c)) := by
  show (cfg0.win 3).cut (grid0.coords t) ((dat0 V c).after 3 t) = _
  rw [after0_3]
  unfold out0_3
  rw [View.canon_unit_zero zero0_off]
  simp only [View.ld_unit_zero (S := S2000x128) zero0_off, View.ld_unit_zero (S := S128x128) zero0_off, View.ld_unit_zero (S := S2000x1) zero0_off]
  funext y
  obtain ⟨p, q, rfl⟩ : ∃ (p : Fin 2000) (q : Fin 128), y = ix2 p q := ⟨y 0, y 1, eq_ix2 y⟩
  show k0_pay1 (F := Ideal) (iblk0 V c 0 t) (iblk0 V c 1 t) (iblk0 V c 2 t) (ix2 p q)
    = G0 (ent0_0 V c) (ent0_1 V c) (ent0_2 V c) (((cfg0.win 3).blk t).view.emb (ix2 p q))
  rw [k0_pay1_apply, iblk0_2_at V c t p q, Finset.sum_congr rfl fun j _ => by rw [iblk0_0_at V c t p q j, iblk0_1_at V c t p q j]]
  rfl

theorem cover0_3_arr (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e30, e31⟩ := idx0_facts t
  refine ⟨t, flush0_3 t, ?_⟩
  show i ∈ ((View.whole main_v29).slice (win0_3.rect t)).set
  rw [View.set_slice_whole, Rect.mem_set_unit]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem arr0_final (c : Dev nD) : (dat0 V c).arrAt 3 cfg0.N = G0 (ent0_0 V c) (ent0_1 V c) (ent0_2 V c) :=
  (dat0 V c).arrAt_eq_of_cover 3 _ (fun t _ => blk0_3_flushed V c t) cover0_3_arr

theorem arr0_out (c : Dev nD) (n : Fin 50000) (k : Fin 128) :
    (dat0 V c).arrAt 3 cfg0.N (ix2 n k)
      = (∑ j : Fin 128, ent0_0 V c (ix2 n j) * ent0_1 V c (ix2 j k)) * ent0_2 V c (ix2 n (0 : Fin 1)) := by
  rw [arr0_final]
  rfl

end Cert.KernelIdeal.Hand

end
-- ==== Proof.Hand.Val1a.lean ====
import proofs.«419822_j14680198218267_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem toInt_setWidth_ofBool (c : Bool) : ((BitVec.ofBool c).setWidth 32).toInt = if c then 1 else 0 := by
  cases c <;> decide

def k1_aff (x : Vec Ideal S2000x128 .f32) (d : Vec Ideal S2000x1 .f32) (b : Vec Ideal S1x128 .f32) (r : Fin 2000) (k : Fin 128) : EReal :=
  x (ix2 r k) * d (ix2 r (0 : Fin 1)) + b (ix2 (0 : Fin 1) k)

def k1_hot (bt : Vec Ideal S2000x1 .i32) (r : Fin 2000) (g : Fin 128) : EReal :=
  if bt (ix2 r (0 : Fin 1)) = BitVec.ofNat 32 g.val then 1 else 0

theorem k1_pay1_apply (j : S128x128.Idx) : (k1_pay1 (F := Ideal)) j = 0 := by
  unfold k1_pay1
  rw [shapeCast_self]
  exact Ideal.ofBits_zero_f32

theorem k1_pay2_apply (j : S128x128.Idx) : (k1_pay2 (F := Ideal)) j = 0 := by
  unfold k1_pay2
  rw [shapeCast_self]
  exact Ideal.ofBits_zero_f32

theorem k1_pay3_apply (v3 : Vec Ideal S2000x128 .f32) (v5 : Vec Ideal S2000x1 .f32) (v9 : Vec Ideal S1x128 .f32)
    (p : Fin 2000) (q : Fin 128) : k1_pay3 (F := Ideal) v3 v5 v9 (ix2 p q) = k1_aff v3 v5 v9 p q := by
  unfold k1_pay3 k1_aff
  simp only [shapeCast_self]
  rw [addf_apply, mulf_apply, broadcastTo_a1_ab_apply, broadcastTo_1b_ab_apply]

theorem k1_pay4_apply (v13 : Vec Ideal S2000x1 .i32) (p : Fin 2000) (q : Fin 128) :
    k1_pay4 (F := Ideal) v13 (ix2 p q) = k1_hot v13 p q := by
  unfold k1_pay4 k1_hot
  simp only [shapeCast_self]
  rw [sitofp_apply, extui_apply]
  show (((((IntOp.cmpi .eq (broadcastTo S2000x128 v13 broadcasts_S2000x1_S2000x128 (ix2 p q))
    (iota .tc S2000x128 32 [1] iota_S2000x128_d1_w32 (ix2 p q))).setWidth 32).toInt : ℤ) : ℝ) : EReal) = _
  rw [broadcastTo_a1_ab_apply, iota_single_apply]
  show (((((BitVec.ofBool (v13 (ix2 p (0 : Fin 1)) == BitVec.ofNat 32 q.val)).setWidth 32).toInt : ℤ) : ℝ) : EReal) = _
  rw [toInt_setWidth_ofBool]
  by_cases h : v13 (ix2 p (0 : Fin 1)) = BitVec.ofNat 32 q.val
  · rw [if_pos h, if_pos (by simpa using h)]; simp
  · rw [if_neg h, if_neg (by simpa using h)]; simp

theorem k1_lhs_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q
theorem k1_lhs_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl
theorem k1_rhs_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q
theorem k1_rhs_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

theorem k1_matmul_apply (l r : FVec Ideal S2000x128 .f32) (g k : Fin 128) :
    matmul dot_S2000x128_S2000x128_S128x128_0_0_1_1_n_n (some .fp32) l r (constant (F := Ideal) S128x128 .f32 0x00000000#32) (ix2 g k)
      = ∑ n : Fin 2000, l (ix2 n g) * r (ix2 n k) := by
  simp only [matmul]
  rw [Ideal.matmul_constant_zero_apply, ← Equiv.sum_comp (contrEquiv1 dot_S2000x128_S2000x128_S128x128_0_0_1_1_n_n 2000 rfl rfl).symm]
  refine Finset.sum_congr rfl fun n _ => ?_
  have hk := contrEquiv1_symm_val dot_S2000x128_S2000x128_S128x128_0_0_1_1_n_n 2000 rfl rfl n
  have el : dot_S2000x128_S2000x128_S128x128_0_0_1_1_n_n.lhsIdx (ix2 g k) ((contrEquiv1 dot_S2000x128_S2000x128_S128x128_0_0_1_1_n_n 2000 rfl rfl).symm n) = ix2 n g := funext fun a => Fin.ext (by
    match a with
    | ⟨0, _⟩ => exact (k1_lhs_0 _ _).trans hk
    | ⟨1, _⟩ => exact k1_lhs_1 _ _)
  have er : dot_S2000x128_S2000x128_S128x128_0_0_1_1_n_n.rhsIdx (ix2 g k) ((contrEquiv1 dot_S2000x128_S2000x128_S128x128_0_0_1_1_n_n 2000 rfl rfl).symm n) = ix2 n k := funext fun a => Fin.ext (by
    match a with
    | ⟨0, _⟩ => exact (k1_rhs_0 _ _).trans hk
    | ⟨1, _⟩ => exact k1_rhs_1 _ _)
  rw [el, er]

theorem k1_pay5_apply (v3 : Vec Ideal S2000x128 .f32) (v5 : Vec Ideal S2000x1 .f32) (v9 : Vec Ideal S1x128 .f32)
    (v13 : Vec Ideal S2000x1 .i32) (v23 : Vec Ideal S128x128 .f32) (g k : Fin 128) :
    k1_pay5 (F := Ideal) v3 v5 v9 v13 v23 (ix2 g k) = v23 (ix2 g k) + ∑ n : Fin 2000, k1_hot v13 n g * k1_aff v3 v5 v9 n k := by
  unfold k1_pay5
  simp only [shapeCast_self]
  rw [addf_apply, k1_matmul_apply]
  simp only [k1_pay3_apply, k1_pay4_apply]

theorem k1_pay6_apply (v3 : Vec Ideal S2000x128 .f32) (v5 : Vec Ideal S2000x1 .f32) (v9 : Vec Ideal S1x128 .f32)
    (v13 : Vec Ideal S2000x1 .i32) (v28 : Vec Ideal S128x128 .f32) (g k : Fin 128) :
    k1_pay6 (F := Ideal) v3 v5 v9 v13 v28 (ix2 g k)
      = v28 (ix2 g k) + ∑ n : Fin 2000, k1_hot v13 n g * (k1_aff v3 v5 v9 n k * k1_aff v3 v5 v9 n k) := by
  unfold k1_pay6
  simp only [shapeCast_self]
  rw [addf_apply, k1_matmul_apply]
  simp only [mulf_apply, k1_pay3_apply, k1_pay4_apply]

end Cert.KernelIdeal.Hand

end
-- ==== Proof.Hand.Val1b.lean ====
import proofs.«419822_j14680198218267_2_alg».proof.Proof.Hand.Val1a
import Mathlib.Algebra.BigOperators.Fin
import Mathlib.Logic.Equiv.Fin.Basic

noncomputable section

namespace Cert.KernelIdeal.Hand

open Cert.KernelIdeal Cert.KernelIdeal.Gen
open Idealize.ShloMosaic Idealize.ShloMosaic.ValueIdx

abbrev k1_Aff (X : S50000x128.Idx → EReal) (D : S50000x1.Idx → EReal) (B : S1x128.Idx → EReal) (n : Fin 50000) (k : Fin 128) : EReal :=
  X (ix2 n k) * D (ix2 n (0 : Fin 1)) + B (ix2 (0 : Fin 1) k)

abbrev k1_Hit (BT : S50000x1.Idx → BitVec 32) (n : Fin 50000) (g : Fin 128) : Prop :=
  BT (ix2 n (0 : Fin 1)) = BitVec.ofNat 32 g.val

abbrev k1_row (t : ℕ) (ht : t < 25) (r : Fin 2000) : Fin 50000 := ⟨t * 2000 + 1 * r.val, by have := r.isLt; omega⟩

theorem k1_sum_tiles (f : Fin 50000 → EReal) :
    ∑ t : Fin 25, ∑ r : Fin 2000, f (k1_row t.val t.isLt r) = ∑ n : Fin 50000, f n := by
  have h := Fintype.sum_equiv (finProdFinEquiv (m := 25) (n := 2000)) (fun p => f (k1_row p.1.val p.1.isLt p.2))
    (fun n : Fin (25 * 2000) => f n) (fun p => congrArg f (Fin.ext (by
      show p.1.val * 2000 + 1 * p.2.val = p.2.val + 2000 * p.1.val
      omega)))
  rw [Fintype.sum_prod_type] at h
  exact h

theorem k1_chain_closed (N : ℕ) (c : ℕ → Fin 128 → Fin 128 → EReal) (s : (n : ℕ) → n < N → Vec Ideal S128x128 .f32)
    (h0 : ∀ (h : 0 < N) (g k : Fin 128), s 0 h (ix2 g k) = 0 + c 0 g k)
    (hs : ∀ (n : ℕ) (h : n + 1 < N) (g k : Fin 128), s (n + 1) h (ix2 g k) = s n (Nat.lt_of_succ_lt h) (ix2 g k) + c (n + 1) g k) :
    ∀ (n : ℕ) (h : n < N) (g k : Fin 128), s n h (ix2 g k) = ∑ t ∈ Finset.range (n + 1), c t g k
  | 0, h, g, k => by rw [h0, zero_add, Finset.sum_range_one]
  | n + 1, h, g, k => by rw [hs, k1_chain_closed N c s h0 hs n _ g k, Finset.sum_range_succ _ (n + 1)]

theorem k1_total (φ : EReal → EReal) (X : S50000x128.Idx → EReal) (D : S50000x1.Idx → EReal) (B : S1x128.Idx → EReal)
    (BT : S50000x1.Idx → BitVec 32)
    (x : ℕ → Vec Ideal S2000x128 .f32) (d : ℕ → Vec Ideal S2000x1 .f32) (b : ℕ → Vec Ideal S1x128 .f32) (bt : ℕ → Vec Ideal S2000x1 .i32)
    (hx : ∀ (t : ℕ) (ht : t < 25) (r : Fin 2000) (k : Fin 128), x t (ix2 r k) = X (ix2 (k1_row t ht r) k))
    (hd : ∀ (t : ℕ) (ht : t < 25) (r : Fin 2000), d t (ix2 r (0 : Fin 1)) = D (ix2 (k1_row t ht r) (0 : Fin 1)))
    (hb : ∀ (t : ℕ) (ht : t < 25) (k : Fin 128), b t (ix2 (0 : Fin 1) k) = B (ix2 (0 : Fin 1) k))
    (hbt : ∀ (t : ℕ) (ht : t < 25) (r : Fin 2000), bt t (ix2 r (0 : Fin 1)) = BT (ix2 (k1_row t ht r) (0 : Fin 1)))
    (g k : Fin 128) :
    ∑ t ∈ Finset.range 25, ∑ r : Fin 2000, k1_hot (bt t) r g * φ (k1_aff (x t) (d t) (b t) r k)
      = ∑ n ∈ Finset.univ.filter (fun n : Fin 50000 => k1_Hit BT n g), φ (k1_Aff X D B n k) := by
  rw [Finset.sum_range, Finset.sum_filter, ← k1_sum_tiles]
  refine Finset.sum_congr rfl fun t _ => Finset.sum_congr rfl fun r _ => ?_
  unfold k1_hot k1_aff
  rw [hbt t.val t.isLt, hx t.val t.isLt, hd t.val t.isLt, hb t.val t.isLt]
  by_cases h : BT (ix2 (k1_row t.val t.isLt r) (0 : Fin 1)) = BitVec.ofNat 32 g.val
  · rw [if_pos h, if_pos h, one_mul]
  · rw [if_neg h, if_neg h, zero_mul]

end Cert.KernelIdeal.Hand

end
-- ==== Proof.Hand.Val1.lean ====
import proofs.«419822_j14680198218267_2_alg».proof.Proof.Hand.Body1
import proofs.«419822_j14680198218267_2_alg».proof.Proof.Hand.Val1b

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem k1_hz : (![0, 0] : Fin 2 → Nat) = fun _ => 0 := funext fun a => by fin_cases a <;> rfl

theorem k1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

abbrev k1_X (c : Dev nD) : S50000x128.Idx → EReal := V c (Pipeline.arrRef spec1 0)

abbrev k1_BT (c : Dev nD) : S50000x1.Idx → BitVec 32 := V c (Pipeline.arrRef spec1 1)

abbrev k1_D (c : Dev nD) : S50000x1.Idx → EReal := V c (Pipeline.arrRef spec1 2)

abbrev k1_B (c : Dev nD) : S1x128.Idx → EReal := V c (Pipeline.arrRef spec1 3)

theorem k1_lt (t : Fin cfg1.N) : t.val < 25 := lt_of_lt_of_eq t.isLt (show cfg1.N = 25 from N_1)

theorem iblk1_0_apply (c : Dev nD) (t : Fin cfg1.N) (r : Fin 2000) (k : Fin 128) :
    (iblk1 V c 0 t : Vec Ideal S2000x128 .f32) (ix2 r k) = k1_X V c (ix2 (k1_row t.val (k1_lt t) r) k) := by
  obtain ⟨e0, e1, -⟩ := k1_idx_facts t
  show V c (Pipeline.arrRef spec1 0) (((cfg1.win 0).blk t).view.emb (ix2 r k)) = _
  congr 1
  funext a; apply Fin.ext
  match a with
  | ⟨0, _⟩ => show win1_0.index t (0 : Fin 2) * 2000 + 1 * r.val = t.val * 2000 + 1 * r.val; rw [e0]
  | ⟨1, _⟩ => show win1_0.index t (1 : Fin 2) * 128 + 1 * k.val = k.val; rw [e1]; omega

theorem iblk1_1_apply (c : Dev nD) (t : Fin cfg1.N) (r : Fin 2000) :
    (iblk1 V c 1 t : Vec Ideal S2000x1 .i32) (ix2 r (0 : Fin 1)) = k1_BT V c (ix2 (k1_row t.val (k1_lt t) r) (0 : Fin 1)) := by
  obtain ⟨-, -, e0, e1, -⟩ := k1_idx_facts t
  show V c (Pipeline.arrRef spec1 1) (((cfg1.win 1).blk t).view.emb (ix2 r (0 : Fin 1))) = _
  congr 1
  funext a; apply Fin.ext
  match a with
  | ⟨0, _⟩ => show win1_1.index t (0 : Fin 2) * 2000 + 1 * r.val = t.val * 2000 + 1 * r.val; rw [e0]
  | ⟨1, _⟩ => show win1_1.index t (1 : Fin 2) * 1 + 1 * 0 = 0; rw [e1]

theorem iblk1_2_apply (c : Dev nD) (t : Fin cfg1.N) (r : Fin 2000) :
    (iblk1 V c 2 t : Vec Ideal S2000x1 .f32) (ix2 r (0 : Fin 1)) = k1_D V c (ix2 (k1_row t.val (k1_lt t) r) (0 : Fin 1)) := by
  obtain ⟨-, -, -, -, e0, e1, -⟩ := k1_idx_facts t
  show V c (Pipeline.arrRef spec1 2) (((cfg1.win 2).blk t).view.emb (ix2 r (0 : Fin 1))) = _
  congr 1
  funext a; apply Fin.ext
  match a with
  | ⟨0, _⟩ => show win1_2.index t (0 : Fin 2) * 2000 + 1 * r.val = t.val * 2000 + 1 * r.val; rw [e0]
  | ⟨1, _⟩ => show win1_2.index t (1 : Fin 2) * 1 + 1 * 0 = 0; rw [e1]

theorem iblk1_3_apply (c : Dev nD) (t : Fin cfg1.N) (k : Fin 128) :
    (iblk1 V c 3 t : Vec Ideal S1x128 .f32) (ix2 (0 : Fin 1) k) = k1_B V c (ix2 (0 : Fin 1) k) := by
  obtain ⟨-, -, -, -, -, -, e0, e1, -⟩ := k1_idx_facts t
  show V c (Pipeline.arrRef spec1 3) (((cfg1.win 3).blk t).view.emb (ix2 (0 : Fin 1) k)) = _
  congr 1
  funext a; apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

theorem zero1_0_apply (j : S128x128.Idx) : (zero1_0 (F := Ideal)) j = 0 := by
  unfold zero1_0
  rw [View.canon_unit_zero k1_hz]
  exact k1_pay1_apply j

theorem zero1_1_apply (j : S128x128.Idx) : (zero1_1 (F := Ideal)) j = 0 := by
  unfold zero1_1
  rw [View.canon_unit_zero k1_hz]
  exact k1_pay2_apply j

theorem step1_0_apply (x0 : Vec Ideal S2000x128 .f32) (x1 : Vec Ideal S2000x1 .i32) (x2 : Vec Ideal S2000x1 .f32) (x3 : Vec Ideal S1x128 .f32)
    (s : Vec Ideal S128x128 .f32) (g k : Fin 128) :
    step1_0 x0 x1 x2 x3 s (ix2 g k) = s (ix2 g k) + ∑ r : Fin 2000, k1_hot x1 r g * k1_aff x0 x2 x3 r k := by
  unfold step1_0
  rw [View.canon_unit_zero k1_hz]
  simp only [View.ld_unit_zero (S := S2000x128) k1_hz, View.ld_unit_zero (S := S2000x1) k1_hz, View.ld_unit_zero (S := S1x128) k1_hz,
    View.ld_unit_zero (S := S128x128) k1_hz]
  exact k1_pay5_apply x0 x2 x3 x1 s g k

theorem step1_1_apply (x0 : Vec Ideal S2000x128 .f32) (x1 : Vec Ideal S2000x1 .i32) (x2 : Vec Ideal S2000x1 .f32) (x3 : Vec Ideal S1x128 .f32)
    (s : Vec Ideal S128x128 .f32) (g k : Fin 128) :
    step1_1 x0 x1 x2 x3 s (ix2 g k) = s (ix2 g k) + ∑ r : Fin 2000, k1_hot x1 r g * (k1_aff x0 x2 x3 r k * k1_aff x0 x2 x3 r k) := by
  unfold step1_1
  rw [View.canon_unit_zero k1_hz]
  simp only [View.ld_unit_zero (S := S2000x128) k1_hz, View.ld_unit_zero (S := S2000x1) k1_hz, View.ld_unit_zero (S := S1x128) k1_hz,
    View.ld_unit_zero (S := S128x128) k1_hz]
  exact k1_pay6_apply x0 x2 x3 x1 s g k

def k1_x (c : Dev nD) (t : ℕ) : Vec Ideal S2000x128 .f32 := if h : t < cfg1.N then iblk1 V c 0 ⟨t, h⟩ else fun _ => 0
def k1_bt (c : Dev nD) (t : ℕ) : Vec Ideal S2000x1 .i32 := if h : t < cfg1.N then iblk1 V c 1 ⟨t, h⟩ else fun _ => 0
def k1_d (c : Dev nD) (t : ℕ) : Vec Ideal S2000x1 .f32 := if h : t < cfg1.N then iblk1 V c 2 ⟨t, h⟩ else fun _ => 0
def k1_b (c : Dev nD) (t : ℕ) : Vec Ideal S1x128 .f32 := if h : t < cfg1.N then iblk1 V c 3 ⟨t, h⟩ else fun _ => 0

def k1_contrib (φ : EReal → EReal) (c : Dev nD) (t : ℕ) (g k : Fin 128) : EReal :=
  ∑ r : Fin 2000, k1_hot (k1_bt V c t) r g * φ (k1_aff (k1_x V c t) (k1_d V c t) (k1_b V c t) r k)

theorem sc1_0_closed (c : Dev nD) : ∀ (n : ℕ) (h : n < cfg1.N) (g k : Fin 128),
    (sc1 V c n h).1 (ix2 g k) = ∑ t ∈ Finset.range (n + 1), k1_contrib V (fun a => a) c t g k :=
  k1_chain_closed cfg1.N (k1_contrib V (fun a => a) c) (fun n h => (sc1 V c n h).1)
    (fun h g k => by
      show step1_0 _ _ _ _ zero1_0 (ix2 g k) = _
      rw [step1_0_apply, zero1_0_apply]
      unfold k1_contrib k1_x k1_bt k1_d k1_b
      simp only [dif_pos h])
    (fun n h g k => by
      show step1_0 _ _ _ _ (sc1 V c n _).1 (ix2 g k) = _
      rw [step1_0_apply]
      unfold k1_contrib k1_x k1_bt k1_d k1_b
      simp only [dif_pos h])

theorem sc1_1_closed (c : Dev nD) : ∀ (n : ℕ) (h : n < cfg1.N) (g k : Fin 128),
    (sc1 V c n h).2 (ix2 g k) = ∑ t ∈ Finset.range (n + 1), k1_contrib V (fun a => a * a) c t g k :=
  k1_chain_closed cfg1.N (k1_contrib V (fun a => a * a) c) (fun n h => (sc1 V c n h).2)
    (fun h g k => by
      show step1_1 _ _ _ _ zero1_1 (ix2 g k) = _
      rw [step1_1_apply, zero1_1_apply]
      unfold k1_contrib k1_x k1_bt k1_d k1_b
      simp only [dif_pos h])
    (fun n h g k => by
      show step1_1 _ _ _ _ (sc1 V c n _).2 (ix2 g k) = _
      rw [step1_1_apply]
      unfold k1_contrib k1_x k1_bt k1_d k1_b
      simp only [dif_pos h])

theorem k1_contrib_total (φ : EReal → EReal) (c : Dev nD) (g k : Fin 128) :
    ∑ t ∈ Finset.range 25, k1_contrib V φ c t g k
      = ∑ n ∈ Finset.univ.filter (fun n : Fin 50000 => k1_Hit (k1_BT V c) n g), φ (k1_Aff (k1_X V c) (k1_D V c) (k1_B V c) n k) := by
  have hN : cfg1.N = 25 := N_1
  unfold k1_contrib
  exact k1_total φ (k1_X V c) (k1_D V c) (k1_B V c) (k1_BT V c) (k1_x V c) (k1_d V c) (k1_b V c) (k1_bt V c)
    (fun t ht r k => by unfold k1_x; rw [dif_pos (hN ▸ ht)]; exact iblk1_0_apply V c ⟨t, hN ▸ ht⟩ r k)
    (fun t ht r => by unfold k1_d; rw [dif_pos (hN ▸ ht)]; exact iblk1_2_apply V c ⟨t, hN ▸ ht⟩ r)
    (fun t ht k => by unfold k1_b; rw [dif_pos (hN ▸ ht)]; exact iblk1_3_apply V c ⟨t, hN ▸ ht⟩ k)
    (fun t ht r => by unfold k1_bt; rw [dif_pos (hN ▸ ht)]; exact iblk1_1_apply V c ⟨t, hN ▸ ht⟩ r)
    g k

def k1_S1 (c : Dev nD) : S128x128.Idx → EReal := fun i =>
  ∑ n ∈ Finset.univ.filter (fun n : Fin 50000 => k1_Hit (k1_BT V c) n (i 0)), k1_Aff (k1_X V c) (k1_D V c) (k1_B V c) n (i 1)

def k1_S2 (c : Dev nD) : S128x128.Idx → EReal := fun i =>
  ∑ n ∈ Finset.univ.filter (fun n : Fin 50000 => k1_Hit (k1_BT V c) n (i 0)),
    k1_Aff (k1_X V c) (k1_D V c) (k1_B V c) n (i 1) * k1_Aff (k1_X V c) (k1_D V c) (k1_B V c) n (i 1)

theorem k1_emb_4 (t : Fin cfg1.N) (j : S128x128.Idx) : ((cfg1.win 4).blk t).view.emb j = j := by
  obtain ⟨-, -, -, -, -, -, -, -, e0, e1, -⟩ := k1_idx_facts t
  funext a; apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

theorem k1_emb_5 (t : Fin cfg1.N) (j : S128x128.Idx) : ((cfg1.win 5).blk t).view.emb j = j := by
  obtain ⟨-, -, -, -, -, -, -, -, -, -, e0, e1⟩ := k1_idx_facts t
  funext a; apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

set_option maxRecDepth 200000 in
theorem flushed1_4_eq (c : Dev nD) (t : Fin cfg1.N) (hf : (cfg1.win 4).flush t = true) :
    (dat1 V c).flushed 4 t = ((cfg1.win 4).blk t).view.read (Elt Ideal) (k1_S1 V c) := by
  have h24 : t.val = 24 := by have := (flush1_4 t).mp hf; have := k1_lt t; omega
  show (cfg1.win 4).cut (grid1.coords t) ((dat1 V c).after 4 t) = _
  rw [after1_4]
  funext j
  show (sc1 V c t.val t.isLt).1 j = k1_S1 V c (((cfg1.win 4).blk t).view.emb j)
  rw [k1_emb_4]
  obtain ⟨g, k, rfl⟩ : ∃ (g : Fin 128) (k : Fin 128), j = ix2 g k := ⟨j 0, j 1, eq_ix2 j⟩
  rw [sc1_0_closed, h24]
  exact k1_contrib_total V (fun a => a) c g k

set_option maxRecDepth 200000 in
theorem flushed1_5_eq (c : Dev nD) (t : Fin cfg1.N) (hf : (cfg1.win 5).flush t = true) :
    (dat1 V c).flushed 5 t = ((cfg1.win 5).blk t).view.read (Elt Ideal) (k1_S2 V c) := by
  have h24 : t.val = 24 := by have := (flush1_5 t).mp hf; have := k1_lt t; omega
  show (cfg1.win 5).cut (grid1.coords t) ((dat1 V c).after 5 t) = _
  rw [after1_5]
  funext j
  show (sc1 V c t.val t.isLt).2 j = k1_S2 V c (((cfg1.win 5).blk t).view.emb j)
  rw [k1_emb_5]
  obtain ⟨g, k, rfl⟩ : ∃ (g : Fin 128) (k : Fin 128), j = ix2 g k := ⟨j 0, j 1, eq_ix2 j⟩
  rw [sc1_1_closed, h24]
  exact k1_contrib_total V (fun a => a * a) c g k

abbrev k1_last : Fin cfg1.N := ⟨24, by rw [show cfg1.N = 25 from N_1]; decide⟩

-- The last point's block of each output is the whole array, so it holds every index.
theorem k1_cover_4 (i : S128x128.Idx) : ∃ t : Fin cfg1.N, (cfg1.win 4).flush t = true ∧ i ∈ ((cfg1.win 4).blk t).view.set :=
  ⟨k1_last, (flush1_4 k1_last).mpr rfl, k1_emb_4 k1_last i ▸ View.emb_mem_set ((cfg1.win 4).blk k1_last).view i⟩

theorem k1_cover_5 (i : S128x128.Idx) : ∃ t : Fin cfg1.N, (cfg1.win 5).flush t = true ∧ i ∈ ((cfg1.win 5).blk t).view.set :=
  ⟨k1_last, (flush1_5 k1_last).mpr rfl, k1_emb_5 k1_last i ▸ View.emb_mem_set ((cfg1.win 5).blk k1_last).view i⟩

theorem arr1_s1 (c : Dev nD) (g k : Fin 128) :
    (dat1 (F := Ideal) V c).arrAt 4 cfg1.N (ix2 g k)
      = ∑ n ∈ Finset.univ.filter (fun n : Fin 50000 => k1_Hit (k1_BT V c) n g), k1_Aff (k1_X V c) (k1_D V c) (k1_B V c) n k :=
  congrFun ((dat1 V c).arrAt_eq_of_cover 4 (k1_S1 V c) (flushed1_4_eq V c) (k1_cover_4)) (ix2 g k)

theorem arr1_s2 (c : Dev nD) (g k : Fin 128) :
    (dat1 (F := Ideal) V c).arrAt 5 cfg1.N (ix2 g k)
      = ∑ n ∈ Finset.univ.filter (fun n : Fin 50000 => k1_Hit (k1_BT V c) n g),
          k1_Aff (k1_X V c) (k1_D V c) (k1_B V c) n k * k1_Aff (k1_X V c) (k1_D V c) (k1_B V c) n k :=
  congrFun ((dat1 V c).arrAt_eq_of_cover 5 (k1_S2 V c) (flushed1_5_eq V c) (k1_cover_5)) (ix2 g k)

end Cert.KernelIdeal.Hand

end
-- ==== Proof.Hand.Val2a.lean ====
import proofs.«419822_j14680198218267_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.SL.Sem Idealize.ShloMosaic.ValueIdx
open Cert.KernelIdeal Cert.KernelIdeal.Gen

theorem bcast2_col_apply {α : Type} (v : S2000x1.Idx → α) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ => rfl
  | ⟨1, _⟩ => rfl

theorem bcast2_row_apply {α : Type} (v : S1x128.Idx → α) (p : Fin 2000) (q : Fin 128) :
    broadcastTo S2000x128 v broadcasts_S1x128_S2000x128 (ix2 p q) = v (ix2 (0 : Fin 1) q) :=
  broadcastTo_1b_ab_apply v broadcasts_S1x128_S2000x128 p q

theorem iota2_apply (p : Fin 2000) (q : Fin 128) :
    iota .tc S2000x128 32 [1] iota_S2000x128_d1_w32 (ix2 p q) = BitVec.ofNat 32 q.val :=
  iota_single_apply .tc S2000x128 32 1 iota_S2000x128_d1_w32 (ix2 p q)

theorem sitofp2_setWidth_ofBool (c : Bool) :
    (Scalar.sitofp (F := Ideal) .f32 ((BitVec.ofBool c).setWidth 32) : EReal) = if c then 1 else 0 := by
  cases c
  · show ((((0#32 : BitVec 32).toInt : ℤ) : ℝ) : EReal) = 0
    simp
  · show ((((1#32 : BitVec 32).toInt : ℤ) : ℝ) : EReal) = 1
    simp

theorem onehot2_apply (v11 : IVec S2000x1 32) (p : Fin 2000) (g : Fin 128) :
    (sitofp .f32 (extui 32 (cmpi .eq (broadcastTo S2000x128 v11 broadcasts_S2000x1_S2000x128)
        (iota .tc S2000x128 32 [1] iota_S2000x128_d1_w32)) natLt_1_32) : FVec Ideal S2000x128 .f32) (ix2 p g)
      = if v11 (ix2 p (0 : Fin 1)) = BitVec.ofNat 32 g.val then 1 else 0 := by
  rw [sitofp_apply, extui_apply]
  show (Scalar.sitofp (F := Ideal) .f32 ((BitVec.ofBool
      (broadcastTo S2000x128 v11 broadcasts_S2000x1_S2000x128 (ix2 p g)
        == iota .tc S2000x128 32 [1] iota_S2000x128_d1_w32 (ix2 p g))).setWidth 32) : EReal) = _
  rw [sitofp2_setWidth_ofBool, bcast2_col_apply, iota2_apply]
  simp only [beq_iff_eq]

theorem lhs2_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs2_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs2_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs2_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

def rowsum2 (oh : Fin 128 → EReal) (mv : FVec Ideal S128x256 .f32) (j : Fin 256) : EReal :=
  ∑ g : Fin 128, oh g * mv (ix2 g j)

theorem matmul2_apply (A : FVec Ideal S2000x128 .f32) (B : FVec Ideal S128x256 .f32) (p : Fin 2000) (j : Fin 256) :
    (matmul dot_S2000x128_S128x256_S2000x256_1_0_0_1_n_n (some .fp32) A B (constant (F := Ideal) S2000x256 .f32 0x00000000#32)) (ix2 p j)
      = rowsum2 (fun g => A (ix2 p g)) B j := by
  unfold rowsum2
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p j) ((contrEquiv1 dot_S2000x128_S128x256_S2000x256_1_0_0_1_n_n 128 rfl rfl).symm k) = ix2 p k := funext fun a => Fin.ext (by
    match a with
    | ⟨0, _⟩ => exact lhs2_0 _ _
    | ⟨1, _⟩ => exact (lhs2_1 _ _).trans hk)
  have er : dot_S2000x128_S128x256_S2000x256_1_0_0_1_n_n.rhsIdx (ix2 p j) ((contrEquiv1 dot_S2000x128_S128x256_S2000x256_1_0_0_1_n_n 128 rfl rfl).symm k) = ix2 k j := funext fun a => Fin.ext (by
    match a with
    | ⟨0, _⟩ => exact (rhs2_0 _ _).trans hk
    | ⟨1, _⟩ => exact rhs2_1 _ _)
  rw [el, er]

def graph2 (b : BitVec 32) (hb : 0 ≤ b.toInt ∧ b.toInt < 128) : Fin 128 := ⟨b.toInt.toNat, by omega⟩

theorem word2_eq_iff (b : BitVec 32) (hb : 0 ≤ b.toInt ∧ b.toInt < 128) (g : Fin 128) :
    b = BitVec.ofNat 32 g.val ↔ g = graph2 b hb := by
  have hlt : b.toNat < 2 ^ 32 := b.isLt
  have hg : g.val < 128 := g.isLt
  have hn : b.toInt.toNat = b.toNat := by
    have h := BitVec.toInt_eq_toNat_cond b
    split at h <;> omega
  constructor
  · intro h
    apply Fin.ext
    show g.val = b.toInt.toNat
    rw [hn, h, BitVec.toNat_ofNat]
    exact (Nat.mod_eq_of_lt (by omega)).symm
  · intro h
    have h' : g.val = b.toInt.toNat := congrArg Fin.val h
    apply BitVec.eq_of_toNat_eq
    rw [BitVec.toNat_ofNat, h', hn]
    exact (Nat.mod_eq_of_lt hlt).symm

theorem onehot2_sum (b : BitVec 32) (hb : 0 ≤ b.toInt ∧ b.toInt < 128) (f : Fin 128 → EReal) :
    ∑ g : Fin 128, (if b = BitVec.ofNat 32 g.val then (1 : EReal) else 0) * f g = f (graph2 b hb) := by
  rw [Finset.sum_eq_single (graph2 b hb)]
  · rw [if_pos ((word2_eq_iff b hb _).mpr rfl), one_mul]
  · intro g _ hne
    rw [if_neg (fun h => hne ((word2_eq_iff b hb g).mp h)), zero_mul]
  · intro h
    exact absurd (Finset.mem_univ _) h

theorem rsqrt2_apply {s : Shape} {φ : FTy} (x : FVec Ideal s φ) (i : s.Idx) : rsqrt x i = Ideal.rsqrt (x i) := rfl

def sel2 (mv : FVec Ideal S128x256 .f32) (b : BitVec 32) (j : Fin 256) : EReal :=
  rowsum2 (fun g => if b = BitVec.ofNat 32 g.val then (1 : EReal) else 0) mv j

theorem sel2_eq (mv : FVec Ideal S128x256 .f32) (b : BitVec 32) (hb : 0 ≤ b.toInt ∧ b.toInt < 128) (j : Fin 256) :
    sel2 mv b j = mv (ix2 (graph2 b hb) j) :=
  onehot2_sum b hb fun g => mv (ix2 g j)

theorem k2_pay2_apply (v0 : FVec Ideal S2000x128 .f32) (v2 : FVec Ideal S2000x1 .f32) (v6 : FVec Ideal S1x128 .f32)
    (v11 : IVec S2000x1 32) (v18 : FVec Ideal S128x256 .f32) (v23 v25 : FVec Ideal S1x128 .f32) (p : Fin 2000) (q : Fin 128) :
    k2_pay2 (F := Ideal) v0 v2 v6 v11 v18 v23 v25 (ix2 p q)
      = v25 (ix2 (0 : Fin 1) q)
          * (v0 (ix2 p q) * v2 (ix2 p (0 : Fin 1)) + v6 (ix2 (0 : Fin 1) q)
              - v23 (ix2 (0 : Fin 1) q) * sel2 v18 (v11 (ix2 p (0 : Fin 1))) ⟨q.val, by have := q.isLt; omega⟩)
          * Ideal.rsqrt (sel2 v18 (v11 (ix2 p (0 : Fin 1))) ⟨128 + q.val, by have := q.isLt; omega⟩ + Ideal.ofBits .f32 0x3727C5AC#32) := by
  have hoh : (fun g : Fin 128 => (sitofp .f32 (extui 32 (cmpi .eq (broadcastTo S2000x128 v11 broadcasts_S2000x1_S2000x128)
        (iota .tc S2000x128 32 [1] iota_S2000x128_d1_w32)) natLt_1_32) : FVec Ideal S2000x128 .f32) (ix2 p g))
      = fun g => if v11 (ix2 p (0 : Fin 1)) = BitVec.ofNat 32 g.val then 1 else 0 := funext fun g => onehot2_apply v11 p g
  have e0 : (⟨0 + q.val, by have := q.isLt; omega⟩ : Fin 256) = ⟨q.val, by have := q.isLt; omega⟩ := Fin.ext (Nat.zero_add _)
  unfold k2_pay2 sel2
  simp only [mulf_apply, addf_apply, subf_apply, rsqrt2_apply, broadcast_apply, shapeCast_self, bcast2_col_apply, bcast2_row_apply,
    slice2_axis1_eq, matmul2_apply, e0]
  rw [hoh]
  rfl

theorem k2_pay3_apply (v27 : FVec Ideal S1x128 .f32) (p : Fin 2000) (q : Fin 128) :
    k2_pay3 (F := Ideal) v27 (ix2 p q) = v27 (ix2 (0 : Fin 1) q) := by
  unfold k2_pay3
  simp only [shapeCast_self, bcast2_row_apply]

theorem k2_pay1_apply (v10 v37 v38 : FVec Ideal S2000x128 .f32) (p : Fin 2000) (q : Fin 128) :
    k2_pay1 (F := Ideal) v10 v37 v38 (ix2 p q) = max (v37 (ix2 p q) + v38 (ix2 p q)) 0 + v10 (ix2 p q) := by
  unfold k2_pay1
  simp only [addf_apply, maximumf_apply, broadcast_apply]
  show max _ (Ideal.ofBits .f32 0x00000000#32) + _ = _
  rw [Ideal.ofBits_zero_f32]

def norm2 (a d bi al ga be xr : EReal) (mv : FVec Ideal S128x256 .f32) (b : BitVec 32) (k : Fin 128) : EReal :=
  max (ga * (a * d + bi - al * sel2 mv b ⟨k.val, by have := k.isLt; omega⟩)
        * Ideal.rsqrt (sel2 mv b ⟨128 + k.val, by have := k.isLt; omega⟩ + Ideal.ofBits .f32 0x3727C5AC#32) + be) 0 + xr

theorem norm2_eq (a d bi al ga be xr : EReal) (mv : FVec Ideal S128x256 .f32) (b : BitVec 32) (hb : 0 ≤ b.toInt ∧ b.toInt < 128) (k : Fin 128) :
    norm2 a d bi al ga be xr mv b k
      = max (ga * (a * d + bi - al * mv (ix2 (graph2 b hb) ⟨k.val, by have := k.isLt; omega⟩))
          * Ideal.rsqrt (mv (ix2 (graph2 b hb) ⟨128 + k.val, by have := k.isLt; omega⟩) + Ideal.ofBits .f32 0x3727C5AC#32) + be) 0 + xr := by
  unfold norm2
  rw [sel2_eq mv b hb, sel2_eq mv b hb]

theorem k2_store_apply (x0 x1 : FVec Ideal S2000x128 .f32) (x2 : IVec S2000x1 32) (x3 : FVec Ideal S2000x1 .f32) (x4 : FVec Ideal S1x128 .f32)
    (x5 : FVec Ideal S128x256 .f32) (x6 x7 x8 : FVec Ideal S1x128 .f32) (p : Fin 2000) (q : Fin 128) :
    k2_pay1 (F := Ideal) x1 (k2_pay2 (F := Ideal) x0 x3 x4 x2 x5 x6 x7) (k2_pay3 (F := Ideal) x8) (ix2 p q)
      = norm2 (x0 (ix2 p q)) (x3 (ix2 p (0 : Fin 1))) (x4 (ix2 (0 : Fin 1) q)) (x6 (ix2 (0 : Fin 1) q)) (x7 (ix2 (0 : Fin 1) q))
          (x8 (ix2 (0 : Fin 1) q)) (x1 (ix2 p q)) x5 (x2 (ix2 p (0 : Fin 1))) q := by
  rw [k2_pay1_apply, k2_pay2_apply, k2_pay3_apply]
  rfl

def G2 (araw x : FVec Ideal S50000x128 .f32) (batch : IVec S50000x1 32) (dinv : FVec Ideal S50000x1 .f32) (bias : FVec Ideal S1x128 .f32)
    (mv : FVec Ideal S128x256 .f32) (alpha gamma beta : FVec Ideal S1x128 .f32) : FVec Ideal S50000x128 .f32 := fun i =>
  norm2 (araw i) (dinv (ix2 (i 0) (0 : Fin 1))) (bias (ix2 (0 : Fin 1) (i 1))) (alpha (ix2 (0 : Fin 1) (i 1))) (gamma (ix2 (0 : Fin 1) (i 1)))
    (beta (ix2 (0 : Fin 1) (i 1))) (x i) mv (batch (ix2 (i 0) (0 : Fin 1))) (i 1)

end Cert.KernelIdeal.Hand

end
-- ==== Proof.Hand.Val2.lean ====
import proofs.«419822_j14680198218267_2_alg».proof.Proof.Hand.Body2
import proofs.«419822_j14680198218267_2_alg».proof.Proof.Hand.Val2a
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Value2

variable (V : (c : Dev nD) → (b : Ref sig .tc) → Buf (Elt Ideal) ((c : Thread nD τ).loc b))

theorem hz2 : (![0, 0] : Fin 2 → Nat) = fun _ => 0 := funext fun a => by fin_cases a <;> rfl

def res2 (c : Dev nD) : FVec Ideal S50000x128 .f32 :=
  G2 (V c (Pipeline.arrRef spec2 0)) (V c (Pipeline.arrRef spec2 1)) (V c (Pipeline.arrRef spec2 2)) (V c (Pipeline.arrRef spec2 3))
    (V c (Pipeline.arrRef spec2 4)) (V c (Pipeline.arrRef spec2 5)) (V c (Pipeline.arrRef spec2 6)) (V c (Pipeline.arrRef spec2 7))
    (V c (Pipeline.arrRef spec2 8))

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

def row2 (t : Fin cfg2.N) (p : Fin 2000) : Fin 50000 :=
  ⟨2000 * t.val + p.val, by have := t.isLt; have hN : cfg2.N = 25 := N_2; have := p.isLt; omega⟩

theorem iblk2_0_apply (c : Dev nD) (t : Fin cfg2.N) (p : Fin 2000) (q : Fin 128) :
    (iblk2 V c 0 t : Vec Ideal S2000x128 .f32) (ix2 p q)
      = (V c (Pipeline.arrRef spec2 0) : S50000x128.Idx → Elt Ideal .f32) (ix2 (row2 t p) q) := by
  obtain ⟨e0, e1, -⟩ := idx_facts2 t
  show V c (Pipeline.arrRef spec2 0) (((cfg2.win 0).blk t).view.emb (ix2 p q)) = V c (Pipeline.arrRef spec2 0) (ix2 (row2 t p) q)
  refine congrArg (V c (Pipeline.arrRef spec2 0)) (funext fun a => Fin.ext ?_)
  match a with
  | ⟨0, _⟩ => show win2_0.index t (0 : Fin 2) * 2000 + 1 * p.val = 2000 * t.val + p.val; rw [e0]; omega
  | ⟨1, _⟩ => show win2_0.index t (1 : Fin 2) * 128 + 1 * q.val = q.val; rw [e1]; omega

theorem iblk2_1_apply (c : Dev nD) (t : Fin cfg2.N) (p : Fin 2000) (q : Fin 128) :
    (iblk2 V c 1 t : Vec Ideal S2000x128 .f32) (ix2 p q)
      = (V c (Pipeline.arrRef spec2 1) : S50000x128.Idx → Elt Ideal .f32) (ix2 (row2 t p) q) := by
  obtain ⟨-, -, e0, e1, -⟩ := idx_facts2 t
  show V c (Pipeline.arrRef spec2 1) (((cfg2.win 1).blk t).view.emb (ix2 p q)) = V c (Pipeline.arrRef spec2 1) (ix2 (row2 t p) q)
  refine congrArg (V c (Pipeline.arrRef spec2 1)) (funext fun a => Fin.ext ?_)
  match a with
  | ⟨0, _⟩ => show win2_1.index t (0 : Fin 2) * 2000 + 1 * p.val = 2000 * t.val + p.val; rw [e0]; omega
  | ⟨1, _⟩ => show win2_1.index t (1 : Fin 2) * 128 + 1 * q.val = q.val; rw [e1]; omega

theorem iblk2_2_apply (c : Dev nD) (t : Fin cfg2.N) (p : Fin 2000) :
    (iblk2 V c 2 t : Vec Ideal S2000x1 .i32) (ix2 p (0 : Fin 1))
      = (V c (Pipeline.arrRef spec2 2) : S50000x1.Idx → Elt Ideal .i32) (ix2 (row2 t p) (0 : Fin 1)) := by
  obtain ⟨-, -, -, -, e0, e1, -⟩ := idx_facts2 t
  show V c (Pipeline.arrRef spec2 2) (((cfg2.win 2).blk t).view.emb (ix2 p (0 : Fin 1))) = V c (Pipeline.arrRef spec2 2) (ix2 (row2 t p) (0 : Fin 1))
  refine congrArg (V c (Pipeline.arrRef spec2 2)) (funext fun a => Fin.ext ?_)
  match a with
  | ⟨0, _⟩ => show win2_2.index t (0 : Fin 2) * 2000 + 1 * p.val = 2000 * t.val + p.val; rw [e0]; omega
  | ⟨1, _⟩ => show win2_2.index t (1 : Fin 2) * 1 + 1 * 0 = 0; rw [e1]

theorem iblk2_3_apply (c : Dev nD) (t : Fin cfg2.N) (p : Fin 2000) :
    (iblk2 V c 3 t : Vec Ideal S2000x1 .f32) (ix2 p (0 : Fin 1))
      = (V c (Pipeline.arrRef spec2 3) : S50000x1.Idx → Elt Ideal .f32) (ix2 (row2 t p) (0 : Fin 1)) := by
  obtain ⟨-, -, -, -, -, -, e0, e1, -⟩ := idx_facts2 t
  show V c (Pipeline.arrRef spec2 3) (((cfg2.win 3).blk t).view.emb (ix2 p (0 : Fin 1))) = V c (Pipeline.arrRef spec2 3) (ix2 (row2 t p) (0 : Fin 1))
  refine congrArg (V c (Pipeline.arrRef spec2 3)) (funext fun a => Fin.ext ?_)
  match a with
  | ⟨0, _⟩ => show win2_3.index t (0 : Fin 2) * 2000 + 1 * p.val = 2000 * t.val + p.val; rw [e0]; omega
  | ⟨1, _⟩ => show win2_3.index t (1 : Fin 2) * 1 + 1 * 0 = 0; rw [e1]

theorem iblk2_4_eq (c : Dev nD) (t : Fin cfg2.N) :
    (iblk2 V c 4 t : Vec Ideal S1x128 .f32) = (V c (Pipeline.arrRef spec2 4) : S1x128.Idx → Elt Ideal .f32) := by
  obtain ⟨-, -, -, -, -, -, -, -, e0, e1, -⟩ := idx_facts2 t
  funext y
  show V c (Pipeline.arrRef spec2 4) (((cfg2.win 4).blk t).view.emb y) = V c (Pipeline.arrRef spec2 4) y
  refine congrArg (V c (Pipeline.arrRef spec2 4)) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem iblk2_5_eq (c : Dev nD) (t : Fin cfg2.N) :
    (iblk2 V c 5 t : Vec Ideal S128x256 .f32) = (V c (Pipeline.arrRef spec2 5) : S128x256.Idx → Elt Ideal .f32) := by
  obtain ⟨-, -, -, -, -, -, -, -, -, -, e0, e1, -⟩ := idx_facts2 t
  funext y
  show V c (Pipeline.arrRef spec2 5) (((cfg2.win 5).blk t).view.emb y) = V c (Pipeline.arrRef spec2 5) y
  refine congrArg (V c (Pipeline.arrRef spec2 5)) (funext fun a => Fin.ext ?_)
  match a with
  | ⟨0, _⟩ => show win2_5.index t (0 : Fin 2) * 128 + 1 * (y 0).val = (y 0).val; rw [e0]; omega
  | ⟨1, _⟩ => show win2_5.index t (1 : Fin 2) * 256 + 1 * (y 1).val = (y 1).val; rw [e1]; omega

theorem iblk2_6_eq (c : Dev nD) (t : Fin cfg2.N) :
    (iblk2 V c 6 t : Vec Ideal S1x128 .f32) = (V c (Pipeline.arrRef spec2 6) : S1x128.Idx → Elt Ideal .f32) := by
  obtain ⟨-, -, -, -, -, -, -, -, -, -, -, -, e0, e1, -⟩ := idx_facts2 t
  funext y
  show V c (Pipeline.arrRef spec2 6) (((cfg2.win 6).blk t).view.emb y) = V c (Pipeline.arrRef spec2 6) y
  refine congrArg (V c (Pipeline.arrRef spec2 6)) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

theorem iblk2_7_eq (c : Dev nD) (t : Fin cfg2.N) :
    (iblk2 V c 7 t : Vec Ideal S1x128 .f32) = (V c (Pipeline.arrRef spec2 7) : S1x128.Idx → Elt Ideal .f32) := by
  obtain ⟨-, -, -, -, -, -, -, -, -, -, -, -, -, -, e0, e1, -⟩ := idx_facts2 t
  funext y
  show V c (Pipeline.arrRef spec2 7) (((cfg2.win 7).blk t).view.emb y) = V c (Pipeline.arrRef spec2 7) y
  refine congrArg (V c (Pipeline.arrRef spec2 7)) (funext fun a => Fin.ext ?_)
  match a with
  | ⟨0, _⟩ => show win2_7.index t (0 : Fin 2) * 1 + 1 * (y 0).val = (y 0).val; rw [e0]; omega
  | ⟨1, _⟩ => show win2_7.index t (1 : Fin 2) * 128 + 1 * (y 1).val = (y 1).val; rw [e1]; omega

theorem iblk2_8_eq (c : Dev nD) (t : Fin cfg2.N) :
    (iblk2 V c 8 t : Vec Ideal S1x128 .f32) = (V c (Pipeline.arrRef spec2 8) : S1x128.Idx → Elt Ideal .f32) := by
  obtain ⟨-, -, -, -, -, -, -, -, -, -, -, -, -, -, -, -, e0, e1, -⟩ := idx_facts2 t
  funext y
  show V c (Pipeline.arrRef spec2 8) (((cfg2.win 8).blk t).view.emb y) = V c (Pipeline.arrRef spec2 8) y
  refine congrArg (V c (Pipeline.arrRef spec2 8)) (funext fun a => Fin.ext ?_)
  match a with
  | ⟨0, _⟩ => show win2_8.index t (0 : Fin 2) * 1 + 1 * (y 0).val = (y 0).val; rw [e0]; omega
  | ⟨1, _⟩ => show win2_8.index t (1 : Fin 2) * 128 + 1 * (y 1).val = (y 1).val; rw [e1]; omega

set_option maxHeartbeats 1000000 in

theorem flushed2_eq (c : Dev nD) (t : Fin cfg2.N) :
    (dat2 (F := Ideal) V c).flushed 9 t = ((cfg2.win 9).blk t).view.read (Elt Ideal) (res2 V c) := by
  show (cfg2.win 9).cut (grid2.coords t) ((dat2 (F := Ideal) V c).after 9 t) = _
  rw [after2_9]
  unfold out2_9
  rw [View.canon_unit_zero hz2]
  simp only [View.ld_unit_zero (S := S2000x128) hz2, View.ld_unit_zero (S := S2000x1) hz2, View.ld_unit_zero (S := S1x128) hz2,
    View.ld_unit_zero (S := S128x256) hz2]
  funext j
  have hp : (j 0).val < 2000 := (j 0).isLt
  have hq : (j 1).val < 128 := (j 1).isLt
  have hj : (cfg2.win 9).xinj (grid2.coords t) j = ix2 (⟨(j 0).val, hp⟩ : Fin 2000) (⟨(j 1).val, hq⟩ : Fin 128) :=
    funext fun a => by match a with | ⟨0, _⟩ => rfl | ⟨1, _⟩ => rfl
  have hemb : ((cfg2.win 9).blk t).view.emb j = ix2 (row2 t ⟨(j 0).val, hp⟩) (⟨(j 1).val, hq⟩ : Fin 128) := by
    obtain ⟨-, -, -, -, -, -, -, -, -, -, -, -, -, -, -, -, -, -, e0, e1⟩ := idx_facts2 t
    funext a; apply Fin.ext
    match a with
    | ⟨0, _⟩ => show win2_9.index t (0 : Fin 2) * 2000 + 1 * (j 0).val = 2000 * t.val + (j 0).val; rw [e0]; omega
    | ⟨1, _⟩ => show win2_9.index t (1 : Fin 2) * 128 + 1 * (j 1).val = (j 1).val; rw [e1]; omega
  show k2_pay1 (F := Ideal) (iblk2 V c 1 t)
      (k2_pay2 (F := Ideal) (iblk2 V c 0 t) (iblk2 V c 3 t) (iblk2 V c 4 t) (iblk2 V c 2 t) (iblk2 V c 5 t) (iblk2 V c 6 t) (iblk2 V c 7 t))
      (k2_pay3 (F := Ideal) (iblk2 V c 8 t)) ((cfg2.win 9).xinj (grid2.coords t) j)
    = res2 V c (((cfg2.win 9).blk t).view.emb j)
  rw [hj, hemb, iblk2_4_eq, iblk2_5_eq, iblk2_6_eq, iblk2_7_eq, iblk2_8_eq, k2_store_apply, iblk2_0_apply, iblk2_1_apply, iblk2_2_apply,
    iblk2_3_apply]
  rfl

theorem mem_blk2 (t : Fin cfg2.N) (i : S50000x128.Idx) :
    i ∈ ((cfg2.win 9).blk t).view.set
      ↔ ∀ a : Fin 2, win2_9.index t a * S2000x128.size a ≤ (i a).val ∧ (i a).val < win2_9.index t a * S2000x128.size a + S2000x128.size a := by
  show i ∈ ((View.whole main_v70).slice (win2_9.rect t)).set ↔ _
  rw [View.set_slice_whole, Rect.mem_set_unit]
  exact Iff.rfl

theorem cover2 (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 :=
    ⟨⟨(i 0).val / 2000, Nat.lt_of_lt_of_eq (by omega : (i 0).val / 2000 < 25) hN.symm⟩, rfl⟩
  obtain ⟨-, -, -, -, -, -, -, -, -, -, -, -, -, -, -, -, -, -, e0, e1⟩ := idx_facts2 t
  refine ⟨t, flush2_9 t, ?_⟩
  rw [mem_blk2]
  intro a
  match a with
  | ⟨0, _⟩ =>
    show win2_9.index t (0 : Fin 2) * 2000 ≤ (i 0).val ∧ (i 0).val < win2_9.index t (0 : Fin 2) * 2000 + 2000
    rw [e0, ht]; omega
  | ⟨1, _⟩ =>
    show win2_9.index t (1 : Fin 2) * 128 ≤ (i 1).val ∧ (i 1).val < win2_9.index t (1 : Fin 2) * 128 + 128
    rw [e1]; omega

theorem final2 (c : Dev nD) : (dat2 (F := Ideal) V c).arrAt 9 cfg2.N = res2 V c :=
  (dat2 (F := Ideal) V c).arrAt_eq_of_cover 9 (res2 V c) (fun t _ => flushed2_eq V c t) cover2

abbrev araw2 (c : Dev nD) : FVec Ideal S50000x128 .f32 := V c (Pipeline.arrRef spec2 0)
abbrev xres2 (c : Dev nD) : FVec Ideal S50000x128 .f32 := V c (Pipeline.arrRef spec2 1)
abbrev batch2 (c : Dev nD) : IVec S50000x1 32 := V c (Pipeline.arrRef spec2 2)
abbrev dinv2 (c : Dev nD) : FVec Ideal S50000x1 .f32 := V c (Pipeline.arrRef spec2 3)
abbrev bias2 (c : Dev nD) : FVec Ideal S1x128 .f32 := V c (Pipeline.arrRef spec2 4)
abbrev mvtab2 (c : Dev nD) : FVec Ideal S128x256 .f32 := V c (Pipeline.arrRef spec2 5)
abbrev alpha2 (c : Dev nD) : FVec Ideal S1x128 .f32 := V c (Pipeline.arrRef spec2 6)
abbrev gamma2 (c : Dev nD) : FVec Ideal S1x128 .f32 := V c (Pipeline.arrRef spec2 7)
abbrev beta2 (c : Dev nD) : FVec Ideal S1x128 .f32 := V c (Pipeline.arrRef spec2 8)

theorem arr2_out (c : Dev nD) (n : Fin 50000) (k : Fin 128)
    (hb : 0 ≤ (batch2 V c (ix2 n (0 : Fin 1))).toInt ∧ (batch2 V c (ix2 n (0 : Fin 1))).toInt < 128) :
    (dat2 (F := Ideal) V c).arrAt 9 cfg2.N (ix2 n k)
      = max (gamma2 V c (ix2 (0 : Fin 1) k)
              * (araw2 V c (ix2 n k) * dinv2 V c (ix2 n (0 : Fin 1)) + bias2 V c (ix2 (0 : Fin 1) k)
                  - alpha2 V c (ix2 (0 : Fin 1) k)
                    * mvtab2 V c (ix2 (⟨(batch2 V c (ix2 n (0 : Fin 1))).toInt.toNat, by omega⟩ : Fin 128) (⟨k.val, by have := k.isLt; omega⟩ : Fin 256)))
              * Ideal.rsqrt (mvtab2 V c (ix2 (⟨(batch2 V c (ix2 n (0 : Fin 1))).toInt.toNat, by omega⟩ : Fin 128) (⟨128 + k.val, by have := k.isLt; omega⟩ : Fin 256))
                  + Ideal.ofBits .f32 0x3727C5AC#32)
              + beta2 V c (ix2 (0 : Fin 1) k)) 0
          + xres2 V c (ix2 n k) := by
  refine (congrFun (final2 V c) (ix2 n k)).trans ?_
  exact norm2_eq (araw2 V c (ix2 n k)) (dinv2 V c (ix2 n (0 : Fin 1))) (bias2 V c (ix2 (0 : Fin 1) k)) (alpha2 V c (ix2 (0 : Fin 1) k))
    (gamma2 V c (ix2 (0 : Fin 1) k)) (beta2 V c (ix2 (0 : Fin 1) k)) (xres2 V c (ix2 n k)) (mvtab2 V c) (batch2 V c (ix2 n (0 : Fin 1))) hb k

end Value2

section Inputs2
variable {F : FTy → Type} [FloatOps F]
variable (V : (c : Dev nD) → (b : Ref sig .tc) → Buf (Elt F) ((c : Thread nD τ).loc b))

theorem arr2_in (c : Dev nD) (w : Fin cfg2.W) (hw : w.val < 9) : (dat2 V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
    | ⟨8, _⟩, _ => rfl
    | ⟨n + 9, _⟩, h => exact absurd h (by simp)
  rw [(dat2 V c).arrAt_in w hin cfg2.N, A_eq2]

end Inputs2

end Cert.KernelIdeal.Hand

end
-- ==== Proof.Hand.KLayer0.lean ====
import proofs.«419822_j14680198218267_2_alg».proof.Proof.Hand.Args
import proofs.«419822_j14680198218267_2_alg».proof.Proof.Hand.GraphOf
import proofs.«419822_j14680198218267_2_alg».proof.Proof.Hand.Val0
import proofs.«419822_j14680198218267_2_alg».proof.Proof.Hand.Val1
import proofs.«419822_j14680198218267_2_alg».proof.Proof.Hand.Val2
import proofs.«419822_j14680198218267_2_alg».proof.Proof.Hand.KPre
import proofs.«419822_j14680198218267_2_alg».proof.Proof.Math.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Cert.LibGS Cert.GcnSpec

variable (m : (ℓ : Loc nD τ sig) → Buf (Elt Ideal) ℓ) (c : Dev nD)

def epsK : EReal := Ideal.ofBits .f32 0x3727C5AC#32

def twoK : EReal := Ideal.ofBits .f32 0x40000000#32

def parK (l : Fin 3) : Params (Fin 128) where
  W := fun j k => W0 m c main_arg3 (ix3 l j k)
  b := fun k => W0 m c main_arg4 (ix2 l k)
  γ := fun k => W0 m c main_arg5 (ix2 l k)
  β := fun k => W0 m c main_arg6 (ix2 l k)
  α := fun k => W0 m c main_arg7 (ix2 l k)

theorem col_apply {α : Type} {n : ℕ} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) :=
  broadcastInDim_apply _ h v _ _ (fun a => by
    obtain rfl : a = 0 := Subsingleton.elim _ _
    show e.val = if n = 1 then 0 else e.val
    have := e.isLt
    split <;> omega)

theorem colBcast_apply {α : Type} {r q : ℕ} (h : (⟨2, ![r, 1]⟩ : Shape).BroadcastsInDim ⟨2, ![r, q]⟩ ![0, 1])
    (v : (⟨2, ![r, 1]⟩ : Shape).Idx → α) (g : Fin r) (k : Fin q) :
    broadcastInDim ⟨2, ![r, q]⟩ ![0, 1] h v (ix2 g k) = v (ix2 g (0 : Fin 1)) :=
  broadcastInDim_apply _ h v _ _ (fun a => by
    rcases fin2_cases a with rfl | rfl
    · show g.val = if r = 1 then 0 else g.val
      have := g.isLt
      split <;> omega
    · rfl)

theorem rowBcast_apply {α : Type} {r q : ℕ} (h : (⟨2, ![1, q]⟩ : Shape).BroadcastsInDim ⟨2, ![r, q]⟩ ![0, 1])
    (v : (⟨2, ![1, q]⟩ : Shape).Idx → α) (g : Fin r) (k : Fin q) :
    broadcastInDim ⟨2, ![r, q]⟩ ![0, 1] h v (ix2 g k) = v (ix2 (0 : Fin 1) k) :=
  broadcastInDim_apply _ h v _ _ (fun a => by
    rcases fin2_cases a with rfl | rfl
    · rfl
    · show k.val = if q = 1 then 0 else k.val
      have := k.isLt
      split <;> omega)

theorem rowOf_apply {α : Type} {q : ℕ} (h : (⟨1, ![q]⟩ : Shape).BroadcastsInDim ⟨2, ![1, q]⟩ ![1])
    (v : (⟨1, ![q]⟩ : Shape).Idx → α) (k : Fin q) :
    broadcastInDim ⟨2, ![1, q]⟩ ![1] h v (ix2 (0 : Fin 1) k) = v (ix1 k) :=
  broadcastInDim_apply _ h v _ _ (fun a => by
    obtain rfl : a = 0 := Subsingleton.elim _ _
    show k.val = if q = 1 then 0 else k.val
    have := k.isLt
    split <;> omega)

theorem rowFlat_apply {α : Type} {q : ℕ} (l : Fin 3) (x : (⟨2, ![3, q]⟩ : Shape).Idx → α)
    (hsl : (⟨2, ![3, q]⟩ : Shape).Slices ![l.val, 0] ⟨2, ![1, q]⟩)
    (h1 : (⟨2, ![1, q]⟩ : Shape).ShapeCasts ⟨1, ![q]⟩) (k : Fin q) :
    shapeCast ⟨1, ![q]⟩ (extractStridedSlice ⟨2, ![1, q]⟩ ![l.val, 0] x hsl) h1 (ix1 k) = x (ix2 l k) :=
  (shapeCast_1a_a_apply _ h1 k).trans
    (extractStridedSlice_apply _ x hsl _ _ (fun a => by
      rcases fin2_cases a with rfl | rfl
      · show l.val = l.val + 0
        rfl
      · show k.val = 0 + k.val
        rw [Nat.zero_add]))

theorem rowSlice_apply {α : Type} {q : ℕ} (l : Fin 3) (x : (⟨2, ![3, q]⟩ : Shape).Idx → α)
    (hsl : (⟨2, ![3, q]⟩ : Shape).Slices ![l.val, 0] ⟨2, ![1, q]⟩)
    (h1 : (⟨2, ![1, q]⟩ : Shape).ShapeCasts ⟨1, ![q]⟩) (h2 : (⟨1, ![q]⟩ : Shape).ShapeCasts ⟨2, ![1, q]⟩) (k : Fin q) :
    shapeCast ⟨2, ![1, q]⟩ (shapeCast ⟨1, ![q]⟩ (extractStridedSlice ⟨2, ![1, q]⟩ ![l.val, 0] x hsl) h1) h2 (ix2 (0 : Fin 1) k)
      = x (ix2 l k) :=
  (shapeCast_a_1a_apply _ h2 0 k).trans (rowFlat_apply l x hsl h1 k)

theorem matSlice_apply {α : Type} {p q : ℕ} (l : Fin 3) (x : (⟨3, ![3, p, q]⟩ : Shape).Idx → α)
    (hsl : (⟨3, ![3, p, q]⟩ : Shape).Slices ![l.val, 0, 0] ⟨3, ![1, p, q]⟩)
    (h1 : (⟨3, ![1, p, q]⟩ : Shape).ShapeCasts ⟨2, ![p, q]⟩) (j : Fin p) (k : Fin q) :
    shapeCast ⟨2, ![p, q]⟩ (extractStridedSlice ⟨3, ![1, p, q]⟩ ![l.val, 0, 0] x hsl) h1 (ix2 j k) = x (ix3 l j k) :=
  (shapeCast_1ab_ab_apply _ h1 j k).trans
    (extractStridedSlice_apply _ x hsl _ _ (fun a => by
      fin_cases a
      · show l.val = l.val + 0
        rfl
      · show j.val = 0 + j.val
        rw [Nat.zero_add]
      · show k.val = 0 + k.val
        rw [Nat.zero_add]))

theorem topRows_apply {α : Type} {r r' q : ℕ} (hr : r' ≤ r) (x : (⟨2, ![r, q]⟩ : Shape).Idx → α)
    (hsl : (⟨2, ![r, q]⟩ : Shape).Slices ![0, 0] ⟨2, ![r', q]⟩) (g : Fin r') (k : Fin q) :
    extractStridedSlice ⟨2, ![r', q]⟩ ![0, 0] x hsl (ix2 g k) = x (ix2 (Fin.castLE hr g) k) :=
  extractStridedSlice_apply _ x hsl _ _ (fun a => by
    rcases fin2_cases a with rfl | rfl
    · show g.val = 0 + g.val
      rw [Nat.zero_add]
    · show k.val = 0 + k.val
      rw [Nat.zero_add])

theorem padRows_apply {α : Type} {r p q : ℕ} (x : (⟨2, ![r, q]⟩ : Shape).Idx → α) {u : Shape} (v : u.Idx → α)
    (h : (⟨2, ![r, q]⟩ : Shape).Pads ![0, 0] ![p, 0] ![0, 0] ⟨2, ![r + p, q]⟩) (hu : 0 < u.numel)
    (g : Fin r) (k : Fin q) :
    pad ⟨2, ![r + p, q]⟩ ![0, 0] ![p, 0] ![0, 0] x v h hu (ix2 (Fin.castLE (Nat.le_add_right r p) g) k) = x (ix2 g k) :=
  pad_apply_of_inside _ _ _ x v h hu _ _ (fun a => by
    rcases fin2_cases a with rfl | rfl
    · show g.val = 0 + g.val * (0 + 1)
      omega
    · show k.val = 0 + k.val * (0 + 1)
      omega)

theorem sideLeft_apply {α : Type} {r q : ℕ} (a b : (⟨2, ![r, q]⟩ : Shape).Idx → α)
    (h : Shape.Concatenates [⟨2, ![r, q]⟩, ⟨2, ![r, q]⟩] ⟨2, ![r, q + q]⟩ 1) (g : Fin r) (k : Fin q) :
    concatenate ⟨2, ![r, q + q]⟩ 1 [⟨⟨2, ![r, q]⟩, a⟩, ⟨⟨2, ![r, q]⟩, b⟩] h (ix2 g (⟨k.val, by have := k.isLt; omega⟩ : Fin (q + q)))
      = a (ix2 g k) :=
  concatenate_pair_apply_left (t := ⟨2, ![r, q + q]⟩) (s₁ := ⟨2, ![r, q]⟩) (s₂ := ⟨2, ![r, q]⟩) (1 : Fin 2) a b h _ rfl (ix2 g k)
    (fun d => by rcases fin2_cases d with rfl | rfl <;> rfl)

theorem sideRight_apply {α : Type} {r q : ℕ} (a b : (⟨2, ![r, q]⟩ : Shape).Idx → α)
    (h : Shape.Concatenates [⟨2, ![r, q]⟩, ⟨2, ![r, q]⟩] ⟨2, ![r, q + q]⟩ 1) (g : Fin r) (k : Fin q) :
    concatenate ⟨2, ![r, q + q]⟩ 1 [⟨⟨2, ![r, q]⟩, a⟩, ⟨⟨2, ![r, q]⟩, b⟩] h (ix2 g (⟨q + k.val, by have := k.isLt; omega⟩ : Fin (q + q)))
      = b (ix2 g k) :=
  concatenate_pair_apply_right (t := ⟨2, ![r, q + q]⟩) (s₁ := ⟨2, ![r, q]⟩) (s₂ := ⟨2, ![r, q]⟩) (1 : Fin 2) a b h _ rfl rfl (ix2 g k)
    (fun d hd => by
      rcases fin2_cases d with rfl | rfl
      · rfl
      · exact absurd rfl hd)
    (by show k.val + q = q + k.val; omega)

theorem word_eq_iff (w : BitVec 32) (hw : 0 ≤ w.toInt ∧ w.toInt < 64) (g : Fin 64) :
    w = BitVec.ofNat 32 g.val ↔ (⟨w.toInt.toNat, by omega⟩ : Fin 64) = g := by
  have hlt : w.toNat < 2 ^ 32 := w.isLt
  have hg : g.val < 64 := g.isLt
  have hn : w.toInt.toNat = w.toNat := by
    have h := BitVec.toInt_eq_toNat_cond w
    split at h <;> omega
  constructor
  · intro h
    apply Fin.ext
    show w.toInt.toNat = g.val
    rw [hn, h, BitVec.toNat_ofNat]
    exact Nat.mod_eq_of_lt (by omega)
  · intro h
    have hv : w.toInt.toNat = g.val := congrArg Fin.val h
    apply BitVec.eq_of_toNat_eq
    rw [BitVec.toNat_ofNat, Nat.mod_eq_of_lt (by omega)]
    omega

def normF (ga a d bi al mean var be xr : EReal) : EReal :=
  max (ga * (a * d + bi - al * mean) * Ideal.rsqrt (var + epsK) + be) 0 + xr

-- A two-dimensional array of extended reals read at a row and a column.
abbrev rdAt {a b : ℕ} (v : (⟨2, ![a, b]⟩ : Shape).Idx → EReal) (i : Fin a) (j : Fin b) : EReal := v (ix2 i j)

section Stages
variable {sv tv : IVec ⟨1, ![1649454]⟩ 32} {bv : IVec ⟨1, ![50000]⟩ 32}
  {hb : ∀ n : Fin 50000, 0 ≤ (bv (ix1 n)).toInt ∧ (bv (ix1 n)).toInt < 64}

local notation "𝒢" => graphOf sv tv bv hb

-- A layer whose stages are the scaled linear image, its sum over landing messages, the two per-graph moments, the mean and variance table and the normalising step, each read off arrays that still hold the graph's and the layer's data, is the specification's layer.
theorem layerK_of_stages (P : Params (Fin 128)) (X HS AR OUT A' X' : Fin 50000 → Fin 128 → EReal) (Wm : Fin 128 → Fin 128 → EReal)
    (D D' D'' : Fin 50000 → EReal) (S T : Fin 1649454 → BitVec 32) (B' B'' AL AL' GA BE : Fin 128 → EReal)
    (BT' BT'' : Fin 50000 → BitVec 32) (C : Fin 64 → EReal)
    (S1 S2 : Fin 128 → Fin 128 → EReal) (ME VA : Fin 64 → Fin 128 → EReal) (TAB : Fin 128 → Fin 256 → EReal)
    (hHS : ∀ n k, HS n k = (∑ j : Fin 128, X n j * Wm j k) * D n)
    (hAR : ∀ n k, AR n k = 0 + ∑ e ∈ Finset.univ.filter (fun e : Fin 1649454 => landRow 50000 (T e) = some n),
      HS (clampRow 50000 (by omega) (wrapRow 50000 (S e))) k)
    (hS1 : ∀ g k, S1 g k = ∑ n ∈ Finset.univ.filter (fun n : Fin 50000 => BT' n = BitVec.ofNat 32 g.val), (AR n k * D' n + B' k))
    (hS2 : ∀ g k, S2 g k = ∑ n ∈ Finset.univ.filter (fun n : Fin 50000 => BT' n = BitVec.ofNat 32 g.val),
      (AR n k * D' n + B' k) * (AR n k * D' n + B' k))
    (hME : ∀ g k, ME g k = Ideal.div (S1 (Fin.castLE (by omega) g) k) (C g))
    (hVA : ∀ g k, VA g k = Ideal.div (S2 (Fin.castLE (by omega) g) k) (C g)
      - AL k * (twoK - AL k) * Ideal.div (S1 (Fin.castLE (by omega) g) k) (C g) * Ideal.div (S1 (Fin.castLE (by omega) g) k) (C g))
    (hTM : ∀ (g : Fin 64) (k : Fin 128), TAB (Fin.castLE (by omega) g) ⟨k.val, by have := k.isLt; omega⟩ = ME g k)
    (hTV : ∀ (g : Fin 64) (k : Fin 128), TAB (Fin.castLE (by omega) g) ⟨128 + k.val, by have := k.isLt; omega⟩ = VA g k)
    (hOUT : ∀ n k (hw : 0 ≤ (BT'' n).toInt ∧ (BT'' n).toInt < 128),
      OUT n k = normF (GA k) (A' n k) (D'' n) (B'' k) (AL' k) (TAB ⟨(BT'' n).toInt.toNat, by omega⟩ ⟨k.val, by have := k.isLt; omega⟩)
        (TAB ⟨(BT'' n).toInt.toNat, by omega⟩ ⟨128 + k.val, by have := k.isLt; omega⟩) (BE k) (X' n k))
    (hWm : ∀ j k, Wm j k = P.W j k) (hD : ∀ n, D n = dinv 𝒢 n) (hS : ∀ e, S e = sv (ix1 e)) (hT : ∀ e, T e = tv (ix1 e))
    (hD' : ∀ n, D' n = dinv 𝒢 n) (hB' : ∀ k, B' k = P.b k) (hBT' : ∀ n, BT' n = bv (ix1 n))
    (hC : ∀ g, C g = cnt 𝒢 g) (hAL : ∀ k, AL k = P.α k)
    (hA' : ∀ n k, A' n k = AR n k) (hX' : ∀ n k, X' n k = X n k) (hBT'' : ∀ n, BT'' n = bv (ix1 n)) (hD'' : ∀ n, D'' n = dinv 𝒢 n)
    (hB'' : ∀ k, B'' k = P.b k) (hAL' : ∀ k, AL' k = P.α k) (hGA : ∀ k, GA k = P.γ k) (hBE : ∀ k, BE k = P.β k)
    (n : Fin 50000) (k : Fin 128) : OUT n k = layerK 𝒢 epsK twoK P X n k := by
  obtain rfl : Wm = P.W := funext fun j => funext (hWm j)
  obtain rfl := funext hD
  obtain rfl := funext hS
  obtain rfl := funext hT
  obtain rfl := funext hD'
  obtain rfl := funext hB'
  obtain rfl := funext hBT'
  obtain rfl := funext hC
  obtain rfl := funext hAL
  obtain rfl := funext hBT''
  obtain rfl := funext hD''
  obtain rfl := funext hB''
  obtain rfl := funext hAL'
  obtain rfl := funext hGA
  obtain rfl := funext hBE
  obtain rfl : HS = fun n k => lin P.W X n k * dinv 𝒢 n := funext fun n => funext (hHS n)
  obtain rfl : AR = fun n k => ∑ e ∈ Finset.univ.filter (fun e => (𝒢).tgt e = some n), lin P.W X ((𝒢).src e) k * dinv 𝒢 ((𝒢).src e) :=
    funext fun n => funext fun k => by
      refine (hAR n k).trans ?_
      rw [zero_add]
      exact Finset.sum_congr (Finset.filter_congr fun e _ => Iff.rfl) fun e _ => rfl
  have seg : ∀ (f : Fin 50000 → Fin 128 → EReal) (g : Fin 64) (k : Fin 128),
      ∑ n ∈ Finset.univ.filter (fun n : Fin 50000 => bv (ix1 n) = BitVec.ofNat 32 (Fin.castLE (by omega) g : Fin 128).val), f n k
        = segSum 𝒢 f g k := fun f g k => by
    unfold segSum
    exact Finset.sum_congr (Finset.filter_congr fun n _ => word_eq_iff (bv (ix1 n)) (hb n) g) fun n _ => rfl
  have hs1 : ∀ (g : Fin 64) k, S1 (Fin.castLE (by omega) g) k = segSum 𝒢 (aggK 𝒢 P X) g k :=
    fun g k => (hS1 _ k).trans (seg (aggK 𝒢 P X) g k)
  have hs2 : ∀ (g : Fin 64) k, S2 (Fin.castLE (by omega) g) k = segSum 𝒢 (fun n k => aggK 𝒢 P X n k * aggK 𝒢 P X n k) g k :=
    fun g k => (hS2 _ k).trans (seg (fun n k => aggK 𝒢 P X n k * aggK 𝒢 P X n k) g k)
  have hme : ∀ g k, ME g k = segMean 𝒢 (aggK 𝒢 P X) g k := fun g k => by rw [hME, hs1]; rfl
  have hva : ∀ g k, VA g k = varK 𝒢 twoK P (aggK 𝒢 P X) g k := fun g k => by rw [hVA, hs1, hs2]; rfl
  rw [hOUT n k ⟨(hb n).1, (hb n).2.trans (by omega)⟩, hA', hX']
  exact congrArg₂ (fun a b => normF _ _ _ _ _ a b _ _) ((hTM ((𝒢).bt n) k).trans (hme _ k)) ((hTV ((𝒢).bt n) k).trans (hva _ k))

end Stages

theorem l0_wslice (j k : Fin 128) : W3 m c main_v28 (ix2 j k) = W2 m c main_arg3 (ix3 (0 : Fin 3) j k) := by
  show StableHlo.after _ _ (Proc.devRef .tc main_v28) _ = _
  generalize W2 m c = V
  after_results_simp
  exact matSlice_apply (0 : Fin 3) _ _ _ j k

theorem l0_bias (k : Fin 128) : W3 m c main_v26 (ix2 (0 : Fin 1) k) = W2 m c main_arg4 (ix2 (0 : Fin 3) k) := by
  show StableHlo.after _ _ (Proc.devRef .tc main_v26) _ = _
  generalize W2 m c = V
  after_results_simp
  exact rowSlice_apply (0 : Fin 3) _ _ _ _ k

theorem l0_araw (n : Fin 50000) (k : Fin 128) :
    W5 m c main_v40 (ix2 n k)
      = 0 + ∑ e ∈ Finset.univ.filter (fun e : Fin 1649454 => landRow 50000 (W4 m c main_v6 (ix1 e)) = some n),
          rdAt (W4 m c main_v29) (clampRow 50000 (by omega) (wrapRow 50000 (W4 m c main_v5 (ix1 e)))) k := by
  show StableHlo.after _ _ (Proc.devRef .tc main_v40) _ = _
  generalize W4 m c = V
  after_results_simp
  refine (scatterAdd_row (R := 50000) (C := 128) (n := 1649454) _ rfl rfl rfl rfl _ _ _ n k).trans ?_
  refine congrArg₂ (fun a b : EReal => a + b) ?_ ?_
  · exact (broadcastInDim_scalar_apply _ _ _).trans Ideal.ofBits_zero_f32
  · refine Finset.sum_congr (Finset.filter_congr fun e _ => by rw [col_apply]) fun e _ => ?_
    show Host.gather _ _ _ (ix2 e k) = _
    refine (gather_row (R := 50000) (C := 128) (n := 1649454) _ rfl rfl rfl rfl rfl (by omega) _ _ e k).trans ?_
    rw [col_apply]
    exact congrArg (fun w => V (Proc.devRef .tc main_v29) (ix2 (clampRow 50000 (by omega) w) k)) (wrapRow_eq_select 50000 _)

theorem l0_mean (S1 : Fin 64 → Fin 128 → EReal) (C : Fin 64 → EReal)
    (hS1 : ∀ g k, W6 m c main_v41_0 (ix2 (Fin.castLE (by omega) g : Fin 128) k) = S1 g k)
    (hC : ∀ g, W6 m c main_v22 (ix2 g (0 : Fin 1)) = C g) (g : Fin 64) (k : Fin 128) :
    W7 m c main_v44 (ix2 g k) = Ideal.div (S1 g k) (C g) := by
  rw [← hS1 g k, ← hC g]
  show StableHlo.after _ _ (Proc.devRef .tc main_v44) _ = _
  generalize W6 m c = V
  after_results_simp
  show Ideal.div _ _ = _
  exact congrArg₂ Ideal.div (topRows_apply (by omega) _ _ g k) (colBcast_apply _ _ g k)

theorem l0_var (S1 S2 : Fin 64 → Fin 128 → EReal) (C : Fin 64 → EReal) (AL : Fin 128 → EReal)
    (hS1 : ∀ g k, W6 m c main_v41_0 (ix2 (Fin.castLE (by omega) g : Fin 128) k) = S1 g k)
    (hS2 : ∀ g k, W6 m c main_v41_1 (ix2 (Fin.castLE (by omega) g : Fin 128) k) = S2 g k)
    (hC : ∀ g, W6 m c main_v22 (ix2 g (0 : Fin 1)) = C g)
    (hAL : ∀ k, W6 m c main_arg7 (ix2 (0 : Fin 3) k) = AL k) (g : Fin 64) (k : Fin 128) :
    W7 m c main_v57 (ix2 g k)
      = Ideal.div (S2 g k) (C g) - AL k * (twoK - AL k) * Ideal.div (S1 g k) (C g) * Ideal.div (S1 g k) (C g) := by
  rw [← hS1 g k, ← hS2 g k, ← hC g, ← hAL k]
  show StableHlo.after _ _ (Proc.devRef .tc main_v57) _ = _
  generalize W6 m c = V
  after_results_simp
  have hM := congrArg₂ Ideal.div (topRows_apply (r := 128) (r' := 64) (q := 128) (by omega) (V (Proc.devRef .tc main_v41_0)) slices_S128x128_S64x128_0_0 g k)
    (colBcast_apply (r := 64) (q := 128) bcast_S64x1_S64x128_0_1 (V (Proc.devRef .tc main_v22)) g k)
  have hA : ∀ h1 h2, shapeCast S128 (extractStridedSlice S1x128 ![0, 0] (V (Proc.devRef .tc main_arg7)) h1) h2 (ix1 k)
      = V (Proc.devRef .tc main_arg7) (ix2 (0 : Fin 3) k) := fun h1 h2 => rowFlat_apply (0 : Fin 3) _ h1 h2 k
  show Ideal.div _ _ - (_ * Ideal.div _ _) * Ideal.div _ _ = _
  refine congrArg₂ (· - ·) (congrArg₂ Ideal.div (topRows_apply (by omega) _ _ g k) (colBcast_apply _ _ g k))
    (congrArg₂ (· * ·) (congrArg₂ (· * ·) ?_ hM) hM)
  refine (rowBcast_apply _ _ g k).trans ((rowOf_apply _ _ k).trans ?_)
  show _ * (_ - _) = _
  exact congrArg₂ (· * ·) (hA _ _) (congrArg₂ (· - ·) (broadcastInDim_scalar_apply _ _ _) (hA _ _))

theorem l0_padMean (g : Fin 64) (k : Fin 128) :
    W8 m c main_v58 (ix2 (Fin.castLE (by omega) g : Fin 128) k) = W7 m c main_v44 (ix2 g k) := by
  show StableHlo.after _ _ (Proc.devRef .tc main_v58) _ = _
  generalize W7 m c = V
  after_results_simp
  simp only [TRef.ofBuf, TRef.toBuf, cast_eq]
  exact padRows_apply (r := 64) (p := 64) (q := 128) _ _ _ _ g k

theorem l0_padVar (g : Fin 64) (k : Fin 128) :
    W10 m c main_v59 (ix2 (Fin.castLE (by omega) g : Fin 128) k) = W9 m c main_v57 (ix2 g k) := by
  show StableHlo.after _ _ (Proc.devRef .tc main_v59) _ = _
  generalize W9 m c = V
  after_results_simp
  simp only [TRef.ofBuf, TRef.toBuf, cast_eq]
  exact padRows_apply (r := 64) (p := 64) (q := 128) _ _ _ _ g k

theorem l0_tabMean (g k : Fin 128) :
    W11 m c main_v60 (ix2 g (⟨k.val, by have := k.isLt; omega⟩ : Fin 256)) = W10 m c main_v58 (ix2 g k) := by
  show StableHlo.after _ _ (Proc.devRef .tc main_v60) _ = _
  generalize W10 m c = V
  after_results_simp
  exact sideLeft_apply (r := 128) (q := 128) _ _ _ g k

theorem l0_tabVar (g k : Fin 128) :
    W11 m c main_v60 (ix2 g (⟨128 + k.val, by have := k.isLt; omega⟩ : Fin 256)) = W10 m c main_v59 (ix2 g k) := by
  show StableHlo.after _ _ (Proc.devRef .tc main_v60) _ = _
  generalize W10 m c = V
  after_results_simp
  exact sideRight_apply (r := 128) (q := 128) _ _ _ g k

theorem l0_alphaRow (k : Fin 128) : W11 m c main_v63 (ix2 (0 : Fin 1) k) = W10 m c main_arg7 (ix2 (0 : Fin 3) k) := by
  show StableHlo.after _ _ (Proc.devRef .tc main_v63) _ = _
  generalize W10 m c = V
  after_results_simp
  exact rowSlice_apply (0 : Fin 3) _ _ _ _ k

theorem l0_gammaRow (k : Fin 128) : W11 m c main_v66 (ix2 (0 : Fin 1) k) = W10 m c main_arg5 (ix2 (0 : Fin 3) k) := by
  show StableHlo.after _ _ (Proc.devRef .tc main_v66) _ = _
  generalize W10 m c = V
  after_results_simp
  exact rowSlice_apply (0 : Fin 3) _ _ _ _ k

theorem l0_betaRow (k : Fin 128) : W11 m c main_v69 (ix2 (0 : Fin 1) k) = W10 m c main_arg6 (ix2 (0 : Fin 3) k) := by
  show StableHlo.after _ _ (Proc.devRef .tc main_v69) _ = _
  generalize W10 m c = V
  after_results_simp
  exact rowSlice_apply (0 : Fin 3) _ _ _ _ k

theorem l0_hs (n : Fin 50000) (k : Fin 128) :
    W4 m c main_v29 (ix2 n k)
      = (∑ j : Fin 128, rdAt (W3 m c main_arg0) n j * rdAt (W3 m c main_v28) j k) * rdAt (W3 m c main_v15) n 0 :=
  (congrFun (W4_arr m c 3) (ix2 n k)).trans (arr0_out (V3 m) c n k)

theorem l0_s1 (A : Fin 50000 → Fin 128 → EReal) (D : Fin 50000 → EReal) (B : Fin 128 → EReal) (BT : Fin 50000 → BitVec 32)
    (hA : ∀ n k, W5 m c main_v40 (ix2 n k) = A n k) (hD : ∀ n, W5 m c main_v15 (ix2 n (0 : Fin 1)) = D n)
    (hB : ∀ k, W5 m c main_v26 (ix2 (0 : Fin 1) k) = B k) (hBT : ∀ n, W5 m c main_v23 (ix2 n (0 : Fin 1)) = BT n)
    (g k : Fin 128) :
    W6 m c main_v41_0 (ix2 g k)
      = ∑ n ∈ Finset.univ.filter (fun n : Fin 50000 => BT n = BitVec.ofNat 32 g.val), (A n k * D n + B k) := by
  refine ((congrFun (W6_arr m c 4) (ix2 g k)).trans (arr1_s1 (V5 m) c g k)).trans (?_ : @Eq EReal _ _)
  refine Finset.sum_congr (Finset.filter_congr fun n _ => ?_) fun n _ => ?_
  · show W5 m c main_v23 (ix2 n (0 : Fin 1)) = BitVec.ofNat 32 g.val ↔ _
    rw [hBT n]
  · exact congrArg₂ (fun a b : EReal => a + b) (congrArg₂ (fun a b : EReal => a * b) (hA n k) (hD n)) (hB k)

theorem l0_s2 (A : Fin 50000 → Fin 128 → EReal) (D : Fin 50000 → EReal) (B : Fin 128 → EReal) (BT : Fin 50000 → BitVec 32)
    (hA : ∀ n k, W5 m c main_v40 (ix2 n k) = A n k) (hD : ∀ n, W5 m c main_v15 (ix2 n (0 : Fin 1)) = D n)
    (hB : ∀ k, W5 m c main_v26 (ix2 (0 : Fin 1) k) = B k) (hBT : ∀ n, W5 m c main_v23 (ix2 n (0 : Fin 1)) = BT n)
    (g k : Fin 128) :
    W6 m c main_v41_1 (ix2 g k)
      = ∑ n ∈ Finset.univ.filter (fun n : Fin 50000 => BT n = BitVec.ofNat 32 g.val),
          (A n k * D n + B k) * (A n k * D n + B k) := by
  refine ((congrFun (W6_arr m c 5) (ix2 g k)).trans (arr1_s2 (V5 m) c g k)).trans (?_ : @Eq EReal _ _)
  refine Finset.sum_congr (Finset.filter_congr fun n _ => ?_) fun n _ => ?_
  · show W5 m c main_v23 (ix2 n (0 : Fin 1)) = BitVec.ofNat 32 g.val ↔ _
    rw [hBT n]
  · have h := congrArg₂ (fun a b : EReal => a + b) (congrArg₂ (fun a b : EReal => a * b) (hA n k) (hD n)) (hB k)
    exact congrArg₂ (fun a b : EReal => a * b) h h

theorem l0_outRaw (n : Fin 50000) (k : Fin 128)
    (hw : 0 ≤ (W11 m c main_v23 (ix2 n (0 : Fin 1))).toInt ∧ (W11 m c main_v23 (ix2 n (0 : Fin 1))).toInt < 128) :
    W12 m c main_v70 (ix2 n k)
      = normF (rdAt (W11 m c main_v66) 0 k) (rdAt (W11 m c main_v40) n k) (rdAt (W11 m c main_v15) n 0)
          (rdAt (W11 m c main_v26) 0 k) (rdAt (W11 m c main_v63) 0 k)
          (rdAt (W11 m c main_v60) ⟨(W11 m c main_v23 (ix2 n (0 : Fin 1))).toInt.toNat, by omega⟩ ⟨k.val, by have := k.isLt; omega⟩)
          (rdAt (W11 m c main_v60) ⟨(W11 m c main_v23 (ix2 n (0 : Fin 1))).toInt.toNat, by omega⟩ ⟨128 + k.val, by have := k.isLt; omega⟩)
          (rdAt (W11 m c main_v69) 0 k) (rdAt (W11 m c main_arg0) n k) :=
  (congrFun (W12_arr m c 9) (ix2 n k)).trans (arr2_out (V11 m) c n k hw)

def l0_to5 : Kept (W3 m) (W5 m) := (item4 m).trans (item5 m)
def l0_to6 : Kept (W3 m) (W6 m) := (l0_to5 m).trans (item6 m)
def l0_6to11 : Kept (W6 m) (W11 m) := ((((item7 m).trans (item8 m)).trans (item9 m)).trans (item10 m)).trans (item11 m)
def l0_to11 : Kept (W3 m) (W11 m) := (l0_to6 m).trans (l0_6to11 m)

theorem l0_k5_4 (i) : W4 m c main_v5 i = W3 m c main_v5 i := congrFun ((item4 m).keep c main_v5 rfl) i
theorem l0_k6_4 (i) : W4 m c main_v6 i = W3 m c main_v6 i := congrFun ((item4 m).keep c main_v6 rfl) i
theorem l0_k15_5 (i) : W5 m c main_v15 i = W3 m c main_v15 i := congrFun ((l0_to5 m).keep c main_v15 rfl) i
theorem l0_k23_5 (i) : W5 m c main_v23 i = W3 m c main_v23 i := congrFun ((l0_to5 m).keep c main_v23 rfl) i
theorem l0_k26_5 (i) : W5 m c main_v26 i = W3 m c main_v26 i := congrFun ((l0_to5 m).keep c main_v26 rfl) i
theorem l0_k22_6 (i) : W6 m c main_v22 i = W3 m c main_v22 i := congrFun ((l0_to6 m).keep c main_v22 rfl) i
theorem l0_k15_11 (i) : W11 m c main_v15 i = W3 m c main_v15 i := congrFun ((l0_to11 m).keep c main_v15 rfl) i
theorem l0_k23_11 (i) : W11 m c main_v23 i = W3 m c main_v23 i := congrFun ((l0_to11 m).keep c main_v23 rfl) i
theorem l0_k26_11 (i) : W11 m c main_v26 i = W3 m c main_v26 i := congrFun ((l0_to11 m).keep c main_v26 rfl) i
theorem l0_kx_11 (i) : W11 m c main_arg0 i = W3 m c main_arg0 i := congrFun ((l0_to11 m).keep c main_arg0 rfl) i
theorem l0_k40_11 (i) : W11 m c main_v40 i = W5 m c main_v40 i :=
  congrFun (((item6 m).trans (l0_6to11 m)).keep c main_v40 rfl) i
theorem l0_k58_10 (i) : W10 m c main_v58 i = W8 m c main_v58 i := congrFun (((item9 m).trans (item10 m)).keep c main_v58 rfl) i
theorem l0_k57_9 (i) : W9 m c main_v57 i = W7 m c main_v57 i := congrFun (((item8 m).trans (item9 m)).keep c main_v57 rfl) i

theorem layer0_out (hb : ∀ n : Fin 50000, 0 ≤ (bvK m c (ix1 n)).toInt ∧ (bvK m c (ix1 n)).toInt < 64) (n : Fin 50000) (k : Fin 128) :
    W12 m c main_v70 (ix2 n k)
      = layerK (grK m c hb) epsK twoK (parK m c 0) (fun n k => W3 m c main_arg0 (ix2 n k)) n k := by
  have hD : ∀ n, W3 m c main_v15 (ix2 n (0 : Fin 1)) = dinv (grK m c hb) n := dinv_col m c hb
  have hB : ∀ k, W3 m c main_v26 (ix2 (0 : Fin 1) k) = (parK m c 0).b k :=
    fun k => (l0_bias m c k).trans (congrFun (keep_arg4_W2 m c) _)
  have hBT : ∀ n, W3 m c main_v23 (ix2 n (0 : Fin 1)) = bvK m c (ix1 n) := batch_col m c
  have hC : ∀ g, W6 m c main_v22 (ix2 g (0 : Fin 1)) = cnt (grK m c hb) g :=
    fun g => (l0_k22_6 m c _).trans (cnt_col m c hb g)
  exact layerK_of_stages (sv := W3 m c main_v5) (tv := W3 m c main_v6) (hb := hb) (parK m c 0)
    (fun n k => W3 m c main_arg0 (ix2 n k)) (fun n k => W4 m c main_v29 (ix2 n k)) (fun n k => W5 m c main_v40 (ix2 n k))
    (fun n k => W12 m c main_v70 (ix2 n k)) _ _ _ _ _ _ _ _ _ _ _ _ _ _ _ _ _
    (fun g k => W6 m c main_v41_0 (ix2 g k)) (fun g k => W6 m c main_v41_1 (ix2 g k))
    (fun g k => W7 m c main_v44 (ix2 g k)) (fun g k => W7 m c main_v57 (ix2 g k)) (fun g j => W11 m c main_v60 (ix2 g j))
    (l0_hs m c) (l0_araw m c) (l0_s1 m c _ _ _ _ (fun _ _ => rfl) (fun _ => rfl) (fun _ => rfl) (fun _ => rfl))
    (l0_s2 m c _ _ _ _ (fun _ _ => rfl) (fun _ => rfl) (fun _ => rfl) (fun _ => rfl)) (l0_mean m c _ _ (fun _ _ => rfl) (fun _ => rfl))
    (l0_var m c _ _ _ _ (fun _ _ => rfl) (fun _ _ => rfl) (fun _ => rfl) (fun _ => rfl))
    (fun g k => (l0_tabMean m c _ k).trans ((l0_k58_10 m c _).trans (l0_padMean m c g k)))
    (fun g k => (l0_tabVar m c _ k).trans ((l0_padVar m c g k).trans (l0_k57_9 m c _)))
    (l0_outRaw m c)
    (fun j k => (l0_wslice m c j k).trans (congrFun (keep_arg3_W2 m c) _)) hD
    (fun _ => l0_k5_4 m c _) (fun _ => l0_k6_4 m c _)
    (fun n => (l0_k15_5 m c _).trans (hD n)) (fun k => (l0_k26_5 m c _).trans (hB k)) (fun n => (l0_k23_5 m c _).trans (hBT n))
    hC (fun k => congrFun (keep_arg7_W6 m c) _)
    (fun _ _ => l0_k40_11 m c _) (fun _ _ => l0_kx_11 m c _)
    (fun n => (l0_k23_11 m c _).trans (hBT n)) (fun n => (l0_k15_11 m c _).trans (hD n)) (fun k => (l0_k26_11 m c _).trans (hB k))
    (fun k => (l0_alphaRow m c k).trans (congrFun (keep_arg7_W10 m c) _)) (fun k => (l0_gammaRow m c k).trans (congrFun (keep_arg5_W10 m c) _))
    (fun k => (l0_betaRow m c k).trans (congrFun (keep_arg6_W10 m c) _))
    n k

end Cert.KernelIdeal.Hand

end
-- ==== Proof.Hand.Val3.lean ====
import proofs.«419822_j14680198218267_2_alg».proof.Proof.Hand.Body3
import proofs.«419822_j14680198218267_2_alg».proof.Proof.Hand.Val0

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

abbrev ent3_0 (c : Dev nD) : S50000x128.Idx → Ideal .f32 := V c (Pipeline.arrRef spec3 0)
abbrev ent3_1 (c : Dev nD) : S128x128.Idx → Ideal .f32 := V c (Pipeline.arrRef spec3 1)
abbrev ent3_2 (c : Dev nD) : S50000x1.Idx → Ideal .f32 := V c (Pipeline.arrRef spec3 2)

theorem idx3_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem iblk3_0_at (c : Dev nD) (t : Fin cfg3.N) (p : Fin 2000) (q j : Fin 128) :
    iblk3 V c 0 t (ix2 p j) = ent3_0 V c (ix2 ((((cfg3.win 3).blk t).view.emb (ix2 p q)) 0) j) := by
  obtain ⟨e00, e01, -, -, -, -, e30, -⟩ := idx3_facts t
  show V c (Pipeline.arrRef spec3 0) (((cfg3.win 0).blk t).view.emb (ix2 p j)) = V c (Pipeline.arrRef spec3 0) _
  refine congrArg (V c (Pipeline.arrRef spec3 0)) (funext fun a => Fin.ext ?_)
  match a with
  | ⟨0, _⟩ => show win3_0.index t (0 : Fin 2) * 2000 + 1 * p.val = win3_3.index t (0 : Fin 2) * 2000 + 1 * p.val; omega
  | ⟨1, _⟩ => show win3_0.index t (1 : Fin 2) * 128 + 1 * j.val = j.val; omega

theorem iblk3_1_at (c : Dev nD) (t : Fin cfg3.N) (p : Fin 2000) (q j : Fin 128) :
    iblk3 V c 1 t (ix2 j q) = ent3_1 V c (ix2 j ((((cfg3.win 3).blk t).view.emb (ix2 p q)) 1)) := by
  obtain ⟨-, -, e10, e11, -, -, -, e31⟩ := idx3_facts t
  show V c (Pipeline.arrRef spec3 1) (((cfg3.win 1).blk t).view.emb (ix2 j q)) = V c (Pipeline.arrRef spec3 1) _
  refine congrArg (V c (Pipeline.arrRef spec3 1)) (funext fun a => Fin.ext ?_)
  match a with
  | ⟨0, _⟩ => show win3_1.index t (0 : Fin 2) * 128 + 1 * j.val = j.val; omega
  | ⟨1, _⟩ => show win3_1.index t (1 : Fin 2) * 128 + 1 * q.val = win3_3.index t (1 : Fin 2) * 128 + 1 * q.val; omega

theorem iblk3_2_at (c : Dev nD) (t : Fin cfg3.N) (p : Fin 2000) (q : Fin 128) :
    iblk3 V c 2 t (ix2 p (0 : Fin 1)) = ent3_2 V c (ix2 ((((cfg3.win 3).blk t).view.emb (ix2 p q)) 0) (0 : Fin 1)) := by
  obtain ⟨-, -, -, -, e20, e21, e30, -⟩ := idx3_facts t
  show V c (Pipeline.arrRef spec3 2) (((cfg3.win 2).blk t).view.emb (ix2 p (0 : Fin 1))) = V c (Pipeline.arrRef spec3 2) _
  refine congrArg (V c (Pipeline.arrRef spec3 2)) (funext fun a => Fin.ext ?_)
  match a with
  | ⟨0, _⟩ => show win3_2.index t (0 : Fin 2) * 2000 + 1 * p.val = win3_3.index t (0 : Fin 2) * 2000 + 1 * p.val; omega
  | ⟨1, _⟩ => show win3_2.index t (1 : Fin 2) * 1 + 1 * 0 = 0; omega

theorem blk3_3_flushed (c : Dev nD) (t : Fin cfg3.N) :
    (dat3 V c).flushed 3 t = ((cfg3.win 3).blk t).view.read (Elt Ideal)
      (G0 (ent3_0 V c) (ent3_1 V c) (ent3_2 V c)) := by
  show (cfg3.win 3).cut (grid3.coords t) ((dat3 V c).after 3 t) = _
  rw [after3_3]
  unfold out0_3
  rw [View.canon_unit_zero zero0_off]
  simp only [View.ld_unit_zero (S := S2000x128) zero0_off, View.ld_unit_zero (S := S128x128) zero0_off, View.ld_unit_zero (S := S2000x1) zero0_off]
  funext y
  obtain ⟨p, q, rfl⟩ : ∃ (p : Fin 2000) (q : Fin 128), y = ix2 p q := ⟨y 0, y 1, eq_ix2 y⟩
  show k0_pay1 (F := Ideal) (iblk3 V c 0 t) (iblk3 V c 1 t) (iblk3 V c 2 t) (ix2 p q)
    = G0 (ent3_0 V c) (ent3_1 V c) (ent3_2 V c) (((cfg3.win 3).blk t).view.emb (ix2 p q))
  rw [k0_pay1_apply, iblk3_2_at V c t p q, Finset.sum_congr rfl fun j _ => by rw [iblk3_0_at V c t p q j, iblk3_1_at V c t p q j]]
  rfl

theorem cover3_3_arr (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, e30, e31⟩ := idx3_facts t
  refine ⟨t, flush3_3 t, ?_⟩
  show i ∈ ((View.whole main_v76).slice (win3_3.rect t)).set
  rw [View.set_slice_whole, Rect.mem_set_unit]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

theorem arr3_final (c : Dev nD) : (dat3 V c).arrAt 3 cfg3.N = G0 (ent3_0 V c) (ent3_1 V c) (ent3_2 V c) :=
  (dat3 V c).arrAt_eq_of_cover 3 _ (fun t _ => blk3_3_flushed V c t) cover3_3_arr

theorem arr3_out (c : Dev nD) (n : Fin 50000) (k : Fin 128) :
    (dat3 V c).arrAt 3 cfg3.N (ix2 n k)
      = (∑ j : Fin 128, ent3_0 V c (ix2 n j) * ent3_1 V c (ix2 j k)) * ent3_2 V c (ix2 n (0 : Fin 1)) := by
  rw [arr3_final]
  rfl

theorem arr3_in_0 (c : Dev nD) : (dat3 V c).arrAt 0 cfg3.N = V c (Pipeline.arrRef spec3 0) := (dat3 V c).arrAt_in 0 rfl cfg3.N
theorem arr3_in_2 (c : Dev nD) : (dat3 V c).arrAt 2 cfg3.N = V c (Pipeline.arrRef spec3 2) := (dat3 V c).arrAt_in 2 rfl cfg3.N

end Cert.KernelIdeal.Hand

end
-- ==== Proof.Hand.Val4.lean ====
import proofs.«419822_j14680198218267_2_alg».proof.Proof.Hand.Body4
import proofs.«419822_j14680198218267_2_alg».proof.Proof.Hand.Val1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem k4_idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

abbrev k4_Aff (X : S50000x128.Idx → EReal) (D : S50000x1.Idx → EReal) (B : S1x128.Idx → EReal) (n : Fin 50000) (k : Fin 128) : EReal :=
  X (ix2 n k) * D (ix2 n (0 : Fin 1)) + B (ix2 (0 : Fin 1) k)

abbrev k4_Hit (BT : S50000x1.Idx → BitVec 32) (n : Fin 50000) (g : Fin 128) : Prop :=
  BT (ix2 n (0 : Fin 1)) = BitVec.ofNat 32 g.val

theorem k4_lt (t : Fin cfg4.N) : t.val < 25 := lt_of_lt_of_eq t.isLt (show cfg4.N = 25 from N_4)

abbrev k4_last : Fin cfg4.N := ⟨24, by rw [show cfg4.N = 25 from N_4]; decide⟩

abbrev k4_X (c : Dev nD) : S50000x128.Idx → EReal := V c (Pipeline.arrRef spec4 0)
abbrev k4_BT (c : Dev nD) : S50000x1.Idx → BitVec 32 := V c (Pipeline.arrRef spec4 1)
abbrev k4_D (c : Dev nD) : S50000x1.Idx → EReal := V c (Pipeline.arrRef spec4 2)
abbrev k4_B (c : Dev nD) : S1x128.Idx → EReal := V c (Pipeline.arrRef spec4 3)

theorem iblk4_0_apply (c : Dev nD) (t : Fin cfg4.N) (r : Fin 2000) (k : Fin 128) :
    (iblk4 V c 0 t : Vec Ideal S2000x128 .f32) (ix2 r k) = k4_X V c (ix2 (k1_row t.val (k4_lt t) r) k) := by
  obtain ⟨e0, e1, -⟩ := k4_idx_facts t
  show V c (Pipeline.arrRef spec4 0) (((cfg4.win 0).blk t).view.emb (ix2 r k)) = _
  congr 1
  funext a; apply Fin.ext
  match a with
  | ⟨0, _⟩ => show win4_0.index t (0 : Fin 2) * 2000 + 1 * r.val = t.val * 2000 + 1 * r.val; rw [e0]
  | ⟨1, _⟩ => show win4_0.index t (1 : Fin 2) * 128 + 1 * k.val = k.val; rw [e1]; omega

theorem iblk4_1_apply (c : Dev nD) (t : Fin cfg4.N) (r : Fin 2000) :
    (iblk4 V c 1 t : Vec Ideal S2000x1 .i32) (ix2 r (0 : Fin 1)) = k4_BT V c (ix2 (k1_row t.val (k4_lt t) r) (0 : Fin 1)) := by
  obtain ⟨-, -, e0, e1, -⟩ := k4_idx_facts t
  show V c (Pipeline.arrRef spec4 1) (((cfg4.win 1).blk t).view.emb (ix2 r (0 : Fin 1))) = _
  congr 1
  funext a; apply Fin.ext
  match a with
  | ⟨0, _⟩ => show win4_1.index t (0 : Fin 2) * 2000 + 1 * r.val = t.val * 2000 + 1 * r.val; rw [e0]
  | ⟨1, _⟩ => show win4_1.index t (1 : Fin 2) * 1 + 1 * 0 = 0; rw [e1]

theorem iblk4_2_apply (c : Dev nD) (t : Fin cfg4.N) (r : Fin 2000) :
    (iblk4 V c 2 t : Vec Ideal S2000x1 .f32) (ix2 r (0 : Fin 1)) = k4_D V c (ix2 (k1_row t.val (k4_lt t) r) (0 : Fin 1)) := by
  obtain ⟨-, -, -, -, e0, e1, -⟩ := k4_idx_facts t
  show V c (Pipeline.arrRef spec4 2) (((cfg4.win 2).blk t).view.emb (ix2 r (0 : Fin 1))) = _
  congr 1
  funext a; apply Fin.ext
  match a with
  | ⟨0, _⟩ => show win4_2.index t (0 : Fin 2) * 2000 + 1 * r.val = t.val * 2000 + 1 * r.val; rw [e0]
  | ⟨1, _⟩ => show win4_2.index t (1 : Fin 2) * 1 + 1 * 0 = 0; rw [e1]

theorem iblk4_3_apply (c : Dev nD) (t : Fin cfg4.N) (k : Fin 128) :
    (iblk4 V c 3 t : Vec Ideal S1x128 .f32) (ix2 (0 : Fin 1) k) = k4_B V c (ix2 (0 : Fin 1) k) := by
  obtain ⟨-, -, -, -, -, -, e0, e1, -⟩ := k4_idx_facts t
  show V c (Pipeline.arrRef spec4 3) (((cfg4.win 3).blk t).view.emb (ix2 (0 : Fin 1) k)) = _
  congr 1
  funext a; apply Fin.ext
  match a with
  | ⟨0, _⟩ => show win4_3.index t (0 : Fin 2) * 1 + 1 * 0 = 0; rw [e0]
  | ⟨1, _⟩ => show win4_3.index t (1 : Fin 2) * 128 + 1 * k.val = k.val; rw [e1]; omega

def k4_x (c : Dev nD) (t : ℕ) : Vec Ideal S2000x128 .f32 := if h : t < cfg4.N then iblk4 V c 0 ⟨t, h⟩ else fun _ => 0
def k4_bt (c : Dev nD) (t : ℕ) : Vec Ideal S2000x1 .i32 := if h : t < cfg4.N then iblk4 V c 1 ⟨t, h⟩ else fun _ => 0
def k4_d (c : Dev nD) (t : ℕ) : Vec Ideal S2000x1 .f32 := if h : t < cfg4.N then iblk4 V c 2 ⟨t, h⟩ else fun _ => 0
def k4_b (c : Dev nD) (t : ℕ) : Vec Ideal S1x128 .f32 := if h : t < cfg4.N then iblk4 V c 3 ⟨t, h⟩ else fun _ => 0

def k4_contrib (φ : EReal → EReal) (c : Dev nD) (t : ℕ) (g k : Fin 128) : EReal :=
  ∑ r : Fin 2000, k1_hot (k4_bt V c t) r g * φ (k1_aff (k4_x V c t) (k4_d V c t) (k4_b V c t) r k)

-- The accumulators follow the first layer's recursion: its fill, then its step over this layer's blocks.
theorem sc4_0_closed (c : Dev nD) : ∀ (n : ℕ) (h : n < cfg4.N) (g k : Fin 128),
    (sc4 V c n h).1 (ix2 g k) = ∑ t ∈ Finset.range (n + 1), k4_contrib V (fun a => a) c t g k :=
  k1_chain_closed cfg4.N (k4_contrib V (fun a => a) c) (fun n h => (sc4 V c n h).1)
    (fun h g k => by
      show step1_0 _ _ _ _ zero1_0 (ix2 g k) = _
      rw [step1_0_apply, zero1_0_apply]
      unfold k4_contrib k4_x k4_bt k4_d k4_b
      simp only [dif_pos h])
    (fun n h g k => by
      show step1_0 _ _ _ _ (sc4 V c n _).1 (ix2 g k) = _
      rw [step1_0_apply]
      unfold k4_contrib k4_x k4_bt k4_d k4_b
      simp only [dif_pos h])

theorem sc4_1_closed (c : Dev nD) : ∀ (n : ℕ) (h : n < cfg4.N) (g k : Fin 128),
    (sc4 V c n h).2 (ix2 g k) = ∑ t ∈ Finset.range (n + 1), k4_contrib V (fun a => a * a) c t g k :=
  k1_chain_closed cfg4.N (k4_contrib V (fun a => a * a) c) (fun n h => (sc4 V c n h).2)
    (fun h g k => by
      show step1_1 _ _ _ _ zero1_1 (ix2 g k) = _
      rw [step1_1_apply, zero1_1_apply]
      unfold k4_contrib k4_x k4_bt k4_d k4_b
      simp only [dif_pos h])
    (fun n h g k => by
      show step1_1 _ _ _ _ (sc4 V c n _).2 (ix2 g k) = _
      rw [step1_1_apply]
      unfold k4_contrib k4_x k4_bt k4_d k4_b
      simp only [dif_pos h])

theorem k4_contrib_total (φ : EReal → EReal) (c : Dev nD) (g k : Fin 128) :
    ∑ t ∈ Finset.range 25, k4_contrib V φ c t g k
      = ∑ n ∈ Finset.univ.filter (fun n : Fin 50000 => k4_Hit (k4_BT V c) n g), φ (k4_Aff (k4_X V c) (k4_D V c) (k4_B V c) n k) := by
  have hN : cfg4.N = 25 := N_4
  unfold k4_contrib
  exact k1_total φ (k4_X V c) (k4_D V c) (k4_B V c) (k4_BT V c) (k4_x V c) (k4_d V c) (k4_b V c) (k4_bt V c)
    (fun t ht r k => by unfold k4_x; rw [dif_pos (hN ▸ ht)]; exact iblk4_0_apply V c ⟨t, hN ▸ ht⟩ r k)
    (fun t ht r => by unfold k4_d; rw [dif_pos (hN ▸ ht)]; exact iblk4_2_apply V c ⟨t, hN ▸ ht⟩ r)
    (fun t ht k => by unfold k4_b; rw [dif_pos (hN ▸ ht)]; exact iblk4_3_apply V c ⟨t, hN ▸ ht⟩ k)
    (fun t ht r => by unfold k4_bt; rw [dif_pos (hN ▸ ht)]; exact iblk4_1_apply V c ⟨t, hN ▸ ht⟩ r)
    g k

def k4_S1 (c : Dev nD) : S128x128.Idx → EReal := fun i =>
  ∑ n ∈ Finset.univ.filter (fun n : Fin 50000 => k4_Hit (k4_BT V c) n (i 0)), k4_Aff (k4_X V c) (k4_D V c) (k4_B V c) n (i 1)
def k4_S2 (c : Dev nD) : S128x128.Idx → EReal := fun i =>
  ∑ n ∈ Finset.univ.filter (fun n : Fin 50000 => k4_Hit (k4_BT V c) n (i 0)),
    k4_Aff (k4_X V c) (k4_D V c) (k4_B V c) n (i 1) * k4_Aff (k4_X V c) (k4_D V c) (k4_B V c) n (i 1)

theorem k4_emb_4 (t : Fin cfg4.N) (j : S128x128.Idx) : ((cfg4.win 4).blk t).view.emb j = j := by
  obtain ⟨-, -, -, -, -, -, -, -, e0, e1, -⟩ := k4_idx_facts t
  funext a; apply Fin.ext
  match a with
  | ⟨0, _⟩ => show win4_4.index t (0 : Fin 2) * 128 + 1 * (j 0).val = (j 0).val; rw [e0]; omega
  | ⟨1, _⟩ => show win4_4.index t (1 : Fin 2) * 128 + 1 * (j 1).val = (j 1).val; rw [e1]; omega

theorem k4_emb_5 (t : Fin cfg4.N) (j : S128x128.Idx) : ((cfg4.win 5).blk t).view.emb j = j := by
  obtain ⟨-, -, -, -, -, -, -, -, -, -, e0, e1⟩ := k4_idx_facts t
  funext a; apply Fin.ext
  match a with
  | ⟨0, _⟩ => show win4_5.index t (0 : Fin 2) * 128 + 1 * (j 0).val = (j 0).val; rw [e0]; omega
  | ⟨1, _⟩ => show win4_5.index t (1 : Fin 2) * 128 + 1 * (j 1).val = (j 1).val; rw [e1]; omega

set_option maxRecDepth 200000 in
theorem flushed4_4_eq (c : Dev nD) (t : Fin cfg4.N) (hf : (cfg4.win 4).flush t = true) :
    (dat4 V c).flushed 4 t = ((cfg4.win 4).blk t).view.read (Elt Ideal) (k4_S1 V c) := by
  have h24 : t.val = 24 := by have := (flush4_4 t).mp hf; have := k4_lt t; omega
  show (cfg4.win 4).cut (grid4.coords t) ((dat4 V c).after 4 t) = _
  rw [after4_4]
  funext j
  show (sc4 V c t.val t.isLt).1 j = k4_S1 V c (((cfg4.win 4).blk t).view.emb j)
  rw [k4_emb_4]
  obtain ⟨g, k, rfl⟩ : ∃ (g : Fin 128) (k : Fin 128), j = ix2 g k := ⟨j 0, j 1, eq_ix2 j⟩
  rw [sc4_0_closed, h24]
  exact k4_contrib_total V (fun a => a) c g k

set_option maxRecDepth 200000 in
theorem flushed4_5_eq (c : Dev nD) (t : Fin cfg4.N) (hf : (cfg4.win 5).flush t = true) :
    (dat4 V c).flushed 5 t = ((cfg4.win 5).blk t).view.read (Elt Ideal) (k4_S2 V c) := by
  have h24 : t.val = 24 := by have := (flush4_5 t).mp hf; have := k4_lt t; omega
  show (cfg4.win 5).cut (grid4.coords t) ((dat4 V c).after 5 t) = _
  rw [after4_5]
  funext j
  show (sc4 V c t.val t.isLt).2 j = k4_S2 V c (((cfg4.win 5).blk t).view.emb j)
  rw [k4_emb_5]
  obtain ⟨g, k, rfl⟩ : ∃ (g : Fin 128) (k : Fin 128), j = ix2 g k := ⟨j 0, j 1, eq_ix2 j⟩
  rw [sc4_1_closed, h24]
  exact k4_contrib_total V (fun a => a * a) c g k

-- The last point's block of each output is the whole array, so it holds every index.
theorem k4_cover_4 (i : S128x128.Idx) : ∃ t : Fin cfg4.N, (cfg4.win 4).flush t = true ∧ i ∈ ((cfg4.win 4).blk t).view.set :=
  ⟨k4_last, (flush4_4 k4_last).mpr rfl, k4_emb_4 k4_last i ▸ View.emb_mem_set ((cfg4.win 4).blk k4_last).view i⟩

theorem k4_cover_5 (i : S128x128.Idx) : ∃ t : Fin cfg4.N, (cfg4.win 5).flush t = true ∧ i ∈ ((cfg4.win 5).blk t).view.set :=
  ⟨k4_last, (flush4_5 k4_last).mpr rfl, k4_emb_5 k4_last i ▸ View.emb_mem_set ((cfg4.win 5).blk k4_last).view i⟩

theorem arr4_s1 (c : Dev nD) (g k : Fin 128) :
    (dat4 (F := Ideal) V c).arrAt 4 cfg4.N (ix2 g k)
      = ∑ n ∈ Finset.univ.filter (fun n : Fin 50000 => k4_Hit (k4_BT V c) n g), k4_Aff (k4_X V c) (k4_D V c) (k4_B V c) n k :=
  congrFun ((dat4 V c).arrAt_eq_of_cover 4 (k4_S1 V c) (flushed4_4_eq V c) (k4_cover_4)) (ix2 g k)

theorem arr4_s2 (c : Dev nD) (g k : Fin 128) :
    (dat4 (F := Ideal) V c).arrAt 5 cfg4.N (ix2 g k)
      = ∑ n ∈ Finset.univ.filter (fun n : Fin 50000 => k4_Hit (k4_BT V c) n g),
          k4_Aff (k4_X V c) (k4_D V c) (k4_B V c) n k * k4_Aff (k4_X V c) (k4_D V c) (k4_B V c) n k :=
  congrFun ((dat4 V c).arrAt_eq_of_cover 5 (k4_S2 V c) (flushed4_5_eq V c) (k4_cover_5)) (ix2 g k)

theorem arr4_in (c : Dev nD) (w : Fin cfg4.W) (hw : w.val < 4) :
    (dat4 (F := Ideal) V c).arrAt w cfg4.N = V c (Pipeline.arrRef spec4 w) := by
  rw [← A_eq4 V c w]
  exact (dat4 V c).arrAt_in w (by
    match w, hw with
    | ⟨0, _⟩, _ => rfl
    | ⟨1, _⟩, _ => rfl
    | ⟨2, _⟩, _ => rfl
    | ⟨3, _⟩, _ => rfl) cfg4.N

end Cert.KernelIdeal.Hand

end
-- ==== Proof.Hand.Val5.lean ====
import proofs.«419822_j14680198218267_2_alg».proof.Proof.Hand.Body5
import proofs.«419822_j14680198218267_2_alg».proof.Proof.Hand.Val2

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- The scaled and centred payload is the first layer's, term for term.
theorem k5_pay4_eq : k5_pay4 (F := Ideal) = k2_pay2 (F := Ideal) := rfl

-- The stored value is the first layer's: only where the shift row is broadcast and two casts to the same shape differ.
theorem k5_store_apply (x0 x1 : FVec Ideal S2000x128 .f32) (x2 : IVec S2000x1 32) (x3 : FVec Ideal S2000x1 .f32) (x4 : FVec Ideal S1x128 .f32)
    (x5 : FVec Ideal S128x256 .f32) (x6 x7 x8 : FVec Ideal S1x128 .f32) (p : Fin 2000) (q : Fin 128) :
    k5_pay1 (F := Ideal) (k5_pay2 (F := Ideal) x1) (k5_pay3 (F := Ideal) x8) (k5_pay4 (F := Ideal) x0 x3 x4 x2 x5 x6 x7) (ix2 p q)
      = norm2 (x0 (ix2 p q)) (x3 (ix2 p (0 : Fin 1))) (x4 (ix2 (0 : Fin 1) q)) (x6 (ix2 (0 : Fin 1) q)) (x7 (ix2 (0 : Fin 1) q))
          (x8 (ix2 (0 : Fin 1) q)) (x1 (ix2 p q)) x5 (x2 (ix2 p (0 : Fin 1))) q := by
  rw [← k2_store_apply, k5_pay4_eq]
  unfold k5_pay1 k5_pay2 k5_pay3 k2_pay1 k2_pay3
  simp only [shapeCast_self]

section Value5

variable (V : (c : Dev nD) → (b : Ref sig .tc) → Buf (Elt Ideal) ((c : Thread nD τ).loc b))

def res5 (c : Dev nD) : FVec Ideal S50000x128 .f32 :=
  G2 (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5)) (V c (Pipeline.arrRef spec5 6)) (V c (Pipeline.arrRef spec5 7))
    (V c (Pipeline.arrRef spec5 8))

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

def row5 (t : Fin cfg5.N) (p : Fin 2000) : Fin 50000 :=
  ⟨2000 * t.val + p.val, by have := t.isLt; have hN : cfg5.N = 25 := N_5; have := p.isLt; omega⟩

theorem iblk5_0_apply (c : Dev nD) (t : Fin cfg5.N) (p : Fin 2000) (q : Fin 128) :
    (iblk5 V c 0 t : Vec Ideal S2000x128 .f32) (ix2 p q)
      = (V c (Pipeline.arrRef spec5 0) : S50000x128.Idx → Elt Ideal .f32) (ix2 (row5 t p) q) := by
  obtain ⟨e0, e1, -⟩ := idx_facts5 t
  show V c (Pipeline.arrRef spec5 0) (((cfg5.win 0).blk t).view.emb (ix2 p q)) = V c (Pipeline.arrRef spec5 0) (ix2 (row5 t p) q)
  refine congrArg (V c (Pipeline.arrRef spec5 0)) (funext fun a => Fin.ext ?_)
  match a with
  | ⟨0, _⟩ => show win5_0.index t (0 : Fin 2) * 2000 + 1 * p.val = 2000 * t.val + p.val; rw [e0]; omega
  | ⟨1, _⟩ => show win5_0.index t (1 : Fin 2) * 128 + 1 * q.val = q.val; rw [e1]; omega

theorem iblk5_1_apply (c : Dev nD) (t : Fin cfg5.N) (p : Fin 2000) (q : Fin 128) :
    (iblk5 V c 1 t : Vec Ideal S2000x128 .f32) (ix2 p q)
      = (V c (Pipeline.arrRef spec5 1) : S50000x128.Idx → Elt Ideal .f32) (ix2 (row5 t p) q) := by
  obtain ⟨-, -, e0, e1, -⟩ := idx_facts5 t
  show V c (Pipeline.arrRef spec5 1) (((cfg5.win 1).blk t).view.emb (ix2 p q)) = V c (Pipeline.arrRef spec5 1) (ix2 (row5 t p) q)
  refine congrArg (V c (Pipeline.arrRef spec5 1)) (funext fun a => Fin.ext ?_)
  match a with
  | ⟨0, _⟩ => show win5_1.index t (0 : Fin 2) * 2000 + 1 * p.val = 2000 * t.val + p.val; rw [e0]; omega
  | ⟨1, _⟩ => show win5_1.index t (1 : Fin 2) * 128 + 1 * q.val = q.val; rw [e1]; omega

theorem iblk5_2_apply (c : Dev nD) (t : Fin cfg5.N) (p : Fin 2000) :
    (iblk5 V c 2 t : Vec Ideal S2000x1 .i32) (ix2 p (0 : Fin 1))
      = (V c (Pipeline.arrRef spec5 2) : S50000x1.Idx → Elt Ideal .i32) (ix2 (row5 t p) (0 : Fin 1)) := by
  obtain ⟨-, -, -, -, e0, e1, -⟩ := idx_facts5 t
  show V c (Pipeline.arrRef spec5 2) (((cfg5.win 2).blk t).view.emb (ix2 p (0 : Fin 1))) = V c (Pipeline.arrRef spec5 2) (ix2 (row5 t p) (0 : Fin 1))
  refine congrArg (V c (Pipeline.arrRef spec5 2)) (funext fun a => Fin.ext ?_)
  match a with
  | ⟨0, _⟩ => show win5_2.index t (0 : Fin 2) * 2000 + 1 * p.val = 2000 * t.val + p.val; rw [e0]; omega
  | ⟨1, _⟩ => show win5_2.index t (1 : Fin 2) * 1 + 1 * 0 = 0; rw [e1]

theorem iblk5_3_apply (c : Dev nD) (t : Fin cfg5.N) (p : Fin 2000) :
    (iblk5 V c 3 t : Vec Ideal S2000x1 .f32) (ix2 p (0 : Fin 1))
      = (V c (Pipeline.arrRef spec5 3) : S50000x1.Idx → Elt Ideal .f32) (ix2 (row5 t p) (0 : Fin 1)) := by
  obtain ⟨-, -, -, -, -, -, e0, e1, -⟩ := idx_facts5 t
  show V c (Pipeline.arrRef spec5 3) (((cfg5.win 3).blk t).view.emb (ix2 p (0 : Fin 1))) = V c (Pipeline.arrRef spec5 3) (ix2 (row5 t p) (0 : Fin 1))
  refine congrArg (V c (Pipeline.arrRef spec5 3)) (funext fun a => Fin.ext ?_)
  match a with
  | ⟨0, _⟩ => show win5_3.index t (0 : Fin 2) * 2000 + 1 * p.val = 2000 * t.val + p.val; rw [e0]; omega
  | ⟨1, _⟩ => show win5_3.index t (1 : Fin 2) * 1 + 1 * 0 = 0; rw [e1]

theorem iblk5_4_eq (c : Dev nD) (t : Fin cfg5.N) :
    (iblk5 V c 4 t : Vec Ideal S1x128 .f32) = (V c (Pipeline.arrRef spec5 4) : S1x128.Idx → Elt Ideal .f32) := by
  obtain ⟨-, -, -, -, -, -, -, -, e0, e1, -⟩ := idx_facts5 t
  funext y
  show V c (Pipeline.arrRef spec5 4) (((cfg5.win 4).blk t).view.emb y) = V c (Pipeline.arrRef spec5 4) y
  refine congrArg (V c (Pipeline.arrRef spec5 4)) (funext fun a => Fin.ext ?_)
  match a with
  | ⟨0, _⟩ => show win5_4.index t (0 : Fin 2) * 1 + 1 * (y 0).val = (y 0).val; rw [e0]; omega
  | ⟨1, _⟩ => show win5_4.index t (1 : Fin 2) * 128 + 1 * (y 1).val = (y 1).val; rw [e1]; omega

theorem iblk5_5_eq (c : Dev nD) (t : Fin cfg5.N) :
    (iblk5 V c 5 t : Vec Ideal S128x256 .f32) = (V c (Pipeline.arrRef spec5 5) : S128x256.Idx → Elt Ideal .f32) := by
  obtain ⟨-, -, -, -, -, -, -, -, -, -, e0, e1, -⟩ := idx_facts5 t
  funext y
  show V c (Pipeline.arrRef spec5 5) (((cfg5.win 5).blk t).view.emb y) = V c (Pipeline.arrRef spec5 5) y
  refine congrArg (V c (Pipeline.arrRef spec5 5)) (funext fun a => Fin.ext ?_)
  match a with
  | ⟨0, _⟩ => show win5_5.index t (0 : Fin 2) * 128 + 1 * (y 0).val = (y 0).val; rw [e0]; omega
  | ⟨1, _⟩ => show win5_5.index t (1 : Fin 2) * 256 + 1 * (y 1).val = (y 1).val; rw [e1]; omega

theorem iblk5_6_eq (c : Dev nD) (t : Fin cfg5.N) :
    (iblk5 V c 6 t : Vec Ideal S1x128 .f32) = (V c (Pipeline.arrRef spec5 6) : S1x128.Idx → Elt Ideal .f32) := by
  obtain ⟨-, -, -, -, -, -, -, -, -, -, -, -, e0, e1, -⟩ := idx_facts5 t
  funext y
  show V c (Pipeline.arrRef spec5 6) (((cfg5.win 6).blk t).view.emb y) = V c (Pipeline.arrRef spec5 6) y
  refine congrArg (V c (Pipeline.arrRef spec5 6)) (funext fun a => Fin.ext ?_)
  match a with
  | ⟨0, _⟩ => show win5_6.index t (0 : Fin 2) * 1 + 1 * (y 0).val = (y 0).val; rw [e0]; omega
  | ⟨1, _⟩ => show win5_6.index t (1 : Fin 2) * 128 + 1 * (y 1).val = (y 1).val; rw [e1]; omega

theorem iblk5_7_eq (c : Dev nD) (t : Fin cfg5.N) :
    (iblk5 V c 7 t : Vec Ideal S1x128 .f32) = (V c (Pipeline.arrRef spec5 7) : S1x128.Idx → Elt Ideal .f32) := by
  obtain ⟨-, -, -, -, -, -, -, -, -, -, -, -, -, -, e0, e1, -⟩ := idx_facts5 t
  funext y
  show V c (Pipeline.arrRef spec5 7) (((cfg5.win 7).blk t).view.emb y) = V c (Pipeline.arrRef spec5 7) y
  refine congrArg (V c (Pipeline.arrRef spec5 7)) (funext fun a => Fin.ext ?_)
  match a with
  | ⟨0, _⟩ => show win5_7.index t (0 : Fin 2) * 1 + 1 * (y 0).val = (y 0).val; rw [e0]; omega
  | ⟨1, _⟩ => show win5_7.index t (1 : Fin 2) * 128 + 1 * (y 1).val = (y 1).val; rw [e1]; omega

theorem iblk5_8_eq (c : Dev nD) (t : Fin cfg5.N) :
    (iblk5 V c 8 t : Vec Ideal S1x128 .f32) = (V c (Pipeline.arrRef spec5 8) : S1x128.Idx → Elt Ideal .f32) := by
  obtain ⟨-, -, -, -, -, -, -, -, -, -, -, -, -, -, -, -, e0, e1, -⟩ := idx_facts5 t
  funext y
  show V c (Pipeline.arrRef spec5 8) (((cfg5.win 8).blk t).view.emb y) = V c (Pipeline.arrRef spec5 8) y
  refine congrArg (V c (Pipeline.arrRef spec5 8)) (funext fun a => Fin.ext ?_)
  match a with
  | ⟨0, _⟩ => show win5_8.index t (0 : Fin 2) * 1 + 1 * (y 0).val = (y 0).val; rw [e0]; omega
  | ⟨1, _⟩ => show win5_8.index t (1 : Fin 2) * 128 + 1 * (y 1).val = (y 1).val; rw [e1]; omega

set_option maxHeartbeats 1000000 in

theorem flushed5_eq (c : Dev nD) (t : Fin cfg5.N) :
    (dat5 (F := Ideal) V c).flushed 9 t = ((cfg5.win 9).blk t).view.read (Elt Ideal) (res5 V c) := by
  show (cfg5.win 9).cut (grid5.coords t) ((dat5 (F := Ideal) V c).after 9 t) = _
  rw [after5_9]
  unfold out5_9
  rw [View.canon_unit_zero hz2]
  simp only [View.ld_unit_zero (S := S2000x128) hz2, View.ld_unit_zero (S := S2000x1) hz2, View.ld_unit_zero (S := S1x128) hz2,
    View.ld_unit_zero (S := S128x256) hz2]
  funext j
  have hp : (j 0).val < 2000 := (j 0).isLt
  have hq : (j 1).val < 128 := (j 1).isLt
  have hj : (cfg5.win 9).xinj (grid5.coords t) j = ix2 (⟨(j 0).val, hp⟩ : Fin 2000) (⟨(j 1).val, hq⟩ : Fin 128) :=
    funext fun a => by match a with | ⟨0, _⟩ => rfl | ⟨1, _⟩ => rfl
  have hemb : ((cfg5.win 9).blk t).view.emb j = ix2 (row5 t ⟨(j 0).val, hp⟩) (⟨(j 1).val, hq⟩ : Fin 128) := by
    obtain ⟨-, -, -, -, -, -, -, -, -, -, -, -, -, -, -, -, -, -, e0, e1⟩ := idx_facts5 t
    funext a; apply Fin.ext
    match a with
    | ⟨0, _⟩ => show win5_9.index t (0 : Fin 2) * 2000 + 1 * (j 0).val = 2000 * t.val + (j 0).val; rw [e0]; omega
    | ⟨1, _⟩ => show win5_9.index t (1 : Fin 2) * 128 + 1 * (j 1).val = (j 1).val; rw [e1]; omega
  show k5_pay1 (F := Ideal) (k5_pay2 (F := Ideal) (iblk5 V c 1 t)) (k5_pay3 (F := Ideal) (iblk5 V c 8 t))
      (k5_pay4 (F := Ideal) (iblk5 V c 0 t) (iblk5 V c 3 t) (iblk5 V c 4 t) (iblk5 V c 2 t) (iblk5 V c 5 t) (iblk5 V c 6 t) (iblk5 V c 7 t))
      ((cfg5.win 9).xinj (grid5.coords t) j)
    = res5 V c (((cfg5.win 9).blk t).view.emb j)
  rw [hj, hemb, iblk5_4_eq, iblk5_5_eq, iblk5_6_eq, iblk5_7_eq, iblk5_8_eq, k5_store_apply, iblk5_0_apply, iblk5_1_apply, iblk5_2_apply,
    iblk5_3_apply]
  rfl

theorem mem_blk5 (t : Fin cfg5.N) (i : S50000x128.Idx) :
    i ∈ ((cfg5.win 9).blk t).view.set
      ↔ ∀ a : Fin 2, win5_9.index t a * S2000x128.size a ≤ (i a).val ∧ (i a).val < win5_9.index t a * S2000x128.size a + S2000x128.size a := by
  show i ∈ ((View.whole main_v117).slice (win5_9.rect t)).set ↔ _
  rw [View.set_slice_whole, Rect.mem_set_unit]
  exact Iff.rfl

theorem cover5 (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 :=
    ⟨⟨(i 0).val / 2000, Nat.lt_of_lt_of_eq (by omega : (i 0).val / 2000 < 25) hN.symm⟩, rfl⟩
  obtain ⟨-, -, -, -, -, -, -, -, -, -, -, -, -, -, -, -, -, -, e0, e1⟩ := idx_facts5 t
  refine ⟨t, flush5_9 t, ?_⟩
  rw [mem_blk5]
  intro a
  match a with
  | ⟨0, _⟩ =>
    show win5_9.index t (0 : Fin 2) * 2000 ≤ (i 0).val ∧ (i 0).val < win5_9.index t (0 : Fin 2) * 2000 + 2000
    rw [e0, ht]; omega
  | ⟨1, _⟩ =>
    show win5_9.index t (1 : Fin 2) * 128 ≤ (i 1).val ∧ (i 1).val < win5_9.index t (1 : Fin 2) * 128 + 128
    rw [e1]; omega

theorem final5 (c : Dev nD) : (dat5 (F := Ideal) V c).arrAt 9 cfg5.N = res5 V c :=
  (dat5 (F := Ideal) V c).arrAt_eq_of_cover 9 (res5 V c) (fun t _ => flushed5_eq V c t) cover5

abbrev araw5 (c : Dev nD) : FVec Ideal S50000x128 .f32 := V c (Pipeline.arrRef spec5 0)
abbrev xres5 (c : Dev nD) : FVec Ideal S50000x128 .f32 := V c (Pipeline.arrRef spec5 1)
abbrev batch5 (c : Dev nD) : IVec S50000x1 32 := V c (Pipeline.arrRef spec5 2)
abbrev dinv5 (c : Dev nD) : FVec Ideal S50000x1 .f32 := V c (Pipeline.arrRef spec5 3)
abbrev bias5 (c : Dev nD) : FVec Ideal S1x128 .f32 := V c (Pipeline.arrRef spec5 4)
abbrev mvtab5 (c : Dev nD) : FVec Ideal S128x256 .f32 := V c (Pipeline.arrRef spec5 5)
abbrev alpha5 (c : Dev nD) : FVec Ideal S1x128 .f32 := V c (Pipeline.arrRef spec5 6)
abbrev gamma5 (c : Dev nD) : FVec Ideal S1x128 .f32 := V c (Pipeline.arrRef spec5 7)
abbrev beta5 (c : Dev nD) : FVec Ideal S1x128 .f32 := V c (Pipeline.arrRef spec5 8)

theorem arr5_out (c : Dev nD) (n : Fin 50000) (k : Fin 128)
    (hb : 0 ≤ (batch5 V c (ix2 n (0 : Fin 1))).toInt ∧ (batch5 V c (ix2 n (0 : Fin 1))).toInt < 128) :
    (dat5 (F := Ideal) V c).arrAt 9 cfg5.N (ix2 n k)
      = max (gamma5 V c (ix2 (0 : Fin 1) k)
              * (araw5 V c (ix2 n k) * dinv5 V c (ix2 n (0 : Fin 1)) + bias5 V c (ix2 (0 : Fin 1) k)
                  - alpha5 V c (ix2 (0 : Fin 1) k)
                    * mvtab5 V c (ix2 (⟨(batch5 V c (ix2 n (0 : Fin 1))).toInt.toNat, by omega⟩ : Fin 128) (⟨k.val, by have := k.isLt; omega⟩ : Fin 256)))
              * Ideal.rsqrt (mvtab5 V c (ix2 (⟨(batch5 V c (ix2 n (0 : Fin 1))).toInt.toNat, by omega⟩ : Fin 128) (⟨128 + k.val, by have := k.isLt; omega⟩ : Fin 256))
                  + Ideal.ofBits .f32 0x3727C5AC#32)
              + beta5 V c (ix2 (0 : Fin 1) k)) 0
          + xres5 V c (ix2 n k) := by
  refine (congrFun (final5 V c) (ix2 n k)).trans ?_
  exact norm2_eq (araw5 V c (ix2 n k)) (dinv5 V c (ix2 n (0 : Fin 1))) (bias5 V c (ix2 (0 : Fin 1) k)) (alpha5 V c (ix2 (0 : Fin 1) k))
    (gamma5 V c (ix2 (0 : Fin 1) k)) (beta5 V c (ix2 (0 : Fin 1) k)) (xres5 V c (ix2 n k)) (mvtab5 V c) (batch5 V c (ix2 n (0 : Fin 1))) hb k

end Value5

section Inputs5
variable {F : FTy → Type} [FloatOps F]
variable (V : (c : Dev nD) → (b : Ref sig .tc) → Buf (Elt F) ((c : Thread nD τ).loc b))

theorem arr5_in (c : Dev nD) (w : Fin cfg5.W) (hw : w.val < 9) : (dat5 V c).arrAt w cfg5.N = V c (Pipeline.arrRef spec5 w) := by
  have hin : (cfg5.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
    | ⟨8, _⟩, _ => rfl
    | ⟨n + 9, _⟩, h => exact absurd h (by simp)
  rw [(dat5 V c).arrAt_in w hin cfg5.N, A_eq5]

end Inputs5

end Cert.KernelIdeal.Hand

end
-- ==== Proof.Hand.KLayer1.lean ====
import proofs.«419822_j14680198218267_2_alg».proof.Proof.Hand.KLayer0
import proofs.«419822_j14680198218267_2_alg».proof.Proof.Hand.Val3
import proofs.«419822_j14680198218267_2_alg».proof.Proof.Hand.Val4
import proofs.«419822_j14680198218267_2_alg».proof.Proof.Hand.Val5

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Cert.LibGS Cert.GcnSpec

variable (m : (ℓ : Loc nD τ sig) → Buf (Elt Ideal) ℓ) (c : Dev nD)

theorem l1_wslice (j k : Fin 128) : W13 m c main_v75 (ix2 j k) = W12 m c main_arg3 (ix3 (1 : Fin 3) j k) := by
  show StableHlo.after _ _ (Proc.devRef .tc main_v75) _ = _
  generalize W12 m c = V
  after_results_simp
  exact matSlice_apply (1 : Fin 3) _ _ _ j k

theorem l1_bias (k : Fin 128) : W13 m c main_v73 (ix2 (0 : Fin 1) k) = W12 m c main_arg4 (ix2 (1 : Fin 3) k) := by
  show StableHlo.after _ _ (Proc.devRef .tc main_v73) _ = _
  generalize W12 m c = V
  after_results_simp
  exact rowSlice_apply (1 : Fin 3) _ _ _ _ k

theorem l1_araw (n : Fin 50000) (k : Fin 128) :
    W15 m c main_v87 (ix2 n k)
      = 0 + ∑ e ∈ Finset.univ.filter (fun e : Fin 1649454 => landRow 50000 (W14 m c main_v6 (ix1 e)) = some n),
          rdAt (W14 m c main_v76) (clampRow 50000 (by omega) (wrapRow 50000 (W14 m c main_v5 (ix1 e)))) k := by
  show StableHlo.after _ _ (Proc.devRef .tc main_v87) _ = _
  generalize W14 m c = V
  after_results_simp
  refine (scatterAdd_row (R := 50000) (C := 128) (n := 1649454) _ rfl rfl rfl rfl _ _ _ n k).trans ?_
  refine congrArg₂ (fun a b : EReal => a + b) ?_ ?_
  · exact (broadcastInDim_scalar_apply _ _ _).trans Ideal.ofBits_zero_f32
  · refine Finset.sum_congr (Finset.filter_congr fun e _ => by rw [col_apply]) fun e _ => ?_
    show Host.gather _ _ _ (ix2 e k) = _
    refine (gather_row (R := 50000) (C := 128) (n := 1649454) _ rfl rfl rfl rfl rfl (by omega) _ _ e k).trans ?_
    rw [col_apply]
    exact congrArg (fun w => V (Proc.devRef .tc main_v76) (ix2 (clampRow 50000 (by omega) w) k)) (wrapRow_eq_select 50000 _)

theorem l1_mean (S1 : Fin 64 → Fin 128 → EReal) (C : Fin 64 → EReal)
    (hS1 : ∀ g k, W16 m c main_v88_0 (ix2 (Fin.castLE (by omega) g : Fin 128) k) = S1 g k)
    (hC : ∀ g, W16 m c main_v22 (ix2 g (0 : Fin 1)) = C g) (g : Fin 64) (k : Fin 128) :
    W17 m c main_v91 (ix2 g k) = Ideal.div (S1 g k) (C g) := by
  rw [← hS1 g k, ← hC g]
  show StableHlo.after _ _ (Proc.devRef .tc main_v91) _ = _
  generalize W16 m c = V
  after_results_simp
  show Ideal.div _ _ = _
  exact congrArg₂ Ideal.div (topRows_apply (by omega) _ _ g k) (colBcast_apply _ _ g k)

theorem l1_var (S1 S2 : Fin 64 → Fin 128 → EReal) (C : Fin 64 → EReal) (AL : Fin 128 → EReal)
    (hS1 : ∀ g k, W16 m c main_v88_0 (ix2 (Fin.castLE (by omega) g : Fin 128) k) = S1 g k)
    (hS2 : ∀ g k, W16 m c main_v88_1 (ix2 (Fin.castLE (by omega) g : Fin 128) k) = S2 g k)
    (hC : ∀ g, W16 m c main_v22 (ix2 g (0 : Fin 1)) = C g)
    (hAL : ∀ k, W16 m c main_arg7 (ix2 (1 : Fin 3) k) = AL k) (g : Fin 64) (k : Fin 128) :
    W17 m c main_v104 (ix2 g k)
      = Ideal.div (S2 g k) (C g) - AL k * (twoK - AL k) * Ideal.div (S1 g k) (C g) * Ideal.div (S1 g k) (C g) := by
  rw [← hS1 g k, ← hS2 g k, ← hC g, ← hAL k]
  show StableHlo.after _ _ (Proc.devRef .tc main_v104) _ = _
  generalize W16 m c = V
  after_results_simp
  have hM := congrArg₂ Ideal.div (topRows_apply (r := 128) (r' := 64) (q := 128) (by omega) (V (Proc.devRef .tc main_v88_0)) slices_S128x128_S64x128_0_0 g k)
    (colBcast_apply (r := 64) (q := 128) bcast_S64x1_S64x128_0_1 (V (Proc.devRef .tc main_v22)) g k)
  have hA : ∀ h1 h2, shapeCast S128 (extractStridedSlice S1x128 ![1, 0] (V (Proc.devRef .tc main_arg7)) h1) h2 (ix1 k)
      = V (Proc.devRef .tc main_arg7) (ix2 (1 : Fin 3) k) := fun h1 h2 => rowFlat_apply (1 : Fin 3) _ h1 h2 k
  show Ideal.div _ _ - (_ * Ideal.div _ _) * Ideal.div _ _ = _
  refine congrArg₂ (· - ·) (congrArg₂ Ideal.div (topRows_apply (by omega) _ _ g k) (colBcast_apply _ _ g k))
    (congrArg₂ (· * ·) (congrArg₂ (· * ·) ?_ hM) hM)
  refine (rowBcast_apply _ _ g k).trans ((rowOf_apply _ _ k).trans ?_)
  show _ * (_ - _) = _
  exact congrArg₂ (· * ·) (hA _ _) (congrArg₂ (· - ·) (broadcastInDim_scalar_apply _ _ _) (hA _ _))

theorem l1_padMean (g : Fin 64) (k : Fin 128) :
    W18 m c main_v105 (ix2 (Fin.castLE (by omega) g : Fin 128) k) = W17 m c main_v91 (ix2 g k) := by
  show StableHlo.after _ _ (Proc.devRef .tc main_v105) _ = _
  generalize W17 m c = V
  after_results_simp
  simp only [TRef.ofBuf, TRef.toBuf, cast_eq]
  exact padRows_apply (r := 64) (p := 64) (q := 128) _ _ _ _ g k

theorem l1_padVar (g : Fin 64) (k : Fin 128) :
    W20 m c main_v106 (ix2 (Fin.castLE (by omega) g : Fin 128) k) = W19 m c main_v104 (ix2 g k) := by
  show StableHlo.after _ _ (Proc.devRef .tc main_v106) _ = _
  generalize W19 m c = V
  after_results_simp
  simp only [TRef.ofBuf, TRef.toBuf, cast_eq]
  exact padRows_apply (r := 64) (p := 64) (q := 128) _ _ _ _ g k

theorem l1_tabMean (g k : Fin 128) :
    W21 m c main_v107 (ix2 g (⟨k.val, by have := k.isLt; omega⟩ : Fin 256)) = W20 m c main_v105 (ix2 g k) := by
  show StableHlo.after _ _ (Proc.devRef .tc main_v107) _ = _
  generalize W20 m c = V
  after_results_simp
  exact sideLeft_apply (r := 128) (q := 128) _ _ _ g k

theorem l1_tabVar (g k : Fin 128) :
    W21 m c main_v107 (ix2 g (⟨128 + k.val, by have := k.isLt; omega⟩ : Fin 256)) = W20 m c main_v106 (ix2 g k) := by
  show StableHlo.after _ _ (Proc.devRef .tc main_v107) _ = _
  generalize W20 m c = V
  after_results_simp
  exact sideRight_apply (r := 128) (q := 128) _ _ _ g k

theorem l1_alphaRow (k : Fin 128) : W21 m c main_v110 (ix2 (0 : Fin 1) k) = W20 m c main_arg7 (ix2 (1 : Fin 3) k) := by
  show StableHlo.after _ _ (Proc.devRef .tc main_v110) _ = _
  generalize W20 m c = V
  after_results_simp
  exact rowSlice_apply (1 : Fin 3) _ _ _ _ k

theorem l1_gammaRow (k : Fin 128) : W21 m c main_v113 (ix2 (0 : Fin 1) k) = W20 m c main_arg5 (ix2 (1 : Fin 3) k) := by
  show StableHlo.after _ _ (Proc.devRef .tc main_v113) _ = _
  generalize W20 m c = V
  after_results_simp
  exact rowSlice_apply (1 : Fin 3) _ _ _ _ k

theorem l1_betaRow (k : Fin 128) : W21 m c main_v116 (ix2 (0 : Fin 1) k) = W20 m c main_arg6 (ix2 (1 : Fin 3) k) := by
  show StableHlo.after _ _ (Proc.devRef .tc main_v116) _ = _
  generalize W20 m c = V
  after_results_simp
  exact rowSlice_apply (1 : Fin 3) _ _ _ _ k

theorem l1_hs (n : Fin 50000) (k : Fin 128) :
    W14 m c main_v76 (ix2 n k)
      = (∑ j : Fin 128, rdAt (W13 m c main_v70) n j * rdAt (W13 m c main_v75) j k) * rdAt (W13 m c main_v15) n 0 :=
  (congrFun (W14_arr m c 3) (ix2 n k)).trans (arr3_out (V13 m) c n k)

theorem l1_s1 (g k : Fin 128) :
    W16 m c main_v88_0 (ix2 g k)
      = ∑ n ∈ Finset.univ.filter (fun n : Fin 50000 => W15 m c main_v23 (ix2 n (0 : Fin 1)) = BitVec.ofNat 32 g.val),
          (rdAt (W15 m c main_v87) n k * rdAt (W15 m c main_v15) n 0 + rdAt (W15 m c main_v73) 0 k) := by
  refine ((congrFun (W16_arr m c 4) (ix2 g k)).trans (arr4_s1 (V15 m) c g k)).trans (?_ : @Eq EReal _ _)
  exact Finset.sum_congr (Finset.filter_congr fun n _ => Iff.rfl) fun n _ => rfl

theorem l1_s2 (g k : Fin 128) :
    W16 m c main_v88_1 (ix2 g k)
      = ∑ n ∈ Finset.univ.filter (fun n : Fin 50000 => W15 m c main_v23 (ix2 n (0 : Fin 1)) = BitVec.ofNat 32 g.val),
          (rdAt (W15 m c main_v87) n k * rdAt (W15 m c main_v15) n 0 + rdAt (W15 m c main_v73) 0 k)
            * (rdAt (W15 m c main_v87) n k * rdAt (W15 m c main_v15) n 0 + rdAt (W15 m c main_v73) 0 k) := by
  refine ((congrFun (W16_arr m c 5) (ix2 g k)).trans (arr4_s2 (V15 m) c g k)).trans (?_ : @Eq EReal _ _)
  exact Finset.sum_congr (Finset.filter_congr fun n _ => Iff.rfl) fun n _ => rfl

theorem l1_outRaw (n : Fin 50000) (k : Fin 128)
    (hw : 0 ≤ (W21 m c main_v23 (ix2 n (0 : Fin 1))).toInt ∧ (W21 m c main_v23 (ix2 n (0 : Fin 1))).toInt < 128) :
    W22 m c main_v117 (ix2 n k)
      = normF (rdAt (W21 m c main_v113) 0 k) (rdAt (W21 m c main_v87) n k) (rdAt (W21 m c main_v15) n 0)
          (rdAt (W21 m c main_v73) 0 k) (rdAt (W21 m c main_v110) 0 k)
          (rdAt (W21 m c main_v107) ⟨(W21 m c main_v23 (ix2 n (0 : Fin 1))).toInt.toNat, by omega⟩ ⟨k.val, by have := k.isLt; omega⟩)
          (rdAt (W21 m c main_v107) ⟨(W21 m c main_v23 (ix2 n (0 : Fin 1))).toInt.toNat, by omega⟩ ⟨128 + k.val, by have := k.isLt; omega⟩)
          (rdAt (W21 m c main_v116) 0 k) (rdAt (W21 m c main_v70) n k) :=
  (congrFun (W22_arr m c 9) (ix2 n k)).trans (arr5_out (V21 m) c n k hw)

theorem l1_k15_4 (i) : W14 m c main_v15 i = W13 m c main_v15 i := congrFun ((W14_arr m c 2).trans (arr3_in_2 (V13 m) c)) i
theorem l1_kx_4 (i) : W14 m c main_v70 i = W13 m c main_v70 i := congrFun ((W14_arr m c 0).trans (arr3_in_0 (V13 m) c)) i
theorem l1_k15_5 (i) : W15 m c main_v15 i = W13 m c main_v15 i :=
  (congrFun (W15_keep m c main_v15 (by decide)) i).trans (l1_k15_4 m c i)
theorem l1_k23_5 (i) : W15 m c main_v23 i = W13 m c main_v23 i :=
  congrFun ((W15_keep m c main_v23 (by decide)).trans (W14_of_ne m c main_v23 (by decide))) i
theorem l1_k26_5 (i) : W15 m c main_v73 i = W13 m c main_v73 i :=
  congrFun ((W15_keep m c main_v73 (by decide)).trans (W14_of_ne m c main_v73 (by decide))) i
theorem l1_in6 (w : Fin cfg4.W) (hw : w.val < 4) :
    W16 m c (Proc.devRef .tc (Pipeline.arrRef spec4 w)) = W15 m c (Proc.devRef .tc (Pipeline.arrRef spec4 w)) :=
  (W16_arr m c w).trans (arr4_in (V15 m) c w hw)
theorem l1_keep6_11 (r : Ref sig .tc) (h2 : r ∉ GenP.hostOps5_W) (h21 : r ∉ GenP.hostOps5_1_W)
    (h22 : r ∉ GenP.hostOps5_2_W) (h23 : r ∉ GenP.hostOps5_3_W) (h24 : r ∉ GenP.hostOps5_4_W) : W21 m c r = W16 m c r :=
  (W21_keep m c r h24).trans ((W20_keep m c r h23).trans ((W19_keep m c r h22).trans ((W18_keep m c r h21).trans (W17_keep m c r h2))))
theorem l1_k15_11 (i) : W21 m c main_v15 i = W13 m c main_v15 i :=
  (congrFun (l1_keep6_11 m c main_v15 (by decide) (by decide) (by decide) (by decide) (by decide)) i).trans
    ((congrFun (l1_in6 m c 2 (by decide)) i).trans (l1_k15_5 m c i))
theorem l1_k23_11 (i) : W21 m c main_v23 i = W13 m c main_v23 i :=
  (congrFun (l1_keep6_11 m c main_v23 (by decide) (by decide) (by decide) (by decide) (by decide)) i).trans
    ((congrFun (l1_in6 m c 1 (by decide)) i).trans (l1_k23_5 m c i))
theorem l1_k26_11 (i) : W21 m c main_v73 i = W13 m c main_v73 i :=
  (congrFun (l1_keep6_11 m c main_v73 (by decide) (by decide) (by decide) (by decide) (by decide)) i).trans
    ((congrFun (l1_in6 m c 3 (by decide)) i).trans (l1_k26_5 m c i))

theorem layer1_out (hb : ∀ n : Fin 50000, 0 ≤ (bvK m c (ix1 n)).toInt ∧ (bvK m c (ix1 n)).toInt < 64) (n : Fin 50000) (k : Fin 128) :
    W22 m c main_v117 (ix2 n k)
      = layerK (grK m c hb) epsK twoK (parK m c 1) (fun n k => W13 m c main_v70 (ix2 n k)) n k := by
  have hD : ∀ n, W13 m c main_v15 (ix2 n (0 : Fin 1)) = dinv (grK m c hb) n :=
    fun n => (congrFun (keep_v15_W13 m c) _).trans (dinv_col m c hb n)
  have hB : ∀ k, W13 m c main_v73 (ix2 (0 : Fin 1) k) = (parK m c 1).b k :=
    fun k => (l1_bias m c k).trans (congrFun (keep_arg4_W12 m c) _)
  have hBT : ∀ n, W13 m c main_v23 (ix2 n (0 : Fin 1)) = bvK m c (ix1 n) :=
    fun n => (congrFun (keep_v23_W13 m c) _).trans (batch_col m c n)
  have hC : ∀ g, W16 m c main_v22 (ix2 g (0 : Fin 1)) = cnt (grK m c hb) g :=
    fun g => (congrFun ((W16_of_ne m c main_v22 (by decide)).trans ((W15_keep m c main_v22 (by decide)).trans
      ((W14_of_ne m c main_v22 (by decide)).trans (keep_v22_W13 m c)))) _).trans (cnt_col m c hb g)
  exact layerK_of_stages (sv := W3 m c main_v5) (tv := W3 m c main_v6) (hb := hb) (parK m c 1)
    _ _ _ _ _ _ _ _ _ _ _ _ _ _ _ _ _ _ _ _ _ _ _ _ _ (fun g j => W21 m c main_v107 (ix2 g j))
    (l1_hs m c) (l1_araw m c) (l1_s1 m c) (l1_s2 m c) (l1_mean m c _ _ (fun _ _ => rfl) (fun _ => rfl))
    (l1_var m c _ _ _ _ (fun _ _ => rfl) (fun _ _ => rfl) (fun _ => rfl) (fun _ => rfl))
    (fun g k => (l1_tabMean m c _ k).trans ((congrFun ((W20_keep m c main_v105 (by decide)).trans (W19_keep m c main_v105 (by decide))) _).trans
      (l1_padMean m c g k)))
    (fun g k => (l1_tabVar m c _ k).trans ((l1_padVar m c g k).trans
      (congrFun ((W19_keep m c main_v104 (by decide)).trans (W18_keep m c main_v104 (by decide))) _)))
    (l1_outRaw m c)
    (fun j k => (l1_wslice m c j k).trans (congrFun (keep_arg3_W12 m c) _)) hD
    (fun _ => congrFun ((W14_of_ne m c main_v5 (by decide)).trans (keep_v5_W13 m c)) _)
    (fun _ => congrFun ((W14_of_ne m c main_v6 (by decide)).trans (keep_v6_W13 m c)) _)
    (fun n => (l1_k15_5 m c _).trans (hD n)) (fun k => (l1_k26_5 m c _).trans (hB k)) (fun n => (l1_k23_5 m c _).trans (hBT n))
    hC (fun k => congrFun (keep_arg7_W16 m c) _)
    (fun _ _ => congrFun ((l1_keep6_11 m c main_v87 (by decide) (by decide) (by decide) (by decide) (by decide)).trans (l1_in6 m c 0 (by decide))) _)
    (fun _ _ => (congrFun ((l1_keep6_11 m c main_v70 (by decide) (by decide) (by decide) (by decide) (by decide)).trans
      ((W16_of_ne m c main_v70 (by decide)).trans (W15_keep m c main_v70 (by decide)))) _).trans (l1_kx_4 m c _))
    (fun n => (l1_k23_11 m c _).trans (hBT n)) (fun n => (l1_k15_11 m c _).trans (hD n)) (fun k => (l1_k26_11 m c _).trans (hB k))
    (fun k => (l1_alphaRow m c k).trans (congrFun (keep_arg7_W20 m c) _)) (fun k => (l1_gammaRow m c k).trans (congrFun (keep_arg5_W20 m c) _))
    (fun k => (l1_betaRow m c k).trans (congrFun (keep_arg6_W20 m c) _))
    n k

end Cert.KernelIdeal.Hand

end
-- ==== Proof.Hand.Val6.lean ====
import proofs.«419822_j14680198218267_2_alg».proof.Proof.Hand.Body6
import proofs.«419822_j14680198218267_2_alg».proof.Proof.Hand.Val0

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

abbrev ent6_0 (c : Dev nD) : S50000x128.Idx → Ideal .f32 := V c (Pipeline.arrRef spec6 0)
abbrev ent6_1 (c : Dev nD) : S128x128.Idx → Ideal .f32 := V c (Pipeline.arrRef spec6 1)
abbrev ent6_2 (c : Dev nD) : S50000x1.Idx → Ideal .f32 := V c (Pipeline.arrRef spec6 2)

theorem idx6_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

theorem iblk6_0_at (c : Dev nD) (t : Fin cfg6.N) (p : Fin 2000) (q j : Fin 128) :
    iblk6 V c 0 t (ix2 p j) = ent6_0 V c (ix2 ((((cfg6.win 3).blk t).view.emb (ix2 p q)) 0) j) := by
  obtain ⟨e00, e01, -, -, -, -, e30, -⟩ := idx6_facts t
  show V c (Pipeline.arrRef spec6 0) (((cfg6.win 0).blk t).view.emb (ix2 p j)) = V c (Pipeline.arrRef spec6 0) _
  refine congrArg (V c (Pipeline.arrRef spec6 0)) (funext fun a => Fin.ext ?_)
  match a with
  | ⟨0, _⟩ => show win6_0.index t (0 : Fin 2) * 2000 + 1 * p.val = win6_3.index t (0 : Fin 2) * 2000 + 1 * p.val; omega
  | ⟨1, _⟩ => show win6_0.index t (1 : Fin 2) * 128 + 1 * j.val = j.val; omega

theorem iblk6_1_at (c : Dev nD) (t : Fin cfg6.N) (p : Fin 2000) (q j : Fin 128) :
    iblk6 V c 1 t (ix2 j q) = ent6_1 V c (ix2 j ((((cfg6.win 3).blk t).view.emb (ix2 p q)) 1)) := by
  obtain ⟨-, -, e10, e11, -, -, -, e31⟩ := idx6_facts t
  show V c (Pipeline.arrRef spec6 1) (((cfg6.win 1).blk t).view.emb (ix2 j q)) = V c (Pipeline.arrRef spec6 1) _
  refine congrArg (V c (Pipeline.arrRef spec6 1)) (funext fun a => Fin.ext ?_)
  match a with
  | ⟨0, _⟩ => show win6_1.index t (0 : Fin 2) * 128 + 1 * j.val = j.val; omega
  | ⟨1, _⟩ => show win6_1.index t (1 : Fin 2) * 128 + 1 * q.val = win6_3.index t (1 : Fin 2) * 128 + 1 * q.val; omega

theorem iblk6_2_at (c : Dev nD) (t : Fin cfg6.N) (p : Fin 2000) (q : Fin 128) :
    iblk6 V c 2 t (ix2 p (0 : Fin 1)) = ent6_2 V c (ix2 ((((cfg6.win 3).blk t).view.emb (ix2 p q)) 0) (0 : Fin 1)) := by
  obtain ⟨-, -, -, -, e20, e21, e30, -⟩ := idx6_facts t
  show V c (Pipeline.arrRef spec6 2) (((cfg6.win 2).blk t).view.emb (ix2 p (0 : Fin 1))) = V c (Pipeline.arrRef spec6 2) _
  refine congrArg (V c (Pipeline.arrRef spec6 2)) (funext fun a => Fin.ext ?_)
  match a with
  | ⟨0, _⟩ => show win6_2.index t (0 : Fin 2) * 2000 + 1 * p.val = win6_3.index t (0 : Fin 2) * 2000 + 1 * p.val; omega
  | ⟨1, _⟩ => show win6_2.index t (1 : Fin 2) * 1 + 1 * 0 = 0; omega

theorem blk6_3_flushed (c : Dev nD) (t : Fin cfg6.N) :
    (dat6 V c).flushed 3 t = ((cfg6.win 3).blk t).view.read (Elt Ideal)
      (G0 (ent6_0 V c) (ent6_1 V c) (ent6_2 V c)) := by
  show (cfg6.win 3).cut (grid6.coords t) ((dat6 V c).after 3 t) = _
  rw [after6_3]
  unfold out0_3
  rw [View.canon_unit_zero zero0_off]
  simp only [View.ld_unit_zero (S := S2000x128) zero0_off, View.ld_unit_zero (S := S128x128) zero0_off, View.ld_unit_zero (S := S2000x1) zero0_off]
  funext y
  obtain ⟨p, q, rfl⟩ : ∃ (p : Fin 2000) (q : Fin 128), y = ix2 p q := ⟨y 0, y 1, eq_ix2 y⟩
  show k0_pay1 (F := Ideal) (iblk6 V c 0 t) (iblk6 V c 1 t) (iblk6 V c 2 t) (ix2 p q)
    = G0 (ent6_0 V c) (ent6_1 V c) (ent6_2 V c) (((cfg6.win 3).blk t).view.emb (ix2 p q))
  rw [k0_pay1_apply, iblk6_2_at V c t p q, Finset.sum_congr rfl fun j _ => by rw [iblk6_0_at V c t p q j, iblk6_1_at V c t p q j]]
  rfl

theorem cover6_3_arr (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 25 := N_6
  obtain ⟨t, ht⟩ : ∃ t : Fin cfg6.N, t.val = (i 0).val / 2000 := ⟨⟨(i 0).val / 2000, by rw [hN]; omega⟩, rfl⟩
  obtain ⟨-, -, -, -, -, -, e30, e31⟩ := idx6_facts t
  refine ⟨t, flush6_3 t, ?_⟩
  show i ∈ ((View.whole main_v123).slice (win6_3.rect t)).set
  rw [View.set_slice_whole, Rect.mem_set_unit]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 128 ≤ (i 1).val ∧ (i 1).val < win6_3.index t (1 : Fin 2) * 128 + 128; omega

theorem arr6_final (c : Dev nD) : (dat6 V c).arrAt 3 cfg6.N = G0 (ent6_0 V c) (ent6_1 V c) (ent6_2 V c) :=
  (dat6 V c).arrAt_eq_of_cover 3 _ (fun t _ => blk6_3_flushed V c t) cover6_3_arr

theorem arr6_out (c : Dev nD) (n : Fin 50000) (k : Fin 128) :
    (dat6 V c).arrAt 3 cfg6.N (ix2 n k)
      = (∑ j : Fin 128, ent6_0 V c (ix2 n j) * ent6_1 V c (ix2 j k)) * ent6_2 V c (ix2 n (0 : Fin 1)) := by
  rw [arr6_final]
  rfl

theorem arr6_in_0 (c : Dev nD) : (dat6 V c).arrAt 0 cfg6.N = V c (Pipeline.arrRef spec6 0) := (dat6 V c).arrAt_in 0 rfl cfg6.N
theorem arr6_in_2 (c : Dev nD) : (dat6 V c).arrAt 2 cfg6.N = V c (Pipeline.arrRef spec6 2) := (dat6 V c).arrAt_in 2 rfl cfg6.N

end Cert.KernelIdeal.Hand

end
-- ==== Proof.Hand.Val7.lean ====
import proofs.«419822_j14680198218267_2_alg».proof.Proof.Hand.Body7
import proofs.«419822_j14680198218267_2_alg».proof.Proof.Hand.Val1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem k7_idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

abbrev k7_Aff (X : S50000x128.Idx → EReal) (D : S50000x1.Idx → EReal) (B : S1x128.Idx → EReal) (n : Fin 50000) (k : Fin 128) : EReal :=
  X (ix2 n k) * D (ix2 n (0 : Fin 1)) + B (ix2 (0 : Fin 1) k)

abbrev k7_Hit (BT : S50000x1.Idx → BitVec 32) (n : Fin 50000) (g : Fin 128) : Prop :=
  BT (ix2 n (0 : Fin 1)) = BitVec.ofNat 32 g.val

theorem k7_lt (t : Fin cfg7.N) : t.val < 25 := lt_of_lt_of_eq t.isLt (show cfg7.N = 25 from N_7)

abbrev k7_last : Fin cfg7.N := ⟨24, by rw [show cfg7.N = 25 from N_7]; decide⟩

abbrev k7_X (c : Dev nD) : S50000x128.Idx → EReal := V c (Pipeline.arrRef spec7 0)
abbrev k7_BT (c : Dev nD) : S50000x1.Idx → BitVec 32 := V c (Pipeline.arrRef spec7 1)
abbrev k7_D (c : Dev nD) : S50000x1.Idx → EReal := V c (Pipeline.arrRef spec7 2)
abbrev k7_B (c : Dev nD) : S1x128.Idx → EReal := V c (Pipeline.arrRef spec7 3)

theorem iblk7_0_apply (c : Dev nD) (t : Fin cfg7.N) (r : Fin 2000) (k : Fin 128) :
    (iblk7 V c 0 t : Vec Ideal S2000x128 .f32) (ix2 r k) = k7_X V c (ix2 (k1_row t.val (k7_lt t) r) k) := by
  obtain ⟨e0, e1, -⟩ := k7_idx_facts t
  show V c (Pipeline.arrRef spec7 0) (((cfg7.win 0).blk t).view.emb (ix2 r k)) = _
  congr 1
  funext a; apply Fin.ext
  match a with
  | ⟨0, _⟩ => show win7_0.index t (0 : Fin 2) * 2000 + 1 * r.val = t.val * 2000 + 1 * r.val; rw [e0]
  | ⟨1, _⟩ => show win7_0.index t (1 : Fin 2) * 128 + 1 * k.val = k.val; rw [e1]; omega

theorem iblk7_1_apply (c : Dev nD) (t : Fin cfg7.N) (r : Fin 2000) :
    (iblk7 V c 1 t : Vec Ideal S2000x1 .i32) (ix2 r (0 : Fin 1)) = k7_BT V c (ix2 (k1_row t.val (k7_lt t) r) (0 : Fin 1)) := by
  obtain ⟨-, -, e0, e1, -⟩ := k7_idx_facts t
  show V c (Pipeline.arrRef spec7 1) (((cfg7.win 1).blk t).view.emb (ix2 r (0 : Fin 1))) = _
  congr 1
  funext a; apply Fin.ext
  match a with
  | ⟨0, _⟩ => show win7_1.index t (0 : Fin 2) * 2000 + 1 * r.val = t.val * 2000 + 1 * r.val; rw [e0]
  | ⟨1, _⟩ => show win7_1.index t (1 : Fin 2) * 1 + 1 * 0 = 0; rw [e1]

theorem iblk7_2_apply (c : Dev nD) (t : Fin cfg7.N) (r : Fin 2000) :
    (iblk7 V c 2 t : Vec Ideal S2000x1 .f32) (ix2 r (0 : Fin 1)) = k7_D V c (ix2 (k1_row t.val (k7_lt t) r) (0 : Fin 1)) := by
  obtain ⟨-, -, -, -, e0, e1, -⟩ := k7_idx_facts t
  show V c (Pipeline.arrRef spec7 2) (((cfg7.win 2).blk t).view.emb (ix2 r (0 : Fin 1))) = _
  congr 1
  funext a; apply Fin.ext
  match a with
  | ⟨0, _⟩ => show win7_2.index t (0 : Fin 2) * 2000 + 1 * r.val = t.val * 2000 + 1 * r.val; rw [e0]
  | ⟨1, _⟩ => show win7_2.index t (1 : Fin 2) * 1 + 1 * 0 = 0; rw [e1]

theorem iblk7_3_apply (c : Dev nD) (t : Fin cfg7.N) (k : Fin 128) :
    (iblk7 V c 3 t : Vec Ideal S1x128 .f32) (ix2 (0 : Fin 1) k) = k7_B V c (ix2 (0 : Fin 1) k) := by
  obtain ⟨-, -, -, -, -, -, e0, e1, -⟩ := k7_idx_facts t
  show V c (Pipeline.arrRef spec7 3) (((cfg7.win 3).blk t).view.emb (ix2 (0 : Fin 1) k)) = _
  congr 1
  funext a; apply Fin.ext
  match a with
  | ⟨0, _⟩ => show win7_3.index t (0 : Fin 2) * 1 + 1 * 0 = 0; rw [e0]
  | ⟨1, _⟩ => show win7_3.index t (1 : Fin 2) * 128 + 1 * k.val = k.val; rw [e1]; omega

def k7_x (c : Dev nD) (t : ℕ) : Vec Ideal S2000x128 .f32 := if h : t < cfg7.N then iblk7 V c 0 ⟨t, h⟩ else fun _ => 0
def k7_bt (c : Dev nD) (t : ℕ) : Vec Ideal S2000x1 .i32 := if h : t < cfg7.N then iblk7 V c 1 ⟨t, h⟩ else fun _ => 0
def k7_d (c : Dev nD) (t : ℕ) : Vec Ideal S2000x1 .f32 := if h : t < cfg7.N then iblk7 V c 2 ⟨t, h⟩ else fun _ => 0
def k7_b (c : Dev nD) (t : ℕ) : Vec Ideal S1x128 .f32 := if h : t < cfg7.N then iblk7 V c 3 ⟨t, h⟩ else fun _ => 0

def k7_contrib (φ : EReal → EReal) (c : Dev nD) (t : ℕ) (g k : Fin 128) : EReal :=
  ∑ r : Fin 2000, k1_hot (k7_bt V c t) r g * φ (k1_aff (k7_x V c t) (k7_d V c t) (k7_b V c t) r k)

-- The accumulators follow the first layer's recursion: its fill, then its step over this layer's blocks.
theorem sc7_0_closed (c : Dev nD) : ∀ (n : ℕ) (h : n < cfg7.N) (g k : Fin 128),
    (sc7 V c n h).1 (ix2 g k) = ∑ t ∈ Finset.range (n + 1), k7_contrib V (fun a => a) c t g k :=
  k1_chain_closed cfg7.N (k7_contrib V (fun a => a) c) (fun n h => (sc7 V c n h).1)
    (fun h g k => by
      show step1_0 _ _ _ _ zero1_0 (ix2 g k) = _
      rw [step1_0_apply, zero1_0_apply]
      unfold k7_contrib k7_x k7_bt k7_d k7_b
      simp only [dif_pos h])
    (fun n h g k => by
      show step1_0 _ _ _ _ (sc7 V c n _).1 (ix2 g k) = _
      rw [step1_0_apply]
      unfold k7_contrib k7_x k7_bt k7_d k7_b
      simp only [dif_pos h])

theorem sc7_1_closed (c : Dev nD) : ∀ (n : ℕ) (h : n < cfg7.N) (g k : Fin 128),
    (sc7 V c n h).2 (ix2 g k) = ∑ t ∈ Finset.range (n + 1), k7_contrib V (fun a => a * a) c t g k :=
  k1_chain_closed cfg7.N (k7_contrib V (fun a => a * a) c) (fun n h => (sc7 V c n h).2)
    (fun h g k => by
      show step1_1 _ _ _ _ zero1_1 (ix2 g k) = _
      rw [step1_1_apply, zero1_1_apply]
      unfold k7_contrib k7_x k7_bt k7_d k7_b
      simp only [dif_pos h])
    (fun n h g k => by
      show step1_1 _ _ _ _ (sc7 V c n _).2 (ix2 g k) = _
      rw [step1_1_apply]
      unfold k7_contrib k7_x k7_bt k7_d k7_b
      simp only [dif_pos h])

theorem k7_contrib_total (φ : EReal → EReal) (c : Dev nD) (g k : Fin 128) :
    ∑ t ∈ Finset.range 25, k7_contrib V φ c t g k
      = ∑ n ∈ Finset.univ.filter (fun n : Fin 50000 => k7_Hit (k7_BT V c) n g), φ (k7_Aff (k7_X V c) (k7_D V c) (k7_B V c) n k) := by
  have hN : cfg7.N = 25 := N_7
  unfold k7_contrib
  exact k1_total φ (k7_X V c) (k7_D V c) (k7_B V c) (k7_BT V c) (k7_x V c) (k7_d V c) (k7_b V c) (k7_bt V c)
    (fun t ht r k => by unfold k7_x; rw [dif_pos (hN ▸ ht)]; exact iblk7_0_apply V c ⟨t, hN ▸ ht⟩ r k)
    (fun t ht r => by unfold k7_d; rw [dif_pos (hN ▸ ht)]; exact iblk7_2_apply V c ⟨t, hN ▸ ht⟩ r)
    (fun t ht k => by unfold k7_b; rw [dif_pos (hN ▸ ht)]; exact iblk7_3_apply V c ⟨t, hN ▸ ht⟩ k)
    (fun t ht r => by unfold k7_bt; rw [dif_pos (hN ▸ ht)]; exact iblk7_1_apply V c ⟨t, hN ▸ ht⟩ r)
    g k

def k7_S1 (c : Dev nD) : S128x128.Idx → EReal := fun i =>
  ∑ n ∈ Finset.univ.filter (fun n : Fin 50000 => k7_Hit (k7_BT V c) n (i 0)), k7_Aff (k7_X V c) (k7_D V c) (k7_B V c) n (i 1)
def k7_S2 (c : Dev nD) : S128x128.Idx → EReal := fun i =>
  ∑ n ∈ Finset.univ.filter (fun n : Fin 50000 => k7_Hit (k7_BT V c) n (i 0)),
    k7_Aff (k7_X V c) (k7_D V c) (k7_B V c) n (i 1) * k7_Aff (k7_X V c) (k7_D V c) (k7_B V c) n (i 1)

theorem k7_emb_4 (t : Fin cfg7.N) (j : S128x128.Idx) : ((cfg7.win 4).blk t).view.emb j = j := by
  obtain ⟨-, -, -, -, -, -, -, -, e0, e1, -⟩ := k7_idx_facts t
  funext a; apply Fin.ext
  match a with
  | ⟨0, _⟩ => show win7_4.index t (0 : Fin 2) * 128 + 1 * (j 0).val = (j 0).val; rw [e0]; omega
  | ⟨1, _⟩ => show win7_4.index t (1 : Fin 2) * 128 + 1 * (j 1).val = (j 1).val; rw [e1]; omega

theorem k7_emb_5 (t : Fin cfg7.N) (j : S128x128.Idx) : ((cfg7.win 5).blk t).view.emb j = j := by
  obtain ⟨-, -, -, -, -, -, -, -, -, -, e0, e1⟩ := k7_idx_facts t
  funext a; apply Fin.ext
  match a with
  | ⟨0, _⟩ => show win7_5.index t (0 : Fin 2) * 128 + 1 * (j 0).val = (j 0).val; rw [e0]; omega
  | ⟨1, _⟩ => show win7_5.index t (1 : Fin 2) * 128 + 1 * (j 1).val = (j 1).val; rw [e1]; omega

set_option maxRecDepth 200000 in
theorem flushed7_4_eq (c : Dev nD) (t : Fin cfg7.N) (hf : (cfg7.win 4).flush t = true) :
    (dat7 V c).flushed 4 t = ((cfg7.win 4).blk t).view.read (Elt Ideal) (k7_S1 V c) := by
  have h24 : t.val = 24 := by have := (flush7_4 t).mp hf; have := k7_lt t; omega
  show (cfg7.win 4).cut (grid7.coords t) ((dat7 V c).after 4 t) = _
  rw [after7_4]
  funext j
  show (sc7 V c t.val t.isLt).1 j = k7_S1 V c (((cfg7.win 4).blk t).view.emb j)
  rw [k7_emb_4]
  obtain ⟨g, k, rfl⟩ : ∃ (g : Fin 128) (k : Fin 128), j = ix2 g k := ⟨j 0, j 1, eq_ix2 j⟩
  rw [sc7_0_closed, h24]
  exact k7_contrib_total V (fun a => a) c g k

set_option maxRecDepth 200000 in
theorem flushed7_5_eq (c : Dev nD) (t : Fin cfg7.N) (hf : (cfg7.win 5).flush t = true) :
    (dat7 V c).flushed 5 t = ((cfg7.win 5).blk t).view.read (Elt Ideal) (k7_S2 V c) := by
  have h24 : t.val = 24 := by have := (flush7_5 t).mp hf; have := k7_lt t; omega
  show (cfg7.win 5).cut (grid7.coords t) ((dat7 V c).after 5 t) = _
  rw [after7_5]
  funext j
  show (sc7 V c t.val t.isLt).2 j = k7_S2 V c (((cfg7.win 5).blk t).view.emb j)
  rw [k7_emb_5]
  obtain ⟨g, k, rfl⟩ : ∃ (g : Fin 128) (k : Fin 128), j = ix2 g k := ⟨j 0, j 1, eq_ix2 j⟩
  rw [sc7_1_closed, h24]
  exact k7_contrib_total V (fun a => a * a) c g k

-- The last point's block of each output is the whole array, so it holds every index.
theorem k7_cover_4 (i : S128x128.Idx) : ∃ t : Fin cfg7.N, (cfg7.win 4).flush t = true ∧ i ∈ ((cfg7.win 4).blk t).view.set :=
  ⟨k7_last, (flush7_4 k7_last).mpr rfl, k7_emb_4 k7_last i ▸ View.emb_mem_set ((cfg7.win 4).blk k7_last).view i⟩

theorem k7_cover_5 (i : S128x128.Idx) : ∃ t : Fin cfg7.N, (cfg7.win 5).flush t = true ∧ i ∈ ((cfg7.win 5).blk t).view.set :=
  ⟨k7_last, (flush7_5 k7_last).mpr rfl, k7_emb_5 k7_last i ▸ View.emb_mem_set ((cfg7.win 5).blk k7_last).view i⟩

theorem arr7_s1 (c : Dev nD) (g k : Fin 128) :
    (dat7 (F := Ideal) V c).arrAt 4 cfg7.N (ix2 g k)
      = ∑ n ∈ Finset.univ.filter (fun n : Fin 50000 => k7_Hit (k7_BT V c) n g), k7_Aff (k7_X V c) (k7_D V c) (k7_B V c) n k :=
  congrFun ((dat7 V c).arrAt_eq_of_cover 4 (k7_S1 V c) (flushed7_4_eq V c) (k7_cover_4)) (ix2 g k)

theorem arr7_s2 (c : Dev nD) (g k : Fin 128) :
    (dat7 (F := Ideal) V c).arrAt 5 cfg7.N (ix2 g k)
      = ∑ n ∈ Finset.univ.filter (fun n : Fin 50000 => k7_Hit (k7_BT V c) n g),
          k7_Aff (k7_X V c) (k7_D V c) (k7_B V c) n k * k7_Aff (k7_X V c) (k7_D V c) (k7_B V c) n k :=
  congrFun ((dat7 V c).arrAt_eq_of_cover 5 (k7_S2 V c) (flushed7_5_eq V c) (k7_cover_5)) (ix2 g k)

theorem arr7_in (c : Dev nD) (w : Fin cfg7.W) (hw : w.val < 4) :
    (dat7 (F := Ideal) V c).arrAt w cfg7.N = V c (Pipeline.arrRef spec7 w) := by
  rw [← A_eq7 V c w]
  exact (dat7 V c).arrAt_in w (by
    match w, hw with
    | ⟨0, _⟩, _ => rfl
    | ⟨1, _⟩, _ => rfl
    | ⟨2, _⟩, _ => rfl
    | ⟨3, _⟩, _ => rfl) cfg7.N

end Cert.KernelIdeal.Hand

end
-- ==== Proof.Hand.Val8.lean ====
import proofs.«419822_j14680198218267_2_alg».proof.Proof.Hand.Body8
import proofs.«419822_j14680198218267_2_alg».proof.Proof.Hand.Val5

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Value8

variable (V : (c : Dev nD) → (b : Ref sig .tc) → Buf (Elt Ideal) ((c : Thread nD τ).loc b))

def res8 (c : Dev nD) : FVec Ideal S50000x128 .f32 :=
  G2 (V c (Pipeline.arrRef spec8 0)) (V c (Pipeline.arrRef spec8 1)) (V c (Pipeline.arrRef spec8 2)) (V c (Pipeline.arrRef spec8 3))
    (V c (Pipeline.arrRef spec8 4)) (V c (Pipeline.arrRef spec8 5)) (V c (Pipeline.arrRef spec8 6)) (V c (Pipeline.arrRef spec8 7))
    (V c (Pipeline.arrRef spec8 8))

theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = t.val ∧ win8_9.index t (1 : Fin 2) = 0 :=
  (by decide +kernel : ∀ t : Fin grid8.N, _)

def row8 (t : Fin cfg8.N) (p : Fin 2000) : Fin 50000 :=
  ⟨2000 * t.val + p.val, by have := t.isLt; have hN : cfg8.N = 25 := N_8; have := p.isLt; omega⟩

theorem iblk8_0_apply (c : Dev nD) (t : Fin cfg8.N) (p : Fin 2000) (q : Fin 128) :
    (iblk8 V c 0 t : Vec Ideal S2000x128 .f32) (ix2 p q)
      = (V c (Pipeline.arrRef spec8 0) : S50000x128.Idx → Elt Ideal .f32) (ix2 (row8 t p) q) := by
  obtain ⟨e0, e1, -⟩ := idx_facts8 t
  show V c (Pipeline.arrRef spec8 0) (((cfg8.win 0).blk t).view.emb (ix2 p q)) = V c (Pipeline.arrRef spec8 0) (ix2 (row8 t p) q)
  refine congrArg (V c (Pipeline.arrRef spec8 0)) (funext fun a => Fin.ext ?_)
  match a with
  | ⟨0, _⟩ => show win8_0.index t (0 : Fin 2) * 2000 + 1 * p.val = 2000 * t.val + p.val; rw [e0]; omega
  | ⟨1, _⟩ => show win8_0.index t (1 : Fin 2) * 128 + 1 * q.val = q.val; rw [e1]; omega

theorem iblk8_1_apply (c : Dev nD) (t : Fin cfg8.N) (p : Fin 2000) (q : Fin 128) :
    (iblk8 V c 1 t : Vec Ideal S2000x128 .f32) (ix2 p q)
      = (V c (Pipeline.arrRef spec8 1) : S50000x128.Idx → Elt Ideal .f32) (ix2 (row8 t p) q) := by
  obtain ⟨-, -, e0, e1, -⟩ := idx_facts8 t
  show V c (Pipeline.arrRef spec8 1) (((cfg8.win 1).blk t).view.emb (ix2 p q)) = V c (Pipeline.arrRef spec8 1) (ix2 (row8 t p) q)
  refine congrArg (V c (Pipeline.arrRef spec8 1)) (funext fun a => Fin.ext ?_)
  match a with
  | ⟨0, _⟩ => show win8_1.index t (0 : Fin 2) * 2000 + 1 * p.val = 2000 * t.val + p.val; rw [e0]; omega
  | ⟨1, _⟩ => show win8_1.index t (1 : Fin 2) * 128 + 1 * q.val = q.val; rw [e1]; omega

theorem iblk8_2_apply (c : Dev nD) (t : Fin cfg8.N) (p : Fin 2000) :
    (iblk8 V c 2 t : Vec Ideal S2000x1 .i32) (ix2 p (0 : Fin 1))
      = (V c (Pipeline.arrRef spec8 2) : S50000x1.Idx → Elt Ideal .i32) (ix2 (row8 t p) (0 : Fin 1)) := by
  obtain ⟨-, -, -, -, e0, e1, -⟩ := idx_facts8 t
  show V c (Pipeline.arrRef spec8 2) (((cfg8.win 2).blk t).view.emb (ix2 p (0 : Fin 1))) = V c (Pipeline.arrRef spec8 2) (ix2 (row8 t p) (0 : Fin 1))
  refine congrArg (V c (Pipeline.arrRef spec8 2)) (funext fun a => Fin.ext ?_)
  match a with
  | ⟨0, _⟩ => show win8_2.index t (0 : Fin 2) * 2000 + 1 * p.val = 2000 * t.val + p.val; rw [e0]; omega
  | ⟨1, _⟩ => show win8_2.index t (1 : Fin 2) * 1 + 1 * 0 = 0; rw [e1]

theorem iblk8_3_apply (c : Dev nD) (t : Fin cfg8.N) (p : Fin 2000) :
    (iblk8 V c 3 t : Vec Ideal S2000x1 .f32) (ix2 p (0 : Fin 1))
      = (V c (Pipeline.arrRef spec8 3) : S50000x1.Idx → Elt Ideal .f32) (ix2 (row8 t p) (0 : Fin 1)) := by
  obtain ⟨-, -, -, -, -, -, e0, e1, -⟩ := idx_facts8 t
  show V c (Pipeline.arrRef spec8 3) (((cfg8.win 3).blk t).view.emb (ix2 p (0 : Fin 1))) = V c (Pipeline.arrRef spec8 3) (ix2 (row8 t p) (0 : Fin 1))
  refine congrArg (V c (Pipeline.arrRef spec8 3)) (funext fun a => Fin.ext ?_)
  match a with
  | ⟨0, _⟩ => show win8_3.index t (0 : Fin 2) * 2000 + 1 * p.val = 2000 * t.val + p.val; rw [e0]; omega
  | ⟨1, _⟩ => show win8_3.index t (1 : Fin 2) * 1 + 1 * 0 = 0; rw [e1]

theorem iblk8_4_eq (c : Dev nD) (t : Fin cfg8.N) :
    (iblk8 V c 4 t : Vec Ideal S1x128 .f32) = (V c (Pipeline.arrRef spec8 4) : S1x128.Idx → Elt Ideal .f32) := by
  obtain ⟨-, -, -, -, -, -, -, -, e0, e1, -⟩ := idx_facts8 t
  funext y
  show V c (Pipeline.arrRef spec8 4) (((cfg8.win 4).blk t).view.emb y) = V c (Pipeline.arrRef spec8 4) y
  refine congrArg (V c (Pipeline.arrRef spec8 4)) (funext fun a => Fin.ext ?_)
  match a with
  | ⟨0, _⟩ => show win8_4.index t (0 : Fin 2) * 1 + 1 * (y 0).val = (y 0).val; rw [e0]; omega
  | ⟨1, _⟩ => show win8_4.index t (1 : Fin 2) * 128 + 1 * (y 1).val = (y 1).val; rw [e1]; omega

theorem iblk8_5_eq (c : Dev nD) (t : Fin cfg8.N) :
    (iblk8 V c 5 t : Vec Ideal S128x256 .f32) = (V c (Pipeline.arrRef spec8 5) : S128x256.Idx → Elt Ideal .f32) := by
  obtain ⟨-, -, -, -, -, -, -, -, -, -, e0, e1, -⟩ := idx_facts8 t
  funext y
  show V c (Pipeline.arrRef spec8 5) (((cfg8.win 5).blk t).view.emb y) = V c (Pipeline.arrRef spec8 5) y
  refine congrArg (V c (Pipeline.arrRef spec8 5)) (funext fun a => Fin.ext ?_)
  match a with
  | ⟨0, _⟩ => show win8_5.index t (0 : Fin 2) * 128 + 1 * (y 0).val = (y 0).val; rw [e0]; omega
  | ⟨1, _⟩ => show win8_5.index t (1 : Fin 2) * 256 + 1 * (y 1).val = (y 1).val; rw [e1]; omega

theorem iblk8_6_eq (c : Dev nD) (t : Fin cfg8.N) :
    (iblk8 V c 6 t : Vec Ideal S1x128 .f32) = (V c (Pipeline.arrRef spec8 6) : S1x128.Idx → Elt Ideal .f32) := by
  obtain ⟨-, -, -, -, -, -, -, -, -, -, -, -, e0, e1, -⟩ := idx_facts8 t
  funext y
  show V c (Pipeline.arrRef spec8 6) (((cfg8.win 6).blk t).view.emb y) = V c (Pipeline.arrRef spec8 6) y
  refine congrArg (V c (Pipeline.arrRef spec8 6)) (funext fun a => Fin.ext ?_)
  match a with
  | ⟨0, _⟩ => show win8_6.index t (0 : Fin 2) * 1 + 1 * (y 0).val = (y 0).val; rw [e0]; omega
  | ⟨1, _⟩ => show win8_6.index t (1 : Fin 2) * 128 + 1 * (y 1).val = (y 1).val; rw [e1]; omega

theorem iblk8_7_eq (c : Dev nD) (t : Fin cfg8.N) :
    (iblk8 V c 7 t : Vec Ideal S1x128 .f32) = (V c (Pipeline.arrRef spec8 7) : S1x128.Idx → Elt Ideal .f32) := by
  obtain ⟨-, -, -, -, -, -, -, -, -, -, -, -, -, -, e0, e1, -⟩ := idx_facts8 t
  funext y
  show V c (Pipeline.arrRef spec8 7) (((cfg8.win 7).blk t).view.emb y) = V c (Pipeline.arrRef spec8 7) y
  refine congrArg (V c (Pipeline.arrRef spec8 7)) (funext fun a => Fin.ext ?_)
  match a with
  | ⟨0, _⟩ => show win8_7.index t (0 : Fin 2) * 1 + 1 * (y 0).val = (y 0).val; rw [e0]; omega
  | ⟨1, _⟩ => show win8_7.index t (1 : Fin 2) * 128 + 1 * (y 1).val = (y 1).val; rw [e1]; omega

theorem iblk8_8_eq (c : Dev nD) (t : Fin cfg8.N) :
    (iblk8 V c 8 t : Vec Ideal S1x128 .f32) = (V c (Pipeline.arrRef spec8 8) : S1x128.Idx → Elt Ideal .f32) := by
  obtain ⟨-, -, -, -, -, -, -, -, -, -, -, -, -, -, -, -, e0, e1, -⟩ := idx_facts8 t
  funext y
  show V c (Pipeline.arrRef spec8 8) (((cfg8.win 8).blk t).view.emb y) = V c (Pipeline.arrRef spec8 8) y
  refine congrArg (V c (Pipeline.arrRef spec8 8)) (funext fun a => Fin.ext ?_)
  match a with
  | ⟨0, _⟩ => show win8_8.index t (0 : Fin 2) * 1 + 1 * (y 0).val = (y 0).val; rw [e0]; omega
  | ⟨1, _⟩ => show win8_8.index t (1 : Fin 2) * 128 + 1 * (y 1).val = (y 1).val; rw [e1]; omega

set_option maxHeartbeats 1000000 in
theorem flushed8_eq (c : Dev nD) (t : Fin cfg8.N) :
    (dat8 (F := Ideal) V c).flushed 9 t = ((cfg8.win 9).blk t).view.read (Elt Ideal) (res8 V c) := by
  show (cfg8.win 9).cut (grid8.coords t) ((dat8 (F := Ideal) V c).after 9 t) = _
  rw [after8_9]
  unfold out5_9
  rw [View.canon_unit_zero hz2]
  simp only [View.ld_unit_zero (S := S2000x128) hz2, View.ld_unit_zero (S := S2000x1) hz2, View.ld_unit_zero (S := S1x128) hz2,
    View.ld_unit_zero (S := S128x256) hz2]
  funext j
  have hp : (j 0).val < 2000 := (j 0).isLt
  have hq : (j 1).val < 128 := (j 1).isLt
  have hj : (cfg8.win 9).xinj (grid8.coords t) j = ix2 (⟨(j 0).val, hp⟩ : Fin 2000) (⟨(j 1).val, hq⟩ : Fin 128) :=
    funext fun a => by match a with | ⟨0, _⟩ => rfl | ⟨1, _⟩ => rfl
  have hemb : ((cfg8.win 9).blk t).view.emb j = ix2 (row8 t ⟨(j 0).val, hp⟩) (⟨(j 1).val, hq⟩ : Fin 128) := by
    obtain ⟨-, -, -, -, -, -, -, -, -, -, -, -, -, -, -, -, -, -, e0, e1⟩ := idx_facts8 t
    funext a; apply Fin.ext
    match a with
    | ⟨0, _⟩ => show win8_9.index t (0 : Fin 2) * 2000 + 1 * (j 0).val = 2000 * t.val + (j 0).val; rw [e0]; omega
    | ⟨1, _⟩ => show win8_9.index t (1 : Fin 2) * 128 + 1 * (j 1).val = (j 1).val; rw [e1]; omega
  show k5_pay1 (F := Ideal) (k5_pay2 (F := Ideal) (iblk8 V c 1 t)) (k5_pay3 (F := Ideal) (iblk8 V c 8 t))
      (k5_pay4 (F := Ideal) (iblk8 V c 0 t) (iblk8 V c 3 t) (iblk8 V c 4 t) (iblk8 V c 2 t) (iblk8 V c 5 t) (iblk8 V c 6 t) (iblk8 V c 7 t))
      ((cfg8.win 9).xinj (grid8.coords t) j)
    = res8 V c (((cfg8.win 9).blk t).view.emb j)
  rw [hj, hemb, iblk8_4_eq, iblk8_5_eq, iblk8_6_eq, iblk8_7_eq, iblk8_8_eq, k5_store_apply, iblk8_0_apply, iblk8_1_apply, iblk8_2_apply,
    iblk8_3_apply]
  rfl

theorem mem_blk8 (t : Fin cfg8.N) (i : S50000x128.Idx) :
    i ∈ ((cfg8.win 9).blk t).view.set
      ↔ ∀ a : Fin 2, win8_9.index t a * S2000x128.size a ≤ (i a).val ∧ (i a).val < win8_9.index t a * S2000x128.size a + S2000x128.size a := by
  show i ∈ ((View.whole main_v164).slice (win8_9.rect t)).set ↔ _
  rw [View.set_slice_whole, Rect.mem_set_unit]
  exact Iff.rfl

theorem cover8 (i : S50000x128.Idx) : ∃ t : Fin cfg8.N, (cfg8.win 9).flush t = true ∧ i ∈ ((cfg8.win 9).blk t).view.set := by
  have hi0 : (i 0).val < 50000 := (i 0).isLt
  have hi1 : (i 1).val < 128 := (i 1).isLt
  have hN : cfg8.N = 25 := N_8
  obtain ⟨t, ht⟩ : ∃ t : Fin cfg8.N, t.val = (i 0).val / 2000 :=
    ⟨⟨(i 0).val / 2000, Nat.lt_of_lt_of_eq (by omega : (i 0).val / 2000 < 25) hN.symm⟩, rfl⟩
  obtain ⟨-, -, -, -, -, -, -, -, -, -, -, -, -, -, -, -, -, -, e0, e1⟩ := idx_facts8 t
  refine ⟨t, flush8_9 t, ?_⟩
  rw [mem_blk8]
  intro a
  match a with
  | ⟨0, _⟩ =>
    show win8_9.index t (0 : Fin 2) * 2000 ≤ (i 0).val ∧ (i 0).val < win8_9.index t (0 : Fin 2) * 2000 + 2000
    rw [e0, ht]; omega
  | ⟨1, _⟩ =>
    show win8_9.index t (1 : Fin 2) * 128 ≤ (i 1).val ∧ (i 1).val < win8_9.index t (1 : Fin 2) * 128 + 128
    rw [e1]; omega

theorem final8 (c : Dev nD) : (dat8 (F := Ideal) V c).arrAt 9 cfg8.N = res8 V c :=
  (dat8 (F := Ideal) V c).arrAt_eq_of_cover 9 (res8 V c) (fun t _ => flushed8_eq V c t) cover8

abbrev araw8 (c : Dev nD) : FVec Ideal S50000x128 .f32 := V c (Pipeline.arrRef spec8 0)
abbrev xres8 (c : Dev nD) : FVec Ideal S50000x128 .f32 := V c (Pipeline.arrRef spec8 1)
abbrev batch8 (c : Dev nD) : IVec S50000x1 32 := V c (Pipeline.arrRef spec8 2)
abbrev dinv8 (c : Dev nD) : FVec Ideal S50000x1 .f32 := V c (Pipeline.arrRef spec8 3)
abbrev bias8 (c : Dev nD) : FVec Ideal S1x128 .f32 := V c (Pipeline.arrRef spec8 4)
abbrev mvtab8 (c : Dev nD) : FVec Ideal S128x256 .f32 := V c (Pipeline.arrRef spec8 5)
abbrev alpha8 (c : Dev nD) : FVec Ideal S1x128 .f32 := V c (Pipeline.arrRef spec8 6)
abbrev gamma8 (c : Dev nD) : FVec Ideal S1x128 .f32 := V c (Pipeline.arrRef spec8 7)
abbrev beta8 (c : Dev nD) : FVec Ideal S1x128 .f32 := V c (Pipeline.arrRef spec8 8)

theorem arr8_out (c : Dev nD) (n : Fin 50000) (k : Fin 128)
    (hb : 0 ≤ (batch8 V c (ix2 n (0 : Fin 1))).toInt ∧ (batch8 V c (ix2 n (0 : Fin 1))).toInt < 128) :
    (dat8 (F := Ideal) V c).arrAt 9 cfg8.N (ix2 n k)
      = max (gamma8 V c (ix2 (0 : Fin 1) k)
              * (araw8 V c (ix2 n k) * dinv8 V c (ix2 n (0 : Fin 1)) + bias8 V c (ix2 (0 : Fin 1) k)
                  - alpha8 V c (ix2 (0 : Fin 1) k)
                    * mvtab8 V c (ix2 (⟨(batch8 V c (ix2 n (0 : Fin 1))).toInt.toNat, by omega⟩ : Fin 128) (⟨k.val, by have := k.isLt; omega⟩ : Fin 256)))
              * Ideal.rsqrt (mvtab8 V c (ix2 (⟨(batch8 V c (ix2 n (0 : Fin 1))).toInt.toNat, by omega⟩ : Fin 128) (⟨128 + k.val, by have := k.isLt; omega⟩ : Fin 256))
                  + Ideal.ofBits .f32 0x3727C5AC#32)
              + beta8 V c (ix2 (0 : Fin 1) k)) 0
          + xres8 V c (ix2 n k) := by
  refine (congrFun (final8 V c) (ix2 n k)).trans ?_
  exact norm2_eq (araw8 V c (ix2 n k)) (dinv8 V c (ix2 n (0 : Fin 1))) (bias8 V c (ix2 (0 : Fin 1) k)) (alpha8 V c (ix2 (0 : Fin 1) k))
    (gamma8 V c (ix2 (0 : Fin 1) k)) (beta8 V c (ix2 (0 : Fin 1) k)) (xres8 V c (ix2 n k)) (mvtab8 V c) (batch8 V c (ix2 n (0 : Fin 1))) hb k

end Value8

section Inputs8
variable {F : FTy → Type} [FloatOps F]
variable (V : (c : Dev nD) → (b : Ref sig .tc) → Buf (Elt F) ((c : Thread nD τ).loc b))

theorem arr8_in (c : Dev nD) (w : Fin cfg8.W) (hw : w.val < 9) : (dat8 V c).arrAt w cfg8.N = V c (Pipeline.arrRef spec8 w) := by
  have hin : (cfg8.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
    | ⟨8, _⟩, _ => rfl
    | ⟨n + 9, _⟩, h => exact absurd h (by simp)
  rw [(dat8 V c).arrAt_in w hin cfg8.N, A_eq8]

end Inputs8

end Cert.KernelIdeal.Hand

end
-- ==== Proof.Hand.KLayer2.lean ====
import proofs.«419822_j14680198218267_2_alg».proof.Proof.Hand.KLayer1
import proofs.«419822_j14680198218267_2_alg».proof.Proof.Hand.Val6
import proofs.«419822_j14680198218267_2_alg».proof.Proof.Hand.Val7
import proofs.«419822_j14680198218267_2_alg».proof.Proof.Hand.Val8

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Cert.LibGS Cert.GcnSpec

variable (m : (ℓ : Loc nD τ sig) → Buf (Elt Ideal) ℓ) (c : Dev nD)

theorem l2_wslice (j k : Fin 128) : W23 m c main_v122 (ix2 j k) = W22 m c main_arg3 (ix3 (2 : Fin 3) j k) := by
  show StableHlo.after _ _ (Proc.devRef .tc main_v122) _ = _
  generalize W22 m c = V
  after_results_simp
  exact matSlice_apply (2 : Fin 3) _ _ _ j k

theorem l2_bias (k : Fin 128) : W23 m c main_v120 (ix2 (0 : Fin 1) k) = W22 m c main_arg4 (ix2 (2 : Fin 3) k) := by
  show StableHlo.after _ _ (Proc.devRef .tc main_v120) _ = _
  generalize W22 m c = V
  after_results_simp
  exact rowSlice_apply (2 : Fin 3) _ _ _ _ k

theorem l2_araw (n : Fin 50000) (k : Fin 128) :
    W25 m c main_v134 (ix2 n k)
      = 0 + ∑ e ∈ Finset.univ.filter (fun e : Fin 1649454 => landRow 50000 (W24 m c main_v6 (ix1 e)) = some n),
          rdAt (W24 m c main_v123) (clampRow 50000 (by omega) (wrapRow 50000 (W24 m c main_v5 (ix1 e)))) k := by
  show StableHlo.after _ _ (Proc.devRef .tc main_v134) _ = _
  generalize W24 m c = V
  after_results_simp
  refine (scatterAdd_row (R := 50000) (C := 128) (n := 1649454) _ rfl rfl rfl rfl _ _ _ n k).trans ?_
  refine congrArg₂ (fun a b : EReal => a + b) ?_ ?_
  · exact (broadcastInDim_scalar_apply _ _ _).trans Ideal.ofBits_zero_f32
  · refine Finset.sum_congr (Finset.filter_congr fun e _ => by rw [col_apply]) fun e _ => ?_
    show Host.gather _ _ _ (ix2 e k) = _
    refine (gather_row (R := 50000) (C := 128) (n := 1649454) _ rfl rfl rfl rfl rfl (by omega) _ _ e k).trans ?_
    rw [col_apply]
    exact congrArg (fun w => V (Proc.devRef .tc main_v123) (ix2 (clampRow 50000 (by omega) w) k)) (wrapRow_eq_select 50000 _)

theorem l2_mean (S1 : Fin 64 → Fin 128 → EReal) (C : Fin 64 → EReal)
    (hS1 : ∀ g k, W26 m c main_v135_0 (ix2 (Fin.castLE (by omega) g : Fin 128) k) = S1 g k)
    (hC : ∀ g, W26 m c main_v22 (ix2 g (0 : Fin 1)) = C g) (g : Fin 64) (k : Fin 128) :
    W27 m c main_v138 (ix2 g k) = Ideal.div (S1 g k) (C g) := by
  rw [← hS1 g k, ← hC g]
  show StableHlo.after _ _ (Proc.devRef .tc main_v138) _ = _
  generalize W26 m c = V
  after_results_simp
  show Ideal.div _ _ = _
  exact congrArg₂ Ideal.div (topRows_apply (by omega) _ _ g k) (colBcast_apply _ _ g k)

theorem l2_var (S1 S2 : Fin 64 → Fin 128 → EReal) (C : Fin 64 → EReal) (AL : Fin 128 → EReal)
    (hS1 : ∀ g k, W26 m c main_v135_0 (ix2 (Fin.castLE (by omega) g : Fin 128) k) = S1 g k)
    (hS2 : ∀ g k, W26 m c main_v135_1 (ix2 (Fin.castLE (by omega) g : Fin 128) k) = S2 g k)
    (hC : ∀ g, W26 m c main_v22 (ix2 g (0 : Fin 1)) = C g)
    (hAL : ∀ k, W26 m c main_arg7 (ix2 (2 : Fin 3) k) = AL k) (g : Fin 64) (k : Fin 128) :
    W27 m c main_v151 (ix2 g k)
      = Ideal.div (S2 g k) (C g) - AL k * (twoK - AL k) * Ideal.div (S1 g k) (C g) * Ideal.div (S1 g k) (C g) := by
  rw [← hS1 g k, ← hS2 g k, ← hC g, ← hAL k]
  show StableHlo.after _ _ (Proc.devRef .tc main_v151) _ = _
  generalize W26 m c = V
  after_results_simp
  have hM := congrArg₂ Ideal.div (topRows_apply (r := 128) (r' := 64) (q := 128) (by omega) (V (Proc.devRef .tc main_v135_0)) slices_S128x128_S64x128_0_0 g k)
    (colBcast_apply (r := 64) (q := 128) bcast_S64x1_S64x128_0_1 (V (Proc.devRef .tc main_v22)) g k)
  have hA : ∀ h1 h2, shapeCast S128 (extractStridedSlice S1x128 ![2, 0] (V (Proc.devRef .tc main_arg7)) h1) h2 (ix1 k)
      = V (Proc.devRef .tc main_arg7) (ix2 (2 : Fin 3) k) := fun h1 h2 => rowFlat_apply (2 : Fin 3) _ h1 h2 k
  show Ideal.div _ _ - (_ * Ideal.div _ _) * Ideal.div _ _ = _
  refine congrArg₂ (· - ·) (congrArg₂ Ideal.div (topRows_apply (by omega) _ _ g k) (colBcast_apply _ _ g k))
    (congrArg₂ (· * ·) (congrArg₂ (· * ·) ?_ hM) hM)
  refine (rowBcast_apply _ _ g k).trans ((rowOf_apply _ _ k).trans ?_)
  show _ * (_ - _) = _
  exact congrArg₂ (· * ·) (hA _ _) (congrArg₂ (· - ·) (broadcastInDim_scalar_apply _ _ _) (hA _ _))

theorem l2_padMean (g : Fin 64) (k : Fin 128) :
    W28 m c main_v152 (ix2 (Fin.castLE (by omega) g : Fin 128) k) = W27 m c main_v138 (ix2 g k) := by
  show StableHlo.after _ _ (Proc.devRef .tc main_v152) _ = _
  generalize W27 m c = V
  after_results_simp
  simp only [TRef.ofBuf, TRef.toBuf, cast_eq]
  exact padRows_apply (r := 64) (p := 64) (q := 128) _ _ _ _ g k

theorem l2_padVar (g : Fin 64) (k : Fin 128) :
    W30 m c main_v153 (ix2 (Fin.castLE (by omega) g : Fin 128) k) = W29 m c main_v151 (ix2 g k) := by
  show StableHlo.after _ _ (Proc.devRef .tc main_v153) _ = _
  generalize W29 m c = V
  after_results_simp
  simp only [TRef.ofBuf, TRef.toBuf, cast_eq]
  exact padRows_apply (r := 64) (p := 64) (q := 128) _ _ _ _ g k

theorem l2_tabMean (g k : Fin 128) :
    W31 m c main_v154 (ix2 g (⟨k.val, by have := k.isLt; omega⟩ : Fin 256)) = W30 m c main_v152 (ix2 g k) := by
  show StableHlo.after _ _ (Proc.devRef .tc main_v154) _ = _
  generalize W30 m c = V
  after_results_simp
  exact sideLeft_apply (r := 128) (q := 128) _ _ _ g k

theorem l2_tabVar (g k : Fin 128) :
    W31 m c main_v154 (ix2 g (⟨128 + k.val, by have := k.isLt; omega⟩ : Fin 256)) = W30 m c main_v153 (ix2 g k) := by
  show StableHlo.after _ _ (Proc.devRef .tc main_v154) _ = _
  generalize W30 m c = V
  after_results_simp
  exact sideRight_apply (r := 128) (q := 128) _ _ _ g k

theorem l2_alphaRow (k : Fin 128) : W31 m c main_v157 (ix2 (0 : Fin 1) k) = W30 m c main_arg7 (ix2 (2 : Fin 3) k) := by
  show StableHlo.after _ _ (Proc.devRef .tc main_v157) _ = _
  generalize W30 m c = V
  after_results_simp
  exact rowSlice_apply (2 : Fin 3) _ _ _ _ k

theorem l2_gammaRow (k : Fin 128) : W31 m c main_v160 (ix2 (0 : Fin 1) k) = W30 m c main_arg5 (ix2 (2 : Fin 3) k) := by
  show StableHlo.after _ _ (Proc.devRef .tc main_v160) _ = _
  generalize W30 m c = V
  after_results_simp
  exact rowSlice_apply (2 : Fin 3) _ _ _ _ k

theorem l2_betaRow (k : Fin 128) : W31 m c main_v163 (ix2 (0 : Fin 1) k) = W30 m c main_arg6 (ix2 (2 : Fin 3) k) := by
  show StableHlo.after _ _ (Proc.devRef .tc main_v163) _ = _
  generalize W30 m c = V
  after_results_simp
  exact rowSlice_apply (2 : Fin 3) _ _ _ _ k

theorem l2_hs (n : Fin 50000) (k : Fin 128) :
    W24 m c main_v123 (ix2 n k)
      = (∑ j : Fin 128, rdAt (W23 m c main_v117) n j * rdAt (W23 m c main_v122) j k) * rdAt (W23 m c main_v15) n 0 :=
  (congrFun (W24_arr m c 3) (ix2 n k)).trans (arr6_out (V23 m) c n k)

theorem l2_s1 (g k : Fin 128) :
    W26 m c main_v135_0 (ix2 g k)
      = ∑ n ∈ Finset.univ.filter (fun n : Fin 50000 => W25 m c main_v23 (ix2 n (0 : Fin 1)) = BitVec.ofNat 32 g.val),
          (rdAt (W25 m c main_v134) n k * rdAt (W25 m c main_v15) n 0 + rdAt (W25 m c main_v120) 0 k) := by
  refine ((congrFun (W26_arr m c 4) (ix2 g k)).trans (arr7_s1 (V25 m) c g k)).trans (?_ : @Eq EReal _ _)
  exact Finset.sum_congr (Finset.filter_congr fun n _ => Iff.rfl) fun n _ => rfl

theorem l2_s2 (g k : Fin 128) :
    W26 m c main_v135_1 (ix2 g k)
      = ∑ n ∈ Finset.univ.filter (fun n : Fin 50000 => W25 m c main_v23 (ix2 n (0 : Fin 1)) = BitVec.ofNat 32 g.val),
          (rdAt (W25 m c main_v134) n k * rdAt (W25 m c main_v15) n 0 + rdAt (W25 m c main_v120) 0 k)
            * (rdAt (W25 m c main_v134) n k * rdAt (W25 m c main_v15) n 0 + rdAt (W25 m c main_v120) 0 k) := by
  refine ((congrFun (W26_arr m c 5) (ix2 g k)).trans (arr7_s2 (V25 m) c g k)).trans (?_ : @Eq EReal _ _)
  exact Finset.sum_congr (Finset.filter_congr fun n _ => Iff.rfl) fun n _ => rfl

theorem l2_outRaw (n : Fin 50000) (k : Fin 128)
    (hw : 0 ≤ (W31 m c main_v23 (ix2 n (0 : Fin 1))).toInt ∧ (W31 m c main_v23 (ix2 n (0 : Fin 1))).toInt < 128) :
    W32 m c main_v164 (ix2 n k)
      = normF (rdAt (W31 m c main_v160) 0 k) (rdAt (W31 m c main_v134) n k) (rdAt (W31 m c main_v15) n 0)
          (rdAt (W31 m c main_v120) 0 k) (rdAt (W31 m c main_v157) 0 k)
          (rdAt (W31 m c main_v154) ⟨(W31 m c main_v23 (ix2 n (0 : Fin 1))).toInt.toNat, by omega⟩ ⟨k.val, by have := k.isLt; omega⟩)
          (rdAt (W31 m c main_v154) ⟨(W31 m c main_v23 (ix2 n (0 : Fin 1))).toInt.toNat, by omega⟩ ⟨128 + k.val, by have := k.isLt; omega⟩)
          (rdAt (W31 m c main_v163) 0 k) (rdAt (W31 m c main_v117) n k) :=
  (congrFun (W32_arr m c 9) (ix2 n k)).trans (arr8_out (V31 m) c n k hw)

theorem l2_k15_4 (i) : W24 m c main_v15 i = W23 m c main_v15 i := congrFun ((W24_arr m c 2).trans (arr6_in_2 (V23 m) c)) i
theorem l2_kx_4 (i) : W24 m c main_v117 i = W23 m c main_v117 i := congrFun ((W24_arr m c 0).trans (arr6_in_0 (V23 m) c)) i
theorem l2_k15_5 (i) : W25 m c main_v15 i = W23 m c main_v15 i :=
  (congrFun (W25_keep m c main_v15 (by decide)) i).trans (l2_k15_4 m c i)
theorem l2_k23_5 (i) : W25 m c main_v23 i = W23 m c main_v23 i :=
  congrFun ((W25_keep m c main_v23 (by decide)).trans (W24_of_ne m c main_v23 (by decide))) i
theorem l2_k26_5 (i) : W25 m c main_v120 i = W23 m c main_v120 i :=
  congrFun ((W25_keep m c main_v120 (by decide)).trans (W24_of_ne m c main_v120 (by decide))) i
theorem l2_in6 (w : Fin cfg7.W) (hw : w.val < 4) :
    W26 m c (Proc.devRef .tc (Pipeline.arrRef spec7 w)) = W25 m c (Proc.devRef .tc (Pipeline.arrRef spec7 w)) :=
  (W26_arr m c w).trans (arr7_in (V25 m) c w hw)
theorem l2_keep6_11 (r : Ref sig .tc) (h2 : r ∉ GenP.hostOps8_W) (h21 : r ∉ GenP.hostOps8_1_W)
    (h22 : r ∉ GenP.hostOps8_2_W) (h23 : r ∉ GenP.hostOps8_3_W) (h24 : r ∉ GenP.hostOps8_4_W) : W31 m c r = W26 m c r :=
  (W31_keep m c r h24).trans ((W30_keep m c r h23).trans ((W29_keep m c r h22).trans ((W28_keep m c r h21).trans (W27_keep m c r h2))))
theorem l2_k15_11 (i) : W31 m c main_v15 i = W23 m c main_v15 i :=
  (congrFun (l2_keep6_11 m c main_v15 (by decide) (by decide) (by decide) (by decide) (by decide)) i).trans
    ((congrFun (l2_in6 m c 2 (by decide)) i).trans (l2_k15_5 m c i))
theorem l2_k23_11 (i) : W31 m c main_v23 i = W23 m c main_v23 i :=
  (congrFun (l2_keep6_11 m c main_v23 (by decide) (by decide) (by decide) (by decide) (by decide)) i).trans
    ((congrFun (l2_in6 m c 1 (by decide)) i).trans (l2_k23_5 m c i))
theorem l2_k26_11 (i) : W31 m c main_v120 i = W23 m c main_v120 i :=
  (congrFun (l2_keep6_11 m c main_v120 (by decide) (by decide) (by decide) (by decide) (by decide)) i).trans
    ((congrFun (l2_in6 m c 3 (by decide)) i).trans (l2_k26_5 m c i))

theorem layer2_out (hb : ∀ n : Fin 50000, 0 ≤ (bvK m c (ix1 n)).toInt ∧ (bvK m c (ix1 n)).toInt < 64) (n : Fin 50000) (k : Fin 128) :
    W32 m c main_v164 (ix2 n k)
      = layerK (grK m c hb) epsK twoK (parK m c 2) (fun n k => W23 m c main_v117 (ix2 n k)) n k := by
  have hD : ∀ n, W23 m c main_v15 (ix2 n (0 : Fin 1)) = dinv (grK m c hb) n :=
    fun n => (congrFun (keep_v15_W23 m c) _).trans (dinv_col m c hb n)
  have hB : ∀ k, W23 m c main_v120 (ix2 (0 : Fin 1) k) = (parK m c 2).b k :=
    fun k => (l2_bias m c k).trans (congrFun (keep_arg4_W22 m c) _)
  have hBT : ∀ n, W23 m c main_v23 (ix2 n (0 : Fin 1)) = bvK m c (ix1 n) :=
    fun n => (congrFun (keep_v23_W23 m c) _).trans (batch_col m c n)
  have hC : ∀ g, W26 m c main_v22 (ix2 g (0 : Fin 1)) = cnt (grK m c hb) g :=
    fun g => (congrFun ((W26_of_ne m c main_v22 (by decide)).trans ((W25_keep m c main_v22 (by decide)).trans
      ((W24_of_ne m c main_v22 (by decide)).trans (keep_v22_W23 m c)))) _).trans (cnt_col m c hb g)
  exact layerK_of_stages (sv := W3 m c main_v5) (tv := W3 m c main_v6) (hb := hb) (parK m c 2)
    _ _ _ _ _ _ _ _ _ _ _ _ _ _ _ _ _ _ _ _ _ _ _ _ _ (fun g j => W31 m c main_v154 (ix2 g j))
    (l2_hs m c) (l2_araw m c) (l2_s1 m c) (l2_s2 m c) (l2_mean m c _ _ (fun _ _ => rfl) (fun _ => rfl))
    (l2_var m c _ _ _ _ (fun _ _ => rfl) (fun _ _ => rfl) (fun _ => rfl) (fun _ => rfl))
    (fun g k => (l2_tabMean m c _ k).trans ((congrFun ((W30_keep m c main_v152 (by decide)).trans (W29_keep m c main_v152 (by decide))) _).trans
      (l2_padMean m c g k)))
    (fun g k => (l2_tabVar m c _ k).trans ((l2_padVar m c g k).trans
      (congrFun ((W29_keep m c main_v151 (by decide)).trans (W28_keep m c main_v151 (by decide))) _)))
    (l2_outRaw m c)
    (fun j k => (l2_wslice m c j k).trans (congrFun (keep_arg3_W22 m c) _)) hD
    (fun _ => congrFun ((W24_of_ne m c main_v5 (by decide)).trans (keep_v5_W23 m c)) _)
    (fun _ => congrFun ((W24_of_ne m c main_v6 (by decide)).trans (keep_v6_W23 m c)) _)
    (fun n => (l2_k15_5 m c _).trans (hD n)) (fun k => (l2_k26_5 m c _).trans (hB k)) (fun n => (l2_k23_5 m c _).trans (hBT n))
    hC (fun k => congrFun (keep_arg7_W26 m c) _)
    (fun _ _ => congrFun ((l2_keep6_11 m c main_v134 (by decide) (by decide) (by decide) (by decide) (by decide)).trans (l2_in6 m c 0 (by decide))) _)
    (fun _ _ => (congrFun ((l2_keep6_11 m c main_v117 (by decide) (by decide) (by decide) (by decide) (by decide)).trans
      ((W26_of_ne m c main_v117 (by decide)).trans (W25_keep m c main_v117 (by decide)))) _).trans (l2_kx_4 m c _))
    (fun n => (l2_k23_11 m c _).trans (hBT n)) (fun n => (l2_k15_11 m c _).trans (hD n)) (fun k => (l2_k26_11 m c _).trans (hB k))
    (fun k => (l2_alphaRow m c k).trans (congrFun (keep_arg7_W30 m c) _)) (fun k => (l2_gammaRow m c k).trans (congrFun (keep_arg5_W30 m c) _))
    (fun k => (l2_betaRow m c k).trans (congrFun (keep_arg6_W30 m c) _))
    n k

end Cert.KernelIdeal.Hand

end
-- ==== Proof.Hand.KResult.lean ====
import proofs.«419822_j14680198218267_2_alg».proof.Proof.Hand.Chain
import proofs.«419822_j14680198218267_2_alg».proof.Proof.Hand.GraphOf
import proofs.«419822_j14680198218267_2_alg».proof.Proof.Hand.Val9
import proofs.«419822_j14680198218267_2_alg».proof.Proof.Hand.KPre
import proofs.«419822_j14680198218267_2_alg».proof.Proof.Hand.KLayer1
import proofs.«419822_j14680198218267_2_alg».proof.Proof.Hand.KLayer2
import proofs.«419822_j14680198218267_2_alg».proof.Proof.Math.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo
open Cert.GcnSpec Cert.LibGS
open scoped BigOperators

variable (m : (ℓ : Loc nD τ sig) → Buf (Elt Ideal) ℓ) (c : Dev nD)

theorem v70_keep : W13 m c main_v70 = W12 m c main_v70 := W13_keep m c main_v70 (by decide)
theorem v117_keep : W23 m c main_v117 = W22 m c main_v117 := W23_keep m c main_v117 (by decide)

theorem arg0_launch : W3 m c main_arg0 = m ((c : Thread nD τ).loc main_arg0) := by
  rw [W3_keep m c main_arg0 (by decide), W2_keep m c main_arg0 (by decide), W1_keep m c main_arg0 (by decide)]

theorem word_ofNat_iff_toInt (w : BitVec 32) (g : ℕ) (hg : g < 2 ^ 31) : w = BitVec.ofNat 32 g ↔ w.toInt = (g : ℤ) := by
  have key : (BitVec.ofNat 32 g).toInt = (g : ℤ) := by
    have h1 : (BitVec.ofNat 32 g).toNat = g := by
      rw [BitVec.toNat_ofNat]
      exact Nat.mod_eq_of_lt (by omega)
    rw [BitVec.toInt_eq_toNat_of_lt (by rw [h1]; omega), h1]
  constructor
  · rintro rfl; exact key
  · intro h; exact BitVec.eq_of_toInt_eq (h.trans key.symm)

theorem res_read (g : Fin 64) (k : Fin 128) :
    W34 m c main_v168 (ix2 g k)
      = Ideal.div ((W33 m c main_v165 : S128x128.Idx → EReal) (ix2 (⟨g.val, by omega⟩ : Fin 128) k))
          ((W33 m c main_v22 : S64x1.Idx → EReal) (ix2 g (0 : Fin 1))) := by
  show StableHlo.after hostOps10 (W33 m c) (Proc.devRef .tc main_v168) (ix2 g k) = _
  after_results
  rw [hostDivf_apply,
    extractStridedSlice_apply _ _ _ _ (ix2 (⟨g.val, by omega⟩ : Fin 128) k) (fun a => by
      rcases fin2_cases a with rfl | rfl
      · show g.val = 0 + g.val
        omega
      · show k.val = 0 + k.val
        omega),
    broadcastInDim_apply _ _ _ _ (ix2 g (0 : Fin 1)) (fun a => by
      rcases fin2_cases a with rfl | rfl
      · rfl
      · rfl)]

abbrev lastOut : S50000x128.Idx → EReal := W32 m c main_v164

abbrev lastBatch : S50000x1.Idx → BitVec 32 := W32 m c main_v23

theorem result_of (gr : Graph (Fin 50000) (Fin 64) (Fin 1649454)) (bv : IVec ⟨1, ![50000]⟩ 32)
    (hland : ∀ n : Fin 50000, landRow 64 (bv (ix1 n)) = some (gr.bt n))
    (Lf : Fin 50000 → Fin 128 → EReal)
    (hpool : ∀ g k : Fin 128, (W33 m c main_v165 : S128x128.Idx → EReal) (ix2 g k)
      = ∑ n ∈ Finset.univ.filter (fun n : Fin 50000 => lastBatch m c (ix2 n 0) = BitVec.ofNat 32 g.val),
          lastOut m c (ix2 n k))
    (hbatch : ∀ n : Fin 50000, (W32 m c main_v23 : S50000x1.Idx → BitVec 32) (ix2 n 0) = bv (ix1 n))
    (hcnt : ∀ g : Fin 64, (W33 m c main_v22 : S64x1.Idx → EReal) (ix2 g (0 : Fin 1)) = cnt gr g)
    (hL : ∀ (n : Fin 50000) (k : Fin 128), (W32 m c main_v164 : S50000x128.Idx → EReal) (ix2 n k) = Lf n k)
    (g : Fin 64) (k : Fin 128) :
    W34 m c main_v168 (ix2 g k) = segMean gr Lf g k := by
  rw [res_read, hpool, hcnt]
  unfold segMean segSum
  refine congrArg (fun s => Ideal.div s (cnt gr g)) ?_
  refine Finset.sum_congr (Finset.filter_congr fun n _ => ?_) (fun n _ => hL n k)
  rw [show lastBatch m c (ix2 n 0) = bv (ix1 n) from hbatch n, word_ofNat_iff_toInt _ _ (by have := g.isLt; omega), ← landRow_eq_some_iff (bv (ix1 n)) g, hland, Option.some_inj]

theorem layers_of (gr : Graph (Fin 50000) (Fin 64) (Fin 1649454)) (eps two : EReal) (p0 p1 p2 : Params (Fin 128))
    (h0 : ∀ (n : Fin 50000) (k : Fin 128), (W12 m c main_v70 : S50000x128.Idx → EReal) (ix2 n k)
      = layerK gr eps two p0 (fun n k => (W3 m c main_arg0 : S50000x128.Idx → EReal) (ix2 n k)) n k)
    (h1 : ∀ (n : Fin 50000) (k : Fin 128), (W22 m c main_v117 : S50000x128.Idx → EReal) (ix2 n k)
      = layerK gr eps two p1 (fun n k => (W13 m c main_v70 : S50000x128.Idx → EReal) (ix2 n k)) n k)
    (h2 : ∀ (n : Fin 50000) (k : Fin 128), (W32 m c main_v164 : S50000x128.Idx → EReal) (ix2 n k)
      = layerK gr eps two p2 (fun n k => (W23 m c main_v117 : S50000x128.Idx → EReal) (ix2 n k)) n k)
    (n : Fin 50000) (k : Fin 128) :
    (W32 m c main_v164 : S50000x128.Idx → EReal) (ix2 n k)
      = layerK gr eps two p2 (layerK gr eps two p1 (layerK gr eps two p0
          (fun n k => (m ((c : Thread nD τ).loc main_arg0) : S50000x128.Idx → EReal) (ix2 n k)))) n k := by
  rw [h2]
  have e1 : (fun (n : Fin 50000) (k : Fin 128) => (W23 m c main_v117 : S50000x128.Idx → EReal) (ix2 n k))
      = layerK gr eps two p1 (fun n k => (W13 m c main_v70 : S50000x128.Idx → EReal) (ix2 n k)) := by
    funext n k; rw [v117_keep]; exact h1 n k
  have e0 : (fun (n : Fin 50000) (k : Fin 128) => (W13 m c main_v70 : S50000x128.Idx → EReal) (ix2 n k))
      = layerK gr eps two p0 (fun n k => (W3 m c main_arg0 : S50000x128.Idx → EReal) (ix2 n k)) := by
    funext n k; rw [v70_keep]; exact h0 n k
  rw [e1, e0, arg0_launch]

theorem pool_out (hb : ∀ n : Fin 50000, 0 ≤ (bvK m c (ix1 n)).toInt ∧ (bvK m c (ix1 n)).toInt < 64) (g k : Fin 128) :
    (W33 m c main_v165 : S128x128.Idx → EReal) (ix2 g k)
      = ∑ n ∈ Finset.univ.filter (fun n : Fin 50000 => lastBatch m c (ix2 n 0) = BitVec.ofNat 32 g.val),
          lastOut m c (ix2 n k) := by
  have e : W33 m c main_v165 = (dat9 (V32 m) c).arrAt 2 cfg9.N := W33_arr m c 2
  rw [e, arr9_out]

theorem kernel_result (hb : ∀ n : Fin 50000, 0 ≤ (bvK m c (ix1 n)).toInt ∧ (bvK m c (ix1 n)).toInt < 64) (g : Fin 64) (k : Fin 128) :
    W34 m c main_v168 (ix2 g k)
      = Cert.GcnSpec.resultK (grK m c hb) epsK twoK (parK m c 0) (parK m c 1) (parK m c 2)
          (fun n k => m ((c : Thread nD τ).loc main_arg0) (ix2 n k)) g k :=
  result_of m c (grK m c hb) (bvK m c)
    (grK_land_bt m c hb) _
    (pool_out m c hb)
    (fun n => by rw [keep_v23_W32]; exact batch_col m c n)
    (fun g => by rw [keep_v22_W33]; exact cnt_col m c hb g)
    (layers_of m c (grK m c hb) epsK twoK (parK m c 0) (parK m c 1) (parK m c 2) (layer0_out m c hb) (layer1_out m c hb) (layer2_out m c hb))
    g k

end Cert.KernelIdeal.Hand
end
-- ==== Proof.Ref.ReadP.lean ====
import proofs.«419822_j14680198218267_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x1599454, .i32⟩ : BufTy).Contents (Elt F)) : (⟨S1x1599454, .i32⟩ : BufTy).Contents (Elt F) :=
  extractStridedSlice S1x1599454 ![0, 0] (x1) slices_S2x1599454_S1x1599454_0_0

def val_main_v1 (x1 : (⟨S2x1599454, .i32⟩ : BufTy).Contents (Elt F)) : (⟨S1599454, .i32⟩ : BufTy).Contents (Elt F) :=
  shapeCast _ (val_main_v0 (F := F) x1) shapeCasts_S1x1599454_S1599454

def val_main_v2 (x1 : (⟨S2x1599454, .i32⟩ : BufTy).Contents (Elt F)) : (⟨S1x1599454, .i32⟩ : BufTy).Contents (Elt F) :=
  extractStridedSlice S1x1599454 ![1, 0] (x1) slices_S2x1599454_S1x1599454_1_0

def val_main_v3 (x1 : (⟨S2x1599454, .i32⟩ : BufTy).Contents (Elt F)) : (⟨S1599454, .i32⟩ : BufTy).Contents (Elt F) :=
  shapeCast _ (val_main_v2 (F := F) x1) shapeCasts_S1x1599454_S1599454

def val_main_v4 : (⟨S50000, .i32⟩ : BufTy).Contents (Elt F) :=
  iotaInDim S50000 32 0

def val_main_v5 (x1 : (⟨S2x1599454, .i32⟩ : BufTy).Contents (Elt F)) : (⟨S1649454, .i32⟩ : BufTy).Contents (Elt F) :=
  concatenate S1649454 0 [⟨S1599454, (val_main_v1 (F := F) x1)⟩, ⟨S50000, (val_main_v4 (F := F))⟩] concatenates_S1599454_S50000_S1649454_d0

def val_main_v6 (x1 : (⟨S2x1599454, .i32⟩ : BufTy).Contents (Elt F)) : (⟨S1649454, .i32⟩ : BufTy).Contents (Elt F) :=
  concatenate S1649454 0 [⟨S1599454, (val_main_v3 (F := F) x1)⟩, ⟨S50000, (val_main_v4 (F := F))⟩] concatenates_S1599454_S50000_S1649454_d0

def val_main_cst : (⟨S_, .f32⟩ : BufTy).Contents (Elt F) :=
  constant S_ .f32 0x3F800000#32

theorem val_main_cst_apply (i : S_.Idx) :
    val_main_cst (F := F) i = FloatOps.ofBits .f32 0x3F800000#32 := rfl

def val_main_v7 : (⟨S1649454, .f32⟩ : BufTy).Contents (Elt F) :=
  broadcastInDim S1649454 ![] bcast_S_S1649454 (val_main_cst (F := F))

abbrev idx_main_v7 (i : S1649454.Idx) : S_.Idx := fun a => a.elim0

theorem val_main_v7_apply (i : S1649454.Idx) :
    val_main_v7 (F := F) i = val_main_cst (F := F) (idx_main_v7 i) := by
  unfold val_main_v7
  generalize val_main_cst (F := F) = y
  exact broadcastInDim_apply _ bcast_S_S1649454 y i (idx_main_v7 i) (fun a => a.elim0)

def val_main_cst_0 : (⟨S_, .f32⟩ : BufTy).Contents (Elt F) :=
  constant S_ .f32 0x00000000#32

theorem val_main_cst_0_apply (i : S_.Idx) :
    val_main_cst_0 (F := F) i = FloatOps.ofBits .f32 0x00000000#32 := rfl

def val_main_v8 : (⟨S50000, .f32⟩ : BufTy).Contents (Elt F) :=
  broadcastInDim S50000 ![] bcast_S_S50000 (val_main_cst_0 (F := F))

abbrev idx_main_v8 (i : S50000.Idx) : S_.Idx := fun a => a.elim0

theorem val_main_v8_apply (i : S50000.Idx) :
    val_main_v8 (F := F) i = val_main_cst_0 (F := F) (idx_main_v8 i) := by
  unfold val_main_v8
  generalize val_main_cst_0 (F := F) = y
  exact broadcastInDim_apply _ bcast_S_S50000 y i (idx_main_v8 i) (fun a => a.elim0)

def val_main_v9 (x1 : (⟨S2x1599454, .i32⟩ : BufTy).Contents (Elt F)) : (⟨S1649454x1, .i32⟩ : BufTy).Contents (Elt F) :=
  broadcastInDim S1649454x1 ![0] bcast_S1649454_S1649454x1_0 (val_main_v6 (F := F) x1)

abbrev idx_main_v9 (i : S1649454x1.Idx) : S1649454.Idx := fun a => match a with
  | ⟨0, _⟩ => ⟨(i 0).val, (i 0).isLt⟩

theorem val_main_v9_apply (x1 : (⟨S2x1599454, .i32⟩ : BufTy).Contents (Elt F)) (i : S1649454x1.Idx) :
    val_main_v9 (F := F) x1 i = val_main_v6 (F := F) x1 (idx_main_v9 i) := by
  unfold val_main_v9
  generalize val_main_v6 (F := F) x1 = y
  exact broadcastInDim_apply _ bcast_S1649454_S1649454x1_0 y i (idx_main_v9 i) (fun a => match a with
    | ⟨0, _⟩ => by show (i 0).val = if (1649454 : Nat) = 1 then 0 else (i 0).val; rw [if_neg (by decide)])

def val_main_v10 (x1 : (⟨S2x1599454, .i32⟩ : BufTy).Contents (Elt F)) : (⟨S50000, .f32⟩ : BufTy).Contents (Elt F) :=
  Host.scatterAdd scatter_S50000_S1649454x1_S1649454_n_0_0_1 (val_main_v8 (F := F)) (val_main_v9 (F := F) x1) (val_main_v7 (F := F))

def val_main_cst_1 : (⟨S_, .f32⟩ : BufTy).Contents (Elt F) :=
  constant S_ .f32 0x00000000#32

theorem val_main_cst_1_apply (i : S_.Idx) :
    val_main_cst_1 (F := F) i = FloatOps.ofBits .f32 0x00000000#32 := rfl

def val_main_v11 : (⟨S50000, .f32⟩ : BufTy).Contents (Elt F) :=
  broadcastInDim S50000 ![] bcast_S_S50000 (val_main_cst_1 (F := F))

abbrev idx_main_v11 (i : S50000.Idx) : S_.Idx := fun a => a.elim0

theorem val_main_v11_apply (i : S50000.Idx) :
    val_main_v11 (F := F) i = val_main_cst_1 (F := F) (idx_main_v11 i) := by
  unfold val_main_v11
  generalize val_main_cst_1 (F := F) = y
  exact broadcastInDim_apply _ bcast_S_S50000 y i (idx_main_v11 i) (fun a => a.elim0)

def val_main_v12 (x1 : (⟨S2x1599454, .i32⟩ : BufTy).Contents (Elt F)) : (⟨S50000, .i1⟩ : BufTy).Contents (Elt F) :=
  cmpf .ogt (val_main_v10 (F := F) x1) (val_main_v11 (F := F))

theorem val_main_v12_apply (x1 : (⟨S2x1599454, .i32⟩ : BufTy).Contents (Elt F)) (i : S50000.Idx) :
    val_main_v12 (F := F) x1 i = FloatOps.cmpf .ogt (val_main_v10 (F := F) x1 i) (val_main_v11 (F := F) i) := rfl

def val_main_cst_2 : (⟨S_, .f32⟩ : BufTy).Contents (Elt F) :=
  constant S_ .f32 0x3F800000#32

theorem val_main_cst_2_apply (i : S_.Idx) :
    val_main_cst_2 (F := F) i = FloatOps.ofBits .f32 0x3F800000#32 := rfl

def val_main_call0_v0 : (⟨S_, .f32⟩ : BufTy).Contents (Elt F) :=
  id (val_main_cst_2 (F := F))

theorem val_main_call0_v0_apply (i : S_.Idx) :
    val_main_call0_v0 (F := F) i = (val_main_cst_2 (F := F) i) := rfl

def val_main_call0_v1 : (⟨S50000, .f32⟩ : BufTy).Contents (Elt F) :=
  broadcastInDim S50000 ![] bcast_S_S50000 (val_main_call0_v0 (F := F))

abbrev idx_main_call0_v1 (i : S50000.Idx) : S_.Idx := fun a => a.elim0

theorem val_main_call0_v1_apply (i : S50000.Idx) :
    val_main_call0_v1 (F := F) i = val_main_call0_v0 (F := F) (idx_main_call0_v1 i) := by
  unfold val_main_call0_v1
  generalize val_main_call0_v0 (F := F) = y
  exact broadcastInDim_apply _ bcast_S_S50000 y i (idx_main_call0_v1 i) (fun a => a.elim0)

def val_main_v13 (x1 : (⟨S2x1599454, .i32⟩ : BufTy).Contents (Elt F)) : (⟨S50000, .f32⟩ : BufTy).Contents (Elt F) :=
  select (val_main_v12 (F := F) x1) (val_main_v10 (F := F) x1) (val_main_call0_v1 (F := F))

theorem val_main_v13_apply (x1 : (⟨S2x1599454, .i32⟩ : BufTy).Contents (Elt F)) (i : S50000.Idx) :
    val_main_v13 (F := F) x1 i = Scalar.select (val_main_v12 (F := F) x1 i) (val_main_v10 (F := F) x1 i) (val_main_call0_v1 (F := F) i) := rfl

def val_main_v14 (x1 : (⟨S2x1599454, .i32⟩ : BufTy).Contents (Elt F)) : (⟨S50000, .f32⟩ : BufTy).Contents (Elt F) :=
  Host.rsqrt (val_main_v13 (F := F) x1)

theorem val_main_v14_apply (x1 : (⟨S2x1599454, .i32⟩ : BufTy).Contents (Elt F)) (i : S50000.Idx) :
    val_main_v14 (F := F) x1 i = FloatOps.hostUnary .rsqrt (val_main_v13 (F := F) x1 i) := rfl

def val_main_c : (⟨S_, .i32⟩ : BufTy).Contents (Elt F) :=
  constantI S_ 32 0#32

theorem val_main_c_apply (i : S_.Idx) :
    val_main_c (F := F) i = 0#32 := rfl

def val_main_v15 : (⟨S1649454, .i32⟩ : BufTy).Contents (Elt F) :=
  broadcastInDim S1649454 ![] bcast_S_S1649454 (val_main_c (F := F))

abbrev idx_main_v15 (i : S1649454.Idx) : S_.Idx := fun a => a.elim0

theorem val_main_v15_apply (i : S1649454.Idx) :
    val_main_v15 (F := F) i = val_main_c (F := F) (idx_main_v15 i) := by
  unfold val_main_v15
  generalize val_main_c (F := F) = y
  exact broadcastInDim_apply _ bcast_S_S1649454 y i (idx_main_v15 i) (fun a => a.elim0)

def val_main_v16 (x1 : (⟨S2x1599454, .i32⟩ : BufTy).Contents (Elt F)) : (⟨S1649454, .i1⟩ : BufTy).Contents (Elt F) :=
  cmpi .slt (val_main_v5 (F := F) x1) (val_main_v15 (F := F))

theorem val_main_v16_apply (x1 : (⟨S2x1599454, .i32⟩ : BufTy).Contents (Elt F)) (i : S1649454.Idx) :
    val_main_v16 (F := F) x1 i = IntOp.cmpi .slt (val_main_v5 (F := F) x1 i) (val_main_v15 (F := F) i) := rfl

def val_main_c_3 : (⟨S_, .i32⟩ : BufTy).Contents (Elt F) :=
  constantI S_ 32 50000#32

theorem val_main_c_3_apply (i : S_.Idx) :
    val_main_c_3 (F := F) i = 50000#32 := rfl

def val_main_v17 : (⟨S1649454, .i32⟩ : BufTy).Contents (Elt F) :=
  broadcastInDim S1649454 ![] bcast_S_S1649454 (val_main_c_3 (F := F))

abbrev idx_main_v17 (i : S1649454.Idx) : S_.Idx := fun a => a.elim0

theorem val_main_v17_apply (i : S1649454.Idx) :
    val_main_v17 (F := F) i = val_main_c_3 (F := F) (idx_main_v17 i) := by
  unfold val_main_v17
  generalize val_main_c_3 (F := F) = y
  exact broadcastInDim_apply _ bcast_S_S1649454 y i (idx_main_v17 i) (fun a => a.elim0)

def val_main_v18 (x1 : (⟨S2x1599454, .i32⟩ : BufTy).Contents (Elt F)) : (⟨S1649454, .i32⟩ : BufTy).Contents (Elt F) :=
  addi (val_main_v5 (F := F) x1) (val_main_v17 (F := F))

theorem val_main_v18_apply (x1 : (⟨S2x1599454, .i32⟩ : BufTy).Contents (Elt F)) (i : S1649454.Idx) :
    val_main_v18 (F := F) x1 i = IntOp.addi (val_main_v5 (F := F) x1 i) (val_main_v17 (F := F) i) := rfl

def val_main_v19 (x1 : (⟨S2x1599454, .i32⟩ : BufTy).Contents (Elt F)) : (⟨S1649454, .i32⟩ : BufTy).Contents (Elt F) :=
  select (val_main_v16 (F := F) x1) (val_main_v18 (F := F) x1) (val_main_v5 (F := F) x1)

theorem val_main_v19_apply (x1 : (⟨S2x1599454, .i32⟩ : BufTy).Contents (Elt F)) (i : S1649454.Idx) :
    val_main_v19 (F := F) x1 i = Scalar.select (val_main_v16 (F := F) x1 i) (val_main_v18 (F := F) x1 i) (val_main_v5 (F := F) x1 i) := rfl

def val_main_v20 (x1 : (⟨S2x1599454, .i32⟩ : BufTy).Contents (Elt F)) : (⟨S1649454x1, .i32⟩ : BufTy).Contents (Elt F) :=
  broadcastInDim S1649454x1 ![0] bcast_S1649454_S1649454x1_0 (val_main_v19 (F := F) x1)

abbrev idx_main_v20 (i : S1649454x1.Idx) : S1649454.Idx := fun a => match a with
  | ⟨0, _⟩ => ⟨(i 0).val, (i 0).isLt⟩

theorem val_main_v20_apply (x1 : (⟨S2x1599454, .i32⟩ : BufTy).Contents (Elt F)) (i : S1649454x1.Idx) :
    val_main_v20 (F := F) x1 i = val_main_v19 (F := F) x1 (idx_main_v20 i) := by
  unfold val_main_v20
  generalize val_main_v19 (F := F) x1 = y
  exact broadcastInDim_apply _ bcast_S1649454_S1649454x1_0 y i (idx_main_v20 i) (fun a => match a with
    | ⟨0, _⟩ => by show (i 0).val = if (1649454 : Nat) = 1 then 0 else (i 0).val; rw [if_neg (by decide)])

def val_main_v21 (x1 : (⟨S2x1599454, .i32⟩ : BufTy).Contents (Elt F)) : (⟨S1649454, .f32⟩ : BufTy).Contents (Elt F) :=
  Host.gather gather_S50000_S1649454x1_S1649454_n_0_n_n_0_1_1 (val_main_v14 (F := F) x1) (val_main_v20 (F := F) x1)

def val_main_c_4 : (⟨S_, .i32⟩ : BufTy).Contents (Elt F) :=
  constantI S_ 32 0#32

theorem val_main_c_4_apply (i : S_.Idx) :
    val_main_c_4 (F := F) i = 0#32 := rfl

def val_main_v22 : (⟨S1649454, .i32⟩ : BufTy).Contents (Elt F) :=
  broadcastInDim S1649454 ![] bcast_S_S1649454 (val_main_c_4 (F := F))

abbrev idx_main_v22 (i : S1649454.Idx) : S_.Idx := fun a => a.elim0

theorem val_main_v22_apply (i : S1649454.Idx) :
    val_main_v22 (F := F) i = val_main_c_4 (F := F) (idx_main_v22 i) := by
  unfold val_main_v22
  generalize val_main_c_4 (F := F) = y
  exact broadcastInDim_apply _ bcast_S_S1649454 y i (idx_main_v22 i) (fun a => a.elim0)

def val_main_v23 (x1 : (⟨S2x1599454, .i32⟩ : BufTy).Contents (Elt F)) : (⟨S1649454, .i1⟩ : BufTy).Contents (Elt F) :=
  cmpi .slt (val_main_v6 (F := F) x1) (val_main_v22 (F := F))

theorem val_main_v23_apply (x1 : (⟨S2x1599454, .i32⟩ : BufTy).Contents (Elt F)) (i : S1649454.Idx) :
    val_main_v23 (F := F) x1 i = IntOp.cmpi .slt (val_main_v6 (F := F) x1 i) (val_main_v22 (F := F) i) := rfl

def val_main_c_5 : (⟨S_, .i32⟩ : BufTy).Contents (Elt F) :=
  constantI S_ 32 50000#32

theorem val_main_c_5_apply (i : S_.Idx) :
    val_main_c_5 (F := F) i = 50000#32 := rfl

def val_main_v24 : (⟨S1649454, .i32⟩ : BufTy).Contents (Elt F) :=
  broadcastInDim S1649454 ![] bcast_S_S1649454 (val_main_c_5 (F := F))

abbrev idx_main_v24 (i : S1649454.Idx) : S_.Idx := fun a => a.elim0

theorem val_main_v24_apply (i : S1649454.Idx) :
    val_main_v24 (F := F) i = val_main_c_5 (F := F) (idx_main_v24 i) := by
  unfold val_main_v24
  generalize val_main_c_5 (F := F) = y
  exact broadcastInDim_apply _ bcast_S_S1649454 y i (idx_main_v24 i) (fun a => a.elim0)

def val_main_v25 (x1 : (⟨S2x1599454, .i32⟩ : BufTy).Contents (Elt F)) : (⟨S1649454, .i32⟩ : BufTy).Contents (Elt F) :=
  addi (val_main_v6 (F := F) x1) (val_main_v24 (F := F))

theorem val_main_v25_apply (x1 : (⟨S2x1599454, .i32⟩ : BufTy).Contents (Elt F)) (i : S1649454.Idx) :
    val_main_v25 (F := F) x1 i = IntOp.addi (val_main_v6 (F := F) x1 i) (val_main_v24 (F := F) i) := rfl

def val_main_v26 (x1 : (⟨S2x1599454, .i32⟩ : BufTy).Contents (Elt F)) : (⟨S1649454, .i32⟩ : BufTy).Contents (Elt F) :=
  select (val_main_v23 (F := F) x1) (val_main_v25 (F := F) x1) (val_main_v6 (F := F) x1)

theorem val_main_v26_apply (x1 : (⟨S2x1599454, .i32⟩ : BufTy).Contents (Elt F)) (i : S1649454.Idx) :
    val_main_v26 (F := F) x1 i = Scalar.select (val_main_v23 (F := F) x1 i) (val_main_v25 (F := F) x1 i) (val_main_v6 (F := F) x1 i) := rfl

def val_main_v27 (x1 : (⟨S2x1599454, .i32⟩ : BufTy).Contents (Elt F)) : (⟨S1649454x1, .i32⟩ : BufTy).Contents (Elt F) :=
  broadcastInDim S1649454x1 ![0] bcast_S1649454_S1649454x1_0 (val_main_v26 (F := F) x1)

abbrev idx_main_v27 (i : S1649454x1.Idx) : S1649454.Idx := fun a => match a with
  | ⟨0, _⟩ => ⟨(i 0).val, (i 0).isLt⟩

theorem val_main_v27_apply (x1 : (⟨S2x1599454, .i32⟩ : BufTy).Contents (Elt F)) (i : S1649454x1.Idx) :
    val_main_v27 (F := F) x1 i = val_main_v26 (F := F) x1 (idx_main_v27 i) := by
  unfold val_main_v27
  generalize val_main_v26 (F := F) x1 = y
  exact broadcastInDim_apply _ bcast_S1649454_S1649454x1_0 y i (idx_main_v27 i) (fun a => match a with
    | ⟨0, _⟩ => by show (i 0).val = if (1649454 : Nat) = 1 then 0 else (i 0).val; rw [if_neg (by decide)])

def val_main_v28 (x1 : (⟨S2x1599454, .i32⟩ : BufTy).Contents (Elt F)) : (⟨S1649454, .f32⟩ : BufTy).Contents (Elt F) :=
  Host.gather gather_S50000_S1649454x1_S1649454_n_0_n_n_0_1_1 (val_main_v14 (F := F) x1) (val_main_v27 (F := F) x1)

def val_main_v29 (x1 : (⟨S2x1599454, .i32⟩ : BufTy).Contents (Elt F)) : (⟨S1649454, .f32⟩ : BufTy).Contents (Elt F) :=
  mulf (val_main_v21 (F := F) x1) (val_main_v28 (F := F) x1)

theorem val_main_v29_apply (x1 : (⟨S2x1599454, .i32⟩ : BufTy).Contents (Elt F)) (i : S1649454.Idx) :
    val_main_v29 (F := F) x1 i = FloatOps.mulf (val_main_v21 (F := F) x1 i) (val_main_v28 (F := F) x1 i) := rfl

def val_main_v30 (x1 : (⟨S2x1599454, .i32⟩ : BufTy).Contents (Elt F)) : (⟨S1649454x1, .f32⟩ : BufTy).Contents (Elt F) :=
  broadcastInDim S1649454x1 ![0] bcast_S1649454_S1649454x1_0 (val_main_v29 (F := F) x1)

abbrev idx_main_v30 (i : S1649454x1.Idx) : S1649454.Idx := fun a => match a with
  | ⟨0, _⟩ => ⟨(i 0).val, (i 0).isLt⟩

theorem val_main_v30_apply (x1 : (⟨S2x1599454, .i32⟩ : BufTy).Contents (Elt F)) (i : S1649454x1.Idx) :
    val_main_v30 (F := F) x1 i = val_main_v29 (F := F) x1 (idx_main_v30 i) := by
  unfold val_main_v30
  generalize val_main_v29 (F := F) x1 = y
  exact broadcastInDim_apply _ bcast_S1649454_S1649454x1_0 y i (idx_main_v30 i) (fun a => match a with
    | ⟨0, _⟩ => by show (i 0).val = if (1649454 : Nat) = 1 then 0 else (i 0).val; rw [if_neg (by decide)])

def val_main_cst_6 : (⟨S_, .f32⟩ : BufTy).Contents (Elt F) :=
  constant S_ .f32 0x3F800000#32

theorem val_main_cst_6_apply (i : S_.Idx) :
    val_main_cst_6 (F := F) i = FloatOps.ofBits .f32 0x3F800000#32 := rfl

def val_main_v31 : (⟨S50000, .f32⟩ : BufTy).Contents (Elt F) :=
  broadcastInDim S50000 ![] bcast_S_S50000 (val_main_cst_6 (F := F))

abbrev idx_main_v31 (i : S50000.Idx) : S_.Idx := fun a => a.elim0

theorem val_main_v31_apply (i : S50000.Idx) :
    val_main_v31 (F := F) i = val_main_cst_6 (F := F) (idx_main_v31 i) := by
  unfold val_main_v31
  generalize val_main_cst_6 (F := F) = y
  exact broadcastInDim_apply _ bcast_S_S50000 y i (idx_main_v31 i) (fun a => a.elim0)

def val_main_cst_7 : (⟨S_, .f32⟩ : BufTy).Contents (Elt F) :=
  constant S_ .f32 0x00000000#32

theorem val_main_cst_7_apply (i : S_.Idx) :
    val_main_cst_7 (F := F) i = FloatOps.ofBits .f32 0x00000000#32 := rfl

def val_main_v32 : (⟨S64, .f32⟩ : BufTy).Contents (Elt F) :=
  broadcastInDim S64 ![] bcast_S_S64 (val_main_cst_7 (F := F))

abbrev idx_main_v32 (i : S64.Idx) : S_.Idx := fun a => a.elim0

theorem val_main_v32_apply (i : S64.Idx) :
    val_main_v32 (F := F) i = val_main_cst_7 (F := F) (idx_main_v32 i) := by
  unfold val_main_v32
  generalize val_main_cst_7 (F := F) = y
  exact broadcastInDim_apply _ bcast_S_S64 y i (idx_main_v32 i) (fun a => a.elim0)

def val_main_v33 (x2 : (⟨S50000, .i32⟩ : BufTy).Contents (Elt F)) : (⟨S50000x1, .i32⟩ : BufTy).Contents (Elt F) :=
  broadcastInDim S50000x1 ![0] bcast_S50000_S50000x1_0 (x2)

abbrev idx_main_v33 (i : S50000x1.Idx) : S50000.Idx := fun a => match a with
  | ⟨0, _⟩ => ⟨(i 0).val, (i 0).isLt⟩

theorem val_main_v33_apply (x2 : (⟨S50000, .i32⟩ : BufTy).Contents (Elt F)) (i : S50000x1.Idx) :
    val_main_v33 (F := F) x2 i = x2 (idx_main_v33 i) := by
  unfold val_main_v33
  exact broadcastInDim_apply _ bcast_S50000_S50000x1_0 x2 i (idx_main_v33 i) (fun a => match a with
    | ⟨0, _⟩ => by show (i 0).val = if (50000 : Nat) = 1 then 0 else (i 0).val; rw [if_neg (by decide)])

def val_main_v34 (x2 : (⟨S50000, .i32⟩ : BufTy).Contents (Elt F)) : (⟨S64, .f32⟩ : BufTy).Contents (Elt F) :=
  Host.scatterAdd scatter_S64_S50000x1_S50000_n_0_0_1 (val_main_v32 (F := F)) (val_main_v33 (F := F) x2) (val_main_v31 (F := F))

def val_main_cst_8 : (⟨S_, .f32⟩ : BufTy).Contents (Elt F) :=
  constant S_ .f32 0x3F800000#32

theorem val_main_cst_8_apply (i : S_.Idx) :
    val_main_cst_8 (F := F) i = FloatOps.ofBits .f32 0x3F800000#32 := rfl

def val_main_v35 : (⟨S64, .f32⟩ : BufTy).Contents (Elt F) :=
  broadcastInDim S64 ![] bcast_S_S64 (val_main_cst_8 (F := F))

abbrev idx_main_v35 (i : S64.Idx) : S_.Idx := fun a => a.elim0

theorem val_main_v35_apply (i : S64.Idx) :
    val_main_v35 (F := F) i = val_main_cst_8 (F := F) (idx_main_v35 i) := by
  unfold val_main_v35
  generalize val_main_cst_8 (F := F) = y
  exact broadcastInDim_apply _ bcast_S_S64 y i (idx_main_v35 i) (fun a => a.elim0)

def val_main_v36 (x2 : (⟨S50000, .i32⟩ : BufTy).Contents (Elt F)) : (⟨S64, .f32⟩ : BufTy).Contents (Elt F) :=
  maximumf (val_main_v34 (F := F) x2) (val_main_v35 (F := F))

theorem val_main_v36_apply (x2 : (⟨S50000, .i32⟩ : BufTy).Contents (Elt F)) (i : S64.Idx) :
    val_main_v36 (F := F) x2 i = FloatOps.maximumf (val_main_v34 (F := F) x2 i) (val_main_v35 (F := F) i) := rfl

def val_main_v37 (x2 : (⟨S50000, .i32⟩ : BufTy).Contents (Elt F)) : (⟨S64x1, .f32⟩ : BufTy).Contents (Elt F) :=
  broadcastInDim S64x1 ![0] bcast_S64_S64x1_0 (val_main_v36 (F := F) x2)

abbrev idx_main_v37 (i : S64x1.Idx) : S64.Idx := fun a => match a with
  | ⟨0, _⟩ => ⟨(i 0).val, (i 0).isLt⟩

theorem val_main_v37_apply (x2 : (⟨S50000, .i32⟩ : BufTy).Contents (Elt F)) (i : S64x1.Idx) :
    val_main_v37 (F := F) x2 i = val_main_v36 (F := F) x2 (idx_main_v37 i) := by
  unfold val_main_v37
  generalize val_main_v36 (F := F) x2 = y
  exact broadcastInDim_apply _ bcast_S64_S64x1_0 y i (idx_main_v37 i) (fun a => match a with
    | ⟨0, _⟩ => by show (i 0).val = if (64 : Nat) = 1 then 0 else (i 0).val; rw [if_neg (by decide)])

def val_main_v38 (x3 : (⟨S3x128x128, .f32⟩ : BufTy).Contents (Elt F)) : (⟨S1x128x128, .f32⟩ : BufTy).Contents (Elt F) :=
  extractStridedSlice S1x128x128 ![0, 0, 0] (x3) slices_S3x128x128_S1x128x128_0_0_0

abbrev idx_main_v38 (i : S1x128x128.Idx) : S3x128x128.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩

theorem val_main_v38_apply (x3 : (⟨S3x128x128, .f32⟩ : BufTy).Contents (Elt F)) (i : S1x128x128.Idx) :
    val_main_v38 (F := F) x3 i = x3 (idx_main_v38 i) := by
  unfold val_main_v38
  exact extractStridedSlice_apply ![0, 0, 0] x3 slices_S3x128x128_S1x128x128_0_0_0 i (idx_main_v38 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v39 (x3 : (⟨S3x128x128, .f32⟩ : BufTy).Contents (Elt F)) : (⟨S128x128, .f32⟩ : BufTy).Contents (Elt F) :=
  shapeCast _ (val_main_v38 (F := F) x3) shapeCasts_S1x128x128_S128x128

abbrev idx_main_v39 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩

theorem val_main_v39_apply (x3 : (⟨S3x128x128, .f32⟩ : BufTy).Contents (Elt F)) (i : S128x128.Idx) :
    val_main_v39 (F := F) x3 i = val_main_v38 (F := F) x3 (idx_main_v39 i) := by
  unfold val_main_v39
  generalize val_main_v38 (F := F) x3 = y
  exact shapeCast_apply y shapeCasts_S1x128x128_S128x128 i (idx_main_v39 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v40 (x0 : (⟨S50000x128, .f32⟩ : BufTy).Contents (Elt F)) (x3 : (⟨S3x128x128, .f32⟩ : BufTy).Contents (Elt F)) : (⟨S50000x128, .f32⟩ : BufTy).Contents (Elt F) :=
  Host.dotGeneral dot_S50000x128_S128x128_S50000x128_1_0_0_1_n_n none (x0) (val_main_v39 (F := F) x3)

theorem lhs_main_v40_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem lhs_main_v40_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_main_v40_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_main_v40_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

abbrev lidx_main_v40 (i : S50000x128.Idx) (k : Fin 128) : S50000x128.Idx := fun a => match a with
  | ⟨0, _⟩ => ⟨(i 0).val, (i 0).isLt⟩
  | ⟨1, _⟩ => ⟨k.val, k.isLt⟩

abbrev ridx_main_v40 (i : S50000x128.Idx) (k : Fin 128) : S128x128.Idx := fun a => match a with
  | ⟨0, _⟩ => ⟨k.val, k.isLt⟩
  | ⟨1, _⟩ => ⟨(i 1).val, (i 1).isLt⟩

theorem val_main_v40_apply (x0 : (⟨S50000x128, .f32⟩ : BufTy).Contents (Elt Ideal)) (x3 : (⟨S3x128x128, .f32⟩ : BufTy).Contents (Elt Ideal)) (i : S50000x128.Idx) :
    val_main_v40 (F := Ideal) x0 x3 i = ∑ k : Fin 128, x0 (lidx_main_v40 i k) * (val_main_v39 (F := Ideal) x3) (ridx_main_v40 i k) := by
  unfold val_main_v40
  generalize val_main_v39 (F := Ideal) x3 = y0
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v40 i k := funext fun a => Fin.ext (by
    match a with
    | ⟨0, _⟩ => exact lhs_main_v40_0 _ _
    | ⟨1, _⟩ => exact (lhs_main_v40_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v40 i k := funext fun a => Fin.ext (by
    match a with
    | ⟨0, _⟩ => exact (rhs_main_v40_0 _ _).trans hk
    | ⟨1, _⟩ => exact rhs_main_v40_1 _ _)
  rw [el, er]

def val_main_c_9 : (⟨S_, .i32⟩ : BufTy).Contents (Elt F) :=
  constantI S_ 32 0#32

def val_main_v41 : (⟨S1649454, .i32⟩ : BufTy).Contents (Elt F) :=
  broadcastInDim S1649454 ![] bcast_S_S1649454 (val_main_c_9 (F := F))

def val_main_v42 (x1 : (⟨S2x1599454, .i32⟩ : BufTy).Contents (Elt F)) : (⟨S1649454, .i1⟩ : BufTy).Contents (Elt F) :=
  cmpi .slt (val_main_v5 (F := F) x1) (val_main_v41 (F := F))

def val_main_c_10 : (⟨S_, .i32⟩ : BufTy).Contents (Elt F) :=
  constantI S_ 32 50000#32

def val_main_v43 : (⟨S1649454, .i32⟩ : BufTy).Contents (Elt F) :=
  broadcastInDim S1649454 ![] bcast_S_S1649454 (val_main_c_10 (F := F))

def val_main_v44 (x1 : (⟨S2x1599454, .i32⟩ : BufTy).Contents (Elt F)) : (⟨S1649454, .i32⟩ : BufTy).Contents (Elt F) :=
  addi (val_main_v5 (F := F) x1) (val_main_v43 (F := F))

def val_main_v45 (x1 : (⟨S2x1599454, .i32⟩ : BufTy).Contents (Elt F)) : (⟨S1649454, .i32⟩ : BufTy).Contents (Elt F) :=
  select (val_main_v42 (F := F) x1) (val_main_v44 (F := F) x1) (val_main_v5 (F := F) x1)

def val_main_v46 (x1 : (⟨S2x1599454, .i32⟩ : BufTy).Contents (Elt F)) : (⟨S1649454x1, .i32⟩ : BufTy).Contents (Elt F) :=
  broadcastInDim S1649454x1 ![0] bcast_S1649454_S1649454x1_0 (val_main_v45 (F := F) x1)

def val_main_v47 (x0 : (⟨S50000x128, .f32⟩ : BufTy).Contents (Elt F)) (x1 : (⟨S2x1599454, .i32⟩ : BufTy).Contents (Elt F)) (x3 : (⟨S3x128x128, .f32⟩ : BufTy).Contents (Elt F)) : (⟨S1649454x128, .f32⟩ : BufTy).Contents (Elt F) :=
  Host.gather gather_S50000x128_S1649454x1_S1649454x128_1_0_n_n_0_1_1128 (val_main_v40 (F := F) x0 x3) (val_main_v46 (F := F) x1)

def val_main_v48 (x1 : (⟨S2x1599454, .i32⟩ : BufTy).Contents (Elt F)) : (⟨S1649454x128, .f32⟩ : BufTy).Contents (Elt F) :=
  broadcastInDim S1649454x128 ![0, 1] bcast_S1649454x1_S1649454x128_0_1 (val_main_v30 (F := F) x1)

abbrev idx_main_v48 (i : S1649454x128.Idx) : S1649454x1.Idx := fun a => match a with
  | ⟨0, _⟩ => ⟨(i 0).val, (i 0).isLt⟩
  | ⟨1, _⟩ => ⟨0, Nat.one_pos⟩

theorem val_main_v48_apply (x1 : (⟨S2x1599454, .i32⟩ : BufTy).Contents (Elt F)) (i : S1649454x128.Idx) :
    val_main_v48 (F := F) x1 i = val_main_v30 (F := F) x1 (idx_main_v48 i) := by
  unfold val_main_v48
  generalize val_main_v30 (F := F) x1 = y
  exact broadcastInDim_apply _ bcast_S1649454x1_S1649454x128_0_1 y i (idx_main_v48 i) (fun a => match a with
    | ⟨0, _⟩ => by show (i 0).val = if (1649454 : Nat) = 1 then 0 else (i 0).val; rw [if_neg (by decide)]
    | ⟨1, _⟩ => by show 0 = if (1 : Nat) = 1 then 0 else (i 1).val; rw [if_pos rfl])

def val_main_v49 (x0 : (⟨S50000x128, .f32⟩ : BufTy).Contents (Elt F)) (x1 : (⟨S2x1599454, .i32⟩ : BufTy).Contents (Elt F)) (x3 : (⟨S3x128x128, .f32⟩ : BufTy).Contents (Elt F)) : (⟨S1649454x128, .f32⟩ : BufTy).Contents (Elt F) :=
  mulf (val_main_v47 (F := F) x0 x1 x3) (val_main_v48 (F := F) x1)

def val_main_cst_11 : (⟨S_, .f32⟩ : BufTy).Contents (Elt F) :=
  constant S_ .f32 0x00000000#32

theorem val_main_cst_11_apply (i : S_.Idx) :
    val_main_cst_11 (F := F) i = FloatOps.ofBits .f32 0x00000000#32 := rfl

def val_main_v50 : (⟨S50000x128, .f32⟩ : BufTy).Contents (Elt F) :=
  broadcastInDim S50000x128 ![] bcast_S_S50000x128 (val_main_cst_11 (F := F))

abbrev idx_main_v50 (i : S50000x128.Idx) : S_.Idx := fun a => a.elim0

theorem val_main_v50_apply (i : S50000x128.Idx) :
    val_main_v50 (F := F) i = val_main_cst_11 (F := F) (idx_main_v50 i) := by
  unfold val_main_v50
  generalize val_main_cst_11 (F := F) = y
  exact broadcastInDim_apply _ bcast_S_S50000x128 y i (idx_main_v50 i) (fun a => a.elim0)

def val_main_v51 (x1 : (⟨S2x1599454, .i32⟩ : BufTy).Contents (Elt F)) : (⟨S1649454x1, .i32⟩ : BufTy).Contents (Elt F) :=
  broadcastInDim S1649454x1 ![0] bcast_S1649454_S1649454x1_0 (val_main_v6 (F := F) x1)

def val_main_v52 (x0 : (⟨S50000x128, .f32⟩ : BufTy).Contents (Elt F)) (x1 : (⟨S2x1599454, .i32⟩ : BufTy).Contents (Elt F)) (x3 : (⟨S3x128x128, .f32⟩ : BufTy).Contents (Elt F)) : (⟨S50000x128, .f32⟩ : BufTy).Contents (Elt F) :=
  Host.scatterAdd scatter_S50000x128_S1649454x1_S1649454x128_1_0_0_1 (val_main_v50 (F := F)) (val_main_v51 (F := F) x1) (val_main_v49 (F := F) x0 x1 x3)

def val_main_v53 (x4 : (⟨S3x128, .f32⟩ : BufTy).Contents (Elt F)) : (⟨S1x128, .f32⟩ : BufTy).Contents (Elt F) :=
  extractStridedSlice S1x128 ![0, 0] (x4) slices_S3x128_S1x128_0_0

abbrev idx_main_v53 (i : S1x128.Idx) : S3x128.Idx := fun a => match a with
  | ⟨0, _⟩ => ⟨(i 0).val, by have h0 : (i 0).val < 1 := (i 0).isLt; show (i 0).val < 3; omega⟩
  | ⟨1, _⟩ => ⟨(i 1).val, (i 1).isLt⟩

theorem val_main_v53_apply (x4 : (⟨S3x128, .f32⟩ : BufTy).Contents (Elt F)) (i : S1x128.Idx) :
    val_main_v53 (F := F) x4 i = x4 (idx_main_v53 i) := by
  unfold val_main_v53
  exact extractStridedSlice_apply ![0, 0] x4 slices_S3x128_S1x128_0_0 i (idx_main_v53 i) (fun a => match a with
    | ⟨0, _⟩ => by show (i 0).val = 0 + (i 0).val; omega
    | ⟨1, _⟩ => by show (i 1).val = 0 + (i 1).val; omega)

def val_main_v54 (x4 : (⟨S3x128, .f32⟩ : BufTy).Contents (Elt F)) : (⟨S128, .f32⟩ : BufTy).Contents (Elt F) :=
  shapeCast _ (val_main_v53 (F := F) x4) shapeCasts_S1x128_S128

abbrev idx_main_v54 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩

theorem val_main_v54_apply (x4 : (⟨S3x128, .f32⟩ : BufTy).Contents (Elt F)) (i : S128.Idx) :
    val_main_v54 (F := F) x4 i = val_main_v53 (F := F) x4 (idx_main_v54 i) := by
  unfold val_main_v54
  generalize val_main_v53 (F := F) x4 = y
  exact shapeCast_apply y shapeCasts_S1x128_S128 i (idx_main_v54 i)
    (by rewrite [Shape.rowMajor_val_two, Shape.rowMajor_val_one]; have h0 : (i 0).val < 128 := (i 0).isLt; show 0 * 128 + ((i 0).val) % 128 = (i 0).val; omega)

def val_main_v55 (x4 : (⟨S3x128, .f32⟩ : BufTy).Contents (Elt F)) : (⟨S1x128, .f32⟩ : BufTy).Contents (Elt F) :=
  broadcastInDim S1x128 ![1] bcast_S128_S1x128_1 (val_main_v54 (F := F) x4)

abbrev idx_main_v55 (i : S1x128.Idx) : S128.Idx := fun a => match a with
  | ⟨0, _⟩ => ⟨(i 1).val, (i 1).isLt⟩

theorem val_main_v55_apply (x4 : (⟨S3x128, .f32⟩ : BufTy).Contents (Elt F)) (i : S1x128.Idx) :
    val_main_v55 (F := F) x4 i = val_main_v54 (F := F) x4 (idx_main_v55 i) := by
  unfold val_main_v55
  generalize val_main_v54 (F := F) x4 = y
  exact broadcastInDim_apply _ bcast_S128_S1x128_1 y i (idx_main_v55 i) (fun a => match a with
    | ⟨0, _⟩ => by show (i 1).val = if (128 : Nat) = 1 then 0 else (i 1).val; rw [if_neg (by decide)])

def val_main_v56 (x4 : (⟨S3x128, .f32⟩ : BufTy).Contents (Elt F)) : (⟨S50000x128, .f32⟩ : BufTy).Contents (Elt F) :=
  broadcastInDim S50000x128 ![0, 1] bcast_S1x128_S50000x128_0_1 (val_main_v55 (F := F) x4)

abbrev idx_main_v56 (i : S50000x128.Idx) : S1x128.Idx := fun a => match a with
  | ⟨0, _⟩ => ⟨0, Nat.one_pos⟩
  | ⟨1, _⟩ => ⟨(i 1).val, (i 1).isLt⟩

theorem val_main_v56_apply (x4 : (⟨S3x128, .f32⟩ : BufTy).Contents (Elt F)) (i : S50000x128.Idx) :
    val_main_v56 (F := F) x4 i = val_main_v55 (F := F) x4 (idx_main_v56 i) := by
  unfold val_main_v56
  generalize val_main_v55 (F := F) x4 = y
  exact broadcastInDim_apply _ bcast_S1x128_S50000x128_0_1 y i (idx_main_v56 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v57 (x0 : (⟨S50000x128, .f32⟩ : BufTy).Contents (Elt F)) (x1 : (⟨S2x1599454, .i32⟩ : BufTy).Contents (Elt F)) (x3 : (⟨S3x128x128, .f32⟩ : BufTy).Contents (Elt F)) (x4 : (⟨S3x128, .f32⟩ : BufTy).Contents (Elt F)) : (⟨S50000x128, .f32⟩ : BufTy).Contents (Elt F) :=
  addf (val_main_v52 (F := F) x0 x1 x3) (val_main_v56 (F := F) x4)

def val_main_cst_12 : (⟨S_, .f32⟩ : BufTy).Contents (Elt F) :=
  constant S_ .f32 0x00000000#32

theorem val_main_cst_12_apply (i : S_.Idx) :
    val_main_cst_12 (F := F) i = FloatOps.ofBits .f32 0x00000000#32 := rfl

def val_main_v58 : (⟨S64x128, .f32⟩ : BufTy).Contents (Elt F) :=
  broadcastInDim S64x128 ![] bcast_S_S64x128 (val_main_cst_12 (F := F))

abbrev idx_main_v58 (i : S64x128.Idx) : S_.Idx := fun a => a.elim0

theorem val_main_v58_apply (i : S64x128.Idx) :
    val_main_v58 (F := F) i = val_main_cst_12 (F := F) (idx_main_v58 i) := by
  unfold val_main_v58
  generalize val_main_cst_12 (F := F) = y
  exact broadcastInDim_apply _ bcast_S_S64x128 y i (idx_main_v58 i) (fun a => a.elim0)

def val_main_v59 (x2 : (⟨S50000, .i32⟩ : BufTy).Contents (Elt F)) : (⟨S50000x1, .i32⟩ : BufTy).Contents (Elt F) :=
  broadcastInDim S50000x1 ![0] bcast_S50000_S50000x1_0 (x2)

def val_main_v60 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) : (⟨S64x128, .f32⟩ : BufTy).Contents (Elt F) :=
  Host.scatterAdd scatter_S64x128_S50000x1_S50000x128_1_0_0_1 (val_main_v58 (F := F)) (val_main_v59 (F := F) x2) (val_main_v57 (F := F) x0 x1 x3 x4)

def val_main_v61 (x2 : (⟨S50000, .i32⟩ : BufTy).Contents (Elt F)) : (⟨S64x128, .f32⟩ : BufTy).Contents (Elt F) :=
  broadcastInDim S64x128 ![0, 1] bcast_S64x1_S64x128_0_1 (val_main_v37 (F := F) x2)

abbrev idx_main_v61 (i : S64x128.Idx) : S64x1.Idx := fun a => match a with
  | ⟨0, _⟩ => ⟨(i 0).val, (i 0).isLt⟩
  | ⟨1, _⟩ => ⟨0, Nat.one_pos⟩

theorem val_main_v61_apply (x2 : (⟨S50000, .i32⟩ : BufTy).Contents (Elt F)) (i : S64x128.Idx) :
    val_main_v61 (F := F) x2 i = val_main_v37 (F := F) x2 (idx_main_v61 i) := by
  unfold val_main_v61
  generalize val_main_v37 (F := F) x2 = y
  exact broadcastInDim_apply _ bcast_S64x1_S64x128_0_1 y i (idx_main_v61 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v62 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) : (⟨S64x128, .f32⟩ : BufTy).Contents (Elt F) :=
  Host.divf (val_main_v60 (F := F) x0 x1 x2 x3 x4) (val_main_v61 (F := F) x2)

def val_main_v63 (x7 : (⟨S3x128, .f32⟩ : BufTy).Contents (Elt F)) : (⟨S1x128, .f32⟩ : BufTy).Contents (Elt F) :=
  extractStridedSlice S1x128 ![0, 0] (x7) slices_S3x128_S1x128_0_0

def val_main_v64 (x7 : (⟨S3x128, .f32⟩ : BufTy).Contents (Elt F)) : (⟨S128, .f32⟩ : BufTy).Contents (Elt F) :=
  shapeCast _ (val_main_v63 (F := F) x7) shapeCasts_S1x128_S128

def val_main_c_13 : (⟨S_, .i32⟩ : BufTy).Contents (Elt F) :=
  constantI S_ 32 0#32

theorem val_main_c_13_apply (i : S_.Idx) :
    val_main_c_13 (F := F) i = 0#32 := rfl

def val_main_v65 : (⟨S50000, .i32⟩ : BufTy).Contents (Elt F) :=
  broadcastInDim S50000 ![] bcast_S_S50000 (val_main_c_13 (F := F))

abbrev idx_main_v65 (i : S50000.Idx) : S_.Idx := fun a => a.elim0

theorem val_main_v65_apply (i : S50000.Idx) :
    val_main_v65 (F := F) i = val_main_c_13 (F := F) (idx_main_v65 i) := by
  unfold val_main_v65
  generalize val_main_c_13 (F := F) = y
  exact broadcastInDim_apply _ bcast_S_S50000 y i (idx_main_v65 i) (fun a => a.elim0)

def val_main_v66 (x2 : (⟨S50000, .i32⟩ : BufTy).Contents (Elt F)) : (⟨S50000, .i1⟩ : BufTy).Contents (Elt F) :=
  cmpi .slt (x2) (val_main_v65 (F := F))

theorem val_main_v66_apply (x2 : (⟨S50000, .i32⟩ : BufTy).Contents (Elt F)) (i : S50000.Idx) :
    val_main_v66 (F := F) x2 i = IntOp.cmpi .slt (x2 i) (val_main_v65 (F := F) i) := rfl

def val_main_c_14 : (⟨S_, .i32⟩ : BufTy).Contents (Elt F) :=
  constantI S_ 32 64#32

theorem val_main_c_14_apply (i : S_.Idx) :
    val_main_c_14 (F := F) i = 64#32 := rfl

def val_main_v67 : (⟨S50000, .i32⟩ : BufTy).Contents (Elt F) :=
  broadcastInDim S50000 ![] bcast_S_S50000 (val_main_c_14 (F := F))

abbrev idx_main_v67 (i : S50000.Idx) : S_.Idx := fun a => a.elim0

theorem val_main_v67_apply (i : S50000.Idx) :
    val_main_v67 (F := F) i = val_main_c_14 (F := F) (idx_main_v67 i) := by
  unfold val_main_v67
  generalize val_main_c_14 (F := F) = y
  exact broadcastInDim_apply _ bcast_S_S50000 y i (idx_main_v67 i) (fun a => a.elim0)

def val_main_v68 (x2 : (⟨S50000, .i32⟩ : BufTy).Contents (Elt F)) : (⟨S50000, .i32⟩ : BufTy).Contents (Elt F) :=
  addi (x2) (val_main_v67 (F := F))

theorem val_main_v68_apply (x2 : (⟨S50000, .i32⟩ : BufTy).Contents (Elt F)) (i : S50000.Idx) :
    val_main_v68 (F := F) x2 i = IntOp.addi (x2 i) (val_main_v67 (F := F) i) := rfl

def val_main_v69 (x2 : (⟨S50000, .i32⟩ : BufTy).Contents (Elt F)) : (⟨S50000, .i32⟩ : BufTy).Contents (Elt F) :=
  select (val_main_v66 (F := F) x2) (val_main_v68 (F := F) x2) (x2)

theorem val_main_v69_apply (x2 : (⟨S50000, .i32⟩ : BufTy).Contents (Elt F)) (i : S50000.Idx) :
    val_main_v69 (F := F) x2 i = Scalar.select (val_main_v66 (F := F) x2 i) (val_main_v68 (F := F) x2 i) (x2 i) := rfl

def val_main_v70 (x2 : (⟨S50000, .i32⟩ : BufTy).Contents (Elt F)) : (⟨S50000x1, .i32⟩ : BufTy).Contents (Elt F) :=
  broadcastInDim S50000x1 ![0] bcast_S50000_S50000x1_0 (val_main_v69 (F := F) x2)

abbrev idx_main_v70 (i : S50000x1.Idx) : S50000.Idx := fun a => match a with
  | ⟨0, _⟩ => ⟨(i 0).val, (i 0).isLt⟩

theorem val_main_v70_apply (x2 : (⟨S50000, .i32⟩ : BufTy).Contents (Elt F)) (i : S50000x1.Idx) :
    val_main_v70 (F := F) x2 i = val_main_v69 (F := F) x2 (idx_main_v70 i) := by
  unfold val_main_v70
  generalize val_main_v69 (F := F) x2 = y
  exact broadcastInDim_apply _ bcast_S50000_S50000x1_0 y i (idx_main_v70 i) (fun a => match a with
    | ⟨0, _⟩ => by show (i 0).val = if (50000 : Nat) = 1 then 0 else (i 0).val; rw [if_neg (by decide)])

def val_main_v71 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) : (⟨S50000x128, .f32⟩ : BufTy).Contents (Elt F) :=
  Host.gather gather_S64x128_S50000x1_S50000x128_1_0_n_n_0_1_1128 (val_main_v62 (F := F) x0 x1 x2 x3 x4) (val_main_v70 (F := F) x2)

def val_main_v72 (x7 : (⟨S3x128, .f32⟩ : BufTy).Contents (Elt F)) : (⟨S1x128, .f32⟩ : BufTy).Contents (Elt F) :=
  broadcastInDim S1x128 ![1] bcast_S128_S1x128_1 (val_main_v64 (F := F) x7)

def val_main_v73 (x7 : (⟨S3x128, .f32⟩ : BufTy).Contents (Elt F)) : (⟨S50000x128, .f32⟩ : BufTy).Contents (Elt F) :=
  broadcastInDim S50000x128 ![0, 1] bcast_S1x128_S50000x128_0_1 (val_main_v72 (F := F) x7)

def val_main_v74 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x7 : (⟨S3x128, .f32⟩ : BufTy).Contents (Elt F)) : (⟨S50000x128, .f32⟩ : BufTy).Contents (Elt F) :=
  mulf (val_main_v73 (F := F) x7) (val_main_v71 (F := F) x0 x1 x2 x3 x4)

def val_main_v75 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x7 : (⟨S3x128, .f32⟩ : BufTy).Contents (Elt F)) : (⟨S50000x128, .f32⟩ : BufTy).Contents (Elt F) :=
  subf (val_main_v57 (F := F) x0 x1 x3 x4) (val_main_v74 (F := F) x0 x1 x2 x3 x4 x7)

def val_main_v76 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x7 : (⟨S3x128, .f32⟩ : BufTy).Contents (Elt F)) : (⟨S50000x128, .f32⟩ : BufTy).Contents (Elt F) :=
  mulf (val_main_v75 (F := F) x0 x1 x2 x3 x4 x7) (val_main_v75 (F := F) x0 x1 x2 x3 x4 x7)

def val_main_cst_15 : (⟨S_, .f32⟩ : BufTy).Contents (Elt F) :=
  constant S_ .f32 0x00000000#32

def val_main_v77 : (⟨S64x128, .f32⟩ : BufTy).Contents (Elt F) :=
  broadcastInDim S64x128 ![] bcast_S_S64x128 (val_main_cst_15 (F := F))

def val_main_v78 (x2 : (⟨S50000, .i32⟩ : BufTy).Contents (Elt F)) : (⟨S50000x1, .i32⟩ : BufTy).Contents (Elt F) :=
  broadcastInDim S50000x1 ![0] bcast_S50000_S50000x1_0 (x2)

def val_main_v79 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x7 : (⟨S3x128, .f32⟩ : BufTy).Contents (Elt F)) : (⟨S64x128, .f32⟩ : BufTy).Contents (Elt F) :=
  Host.scatterAdd scatter_S64x128_S50000x1_S50000x128_1_0_0_1 (val_main_v77 (F := F)) (val_main_v78 (F := F) x2) (val_main_v76 (F := F) x0 x1 x2 x3 x4 x7)

def val_main_v80 (x2 : (⟨S50000, .i32⟩ : BufTy).Contents (Elt F)) : (⟨S64x128, .f32⟩ : BufTy).Contents (Elt F) :=
  broadcastInDim S64x128 ![0, 1] bcast_S64x1_S64x128_0_1 (val_main_v37 (F := F) x2)

def val_main_v81 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x7 : (⟨S3x128, .f32⟩ : BufTy).Contents (Elt F)) : (⟨S64x128, .f32⟩ : BufTy).Contents (Elt F) :=
  Host.divf (val_main_v79 (F := F) x0 x1 x2 x3 x4 x7) (val_main_v80 (F := F) x2)

def val_main_v82 (x5 : (⟨S3x128, .f32⟩ : BufTy).Contents (Elt F)) : (⟨S1x128, .f32⟩ : BufTy).Contents (Elt F) :=
  extractStridedSlice S1x128 ![0, 0] (x5) slices_S3x128_S1x128_0_0

def val_main_v83 (x5 : (⟨S3x128, .f32⟩ : BufTy).Contents (Elt F)) : (⟨S128, .f32⟩ : BufTy).Contents (Elt F) :=
  shapeCast _ (val_main_v82 (F := F) x5) shapeCasts_S1x128_S128

def val_main_v84 (x5 : (⟨S3x128, .f32⟩ : BufTy).Contents (Elt F)) : (⟨S1x128, .f32⟩ : BufTy).Contents (Elt F) :=
  broadcastInDim S1x128 ![1] bcast_S128_S1x128_1 (val_main_v83 (F := F) x5)

def val_main_v85 (x5 : (⟨S3x128, .f32⟩ : BufTy).Contents (Elt F)) : (⟨S50000x128, .f32⟩ : BufTy).Contents (Elt F) :=
  broadcastInDim S50000x128 ![0, 1] bcast_S1x128_S50000x128_0_1 (val_main_v84 (F := F) x5)

def val_main_v86 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x7 : (⟨S3x128, .f32⟩ : BufTy).Contents (Elt F)) : (⟨S50000x128, .f32⟩ : BufTy).Contents (Elt F) :=
  mulf (val_main_v85 (F := F) x5) (val_main_v75 (F := F) x0 x1 x2 x3 x4 x7)

def val_main_cst_16 : (⟨S_, .f32⟩ : BufTy).Contents (Elt F) :=
  constant S_ .f32 0x3727C5AC#32

theorem val_main_cst_16_apply (i : S_.Idx) :
    val_main_cst_16 (F := F) i = FloatOps.ofBits .f32 0x3727C5AC#32 := rfl

def val_main_v87 : (⟨S64x128, .f32⟩ : BufTy).Contents (Elt F) :=
  broadcastInDim S64x128 ![] bcast_S_S64x128 (val_main_cst_16 (F := F))

abbrev idx_main_v87 (i : S64x128.Idx) : S_.Idx := fun a => a.elim0

theorem val_main_v87_apply (i : S64x128.Idx) :
    val_main_v87 (F := F) i = val_main_cst_16 (F := F) (idx_main_v87 i) := by
  unfold val_main_v87
  generalize val_main_cst_16 (F := F) = y
  exact broadcastInDim_apply _ bcast_S_S64x128 y i (idx_main_v87 i) (fun a => a.elim0)

def val_main_v88 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x7 : (⟨S3x128, .f32⟩ : BufTy).Contents (Elt F)) : (⟨S64x128, .f32⟩ : BufTy).Contents (Elt F) :=
  addf (val_main_v81 (F := F) x0 x1 x2 x3 x4 x7) (val_main_v87 (F := F))

def val_main_v89 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x7 : (⟨S3x128, .f32⟩ : BufTy).Contents (Elt F)) : (⟨S64x128, .f32⟩ : BufTy).Contents (Elt F) :=
  Host.rsqrt (val_main_v88 (F := F) x0 x1 x2 x3 x4 x7)

def val_main_c_17 : (⟨S_, .i32⟩ : BufTy).Contents (Elt F) :=
  constantI S_ 32 0#32

def val_main_v90 : (⟨S50000, .i32⟩ : BufTy).Contents (Elt F) :=
  broadcastInDim S50000 ![] bcast_S_S50000 (val_main_c_17 (F := F))

def val_main_v91 (x2 : (⟨S50000, .i32⟩ : BufTy).Contents (Elt F)) : (⟨S50000, .i1⟩ : BufTy).Contents (Elt F) :=
  cmpi .slt (x2) (val_main_v90 (F := F))

def val_main_c_18 : (⟨S_, .i32⟩ : BufTy).Contents (Elt F) :=
  constantI S_ 32 64#32

def val_main_v92 : (⟨S50000, .i32⟩ : BufTy).Contents (Elt F) :=
  broadcastInDim S50000 ![] bcast_S_S50000 (val_main_c_18 (F := F))

def val_main_v93 (x2 : (⟨S50000, .i32⟩ : BufTy).Contents (Elt F)) : (⟨S50000, .i32⟩ : BufTy).Contents (Elt F) :=
  addi (x2) (val_main_v92 (F := F))

def val_main_v94 (x2 : (⟨S50000, .i32⟩ : BufTy).Contents (Elt F)) : (⟨S50000, .i32⟩ : BufTy).Contents (Elt F) :=
  select (val_main_v91 (F := F) x2) (val_main_v93 (F := F) x2) (x2)

def val_main_v95 (x2 : (⟨S50000, .i32⟩ : BufTy).Contents (Elt F)) : (⟨S50000x1, .i32⟩ : BufTy).Contents (Elt F) :=
  broadcastInDim S50000x1 ![0] bcast_S50000_S50000x1_0 (val_main_v94 (F := F) x2)

def val_main_v96 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x7 : (⟨S3x128, .f32⟩ : BufTy).Contents (Elt F)) : (⟨S50000x128, .f32⟩ : BufTy).Contents (Elt F) :=
  Host.gather gather_S64x128_S50000x1_S50000x128_1_0_n_n_0_1_1128 (val_main_v89 (F := F) x0 x1 x2 x3 x4 x7) (val_main_v95 (F := F) x2)

def val_main_v97 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x7 : (⟨S3x128, .f32⟩ : BufTy).Contents (Elt F)) : (⟨S50000x128, .f32⟩ : BufTy).Contents (Elt F) :=
  mulf (val_main_v86 (F := F) x0 x1 x2 x3 x4 x5 x7) (val_main_v96 (F := F) x0 x1 x2 x3 x4 x7)

def val_main_v98 (x6 : (⟨S3x128, .f32⟩ : BufTy).Contents (Elt F)) : (⟨S1x128, .f32⟩ : BufTy).Contents (Elt F) :=
  extractStridedSlice S1x128 ![0, 0] (x6) slices_S3x128_S1x128_0_0

def val_main_v99 (x6 : (⟨S3x128, .f32⟩ : BufTy).Contents (Elt F)) : (⟨S128, .f32⟩ : BufTy).Contents (Elt F) :=
  shapeCast _ (val_main_v98 (F := F) x6) shapeCasts_S1x128_S128

def val_main_v100 (x6 : (⟨S3x128, .f32⟩ : BufTy).Contents (Elt F)) : (⟨S1x128, .f32⟩ : BufTy).Contents (Elt F) :=
  broadcastInDim S1x128 ![1] bcast_S128_S1x128_1 (val_main_v99 (F := F) x6)

def val_main_v101 (x6 : (⟨S3x128, .f32⟩ : BufTy).Contents (Elt F)) : (⟨S50000x128, .f32⟩ : BufTy).Contents (Elt F) :=
  broadcastInDim S50000x128 ![0, 1] bcast_S1x128_S50000x128_0_1 (val_main_v100 (F := F) x6)

def val_main_v102 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  addf (val_main_v97 (F := F) x0 x1 x2 x3 x4 x5 x7) (val_main_v101 (F := F) x6)

def val_main_call1_cst : (⟨S_, .f32⟩ : BufTy).Contents (Elt F) :=
  constant S_ .f32 0x00000000#32

def val_main_call1_v0 : (⟨S50000x128, .f32⟩ : BufTy).Contents (Elt F) :=
  broadcastInDim S50000x128 ![] bcast_S_S50000x128 (val_main_call1_cst (F := F))

def val_main_v103 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  maximumf (val_main_v102 (F := F) x0 x1 x2 x3 x4 x5 x6 x7) (val_main_call1_v0 (F := F))

def val_main_v104 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  addf (val_main_v103 (F := F) x0 x1 x2 x3 x4 x5 x6 x7) (x0)

def val_main_v105 (x3 : (⟨S3x128x128, .f32⟩ : BufTy).Contents (Elt F)) : (⟨S1x128x128, .f32⟩ : BufTy).Contents (Elt F) :=
  extractStridedSlice S1x128x128 ![1, 0, 0] (x3) slices_S3x128x128_S1x128x128_1_0_0

abbrev idx_main_v105 (i : S1x128x128.Idx) : S3x128x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩

theorem val_main_v105_apply (x3 : (⟨S3x128x128, .f32⟩ : BufTy).Contents (Elt F)) (i : S1x128x128.Idx) :
    val_main_v105 (F := F) x3 i = x3 (idx_main_v105 i) := by
  unfold val_main_v105
  exact extractStridedSlice_apply ![1, 0, 0] x3 slices_S3x128x128_S1x128x128_1_0_0 i (idx_main_v105 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

def val_main_v106 (x3 : (⟨S3x128x128, .f32⟩ : BufTy).Contents (Elt F)) : (⟨S128x128, .f32⟩ : BufTy).Contents (Elt F) :=
  shapeCast _ (val_main_v105 (F := F) x3) shapeCasts_S1x128x128_S128x128

abbrev idx_main_v106 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩

theorem val_main_v106_apply (x3 : (⟨S3x128x128, .f32⟩ : BufTy).Contents (Elt F)) (i : S128x128.Idx) :
    val_main_v106 (F := F) x3 i = val_main_v105 (F := F) x3 (idx_main_v106 i) := by
  unfold val_main_v106
  generalize val_main_v105 (F := F) x3 = y
  exact shapeCast_apply y shapeCasts_S1x128x128_S128x128 i (idx_main_v106 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v107 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  Host.dotGeneral dot_S50000x128_S128x128_S50000x128_1_0_0_1_n_n none (val_main_v104 (F := F) x0 x1 x2 x3 x4 x5 x6 x7) (val_main_v106 (F := F) x3)

theorem lhs_main_v107_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem lhs_main_v107_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_main_v107_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_main_v107_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

abbrev lidx_main_v107 (i : S50000x128.Idx) (k : Fin 128) : S50000x128.Idx := fun a => match a with
  | ⟨0, _⟩ => ⟨(i 0).val, (i 0).isLt⟩
  | ⟨1, _⟩ => ⟨k.val, k.isLt⟩

abbrev ridx_main_v107 (i : S50000x128.Idx) (k : Fin 128) : S128x128.Idx := fun a => match a with
  | ⟨0, _⟩ => ⟨k.val, k.isLt⟩
  | ⟨1, _⟩ => ⟨(i 1).val, (i 1).isLt⟩

theorem val_main_v107_apply (x0 : (⟨S50000x128, .f32⟩ : BufTy).Contents (Elt Ideal)) (x1 : (⟨S2x1599454, .i32⟩ : BufTy).Contents (Elt Ideal)) (x2 : (⟨S50000, .i32⟩ : BufTy).Contents (Elt Ideal)) (x3 : (⟨S3x128x128, .f32⟩ : BufTy).Contents (Elt Ideal)) (x4 x5 x6 x7 : (⟨S3x128, .f32⟩ : BufTy).Contents (Elt Ideal)) (i : S50000x128.Idx) :
    val_main_v107 (F := Ideal) x0 x1 x2 x3 x4 x5 x6 x7 i = ∑ k : Fin 128, (val_main_v104 (F := Ideal) x0 x1 x2 x3 x4 x5 x6 x7) (lidx_main_v107 i k) * (val_main_v106 (F := Ideal) x3) (ridx_main_v107 i k) := by
  unfold val_main_v107
  generalize val_main_v104 (F := Ideal) x0 x1 x2 x3 x4 x5 x6 x7 = y0
  generalize val_main_v106 (F := Ideal) x3 = y1
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v107 i k := funext fun a => Fin.ext (by
    match a with
    | ⟨0, _⟩ => exact lhs_main_v107_0 _ _
    | ⟨1, _⟩ => exact (lhs_main_v107_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v107 i k := funext fun a => Fin.ext (by
    match a with
    | ⟨0, _⟩ => exact (rhs_main_v107_0 _ _).trans hk
    | ⟨1, _⟩ => exact rhs_main_v107_1 _ _)
  rw [el, er]

def val_main_c_19 : (⟨S_, .i32⟩ : BufTy).Contents (Elt F) :=
  constantI S_ 32 0#32

def val_main_v108 : (⟨S1649454, .i32⟩ : BufTy).Contents (Elt F) :=
  broadcastInDim S1649454 ![] bcast_S_S1649454 (val_main_c_19 (F := F))

def val_main_v109 (x1 : (⟨S2x1599454, .i32⟩ : BufTy).Contents (Elt F)) : (⟨S1649454, .i1⟩ : BufTy).Contents (Elt F) :=
  cmpi .slt (val_main_v5 (F := F) x1) (val_main_v108 (F := F))

def val_main_c_20 : (⟨S_, .i32⟩ : BufTy).Contents (Elt F) :=
  constantI S_ 32 50000#32

def val_main_v110 : (⟨S1649454, .i32⟩ : BufTy).Contents (Elt F) :=
  broadcastInDim S1649454 ![] bcast_S_S1649454 (val_main_c_20 (F := F))

def val_main_v111 (x1 : (⟨S2x1599454, .i32⟩ : BufTy).Contents (Elt F)) : (⟨S1649454, .i32⟩ : BufTy).Contents (Elt F) :=
  addi (val_main_v5 (F := F) x1) (val_main_v110 (F := F))

def val_main_v112 (x1 : (⟨S2x1599454, .i32⟩ : BufTy).Contents (Elt F)) : (⟨S1649454, .i32⟩ : BufTy).Contents (Elt F) :=
  select (val_main_v109 (F := F) x1) (val_main_v111 (F := F) x1) (val_main_v5 (F := F) x1)

def val_main_v113 (x1 : (⟨S2x1599454, .i32⟩ : BufTy).Contents (Elt F)) : (⟨S1649454x1, .i32⟩ : BufTy).Contents (Elt F) :=
  broadcastInDim S1649454x1 ![0] bcast_S1649454_S1649454x1_0 (val_main_v112 (F := F) x1)

def val_main_v114 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S1649454x128, .f32⟩ : BufTy).Contents (Elt F) :=
  Host.gather gather_S50000x128_S1649454x1_S1649454x128_1_0_n_n_0_1_1128 (val_main_v107 (F := F) x0 x1 x2 x3 x4 x5 x6 x7) (val_main_v113 (F := F) x1)

def val_main_v115 (x1 : (⟨S2x1599454, .i32⟩ : BufTy).Contents (Elt F)) : (⟨S1649454x128, .f32⟩ : BufTy).Contents (Elt F) :=
  broadcastInDim S1649454x128 ![0, 1] bcast_S1649454x1_S1649454x128_0_1 (val_main_v30 (F := F) x1)

def val_main_v116 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S1649454x128, .f32⟩ : BufTy).Contents (Elt F) :=
  mulf (val_main_v114 (F := F) x0 x1 x2 x3 x4 x5 x6 x7) (val_main_v115 (F := F) x1)

def val_main_cst_21 : (⟨S_, .f32⟩ : BufTy).Contents (Elt F) :=
  constant S_ .f32 0x00000000#32

def val_main_v117 : (⟨S50000x128, .f32⟩ : BufTy).Contents (Elt F) :=
  broadcastInDim S50000x128 ![] bcast_S_S50000x128 (val_main_cst_21 (F := F))

def val_main_v118 (x1 : (⟨S2x1599454, .i32⟩ : BufTy).Contents (Elt F)) : (⟨S1649454x1, .i32⟩ : BufTy).Contents (Elt F) :=
  broadcastInDim S1649454x1 ![0] bcast_S1649454_S1649454x1_0 (val_main_v6 (F := F) x1)

def val_main_v119 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  Host.scatterAdd scatter_S50000x128_S1649454x1_S1649454x128_1_0_0_1 (val_main_v117 (F := F)) (val_main_v118 (F := F) x1) (val_main_v116 (F := F) x0 x1 x2 x3 x4 x5 x6 x7)

def val_main_v120 (x4 : (⟨S3x128, .f32⟩ : BufTy).Contents (Elt F)) : (⟨S1x128, .f32⟩ : BufTy).Contents (Elt F) :=
  extractStridedSlice S1x128 ![1, 0] (x4) slices_S3x128_S1x128_1_0

abbrev idx_main_v120 (i : S1x128.Idx) : S3x128.Idx := fun a => match a with
  | ⟨0, _⟩ => ⟨1 + (i 0).val, by have h0 : (i 0).val < 1 := (i 0).isLt; show 1 + (i 0).val < 3; omega⟩
  | ⟨1, _⟩ => ⟨(i 1).val, (i 1).isLt⟩

theorem val_main_v120_apply (x4 : (⟨S3x128, .f32⟩ : BufTy).Contents (Elt F)) (i : S1x128.Idx) :
    val_main_v120 (F := F) x4 i = x4 (idx_main_v120 i) := by
  unfold val_main_v120
  exact extractStridedSlice_apply ![1, 0] x4 slices_S3x128_S1x128_1_0 i (idx_main_v120 i) (fun a => match a with
    | ⟨0, _⟩ => by show 1 + (i 0).val = 1 + (i 0).val; omega
    | ⟨1, _⟩ => by show (i 1).val = 0 + (i 1).val; omega)

def val_main_v121 (x4 : (⟨S3x128, .f32⟩ : BufTy).Contents (Elt F)) : (⟨S128, .f32⟩ : BufTy).Contents (Elt F) :=
  shapeCast _ (val_main_v120 (F := F) x4) shapeCasts_S1x128_S128

abbrev idx_main_v121 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩

theorem val_main_v121_apply (x4 : (⟨S3x128, .f32⟩ : BufTy).Contents (Elt F)) (i : S128.Idx) :
    val_main_v121 (F := F) x4 i = val_main_v120 (F := F) x4 (idx_main_v121 i) := by
  unfold val_main_v121
  generalize val_main_v120 (F := F) x4 = y
  exact shapeCast_apply y shapeCasts_S1x128_S128 i (idx_main_v121 i)
    (by rewrite [Shape.rowMajor_val_two, Shape.rowMajor_val_one]; have h0 : (i 0).val < 128 := (i 0).isLt; show 0 * 128 + ((i 0).val) % 128 = (i 0).val; omega)

def val_main_v122 (x4 : (⟨S3x128, .f32⟩ : BufTy).Contents (Elt F)) : (⟨S1x128, .f32⟩ : BufTy).Contents (Elt F) :=
  broadcastInDim S1x128 ![1] bcast_S128_S1x128_1 (val_main_v121 (F := F) x4)

abbrev idx_main_v122 (i : S1x128.Idx) : S128.Idx := fun a => match a with
  | ⟨0, _⟩ => ⟨(i 1).val, (i 1).isLt⟩

theorem val_main_v122_apply (x4 : (⟨S3x128, .f32⟩ : BufTy).Contents (Elt F)) (i : S1x128.Idx) :
    val_main_v122 (F := F) x4 i = val_main_v121 (F := F) x4 (idx_main_v122 i) := by
  unfold val_main_v122
  generalize val_main_v121 (F := F) x4 = y
  exact broadcastInDim_apply _ bcast_S128_S1x128_1 y i (idx_main_v122 i) (fun a => match a with
    | ⟨0, _⟩ => by show (i 1).val = if (128 : Nat) = 1 then 0 else (i 1).val; rw [if_neg (by decide)])

def val_main_v123 (x4 : (⟨S3x128, .f32⟩ : BufTy).Contents (Elt F)) : (⟨S50000x128, .f32⟩ : BufTy).Contents (Elt F) :=
  broadcastInDim S50000x128 ![0, 1] bcast_S1x128_S50000x128_0_1 (val_main_v122 (F := F) x4)

abbrev idx_main_v123 (i : S50000x128.Idx) : S1x128.Idx := fun a => match a with
  | ⟨0, _⟩ => ⟨0, Nat.one_pos⟩
  | ⟨1, _⟩ => ⟨(i 1).val, (i 1).isLt⟩

theorem val_main_v123_apply (x4 : (⟨S3x128, .f32⟩ : BufTy).Contents (Elt F)) (i : S50000x128.Idx) :
    val_main_v123 (F := F) x4 i = val_main_v122 (F := F) x4 (idx_main_v123 i) := by
  unfold val_main_v123
  generalize val_main_v122 (F := F) x4 = y
  exact broadcastInDim_apply _ bcast_S1x128_S50000x128_0_1 y i (idx_main_v123 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v124 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  addf (val_main_v119 (F := F) x0 x1 x2 x3 x4 x5 x6 x7) (val_main_v123 (F := F) x4)

def val_main_cst_22 : (⟨S_, .f32⟩ : BufTy).Contents (Elt F) :=
  constant S_ .f32 0x00000000#32

def val_main_v125 : (⟨S64x128, .f32⟩ : BufTy).Contents (Elt F) :=
  broadcastInDim S64x128 ![] bcast_S_S64x128 (val_main_cst_22 (F := F))

def val_main_v126 (x2 : (⟨S50000, .i32⟩ : BufTy).Contents (Elt F)) : (⟨S50000x1, .i32⟩ : BufTy).Contents (Elt F) :=
  broadcastInDim S50000x1 ![0] bcast_S50000_S50000x1_0 (x2)

def val_main_v127 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.scatterAdd scatter_S64x128_S50000x1_S50000x128_1_0_0_1 (val_main_v125 (F := F)) (val_main_v126 (F := F) x2) (val_main_v124 (F := F) x0 x1 x2 x3 x4 x5 x6 x7)

def val_main_v128 (x2 : (⟨S50000, .i32⟩ : BufTy).Contents (Elt F)) : (⟨S64x128, .f32⟩ : BufTy).Contents (Elt F) :=
  broadcastInDim S64x128 ![0, 1] bcast_S64x1_S64x128_0_1 (val_main_v37 (F := F) x2)

def val_main_v129 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.divf (val_main_v127 (F := F) x0 x1 x2 x3 x4 x5 x6 x7) (val_main_v128 (F := F) x2)

def val_main_v130 (x7 : (⟨S3x128, .f32⟩ : BufTy).Contents (Elt F)) : (⟨S1x128, .f32⟩ : BufTy).Contents (Elt F) :=
  extractStridedSlice S1x128 ![1, 0] (x7) slices_S3x128_S1x128_1_0

def val_main_v131 (x7 : (⟨S3x128, .f32⟩ : BufTy).Contents (Elt F)) : (⟨S128, .f32⟩ : BufTy).Contents (Elt F) :=
  shapeCast _ (val_main_v130 (F := F) x7) shapeCasts_S1x128_S128

def val_main_c_23 : (⟨S_, .i32⟩ : BufTy).Contents (Elt F) :=
  constantI S_ 32 0#32

def val_main_v132 : (⟨S50000, .i32⟩ : BufTy).Contents (Elt F) :=
  broadcastInDim S50000 ![] bcast_S_S50000 (val_main_c_23 (F := F))

def val_main_v133 (x2 : (⟨S50000, .i32⟩ : BufTy).Contents (Elt F)) : (⟨S50000, .i1⟩ : BufTy).Contents (Elt F) :=
  cmpi .slt (x2) (val_main_v132 (F := F))

def val_main_c_24 : (⟨S_, .i32⟩ : BufTy).Contents (Elt F) :=
  constantI S_ 32 64#32

def val_main_v134 : (⟨S50000, .i32⟩ : BufTy).Contents (Elt F) :=
  broadcastInDim S50000 ![] bcast_S_S50000 (val_main_c_24 (F := F))

def val_main_v135 (x2 : (⟨S50000, .i32⟩ : BufTy).Contents (Elt F)) : (⟨S50000, .i32⟩ : BufTy).Contents (Elt F) :=
  addi (x2) (val_main_v134 (F := F))

def val_main_v136 (x2 : (⟨S50000, .i32⟩ : BufTy).Contents (Elt F)) : (⟨S50000, .i32⟩ : BufTy).Contents (Elt F) :=
  select (val_main_v133 (F := F) x2) (val_main_v135 (F := F) x2) (x2)

def val_main_v137 (x2 : (⟨S50000, .i32⟩ : BufTy).Contents (Elt F)) : (⟨S50000x1, .i32⟩ : BufTy).Contents (Elt F) :=
  broadcastInDim S50000x1 ![0] bcast_S50000_S50000x1_0 (val_main_v136 (F := F) x2)

def val_main_v138 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  Host.gather gather_S64x128_S50000x1_S50000x128_1_0_n_n_0_1_1128 (val_main_v129 (F := F) x0 x1 x2 x3 x4 x5 x6 x7) (val_main_v137 (F := F) x2)

def val_main_v139 (x7 : (⟨S3x128, .f32⟩ : BufTy).Contents (Elt F)) : (⟨S1x128, .f32⟩ : BufTy).Contents (Elt F) :=
  broadcastInDim S1x128 ![1] bcast_S128_S1x128_1 (val_main_v131 (F := F) x7)

def val_main_v140 (x7 : (⟨S3x128, .f32⟩ : BufTy).Contents (Elt F)) : (⟨S50000x128, .f32⟩ : BufTy).Contents (Elt F) :=
  broadcastInDim S50000x128 ![0, 1] bcast_S1x128_S50000x128_0_1 (val_main_v139 (F := F) x7)

def val_main_v141 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  mulf (val_main_v140 (F := F) x7) (val_main_v138 (F := F) x0 x1 x2 x3 x4 x5 x6 x7)

def val_main_v142 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  subf (val_main_v124 (F := F) x0 x1 x2 x3 x4 x5 x6 x7) (val_main_v141 (F := F) x0 x1 x2 x3 x4 x5 x6 x7)

def val_main_v143 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  mulf (val_main_v142 (F := F) x0 x1 x2 x3 x4 x5 x6 x7) (val_main_v142 (F := F) x0 x1 x2 x3 x4 x5 x6 x7)

def val_main_cst_25 : (⟨S_, .f32⟩ : BufTy).Contents (Elt F) :=
  constant S_ .f32 0x00000000#32

def val_main_v144 : (⟨S64x128, .f32⟩ : BufTy).Contents (Elt F) :=
  broadcastInDim S64x128 ![] bcast_S_S64x128 (val_main_cst_25 (F := F))

def val_main_v145 (x2 : (⟨S50000, .i32⟩ : BufTy).Contents (Elt F)) : (⟨S50000x1, .i32⟩ : BufTy).Contents (Elt F) :=
  broadcastInDim S50000x1 ![0] bcast_S50000_S50000x1_0 (x2)

def val_main_v146 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.scatterAdd scatter_S64x128_S50000x1_S50000x128_1_0_0_1 (val_main_v144 (F := F)) (val_main_v145 (F := F) x2) (val_main_v143 (F := F) x0 x1 x2 x3 x4 x5 x6 x7)

def val_main_v147 (x2 : (⟨S50000, .i32⟩ : BufTy).Contents (Elt F)) : (⟨S64x128, .f32⟩ : BufTy).Contents (Elt F) :=
  broadcastInDim S64x128 ![0, 1] bcast_S64x1_S64x128_0_1 (val_main_v37 (F := F) x2)

def val_main_v148 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.divf (val_main_v146 (F := F) x0 x1 x2 x3 x4 x5 x6 x7) (val_main_v147 (F := F) x2)

def val_main_v149 (x5 : (⟨S3x128, .f32⟩ : BufTy).Contents (Elt F)) : (⟨S1x128, .f32⟩ : BufTy).Contents (Elt F) :=
  extractStridedSlice S1x128 ![1, 0] (x5) slices_S3x128_S1x128_1_0

def val_main_v150 (x5 : (⟨S3x128, .f32⟩ : BufTy).Contents (Elt F)) : (⟨S128, .f32⟩ : BufTy).Contents (Elt F) :=
  shapeCast _ (val_main_v149 (F := F) x5) shapeCasts_S1x128_S128

def val_main_v151 (x5 : (⟨S3x128, .f32⟩ : BufTy).Contents (Elt F)) : (⟨S1x128, .f32⟩ : BufTy).Contents (Elt F) :=
  broadcastInDim S1x128 ![1] bcast_S128_S1x128_1 (val_main_v150 (F := F) x5)

def val_main_v152 (x5 : (⟨S3x128, .f32⟩ : BufTy).Contents (Elt F)) : (⟨S50000x128, .f32⟩ : BufTy).Contents (Elt F) :=
  broadcastInDim S50000x128 ![0, 1] bcast_S1x128_S50000x128_0_1 (val_main_v151 (F := F) x5)

def val_main_v153 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  mulf (val_main_v152 (F := F) x5) (val_main_v142 (F := F) x0 x1 x2 x3 x4 x5 x6 x7)

def val_main_cst_26 : (⟨S_, .f32⟩ : BufTy).Contents (Elt F) :=
  constant S_ .f32 0x3727C5AC#32

def val_main_v154 : (⟨S64x128, .f32⟩ : BufTy).Contents (Elt F) :=
  broadcastInDim S64x128 ![] bcast_S_S64x128 (val_main_cst_26 (F := F))

def val_main_v155 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  addf (val_main_v148 (F := F) x0 x1 x2 x3 x4 x5 x6 x7) (val_main_v154 (F := F))

def val_main_v156 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.rsqrt (val_main_v155 (F := F) x0 x1 x2 x3 x4 x5 x6 x7)

def val_main_c_27 : (⟨S_, .i32⟩ : BufTy).Contents (Elt F) :=
  constantI S_ 32 0#32

def val_main_v157 : (⟨S50000, .i32⟩ : BufTy).Contents (Elt F) :=
  broadcastInDim S50000 ![] bcast_S_S50000 (val_main_c_27 (F := F))

def val_main_v158 (x2 : (⟨S50000, .i32⟩ : BufTy).Contents (Elt F)) : (⟨S50000, .i1⟩ : BufTy).Contents (Elt F) :=
  cmpi .slt (x2) (val_main_v157 (F := F))

def val_main_c_28 : (⟨S_, .i32⟩ : BufTy).Contents (Elt F) :=
  constantI S_ 32 64#32

def val_main_v159 : (⟨S50000, .i32⟩ : BufTy).Contents (Elt F) :=
  broadcastInDim S50000 ![] bcast_S_S50000 (val_main_c_28 (F := F))

def val_main_v160 (x2 : (⟨S50000, .i32⟩ : BufTy).Contents (Elt F)) : (⟨S50000, .i32⟩ : BufTy).Contents (Elt F) :=
  addi (x2) (val_main_v159 (F := F))

def val_main_v161 (x2 : (⟨S50000, .i32⟩ : BufTy).Contents (Elt F)) : (⟨S50000, .i32⟩ : BufTy).Contents (Elt F) :=
  select (val_main_v158 (F := F) x2) (val_main_v160 (F := F) x2) (x2)

def val_main_v162 (x2 : (⟨S50000, .i32⟩ : BufTy).Contents (Elt F)) : (⟨S50000x1, .i32⟩ : BufTy).Contents (Elt F) :=
  broadcastInDim S50000x1 ![0] bcast_S50000_S50000x1_0 (val_main_v161 (F := F) x2)

def val_main_v163 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  Host.gather gather_S64x128_S50000x1_S50000x128_1_0_n_n_0_1_1128 (val_main_v156 (F := F) x0 x1 x2 x3 x4 x5 x6 x7) (val_main_v162 (F := F) x2)

def val_main_v164 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  mulf (val_main_v153 (F := F) x0 x1 x2 x3 x4 x5 x6 x7) (val_main_v163 (F := F) x0 x1 x2 x3 x4 x5 x6 x7)

def val_main_v165 (x6 : (⟨S3x128, .f32⟩ : BufTy).Contents (Elt F)) : (⟨S1x128, .f32⟩ : BufTy).Contents (Elt F) :=
  extractStridedSlice S1x128 ![1, 0] (x6) slices_S3x128_S1x128_1_0

def val_main_v166 (x6 : (⟨S3x128, .f32⟩ : BufTy).Contents (Elt F)) : (⟨S128, .f32⟩ : BufTy).Contents (Elt F) :=
  shapeCast _ (val_main_v165 (F := F) x6) shapeCasts_S1x128_S128

def val_main_v167 (x6 : (⟨S3x128, .f32⟩ : BufTy).Contents (Elt F)) : (⟨S1x128, .f32⟩ : BufTy).Contents (Elt F) :=
  broadcastInDim S1x128 ![1] bcast_S128_S1x128_1 (val_main_v166 (F := F) x6)

def val_main_v168 (x6 : (⟨S3x128, .f32⟩ : BufTy).Contents (Elt F)) : (⟨S50000x128, .f32⟩ : BufTy).Contents (Elt F) :=
  broadcastInDim S50000x128 ![0, 1] bcast_S1x128_S50000x128_0_1 (val_main_v167 (F := F) x6)

def val_main_v169 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  addf (val_main_v164 (F := F) x0 x1 x2 x3 x4 x5 x6 x7) (val_main_v168 (F := F) x6)

def val_main_call2_cst : (⟨S_, .f32⟩ : BufTy).Contents (Elt F) :=
  constant S_ .f32 0x00000000#32

def val_main_call2_v0 : (⟨S50000x128, .f32⟩ : BufTy).Contents (Elt F) :=
  broadcastInDim S50000x128 ![] bcast_S_S50000x128 (val_main_call2_cst (F := F))

def val_main_v170 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  maximumf (val_main_v169 (F := F) x0 x1 x2 x3 x4 x5 x6 x7) (val_main_call2_v0 (F := F))

def val_main_v171 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  addf (val_main_v170 (F := F) x0 x1 x2 x3 x4 x5 x6 x7) (val_main_v104 (F := F) x0 x1 x2 x3 x4 x5 x6 x7)

def val_main_v172 (x3 : (⟨S3x128x128, .f32⟩ : BufTy).Contents (Elt F)) : (⟨S1x128x128, .f32⟩ : BufTy).Contents (Elt F) :=
  extractStridedSlice S1x128x128 ![2, 0, 0] (x3) slices_S3x128x128_S1x128x128_2_0_0

abbrev idx_main_v172 (i : S1x128x128.Idx) : S3x128x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩

theorem val_main_v172_apply (x3 : (⟨S3x128x128, .f32⟩ : BufTy).Contents (Elt F)) (i : S1x128x128.Idx) :
    val_main_v172 (F := F) x3 i = x3 (idx_main_v172 i) := by
  unfold val_main_v172
  exact extractStridedSlice_apply ![2, 0, 0] x3 slices_S3x128x128_S1x128x128_2_0_0 i (idx_main_v172 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

def val_main_v173 (x3 : (⟨S3x128x128, .f32⟩ : BufTy).Contents (Elt F)) : (⟨S128x128, .f32⟩ : BufTy).Contents (Elt F) :=
  shapeCast _ (val_main_v172 (F := F) x3) shapeCasts_S1x128x128_S128x128

abbrev idx_main_v173 (i : S128x128.Idx) : S1x128x128.Idx := fun a => match a with
  | ⟨0, _⟩ => ⟨0, Nat.one_pos⟩
  | ⟨1, _⟩ => ⟨((i 0).val * 128 + (i 1).val) / 128 % 128, by have h0 : (i 0).val < 128 := (i 0).isLt; have h1 : (i 1).val < 128 := (i 1).isLt; show ((i 0).val * 128 + (i 1).val) / 128 % 128 < 128; omega⟩
  | ⟨2, _⟩ => ⟨((i 0).val * 128 + (i 1).val) % 128, by have h0 : (i 0).val < 128 := (i 0).isLt; have h1 : (i 1).val < 128 := (i 1).isLt; show ((i 0).val * 128 + (i 1).val) % 128 < 128; omega⟩

theorem val_main_v173_apply (x3 : (⟨S3x128x128, .f32⟩ : BufTy).Contents (Elt F)) (i : S128x128.Idx) :
    val_main_v173 (F := F) x3 i = val_main_v172 (F := F) x3 (idx_main_v173 i) := by
  unfold val_main_v173
  generalize val_main_v172 (F := F) x3 = y
  exact shapeCast_apply y shapeCasts_S1x128x128_S128x128 i (idx_main_v173 i)
    (by rewrite [Shape.rowMajor_val_three, Shape.rowMajor_val_two]; have h0 : (i 0).val < 128 := (i 0).isLt; have h1 : (i 1).val < 128 := (i 1).isLt; show (0 * 128 + ((i 0).val * 128 + (i 1).val) / 128 % 128) * 128 + ((i 0).val * 128 + (i 1).val) % 128 = (i 0).val * 128 + (i 1).val; omega)

def val_main_v174 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  Host.dotGeneral dot_S50000x128_S128x128_S50000x128_1_0_0_1_n_n none (val_main_v171 (F := F) x0 x1 x2 x3 x4 x5 x6 x7) (val_main_v173 (F := F) x3)

theorem lhs_main_v174_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem lhs_main_v174_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem rhs_main_v174_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem rhs_main_v174_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

abbrev lidx_main_v174 (i : S50000x128.Idx) (k : Fin 128) : S50000x128.Idx := fun a => match a with
  | ⟨0, _⟩ => ⟨(i 0).val, (i 0).isLt⟩
  | ⟨1, _⟩ => ⟨k.val, k.isLt⟩

abbrev ridx_main_v174 (i : S50000x128.Idx) (k : Fin 128) : S128x128.Idx := fun a => match a with
  | ⟨0, _⟩ => ⟨k.val, k.isLt⟩
  | ⟨1, _⟩ => ⟨(i 1).val, (i 1).isLt⟩

theorem val_main_v174_apply (x0 : (⟨S50000x128, .f32⟩ : BufTy).Contents (Elt Ideal)) (x1 : (⟨S2x1599454, .i32⟩ : BufTy).Contents (Elt Ideal)) (x2 : (⟨S50000, .i32⟩ : BufTy).Contents (Elt Ideal)) (x3 : (⟨S3x128x128, .f32⟩ : BufTy).Contents (Elt Ideal)) (x4 x5 x6 x7 : (⟨S3x128, .f32⟩ : BufTy).Contents (Elt Ideal)) (i : S50000x128.Idx) :
    val_main_v174 (F := Ideal) x0 x1 x2 x3 x4 x5 x6 x7 i = ∑ k : Fin 128, (val_main_v171 (F := Ideal) x0 x1 x2 x3 x4 x5 x6 x7) (lidx_main_v174 i k) * (val_main_v173 (F := Ideal) x3) (ridx_main_v174 i k) := by
  unfold val_main_v174
  generalize val_main_v171 (F := Ideal) x0 x1 x2 x3 x4 x5 x6 x7 = y0
  generalize val_main_v173 (F := Ideal) x3 = y1
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v174 i k := funext fun a => Fin.ext (by
    match a with
    | ⟨0, _⟩ => exact lhs_main_v174_0 _ _
    | ⟨1, _⟩ => exact (lhs_main_v174_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v174 i k := funext fun a => Fin.ext (by
    match a with
    | ⟨0, _⟩ => exact (rhs_main_v174_0 _ _).trans hk
    | ⟨1, _⟩ => exact rhs_main_v174_1 _ _)
  rw [el, er]

def val_main_c_29 : (⟨S_, .i32⟩ : BufTy).Contents (Elt F) :=
  constantI S_ 32 0#32

def val_main_v175 : (⟨S1649454, .i32⟩ : BufTy).Contents (Elt F) :=
  broadcastInDim S1649454 ![] bcast_S_S1649454 (val_main_c_29 (F := F))

def val_main_v176 (x1 : (⟨S2x1599454, .i32⟩ : BufTy).Contents (Elt F)) : (⟨S1649454, .i1⟩ : BufTy).Contents (Elt F) :=
  cmpi .slt (val_main_v5 (F := F) x1) (val_main_v175 (F := F))

def val_main_c_30 : (⟨S_, .i32⟩ : BufTy).Contents (Elt F) :=
  constantI S_ 32 50000#32

def val_main_v177 : (⟨S1649454, .i32⟩ : BufTy).Contents (Elt F) :=
  broadcastInDim S1649454 ![] bcast_S_S1649454 (val_main_c_30 (F := F))

def val_main_v178 (x1 : (⟨S2x1599454, .i32⟩ : BufTy).Contents (Elt F)) : (⟨S1649454, .i32⟩ : BufTy).Contents (Elt F) :=
  addi (val_main_v5 (F := F) x1) (val_main_v177 (F := F))

def val_main_v179 (x1 : (⟨S2x1599454, .i32⟩ : BufTy).Contents (Elt F)) : (⟨S1649454, .i32⟩ : BufTy).Contents (Elt F) :=
  select (val_main_v176 (F := F) x1) (val_main_v178 (F := F) x1) (val_main_v5 (F := F) x1)

def val_main_v180 (x1 : (⟨S2x1599454, .i32⟩ : BufTy).Contents (Elt F)) : (⟨S1649454x1, .i32⟩ : BufTy).Contents (Elt F) :=
  broadcastInDim S1649454x1 ![0] bcast_S1649454_S1649454x1_0 (val_main_v179 (F := F) x1)

def val_main_v181 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S1649454x128, .f32⟩ : BufTy).Contents (Elt F) :=
  Host.gather gather_S50000x128_S1649454x1_S1649454x128_1_0_n_n_0_1_1128 (val_main_v174 (F := F) x0 x1 x2 x3 x4 x5 x6 x7) (val_main_v180 (F := F) x1)

def val_main_v182 (x1 : (⟨S2x1599454, .i32⟩ : BufTy).Contents (Elt F)) : (⟨S1649454x128, .f32⟩ : BufTy).Contents (Elt F) :=
  broadcastInDim S1649454x128 ![0, 1] bcast_S1649454x1_S1649454x128_0_1 (val_main_v30 (F := F) x1)

def val_main_v183 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S1649454x128, .f32⟩ : BufTy).Contents (Elt F) :=
  mulf (val_main_v181 (F := F) x0 x1 x2 x3 x4 x5 x6 x7) (val_main_v182 (F := F) x1)

def val_main_cst_31 : (⟨S_, .f32⟩ : BufTy).Contents (Elt F) :=
  constant S_ .f32 0x00000000#32

def val_main_v184 : (⟨S50000x128, .f32⟩ : BufTy).Contents (Elt F) :=
  broadcastInDim S50000x128 ![] bcast_S_S50000x128 (val_main_cst_31 (F := F))

def val_main_v185 (x1 : (⟨S2x1599454, .i32⟩ : BufTy).Contents (Elt F)) : (⟨S1649454x1, .i32⟩ : BufTy).Contents (Elt F) :=
  broadcastInDim S1649454x1 ![0] bcast_S1649454_S1649454x1_0 (val_main_v6 (F := F) x1)

def val_main_v186 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  Host.scatterAdd scatter_S50000x128_S1649454x1_S1649454x128_1_0_0_1 (val_main_v184 (F := F)) (val_main_v185 (F := F) x1) (val_main_v183 (F := F) x0 x1 x2 x3 x4 x5 x6 x7)

def val_main_v187 (x4 : (⟨S3x128, .f32⟩ : BufTy).Contents (Elt F)) : (⟨S1x128, .f32⟩ : BufTy).Contents (Elt F) :=
  extractStridedSlice S1x128 ![2, 0] (x4) slices_S3x128_S1x128_2_0

abbrev idx_main_v187 (i : S1x128.Idx) : S3x128.Idx := fun a => match a with
  | ⟨0, _⟩ => ⟨2 + (i 0).val, by have h0 : (i 0).val < 1 := (i 0).isLt; show 2 + (i 0).val < 3; omega⟩
  | ⟨1, _⟩ => ⟨(i 1).val, (i 1).isLt⟩

theorem val_main_v187_apply (x4 : (⟨S3x128, .f32⟩ : BufTy).Contents (Elt F)) (i : S1x128.Idx) :
    val_main_v187 (F := F) x4 i = x4 (idx_main_v187 i) := by
  unfold val_main_v187
  exact extractStridedSlice_apply ![2, 0] x4 slices_S3x128_S1x128_2_0 i (idx_main_v187 i) (fun a => match a with
    | ⟨0, _⟩ => by show 2 + (i 0).val = 2 + (i 0).val; omega
    | ⟨1, _⟩ => by show (i 1).val = 0 + (i 1).val; omega)

def val_main_v188 (x4 : (⟨S3x128, .f32⟩ : BufTy).Contents (Elt F)) : (⟨S128, .f32⟩ : BufTy).Contents (Elt F) :=
  shapeCast _ (val_main_v187 (F := F) x4) shapeCasts_S1x128_S128

abbrev idx_main_v188 (i : S128.Idx) : S1x128.Idx := fun a => match a with
  | ⟨0, _⟩ => ⟨0, Nat.one_pos⟩
  | ⟨1, _⟩ => ⟨((i 0).val) % 128, by have h0 : (i 0).val < 128 := (i 0).isLt; show ((i 0).val) % 128 < 128; omega⟩

theorem val_main_v188_apply (x4 : (⟨S3x128, .f32⟩ : BufTy).Contents (Elt F)) (i : S128.Idx) :
    val_main_v188 (F := F) x4 i = val_main_v187 (F := F) x4 (idx_main_v188 i) := by
  unfold val_main_v188
  generalize val_main_v187 (F := F) x4 = y
  exact shapeCast_apply y shapeCasts_S1x128_S128 i (idx_main_v188 i)
    (by rewrite [Shape.rowMajor_val_two, Shape.rowMajor_val_one]; have h0 : (i 0).val < 128 := (i 0).isLt; show 0 * 128 + ((i 0).val) % 128 = (i 0).val; omega)

def val_main_v189 (x4 : (⟨S3x128, .f32⟩ : BufTy).Contents (Elt F)) : (⟨S1x128, .f32⟩ : BufTy).Contents (Elt F) :=
  broadcastInDim S1x128 ![1] bcast_S128_S1x128_1 (val_main_v188 (F := F) x4)

abbrev idx_main_v189 (i : S1x128.Idx) : S128.Idx := fun a => match a with
  | ⟨0, _⟩ => ⟨(i 1).val, (i 1).isLt⟩

theorem val_main_v189_apply (x4 : (⟨S3x128, .f32⟩ : BufTy).Contents (Elt F)) (i : S1x128.Idx) :
    val_main_v189 (F := F) x4 i = val_main_v188 (F := F) x4 (idx_main_v189 i) := by
  unfold val_main_v189
  generalize val_main_v188 (F := F) x4 = y
  exact broadcastInDim_apply _ bcast_S128_S1x128_1 y i (idx_main_v189 i) (fun a => match a with
    | ⟨0, _⟩ => by show (i 1).val = if (128 : Nat) = 1 then 0 else (i 1).val; rw [if_neg (by decide)])

def val_main_v190 (x4 : (⟨S3x128, .f32⟩ : BufTy).Contents (Elt F)) : (⟨S50000x128, .f32⟩ : BufTy).Contents (Elt F) :=
  broadcastInDim S50000x128 ![0, 1] bcast_S1x128_S50000x128_0_1 (val_main_v189 (F := F) x4)

abbrev idx_main_v190 (i : S50000x128.Idx) : S1x128.Idx := fun a => match a with
  | ⟨0, _⟩ => ⟨0, Nat.one_pos⟩
  | ⟨1, _⟩ => ⟨(i 1).val, (i 1).isLt⟩

theorem val_main_v190_apply (x4 : (⟨S3x128, .f32⟩ : BufTy).Contents (Elt F)) (i : S50000x128.Idx) :
    val_main_v190 (F := F) x4 i = val_main_v189 (F := F) x4 (idx_main_v190 i) := by
  unfold val_main_v190
  generalize val_main_v189 (F := F) x4 = y
  exact broadcastInDim_apply _ bcast_S1x128_S50000x128_0_1 y i (idx_main_v190 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v191 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  addf (val_main_v186 (F := F) x0 x1 x2 x3 x4 x5 x6 x7) (val_main_v190 (F := F) x4)

def val_main_cst_32 : (⟨S_, .f32⟩ : BufTy).Contents (Elt F) :=
  constant S_ .f32 0x00000000#32

def val_main_v192 : (⟨S64x128, .f32⟩ : BufTy).Contents (Elt F) :=
  broadcastInDim S64x128 ![] bcast_S_S64x128 (val_main_cst_32 (F := F))

def val_main_v193 (x2 : (⟨S50000, .i32⟩ : BufTy).Contents (Elt F)) : (⟨S50000x1, .i32⟩ : BufTy).Contents (Elt F) :=
  broadcastInDim S50000x1 ![0] bcast_S50000_S50000x1_0 (x2)

def val_main_v194 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.scatterAdd scatter_S64x128_S50000x1_S50000x128_1_0_0_1 (val_main_v192 (F := F)) (val_main_v193 (F := F) x2) (val_main_v191 (F := F) x0 x1 x2 x3 x4 x5 x6 x7)

def val_main_v195 (x2 : (⟨S50000, .i32⟩ : BufTy).Contents (Elt F)) : (⟨S64x128, .f32⟩ : BufTy).Contents (Elt F) :=
  broadcastInDim S64x128 ![0, 1] bcast_S64x1_S64x128_0_1 (val_main_v37 (F := F) x2)

def val_main_v196 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.divf (val_main_v194 (F := F) x0 x1 x2 x3 x4 x5 x6 x7) (val_main_v195 (F := F) x2)

def val_main_v197 (x7 : (⟨S3x128, .f32⟩ : BufTy).Contents (Elt F)) : (⟨S1x128, .f32⟩ : BufTy).Contents (Elt F) :=
  extractStridedSlice S1x128 ![2, 0] (x7) slices_S3x128_S1x128_2_0

def val_main_v198 (x7 : (⟨S3x128, .f32⟩ : BufTy).Contents (Elt F)) : (⟨S128, .f32⟩ : BufTy).Contents (Elt F) :=
  shapeCast _ (val_main_v197 (F := F) x7) shapeCasts_S1x128_S128

def val_main_c_33 : (⟨S_, .i32⟩ : BufTy).Contents (Elt F) :=
  constantI S_ 32 0#32

def val_main_v199 : (⟨S50000, .i32⟩ : BufTy).Contents (Elt F) :=
  broadcastInDim S50000 ![] bcast_S_S50000 (val_main_c_33 (F := F))

def val_main_v200 (x2 : (⟨S50000, .i32⟩ : BufTy).Contents (Elt F)) : (⟨S50000, .i1⟩ : BufTy).Contents (Elt F) :=
  cmpi .slt (x2) (val_main_v199 (F := F))

def val_main_c_34 : (⟨S_, .i32⟩ : BufTy).Contents (Elt F) :=
  constantI S_ 32 64#32

def val_main_v201 : (⟨S50000, .i32⟩ : BufTy).Contents (Elt F) :=
  broadcastInDim S50000 ![] bcast_S_S50000 (val_main_c_34 (F := F))

def val_main_v202 (x2 : (⟨S50000, .i32⟩ : BufTy).Contents (Elt F)) : (⟨S50000, .i32⟩ : BufTy).Contents (Elt F) :=
  addi (x2) (val_main_v201 (F := F))

def val_main_v203 (x2 : (⟨S50000, .i32⟩ : BufTy).Contents (Elt F)) : (⟨S50000, .i32⟩ : BufTy).Contents (Elt F) :=
  select (val_main_v200 (F := F) x2) (val_main_v202 (F := F) x2) (x2)

def val_main_v204 (x2 : (⟨S50000, .i32⟩ : BufTy).Contents (Elt F)) : (⟨S50000x1, .i32⟩ : BufTy).Contents (Elt F) :=
  broadcastInDim S50000x1 ![0] bcast_S50000_S50000x1_0 (val_main_v203 (F := F) x2)

def val_main_v205 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  Host.gather gather_S64x128_S50000x1_S50000x128_1_0_n_n_0_1_1128 (val_main_v196 (F := F) x0 x1 x2 x3 x4 x5 x6 x7) (val_main_v204 (F := F) x2)

def val_main_v206 (x7 : (⟨S3x128, .f32⟩ : BufTy).Contents (Elt F)) : (⟨S1x128, .f32⟩ : BufTy).Contents (Elt F) :=
  broadcastInDim S1x128 ![1] bcast_S128_S1x128_1 (val_main_v198 (F := F) x7)

def val_main_v207 (x7 : (⟨S3x128, .f32⟩ : BufTy).Contents (Elt F)) : (⟨S50000x128, .f32⟩ : BufTy).Contents (Elt F) :=
  broadcastInDim S50000x128 ![0, 1] bcast_S1x128_S50000x128_0_1 (val_main_v206 (F := F) x7)

def val_main_v208 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  mulf (val_main_v207 (F := F) x7) (val_main_v205 (F := F) x0 x1 x2 x3 x4 x5 x6 x7)

def val_main_v209 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  subf (val_main_v191 (F := F) x0 x1 x2 x3 x4 x5 x6 x7) (val_main_v208 (F := F) x0 x1 x2 x3 x4 x5 x6 x7)

def val_main_v210 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  mulf (val_main_v209 (F := F) x0 x1 x2 x3 x4 x5 x6 x7) (val_main_v209 (F := F) x0 x1 x2 x3 x4 x5 x6 x7)

def val_main_cst_35 : (⟨S_, .f32⟩ : BufTy).Contents (Elt F) :=
  constant S_ .f32 0x00000000#32

def val_main_v211 : (⟨S64x128, .f32⟩ : BufTy).Contents (Elt F) :=
  broadcastInDim S64x128 ![] bcast_S_S64x128 (val_main_cst_35 (F := F))

def val_main_v212 (x2 : (⟨S50000, .i32⟩ : BufTy).Contents (Elt F)) : (⟨S50000x1, .i32⟩ : BufTy).Contents (Elt F) :=
  broadcastInDim S50000x1 ![0] bcast_S50000_S50000x1_0 (x2)

def val_main_v213 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.scatterAdd scatter_S64x128_S50000x1_S50000x128_1_0_0_1 (val_main_v211 (F := F)) (val_main_v212 (F := F) x2) (val_main_v210 (F := F) x0 x1 x2 x3 x4 x5 x6 x7)

def val_main_v214 (x2 : (⟨S50000, .i32⟩ : BufTy).Contents (Elt F)) : (⟨S64x128, .f32⟩ : BufTy).Contents (Elt F) :=
  broadcastInDim S64x128 ![0, 1] bcast_S64x1_S64x128_0_1 (val_main_v37 (F := F) x2)

def val_main_v215 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.divf (val_main_v213 (F := F) x0 x1 x2 x3 x4 x5 x6 x7) (val_main_v214 (F := F) x2)

def val_main_v216 (x5 : (⟨S3x128, .f32⟩ : BufTy).Contents (Elt F)) : (⟨S1x128, .f32⟩ : BufTy).Contents (Elt F) :=
  extractStridedSlice S1x128 ![2, 0] (x5) slices_S3x128_S1x128_2_0

def val_main_v217 (x5 : (⟨S3x128, .f32⟩ : BufTy).Contents (Elt F)) : (⟨S128, .f32⟩ : BufTy).Contents (Elt F) :=
  shapeCast _ (val_main_v216 (F := F) x5) shapeCasts_S1x128_S128

def val_main_v218 (x5 : (⟨S3x128, .f32⟩ : BufTy).Contents (Elt F)) : (⟨S1x128, .f32⟩ : BufTy).Contents (Elt F) :=
  broadcastInDim S1x128 ![1] bcast_S128_S1x128_1 (val_main_v217 (F := F) x5)

def val_main_v219 (x5 : (⟨S3x128, .f32⟩ : BufTy).Contents (Elt F)) : (⟨S50000x128, .f32⟩ : BufTy).Contents (Elt F) :=
  broadcastInDim S50000x128 ![0, 1] bcast_S1x128_S50000x128_0_1 (val_main_v218 (F := F) x5)

def val_main_v220 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  mulf (val_main_v219 (F := F) x5) (val_main_v209 (F := F) x0 x1 x2 x3 x4 x5 x6 x7)

def val_main_cst_36 : (⟨S_, .f32⟩ : BufTy).Contents (Elt F) :=
  constant S_ .f32 0x3727C5AC#32

def val_main_v221 : (⟨S64x128, .f32⟩ : BufTy).Contents (Elt F) :=
  broadcastInDim S64x128 ![] bcast_S_S64x128 (val_main_cst_36 (F := F))

def val_main_v222 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  addf (val_main_v215 (F := F) x0 x1 x2 x3 x4 x5 x6 x7) (val_main_v221 (F := F))

def val_main_v223 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.rsqrt (val_main_v222 (F := F) x0 x1 x2 x3 x4 x5 x6 x7)

def val_main_c_37 : (⟨S_, .i32⟩ : BufTy).Contents (Elt F) :=
  constantI S_ 32 0#32

def val_main_v224 : (⟨S50000, .i32⟩ : BufTy).Contents (Elt F) :=
  broadcastInDim S50000 ![] bcast_S_S50000 (val_main_c_37 (F := F))

def val_main_v225 (x2 : (⟨S50000, .i32⟩ : BufTy).Contents (Elt F)) : (⟨S50000, .i1⟩ : BufTy).Contents (Elt F) :=
  cmpi .slt (x2) (val_main_v224 (F := F))

def val_main_c_38 : (⟨S_, .i32⟩ : BufTy).Contents (Elt F) :=
  constantI S_ 32 64#32

def val_main_v226 : (⟨S50000, .i32⟩ : BufTy).Contents (Elt F) :=
  broadcastInDim S50000 ![] bcast_S_S50000 (val_main_c_38 (F := F))

def val_main_v227 (x2 : (⟨S50000, .i32⟩ : BufTy).Contents (Elt F)) : (⟨S50000, .i32⟩ : BufTy).Contents (Elt F) :=
  addi (x2) (val_main_v226 (F := F))

def val_main_v228 (x2 : (⟨S50000, .i32⟩ : BufTy).Contents (Elt F)) : (⟨S50000, .i32⟩ : BufTy).Contents (Elt F) :=
  select (val_main_v225 (F := F) x2) (val_main_v227 (F := F) x2) (x2)

def val_main_v229 (x2 : (⟨S50000, .i32⟩ : BufTy).Contents (Elt F)) : (⟨S50000x1, .i32⟩ : BufTy).Contents (Elt F) :=
  broadcastInDim S50000x1 ![0] bcast_S50000_S50000x1_0 (val_main_v228 (F := F) x2)

def val_main_v230 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  Host.gather gather_S64x128_S50000x1_S50000x128_1_0_n_n_0_1_1128 (val_main_v223 (F := F) x0 x1 x2 x3 x4 x5 x6 x7) (val_main_v229 (F := F) x2)

def val_main_v231 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  mulf (val_main_v220 (F := F) x0 x1 x2 x3 x4 x5 x6 x7) (val_main_v230 (F := F) x0 x1 x2 x3 x4 x5 x6 x7)

def val_main_v232 (x6 : (⟨S3x128, .f32⟩ : BufTy).Contents (Elt F)) : (⟨S1x128, .f32⟩ : BufTy).Contents (Elt F) :=
  extractStridedSlice S1x128 ![2, 0] (x6) slices_S3x128_S1x128_2_0

def val_main_v233 (x6 : (⟨S3x128, .f32⟩ : BufTy).Contents (Elt F)) : (⟨S128, .f32⟩ : BufTy).Contents (Elt F) :=
  shapeCast _ (val_main_v232 (F := F) x6) shapeCasts_S1x128_S128

def val_main_v234 (x6 : (⟨S3x128, .f32⟩ : BufTy).Contents (Elt F)) : (⟨S1x128, .f32⟩ : BufTy).Contents (Elt F) :=
  broadcastInDim S1x128 ![1] bcast_S128_S1x128_1 (val_main_v233 (F := F) x6)

def val_main_v235 (x6 : (⟨S3x128, .f32⟩ : BufTy).Contents (Elt F)) : (⟨S50000x128, .f32⟩ : BufTy).Contents (Elt F) :=
  broadcastInDim S50000x128 ![0, 1] bcast_S1x128_S50000x128_0_1 (val_main_v234 (F := F) x6)

def val_main_v236 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  addf (val_main_v231 (F := F) x0 x1 x2 x3 x4 x5 x6 x7) (val_main_v235 (F := F) x6)

def val_main_call3_cst : (⟨S_, .f32⟩ : BufTy).Contents (Elt F) :=
  constant S_ .f32 0x00000000#32

def val_main_call3_v0 : (⟨S50000x128, .f32⟩ : BufTy).Contents (Elt F) :=
  broadcastInDim S50000x128 ![] bcast_S_S50000x128 (val_main_call3_cst (F := F))

def val_main_v237 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  maximumf (val_main_v236 (F := F) x0 x1 x2 x3 x4 x5 x6 x7) (val_main_call3_v0 (F := F))

def val_main_v238 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S50000x128, .f32⟩ : BufTy).Contents (Elt F) :=
  addf (val_main_v237 (F := F) x0 x1 x2 x3 x4 x5 x6 x7) (val_main_v171 (F := F) x0 x1 x2 x3 x4 x5 x6 x7)

def val_main_cst_39 : (⟨S_, .f32⟩ : BufTy).Contents (Elt F) :=
  constant S_ .f32 0x00000000#32

def val_main_v239 : (⟨S64x128, .f32⟩ : BufTy).Contents (Elt F) :=
  broadcastInDim S64x128 ![] bcast_S_S64x128 (val_main_cst_39 (F := F))

def val_main_v240 (x2 : (⟨S50000, .i32⟩ : BufTy).Contents (Elt F)) : (⟨S50000x1, .i32⟩ : BufTy).Contents (Elt F) :=
  broadcastInDim S50000x1 ![0] bcast_S50000_S50000x1_0 (x2)

def val_main_v241 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.scatterAdd scatter_S64x128_S50000x1_S50000x128_1_0_0_1 (val_main_v239 (F := F)) (val_main_v240 (F := F) x2) (val_main_v238 (F := F) x0 x1 x2 x3 x4 x5 x6 x7)

def val_main_v242 (x2 : (⟨S50000, .i32⟩ : BufTy).Contents (Elt F)) : (⟨S64x128, .f32⟩ : BufTy).Contents (Elt F) :=
  broadcastInDim S64x128 ![0, 1] bcast_S64x1_S64x128_0_1 (val_main_v37 (F := F) x2)

def val_main_v243 (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 x5 x6 x7 : (⟨S3x128, .f32⟩ : BufTy).Contents (Elt F)) : (⟨S64x128, .f32⟩ : BufTy).Contents (Elt F) :=
  Host.divf (val_main_v241 (F := F) x0 x1 x2 x3 x4 x5 x6 x7) (val_main_v242 (F := F) x2)

end Cert.ReferenceIdeal.ReadP

end
-- ==== Proof.Ref.Seg0.lean ====
import proofs.«419822_j14680198218267_2_alg».proof.Proof.Ref.ReadP
import proofs.«419822_j14680198218267_2_alg».proof.Proof.Ref.RunP

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

-- The prelude is operations 0 to 50 of the run.
abbrev seg0 : List (HloOp τ sig (Elt F)) := Cert.ReferenceIdeal.ValueP.ops.take 51

local macro "seg_results" : tactic =>
  `(tactic| (simp only [seg0, Cert.ReferenceIdeal.ValueP.ops, List.drop_succ_cons, List.drop_zero, List.take_succ_cons, List.take_zero]; after_results_simp))

section
variable (V : Valuation τ sig (Elt F))

theorem seg0_keep_arg0 : after seg0 V (Proc.devRef .tc main_arg0) = V (Proc.devRef .tc main_arg0) := by seg_results
theorem seg0_keep_arg2 : after seg0 V (Proc.devRef .tc main_arg2) = V (Proc.devRef .tc main_arg2) := by seg_results
theorem seg0_keep_arg3 : after seg0 V (Proc.devRef .tc main_arg3) = V (Proc.devRef .tc main_arg3) := by seg_results
theorem seg0_keep_arg4 : after seg0 V (Proc.devRef .tc main_arg4) = V (Proc.devRef .tc main_arg4) := by seg_results
theorem seg0_keep_arg5 : after seg0 V (Proc.devRef .tc main_arg5) = V (Proc.devRef .tc main_arg5) := by seg_results
theorem seg0_keep_arg6 : after seg0 V (Proc.devRef .tc main_arg6) = V (Proc.devRef .tc main_arg6) := by seg_results
theorem seg0_keep_arg7 : after seg0 V (Proc.devRef .tc main_arg7) = V (Proc.devRef .tc main_arg7) := by seg_results

theorem seg0_v5 : after seg0 V (Proc.devRef .tc main_v5) = val_main_v5 (F := F) (V (Proc.devRef .tc main_arg1)) := by
  seg_results <;> rfl
theorem seg0_v6 : after seg0 V (Proc.devRef .tc main_v6) = val_main_v6 (F := F) (V (Proc.devRef .tc main_arg1)) := by
  seg_results <;> rfl
theorem seg0_v30 : after seg0 V (Proc.devRef .tc main_v30) = val_main_v30 (F := F) (V (Proc.devRef .tc main_arg1)) := by
  seg_results <;> rfl
theorem seg0_v37 : after seg0 V (Proc.devRef .tc main_v37) = val_main_v37 (F := F) (V (Proc.devRef .tc main_arg2)) := by
  seg_results <;> rfl

end

end Cert.ReferenceIdeal.RefValue

end
-- ==== Proof.Ref.Seg1.lean ====
import proofs.«419822_j14680198218267_2_alg».proof.Proof.Ref.ReadP
import proofs.«419822_j14680198218267_2_alg».proof.Proof.Ref.RunP

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

-- Layer 0 is operations 51 to 129 of the run, counted from 0.
abbrev seg1 : List (HloOp τ sig (Elt F)) := (Cert.ReferenceIdeal.ValueP.ops.drop 51).take 79

local macro "seg_results" : tactic =>
  `(tactic| (simp only [seg1, Cert.ReferenceIdeal.ValueP.ops, List.drop_succ_cons, List.drop_zero, List.take_succ_cons, List.take_zero]; after_results_simp))

section
variable (V : Valuation τ sig (Elt F))

theorem seg1_keep_arg0 : after seg1 V (Proc.devRef .tc main_arg0) = V (Proc.devRef .tc main_arg0) := by seg_results
theorem seg1_keep_arg2 : after seg1 V (Proc.devRef .tc main_arg2) = V (Proc.devRef .tc main_arg2) := by seg_results
theorem seg1_keep_arg3 : after seg1 V (Proc.devRef .tc main_arg3) = V (Proc.devRef .tc main_arg3) := by seg_results
theorem seg1_keep_arg4 : after seg1 V (Proc.devRef .tc main_arg4) = V (Proc.devRef .tc main_arg4) := by seg_results
theorem seg1_keep_arg5 : after seg1 V (Proc.devRef .tc main_arg5) = V (Proc.devRef .tc main_arg5) := by seg_results
theorem seg1_keep_arg6 : after seg1 V (Proc.devRef .tc main_arg6) = V (Proc.devRef .tc main_arg6) := by seg_results
theorem seg1_keep_arg7 : after seg1 V (Proc.devRef .tc main_arg7) = V (Proc.devRef .tc main_arg7) := by seg_results
theorem seg1_keep_v5 : after seg1 V (Proc.devRef .tc main_v5) = V (Proc.devRef .tc main_v5) := by seg_results
theorem seg1_keep_v6 : after seg1 V (Proc.devRef .tc main_v6) = V (Proc.devRef .tc main_v6) := by seg_results
theorem seg1_keep_v30 : after seg1 V (Proc.devRef .tc main_v30) = V (Proc.devRef .tc main_v30) := by seg_results
theorem seg1_keep_v37 : after seg1 V (Proc.devRef .tc main_v37) = V (Proc.devRef .tc main_v37) := by seg_results

set_option maxRecDepth 8192 in
set_option maxHeartbeats 64000000 in
theorem seg1_out (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F))
    (a0 : V (Proc.devRef .tc main_arg0) = x0) (a2 : V (Proc.devRef .tc main_arg2) = x2) (a3 : V (Proc.devRef .tc main_arg3) = x3) (a4 : V (Proc.devRef .tc main_arg4) = x4) (a5 : V (Proc.devRef .tc main_arg5) = x5) (a6 : V (Proc.devRef .tc main_arg6) = x6) (a7 : V (Proc.devRef .tc main_arg7) = x7) (h5 : V (Proc.devRef .tc main_v5) = val_main_v5 (F := F) x1) (h6 : V (Proc.devRef .tc main_v6) = val_main_v6 (F := F) x1) (h30 : V (Proc.devRef .tc main_v30) = val_main_v30 (F := F) x1) (h37 : V (Proc.devRef .tc main_v37) = val_main_v37 (F := F) x2) :
    after seg1 V (Proc.devRef .tc main_v104) = val_main_v104 (F := F) x0 x1 x2 x3 x4 x5 x6 x7 := by
  seg_results
  rw [a0, a2, a3, a4, a5, a6, a7, h5, h6, h30, h37]
  rfl

end

end Cert.ReferenceIdeal.RefValue

end
-- ==== Proof.Ref.Seg2.lean ====
import proofs.«419822_j14680198218267_2_alg».proof.Proof.Ref.ReadP
import proofs.«419822_j14680198218267_2_alg».proof.Proof.Ref.RunP

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

-- Layer 1 is operations 130 to 208 of the run, counted from 0.
abbrev seg2 : List (HloOp τ sig (Elt F)) := (Cert.ReferenceIdeal.ValueP.ops.drop 130).take 79

local macro "seg_results" : tactic =>
  `(tactic| (simp only [seg2, Cert.ReferenceIdeal.ValueP.ops, List.drop_succ_cons, List.drop_zero, List.take_succ_cons, List.take_zero]; after_results_simp))

section
variable (V : Valuation τ sig (Elt F))

theorem seg2_keep_arg0 : after seg2 V (Proc.devRef .tc main_arg0) = V (Proc.devRef .tc main_arg0) := by seg_results
theorem seg2_keep_arg2 : after seg2 V (Proc.devRef .tc main_arg2) = V (Proc.devRef .tc main_arg2) := by seg_results
theorem seg2_keep_arg3 : after seg2 V (Proc.devRef .tc main_arg3) = V (Proc.devRef .tc main_arg3) := by seg_results
theorem seg2_keep_arg4 : after seg2 V (Proc.devRef .tc main_arg4) = V (Proc.devRef .tc main_arg4) := by seg_results
theorem seg2_keep_arg5 : after seg2 V (Proc.devRef .tc main_arg5) = V (Proc.devRef .tc main_arg5) := by seg_results
theorem seg2_keep_arg6 : after seg2 V (Proc.devRef .tc main_arg6) = V (Proc.devRef .tc main_arg6) := by seg_results
theorem seg2_keep_arg7 : after seg2 V (Proc.devRef .tc main_arg7) = V (Proc.devRef .tc main_arg7) := by seg_results
theorem seg2_keep_v5 : after seg2 V (Proc.devRef .tc main_v5) = V (Proc.devRef .tc main_v5) := by seg_results
theorem seg2_keep_v6 : after seg2 V (Proc.devRef .tc main_v6) = V (Proc.devRef .tc main_v6) := by seg_results
theorem seg2_keep_v30 : after seg2 V (Proc.devRef .tc main_v30) = V (Proc.devRef .tc main_v30) := by seg_results
theorem seg2_keep_v37 : after seg2 V (Proc.devRef .tc main_v37) = V (Proc.devRef .tc main_v37) := by seg_results

set_option maxRecDepth 8192 in
set_option maxHeartbeats 64000000 in
theorem seg2_out (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F))
    (a2 : V (Proc.devRef .tc main_arg2) = x2) (a3 : V (Proc.devRef .tc main_arg3) = x3) (a4 : V (Proc.devRef .tc main_arg4) = x4) (a5 : V (Proc.devRef .tc main_arg5) = x5) (a6 : V (Proc.devRef .tc main_arg6) = x6) (a7 : V (Proc.devRef .tc main_arg7) = x7) (h5 : V (Proc.devRef .tc main_v5) = val_main_v5 (F := F) x1) (h6 : V (Proc.devRef .tc main_v6) = val_main_v6 (F := F) x1) (h30 : V (Proc.devRef .tc main_v30) = val_main_v30 (F := F) x1) (h37 : V (Proc.devRef .tc main_v37) = val_main_v37 (F := F) x2) (hin : V (Proc.devRef .tc main_v104) = val_main_v104 (F := F) x0 x1 x2 x3 x4 x5 x6 x7) :
    after seg2 V (Proc.devRef .tc main_v171) = val_main_v171 (F := F) x0 x1 x2 x3 x4 x5 x6 x7 := by
  seg_results
  rw [a2, a3, a4, a5, a6, a7, h5, h6, h30, h37, hin]
  rfl

end

end Cert.ReferenceIdeal.RefValue

end
-- ==== Proof.Ref.Seg3.lean ====
import proofs.«419822_j14680198218267_2_alg».proof.Proof.Ref.ReadP
import proofs.«419822_j14680198218267_2_alg».proof.Proof.Ref.RunP

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

-- Layer 2 is operations 209 to 287 of the run, counted from 0.
abbrev seg3 : List (HloOp τ sig (Elt F)) := (Cert.ReferenceIdeal.ValueP.ops.drop 209).take 79

local macro "seg_results" : tactic =>
  `(tactic| (simp only [seg3, Cert.ReferenceIdeal.ValueP.ops, List.drop_succ_cons, List.drop_zero, List.take_succ_cons, List.take_zero]; after_results_simp))

section
variable (V : Valuation τ sig (Elt F))

theorem seg3_keep_arg0 : after seg3 V (Proc.devRef .tc main_arg0) = V (Proc.devRef .tc main_arg0) := by seg_results
theorem seg3_keep_arg2 : after seg3 V (Proc.devRef .tc main_arg2) = V (Proc.devRef .tc main_arg2) := by seg_results
theorem seg3_keep_arg3 : after seg3 V (Proc.devRef .tc main_arg3) = V (Proc.devRef .tc main_arg3) := by seg_results
theorem seg3_keep_arg4 : after seg3 V (Proc.devRef .tc main_arg4) = V (Proc.devRef .tc main_arg4) := by seg_results
theorem seg3_keep_arg5 : after seg3 V (Proc.devRef .tc main_arg5) = V (Proc.devRef .tc main_arg5) := by seg_results
theorem seg3_keep_arg6 : after seg3 V (Proc.devRef .tc main_arg6) = V (Proc.devRef .tc main_arg6) := by seg_results
theorem seg3_keep_arg7 : after seg3 V (Proc.devRef .tc main_arg7) = V (Proc.devRef .tc main_arg7) := by seg_results
theorem seg3_keep_v5 : after seg3 V (Proc.devRef .tc main_v5) = V (Proc.devRef .tc main_v5) := by seg_results
theorem seg3_keep_v6 : after seg3 V (Proc.devRef .tc main_v6) = V (Proc.devRef .tc main_v6) := by seg_results
theorem seg3_keep_v30 : after seg3 V (Proc.devRef .tc main_v30) = V (Proc.devRef .tc main_v30) := by seg_results
theorem seg3_keep_v37 : after seg3 V (Proc.devRef .tc main_v37) = V (Proc.devRef .tc main_v37) := by seg_results

set_option maxRecDepth 8192 in
set_option maxHeartbeats 64000000 in
theorem seg3_out (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F))
    (a2 : V (Proc.devRef .tc main_arg2) = x2) (a3 : V (Proc.devRef .tc main_arg3) = x3) (a4 : V (Proc.devRef .tc main_arg4) = x4) (a5 : V (Proc.devRef .tc main_arg5) = x5) (a6 : V (Proc.devRef .tc main_arg6) = x6) (a7 : V (Proc.devRef .tc main_arg7) = x7) (h5 : V (Proc.devRef .tc main_v5) = val_main_v5 (F := F) x1) (h6 : V (Proc.devRef .tc main_v6) = val_main_v6 (F := F) x1) (h30 : V (Proc.devRef .tc main_v30) = val_main_v30 (F := F) x1) (h37 : V (Proc.devRef .tc main_v37) = val_main_v37 (F := F) x2) (hin : V (Proc.devRef .tc main_v171) = val_main_v171 (F := F) x0 x1 x2 x3 x4 x5 x6 x7) :
    after seg3 V (Proc.devRef .tc main_v238) = val_main_v238 (F := F) x0 x1 x2 x3 x4 x5 x6 x7 := by
  seg_results
  rw [a2, a3, a4, a5, a6, a7, h5, h6, h30, h37, hin]
  rfl

end

end Cert.ReferenceIdeal.RefValue

end
-- ==== Proof.Ref.Seg4.lean ====
import proofs.«419822_j14680198218267_2_alg».proof.Proof.Ref.ReadP
import proofs.«419822_j14680198218267_2_alg».proof.Proof.Ref.RunP

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

-- The pooling is operations 288 to 293 of the run.
abbrev seg4 : List (HloOp τ sig (Elt F)) := Cert.ReferenceIdeal.ValueP.ops.drop 288

local macro "seg_results" : tactic =>
  `(tactic| (simp only [seg4, Cert.ReferenceIdeal.ValueP.ops, List.drop_succ_cons, List.drop_zero, List.take_succ_cons, List.take_zero]; after_results_simp))

section
variable (V : Valuation τ sig (Elt F))

set_option maxRecDepth 8192 in
set_option maxHeartbeats 64000000 in
theorem seg4_out (x0 : (⟨S50000x128, .f32⟩ : BufTy).Contents (Elt F)) (x1 : (⟨S2x1599454, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F))
    (a2 : V (Proc.devRef .tc main_arg2) = x2) (h37 : V (Proc.devRef .tc main_v37) = val_main_v37 (F := F) x2) (hin : V (Proc.devRef .tc main_v238) = val_main_v238 (F := F) x0 x1 x2 x3 x4 x5 x6 x7) :
    after seg4 V (Proc.devRef .tc main_v243) = val_main_v243 (F := F) x0 x1 x2 x3 x4 x5 x6 x7 := by
  seg_results
  rw [a2, h37, hin]
  rfl

end

end Cert.ReferenceIdeal.RefValue

end
-- ==== Proof.Ref.Bridge.lean ====
import proofs.«419822_j14680198218267_2_alg».proof.Proof.Ref.Seg0
import proofs.«419822_j14680198218267_2_alg».proof.Proof.Ref.Seg1
import proofs.«419822_j14680198218267_2_alg».proof.Proof.Ref.Seg2
import proofs.«419822_j14680198218267_2_alg».proof.Proof.Ref.Seg3
import proofs.«419822_j14680198218267_2_alg».proof.Proof.Ref.Seg4

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

structure Carried (V W : Valuation τ sig (Elt F)) : Prop where
  a0 : W (Proc.devRef .tc main_arg0) = V (Proc.devRef .tc main_arg0)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  h5 : W (Proc.devRef .tc main_v5) = val_main_v5 (F := F) (V (Proc.devRef .tc main_arg1))
  h6 : W (Proc.devRef .tc main_v6) = val_main_v6 (F := F) (V (Proc.devRef .tc main_arg1))
  h30 : W (Proc.devRef .tc main_v30) = val_main_v30 (F := F) (V (Proc.devRef .tc main_arg1))
  h37 : W (Proc.devRef .tc main_v37) = val_main_v37 (F := F) (V (Proc.devRef .tc main_arg2))

theorem carried0 (V : Valuation τ sig (Elt F)) : Carried V (after seg0 V) :=
  ⟨seg0_keep_arg0 V, seg0_keep_arg2 V, seg0_keep_arg3 V, seg0_keep_arg4 V, seg0_keep_arg5 V, seg0_keep_arg6 V, seg0_keep_arg7 V,
   seg0_v5 V, seg0_v6 V, seg0_v30 V, seg0_v37 V⟩

theorem carried1 {V W : Valuation τ sig (Elt F)} (h : Carried V W) : Carried V (after seg1 W) :=
  ⟨(seg1_keep_arg0 W).trans h.a0,
   (seg1_keep_arg2 W).trans h.a2,
   (seg1_keep_arg3 W).trans h.a3,
   (seg1_keep_arg4 W).trans h.a4,
   (seg1_keep_arg5 W).trans h.a5,
   (seg1_keep_arg6 W).trans h.a6,
   (seg1_keep_arg7 W).trans h.a7,
   (seg1_keep_v5 W).trans h.h5,
   (seg1_keep_v6 W).trans h.h6,
   (seg1_keep_v30 W).trans h.h30,
   (seg1_keep_v37 W).trans h.h37⟩

theorem carried2 {V W : Valuation τ sig (Elt F)} (h : Carried V W) : Carried V (after seg2 W) :=
  ⟨(seg2_keep_arg0 W).trans h.a0,
   (seg2_keep_arg2 W).trans h.a2,
   (seg2_keep_arg3 W).trans h.a3,
   (seg2_keep_arg4 W).trans h.a4,
   (seg2_keep_arg5 W).trans h.a5,
   (seg2_keep_arg6 W).trans h.a6,
   (seg2_keep_arg7 W).trans h.a7,
   (seg2_keep_v5 W).trans h.h5,
   (seg2_keep_v6 W).trans h.h6,
   (seg2_keep_v30 W).trans h.h30,
   (seg2_keep_v37 W).trans h.h37⟩

theorem carried3 {V W : Valuation τ sig (Elt F)} (h : Carried V W) : Carried V (after seg3 W) :=
  ⟨(seg3_keep_arg0 W).trans h.a0,
   (seg3_keep_arg2 W).trans h.a2,
   (seg3_keep_arg3 W).trans h.a3,
   (seg3_keep_arg4 W).trans h.a4,
   (seg3_keep_arg5 W).trans h.a5,
   (seg3_keep_arg6 W).trans h.a6,
   (seg3_keep_arg7 W).trans h.a7,
   (seg3_keep_v5 W).trans h.h5,
   (seg3_keep_v6 W).trans h.h6,
   (seg3_keep_v30 W).trans h.h30,
   (seg3_keep_v37 W).trans h.h37⟩

theorem after_segs (V : Valuation τ sig (Elt F)) :
    after seg4 (after seg3 (after seg2 (after seg1 (after seg0 V)))) (Proc.devRef .tc main_v243)
      = val_main_v243 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  have c0 := carried0 V
  have c1 := carried1 c0
  have c2 := carried2 c1
  have c3 := carried3 c2
  seg4_out _ _ _ _ _ _ _ _ _ c3.a2 c3.h37
    (seg3_out _ _ _ _ _ _ _ _ _ c2.a2 c2.a3 c2.a4 c2.a5 c2.a6 c2.a7 c2.h5 c2.h6 c2.h30 c2.h37
      (seg2_out _ _ _ _ _ _ _ _ _ c1.a2 c1.a3 c1.a4 c1.a5 c1.a6 c1.a7 c1.h5 c1.h6 c1.h30 c1.h37
        (seg1_out _ _ _ _ _ _ _ _ _ c0.a0 c0.a2 c0.a3 c0.a4 c0.a5 c0.a6 c0.a7 c0.h5 c0.h6 c0.h30 c0.h37)))

end Cert.ReferenceIdeal.RefValue

end
-- ==== Proof.Ref.Pre.lean ====
import proofs.«419822_j14680198218267_2_alg».proof.Proof.Ref.ReadP
import proofs.«419822_j14680198218267_2_alg».proof.Proof.Hand.GraphOf
import proofs.«419822_j14680198218267_2_alg».proof.Proof.Math.Spec
import Idealize.ShloMosaic.Lib.IdealHost

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.LibGS Cert.GcnSpec

theorem idx1_eq {n : ℕ} (f : (⟨1, ![n]⟩ : Shape).Idx) (a : Fin n) (h : (f 0).val = a.val) : f = ix1 a := by
  funext d; match d with | ⟨0, _⟩ => exact Fin.ext h

theorem idx2_eq {n0 n1 : ℕ} (f : (⟨2, ![n0, n1]⟩ : Shape).Idx) (a : Fin n0) (b : Fin n1) (h0 : (f 0).val = a.val)
    (h1 : (f 1).val = b.val) : f = ix2 a b := by
  funext d; match d with | ⟨0, _⟩ => exact Fin.ext h0 | ⟨1, _⟩ => exact Fin.ext h1

theorem idx3_eq {n0 n1 n2 : ℕ} (f : (⟨3, ![n0, n1, n2]⟩ : Shape).Idx) (a : Fin n0) (b : Fin n1) (c : Fin n2)
    (h0 : (f 0).val = a.val) (h1 : (f 1).val = b.val) (h2 : (f 2).val = c.val) : f = ix3 a b c := by
  funext d; match d with | ⟨0, _⟩ => exact Fin.ext h0 | ⟨1, _⟩ => exact Fin.ext h1 | ⟨2, _⟩ => exact Fin.ext h2

abbrev refGraph (x1 : (⟨S2x1599454, .i32⟩ : BufTy).Contents (Elt Ideal)) (x2 : (⟨S50000, .i32⟩ : BufTy).Contents (Elt Ideal))
    (hb : ∀ n : Fin 50000, 0 ≤ (x2 (ix1 n)).toInt ∧ (x2 (ix1 n)).toInt < 64) : Graph (Fin 50000) (Fin 64) (Fin 1649454) :=
  graphOf (val_main_v5 (F := Ideal) x1) (val_main_v6 (F := Ideal) x1) x2 hb

def refParams (x3 : (⟨S3x128x128, .f32⟩ : BufTy).Contents (Elt Ideal)) (x4 x5 x6 x7 : (⟨S3x128, .f32⟩ : BufTy).Contents (Elt Ideal))
    (l : Fin 3) : Params (Fin 128) where
  W := fun j k => x3 (ix3 l j k)
  b := fun k => x4 (ix2 l k)
  γ := fun k => x5 (ix2 l k)
  β := fun k => x6 (ix2 l k)
  α := fun k => x7 (ix2 l k)

def refEps : EReal := Ideal.ofBits .f32 0x3727C5AC#32

def refX (x0 : (⟨S50000x128, .f32⟩ : BufTy).Contents (Elt Ideal)) : Fin 50000 → Fin 128 → EReal := fun n k => x0 (ix2 n k)

section
variable (x1 : (⟨S2x1599454, .i32⟩ : BufTy).Contents (Elt Ideal)) (x2 : (⟨S50000, .i32⟩ : BufTy).Contents (Elt Ideal))
  (hb : ∀ n : Fin 50000, 0 ≤ (x2 (ix1 n)).toInt ∧ (x2 (ix1 n)).toInt < 64)

theorem bt_filter (g : Fin 64) :
    (Finset.univ.filter fun n : Fin 50000 => landRow 64 (x2 (ix1 n)) = some g)
      = Finset.univ.filter fun n : Fin 50000 => (refGraph x1 x2 hb).bt n = g :=
  Finset.filter_congr fun n _ => by
    rw [graphOf_land_bt (val_main_v5 (F := Ideal) x1) (val_main_v6 (F := Ideal) x1) x2 hb n]; exact Option.some_inj

theorem edgeScatter (Z : FVec Ideal S50000x128 .f32) (I : IVec S1649454x1 32) (f : FVec Ideal S1649454x128 .f32)
    (hZ : ∀ i, Z i = 0) (hI : ∀ e : Fin 1649454, I (ix2 e 0) = val_main_v6 (F := Ideal) x1 (ix1 e)) (n : Fin 50000) (k : Fin 128) :
    Host.scatterAdd (F := Ideal) scatter_S50000x128_S1649454x1_S1649454x128_1_0_0_1 Z I f (ix2 n k)
      = ∑ e ∈ Finset.univ.filter (fun e => (refGraph x1 x2 hb).tgt e = some n), f (ix2 e k) := by
  rw [scatterAdd_row scatter_S50000x128_S1649454x1_S1649454x128_1_0_0_1 rfl rfl rfl rfl, hZ, zero_add]
  simp only [hI]
  rfl

theorem nodeScatter (Z : FVec Ideal S64x128 .f32) (I : IVec S50000x1 32) (f : FVec Ideal S50000x128 .f32)
    (hZ : ∀ i, Z i = 0) (hI : ∀ n : Fin 50000, I (ix2 n 0) = x2 (ix1 n)) (g : Fin 64) (k : Fin 128) :
    Host.scatterAdd (F := Ideal) scatter_S64x128_S50000x1_S50000x128_1_0_0_1 Z I f (ix2 g k)
      = ∑ n ∈ Finset.univ.filter (fun n => (refGraph x1 x2 hb).bt n = g), f (ix2 n k) := by
  rw [scatterAdd_row scatter_S64x128_S50000x1_S50000x128_1_0_0_1 rfl rfl rfl rfl, hZ, zero_add]
  simp only [hI]
  rw [bt_filter x1 x2 hb g]

theorem gatherSrc (X : FVec Ideal S50000x128 .f32) (I : IVec S1649454x1 32)
    (hI : ∀ e : Fin 1649454, I (ix2 e 0) = wrapRow 50000 (val_main_v5 (F := Ideal) x1 (ix1 e))) (e : Fin 1649454) (k : Fin 128) :
    Host.gather gather_S50000x128_S1649454x1_S1649454x128_1_0_n_n_0_1_1128 X I (ix2 e k) = X (ix2 ((refGraph x1 x2 hb).src e) k) := by
  rw [gather_row gather_S50000x128_S1649454x1_S1649454x128_1_0_n_n_0_1_1128 rfl rfl rfl rfl rfl (by decide), hI]
  rfl

theorem gatherBt (X : FVec Ideal S64x128 .f32) (I : IVec S50000x1 32)
    (hI : ∀ n : Fin 50000, I (ix2 n 0) = wrapRow 64 (x2 (ix1 n))) (n : Fin 50000) (k : Fin 128) :
    Host.gather gather_S64x128_S50000x1_S50000x128_1_0_n_n_0_1_1128 X I (ix2 n k) = X (ix2 ((refGraph x1 x2 hb).bt n) k) := by
  rw [gather_row gather_S64x128_S50000x1_S50000x128_1_0_n_n_0_1_1128 rfl rfl rfl rfl rfl (by decide), hI,
    graphOf_clamp_bt (val_main_v5 (F := Ideal) x1) (val_main_v6 (F := Ideal) x1) x2 hb n]

theorem v9_at (e : Fin 1649454) : val_main_v9 (F := Ideal) x1 (ix2 e 0) = val_main_v6 (F := Ideal) x1 (ix1 e) := by
  rw [val_main_v9_apply, idx1_eq (idx_main_v9 (ix2 e 0)) e rfl]

theorem deg_eq (n : Fin 50000) : val_main_v10 (F := Ideal) x1 (ix1 n) = deg (refGraph x1 x2 hb) n := by
  unfold val_main_v10
  rw [scatterAdd_vec scatter_S50000_S1649454x1_S1649454_n_0_0_1 rfl rfl rfl rfl, val_main_v8_apply, val_main_cst_0_apply,
    Ideal.ofBits_def, Ideal.ofBits_zero_f32, zero_add]
  simp only [v9_at, val_main_v7_apply, val_main_cst_apply, Ideal.ofBits_def, Ideal.ofBits_one_f32]
  rfl

theorem dinv_eq (n : Fin 50000) : val_main_v14 (F := Ideal) x1 (ix1 n) = dinv (refGraph x1 x2 hb) n := by
  rw [val_main_v14_apply, val_main_v13_apply, val_main_v12_apply, deg_eq x1 x2 hb, val_main_v11_apply, val_main_cst_1_apply,
    val_main_call0_v1_apply, val_main_call0_v0_apply, val_main_cst_2_apply]
  unfold dinv
  simp only [Ideal.hostUnary_rsqrt_def, Ideal.ofBits_def, Ideal.ofBits_zero_f32, Ideal.ofBits_one_f32, Ideal.cmpf_def]
  refine congrArg Ideal.rsqrt ?_
  generalize deg (refGraph x1 x2 hb) n = d
  by_cases h : 0 < d
  · simp [Scalar.select, Ideal.cmp, h]
  · simp [Scalar.select, Ideal.cmp, h]

theorem v20_at (e : Fin 1649454) :
    val_main_v20 (F := Ideal) x1 (ix2 e 0) = wrapRow 50000 (val_main_v5 (F := Ideal) x1 (ix1 e)) := by
  rw [val_main_v20_apply, idx1_eq (idx_main_v20 (ix2 e 0)) e rfl, val_main_v19_apply, val_main_v16_apply, val_main_v18_apply,
    val_main_v15_apply, val_main_c_apply, val_main_v17_apply, val_main_c_3_apply]
  exact wrapRow_eq_select 50000 _

theorem v27_at (e : Fin 1649454) :
    val_main_v27 (F := Ideal) x1 (ix2 e 0) = wrapRow 50000 (val_main_v6 (F := Ideal) x1 (ix1 e)) := by
  rw [val_main_v27_apply, idx1_eq (idx_main_v27 (ix2 e 0)) e rfl, val_main_v26_apply, val_main_v23_apply, val_main_v25_apply,
    val_main_v22_apply, val_main_c_4_apply, val_main_v24_apply, val_main_c_5_apply]
  exact wrapRow_eq_select 50000 _

theorem norm_eq (e : Fin 1649454) : val_main_v30 (F := Ideal) x1 (ix2 e 0)
    = dinv (refGraph x1 x2 hb) ((refGraph x1 x2 hb).src e) * dinv (refGraph x1 x2 hb) ((refGraph x1 x2 hb).tgtC e) := by
  rw [val_main_v30_apply, idx1_eq (idx_main_v30 (ix2 e 0)) e rfl, val_main_v29_apply]
  unfold val_main_v21 val_main_v28
  rw [gather_vec gather_S50000_S1649454x1_S1649454_n_0_n_n_0_1_1 rfl rfl rfl rfl (by decide),
    gather_vec gather_S50000_S1649454x1_S1649454_n_0_n_n_0_1_1 rfl rfl rfl rfl (by decide), v20_at, v27_at,
    dinv_eq x1 x2 hb, dinv_eq x1 x2 hb]
  rfl

theorem v33_at (n : Fin 50000) : val_main_v33 (F := Ideal) x2 (ix2 n 0) = x2 (ix1 n) := by
  rw [val_main_v33_apply, idx1_eq (idx_main_v33 (ix2 n 0)) n rfl]

theorem cnt_eq (g : Fin 64) : val_main_v37 (F := Ideal) x2 (ix2 g 0) = cnt (refGraph x1 x2 hb) g := by
  rw [val_main_v37_apply, idx1_eq (idx_main_v37 (ix2 g 0)) g rfl, val_main_v36_apply]
  unfold val_main_v34
  rw [scatterAdd_vec scatter_S64_S50000x1_S50000_n_0_0_1 rfl rfl rfl rfl, val_main_v32_apply, val_main_cst_7_apply,
    val_main_v35_apply, val_main_cst_8_apply, Ideal.ofBits_def, Ideal.ofBits_zero_f32, zero_add]
  simp only [v33_at, val_main_v31_apply, val_main_cst_6_apply, Ideal.ofBits_def, Ideal.ofBits_one_f32, Ideal.maximumf_def]
  rw [bt_filter x1 x2 hb g]
  rfl

end

end Cert.ReferenceIdeal.RefValue

end
-- ==== Proof.Ref.Layer0.lean ====
import proofs.«419822_j14680198218267_2_alg».proof.Proof.Ref.Pre

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.LibGS Cert.GcnSpec

section
variable {F : FTy → Type} [FloatOps F] (x1 : (⟨S2x1599454, .i32⟩ : BufTy).Contents (Elt F)) (x2 : (⟨S50000, .i32⟩ : BufTy).Contents (Elt F))

-- The source node's row per edge, times the edge's weight.
def msgVal (L : FVec F S50000x128 .f32) : FVec F S1649454x128 .f32 :=
  mulf (Host.gather gather_S50000x128_S1649454x1_S1649454x128_1_0_n_n_0_1_1128 L (val_main_v20 (F := F) x1)) (val_main_v48 (F := F) x1)

-- The messages summed into their target nodes, plus the bias.
def aggVal (L B : FVec F S50000x128 .f32) : FVec F S50000x128 .f32 :=
  addf (Host.scatterAdd scatter_S50000x128_S1649454x1_S1649454x128_1_0_0_1 (val_main_v50 (F := F)) (val_main_v9 (F := F) x1) (msgVal x1 L)) B

-- A sum of node rows into their graphs over the graph's size.
def meanVal (Z : FVec F S64x128 .f32) (J : IVec S50000x1 32) (C : FVec F S64x128 .f32) (Y : FVec F S50000x128 .f32) : FVec F S64x128 .f32 :=
  Host.divf (Host.scatterAdd scatter_S64x128_S50000x1_S50000x128_1_0_0_1 Z J Y) C

-- The rows less the scaled mean of their graph.
def cenVal (Y A : FVec F S50000x128 .f32) : FVec F S50000x128 .f32 :=
  subf Y (mulf A (Host.gather gather_S64x128_S50000x1_S50000x128_1_0_n_n_0_1_1128 (meanVal (val_main_v58 (F := F)) (val_main_v33 (F := F) x2) (val_main_v61 (F := F) x2) Y) (val_main_v70 (F := F) x2)))

-- The reciprocal root of the graph's variance plus the offset.
def rstdVal (Z : FVec F S50000x128 .f32) : FVec F S64x128 .f32 :=
  Host.rsqrt (addf (meanVal (val_main_v58 (F := F)) (val_main_v33 (F := F) x2) (val_main_v61 (F := F) x2) (mulf Z Z)) (val_main_v87 (F := F)))

-- Normalise, rectify, add the input back.
def outVal (X Z G Be : FVec F S50000x128 .f32) : FVec F S50000x128 .f32 :=
  addf (maximumf (addf (mulf (mulf G Z) (Host.gather gather_S64x128_S50000x1_S50000x128_1_0_n_n_0_1_1128 (rstdVal x2 Z) (val_main_v70 (F := F) x2))) Be) (val_main_v50 (F := F))) X

-- One layer from its input, the input's linear image and the four parameter rows spread over the nodes.
def layerVal (X L B A G Be : FVec F S50000x128 .f32) : FVec F S50000x128 .f32 := outVal x2 X (cenVal x2 (aggVal x1 L B) A) G Be

theorem msgVal_apply (L : FVec F S50000x128 .f32) (i : S1649454x128.Idx) :
    msgVal x1 L i = FloatOps.mulf (Host.gather gather_S50000x128_S1649454x1_S1649454x128_1_0_n_n_0_1_1128 L (val_main_v20 (F := F) x1) i) (val_main_v48 (F := F) x1 i) := rfl
theorem aggVal_apply (L B : FVec F S50000x128 .f32) (i : S50000x128.Idx) :
    aggVal x1 L B i = FloatOps.addf (Host.scatterAdd scatter_S50000x128_S1649454x1_S1649454x128_1_0_0_1 (val_main_v50 (F := F)) (val_main_v9 (F := F) x1) (msgVal x1 L) i) (B i) := rfl
theorem meanVal_apply (Z : FVec F S64x128 .f32) (J : IVec S50000x1 32) (C : FVec F S64x128 .f32) (Y : FVec F S50000x128 .f32) (i : S64x128.Idx) :
    meanVal Z J C Y i = FloatOps.hostDivf (Host.scatterAdd scatter_S64x128_S50000x1_S50000x128_1_0_0_1 Z J Y i) (C i) := rfl
theorem cenVal_apply (Y A : FVec F S50000x128 .f32) (i : S50000x128.Idx) :
    cenVal x2 Y A i = FloatOps.subf (Y i) (FloatOps.mulf (A i)
      (Host.gather gather_S64x128_S50000x1_S50000x128_1_0_n_n_0_1_1128 (meanVal (val_main_v58 (F := F)) (val_main_v33 (F := F) x2) (val_main_v61 (F := F) x2) Y) (val_main_v70 (F := F) x2) i)) := rfl
theorem rstdVal_apply (Z : FVec F S50000x128 .f32) (i : S64x128.Idx) :
    rstdVal x2 Z i = FloatOps.hostUnary .rsqrt (FloatOps.addf
      (meanVal (val_main_v58 (F := F)) (val_main_v33 (F := F) x2) (val_main_v61 (F := F) x2) (mulf Z Z) i) (val_main_v87 (F := F) i)) := rfl
theorem outVal_apply (X Z G Be : FVec F S50000x128 .f32) (i : S50000x128.Idx) :
    outVal x2 X Z G Be i = FloatOps.addf (FloatOps.maximumf (FloatOps.addf (FloatOps.mulf (FloatOps.mulf (G i) (Z i))
      (Host.gather gather_S64x128_S50000x1_S50000x128_1_0_n_n_0_1_1128 (rstdVal x2 Z) (val_main_v70 (F := F) x2) i)) (Be i)) (val_main_v50 (F := F) i)) (X i) := rfl

end

section
variable (x1 : (⟨S2x1599454, .i32⟩ : BufTy).Contents (Elt Ideal)) (x2 : (⟨S50000, .i32⟩ : BufTy).Contents (Elt Ideal))
  (hb : ∀ n : Fin 50000, 0 ≤ (x2 (ix1 n)).toInt ∧ (x2 (ix1 n)).toInt < 64)

local notation "𝒢" => refGraph x1 x2 hb

theorem lay_z50 (i : S50000x128.Idx) : (val_main_v50 (F := Ideal)) i = 0 := by rw [val_main_v50_apply, val_main_cst_11_apply]; exact Ideal.ofBits_zero_f32
theorem lay_z58 (i : S64x128.Idx) : (val_main_v58 (F := Ideal)) i = 0 := by rw [val_main_v58_apply, val_main_cst_12_apply]; exact Ideal.ofBits_zero_f32
theorem lay_eps (i : S64x128.Idx) : (val_main_v87 (F := Ideal)) i = refEps := by
  rw [val_main_v87_apply, val_main_cst_16_apply]; unfold refEps; exact Ideal.ofBits_def _
theorem lay_i70 (n : Fin 50000) : (val_main_v70 (F := Ideal) x2) (ix2 n 0) = wrapRow 64 (x2 (ix1 n)) := by
  rw [val_main_v70_apply, idx1_eq (idx_main_v70 (ix2 n 0)) n rfl, val_main_v69_apply, val_main_v66_apply, val_main_v68_apply, val_main_v65_apply, val_main_c_13_apply, val_main_v67_apply, val_main_c_14_apply]
  exact wrapRow_eq_select 64 _

theorem lay_c61 (g : Fin 64) (k : Fin 128) : (val_main_v61 (F := Ideal) x2) (ix2 g k) = cnt 𝒢 g := by
  rw [val_main_v61_apply, idx2_eq (idx_main_v61 (ix2 g k)) g 0 rfl rfl, cnt_eq x1 x2 hb]

theorem lay_w48 (e : Fin 1649454) (k : Fin 128) : (val_main_v48 (F := Ideal) x1) (ix2 e k) = dinv 𝒢 ((𝒢).src e) * dinv 𝒢 ((𝒢).tgtC e) := by
  rw [val_main_v48_apply, idx2_eq (idx_main_v48 (ix2 e k)) e 0 rfl rfl, norm_eq x1 x2 hb]

variable (P : Params (Fin 128)) (Xin Yr : Fin 50000 → Fin 128 → EReal) {X L B A G Be Y Z : FVec Ideal S50000x128 .f32}

theorem msgVal_eq (hL : ∀ n k, L (ix2 n k) = lin P.W Xin n k) (e : Fin 1649454) (k : Fin 128) :
    msgVal x1 L (ix2 e k) = lin P.W Xin ((𝒢).src e) k * (dinv 𝒢 ((𝒢).src e) * dinv 𝒢 ((𝒢).tgtC e)) := by
  rw [msgVal_apply, gatherSrc x1 x2 hb _ _ (v20_at x1) e k, hL, lay_w48 x1 x2 hb, Ideal.mulf_def]

theorem aggVal_eq (hL : ∀ n k, L (ix2 n k) = lin P.W Xin n k) (hB : ∀ n k, B (ix2 n k) = P.b k) (n : Fin 50000) (k : Fin 128) :
    aggVal x1 L B (ix2 n k) = aggR 𝒢 P Xin n k := by
  rw [aggVal_apply, edgeScatter x1 x2 hb _ _ _ lay_z50 (v9_at x1) n k, hB]
  simp only [msgVal_eq x1 x2 hb P Xin hL]
  unfold aggR
  rw [Ideal.addf_def]

theorem meanVal_eq {Z0 : FVec Ideal S64x128 .f32} {J : IVec S50000x1 32} {C : FVec Ideal S64x128 .f32} (hZ : ∀ i, Z0 i = 0)
    (hJ : ∀ n : Fin 50000, J (ix2 n 0) = x2 (ix1 n)) (hC : ∀ g k, C (ix2 g k) = cnt 𝒢 g) (hY : ∀ n k, Y (ix2 n k) = Yr n k)
    (g : Fin 64) (k : Fin 128) : meanVal Z0 J C Y (ix2 g k) = segMean 𝒢 Yr g k := by
  rw [meanVal_apply, nodeScatter x1 x2 hb _ _ _ hZ hJ g k, hC]
  simp only [hY]
  unfold segMean segSum
  rw [Ideal.hostDivf_def]

theorem cenVal_eq (hY : ∀ n k, Y (ix2 n k) = Yr n k) (hA : ∀ n k, A (ix2 n k) = P.α k) (n : Fin 50000) (k : Fin 128) :
    cenVal x2 Y A (ix2 n k) = centred 𝒢 P Yr n k := by
  rw [cenVal_apply, hY, hA, gatherBt x1 x2 hb _ _ (lay_i70 x2) n k, meanVal_eq x1 x2 hb Yr lay_z58 (v33_at x2) (lay_c61 x1 x2 hb) hY]
  unfold centred
  rw [Ideal.subf_def, Ideal.mulf_def]

theorem outVal_eq (hX : ∀ n k, X (ix2 n k) = Xin n k) (hZ : ∀ n k, Z (ix2 n k) = centred 𝒢 P Yr n k) (hG : ∀ n k, G (ix2 n k) = P.γ k)
    (hBe : ∀ n k, Be (ix2 n k) = P.β k) (n : Fin 50000) (k : Fin 128) :
    outVal x2 X Z G Be (ix2 n k) = finish 𝒢 refEps P Yr (varR 𝒢 P Yr) Xin n k := by
  have hZZ : ∀ n k, mulf Z Z (ix2 n k) = centred 𝒢 P Yr n k * centred 𝒢 P Yr n k := fun n k => by
    show FloatOps.mulf (Z (ix2 n k)) (Z (ix2 n k)) = _
    rw [hZ, Ideal.mulf_def]
  rw [outVal_apply, hG, hZ, hBe, lay_z50, hX, gatherBt x1 x2 hb _ _ (lay_i70 x2) n k, rstdVal_apply,
    meanVal_eq x1 x2 hb _ lay_z58 (v33_at x2) (lay_c61 x1 x2 hb) hZZ, lay_eps]
  unfold finish varR
  simp only [Ideal.addf_def, Ideal.mulf_def, Ideal.maximumf_def, Ideal.hostUnary_rsqrt_def]

-- The stages in order are the specification's layer.
theorem layerVal_eq (hX : ∀ n k, X (ix2 n k) = Xin n k) (hL : ∀ n k, L (ix2 n k) = lin P.W Xin n k) (hB : ∀ n k, B (ix2 n k) = P.b k)
    (hA : ∀ n k, A (ix2 n k) = P.α k) (hG : ∀ n k, G (ix2 n k) = P.γ k) (hBe : ∀ n k, Be (ix2 n k) = P.β k) (n : Fin 50000) (k : Fin 128) :
    layerVal x1 x2 X L B A G Be (ix2 n k) = layerR 𝒢 refEps P Xin n k :=
  outVal_eq x1 x2 hb P Xin _ hX (cenVal_eq x1 x2 hb P _ (aggVal_eq x1 x2 hb P Xin hL hB) hA) hG hBe n k

end

section
variable (x0 : (⟨S50000x128, .f32⟩ : BufTy).Contents (Elt Ideal)) (x1 : (⟨S2x1599454, .i32⟩ : BufTy).Contents (Elt Ideal))
  (x2 : (⟨S50000, .i32⟩ : BufTy).Contents (Elt Ideal)) (x3 : (⟨S3x128x128, .f32⟩ : BufTy).Contents (Elt Ideal))
  (x4 x5 x6 x7 : (⟨S3x128, .f32⟩ : BufTy).Contents (Elt Ideal))
  (hb : ∀ n : Fin 50000, 0 ≤ (x2 (ix1 n)).toInt ∧ (x2 (ix1 n)).toInt < 64)
  (Xin : Fin 50000 → Fin 128 → EReal)

local notation "𝒫" => refParams x3 x4 x5 x6 x7 (0 : Fin 3)

theorem layer0_w_at (j k : Fin 128) : (val_main_v39 (F := Ideal) x3) (ix2 j k) = (𝒫).W j k := by
  rw [val_main_v39_apply, val_main_v38_apply]
  exact congrArg x3 (idx3_eq _ (0 : Fin 3) j k rfl
    (by show (j.val * 128 + k.val) / 128 % 128 = j.val; have := j.isLt; have := k.isLt; omega)
    (by show (j.val * 128 + k.val) % 128 = k.val; have := j.isLt; have := k.isLt; omega))

-- Row 0 of a parameter array, spread over the nodes.
theorem layer0_row (x : (⟨S3x128, .f32⟩ : BufTy).Contents (Elt Ideal)) (n : Fin 50000) (k : Fin 128) : (val_main_v56 (F := Ideal) x) (ix2 n k) = x (ix2 (0 : Fin 3) k) := by
  rw [val_main_v56_apply, val_main_v55_apply, val_main_v54_apply, val_main_v53_apply]
  exact congrArg x (idx2_eq _ (0 : Fin 3) k rfl (by show k.val % 128 = k.val; have := k.isLt; omega))

-- The product with the layer's weight matrix is the linear image.
theorem layer0_lin (hin : ∀ n k, x0 (ix2 n k) = Xin n k) (n : Fin 50000) (k : Fin 128) :
    (val_main_v40 (F := Ideal) x0 x3) (ix2 n k) = lin (𝒫).W Xin n k := by
  rw [val_main_v40_apply]
  unfold lin
  refine Finset.sum_congr rfl fun j _ => ?_
  rw [idx2_eq (lidx_main_v40 (ix2 n k) j) n j rfl rfl, idx2_eq (ridx_main_v40 (ix2 n k) j) j k rfl rfl, hin, layer0_w_at x3 x4 x5 x6 x7]

-- The layer's operations are the layer function at this layer's rows.
theorem layer0_out (hin : ∀ n k, x0 (ix2 n k) = Xin n k) (n : Fin 50000) (k : Fin 128) :
    (val_main_v104 (F := Ideal) x0 x1 x2 x3 x4 x5 x6 x7) (ix2 n k) = layerR (refGraph x1 x2 hb) refEps 𝒫 Xin n k :=
  layerVal_eq x1 x2 hb 𝒫 Xin (L := val_main_v40 (F := Ideal) x0 x3) (B := val_main_v56 (F := Ideal) x4) (A := val_main_v56 (F := Ideal) x7) (G := val_main_v56 (F := Ideal) x5) (Be := val_main_v56 (F := Ideal) x6)
    hin (layer0_lin x0 x3 x4 x5 x6 x7 Xin hin) (layer0_row x4) (layer0_row x7) (layer0_row x5) (layer0_row x6) n k

end

end Cert.ReferenceIdeal.RefValue

end
-- ==== Proof.Ref.Layer1.lean ====
import proofs.«419822_j14680198218267_2_alg».proof.Proof.Ref.Layer0

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.LibGS Cert.GcnSpec

section
variable (x0 : (⟨S50000x128, .f32⟩ : BufTy).Contents (Elt Ideal)) (x1 : (⟨S2x1599454, .i32⟩ : BufTy).Contents (Elt Ideal))
  (x2 : (⟨S50000, .i32⟩ : BufTy).Contents (Elt Ideal)) (x3 : (⟨S3x128x128, .f32⟩ : BufTy).Contents (Elt Ideal))
  (x4 x5 x6 x7 : (⟨S3x128, .f32⟩ : BufTy).Contents (Elt Ideal))
  (hb : ∀ n : Fin 50000, 0 ≤ (x2 (ix1 n)).toInt ∧ (x2 (ix1 n)).toInt < 64)
  (Xin : Fin 50000 → Fin 128 → EReal)

local notation "𝒫" => refParams x3 x4 x5 x6 x7 (1 : Fin 3)

theorem layer1_w_at (j k : Fin 128) : (val_main_v106 (F := Ideal) x3) (ix2 j k) = (𝒫).W j k := by
  rw [val_main_v106_apply, val_main_v105_apply]
  exact congrArg x3 (idx3_eq _ (1 : Fin 3) j k rfl
    (by show (j.val * 128 + k.val) / 128 % 128 = j.val; have := j.isLt; have := k.isLt; omega)
    (by show (j.val * 128 + k.val) % 128 = k.val; have := j.isLt; have := k.isLt; omega))

-- Row 1 of a parameter array, spread over the nodes.
theorem layer1_row (x : (⟨S3x128, .f32⟩ : BufTy).Contents (Elt Ideal)) (n : Fin 50000) (k : Fin 128) : (val_main_v123 (F := Ideal) x) (ix2 n k) = x (ix2 (1 : Fin 3) k) := by
  rw [val_main_v123_apply, val_main_v122_apply, val_main_v121_apply, val_main_v120_apply]
  exact congrArg x (idx2_eq _ (1 : Fin 3) k rfl (by show k.val % 128 = k.val; have := k.isLt; omega))

-- The product with the layer's weight matrix is the linear image.
theorem layer1_lin (hin : ∀ n k, (val_main_v104 (F := Ideal) x0 x1 x2 x3 x4 x5 x6 x7) (ix2 n k) = Xin n k) (n : Fin 50000) (k : Fin 128) :
    (val_main_v107 (F := Ideal) x0 x1 x2 x3 x4 x5 x6 x7) (ix2 n k) = lin (𝒫).W Xin n k := by
  rw [val_main_v107_apply]
  unfold lin
  refine Finset.sum_congr rfl fun j _ => ?_
  rw [idx2_eq (lidx_main_v107 (ix2 n k) j) n j rfl rfl, idx2_eq (ridx_main_v107 (ix2 n k) j) j k rfl rfl, hin, layer1_w_at x3 x4 x5 x6 x7]

-- The layer's operations are the layer function at this layer's rows.
theorem layer1_out (hin : ∀ n k, (val_main_v104 (F := Ideal) x0 x1 x2 x3 x4 x5 x6 x7) (ix2 n k) = Xin n k) (n : Fin 50000) (k : Fin 128) :
    (val_main_v171 (F := Ideal) x0 x1 x2 x3 x4 x5 x6 x7) (ix2 n k) = layerR (refGraph x1 x2 hb) refEps 𝒫 Xin n k :=
  layerVal_eq x1 x2 hb 𝒫 Xin (L := val_main_v107 (F := Ideal) x0 x1 x2 x3 x4 x5 x6 x7) (B := val_main_v123 (F := Ideal) x4) (A := val_main_v123 (F := Ideal) x7) (G := val_main_v123 (F := Ideal) x5) (Be := val_main_v123 (F := Ideal) x6)
    hin (layer1_lin x0 x1 x2 x3 x4 x5 x6 x7 Xin hin) (layer1_row x4) (layer1_row x7) (layer1_row x5) (layer1_row x6) n k

end

end Cert.ReferenceIdeal.RefValue

end
-- ==== Proof.Ref.Layer2.lean ====
import proofs.«419822_j14680198218267_2_alg».proof.Proof.Ref.Layer0

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.LibGS Cert.GcnSpec

section
variable (x0 : (⟨S50000x128, .f32⟩ : BufTy).Contents (Elt Ideal)) (x1 : (⟨S2x1599454, .i32⟩ : BufTy).Contents (Elt Ideal))
  (x2 : (⟨S50000, .i32⟩ : BufTy).Contents (Elt Ideal)) (x3 : (⟨S3x128x128, .f32⟩ : BufTy).Contents (Elt Ideal))
  (x4 x5 x6 x7 : (⟨S3x128, .f32⟩ : BufTy).Contents (Elt Ideal))
  (hb : ∀ n : Fin 50000, 0 ≤ (x2 (ix1 n)).toInt ∧ (x2 (ix1 n)).toInt < 64)
  (Xin : Fin 50000 → Fin 128 → EReal)

local notation "𝒫" => refParams x3 x4 x5 x6 x7 (2 : Fin 3)

theorem layer2_w_at (j k : Fin 128) : (val_main_v173 (F := Ideal) x3) (ix2 j k) = (𝒫).W j k := by
  rw [val_main_v173_apply, val_main_v172_apply]
  exact congrArg x3 (idx3_eq _ (2 : Fin 3) j k rfl
    (by show (j.val * 128 + k.val) / 128 % 128 = j.val; have := j.isLt; have := k.isLt; omega)
    (by show (j.val * 128 + k.val) % 128 = k.val; have := j.isLt; have := k.isLt; omega))

-- Row 2 of a parameter array, spread over the nodes.
theorem layer2_row (x : (⟨S3x128, .f32⟩ : BufTy).Contents (Elt Ideal)) (n : Fin 50000) (k : Fin 128) : (val_main_v190 (F := Ideal) x) (ix2 n k) = x (ix2 (2 : Fin 3) k) := by
  rw [val_main_v190_apply, val_main_v189_apply, val_main_v188_apply, val_main_v187_apply]
  exact congrArg x (idx2_eq _ (2 : Fin 3) k rfl (by show k.val % 128 = k.val; have := k.isLt; omega))

-- The product with the layer's weight matrix is the linear image.
theorem layer2_lin (hin : ∀ n k, (val_main_v171 (F := Ideal) x0 x1 x2 x3 x4 x5 x6 x7) (ix2 n k) = Xin n k) (n : Fin 50000) (k : Fin 128) :
    (val_main_v174 (F := Ideal) x0 x1 x2 x3 x4 x5 x6 x7) (ix2 n k) = lin (𝒫).W Xin n k := by
  rw [val_main_v174_apply]
  unfold lin
  refine Finset.sum_congr rfl fun j _ => ?_
  rw [idx2_eq (lidx_main_v174 (ix2 n k) j) n j rfl rfl, idx2_eq (ridx_main_v174 (ix2 n k) j) j k rfl rfl, hin, layer2_w_at x3 x4 x5 x6 x7]

-- The layer's operations are the layer function at this layer's rows.
theorem layer2_out (hin : ∀ n k, (val_main_v171 (F := Ideal) x0 x1 x2 x3 x4 x5 x6 x7) (ix2 n k) = Xin n k) (n : Fin 50000) (k : Fin 128) :
    (val_main_v238 (F := Ideal) x0 x1 x2 x3 x4 x5 x6 x7) (ix2 n k) = layerR (refGraph x1 x2 hb) refEps 𝒫 Xin n k :=
  layerVal_eq x1 x2 hb 𝒫 Xin (L := val_main_v174 (F := Ideal) x0 x1 x2 x3 x4 x5 x6 x7) (B := val_main_v190 (F := Ideal) x4) (A := val_main_v190 (F := Ideal) x7) (G := val_main_v190 (F := Ideal) x5) (Be := val_main_v190 (F := Ideal) x6)
    hin (layer2_lin x0 x1 x2 x3 x4 x5 x6 x7 Xin hin) (layer2_row x4) (layer2_row x7) (layer2_row x5) (layer2_row x6) n k

end

end Cert.ReferenceIdeal.RefValue

end
-- ==== Proof.Ref.Result.lean ====
import proofs.«419822_j14680198218267_2_alg».proof.Proof.Ref.Layer0
import proofs.«419822_j14680198218267_2_alg».proof.Proof.Ref.Layer1
import proofs.«419822_j14680198218267_2_alg».proof.Proof.Ref.Layer2

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.LibGS Cert.GcnSpec

section
variable (x0 : (⟨S50000x128, .f32⟩ : BufTy).Contents (Elt Ideal)) (x1 : (⟨S2x1599454, .i32⟩ : BufTy).Contents (Elt Ideal))
  (x2 : (⟨S50000, .i32⟩ : BufTy).Contents (Elt Ideal)) (x3 : (⟨S3x128x128, .f32⟩ : BufTy).Contents (Elt Ideal))
  (x4 x5 x6 x7 : (⟨S3x128, .f32⟩ : BufTy).Contents (Elt Ideal))
  (hb : ∀ n : Fin 50000, 0 ≤ (x2 (ix1 n)).toInt ∧ (x2 (ix1 n)).toInt < 64)

-- The last scatter over the graph's size is the per-graph mean of the node features it is given.
theorem pool_eq (Xout : Fin 50000 → Fin 128 → EReal)
    (hout : ∀ n k, val_main_v238 (F := Ideal) x0 x1 x2 x3 x4 x5 x6 x7 (ix2 n k) = Xout n k) (g : Fin 64) (k : Fin 128) :
    val_main_v243 (F := Ideal) x0 x1 x2 x3 x4 x5 x6 x7 (ix2 g k) = segMean (refGraph x1 x2 hb) Xout g k :=
  meanVal_eq x1 x2 hb Xout lay_z58 (v33_at x2) (lay_c61 x1 x2 hb) hout g k

theorem v5_eq : val_main_v5 (F := Ideal) x1 = svOf x1 := by
  unfold val_main_v5 val_main_v1 val_main_v0 val_main_v4
  exact concat_row0_eq_svOf x1 _ _ _

theorem v6_eq : val_main_v6 (F := Ideal) x1 = tvOf x1 := by
  unfold val_main_v6 val_main_v3 val_main_v2 val_main_v4
  exact concat_row1_eq_tvOf x1 _ _ _

theorem refGraph_eq : refGraph x1 x2 hb = graphOf (svOf x1) (tvOf x1) x2 hb := by
  show graphOf (val_main_v5 (F := Ideal) x1) (val_main_v6 (F := Ideal) x1) x2 hb = _
  rw [v5_eq, v6_eq]

theorem val_result_eq_spec :
    val_main_v243 (F := Ideal) x0 x1 x2 x3 x4 x5 x6 x7
      = fun i => resultR (graphOf (svOf x1) (tvOf x1) x2 hb) refEps (refParams x3 x4 x5 x6 x7 (0 : Fin 3))
          (refParams x3 x4 x5 x6 x7 (1 : Fin 3)) (refParams x3 x4 x5 x6 x7 (2 : Fin 3)) (refX x0) (i 0) (i 1) := by
  rw [← refGraph_eq x1 x2 hb]
  funext i
  obtain ⟨g, k, rfl⟩ : ∃ (g : Fin 64) (k : Fin 128), i = ix2 g k := ⟨i 0, i 1, eq_ix2 i⟩
  exact pool_eq x0 x1 x2 x3 x4 x5 x6 x7 hb _
    (layer2_out x0 x1 x2 x3 x4 x5 x6 x7 hb _
      (layer1_out x0 x1 x2 x3 x4 x5 x6 x7 hb _
        (layer0_out x0 x1 x2 x3 x4 x5 x6 x7 hb (refX x0) (fun _ _ => rfl)))) g k

end

end Cert.ReferenceIdeal.RefValue

end
-- ==== Proof.Ref.Final.lean ====
import proofs.«419822_j14680198218267_2_alg».proof.Proof.Ref.RunP
import proofs.«419822_j14680198218267_2_alg».proof.Proof.Ref.Bridge
import proofs.«419822_j14680198218267_2_alg».proof.Proof.Ref.Result
import Idealize.ShloMosaic.Lib.Pipeline.Frame

noncomputable section

namespace Cert.ReferenceIdeal.RefValue

open Cert.ReferenceIdeal Cert.ReferenceIdeal.Gen Cert.ReferenceIdeal.ReadP Idealize.ShloMosaic Idealize.ShloMosaic.TcCoe Idealize.SL.Sem
open Idealize.ShloMosaic.StableHlo Idealize.ShloMosaic.ValueIdx Cert.LibGS Cert.GcnSpec

theorem ops_eq {F : FTy → Type} [FloatOps F] :
    (Cert.ReferenceIdeal.ValueP.ops : List (HloOp τ sig (Elt F))) = seg0 ++ (seg1 ++ (seg2 ++ (seg3 ++ seg4))) := rfl

theorem result_eq_spec (V : Valuation τ sig (Elt Ideal))
    (hb : ∀ n : Fin 50000, 0 ≤ ((V (Proc.devRef .tc main_arg2) : IVec ⟨1, ![50000]⟩ 32) (ix1 n)).toInt ∧ ((V (Proc.devRef .tc main_arg2) : IVec ⟨1, ![50000]⟩ 32) (ix1 n)).toInt < 64) (g : Fin 64) (k : Fin 128) :
    after (Cert.ReferenceIdeal.ValueP.ops (F := Ideal)) V (Proc.devRef .tc main_v243) (ix2 g k)
      = resultR (graphOf (svOf (V (Proc.devRef .tc main_arg1) : IVec ⟨2, ![2, 1599454]⟩ 32)) (tvOf (V (Proc.devRef .tc main_arg1) : IVec ⟨2, ![2, 1599454]⟩ 32)) (V (Proc.devRef .tc main_arg2) : IVec ⟨1, ![50000]⟩ 32) hb) refEps
          (refParams (V (Proc.devRef .tc main_arg3) : (⟨S3x128x128, .f32⟩ : BufTy).Contents (Elt Ideal)) (V (Proc.devRef .tc main_arg4) : (⟨S3x128, .f32⟩ : BufTy).Contents (Elt Ideal)) (V (Proc.devRef .tc main_arg5) : (⟨S3x128, .f32⟩ : BufTy).Contents (Elt Ideal)) (V (Proc.devRef .tc main_arg6) : (⟨S3x128, .f32⟩ : BufTy).Contents (Elt Ideal)) (V (Proc.devRef .tc main_arg7) : (⟨S3x128, .f32⟩ : BufTy).Contents (Elt Ideal)) (0 : Fin 3))
          (refParams (V (Proc.devRef .tc main_arg3) : (⟨S3x128x128, .f32⟩ : BufTy).Contents (Elt Ideal)) (V (Proc.devRef .tc main_arg4) : (⟨S3x128, .f32⟩ : BufTy).Contents (Elt Ideal)) (V (Proc.devRef .tc main_arg5) : (⟨S3x128, .f32⟩ : BufTy).Contents (Elt Ideal)) (V (Proc.devRef .tc main_arg6) : (⟨S3x128, .f32⟩ : BufTy).Contents (Elt Ideal)) (V (Proc.devRef .tc main_arg7) : (⟨S3x128, .f32⟩ : BufTy).Contents (Elt Ideal)) (1 : Fin 3))
          (refParams (V (Proc.devRef .tc main_arg3) : (⟨S3x128x128, .f32⟩ : BufTy).Contents (Elt Ideal)) (V (Proc.devRef .tc main_arg4) : (⟨S3x128, .f32⟩ : BufTy).Contents (Elt Ideal)) (V (Proc.devRef .tc main_arg5) : (⟨S3x128, .f32⟩ : BufTy).Contents (Elt Ideal)) (V (Proc.devRef .tc main_arg6) : (⟨S3x128, .f32⟩ : BufTy).Contents (Elt Ideal)) (V (Proc.devRef .tc main_arg7) : (⟨S3x128, .f32⟩ : BufTy).Contents (Elt Ideal)) (2 : Fin 3))
          (refX (V (Proc.devRef .tc main_arg0) : (⟨S50000x128, .f32⟩ : BufTy).Contents (Elt Ideal))) g k := by
  rw [ops_eq, StableHlo.after_append, StableHlo.after_append, StableHlo.after_append, StableHlo.after_append, after_segs V]
  exact congrFun (val_result_eq_spec _ _ _ _ _ _ _ _ hb) (ix2 g k)

end Cert.ReferenceIdeal.RefValue

end
-- ==== Proof.Math.Reals.lean ====
import proofs.«419822_j14680198218267_2_alg».proof.Proof.Math.Spec
import Mathlib.Data.EReal.Basic
import Mathlib.Data.EReal.Operations
import Mathlib.Algebra.BigOperators.Group.Finset.Basic
import Mathlib.Algebra.BigOperators.Ring.Finset
import Mathlib.Tactic.Ring
import Mathlib.Tactic.FieldSimp
import Mathlib.Tactic.Linarith

noncomputable section

namespace Cert.GcnSpec

open Idealize.ShloMosaic
open scoped BigOperators

theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem sum_one_coe {ι : Type} (s : Finset ι) : (∑ _i ∈ s, (1 : EReal)) = ((s.card : ℝ) : EReal) := by
  have h : (∑ _i ∈ s, (1 : EReal)) = ∑ _i ∈ s, ((1 : ℝ) : EReal) := rfl
  rw [h, coe_sum, Finset.sum_const, nsmul_eq_mul, mul_one]

variable {N D G E : Type} [Fintype N] [Fintype D] [Fintype G] [Fintype E] [DecidableEq N] [DecidableEq G]
variable (gr : Graph N G E)

def degR (n : N) : ℝ := ((Finset.univ.filter (fun e => gr.tgt e = some n)).card : ℝ)

theorem deg_coe (n : N) : deg gr n = (degR gr n : EReal) := sum_one_coe _

def dinvR (n : N) : ℝ := (Real.sqrt (if 0 < degR gr n then degR gr n else 1))⁻¹

theorem dinv_coe (n : N) : dinv gr n = (dinvR gr n : EReal) := by
  unfold dinv dinvR
  rw [deg_coe]
  by_cases h : 0 < degR gr n
  · rw [if_pos (EReal.coe_pos.mpr h), if_pos h, Ideal.rsqrt_coe, if_neg (not_lt.mpr h.le), if_neg h.ne']
  · rw [if_neg (fun h' => h (EReal.coe_pos.mp h')), if_neg h, ← EReal.coe_one, Ideal.rsqrt_coe,
      if_neg (by norm_num), if_neg (by norm_num)]

def cntR (g : G) : ℝ := max ((Finset.univ.filter (fun n => gr.bt n = g)).card : ℝ) 1

theorem cnt_coe (g : G) : cnt gr g = (cntR gr g : EReal) := by
  unfold cnt cntR
  rw [sum_one_coe, ← EReal.coe_one, coe_max]

theorem cntR_pos (g : G) : 0 < cntR gr g := lt_of_lt_of_le one_pos (le_max_right _ _)

theorem cntR_ne (g : G) : cntR gr g ≠ 0 := (cntR_pos gr g).ne'

theorem lin_coe (W : D → D → ℝ) (x : N → D → ℝ) (n : N) (k : D) :
    lin (fun j k => (W j k : EReal)) (fun n j => (x n j : EReal)) n k = ((∑ j, x n j * W j k : ℝ) : EReal) := by
  unfold lin
  simp only [← EReal.coe_mul]
  rw [coe_sum]

theorem segSum_coe (f : N → D → ℝ) (g : G) (k : D) :
    segSum gr (fun n k => (f n k : EReal)) g k
      = ((∑ n ∈ Finset.univ.filter (fun n => gr.bt n = g), f n k : ℝ) : EReal) := by
  unfold segSum
  rw [coe_sum]

theorem segMean_coe (f : N → D → ℝ) (g : G) (k : D) :
    segMean gr (fun n k => (f n k : EReal)) g k
      = (((∑ n ∈ Finset.univ.filter (fun n => gr.bt n = g), f n k) / cntR gr g : ℝ) : EReal) := by
  unfold segMean
  rw [segSum_coe, cnt_coe, Ideal.div_coe (cntR_ne gr g), ← EReal.coe_mul, mul_one_div]

theorem sum_centred_sq {ι : Type} (s : Finset ι) (a : ι → ℝ) (t : ℝ) :
    ∑ n ∈ s, (a n - t) * (a n - t) = ∑ n ∈ s, a n * a n - 2 * t * ∑ n ∈ s, a n + (s.card : ℝ) * (t * t) := by
  have h : ∀ n, (a n - t) * (a n - t) = a n * a n - 2 * t * a n + t * t := fun n => by ring
  simp only [h, Finset.sum_add_distrib, Finset.sum_sub_distrib, ← Finset.mul_sum, Finset.sum_const, nsmul_eq_mul]
  ring

theorem var_real {ι : Type} (s : Finset ι) (a : ι → ℝ) (α : ℝ) :
    (∑ n ∈ s, (a n - α * ((∑ n ∈ s, a n) / max (s.card : ℝ) 1)) * (a n - α * ((∑ n ∈ s, a n) / max (s.card : ℝ) 1)))
        / max (s.card : ℝ) 1
      = (∑ n ∈ s, a n * a n) / max (s.card : ℝ) 1
        - α * (2 - α) * ((∑ n ∈ s, a n) / max (s.card : ℝ) 1) * ((∑ n ∈ s, a n) / max (s.card : ℝ) 1) := by
  rw [sum_centred_sq]
  rcases Nat.eq_zero_or_pos s.card with h0 | hpos
  · have hs : s = ∅ := Finset.card_eq_zero.mp h0
    subst hs
    simp
  · have h1 : (1 : ℝ) ≤ (s.card : ℝ) := by exact_mod_cast hpos
    rw [max_eq_left h1]
    have hc : (s.card : ℝ) ≠ 0 := by linarith
    field_simp
    ring

end Cert.GcnSpec

end
-- ==== Proof.Math.Layer.lean ====
import proofs.«419822_j14680198218267_2_alg».proof.Proof.Math.Reals

noncomputable section

namespace Cert.GcnSpec

open Idealize.ShloMosaic
open scoped BigOperators

variable {N D G E : Type} [Fintype N] [Fintype D] [Fintype G] [Fintype E] [DecidableEq N] [DecidableEq G]
variable (gr : Graph N G E)

def Params.ofReal (W : D → D → ℝ) (b γ β α : D → ℝ) : Params D :=
  ⟨fun j k => (W j k : EReal), fun k => (b k : EReal), fun k => (γ k : EReal), fun k => (β k : EReal),
    fun k => (α k : EReal)⟩

theorem Params.Finite.exists_real {p : Params D} (hp : p.Finite) :
    ∃ (W : D → D → ℝ) (b γ β α : D → ℝ), p = Params.ofReal W b γ β α := by
  obtain ⟨W, b, γ, β, α⟩ := p
  obtain ⟨hW, hb, hγ, hβ, hα⟩ := hp
  choose Wr hWr using hW
  choose br hbr using hb
  choose γr hγr using hγ
  choose βr hβr using hβ
  choose αr hαr using hα
  refine ⟨Wr, br, γr, βr, αr, ?_⟩
  have h1 : W = fun j k => (Wr j k : EReal) := by funext j k; exact hWr j k
  have h2 : b = fun k => (br k : EReal) := by funext k; exact hbr k
  have h3 : γ = fun k => (γr k : EReal) := by funext k; exact hγr k
  have h4 : β = fun k => (βr k : EReal) := by funext k; exact hβr k
  have h5 : α = fun k => (αr k : EReal) := by funext k; exact hαr k
  rw [h1, h2, h3, h4, h5]
  rfl

def aggr (W : D → D → ℝ) (b : D → ℝ) (x : N → D → ℝ) (n : N) (k : D) : ℝ :=
  (∑ e ∈ Finset.univ.filter (fun e => gr.tgt e = some n),
    (∑ j, x (gr.src e) j * W j k) * (dinvR gr (gr.src e) * dinvR gr (gr.tgtC e))) + b k

theorem agg_real (W : D → D → ℝ) (b : D → ℝ) (x : N → D → ℝ) (n : N) (k : D) :
    (∑ e ∈ Finset.univ.filter (fun e => gr.tgt e = some n), (∑ j, x (gr.src e) j * W j k) * dinvR gr (gr.src e))
        * dinvR gr n + b k = aggr gr W b x n k := by
  unfold aggr
  rw [Finset.sum_mul]
  congr 1
  refine Finset.sum_congr rfl fun e he => ?_
  rw [gr.tgt_eq e n (Finset.mem_filter.mp he).2, mul_assoc]

theorem aggR_coe (W : D → D → ℝ) (b γ β α : D → ℝ) (x : N → D → ℝ) (n : N) (k : D) :
    aggR gr (Params.ofReal W b γ β α) (fun n j => (x n j : EReal)) n k = (aggr gr W b x n k : EReal) := by
  unfold aggR aggr
  simp only [Params.ofReal, lin_coe, dinv_coe, ← EReal.coe_mul]
  rw [coe_sum, ← EReal.coe_add]

theorem aggK_coe (W : D → D → ℝ) (b γ β α : D → ℝ) (x : N → D → ℝ) (n : N) (k : D) :
    aggK gr (Params.ofReal W b γ β α) (fun n j => (x n j : EReal)) n k = (aggr gr W b x n k : EReal) := by
  unfold aggK
  simp only [Params.ofReal, lin_coe, dinv_coe, ← EReal.coe_mul]
  rw [coe_sum, ← EReal.coe_mul, ← EReal.coe_add, agg_real]

def centr (α : D → ℝ) (a : N → D → ℝ) (n : N) (k : D) : ℝ :=
  a n k - α k * ((∑ m ∈ Finset.univ.filter (fun m => gr.bt m = gr.bt n), a m k) / cntR gr (gr.bt n))

theorem centred_coe (W : D → D → ℝ) (b γ β α : D → ℝ) (a : N → D → ℝ) (n : N) (k : D) :
    centred gr (Params.ofReal W b γ β α) (fun n k => (a n k : EReal)) n k = (centr gr α a n k : EReal) := by
  unfold centred centr
  rw [segMean_coe]
  simp only [Params.ofReal, ← EReal.coe_mul, ← EReal.coe_sub]

def varr (α : D → ℝ) (a : N → D → ℝ) (g : G) (k : D) : ℝ :=
  (∑ n ∈ Finset.univ.filter (fun n => gr.bt n = g), centr gr α a n k * centr gr α a n k) / cntR gr g

theorem varr_nonneg (α : D → ℝ) (a : N → D → ℝ) (g : G) (k : D) : 0 ≤ varr gr α a g k :=
  div_nonneg (Finset.sum_nonneg fun _ _ => mul_self_nonneg _) (cntR_pos gr g).le

theorem varr_eq (α : D → ℝ) (a : N → D → ℝ) (g : G) (k : D) :
    varr gr α a g k
      = (∑ n ∈ Finset.univ.filter (fun n => gr.bt n = g), a n k * a n k) / cntR gr g
        - α k * (2 - α k) * ((∑ n ∈ Finset.univ.filter (fun n => gr.bt n = g), a n k) / cntR gr g)
          * ((∑ n ∈ Finset.univ.filter (fun n => gr.bt n = g), a n k) / cntR gr g) := by
  unfold varr
  have h : ∀ n ∈ Finset.univ.filter (fun n => gr.bt n = g), centr gr α a n k * centr gr α a n k
      = (a n k - α k * ((∑ m ∈ Finset.univ.filter (fun m => gr.bt m = g), a m k) / cntR gr g))
        * (a n k - α k * ((∑ m ∈ Finset.univ.filter (fun m => gr.bt m = g), a m k) / cntR gr g)) := by
    intro n hn
    unfold centr
    rw [(Finset.mem_filter.mp hn).2]
  rw [Finset.sum_congr rfl h]
  exact var_real (Finset.univ.filter (fun n => gr.bt n = g)) (fun n => a n k) (α k)

theorem varR_coe (W : D → D → ℝ) (b γ β α : D → ℝ) (a : N → D → ℝ) (g : G) (k : D) :
    varR gr (Params.ofReal W b γ β α) (fun n k => (a n k : EReal)) g k = (varr gr α a g k : EReal) := by
  unfold varR varr
  have h : (fun n k => centred gr (Params.ofReal W b γ β α) (fun n k => (a n k : EReal)) n k
        * centred gr (Params.ofReal W b γ β α) (fun n k => (a n k : EReal)) n k)
      = fun n k => ((centr gr α a n k * centr gr α a n k : ℝ) : EReal) := by
    funext n k
    rw [centred_coe, EReal.coe_mul]
  rw [h, segMean_coe]

theorem varK_coe (W : D → D → ℝ) (b γ β α : D → ℝ) (a : N → D → ℝ) (g : G) (k : D) :
    varK gr ((2 : ℝ) : EReal) (Params.ofReal W b γ β α) (fun n k => (a n k : EReal)) g k
      = (varr gr α a g k : EReal) := by
  unfold varK
  have h : (fun n k => (fun n k => (a n k : EReal)) n k * (fun n k => (a n k : EReal)) n k)
      = fun n k => ((a n k * a n k : ℝ) : EReal) := by
    funext n k
    rw [EReal.coe_mul]
  rw [h, segMean_coe, segMean_coe, varr_eq]
  simp only [Params.ofReal, ← EReal.coe_mul, ← EReal.coe_sub]

def finr (ε : ℝ) (γ β α : D → ℝ) (a : N → D → ℝ) (v : G → D → ℝ) (x : N → D → ℝ) (n : N) (k : D) : ℝ :=
  max (γ k * centr gr α a n k * (Real.sqrt (v (gr.bt n) k + ε))⁻¹ + β k) 0 + x n k

theorem finish_coe (ε : ℝ) (W : D → D → ℝ) (b γ β α : D → ℝ) (a : N → D → ℝ) (v : G → D → ℝ) (x : N → D → ℝ)
    (n : N) (k : D) (hv : 0 < v (gr.bt n) k + ε) :
    finish gr (ε : EReal) (Params.ofReal W b γ β α) (fun n k => (a n k : EReal)) (fun g k => (v g k : EReal))
        (fun n k => (x n k : EReal)) n k = (finr gr ε γ β α a v x n k : EReal) := by
  unfold finish finr
  rw [centred_coe]
  simp only [Params.ofReal]
  rw [← EReal.coe_add (v (gr.bt n) k) ε, Ideal.rsqrt_coe, if_neg (not_lt.mpr hv.le), if_neg hv.ne',
    ← EReal.coe_mul, ← EReal.coe_mul, ← EReal.coe_add, ← EReal.coe_zero, coe_max, ← EReal.coe_add]

def layr (ε : ℝ) (W : D → D → ℝ) (b γ β α : D → ℝ) (x : N → D → ℝ) : N → D → ℝ :=
  finr gr ε γ β α (aggr gr W b x) (varr gr α (aggr gr W b x)) x

theorem layerR_coe (ε : ℝ) (hε : 0 < ε) (W : D → D → ℝ) (b γ β α : D → ℝ) (x : N → D → ℝ) :
    layerR gr (ε : EReal) (Params.ofReal W b γ β α) (fun n k => (x n k : EReal))
      = fun n k => (layr gr ε W b γ β α x n k : EReal) := by
  funext n k
  unfold layerR layr
  have ha : aggR gr (Params.ofReal W b γ β α) (fun n k => (x n k : EReal))
      = fun n k => (aggr gr W b x n k : EReal) := by
    funext n k
    exact aggR_coe gr W b γ β α x n k
  rw [ha]
  have hv : varR gr (Params.ofReal W b γ β α) (fun n k => (aggr gr W b x n k : EReal))
      = fun g k => (varr gr α (aggr gr W b x) g k : EReal) := by
    funext g k
    exact varR_coe gr W b γ β α (aggr gr W b x) g k
  rw [hv]
  exact finish_coe gr ε W b γ β α (aggr gr W b x) (varr gr α (aggr gr W b x)) x n k
    (by have := varr_nonneg gr α (aggr gr W b x) (gr.bt n) k; linarith)

theorem layerK_coe (ε : ℝ) (hε : 0 < ε) (W : D → D → ℝ) (b γ β α : D → ℝ) (x : N → D → ℝ) :
    layerK gr (ε : EReal) ((2 : ℝ) : EReal) (Params.ofReal W b γ β α) (fun n k => (x n k : EReal))
      = fun n k => (layr gr ε W b γ β α x n k : EReal) := by
  funext n k
  unfold layerK layr
  have ha : aggK gr (Params.ofReal W b γ β α) (fun n k => (x n k : EReal))
      = fun n k => (aggr gr W b x n k : EReal) := by
    funext n k
    exact aggK_coe gr W b γ β α x n k
  rw [ha]
  have hv : varK gr ((2 : ℝ) : EReal) (Params.ofReal W b γ β α) (fun n k => (aggr gr W b x n k : EReal))
      = fun g k => (varr gr α (aggr gr W b x) g k : EReal) := by
    funext g k
    exact varK_coe gr W b γ β α (aggr gr W b x) g k
  rw [hv]
  exact finish_coe gr ε W b γ β α (aggr gr W b x) (varr gr α (aggr gr W b x)) x n k
    (by have := varr_nonneg gr α (aggr gr W b x) (gr.bt n) k; linarith)

end Cert.GcnSpec

end
-- ==== Proof.Math.Equiv.lean ====
import proofs.«419822_j14680198218267_2_alg».proof.Proof.Math.Layer

noncomputable section

namespace Cert.GcnSpec

open Idealize.ShloMosaic
open scoped BigOperators

variable {N D G E : Type} [Fintype N] [Fintype D] [Fintype G] [Fintype E] [DecidableEq N] [DecidableEq G]
variable (gr : Graph N G E)

theorem layerR_finite (eps : EReal) (hε : ∃ ε : ℝ, 0 < ε ∧ eps = (ε : EReal)) (p : Params D) (hp : p.Finite)
    (x : N → D → EReal) (hx : Fin2 x) : Fin2 (layerR gr eps p x) := by
  obtain ⟨ε, hε, rfl⟩ := hε
  obtain ⟨W, b, γ, β, α, rfl⟩ := hp.exists_real
  choose xr hxr using hx
  obtain rfl : x = fun n k => (xr n k : EReal) := by
    funext n k
    exact hxr n k
  rw [layerR_coe gr ε hε]
  intro n k
  exact ⟨_, rfl⟩

theorem layerK_eq_layerR (eps two : EReal) (hε : ∃ ε : ℝ, 0 < ε ∧ eps = (ε : EReal)) (h2 : two = ((2 : ℝ) : EReal))
    (p : Params D) (hp : p.Finite) (x : N → D → EReal) (hx : Fin2 x) :
    layerK gr eps two p x = layerR gr eps p x := by
  obtain ⟨ε, hε, rfl⟩ := hε
  subst h2
  obtain ⟨W, b, γ, β, α, rfl⟩ := hp.exists_real
  choose xr hxr using hx
  obtain rfl : x = fun n k => (xr n k : EReal) := by
    funext n k
    exact hxr n k
  rw [layerK_coe gr ε hε, layerR_coe gr ε hε]

theorem resultK_eq_resultR (eps two : EReal) (hε : ∃ ε : ℝ, 0 < ε ∧ eps = (ε : EReal)) (h2 : two = ((2 : ℝ) : EReal))
    (p0 p1 p2 : Params D) (h0 : p0.Finite) (h1 : p1.Finite) (hp2 : p2.Finite) (x : N → D → EReal) (hx : Fin2 x) :
    resultK gr eps two p0 p1 p2 x = resultR gr eps p0 p1 p2 x := by
  unfold resultK resultR
  rw [layerK_eq_layerR gr eps two hε h2 p0 h0 x hx,
    layerK_eq_layerR gr eps two hε h2 p1 h1 _ (layerR_finite gr eps hε p0 h0 x hx),
    layerK_eq_layerR gr eps two hε h2 p2 hp2 _ (layerR_finite gr eps hε p1 h1 _ (layerR_finite gr eps hε p0 h0 x hx))]

end Cert.GcnSpec

end
-- ==== Proof.Math.Consts.lean ====
import Idealize.ShloMosaic.PureOps.Ideal
import Idealize.ShloMosaic.PureOps.Ideal.Laws

noncomputable section

namespace Cert.Consts

open Idealize.ShloMosaic

theorem eps_pos : ∃ ε : ℝ, 0 < ε ∧ Ideal.ofBits .f32 0x3727C5AC#32 = ((ε : ℝ) : EReal) := by
  refine ⟨(10995116 : ℝ) * (2 : ℝ) ^ (-40 : ℤ), by positivity, ?_⟩
  simp [Ideal.ofBits, Ideal.ieee, -EReal.coe_mul]

theorem two_eq : Ideal.ofBits .f32 0x40000000#32 = ((2 : ℝ) : EReal) := by
  simp [Ideal.ofBits, Ideal.ieee, -EReal.coe_mul]; norm_num

end Cert.Consts

end
-- ==== Proof.Hand.PreDecode.lean ====
import proofs.«419822_j14680198218267_2_alg».proof.Proof.Gen.Pre_finite_inputs
import proofs.«419822_j14680198218267_2_alg».proof.Proof.Math.Spec
import Idealize.ShloMosaic.PureOps.Ideal
import Idealize.ShloMosaic.Lib.ReduceAll
import Idealize.ShloMosaic.Lib.StableHlo.Predicate
import Idealize.ShloMosaic.Lib.ValueIdx

namespace Cert.PreDecode

open Idealize.ShloMosaic Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

theorem fin_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf (F := Ideal) .olt (Host.absf a) (broadcastInDim s ![] hb (constant S_ .f32 0x7F800000#32)))
          (constantI S_ 1 1#1) hr hu ValueIdx.ix0 = 1#1) :
    ∀ i, ∃ r : ℝ, a i = (r : EReal) := by
  intro i
  have hi := Host.reduce_andi_all _ _ hr hu _ e i
  apply real_of_abs_lt_top
  rw [← ofBits_inf]
  exact hi

theorem range_of_word (b : BitVec 32) (h1 : IntOp.cmpi .sge b 0#32 = 1#1) (h2 : IntOp.cmpi .slt b 64#32 = 1#1) :
    0 ≤ b.toInt ∧ b.toInt < 64 := by
  simp only [IntOp.cmpi, StableHlo.Predicate.ofBool_eq_one_iff, BitVec.sle, BitVec.slt, decide_eq_true_eq] at h1 h2
  have e0 : (0#32 : BitVec 32).toInt = 0 := by decide
  have e64 : (64#32 : BitVec 32).toInt = 64 := by decide
  rw [e0] at h1; rw [e64] at h2
  exact ⟨h1, h2⟩

section Decode

variable (a0 : FVec Ideal S50000x128 .f32) (a1 : IVec S2x1599454 32) (a2 : IVec S50000 32)
  (a3 : FVec Ideal S3x128x128 .f32) (a4 a5 a6 a7 : FVec Ideal S3x128 .f32)

theorem conjuncts (h : Cert.Pre_finite_inputs.fn (F := Ideal) a0 a1 a2 a3 a4 a5 a6 a7 = (fun _ => 1#1)) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, 0 ≤ (a2 i).toInt ∧ (a2 i).toInt < 64) := by
  have h0 := congrFun h ValueIdx.ix0
  dsimp only [Cert.Pre_finite_inputs.fn, Cert.Pre_finite_inputs.fn_part1, Cert.Pre_finite_inputs.fn_part2, andi] at h0
  obtain ⟨h0, h34⟩ := IntOp.andi_eq_one.1 h0
  obtain ⟨h0, h27⟩ := IntOp.andi_eq_one.1 h0
  obtain ⟨h0, h22⟩ := IntOp.andi_eq_one.1 h0
  obtain ⟨h0, h17⟩ := IntOp.andi_eq_one.1 h0
  obtain ⟨h0, h12⟩ := IntOp.andi_eq_one.1 h0
  obtain ⟨h3, h7⟩ := IntOp.andi_eq_one.1 h0
  refine ⟨fin_of_all a0 _ _ _ h3, fin_of_all a3 _ _ _ h7, fin_of_all a4 _ _ _ h12, fin_of_all a5 _ _ _ h17,
    fin_of_all a6 _ _ _ h22, fin_of_all a7 _ _ _ h27, fun i => ?_⟩
  have hi := Host.reduce_andi_all _ _ _ _ _ h34 i
  obtain ⟨hge, hlt⟩ := IntOp.andi_eq_one.1 hi
  exact range_of_word (a2 i) hge hlt

variable {a0 a1 a2 a3 a4 a5 a6 a7}
variable (h : Cert.Pre_finite_inputs.fn (F := Ideal) a0 a1 a2 a3 a4 a5 a6 a7 = (fun _ => 1#1))
include h

theorem fin2_arg0 : Cert.GcnSpec.Fin2 (fun (n : Fin 50000) (k : Fin 128) => a0 (ValueIdx.ix2 n k)) :=
  fun n k => (conjuncts a0 a1 a2 a3 a4 a5 a6 a7 h).1 (ValueIdx.ix2 n k)
theorem fin2_arg3 (l : Fin 3) : Cert.GcnSpec.Fin2 (fun (j k : Fin 128) => a3 (ValueIdx.ix3 l j k)) :=
  fun j k => (conjuncts a0 a1 a2 a3 a4 a5 a6 a7 h).2.1 (ValueIdx.ix3 l j k)
theorem fin1_arg4 (l : Fin 3) : Cert.GcnSpec.Fin1 (fun (k : Fin 128) => a4 (ValueIdx.ix2 l k)) :=
  fun k => (conjuncts a0 a1 a2 a3 a4 a5 a6 a7 h).2.2.1 (ValueIdx.ix2 l k)
theorem fin1_arg5 (l : Fin 3) : Cert.GcnSpec.Fin1 (fun (k : Fin 128) => a5 (ValueIdx.ix2 l k)) :=
  fun k => (conjuncts a0 a1 a2 a3 a4 a5 a6 a7 h).2.2.2.1 (ValueIdx.ix2 l k)
theorem fin1_arg6 (l : Fin 3) : Cert.GcnSpec.Fin1 (fun (k : Fin 128) => a6 (ValueIdx.ix2 l k)) :=
  fun k => (conjuncts a0 a1 a2 a3 a4 a5 a6 a7 h).2.2.2.2.1 (ValueIdx.ix2 l k)
theorem fin1_arg7 (l : Fin 3) : Cert.GcnSpec.Fin1 (fun (k : Fin 128) => a7 (ValueIdx.ix2 l k)) :=
  fun k => (conjuncts a0 a1 a2 a3 a4 a5 a6 a7 h).2.2.2.2.2.1 (ValueIdx.ix2 l k)

theorem batch_range1 (n : Fin 50000) : 0 ≤ (a2 (ValueIdx.ix1 n)).toInt ∧ (a2 (ValueIdx.ix1 n)).toInt < 64 :=
  (conjuncts a0 a1 a2 a3 a4 a5 a6 a7 h).2.2.2.2.2.2 (ValueIdx.ix1 n)

end Decode

end Cert.PreDecode
-- ==== Proof.Assembly.lean ====
import proofs.«419822_j14680198218267_2_alg».proof.Defs
import proofs.«419822_j14680198218267_2_alg».proof.Proof.Hand.Frame
import proofs.«419822_j14680198218267_2_alg».proof.Proof.Hand.KResult
import proofs.«419822_j14680198218267_2_alg».proof.Proof.Ref.Final
import proofs.«419822_j14680198218267_2_alg».proof.Proof.Math.Equiv
import proofs.«419822_j14680198218267_2_alg».proof.Proof.Math.Consts
import proofs.«419822_j14680198218267_2_alg».proof.Proof.Hand.PreDecode

noncomputable section

namespace Cert.Proof.Assembly

open Idealize.ShloMosaic Idealize.ShloMosaic.TcCoe Idealize.SL.Sem Idealize.ShloMosaic.ValueIdx Idealize.ShloMosaic.StableHlo
open Cert.GcnSpec Cert.ReferenceIdeal.RefValue

theorem core
    (a0 b0 : (⟨Cert.ReferenceIdeal.S50000x128, .f32⟩ : BufTy).Contents (Elt Ideal))
    (a1 b1 : IVec ⟨2, ![2, 1599454]⟩ 32) (a2 b2 : IVec ⟨1, ![50000]⟩ 32)
    (a3 b3 : (⟨Cert.ReferenceIdeal.S3x128x128, .f32⟩ : BufTy).Contents (Elt Ideal))
    (a4 a5 a6 a7 b4 b5 b6 b7 : (⟨Cert.ReferenceIdeal.S3x128, .f32⟩ : BufTy).Contents (Elt Ideal))
    (e0 : b0 = a0) (e1 : b1 = a1) (e2 : b2 = a2) (e3 : b3 = a3) (e4 : b4 = a4) (e5 : b5 = a5) (e6 : b6 = a6) (e7 : b7 = a7)
    (hbA : ∀ n : Fin 50000, 0 ≤ (a2 (ix1 n)).toInt ∧ (a2 (ix1 n)).toInt < 64)
    (hbB : ∀ n : Fin 50000, 0 ≤ (b2 (ix1 n)).toInt ∧ (b2 (ix1 n)).toInt < 64)
    (h0 : Fin2 (fun (n : Fin 50000) (k : Fin 128) => a0 (ix2 n k)))
    (h3 : ∀ l : Fin 3, Fin2 (fun j k : Fin 128 => a3 (ix3 l j k)))
    (h4 : ∀ l : Fin 3, Fin1 (fun k : Fin 128 => a4 (ix2 l k))) (h5 : ∀ l : Fin 3, Fin1 (fun k : Fin 128 => a5 (ix2 l k)))
    (h6 : ∀ l : Fin 3, Fin1 (fun k : Fin 128 => a6 (ix2 l k))) (h7 : ∀ l : Fin 3, Fin1 (fun k : Fin 128 => a7 (ix2 l k)))
    (g : Fin 64) (k : Fin 128) :
    resultR (graphOf (svOf b1) (tvOf b1) b2 hbB) refEps (refParams b3 b4 b5 b6 b7 0) (refParams b3 b4 b5 b6 b7 1)
        (refParams b3 b4 b5 b6 b7 2) (refX b0) g k
      = resultK (graphOf (svOf a1) (tvOf a1) a2 hbA) refEps (Ideal.ofBits .f32 0x40000000#32) (refParams a3 a4 a5 a6 a7 0)
          (refParams a3 a4 a5 a6 a7 1) (refParams a3 a4 a5 a6 a7 2) (refX a0) g k := by
  subst e0 e1 e2 e3 e4 e5 e6 e7
  have hp : ∀ l : Fin 3, (refParams b3 b4 b5 b6 b7 l).Finite := fun l => ⟨h3 l, h4 l, h5 l, h6 l, h7 l⟩
  rw [resultK_eq_resultR (graphOf (svOf b1) (tvOf b1) b2 hbA) refEps (Ideal.ofBits .f32 0x40000000#32) Cert.Consts.eps_pos
    Cert.Consts.two_eq _ _ _ (hp 0) (hp 1) (hp 2) (refX b0) h0]

theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : ∀ c : Dev Cert.KernelIdeal.nD, Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.KernelIdeal.nD) :
    after (Cert.ReferenceIdeal.ValueP.ops (F := Ideal)) (launchContents m' c) (Proc.devRef .tc Cert.ReferenceIdeal.main_v243)
      = Cert.KernelIdeal.Hand.W34 m c (Proc.devRef .tc Cert.KernelIdeal.main_v168) := by
  obtain ⟨e0, e1, e2, e3, e4, e5, e6, e7⟩ := hagree c
  have hpc := hp c
  have hbA := Cert.PreDecode.batch_range1 hpc
  have hbB : ∀ n : Fin 50000, 0 ≤ ((launchContents m' c (Proc.devRef .tc Cert.ReferenceIdeal.main_arg2) : IVec ⟨1, ![50000]⟩ 32) (ix1 n)).toInt
      ∧ ((launchContents m' c (Proc.devRef .tc Cert.ReferenceIdeal.main_arg2) : IVec ⟨1, ![50000]⟩ 32) (ix1 n)).toInt < 64 := by
    intro n
    have h := hbA n
    rw [← e2] at h
    exact h
  funext i
  obtain ⟨g, k, rfl⟩ : ∃ (g : Fin 64) (k : Fin 128), i = ix2 g k := ⟨i 0, i 1, eq_ix2 i⟩
  have hk := Cert.KernelIdeal.Hand.kernel_result m c hbA g k
  have hg : Cert.KernelIdeal.Hand.grK m c hbA
      = graphOf (svOf (Cert.KernelIdeal.Hand.eiK m c)) (tvOf (Cert.KernelIdeal.Hand.eiK m c)) (Cert.KernelIdeal.Hand.bvK m c) hbA := by
    unfold Cert.KernelIdeal.Hand.grK
    rw [Cert.KernelIdeal.Hand.sv_eq, Cert.KernelIdeal.Hand.tv_eq]
  rw [hg] at hk
  refine (result_eq_spec (launchContents m' c) hbB g k).trans ?_
  refine (core _ _ _ _ _ _ _ _ _ _ _ _ _ _ _ _ e0 e1 e2 e3 e4 e5 e6 e7 hbA hbB
    (Cert.PreDecode.fin2_arg0 hpc) (Cert.PreDecode.fin2_arg3 hpc) (Cert.PreDecode.fin1_arg4 hpc) (Cert.PreDecode.fin1_arg5 hpc)
    (Cert.PreDecode.fin1_arg6 hpc) (Cert.PreDecode.fin1_arg7 hpc) g k).trans ?_
  exact hk.symm

end Cert.Proof.Assembly

end
-- ==== Proof.lean ====
/-
  Three graph-convolution layers with per-graph normalisation, then a mean pool, as ten tiled kernels between gathers
  and scatter-adds over the edges, against the plain reference: over the extended reals, and for batch indices in
  [0, 64), both programs compute one function of the inputs.
-/
import proofs.«419822_j14680198218267_2_alg».proof.Defs
import proofs.«419822_j14680198218267_2_alg».proof.Proof.Gen.Kernel
import proofs.«419822_j14680198218267_2_alg».proof.Proof.Gen.KernelIdeal
import proofs.«419822_j14680198218267_2_alg».proof.Proof.Gen.ReferenceIdeal
import proofs.«419822_j14680198218267_2_alg».proof.Proof.Gen.Pre_finite_inputs
import proofs.«419822_j14680198218267_2_alg».proof.Proof.Hand.Frame
import proofs.«419822_j14680198218267_2_alg».proof.Proof.HandB.Frame
import proofs.«419822_j14680198218267_2_alg».proof.Proof.Ref.RunP
import proofs.«419822_j14680198218267_2_alg».proof.Proof.Assembly
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => (θ_run (Cert.Kernel.defs (F := Bits)) _ _).mono (fun _ h c => (h c).2) (Cert.Kernel.Hand.run_result (F := Bits) m ρ)

theorem frame_ki : @Cert.frame_KernelIdeal Cert.KernelIdeal.Gen.facts Cert.Pre_finite_inputs.Gen.facts :=
  fun m ρ _ => (θ_run (Cert.KernelIdeal.defs (F := Ideal)) _ _).mono (fun _ h c => (h c).2) (Cert.KernelIdeal.Hand.run_result (F := Ideal) m ρ)

theorem frame_r : @Cert.frame_ReferenceIdeal Cert.ReferenceIdeal.Gen.facts Cert.Pre_finite_inputs.Gen.facts :=
  fun m ρ _ => Cert.ReferenceIdeal.ValueP.frame (F := Ideal) m ρ

theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Hand.W34 m c (Proc.devRef .tc Cert.KernelIdeal.main_v168),
    Cert.KernelIdeal.Hand.run_result (F := Ideal) m ρ, ?_⟩
  exact (θ_run Cert.ReferenceIdeal.defs _ _).mono
    (fun _ h c => ⟨(h c).1.trans (Cert.Proof.Assembly.value_eq m m' hpre hagree c), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
